-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v226) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S2x262144 : Shape := ⟨2, ![2, 262144]⟩
abbrev S262144 : Shape := ⟨1, ![262144]⟩
abbrev S256x256 : Shape := ⟨2, ![256, 256]⟩
abbrev S256 : Shape := ⟨1, ![256]⟩
abbrev S256x128 : Shape := ⟨2, ![256, 128]⟩
abbrev S128 : Shape := ⟨1, ![128]⟩
abbrev S768x256 : Shape := ⟨2, ![768, 256]⟩
abbrev S768 : Shape := ⟨1, ![768]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S262144 : S_.BroadcastsInDim S262144 (![] : Fin 0 → Fin S262144.rank)
  reducesTo_S262144_S_d0 : S262144.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S2x262144 : S_.BroadcastsInDim S2x262144 (![] : Fin 0 → Fin S2x262144.rank)
  reducesTo_S2x262144_S_d0_1 : S2x262144.ReducesTo [0, 1] S_

variable [Facts]

def fn_part3 {F : FTy → Type} [FloatOps F] (main_arg1 : IVec S2x262144 32) (main_arg12 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_c_22 : IVec S_ 32 := constantI S_ 32 0#32
  let main_v59 : IVec S2x262144 32 := broadcastInDim S2x262144 ![] bcast_S_S2x262144 main_c_22
  let main_v60 : IVec S2x262144 1 := cmpi .sge main_arg1 main_v59
  let main_c_23 : IVec S_ 32 := constantI S_ 32 4096#32
  let main_v61 : IVec S2x262144 32 := broadcastInDim S2x262144 ![] bcast_S_S2x262144 main_c_23
  let main_v62 : IVec S2x262144 1 := cmpi .slt main_arg1 main_v61
  let main_v63 : IVec S2x262144 1 := andi main_v60 main_v62
  let main_c_24 : IVec S_ 1 := constantI S_ 1 1#1
  let main_v64 : IVec S_ 1 := (fun x v => Host.reduce IntOp.andi x v reducesTo_S2x262144_S_d0_1 h_S_) main_v63 main_c_24
  let main_v65 : IVec S_ 1 := andi main_v58 main_v64
  main_v65

def fn_part2 {F : FTy → Type} [FloatOps F] (main_arg1 : IVec S2x262144 32) (main_arg8 : FVec F S128 .f32) (main_arg9 : FVec F S768x256 .f32) (main_arg10 : FVec F S768 .f32) (main_arg11 : FVec F S256x256 .f32) (main_arg12 : FVec F S256 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S768x256 .f32 := Host.absf main_arg9
  let main_cst_14 : FVec F S_ .f32 := constant S_ .f32 0x7F800000#32
  let main_v40 : FVec F S768x256 .f32 := broadcastInDim S768x256 ![] bcast_S_S768x256 main_cst_14
  let main_v41 : IVec S768x256 1 := cmpf .olt main_v39 main_v40
  let main_c_15 : IVec S_ 1 := constantI S_ 1 1#1
  let main_v42 : IVec S_ 1 := (fun x v => Host.reduce IntOp.andi x v reducesTo_S768x256_S_d0_1 h_S_) main_v41 main_c_15
  let main_v43 : IVec S_ 1 := andi main_v38 main_v42
  let main_v44 : FVec F S768 .f32 := Host.absf main_arg10
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg1 main_arg12 main_v48 main_v49 main_v50

def fn_part1 {F : FTy → Type} [FloatOps F] (main_arg1 : IVec S2x262144 32) (main_arg5 : FVec F S256x256 .f32) (main_arg6 : FVec F S256 .f32) (main_arg7 : FVec F S256x128 .f32) (main_arg8 : FVec F S128 .f32) (main_arg9 : FVec F S768x256 .f32) (main_arg10 : FVec F S768 .f32) (main_arg11 : FVec F S256x256 .f32) (main_arg12 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S4096x256 .f32) (main_arg1 : IVec S2x262144 32) (main_arg2 : FVec F S262144 .f32) (main_arg3 : FVec F S256x256 .f32) (main_arg4 : FVec F S256 .f32) (main_arg5 : FVec F S256x256 .f32) (main_arg6 : FVec F S256 .f32) (main_arg7 : FVec F S256x128 .f32) (main_arg8 : FVec F S128 .f32) (main_arg9 : FVec F S768x256 .f32) (main_arg10 : FVec F S768 .f32) (main_arg11 : FVec F S256x256 .f32) (main_arg12 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_arg9 main_arg10 main_arg11 main_arg12 main_v13 main_v16
-- ==== Kernel.lean ====
abbrev S4096x256 : Shape := ⟨2, ![4096, 256]⟩
abbrev S2x262144 : Shape := ⟨2, ![2, 262144]⟩
abbrev S262144 : Shape := ⟨1, ![262144]⟩
abbrev S256x256 : Shape := ⟨2, ![256, 256]⟩
abbrev S256 : Shape := ⟨1, ![256]⟩
abbrev S256x128 : Shape := ⟨2, ![256, 128]⟩
abbrev S128 : Shape := ⟨1, ![128]⟩
abbrev S768x256 : Shape := ⟨2, ![768, 256]⟩
abbrev S768 : Shape := ⟨1, ![768]⟩
abbrev S1x262144 : Shape := ⟨2, ![1, 262144]⟩
abbrev S4096 : Shape := ⟨1, ![4096]⟩
abbrev S266240 : Shape := ⟨1, ![266240]⟩
abbrev S_ : Shape := ⟨0, ![]⟩
abbrev S266240x1 : Shape := ⟨2, ![266240, 1]⟩
abbrev S4096x4096 : Shape := ⟨2, ![4096, 4096]⟩
abbrev S266240x2 : Shape := ⟨2, ![266240, 2]⟩
abbrev S256x768 : Shape := ⟨2, ![256, 768]⟩
abbrev S1x256 : Shape := ⟨2, ![1, 256]⟩
abbrev S512x256 : Shape := ⟨2, ![512, 256]⟩
abbrev S1024x4096 : Shape := ⟨2, ![1024, 4096]⟩
abbrev S1024x256 : Shape := ⟨2, ![1024, 256]⟩
abbrev S1x768 : Shape := ⟨2, ![1, 768]⟩
abbrev S4096x768 : Shape := ⟨2, ![4096, 768]⟩
abbrev S512x768 : Shape := ⟨2, ![512, 768]⟩
abbrev S4096x4x64 : Shape := ⟨3, ![4096, 4, 64]⟩
abbrev S4x4096x64 : Shape := ⟨3, ![4, 4096, 64]⟩
abbrev S4x1024x64 : Shape := ⟨3, ![4, 1024, 64]⟩
abbrev S4x512x64 : Shape := ⟨3, ![4, 512, 64]⟩
abbrev S4x1024x1 : Shape := ⟨3, ![4, 1024, 1]⟩
abbrev S4x1024x512 : Shape := ⟨3, ![4, 1024, 512]⟩
abbrev S4x1024 : Shape := ⟨2, ![4, 1024]⟩
abbrev S1x128 : Shape := ⟨2, ![1, 128]⟩
abbrev S4096x128 : Shape := ⟨2, ![4096, 128]⟩
abbrev S512x128 : Shape := ⟨2, ![512, 128]⟩
abbrev S1024x128 : Shape := ⟨2, ![1024, 128]⟩

abbrev nBuf : Space → Nat
  | .hbm => 125
  | .vmem => 82
  | .smem => 0
  | _ => 0

abbrev bufTy : (tb : Table) → Fin (tcTables nBuf tb) → BufTy
  | .hbm, ⟨0, _⟩ => ⟨S4096x256, .f32⟩
  | .hbm, ⟨1, _⟩ => ⟨S2x262144, .i32⟩
  | .hbm, ⟨2, _⟩ => ⟨S262144, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S768x256, .f32⟩
  | .hbm, ⟨10, _⟩ => ⟨S768, .f32⟩
  | .hbm, ⟨11, _⟩ => ⟨S256x256, .f32⟩
  | .hbm, ⟨12, _⟩ => ⟨S256, .f32⟩
  | .hbm, ⟨13, _⟩ => ⟨S1x262144, .i32⟩
  | .hbm, ⟨14, _⟩ => ⟨S262144, .i32⟩
  | .hbm, ⟨15, _⟩ => ⟨S1x262144, .i32⟩
  | .hbm, ⟨16, _⟩ => ⟨S262144, .i32⟩
  | .hbm, ⟨17, _⟩ => ⟨S4096, .i32⟩
  | .hbm, ⟨18, _⟩ => ⟨S266240, .i32⟩
  | .hbm, ⟨19, _⟩ => ⟨S266240, .i32⟩
  | .hbm, ⟨20, _⟩ => ⟨S_, .f32⟩
  | .hbm, ⟨21, _⟩ => ⟨S4096, .f32⟩
  | .hbm, ⟨22, _⟩ => ⟨S266240, .f32⟩
  | .hbm, ⟨23, _⟩ => ⟨S_, .f32⟩
  | .hbm, ⟨24, _⟩ => ⟨S4096, .f32⟩
  | .hbm, ⟨25, _⟩ => ⟨S266240x1, .i32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .i1⟩
  | .hbm, ⟨30, _⟩ => ⟨S4096, .f32⟩
  | .hbm, ⟨31, _⟩ => ⟨S_, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .i32⟩
  | .hbm, ⟨36, _⟩ => ⟨S266240, .i32⟩
  | .hbm, ⟨37, _⟩ => ⟨S266240, .i1⟩
  | .hbm, ⟨38, _⟩ => ⟨S_, .i32⟩
  | .hbm, ⟨39, _⟩ => ⟨S266240, .i32⟩
  | .hbm, ⟨40, _⟩ => ⟨S266240, .i32⟩
  | .hbm, ⟨41, _⟩ => ⟨S266240, .i32⟩
  | .hbm, ⟨42, _⟩ => ⟨S266240x1, .i32⟩
  | .hbm, ⟨43, _⟩ => ⟨S266240, .f32⟩
  | .hbm, ⟨44, _⟩ => ⟨S266240, .f32⟩
  | .hbm, ⟨45, _⟩ => ⟨S_, .i32⟩
  | .hbm, ⟨46, _⟩ => ⟨S266240, .i32⟩
  | .hbm, ⟨47, _⟩ => ⟨S266240, .i1⟩
  | .hbm, ⟨48, _⟩ => ⟨S_, .i32⟩
  | .hbm, ⟨49, _⟩ => ⟨S266240, .i32⟩
  | .hbm, ⟨50, _⟩ => ⟨S266240, .i32⟩
  | .hbm, ⟨51, _⟩ => ⟨S266240, .i32⟩
  | .hbm, ⟨52, _⟩ => ⟨S266240x1, .i32⟩
  | .hbm, ⟨53, _⟩ => ⟨S266240, .f32⟩
  | .hbm, ⟨54, _⟩ => ⟨S266240, .f32⟩
  | .hbm, ⟨55, _⟩ => ⟨S_, .f32⟩
  | .hbm, ⟨56, _⟩ => ⟨S4096x4096, .f32⟩
  | .hbm, ⟨57, _⟩ => ⟨S_, .i32⟩
  | .hbm, ⟨58, _⟩ => ⟨S266240, .i32⟩
  | .hbm, ⟨59, _⟩ => ⟨S266240, .i1⟩
  | .hbm, ⟨60, _⟩ => ⟨S_, .i32⟩
  | .hbm, ⟨61, _⟩ => ⟨S266240, .i32⟩
  | .hbm, ⟨62, _⟩ => ⟨S266240, .i32⟩
  | .hbm, ⟨63, _⟩ => ⟨S266240, .i32⟩
  | .hbm, ⟨64, _⟩ => ⟨S_, .i32⟩
  | .hbm, ⟨65, _⟩ => ⟨S266240, .i32⟩
  | .hbm, ⟨66, _⟩ => ⟨S266240, .i1⟩
  | .hbm, ⟨67, _⟩ => ⟨S_, .i32⟩
  | .hbm, ⟨68, _⟩ => ⟨S266240, .i32⟩
  | .hbm, ⟨69, _⟩ => ⟨S266240, .i32⟩
  | .hbm, ⟨70, _⟩ => ⟨S266240, .i32⟩
  | .hbm, ⟨71, _⟩ => ⟨S266240x1, .i32⟩
  | .hbm, ⟨72, _⟩ => ⟨S266240x1, .i32⟩
  | .hbm, ⟨73, _⟩ => ⟨S266240x2, .i32⟩
  | .hbm, ⟨74, _⟩ => ⟨S4096x4096, .f32⟩
  | .hbm, ⟨75, _⟩ => ⟨S4096x4096, .bf16⟩
  | .hbm, ⟨76, _⟩ => ⟨S256x768, .f32⟩
  | .hbm, ⟨77, _⟩ => ⟨S256x256, .f32⟩
  | .hbm, ⟨78, _⟩ => ⟨S_, .f32⟩
  | .hbm, ⟨79, _⟩ => ⟨S1x256, .f32⟩
  | .hbm, ⟨80, _⟩ => ⟨S4096x256, .bf16⟩
  | .hbm, ⟨81, _⟩ => ⟨S1x256, .f32⟩
  | .hbm, ⟨82, _⟩ => ⟨S4096x256, .f32⟩
  | .hbm, ⟨83, _⟩ => ⟨S1x768, .f32⟩
  | .hbm, ⟨84, _⟩ => ⟨S4096x768, .bf16⟩
  | .hbm, ⟨85, _⟩ => ⟨S4096x256, .bf16⟩
  | .hbm, ⟨86, _⟩ => ⟨S4096x256, .bf16⟩
  | .hbm, ⟨87, _⟩ => ⟨S4096x256, .bf16⟩
  | .hbm, ⟨88, _⟩ => ⟨S4096x4x64, .bf16⟩
  | .hbm, ⟨89, _⟩ => ⟨S4x4096x64, .bf16⟩
  | .hbm, ⟨90, _⟩ => ⟨S4096x4x64, .bf16⟩
  | .hbm, ⟨91, _⟩ => ⟨S4x4096x64, .bf16⟩
  | .hbm, ⟨92, _⟩ => ⟨S4096x4x64, .bf16⟩
  | .hbm, ⟨93, _⟩ => ⟨S4x4096x64, .bf16⟩
  | .hbm, ⟨94, _⟩ => ⟨S4x4096x64, .bf16⟩
  | .hbm, ⟨95, _⟩ => ⟨S4096x4x64, .bf16⟩
  | .hbm, ⟨96, _⟩ => ⟨S4096x256, .bf16⟩
  | .hbm, ⟨97, _⟩ => ⟨S1x256, .f32⟩
  | .hbm, ⟨98, _⟩ => ⟨S4096x256, .f32⟩
  | .hbm, ⟨99, _⟩ => ⟨S_, .f32⟩
  | .hbm, ⟨100, _⟩ => ⟨S1x256, .f32⟩
  | .hbm, ⟨101, _⟩ => ⟨S4096x256, .bf16⟩
  | .hbm, ⟨102, _⟩ => ⟨S1x256, .f32⟩
  | .hbm, ⟨103, _⟩ => ⟨S4096x256, .f32⟩
  | .hbm, ⟨104, _⟩ => ⟨S1x768, .f32⟩
  | .hbm, ⟨105, _⟩ => ⟨S4096x768, .bf16⟩
  | .hbm, ⟨106, _⟩ => ⟨S4096x256, .bf16⟩
  | .hbm, ⟨107, _⟩ => ⟨S4096x256, .bf16⟩
  | .hbm, ⟨108, _⟩ => ⟨S4096x256, .bf16⟩
  | .hbm, ⟨109, _⟩ => ⟨S4096x4x64, .bf16⟩
  | .hbm, ⟨110, _⟩ => ⟨S4x4096x64, .bf16⟩
  | .hbm, ⟨111, _⟩ => ⟨S4096x4x64, .bf16⟩
  | .hbm, ⟨112, _⟩ => ⟨S4x4096x64, .bf16⟩
  | .hbm, ⟨113, _⟩ => ⟨S4096x4x64, .bf16⟩
  | .hbm, ⟨114, _⟩ => ⟨S4x4096x64, .bf16⟩
  | .hbm, ⟨115, _⟩ => ⟨S4x4096x64, .bf16⟩
  | .hbm, ⟨116, _⟩ => ⟨S4096x4x64, .bf16⟩
  | .hbm, ⟨117, _⟩ => ⟨S4096x256, .bf16⟩
  | .hbm, ⟨118, _⟩ => ⟨S1x256, .f32⟩
  | .hbm, ⟨119, _⟩ => ⟨S4096x256, .f32⟩
  | .hbm, ⟨120, _⟩ => ⟨S_, .f32⟩
  | .hbm, ⟨121, _⟩ => ⟨S1x128, .f32⟩
  | .hbm, ⟨122, _⟩ => ⟨S4096x128, .bf16⟩
  | .hbm, ⟨123, _⟩ => ⟨S1x128, .f32⟩
  | .hbm, ⟨124, _⟩ => ⟨S4096x128, .f32⟩
  | .local _ .vmem, ⟨0, _⟩ => ⟨S512x256, .f32⟩
  | .local _ .vmem, ⟨1, _⟩ => ⟨S512x256, .f32⟩
  | .local _ .vmem, ⟨2, _⟩ => ⟨S256x256, .f32⟩
  | .local _ .vmem, ⟨3, _⟩ => ⟨S1x256, .f32⟩
  | .local _ .vmem, ⟨4, _⟩ => ⟨S512x256, .bf16⟩
  | .local _ .vmem, ⟨5, _⟩ => ⟨S512x256, .bf16⟩
  | .local _ .vmem, ⟨6, _⟩ => ⟨S1024x4096, .bf16⟩
  | .local _ .vmem, ⟨7, _⟩ => ⟨S1024x4096, .bf16⟩
  | .local _ .vmem, ⟨8, _⟩ => ⟨S4096x256, .bf16⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | .local _ .vmem, ⟨12, _⟩ => ⟨S512x256, .f32⟩
  | .local _ .vmem, ⟨13, _⟩ => ⟨S512x256, .f32⟩
  | .local _ .vmem, ⟨14, _⟩ => ⟨S256x768, .f32⟩
  | .local _ .vmem, ⟨15, _⟩ => ⟨S1x768, .f32⟩
  | .local _ .vmem, ⟨16, _⟩ => ⟨S512x768, .bf16⟩
  | .local _ .vmem, ⟨17, _⟩ => ⟨S512x768, .bf16⟩
  | .local _ .vmem, ⟨18, _⟩ => ⟨S4x1024x64, .bf16⟩
  | .local _ .vmem, ⟨19, _⟩ => ⟨S4x1024x64, .bf16⟩
  | .local _ .vmem, ⟨20, _⟩ => ⟨S4x512x64, .bf16⟩
  | .local _ .vmem, ⟨21, _⟩ => ⟨S4x512x64, .bf16⟩
  | .local _ .vmem, ⟨22, _⟩ => ⟨S4x512x64, .bf16⟩
  | .local _ .vmem, ⟨23, _⟩ => ⟨S4x512x64, .bf16⟩
  | .local _ .vmem, ⟨24, _⟩ => ⟨S4x1024x64, .bf16⟩
  | .local _ .vmem, ⟨25, _⟩ => ⟨S4x1024x64, .bf16⟩
  | .local _ .vmem, ⟨26, _⟩ => ⟨S4x1024x1, .f32⟩
  | .local _ .vmem, ⟨27, _⟩ => ⟨S4x1024x1, .f32⟩
  | .local _ .vmem, ⟨28, _⟩ => ⟨S4x1024x64, .f32⟩
  | .local _ .vmem, ⟨29, _⟩ => ⟨S512x256, .bf16⟩
  | .local _ .vmem, ⟨30, _⟩ => ⟨S512x256, .bf16⟩
  | .local _ .vmem, ⟨31, _⟩ => ⟨S256x256, .f32⟩
  | .local _ .vmem, ⟨32, _⟩ => ⟨S1x256, .f32⟩
  | .local _ .vmem, ⟨33, _⟩ => ⟨S512x256, .f32⟩
  | .local _ .vmem, ⟨34, _⟩ => ⟨S512x256, .f32⟩
  | .local _ .vmem, ⟨35, _⟩ => ⟨S512x256, .f32⟩
  | .local _ .vmem, ⟨36, _⟩ => ⟨S512x256, .f32⟩
  | .local _ .vmem, ⟨37, _⟩ => ⟨S256x256, .f32⟩
  | .local _ .vmem, ⟨38, _⟩ => ⟨S1x256, .f32⟩
  | .local _ .vmem, ⟨39, _⟩ => ⟨S512x256, .bf16⟩
  | .local _ .vmem, ⟨40, _⟩ => ⟨S512x256, .bf16⟩
  | .local _ .vmem, ⟨41, _⟩ => ⟨S1024x4096, .bf16⟩
  | .local _ .vmem, ⟨42, _⟩ => ⟨S1024x4096, .bf16⟩
  | .local _ .vmem, ⟨43, _⟩ => ⟨S4096x256, .bf16⟩
  | .local _ .vmem, ⟨44, _⟩ => ⟨S1x256, .f32⟩
  | .local _ .vmem, ⟨45, _⟩ => ⟨S1024x256, .f32⟩
  | .local _ .vmem, ⟨46, _⟩ => ⟨S1024x256, .f32⟩
  | .local _ .vmem, ⟨47, _⟩ => ⟨S512x256, .f32⟩
  | .local _ .vmem, ⟨48, _⟩ => ⟨S512x256, .f32⟩
  | .local _ .vmem, ⟨49, _⟩ => ⟨S256x768, .f32⟩
  | .local _ .vmem, ⟨50, _⟩ => ⟨S1x768, .f32⟩
  | .local _ .vmem, ⟨51, _⟩ => ⟨S512x768, .bf16⟩
  | .local _ .vmem, ⟨52, _⟩ => ⟨S512x768, .bf16⟩
  | .local _ .vmem, ⟨53, _⟩ => ⟨S4x1024x64, .bf16⟩
  | .local _ .vmem, ⟨54, _⟩ => ⟨S4x1024x64, .bf16⟩
  | .local _ .vmem, ⟨55, _⟩ => ⟨S4x512x64, .bf16⟩
  | .local _ .vmem, ⟨56, _⟩ => ⟨S4x512x64, .bf16⟩
  | .local _ .vmem, ⟨57, _⟩ => ⟨S4x512x64, .bf16⟩
  | .local _ .vmem, ⟨58, _⟩ => ⟨S4x512x64, .bf16⟩
  | .local _ .vmem, ⟨59, _⟩ => ⟨S4x1024x64, .bf16⟩
  | .local _ .vmem, ⟨60, _⟩ => ⟨S4x1024x64, .bf16⟩
  | .local _ .vmem, ⟨61, _⟩ => ⟨S4x1024x1, .f32⟩
  | .local _ .vmem, ⟨62, _⟩ => ⟨S4x1024x1, .f32⟩
  | .local _ .vmem, ⟨63, _⟩ => ⟨S4x1024x64, .f32⟩
  | .local _ .vmem, ⟨64, _⟩ => ⟨S512x256, .bf16⟩
  | .local _ .vmem, ⟨65, _⟩ => ⟨S512x256, .bf16⟩
  | .local _ .vmem, ⟨66, _⟩ => ⟨S256x256, .f32⟩
  | .local _ .vmem, ⟨67, _⟩ => ⟨S1x256, .f32⟩
  | .local _ .vmem, ⟨68, _⟩ => ⟨S512x256, .f32⟩
  | .local _ .vmem, ⟨69, _⟩ => ⟨S512x256, .f32⟩
  | .local _ .vmem, ⟨70, _⟩ => ⟨S512x256, .f32⟩
  | .local _ .vmem, ⟨71, _⟩ => ⟨S512x256, .f32⟩
  | .local _ .vmem, ⟨72, _⟩ => ⟨S256x128, .f32⟩
  | .local _ .vmem, ⟨73, _⟩ => ⟨S1x128, .f32⟩
  | .local _ .vmem, ⟨74, _⟩ => ⟨S512x128, .bf16⟩
  | .local _ .vmem, ⟨75, _⟩ => ⟨S512x128, .bf16⟩
  | .local _ .vmem, ⟨76, _⟩ => ⟨S1024x4096, .bf16⟩
  | .local _ .vmem, ⟨77, _⟩ => ⟨S1024x4096, .bf16⟩
  | .local _ .vmem, ⟨78, _⟩ => ⟨S4096x128, .bf16⟩
  | .local _ .vmem, ⟨79, _⟩ => ⟨S1x128, .f32⟩
  | .local _ .vmem, ⟨80, _⟩ => ⟨S1024x128, .f32⟩
  | .local _ .vmem, ⟨81, _⟩ => ⟨S1024x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_c_10 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_12 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_13 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_scratch0 : Ref sig .tc := ⟨.vmem, 26, rfl⟩
abbrev cc3_scratch1 : Ref sig .tc := ⟨.vmem, 27, rfl⟩
abbrev cc3_scratch2 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg3_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg3_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg3_0 : Ref sig .tc := ⟨.vmem, 51, rfl⟩
abbrev cc7_stg3_1 : Ref sig .tc := ⟨.vmem, 52, rfl⟩
abbrev cc8_stg0_0 : Ref sig .tc := ⟨.vmem, 53, rfl⟩
abbrev cc8_stg0_1 : Ref sig .tc := ⟨.vmem, 54, rfl⟩
abbrev cc8_stg1_0 : Ref sig .tc := ⟨.vmem, 55, rfl⟩
abbrev cc8_stg1_1 : Ref sig .tc := ⟨.vmem, 56, rfl⟩
abbrev cc8_stg2_0 : Ref sig .tc := ⟨.vmem, 57, rfl⟩
abbrev cc8_stg2_1 : Ref sig .tc := ⟨.vmem, 58, rfl⟩
abbrev cc8_stg3_0 : Ref sig .tc := ⟨.vmem, 59, rfl⟩
abbrev cc8_stg3_1 : Ref sig .tc := ⟨.vmem, 60, rfl⟩
abbrev cc8_scratch0 : Ref sig .tc := ⟨.vmem, 61, rfl⟩
abbrev cc8_scratch1 : Ref sig .tc := ⟨.vmem, 62, rfl⟩
abbrev cc8_scratch2 : Ref sig .tc := ⟨.vmem, 63, rfl⟩
abbrev cc9_stg0_0 : Ref sig .tc := ⟨.vmem, 64, rfl⟩
abbrev cc9_stg0_1 : Ref sig .tc := ⟨.vmem, 65, rfl⟩
abbrev cc9_stg1_0 : Ref sig .tc := ⟨.vmem, 66, rfl⟩
abbrev cc9_stg2_0 : Ref sig .tc := ⟨.vmem, 67, rfl⟩
abbrev cc9_stg3_0 : Ref sig .tc := ⟨.vmem, 68, rfl⟩
abbrev cc9_stg3_1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg2_0 : Ref sig .tc := ⟨.vmem, 73, rfl⟩
abbrev cc10_stg3_0 : Ref sig .tc := ⟨.vmem, 74, rfl⟩
abbrev cc10_stg3_1 : Ref sig .tc := ⟨.vmem, 75, rfl⟩
abbrev cc11_stg0_0 : Ref sig .tc := ⟨.vmem, 76, rfl⟩
abbrev cc11_stg0_1 : Ref sig .tc := ⟨.vmem, 77, rfl⟩
abbrev cc11_stg1_0 : Ref sig .tc := ⟨.vmem, 78, rfl⟩
abbrev cc11_stg2_0 : Ref sig .tc := ⟨.vmem, 79, rfl⟩
abbrev cc11_stg3_0 : Ref sig .tc := ⟨.vmem, 80, rfl⟩
abbrev cc11_stg3_1 : Ref sig .tc := ⟨.vmem, 81, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem3_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem3_0 : DmaSem sig := 42
abbrev cc6_sem3_1 : DmaSem sig := 43
abbrev cc7_sem0_0 : DmaSem sig := 44
abbrev cc7_sem0_1 : DmaSem sig := 45
abbrev cc7_sem1_0 : DmaSem sig := 46
abbrev cc7_sem2_0 : DmaSem sig := 47
abbrev cc7_sem3_0 : DmaSem sig := 48
abbrev cc7_sem3_1 : DmaSem sig := 49
abbrev cc8_sem0_0 : DmaSem sig := 50
abbrev cc8_sem0_1 : DmaSem sig := 51
abbrev cc8_sem1_0 : DmaSem sig := 52
abbrev cc8_sem1_1 : DmaSem sig := 53
abbrev cc8_sem2_0 : DmaSem sig := 54
abbrev cc8_sem2_1 : DmaSem sig := 55
abbrev cc8_sem3_0 : DmaSem sig := 56
abbrev cc8_sem3_1 : DmaSem sig := 57
abbrev cc9_sem0_0 : DmaSem sig := 58
abbrev cc9_sem0_1 : DmaSem sig := 59
abbrev cc9_sem1_0 : DmaSem sig := 60
abbrev cc9_sem2_0 : DmaSem sig := 61
abbrev cc9_sem3_0 : DmaSem sig := 62
abbrev cc9_sem3_1 : DmaSem sig := 63
abbrev cc10_sem0_0 : DmaSem sig := 64
abbrev cc10_sem0_1 : DmaSem sig := 65
abbrev cc10_sem1_0 : DmaSem sig := 66
abbrev cc10_sem2_0 : DmaSem sig := 67
abbrev cc10_sem3_0 : DmaSem sig := 68
abbrev cc10_sem3_1 : DmaSem sig := 69
abbrev cc11_sem0_0 : DmaSem sig := 70
abbrev cc11_sem0_1 : DmaSem sig := 71
abbrev cc11_sem1_0 : DmaSem sig := 72
abbrev cc11_sem2_0 : DmaSem sig := 73
abbrev cc11_sem3_0 : DmaSem sig := 74
abbrev cc11_sem3_1 : DmaSem sig := 75

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x768 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![4, 8], ![false, false]⟩

def k3_cond2 (i : grid3.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_34 : BitVec 32 := 0#32
  let v44 : BitVec 1 := Scalar.cmpi .ne v43 c0_i32_34
  v44

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S4x1024x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4x512x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S4x512x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S4x1024x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S512x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S4096x256 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1024x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x768 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x768 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S512x768 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨2, ![4, 8], ![false, false]⟩

def k8_cond2 (i : grid8.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_34 : BitVec 32 := 0#32
  let v44 : BitVec 1 := Scalar.cmpi .ne v43 c0_i32_34
  v44

def cc8_transform_0 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc8_transform_2 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc8_transform_3 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage8_0 : Fin 2 → Memref sig .tc .vmem S4x1024x64 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S4x512x64 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S4x512x64 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![false, true]

abbrev stage8_3 : Fin 2 → Memref sig .tc .vmem S4x1024x64 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, false]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S512x256 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S256x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S512x256 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![8], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S512x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S256x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S512x128 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![4], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S1024x4096 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S4096x128 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S1024x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S4096_S266240_d0 : Shape.Concatenates [S262144, S4096] S266240 0
  bcast_S_S4096 : S_.BroadcastsInDim S4096 (![] : Fin 0 → Fin S4096.rank)
  bcast_S266240_S266240x1_0 : S266240.BroadcastsInDim S266240x1 (![0] : Fin 1 → Fin S266240x1.rank)
  bcast_S_S266240 : S_.BroadcastsInDim S266240 (![] : Fin 0 → Fin S266240.rank)
  bcast_S_S4096x4096 : S_.BroadcastsInDim S4096x4096 (![] : Fin 0 → Fin S4096x4096.rank)
  concatenates_S266240x1_S266240x1_S266240x2_d1 : Shape.Concatenates [S266240x1, S266240x1] S266240x2 1
  bitsLt_bf16_f32 : FTy.bits .bf16 < FTy.bits .f32
  transposes_S768x256_S256x768_1_0 : S768x256.Transposes [1, 0] S256x768
  transposes_S256x256_S256x256_1_0 : S256x256.Transposes [1, 0] S256x256
  bcast_S_S1x256 : S_.BroadcastsInDim S1x256 (![] : Fin 0 → Fin S1x256.rank)
  inb_S512x256_S512x256_0_0 : ∀ a, (![0, 0] : Fin 2 → Nat) a + S512x256.size a ≤ S512x256.size a
  h_S512x256 : 0 < S512x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  packedbf16_S512x256_S512x256_0_0 : (Rect.unit (s := S512x256) ![0, 0] S512x256.size inb_S512x256_S512x256_0_0).PackedRows (EltTy.packing .bf16)
  shapeCasts_S256_S1x256 : S256.ShapeCasts S1x256
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S768_S1x768 : S768.ShapeCasts S1x768
  shapeCasts_S512x256_S512x256 : S512x256.ShapeCasts S512x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  inb_S512x768_S512x768_0_0 : ∀ a, (![0, 0] : Fin 2 → Nat) a + S512x768.size a ≤ S512x768.size a
  h_S512x768 : 0 < S512x768.numel
  packedbf16_S512x768_S512x768_0_0 : (Rect.unit (s := S512x768) ![0, 0] S512x768.size inb_S512x768_S512x768_0_0).PackedRows (EltTy.packing .bf16)
  slices_S4096x768_S4096x256_0_0 : S4096x768.Slices ![0, 0] S4096x256
  slices_S4096x768_S4096x256_0_256 : S4096x768.Slices ![0, 256] S4096x256
  slices_S4096x768_S4096x256_0_512 : S4096x768.Slices ![0, 512] S4096x256
  shapeCasts_S4096x256_S4096x4x64 : S4096x256.ShapeCasts S4096x4x64
  transposes_S4096x4x64_S4x4096x64_1_0_2 : S4096x4x64.Transposes [1, 0, 2] S4x4096x64
  inb_S4x1024x1_S4x1024x1_0_0_0 : ∀ a, (![0, 0, 0] : Fin 3 → Nat) a + S4x1024x1.size a ≤ S4x1024x1.size a
  h_S4x1024x1 : 0 < S4x1024x1.numel
  shapeCasts_S4x1024x1_S4x1024x1 : S4x1024x1.ShapeCasts S4x1024x1
  inb_S4x1024x64_S4x1024x64_0_0_0 : ∀ a, (![0, 0, 0] : Fin 3 → Nat) a + S4x1024x64.size a ≤ S4x1024x64.size a
  h_S4x1024x64 : 0 < S4x1024x64.numel
  shapeCasts_S4x1024x64_S4x1024x64 : S4x1024x64.ShapeCasts S4x1024x64
  inb_S4x512x64_S4x512x64_0_0_0 : ∀ a, (![0, 0, 0] : Fin 3 → Nat) a + S4x512x64.size a ≤ S4x512x64.size a
  h_S4x512x64 : 0 < S4x512x64.numel
  shapeCasts_S4x512x64_S4x512x64 : S4x512x64.ShapeCasts S4x512x64
  reduces_S4x1024x512_S4x1024 : S4x1024x512.Reduces [2] S4x1024
  shapeCasts_S4x1024_S4x1024x1 : S4x1024.ShapeCasts S4x1024x1
  broadcasts_S4x1024x1_S4x1024x512 : S4x1024x1.Broadcasts S4x1024x512
  broadcasts_S4x1024x1_S4x1024x64 : S4x1024x1.Broadcasts S4x1024x64
  packedbf16_S4x1024x64_S4x1024x64_0_0_0 : (Rect.unit (s := S4x1024x64) ![0, 0, 0] S4x1024x64.size inb_S4x1024x64_S4x1024x64_0_0_0).PackedRows (EltTy.packing .bf16)
  transposes_S4x4096x64_S4096x4x64_1_0_2 : S4x4096x64.Transposes [1, 0, 2] S4096x4x64
  shapeCasts_S4096x4x64_S4096x256 : S4096x4x64.ShapeCasts S4096x256
  shapeCasts_S256x256_S256x256 : S256x256.ShapeCasts S256x256
  bcast_S_S1x128 : S_.BroadcastsInDim S1x128 (![] : Fin 0 → Fin S1x128.rank)
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  packedbf16_S512x128_S512x128_0_0 : (Rect.unit (s := S512x128) ![0, 0] S512x128.size inb_S512x128_S512x128_0_0).PackedRows (EltTy.packing .bf16)
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  scatter_S4096_S266240x1_S266240_n_0_0_1_wf : ScatterDims.WF S4096 S266240x1 S266240 [] [0] [0] 1
  gather_S4096_S266240x1_S266240_n_0_n_n_0_1_1_wf : GatherDims.WF S4096 S266240x1 S266240 [] [0] [] [0] [] 1 ![1]
  scatter_S4096x4096_S266240x2_S266240_n_01_01_1_wf : ScatterDims.WF S4096x4096 S266240x2 S266240 [] [0, 1] [0, 1] 1
  dot_S512x256_S256x256_S512x256_1_0_0_1_n_n_wf : DotDims.WF S512x256 S256x256 S512x256 [1] [0] [0] [1] [] []
  dot_S1024x4096_S4096x256_S1024x256_1_0_0_1_n_n_wf : DotDims.WF S1024x4096 S4096x256 S1024x256 [1] [0] [0] [1] [] []
  dot_S512x256_S256x768_S512x768_1_0_0_1_n_n_wf : DotDims.WF S512x256 S256x768 S512x768 [1] [0] [0] [1] [] []
  dot_S4x1024x64_S4x512x64_S4x1024x512_2_2_1_1_0_0_wf : DotDims.WF S4x1024x64 S4x512x64 S4x1024x512 [2] [2] [1] [1] [0] [0]
  dot_S4x1024x512_S4x512x64_S4x1024x64_2_1_1_2_0_0_wf : DotDims.WF S4x1024x512 S4x512x64 S4x1024x64 [2] [1] [1] [2] [0] [0]
  dot_S512x256_S256x128_S512x128_1_0_0_1_n_n_wf : DotDims.WF S512x256 S256x128 S512x128 [1] [0] [0] [1] [] []
  dot_S1024x4096_S4096x128_S1024x128_1_0_0_1_n_n_wf : DotDims.WF S1024x4096 S4096x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x256.size a
  hwx0_3 : ∀ i : grid0.Coords, EltTy.bits .bf16 = 32 ∨ (Rect.block (s := S4096x256) S512x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S4096x4096.size a
  hwx1_0 : ∀ i : grid1.Coords, EltTy.bits .bf16 = 32 ∨ (Rect.block (s := S4096x4096) S1024x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S4096x256.size a
  hwx1_3 : ∀ i : grid1.Coords, EltTy.bits .f32 = 32 ∨ (Rect.block (s := S4096x256) S1024x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S4096x256.size a
  hwx2_0 : ∀ i : grid2.Coords, EltTy.bits .f32 = 32 ∨ (Rect.block (s := S4096x256) S512x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x768.size a ≤ S256x768.size a
  hwx2_1 : ∀ i : grid2.Coords, EltTy.bits .f32 = 32 ∨ (Rect.block (s := S256x768) S256x768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x768.size a ≤ S1x768.size a
  hwx2_2 : ∀ i : grid2.Coords, EltTy.bits .f32 = 32 ∨ (Rect.block (s := S1x768) S1x768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x768.size a ≤ S4096x768.size a
  hwx2_3 : ∀ i : grid2.Coords, EltTy.bits .bf16 = 32 ∨ (Rect.block (s := S4096x768) S512x768.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4x1024x64.size a ≤ S4x4096x64.size a
  hwx3_0 : ∀ i : grid3.Coords, EltTy.bits .bf16 = 32 ∨ (Rect.block (s := S4x4096x64) S4x1024x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4x512x64.size a ≤ S4x4096x64.size a
  hwx3_1 : ∀ i : grid3.Coords, EltTy.bits .bf16 = 32 ∨ (Rect.block (s := S4x4096x64) S4x512x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4x512x64.size a ≤ S4x4096x64.size a
  hwx3_2 : ∀ i : grid3.Coords, EltTy.bits .bf16 = 32 ∨ (Rect.block (s := S4x4096x64) S4x512x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4x1024x64.size a ≤ S4x4096x64.size a
  hwx3_3 : ∀ i : grid3.Coords, EltTy.bits .bf16 = 32 ∨ (Rect.block (s := S4x4096x64) S4x1024x64.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x256.size a ≤ S4096x256.size a
  hwx4_0 : ∀ i : grid4.Coords, EltTy.bits .bf16 = 32 ∨ (Rect.block (s := S4096x256) S512x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x256.size a ≤ S4096x256.size a
  hwx4_3 : ∀ i : grid4.Coords, EltTy.bits .f32 = 32 ∨ (Rect.block (s := S4096x256) S512x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x256.size a ≤ S4096x256.size a
  hwx5_0 : ∀ i : grid5.Coords, EltTy.bits .f32 = 32 ∨ (Rect.block (s := S4096x256) S512x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x256.size a ≤ S4096x256.size a
  hwx5_3 : ∀ i : grid5.Coords, EltTy.bits .bf16 = 32 ∨ (Rect.block (s := S4096x256) S512x256.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x4096.size a ≤ S4096x4096.size a
  hwx6_0 : ∀ i : grid6.Coords, EltTy.bits .bf16 = 32 ∨ (Rect.block (s := S4096x4096) S1024x4096.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S4096x256.size a ≤ S4096x256.size a
  hwx6_1 : ∀ i : grid6.Coords, EltTy.bits .bf16 = 32 ∨ (Rect.block (s := S4096x256) S4096x256.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x256.size a ≤ S4096x256.size a
  hwx6_3 : ∀ i : grid6.Coords, EltTy.bits .f32 = 32 ∨ (Rect.block (s := S4096x256) S1024x256.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x256.size a ≤ S4096x256.size a
  hwx7_0 : ∀ i : grid7.Coords, EltTy.bits .f32 = 32 ∨ (Rect.block (s := S4096x256) S512x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x768.size a ≤ S256x768.size a
  hwx7_1 : ∀ i : grid7.Coords, EltTy.bits .f32 = 32 ∨ (Rect.block (s := S256x768) S256x768.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x768.size a ≤ S1x768.size a
  hwx7_2 : ∀ i : grid7.Coords, EltTy.bits .f32 = 32 ∨ (Rect.block (s := S1x768) S1x768.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S512x768.size a ≤ S4096x768.size a
  hwx7_3 : ∀ i : grid7.Coords, EltTy.bits .bf16 = 32 ∨ (Rect.block (s := S4096x768) S512x768.size (cc7_transform_3 i) (hinb7_3 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4x1024x64.size a ≤ S4x4096x64.size a
  hwx8_0 : ∀ i : grid8.Coords, EltTy.bits .bf16 = 32 ∨ (Rect.block (s := S4x4096x64) S4x1024x64.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4x512x64.size a ≤ S4x4096x64.size a
  hwx8_1 : ∀ i : grid8.Coords, EltTy.bits .bf16 = 32 ∨ (Rect.block (s := S4x4096x64) S4x512x64.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4x512x64.size a ≤ S4x4096x64.size a
  hwx8_2 : ∀ i : grid8.Coords, EltTy.bits .bf16 = 32 ∨ (Rect.block (s := S4x4096x64) S4x512x64.size (cc8_transform_2 i) (hinb8_2 i)).WholeWords (EltTy.packing .bf16)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S4x1024x64.size a ≤ S4x4096x64.size a
  hwx8_3 : ∀ i : grid8.Coords, EltTy.bits .bf16 = 32 ∨ (Rect.block (s := S4x4096x64) S4x1024x64.size (cc8_transform_3 i) (hinb8_3 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S512x256.size a ≤ S4096x256.size a
  hwx9_0 : ∀ i : grid9.Coords, EltTy.bits .bf16 = 32 ∨ (Rect.block (s := S4096x256) S512x256.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S256x256.size a ≤ S256x256.size a
  hwx9_1 : ∀ i : grid9.Coords, EltTy.bits .f32 = 32 ∨ (Rect.block (s := S256x256) S256x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x256.size a ≤ S1x256.size a
  hwx9_2 : ∀ i : grid9.Coords, EltTy.bits .f32 = 32 ∨ (Rect.block (s := S1x256) S1x256.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S512x256.size a ≤ S4096x256.size a
  hwx9_3 : ∀ i : grid9.Coords, EltTy.bits .f32 = 32 ∨ (Rect.block (s := S4096x256) S512x256.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S512x256.size a ≤ S4096x256.size a
  hwx10_0 : ∀ i : grid10.Coords, EltTy.bits .f32 = 32 ∨ (Rect.block (s := S4096x256) S512x256.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S256x128.size a ≤ S256x128.size a
  hwx10_1 : ∀ i : grid10.Coords, EltTy.bits .f32 = 32 ∨ (Rect.block (s := S256x128) S256x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S512x128.size a ≤ S4096x128.size a
  hwx10_3 : ∀ i : grid10.Coords, EltTy.bits .bf16 = 32 ∨ (Rect.block (s := S4096x128) S512x128.size (cc10_transform_3 i) (hinb10_3 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1024x4096.size a ≤ S4096x4096.size a
  hwx11_0 : ∀ i : grid11.Coords, EltTy.bits .bf16 = 32 ∨ (Rect.block (s := S4096x4096) S1024x4096.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S4096x128.size a ≤ S4096x128.size a
  hwx11_1 : ∀ i : grid11.Coords, EltTy.bits .bf16 = 32 ∨ (Rect.block (s := S4096x128) S4096x128.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S1024x128.size a ≤ S4096x128.size a
  hwx11_3 : ∀ i : grid11.Coords, EltTy.bits .f32 = 32 ∨ (Rect.block (s := S4096x128) S1024x128.size (cc11_transform_3 i) (hinb11_3 i)).WholeWords (EltTy.packing .f32)

variable [Facts₀]

def scatter_S4096_S266240x1_S266240_n_0_0_1 : ScatterDims S4096 S266240x1 S266240 where
  updateWindowDims := []
  insertedWindowDims := [0]
  scatterDimsToOperandDims := [0]
  indexVectorDim := 1
  wf := scatter_S4096_S266240x1_S266240_n_0_0_1_wf
def gather_S4096_S266240x1_S266240_n_0_n_n_0_1_1 : GatherDims S4096 S266240x1 S266240 where
  offsetDims := []
  collapsedSliceDims := [0]
  operandBatchingDims := []
  startIndicesBatchingDims := []
  startIndexMap := [0]
  indexVectorDim := 1
  sliceSizes := ![1]
  wf := gather_S4096_S266240x1_S266240_n_0_n_n_0_1_1_wf
def scatter_S4096x4096_S266240x2_S266240_n_01_01_1 : ScatterDims S4096x4096 S266240x2 S266240 where
  updateWindowDims := []
  insertedWindowDims := [0, 1]
  scatterDimsToOperandDims := [0, 1]
  indexVectorDim := 1
  wf := scatter_S4096x4096_S266240x2_S266240_n_01_01_1_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf
def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf
def dot_S4x1024x64_S4x512x64_S4x1024x512_2_2_1_1_0_0 : DotDims S4x1024x64 S4x512x64 S4x1024x512 where
  lhsContracting := [2]
  rhsContracting := [2]
  lhsNonContracting := [1]
  rhsNonContracting := [1]
  lhsBatch := [0]
  rhsBatch := [0]
  wf := dot_S4x1024x64_S4x512x64_S4x1024x512_2_2_1_1_0_0_wf
def dot_S4x1024x512_S4x512x64_S4x1024x64_2_1_1_2_0_0 : DotDims S4x1024x512 S4x512x64 S4x1024x64 where
  lhsContracting := [2]
  rhsContracting := [1]
  lhsNonContracting := [1]
  rhsNonContracting := [2]
  lhsBatch := [0]
  rhsBatch := [0]
  wf := dot_S4x1024x512_S4x512x64_S4x1024x64_2_1_1_2_0_0_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v50) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v51) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v53) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S256x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S512x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v60) S4x1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S4x512x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v64) S4x512x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v65) S4x1024x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v67) S512x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v69) S512x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v69) S512x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v70) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v71) S512x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v47) S1024x4096.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v71) S4096x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v72) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v73) S1024x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v73) S512x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v48) S256x768.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v74) S1x768.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v75) S512x768.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v80) S4x1024x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v82) S4x512x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v84) S4x512x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v85) S4x1024x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev idle8 : Fin 4 → grid8.Coords → Bool := fun | 0 => fun _ => false | 1 => fun _ => false | 2 => fun _ => false | 3 => fun i => !(k8_cond2 i == 1#1) | ⟨_ + 4, h⟩ => absurd h (Nat.not_lt.2 (Nat.le_add_left _ _))

abbrev win9_0 : Pipeline.Window sig grid9 :=
  Pipeline.Window.ofSpec (Memref.whole main_v87) S512x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v49) S256x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v88) S1x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v89) S512x256.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v89) S512x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg7) S256x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v90) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v91) S512x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v47) S1024x4096.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v91) S4096x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v92) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v93) S1024x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

class Facts : Prop extends Facts₀ where

variable [Facts]
-- ==== ReferenceIdeal.lean ====
abbrev S4096x256 : Shape := ⟨2, ![4096, 256]⟩
abbrev S2x262144 : Shape := ⟨2, ![2, 262144]⟩
abbrev S262144 : Shape := ⟨1, ![262144]⟩
abbrev S256x256 : Shape := ⟨2, ![256, 256]⟩
abbrev S256 : Shape := ⟨1, ![256]⟩
abbrev S256x128 : Shape := ⟨2, ![256, 128]⟩
abbrev S128 : Shape := ⟨1, ![128]⟩
abbrev S768x256 : Shape := ⟨2, ![768, 256]⟩
abbrev S768 : Shape := ⟨1, ![768]⟩
abbrev S1x262144 : Shape := ⟨2, ![1, 262144]⟩
abbrev S4096 : Shape := ⟨1, ![4096]⟩
abbrev S266240 : Shape := ⟨1, ![266240]⟩
abbrev S_ : Shape := ⟨0, ![]⟩
abbrev S266240x1 : Shape := ⟨2, ![266240, 1]⟩
abbrev S266240x256 : Shape := ⟨2, ![266240, 256]⟩
abbrev S1x256 : Shape := ⟨2, ![1, 256]⟩
abbrev S256x768 : Shape := ⟨2, ![256, 768]⟩
abbrev S4096x768 : Shape := ⟨2, ![4096, 768]⟩
abbrev S1x768 : Shape := ⟨2, ![1, 768]⟩
abbrev S4096x4x64 : Shape := ⟨3, ![4096, 4, 64]⟩
abbrev S4x4096x64 : Shape := ⟨3, ![4, 4096, 64]⟩
abbrev S4x4096x4096 : Shape := ⟨3, ![4, 4096, 4096]⟩
abbrev S4x4096 : Shape := ⟨2, ![4, 4096]⟩
abbrev S4x4096x1 : Shape := ⟨3, ![4, 4096, 1]⟩
abbrev S4096x128 : Shape := ⟨2, ![4096, 128]⟩
abbrev S266240x128 : Shape := ⟨2, ![266240, 128]⟩
abbrev S1x128 : Shape := ⟨2, ![1, 128]⟩

abbrev nBuf : Space → Nat
  | .hbm => 293
  | .vmem => 0
  | .smem => 0
  | _ => 0

abbrev hbmTy0_0 (i : Nat) : BufTy := match i % 128 with
  | 0 => ⟨S4096x256, .f32⟩
  | 1 => ⟨S2x262144, .i32⟩
  | 2 => ⟨S262144, .f32⟩
  | 3 => ⟨S256x256, .f32⟩
  | 4 => ⟨S256, .f32⟩
  | 5 => ⟨S256x256, .f32⟩
  | 6 => ⟨S256, .f32⟩
  | 7 => ⟨S256x128, .f32⟩
  | 8 => ⟨S128, .f32⟩
  | 9 => ⟨S768x256, .f32⟩
  | 10 => ⟨S768, .f32⟩
  | 11 => ⟨S256x256, .f32⟩
  | 12 => ⟨S256, .f32⟩
  | 13 => ⟨S1x262144, .i32⟩
  | 14 => ⟨S262144, .i32⟩
  | 15 => ⟨S1x262144, .i32⟩
  | 16 => ⟨S262144, .i32⟩
  | 17 => ⟨S4096, .i32⟩
  | 18 => ⟨S266240, .i32⟩
  | 19 => ⟨S266240, .i32⟩
  | 20 => ⟨S_, .f32⟩
  | 21 => ⟨S4096, .f32⟩
  | 22 => ⟨S266240, .f32⟩
  | 23 => ⟨S_, .f32⟩
  | 24 => ⟨S4096, .f32⟩
  | 25 => ⟨S266240x1, .i32⟩
  | 26 => ⟨S4096, .f32⟩
  | 27 => ⟨S_, .f32⟩
  | 28 => ⟨S4096, .f32⟩
  | 29 => ⟨S4096, .i1⟩
  | 30 => ⟨S4096, .f32⟩
  | 31 => ⟨S_, .f32⟩
  | 32 => ⟨S_, .f32⟩
  | 33 => ⟨S4096, .f32⟩
  | 34 => ⟨S4096, .f32⟩
  | 35 => ⟨S_, .i32⟩
  | 36 => ⟨S266240, .i32⟩
  | 37 => ⟨S266240, .i1⟩
  | 38 => ⟨S_, .i32⟩
  | 39 => ⟨S266240, .i32⟩
  | 40 => ⟨S266240, .i32⟩
  | 41 => ⟨S266240, .i32⟩
  | 42 => ⟨S266240x1, .i32⟩
  | 43 => ⟨S266240, .f32⟩
  | 44 => ⟨S266240, .f32⟩
  | 45 => ⟨S_, .i32⟩
  | 46 => ⟨S266240, .i32⟩
  | 47 => ⟨S266240, .i1⟩
  | 48 => ⟨S_, .i32⟩
  | 49 => ⟨S266240, .i32⟩
  | 50 => ⟨S266240, .i32⟩
  | 51 => ⟨S266240, .i32⟩
  | 52 => ⟨S266240x1, .i32⟩
  | 53 => ⟨S266240, .f32⟩
  | 54 => ⟨S266240, .f32⟩
  | 55 => ⟨S4096x256, .f32⟩
  | 56 => ⟨S266240x1, .f32⟩
  | 57 => ⟨S_, .i32⟩
  | 58 => ⟨S266240, .i32⟩
  | 59 => ⟨S266240, .i1⟩
  | 60 => ⟨S_, .i32⟩
  | 61 => ⟨S266240, .i32⟩
  | 62 => ⟨S266240, .i32⟩
  | 63 => ⟨S266240, .i32⟩
  | 64 => ⟨S266240x1, .i32⟩
  | 65 => ⟨S266240x256, .f32⟩
  | 66 => ⟨S266240x256, .f32⟩
  | 67 => ⟨S266240x256, .f32⟩
  | 68 => ⟨S_, .f32⟩
  | 69 => ⟨S4096x256, .f32⟩
  | 70 => ⟨S266240x1, .i32⟩
  | 71 => ⟨S4096x256, .f32⟩
  | 72 => ⟨S1x256, .f32⟩
  | 73 => ⟨S4096x256, .f32⟩
  | 74 => ⟨S4096x256, .f32⟩
  | 75 => ⟨S256x768, .f32⟩
  | 76 => ⟨S4096x768, .f32⟩
  | 77 => ⟨S1x768, .f32⟩
  | 78 => ⟨S4096x768, .f32⟩
  | 79 => ⟨S4096x768, .f32⟩
  | 80 => ⟨S4096x256, .f32⟩
  | 81 => ⟨S4096x256, .f32⟩
  | 82 => ⟨S4096x256, .f32⟩
  | 83 => ⟨S4096x4x64, .f32⟩
  | 84 => ⟨S4x4096x64, .f32⟩
  | 85 => ⟨S4096x4x64, .f32⟩
  | 86 => ⟨S4x4096x64, .f32⟩
  | 87 => ⟨S4096x4x64, .f32⟩
  | 88 => ⟨S4x4096x64, .f32⟩
  | 89 => ⟨S4x4096x4096, .f32⟩
  | 90 => ⟨S_, .f32⟩
  | 91 => ⟨S4x4096x4096, .f32⟩
  | 92 => ⟨S4x4096x4096, .f32⟩
  | 93 => ⟨S_, .f32⟩
  | 94 => ⟨S4x4096, .f32⟩
  | 95 => ⟨S_, .f32⟩
  | 96 => ⟨S4x4096, .f32⟩
  | 97 => ⟨S4x4096, .f32⟩
  | 98 => ⟨S4x4096x1, .f32⟩
  | 99 => ⟨S4x4096x4096, .f32⟩
  | 100 => ⟨S4x4096x4096, .f32⟩
  | 101 => ⟨S4x4096x4096, .f32⟩
  | 102 => ⟨S_, .f32⟩
  | 103 => ⟨S4x4096, .f32⟩
  | 104 => ⟨S4x4096x1, .f32⟩
  | 105 => ⟨S4x4096x4096, .f32⟩
  | 106 => ⟨S4x4096x4096, .f32⟩
  | 107 => ⟨S4x4096x64, .f32⟩
  | 108 => ⟨S4096x4x64, .f32⟩
  | 109 => ⟨S4096x256, .f32⟩
  | 110 => ⟨S256x256, .f32⟩
  | 111 => ⟨S4096x256, .f32⟩
  | 112 => ⟨S1x256, .f32⟩
  | 113 => ⟨S4096x256, .f32⟩
  | 114 => ⟨S4096x256, .f32⟩
  | 115 => ⟨S_, .f32⟩
  | 116 => ⟨S4096x256, .f32⟩
  | 117 => ⟨S4096x256, .f32⟩
  | 118 => ⟨S1x262144, .i32⟩
  | 119 => ⟨S262144, .i32⟩
  | 120 => ⟨S1x262144, .i32⟩
  | 121 => ⟨S262144, .i32⟩
  | 122 => ⟨S4096, .i32⟩
  | 123 => ⟨S266240, .i32⟩
  | 124 => ⟨S266240, .i32⟩
  | 125 => ⟨S_, .f32⟩
  | 126 => ⟨S4096, .f32⟩
  | 127 => ⟨S266240, .f32⟩
  | _ => ⟨S4096x256, .f32⟩

abbrev hbmTy0_1 (i : Nat) : BufTy := match i % 128 with
  | 0 => ⟨S_, .f32⟩
  | 1 => ⟨S4096, .f32⟩
  | 2 => ⟨S266240x1, .i32⟩
  | 3 => ⟨S4096, .f32⟩
  | 4 => ⟨S_, .f32⟩
  | 5 => ⟨S4096, .f32⟩
  | 6 => ⟨S4096, .i1⟩
  | 7 => ⟨S4096, .f32⟩
  | 8 => ⟨S_, .f32⟩
  | 9 => ⟨S_, .f32⟩
  | 10 => ⟨S4096, .f32⟩
  | 11 => ⟨S4096, .f32⟩
  | 12 => ⟨S_, .i32⟩
  | 13 => ⟨S266240, .i32⟩
  | 14 => ⟨S266240, .i1⟩
  | 15 => ⟨S_, .i32⟩
  | 16 => ⟨S266240, .i32⟩
  | 17 => ⟨S266240, .i32⟩
  | 18 => ⟨S266240, .i32⟩
  | 19 => ⟨S266240x1, .i32⟩
  | 20 => ⟨S266240, .f32⟩
  | 21 => ⟨S266240, .f32⟩
  | 22 => ⟨S_, .i32⟩
  | 23 => ⟨S266240, .i32⟩
  | 24 => ⟨S266240, .i1⟩
  | 25 => ⟨S_, .i32⟩
  | 26 => ⟨S266240, .i32⟩
  | 27 => ⟨S266240, .i32⟩
  | 28 => ⟨S266240, .i32⟩
  | 29 => ⟨S266240x1, .i32⟩
  | 30 => ⟨S266240, .f32⟩
  | 31 => ⟨S266240, .f32⟩
  | 32 => ⟨S4096x256, .f32⟩
  | 33 => ⟨S266240x1, .f32⟩
  | 34 => ⟨S_, .i32⟩
  | 35 => ⟨S266240, .i32⟩
  | 36 => ⟨S266240, .i1⟩
  | 37 => ⟨S_, .i32⟩
  | 38 => ⟨S266240, .i32⟩
  | 39 => ⟨S266240, .i32⟩
  | 40 => ⟨S266240, .i32⟩
  | 41 => ⟨S266240x1, .i32⟩
  | 42 => ⟨S266240x256, .f32⟩
  | 43 => ⟨S266240x256, .f32⟩
  | 44 => ⟨S266240x256, .f32⟩
  | 45 => ⟨S_, .f32⟩
  | 46 => ⟨S4096x256, .f32⟩
  | 47 => ⟨S266240x1, .i32⟩
  | 48 => ⟨S4096x256, .f32⟩
  | 49 => ⟨S1x256, .f32⟩
  | 50 => ⟨S4096x256, .f32⟩
  | 51 => ⟨S4096x256, .f32⟩
  | 52 => ⟨S256x768, .f32⟩
  | 53 => ⟨S4096x768, .f32⟩
  | 54 => ⟨S1x768, .f32⟩
  | 55 => ⟨S4096x768, .f32⟩
  | 56 => ⟨S4096x768, .f32⟩
  | 57 => ⟨S4096x256, .f32⟩
  | 58 => ⟨S4096x256, .f32⟩
  | 59 => ⟨S4096x256, .f32⟩
  | 60 => ⟨S4096x4x64, .f32⟩
  | 61 => ⟨S4x4096x64, .f32⟩
  | 62 => ⟨S4096x4x64, .f32⟩
  | 63 => ⟨S4x4096x64, .f32⟩
  | 64 => ⟨S4096x4x64, .f32⟩
  | 65 => ⟨S4x4096x64, .f32⟩
  | 66 => ⟨S4x4096x4096, .f32⟩
  | 67 => ⟨S_, .f32⟩
  | 68 => ⟨S4x4096x4096, .f32⟩
  | 69 => ⟨S4x4096x4096, .f32⟩
  | 70 => ⟨S_, .f32⟩
  | 71 => ⟨S4x4096, .f32⟩
  | 72 => ⟨S_, .f32⟩
  | 73 => ⟨S4x4096, .f32⟩
  | 74 => ⟨S4x4096, .f32⟩
  | 75 => ⟨S4x4096x1, .f32⟩
  | 76 => ⟨S4x4096x4096, .f32⟩
  | 77 => ⟨S4x4096x4096, .f32⟩
  | 78 => ⟨S4x4096x4096, .f32⟩
  | 79 => ⟨S_, .f32⟩
  | 80 => ⟨S4x4096, .f32⟩
  | 81 => ⟨S4x4096x1, .f32⟩
  | 82 => ⟨S4x4096x4096, .f32⟩
  | 83 => ⟨S4x4096x4096, .f32⟩
  | 84 => ⟨S4x4096x64, .f32⟩
  | 85 => ⟨S4096x4x64, .f32⟩
  | 86 => ⟨S4096x256, .f32⟩
  | 87 => ⟨S256x256, .f32⟩
  | 88 => ⟨S4096x256, .f32⟩
  | 89 => ⟨S1x256, .f32⟩
  | 90 => ⟨S4096x256, .f32⟩
  | 91 => ⟨S4096x256, .f32⟩
  | 92 => ⟨S_, .f32⟩
  | 93 => ⟨S4096x256, .f32⟩
  | 94 => ⟨S4096x256, .f32⟩
  | 95 => ⟨S1x262144, .i32⟩
  | 96 => ⟨S262144, .i32⟩
  | 97 => ⟨S1x262144, .i32⟩
  | 98 => ⟨S262144, .i32⟩
  | 99 => ⟨S4096, .i32⟩
  | 100 => ⟨S266240, .i32⟩
  | 101 => ⟨S266240, .i32⟩
  | 102 => ⟨S_, .f32⟩
  | 103 => ⟨S4096, .f32⟩
  | 104 => ⟨S266240, .f32⟩
  | 105 => ⟨S_, .f32⟩
  | 106 => ⟨S4096, .f32⟩
  | 107 => ⟨S266240x1, .i32⟩
  | 108 => ⟨S4096, .f32⟩
  | 109 => ⟨S_, .f32⟩
  | 110 => ⟨S4096, .f32⟩
  | 111 => ⟨S4096, .i1⟩
  | 112 => ⟨S4096, .f32⟩
  | 113 => ⟨S_, .f32⟩
  | 114 => ⟨S_, .f32⟩
  | 115 => ⟨S4096, .f32⟩
  | 116 => ⟨S4096, .f32⟩
  | 117 => ⟨S_, .i32⟩
  | 118 => ⟨S266240, .i32⟩
  | 119 => ⟨S266240, .i1⟩
  | 120 => ⟨S_, .i32⟩
  | 121 => ⟨S266240, .i32⟩
  | 122 => ⟨S266240, .i32⟩
  | 123 => ⟨S266240, .i32⟩
  | 124 => ⟨S266240x1, .i32⟩
  | 125 => ⟨S266240, .f32⟩
  | 126 => ⟨S266240, .f32⟩
  | 127 => ⟨S_, .i32⟩
  | _ => ⟨S4096x256, .f32⟩

abbrev hbmTy0_2 (i : Nat) : BufTy := match i % 128 with
  | 0 => ⟨S266240, .i32⟩
  | 1 => ⟨S266240, .i1⟩
  | 2 => ⟨S_, .i32⟩
  | 3 => ⟨S266240, .i32⟩
  | 4 => ⟨S266240, .i32⟩
  | 5 => ⟨S266240, .i32⟩
  | 6 => ⟨S266240x1, .i32⟩
  | 7 => ⟨S266240, .f32⟩
  | 8 => ⟨S266240, .f32⟩
  | 9 => ⟨S4096x128, .f32⟩
  | 10 => ⟨S266240x1, .f32⟩
  | 11 => ⟨S_, .i32⟩
  | 12 => ⟨S266240, .i32⟩
  | 13 => ⟨S266240, .i1⟩
  | 14 => ⟨S_, .i32⟩
  | 15 => ⟨S266240, .i32⟩
  | 16 => ⟨S266240, .i32⟩
  | 17 => ⟨S266240, .i32⟩
  | 18 => ⟨S266240x1, .i32⟩
  | 19 => ⟨S266240x128, .f32⟩
  | 20 => ⟨S266240x128, .f32⟩
  | 21 => ⟨S266240x128, .f32⟩
  | 22 => ⟨S_, .f32⟩
  | 23 => ⟨S4096x128, .f32⟩
  | 24 => ⟨S266240x1, .i32⟩
  | 25 => ⟨S4096x128, .f32⟩
  | 26 => ⟨S1x128, .f32⟩
  | 27 => ⟨S4096x128, .f32⟩
  | 28 => ⟨S4096x128, .f32⟩
  | 29 => ⟨S4096x128, .f32⟩
  | 30 => ⟨S4096x128, .f32⟩
  | 31 => ⟨S_, .f32⟩
  | 32 => ⟨S4096x128, .f32⟩
  | 33 => ⟨S4096x128, .f32⟩
  | 34 => ⟨S_, .f32⟩
  | 35 => ⟨S4096x128, .f32⟩
  | 36 => ⟨S4096x128, .f32⟩
  | _ => ⟨S4096x256, .f32⟩

abbrev hbmTy (i : Nat) : BufTy := match i / 128 with
  | 0 => hbmTy0_0 i
  | 1 => hbmTy0_1 i
  | 2 => hbmTy0_2 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_9 : Ref sig .tc := ⟨.hbm, 90, rfl⟩
abbrev main_v64 : Ref sig .tc := ⟨.hbm, 91, rfl⟩
abbrev main_v65 : Ref sig .tc := ⟨.hbm, 92, rfl⟩
abbrev main_cst_10 : Ref sig .tc := ⟨.hbm, 93, rfl⟩
abbrev main_v66 : Ref sig .tc := ⟨.hbm, 94, rfl⟩
abbrev main_cst_11 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_12 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_call1_cst : Ref sig .tc := ⟨.hbm, 115, rfl⟩
abbrev main_call1_v0 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_13 : Ref sig .tc := ⟨.hbm, 125, rfl⟩
abbrev main_v93 : Ref sig .tc := ⟨.hbm, 126, rfl⟩
abbrev main_v94 : Ref sig .tc := ⟨.hbm, 127, rfl⟩
abbrev main_cst_14 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_15 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_16 : Ref sig .tc := ⟨.hbm, 136, rfl⟩
abbrev main_call2_v0 : Ref sig .tc := ⟨.hbm, 137, rfl⟩
abbrev main_call2_v1 : Ref sig .tc := ⟨.hbm, 138, rfl⟩
abbrev main_v101 : Ref sig .tc := ⟨.hbm, 139, rfl⟩
abbrev main_c_17 : Ref sig .tc := ⟨.hbm, 140, rfl⟩
abbrev main_v102 : Ref sig .tc := ⟨.hbm, 141, rfl⟩
abbrev main_v103 : Ref sig .tc := ⟨.hbm, 142, rfl⟩
abbrev main_c_18 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_c_19 : Ref sig .tc := ⟨.hbm, 150, rfl⟩
abbrev main_v110 : Ref sig .tc := ⟨.hbm, 151, rfl⟩
abbrev main_v111 : Ref sig .tc := ⟨.hbm, 152, rfl⟩
abbrev main_c_20 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_c_21 : Ref sig .tc := ⟨.hbm, 162, rfl⟩
abbrev main_v120 : Ref sig .tc := ⟨.hbm, 163, rfl⟩
abbrev main_v121 : Ref sig .tc := ⟨.hbm, 164, rfl⟩
abbrev main_c_22 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_23 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_cst_24 : Ref sig .tc := ⟨.hbm, 195, rfl⟩
abbrev main_v150 : Ref sig .tc := ⟨.hbm, 196, rfl⟩
abbrev main_v151 : Ref sig .tc := ⟨.hbm, 197, rfl⟩
abbrev main_cst_25 : Ref sig .tc := ⟨.hbm, 198, rfl⟩
abbrev main_v152 : Ref sig .tc := ⟨.hbm, 199, rfl⟩
abbrev main_cst_26 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_cst_27 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_call3_cst : Ref sig .tc := ⟨.hbm, 220, rfl⟩
abbrev main_call3_v0 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_cst_28 : Ref sig .tc := ⟨.hbm, 230, rfl⟩
abbrev main_v179 : Ref sig .tc := ⟨.hbm, 231, rfl⟩
abbrev main_v180 : Ref sig .tc := ⟨.hbm, 232, rfl⟩
abbrev main_cst_29 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_cst_30 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_cst_31 : Ref sig .tc := ⟨.hbm, 241, rfl⟩
abbrev main_call4_v0 : Ref sig .tc := ⟨.hbm, 242, rfl⟩
abbrev main_call4_v1 : Ref sig .tc := ⟨.hbm, 243, rfl⟩
abbrev main_v187 : Ref sig .tc := ⟨.hbm, 244, rfl⟩
abbrev main_c_32 : Ref sig .tc := ⟨.hbm, 245, rfl⟩
abbrev main_v188 : Ref sig .tc := ⟨.hbm, 246, rfl⟩
abbrev main_v189 : Ref sig .tc := ⟨.hbm, 247, rfl⟩
abbrev main_c_33 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_c_34 : Ref sig .tc := ⟨.hbm, 255, rfl⟩
abbrev main_v196 : Ref sig .tc := ⟨.hbm, 256, rfl⟩
abbrev main_v197 : Ref sig .tc := ⟨.hbm, 257, rfl⟩
abbrev main_c_35 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_c_36 : Ref sig .tc := ⟨.hbm, 267, rfl⟩
abbrev main_v206 : Ref sig .tc := ⟨.hbm, 268, rfl⟩
abbrev main_v207 : Ref sig .tc := ⟨.hbm, 269, rfl⟩
abbrev main_c_37 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_cst_38 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_cst_39 : Ref sig .tc := ⟨.hbm, 287, rfl⟩
abbrev main_v223 : Ref sig .tc := ⟨.hbm, 288, rfl⟩
abbrev main_v224 : Ref sig .tc := ⟨.hbm, 289, rfl⟩
abbrev main_cst_40 : Ref sig .tc := ⟨.hbm, 290, rfl⟩
abbrev main_v225 : Ref sig .tc := ⟨.hbm, 291, rfl⟩
abbrev main_v226 : Ref sig .tc := ⟨.hbm, 292, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S4096_S266240_d0 : Shape.Concatenates [S262144, S4096] S266240 0
  bcast_S_S4096 : S_.BroadcastsInDim S4096 (![] : Fin 0 → Fin S4096.rank)
  bcast_S266240_S266240x1_0 : S266240.BroadcastsInDim S266240x1 (![0] : Fin 1 → Fin S266240x1.rank)
  bcast_S_S266240 : S_.BroadcastsInDim S266240 (![] : Fin 0 → Fin S266240.rank)
  bcast_S266240x1_S266240x256_0_1 : S266240x1.BroadcastsInDim S266240x256 (![0, 1] : Fin 2 → Fin S266240x256.rank)
  bcast_S_S4096x256 : S_.BroadcastsInDim S4096x256 (![] : Fin 0 → Fin S4096x256.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  transposes_S768x256_S256x768_1_0 : S768x256.Transposes [1, 0] S256x768
  bcast_S768_S1x768_1 : S768.BroadcastsInDim S1x768 (![1] : Fin 1 → Fin S1x768.rank)
  bcast_S1x768_S4096x768_0_1 : S1x768.BroadcastsInDim S4096x768 (![0, 1] : Fin 2 → Fin S4096x768.rank)
  slices_S4096x768_S4096x256_0_0 : S4096x768.Slices ![0, 0] S4096x256
  slices_S4096x768_S4096x256_0_256 : S4096x768.Slices ![0, 256] S4096x256
  slices_S4096x768_S4096x256_0_512 : S4096x768.Slices ![0, 512] S4096x256
  shapeCasts_S4096x256_S4096x4x64 : S4096x256.ShapeCasts S4096x4x64
  transposes_S4096x4x64_S4x4096x64_1_0_2 : S4096x4x64.Transposes [1, 0, 2] S4x4096x64
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  transposes_S4x4096x64_S4096x4x64_1_0_2 : S4x4096x64.Transposes [1, 0, 2] S4096x4x64
  shapeCasts_S4096x4x64_S4096x256 : S4096x4x64.ShapeCasts S4096x256
  transposes_S256x256_S256x256_1_0 : S256x256.Transposes [1, 0] S256x256
  bcast_S266240x1_S266240x128_0_1 : S266240x1.BroadcastsInDim S266240x128 (![0, 1] : Fin 2 → Fin S266240x128.rank)
  bcast_S_S4096x128 : S_.BroadcastsInDim S4096x128 (![] : Fin 0 → Fin S4096x128.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  scatter_S4096_S266240x1_S266240_n_0_0_1_wf : ScatterDims.WF S4096 S266240x1 S266240 [] [0] [0] 1
  gather_S4096_S266240x1_S266240_n_0_n_n_0_1_1_wf : GatherDims.WF S4096 S266240x1 S266240 [] [0] [] [0] [] 1 ![1]
  dot_S4096x256_S256x256_S4096x256_1_0_0_1_n_n_wf : DotDims.WF S4096x256 S256x256 S4096x256 [1] [0] [0] [1] [] []
  gather_S4096x256_S266240x1_S266240x256_1_0_n_n_0_1_1256_wf : GatherDims.WF S4096x256 S266240x1 S266240x256 [1] [0] [] [0] [] 1 ![1, 256]
  scatter_S4096x256_S266240x1_S266240x256_1_0_0_1_wf : ScatterDims.WF S4096x256 S266240x1 S266240x256 [1] [0] [0] 1
  dot_S4096x256_S256x768_S4096x768_1_0_0_1_n_n_wf : DotDims.WF S4096x256 S256x768 S4096x768 [1] [0] [0] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]
  dot_S4096x256_S256x128_S4096x128_1_0_0_1_n_n_wf : DotDims.WF S4096x256 S256x128 S4096x128 [1] [0] [0] [1] [] []
  gather_S4096x128_S266240x1_S266240x128_1_0_n_n_0_1_1128_wf : GatherDims.WF S4096x128 S266240x1 S266240x128 [1] [0] [] [0] [] 1 ![1, 128]
  scatter_S4096x128_S266240x1_S266240x128_1_0_0_1_wf : ScatterDims.WF S4096x128 S266240x1 S266240x128 [1] [0] [0] 1

variable [Facts₀]

def scatter_S4096_S266240x1_S266240_n_0_0_1 : ScatterDims S4096 S266240x1 S266240 where
  updateWindowDims := []
  insertedWindowDims := [0]
  scatterDimsToOperandDims := [0]
  indexVectorDim := 1
  wf := scatter_S4096_S266240x1_S266240_n_0_0_1_wf
def gather_S4096_S266240x1_S266240_n_0_n_n_0_1_1 : GatherDims S4096 S266240x1 S266240 where
  offsetDims := []
  collapsedSliceDims := [0]
  operandBatchingDims := []
  startIndicesBatchingDims := []
  startIndexMap := [0]
  indexVectorDim := 1
  sliceSizes := ![1]
  wf := gather_S4096_S266240x1_S266240_n_0_n_n_0_1_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S4096x256_S266240x1_S266240x256_1_0_n_n_0_1_1256 : GatherDims S4096x256 S266240x1 S266240x256 where
  offsetDims := [1]
  collapsedSliceDims := [0]
  operandBatchingDims := []
  startIndicesBatchingDims := []
  startIndexMap := [0]
  indexVectorDim := 1
  sliceSizes := ![1, 256]
  wf := gather_S4096x256_S266240x1_S266240x256_1_0_n_n_0_1_1256_wf
def scatter_S4096x256_S266240x1_S266240x256_1_0_0_1 : ScatterDims S4096x256 S266240x1 S266240x256 where
  updateWindowDims := [1]
  insertedWindowDims := [0]
  scatterDimsToOperandDims := [0]
  indexVectorDim := 1
  wf := scatter_S4096x256_S266240x1_S266240x256_1_0_0_1_wf
def dot_S4096x256_S256x768_S4096x768_1_0_0_1_n_n : DotDims S4096x256 S256x768 S4096x768 where
  lhsContracting := [1]
  rhsContracting := [0]
  lhsNonContracting := [0]
  rhsNonContracting := [1]
  lhsBatch := []
  rhsBatch := []
  wf := dot_S4096x256_S256x768_S4096x768_1_0_0_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def gather_S4096x128_S266240x1_S266240x128_1_0_n_n_0_1_1128 : GatherDims S4096x128 S266240x1 S266240x128 where
  offsetDims := [1]
  collapsedSliceDims := [0]
  operandBatchingDims := []
  startIndicesBatchingDims := []
  startIndexMap := [0]
  indexVectorDim := 1
  sliceSizes := ![1, 128]
  wf := gather_S4096x128_S266240x1_S266240x128_1_0_n_n_0_1_1128_wf
def scatter_S4096x128_S266240x1_S266240x128_1_0_0_1 : ScatterDims S4096x128 S266240x1 S266240x128 where
  updateWindowDims := [1]
  insertedWindowDims := [0]
  scatterDimsToOperandDims := [0]
  indexVectorDim := 1
  wf := scatter_S4096x128_S266240x1_S266240x128_1_0_0_1_wf

class Facts : Prop extends Facts₀ where

variable [Facts]
-- ==== Proof.LibBody.lean ====
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Idealize.ShloMosaic

open Idealize.SL Idealize.SL.RA
open Idealize.SL.BI (sProp)
open scoped Idealize.SL.BI
open Idealize.SL.BI.BIBase Idealize.SL.BI.Laws Idealize.SL.Sem Idealize.SL.ProofMode

universe v w

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

-- a rectangle from an offset with the shape's own extents has offset zero, so it holds every index
theorem View.cover_full {s : Shape} {e : EltTy} {off : Fin s.rank → ℕ} (inb : ∀ a, off a + s.size a ≤ s.size a)
    (p : (Rect.unit off s.size inb).shape.Idx → Val e) (y : s.Idx) :
    ∃ pc ∈ ([⟨Rect.unit off s.size inb, p⟩] : List (View.Piece Val s e)), y ∈ pc.1.set :=
  ⟨⟨Rect.unit off s.size inb, p⟩, List.mem_singleton.mpr rfl, (Rect.mem_set_unit (inb := inb)).mpr fun a => by have := inb a; have := (y a).isLt; omega⟩

namespace Pipeline

variable {Λ₀ : SL.Sem.Labels} {cfg : Cfg sig Λ₀} {c : Dev nD} (dat : Dat τ Val Ix Name U Lvl cfg c)

theorem Dat.before_eq_after (w : Fin cfg.W) (t : Fin cfg.N) (d : (cfg.win w).block.Idx → Val (cfg.win w).elt)
    (hw : (cfg.win w).isOut = false := by rfl) (hlive : ∀ i, cfg.idle w i = false := by exact fun _ => rfl)
    (hclip : ∀ t t' : Fin cfg.N, (cfg.win w).index t = (cfg.win w).index t' →
      (cfg.win w).clip (cfg.grid.coords t) = (cfg.win w).clip (cfg.grid.coords t') := by exact fun _ _ _ => rfl)
    (hkeep : ∀ t, (cfg.win w).cut (cfg.grid.coords t) (dat.after w t) = dat.blockOf w t := by exact fun _ => rfl)
    (hfetch : ∀ t d, dat.fetched w t d = dat.after w t := by exact fun _ _ => rfl) : dat.before w t d = dat.after w t :=
  (dat.before_in_eq_fetched w hw hlive hclip hkeep t d).trans (hfetch t d)

end Pipeline

section Body

variable {Ef : Type → Type v} {Mask : Sort w} (Fr : Mask → sProp (MT nD τ sig Ix Val Name U Lvl))
  (W : Mask → ∀ ⦃β : Type⦄, Ef β → sWPT (MT nD τ sig Ix Val Name U Lvl) β)
  (E : Mask) (p : Prog Ef PUnit)
variable (c : Thread nD τ) {sp₀ sp₁ sp₂ sp₃ : Space} {s₀ s₁ s₂ s₃ : Shape} {e₀ e₁ e₂ e₃ : EltTy}
  (a₀ : Memref sig c.2.kind sp₀ s₀ e₀) (a₁ : Memref sig c.2.kind sp₁ s₁ e₁) (a₂ : Memref sig c.2.kind sp₂ s₂ e₂)
  (a₃ : Memref sig c.2.kind sp₃ s₃ e₃)
  (Y : (s₀.Idx → Val e₀) → (s₁.Idx → Val e₁) → (s₂.Idx → Val e₂) → s₃.Idx → Val e₃)

/-- Owning four memrefs' elements, `p` returns them with three unchanged and the fourth reading `Y` of what the three read. -/
def Body31 : Prop :=
  ∀ (f₀ : a₀.view.ty.Contents Val) (f₁ : a₁.view.ty.Contents Val) (f₂ : a₂.view.ty.Contents Val) (f₃ : a₃.view.ty.Contents Val)
    (K : PUnit → sProp 𝕄),
    iprop((a₀.view.loc c ↦[a₀.view.set]{fullShare} f₀) ∗ (a₁.view.loc c ↦[a₁.view.set]{fullShare} f₁)
        ∗ (a₂.view.loc c ↦[a₂.view.set]{fullShare} f₂) ∗ (a₃.view.loc c ↦[a₃.view.set]{fullShare} f₃)
        ∗ ((a₀.view.loc c ↦[a₀.view.set]{fullShare} f₀) -∗ (a₁.view.loc c ↦[a₁.view.set]{fullShare} f₁)
          -∗ (a₂.view.loc c ↦[a₂.view.set]{fullShare} f₂)
          -∗ (∃ g, ⌜a₃.view.read Val g = Y (a₀.view.read Val f₀) (a₁.view.read Val f₁) (a₂.view.read Val f₂)⌝
                ∗ (a₃.view.loc c ↦[a₃.view.set]{fullShare} g))
          -∗ K ⟨⟩))
      ⊢ wp Fr W E p K

variable {Fr W E p c a₀ a₁ a₂ a₃ Y}

-- with the three inputs reading x₀ x₁ x₂, whatever else is held is framed around the body
theorem Body31.frame (H : Body31 Fr W E p c a₀ a₁ a₂ a₃ Y) {Φ O : sProp 𝕄} {D₀ D₁ D₂ D₃ : Type}
    {b₀ : D₀ → s₀.Idx → Val e₀} {b₁ : D₁ → s₁.Idx → Val e₁} {b₂ : D₂ → s₂.Idx → Val e₂} {b₃ : D₃ → s₃.Idx → Val e₃}
    {x₀ : s₀.Idx → Val e₀} {x₁ : s₁.Idx → Val e₁} {x₂ : s₂.Idx → Val e₂} {y : s₃.Idx → Val e₃}
    (h₀ : ∀ d, b₀ d = x₀) (h₁ : ∀ d, b₁ d = x₁) (h₂ : ∀ d, b₂ d = x₂) (h₃ : y = Y x₀ x₁ x₂) :
    iprop(Φ ∗ O ∗ (∃ d, owns c a₀ fullShare (b₀ d)) ∗ (∃ d, owns c a₁ fullShare (b₁ d)) ∗ (∃ d, owns c a₂ fullShare (b₂ d))
        ∗ (∃ d, owns c a₃ fullShare (b₃ d)))
      ⊢ wp Fr W E p fun _ => iprop(Φ ∗ O ∗ owns c a₀ fullShare x₀ ∗ owns c a₁ fullShare x₁ ∗ owns c a₂ fullShare x₂
          ∗ owns c a₃ fullShare y) := by
  simp only [h₀, h₁, h₂, h₃]
  unfold owns
  iintro ⟨HΦ, Ho, ⟨%d0, %f0, %hf0, H0⟩, ⟨%d1, %f1, %hf1, H1⟩, ⟨%d2, %f2, %hf2, H2⟩, ⟨%d3, %f3, -, H3⟩⟩
  subst hf0; subst hf1; subst hf2
  iapply (H f0 f1 f2 f3 _)
  isplitl [H0]; · iexact H0
  isplitl [H1]; · iexact H1
  isplitl [H2]; · iexact H2
  isplitl [H3]; · iexact H3
  iintro H0 H1 H2 H3
  isplitl [HΦ]; · iexact HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexact H3

end Body

end Idealize.ShloMosaic

end
-- ==== Proof.Bits.Region0.lean ====
import proofs.«403157_j14328010899645_2_alg».proof.Proof.Gen.Kernel.Launch
import proofs.«403157_j14328010899645_2_alg».proof.Proof.Gen.Kernel.Skeleton
import proofs.«403157_j14328010899645_2_alg».proof.Proof.Gen.Kernel.Points
import proofs.«403157_j14328010899645_2_alg».proof.Proof.LibBody

noncomputable section

namespace Cert.Kernel.Hand

open Cert.Kernel Cert.Kernel.Gen
open Idealize.ShloMosaic Idealize.ShloMosaic.TcCoe Idealize.SL.RA
open Idealize.ShloMosaic.Pipeline (Dat BodyObligation)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x256 := Rect.unit (s := S512x256) ![0, 0] S512x256.size inb_S512x256_S512x256_0_0
abbrev r0_1 : Rect S256x256 := Rect.unit (s := S256x256) ![0, 0] S256x256.size inb_S256x256_S256x256_0_0
abbrev r0_2 : Rect S1x256 := Rect.unit (s := S1x256) ![0, 0] S1x256.size inb_S1x256_S1x256_0_0
abbrev r0_3 : Rect S512x256 := Rect.unit (s := S512x256) ![0, 0] S512x256.size inb_S512x256_S512x256_0_0

def out0_3 (x0 : Vec F S512x256 .f32) (x1 : Vec F S256x256 .f32) (x2 : Vec F S1x256 .f32) : Vec F S512x256 .bf16 :=
  View.canon [⟨r0_3, k0_pay1 (View.ld x0 r0_0) (View.ld x1 r0_1) (View.ld x2 r0_2)⟩]

-- the one store is over the whole output, which therefore reads the stored payload
theorem sound_kernel0 (c : Dev nD) (E : Set ℕ) (i : grid0.Coords)
    (arg1 : Memref sig .tc .vmem S512x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S512x256 .bf16) (harg4 : arg4.IsWhole) :
    Body31 (Ix := Unit) (U := UR sig nD τ) (Lvl := ℕ) frame (wpE (defs₀ (F := F)) Variants.none c none) E
      (cc0__matmul_bias_kernel i arg1 harg1 arg2 harg2 arg3 harg3 arg4 harg4) (c : Thread nD τ) arg1 arg2 arg3 arg4 out0_3 :=
  fun f0 f1 f2 f3 K => by
  simp only [cc0__matmul_bias_kernel_eq_skeleton]; unfold cc0__matmul_bias_kernel_skel
  iintro ⟨H0, H1, H2, H3, Hk⟩
  sl_exec
  sl_step
  iapply Hk $$ H0 H1 H2
  iexists _; isplitr
  swap; · iexact H3
  ipureintro
  exact View.read_writes_eq_canon _ _ _ (View.cover_full _ _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

theorem body_obligation0 (c : Dev nD) : BodyObligation (dat0 (F := F) V c) (defs₀ (F := F)) Variants.none () Set.univ := fun t => by
  rw [bigSep_W0, bigSep_W0]
  exact Body31.frame (p := bodyAt0 t) (sound_kernel0 c Set.univ _ _ _ _ _ _ _ _ _) (fun d => (dat0 V c).before_eq_after 0 t d)
    (fun d => (dat0 V c).before_eq_after 1 t d) (fun d => (dat0 V c).before_eq_after 2 t d) (by dsimp only [dat0])

end Cert.Kernel.Hand
-- ==== Proof.Bits.Region1.lean ====
import proofs.«403157_j14328010899645_2_alg».proof.Proof.Gen.Kernel.Launch
import proofs.«403157_j14328010899645_2_alg».proof.Proof.Gen.Kernel.Skeleton
import proofs.«403157_j14328010899645_2_alg».proof.Proof.Gen.Kernel.Points
import proofs.«403157_j14328010899645_2_alg».proof.Proof.LibBody

noncomputable section

namespace Cert.Kernel.Hand

open Cert.Kernel Cert.Kernel.Gen
open Idealize.ShloMosaic Idealize.ShloMosaic.TcCoe Idealize.SL.RA
open Idealize.ShloMosaic.Pipeline (Dat BodyObligation)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1024x4096 := Rect.unit (s := S1024x4096) ![0, 0] S1024x4096.size inb_S1024x4096_S1024x4096_0_0
abbrev r1_1 : Rect S4096x256 := Rect.unit (s := S4096x256) ![0, 0] S4096x256.size inb_S4096x256_S4096x256_0_0
abbrev r1_2 : Rect S1x256 := Rect.unit (s := S1x256) ![0, 0] S1x256.size inb_S1x256_S1x256_0_0
abbrev r1_3 : Rect S1024x256 := Rect.unit (s := S1024x256) ![0, 0] S1024x256.size inb_S1024x256_S1024x256_0_0

def out1_3 (x0 : Vec F S1024x4096 .bf16) (x1 : Vec F S4096x256 .bf16) (x2 : Vec F S1x256 .f32) : Vec F S1024x256 .f32 :=
  View.canon [⟨r1_3, k1_pay1 (View.ld x0 r1_0) (View.ld x1 r1_1) (View.ld x2 r1_2)⟩]

-- the one store is over the whole output, which therefore reads the stored payload
theorem sound_kernel1 (c : Dev nD) (E : Set ℕ) (i : grid1.Coords)
    (arg1 : Memref sig .tc .vmem S1024x4096 .bf16) (harg1 : arg1.IsWhole) (arg2 : Memref sig .tc .vmem S4096x256 .bf16) (harg2 : arg2.IsWhole)
    (arg3 : Memref sig .tc .vmem S1x256 .f32) (harg3 : arg3.IsWhole) (arg4 : Memref sig .tc .vmem S1024x256 .f32) (harg4 : arg4.IsWhole) :
    Body31 (Ix := Unit) (U := UR sig nD τ) (Lvl := ℕ) frame (wpE (defs₀ (F := F)) Variants.none c none) E
      (cc1__matmul_bias_kernel i arg1 harg1 arg2 harg2 arg3 harg3 arg4 harg4) (c : Thread nD τ) arg1 arg2 arg3 arg4 out1_3 :=
  fun f0 f1 f2 f3 K => by
  simp only [cc1__matmul_bias_kernel_eq_skeleton]; unfold cc1__matmul_bias_kernel_skel
  iintro ⟨H0, H1, H2, H3, Hk⟩
  sl_exec
  sl_step
  iapply Hk $$ H0 H1 H2
  iexists _; isplitr
  swap; · iexact H3
  ipureintro
  exact View.read_writes_eq_canon _ _ _ (View.cover_full _ _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) :
    (dat1 V c).after 3 t = out1_3 (iblk1 V c 0 t) (iblk1 V c 1 t) (iblk1 V c 2 t) := by dsimp only [dat1]

theorem body_obligation1 (c : Dev nD) : BodyObligation (dat1 (F := F) V c) (defs₀ (F := F)) Variants.none () Set.univ := fun t => by
  rw [bigSep_W1, bigSep_W1]
  exact Body31.frame (p := bodyAt1 t) (sound_kernel1 c Set.univ _ _ _ _ _ _ _ _ _) (fun d => (dat1 V c).before_eq_after 0 t d)
    (fun d => (dat1 V c).before_eq_after 1 t d) (fun d => (dat1 V c).before_eq_after 2 t d) (by dsimp only [dat1])

end Cert.Kernel.Hand
-- ==== Proof.Bits.Region2.lean ====
import proofs.«403157_j14328010899645_2_alg».proof.Proof.Gen.Kernel.Launch
import proofs.«403157_j14328010899645_2_alg».proof.Proof.Gen.Kernel.Skeleton
import proofs.«403157_j14328010899645_2_alg».proof.Proof.Gen.Kernel.Points
import proofs.«403157_j14328010899645_2_alg».proof.Proof.LibBody

noncomputable section

namespace Cert.Kernel.Hand

open Cert.Kernel Cert.Kernel.Gen
open Idealize.ShloMosaic Idealize.ShloMosaic.TcCoe Idealize.SL.RA
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S512x256 := Rect.unit (s := S512x256) ![0, 0] S512x256.size inb_S512x256_S512x256_0_0
abbrev r2_1 : Rect S256x768 := Rect.unit (s := S256x768) ![0, 0] S256x768.size inb_S256x768_S256x768_0_0
abbrev r2_2 : Rect S1x768 := Rect.unit (s := S1x768) ![0, 0] S1x768.size inb_S1x768_S1x768_0_0
abbrev r2_3 : Rect S512x768 := Rect.unit (s := S512x768) ![0, 0] S512x768.size inb_S512x768_S512x768_0_0

def out2_3 (x0 : Vec F S512x256 .f32) (x1 : Vec F S256x768 .f32) (x2 : Vec F S1x768 .f32) : Vec F S512x768 .bf16 :=
  View.canon [⟨r2_3, k2_pay1 (View.ld x0 r2_0) (View.ld x1 r2_1) (View.ld x2 r2_2)⟩]

-- the one store is over the whole output, which therefore reads the stored payload
theorem sound_kernel2 (c : Dev nD) (E : Set ℕ) (i : grid2.Coords)
    (arg1 : Memref sig .tc .vmem S512x256 .f32) (harg1 : arg1.IsWhole) (arg2 : Memref sig .tc .vmem S256x768 .f32) (harg2 : arg2.IsWhole)
    (arg3 : Memref sig .tc .vmem S1x768 .f32) (harg3 : arg3.IsWhole) (arg4 : Memref sig .tc .vmem S512x768 .bf16) (harg4 : arg4.IsWhole) :
    Body31 (Ix := Unit) (U := UR sig nD τ) (Lvl := ℕ) frame (wpE (defs₀ (F := F)) Variants.none c none) E
      (cc2__matmul_bias_kernel i arg1 harg1 arg2 harg2 arg3 harg3 arg4 harg4) (c : Thread nD τ) arg1 arg2 arg3 arg4 out2_3 :=
  fun f0 f1 f2 f3 K => by
  simp only [cc2__matmul_bias_kernel_eq_skeleton]; unfold cc2__matmul_bias_kernel_skel
  iintro ⟨H0, H1, H2, H3, Hk⟩
  sl_exec
  sl_step
  iapply Hk $$ H0 H1 H2
  iexists _; isplitr
  swap; · iexact H3
  ipureintro
  exact View.read_writes_eq_canon _ _ _ (View.cover_full _ _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) :
    (dat2 V c).after 3 t = out2_3 (iblk2 V c 0 t) (iblk2 V c 1 t) (iblk2 V c 2 t) := by dsimp only [dat2]

theorem body_obligation2 (c : Dev nD) : BodyObligation (dat2 (F := F) V c) (defs₀ (F := F)) Variants.none () Set.univ := fun t => by
  rw [bigSep_W2, bigSep_W2]
  exact Body31.frame (p := bodyAt2 t) (sound_kernel2 c Set.univ _ _ _ _ _ _ _ _ _) (fun d => (dat2 V c).before_eq_after 0 t d)
    (fun d => (dat2 V c).before_eq_after 1 t d) (fun d => (dat2 V c).before_eq_after 2 t d) (by dsimp only [dat2])

end Cert.Kernel.Hand
-- ==== Proof.LibBody3.lean ====
import Idealize.ShloMosaic.Lib.Pipeline.FrameBody
import Idealize.ShloMosaic.Lib.Pipeline.Value
namespace Cert.LibBody3
open Idealize.ShloMosaic Idealize.SL Idealize.SL.RA Idealize.SL.BI Idealize.SL.BI.BIBase
open scoped Idealize.SL.BI
theorem off0 : (![0, 0, 0] : Fin 3 → ℕ) = fun _ => 0 := funext fun a => by fin_cases a <;> rfl
theorem pt_owns {nD : Nat} {τ : Topo} {sig : RefSig} {Val : EltTy → Type} {Ix : Type} [DecidableEq Ix] {Name : Type} [DecidableEq Name]
    {U : Type} [URA U] {Lvl : Type} {c : Thread nD τ} {sp : Space} {sh : Shape} {e : EltTy} {m : Memref sig c.2.kind sp sh e}
    {q : PosShare TreeShare} {f : m.view.ty.Contents Val} :
    (m.view.loc c ↦[m.view.set]{q} f : sProp (MT nD τ sig Ix Val Name U Lvl)) ⊢ owns c m q (m.view.read Val f) :=
  owns_intro c m q f
variable {Val : EltTy → Type} [∀ e, Nonempty (Val e)] {S : Shape} {e : EltTy} {sig' : RefSig} {κ : Kind} {sp : Space}
  (v : View sig' κ sp S e) (f : v.ty.Contents Val) {off : Fin S.rank → Nat} (h : off = fun _ => 0)
  (inb : ∀ a, off a + S.size a ≤ S.size a) (w : S.Idx → Val e) (L : List (View.Piece Val S e))
include h
theorem read_store_whole : v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]
theorem readCov_store_whole :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]
theorem readAt_whole : v.readAt Val (Rect.unit off S.size inb).toLoadRect f = v.read Val f := by
  rw [View.readAt_eq_ld, View.ld_unit_zero h]
end Cert.LibBody3
-- ==== Proof.Bits.Region3.lean ====
import proofs.«403157_j14328010899645_2_alg».proof.Proof.Gen.Kernel.Launch
import proofs.«403157_j14328010899645_2_alg».proof.Proof.Gen.Kernel.Skeleton
import proofs.«403157_j14328010899645_2_alg».proof.Proof.Gen.Kernel.Points
import proofs.«403157_j14328010899645_2_alg».proof.Proof.LibBody3
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.LibBody3

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev St3 (F : FTy → Type) : Type := Vec F S4x1024x1 .f32 × Vec F S4x1024x1 .f32 × Vec F S4x1024x64 .f32

def init3 : St3 F := (k3_pay4, k3_pay5, k3_pay6)

def step3 (q : Vec F S4x1024x64 .bf16) (k v : Vec F S4x512x64 .bf16) (s : St3 F) : St3 F :=
  (k3_pay2 (k3_pay8 q k s.1),
   k3_pay11 q k s.1 s.1 s.2.1,
   k3_pay1 (k3_pay9 q k s.1 s.1) (k3_pay10 q k s.1) v s.2.2)

def out3_3 (s : St3 F) : Vec F S4x1024x64 .bf16 := k3_pay3 s.2.2 s.2.1

def scr3 (c : Dev nD) : ℕ → St3 F
  | 0 => if h : 0 < cfg3.N then step3 (iblk3 V c 0 ⟨0, h⟩) (iblk3 V c 1 ⟨0, h⟩) (iblk3 V c 2 ⟨0, h⟩) init3 else init3
  | n + 1 => if h : n + 1 < cfg3.N then
      step3 (iblk3 V c 0 ⟨n + 1, h⟩) (iblk3 V c 1 ⟨n + 1, h⟩) (iblk3 V c 2 ⟨n + 1, h⟩) (if (n + 1) % 8 = 0 then init3 else scr3 c n)
    else scr3 c n

theorem scr3_first (c : Dev nD) (t : Fin cfg3.N) (h0 : t.val % 8 = 0) :
    scr3 V c t.val = step3 (iblk3 V c 0 t) (iblk3 V c 1 t) (iblk3 V c 2 t) init3 := by
  obtain ⟨n, hn⟩ := t
  dsimp only at h0 ⊢
  cases n with
  | zero => rw [scr3.eq_1, dif_pos hn]
  | succ n => rw [scr3.eq_2, dif_pos hn, if_pos h0]

theorem scr3_next (c : Dev nD) (t : Fin cfg3.N) (h0 : ¬ t.val % 8 = 0) :
    scr3 V c t.val = step3 (iblk3 V c 0 t) (iblk3 V c 1 t) (iblk3 V c 2 t) (scr3 V c (t.val - 1)) := by
  obtain ⟨n, hn⟩ := t
  dsimp only at h0 ⊢
  cases n with
  | zero => exact absurd (Nat.zero_mod _) h0
  | succ n => rw [Nat.add_sub_cancel, scr3.eq_2, dif_pos hn, if_neg h0]

abbrev cond3_1 (i : grid3.Coords) : Prop :=
  (Scalar.cmpi .ne (Scalar.extui (Scalar.cmpi .eq (BitVec.ofNat 32 (i 1).val) 0#32)) 0#32) = 1#1

theorem hcond3_1 : ∀ t : Fin cfg3.N, cond3_1 (grid3.coords t) ↔ t.val % 8 = 0 := by decide +kernel
theorem hcond3_2 : ∀ t : Fin cfg3.N, k3_cond2 (grid3.coords t) = 1#1 ↔ t.val % 8 = 7 := by decide +kernel
theorem hidle3_3 : ∀ t : Fin cfg3.N, cfg3.idle 3 (cfg3.grid.coords t) = true ↔ ¬ t.val % 8 = 7 := by decide +kernel

/-- Each point steps the state of the point before, restarting from the initial state at every multiple of 8. -/
theorem scr3_step (c : Dev nD) (t : Fin cfg3.N) (s : St3 F) (hs : t.val ≠ 0 → s = scr3 V c (t.val - 1)) :
    scr3 V c t.val = step3 (iblk3 V c 0 t) (iblk3 V c 1 t) (iblk3 V c 2 t) (if cond3_1 (grid3.coords t) then init3 else s) := by
  split
  · exact scr3_first V c t ((hcond3_1 t).mp ‹_›)
  · rw [hs fun e => ‹¬ _› ((hcond3_1 t).mpr (by rw [e]))]
    exact scr3_next V c t (mt (hcond3_1 t).mpr ‹_›)

/-- The invariant before point `t`: the carried state is the one after point `t - 1`, when there is such a point. -/
def Φ3 (c : Dev nD) (t : Fin (cfg3.N + 1)) : sProp 𝕄 :=
  iprop(∃ s : St3 F, ⌜t.val ≠ 0 → s = scr3 V c (t.val - 1)⌝
    ∗ owns c.tc (Memref.whole cc3_scratch0) fullShare s.1
    ∗ owns c.tc (Memref.whole cc3_scratch1) fullShare s.2.1
    ∗ owns c.tc (Memref.whole cc3_scratch2) fullShare s.2.2
    ∗ Pipeline.scopedRestBut spec3 c [cc3_scratch0, cc3_scratch1, cc3_scratch2]
    ∗ ∃ r, prngReg c r)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (scr3 V c t.val)
  Φ t := Φ3 V c t
  q _ := fullShare
  owed _ := 0

theorem A_eq3 (c : Dev nD) (w : Fin cfg3.W) : (dat3 V c).A w = V c (Pipeline.arrRef spec3 w) := rfl

theorem after3_3 (c : Dev nD) (t : Fin cfg3.N) : (dat3 V c).after 3 t = out3_3 (scr3 V c t.val) := rfl

theorem Φ_eq3 (c : Dev nD) (t : Fin (cfg3.N + 1)) : (dat3 V c).Φ t = Φ3 V c t := rfl

theorem hin3 (c : Dev nD) :
    iprop((∃ r, prngReg c r) ∗ Pipeline.scopedRest (Ix := Unit) (Name := ℕ) (U := UR sig nD τ) (Lvl := ℕ) (Val := Elt F) spec3 c)
      ⊢ ((dat3 V c).Φ 0 : sProp 𝕄) := by
  rw [Φ_eq3, Φ3, scopedRest3_split c]
  simp only [owns_whole]
  iintro ⟨Hp, ⟨⟨%f0, H0⟩, ⟨%f1, H1⟩, ⟨%f2, H2⟩⟩, Hr⟩
  iexists (f0, f1, f2)
  isplitr; · ipureintro; exact fun h => absurd rfl h
  iframe

theorem hout3 (c : Dev nD) :
    ((dat3 V c).Φ (Fin.last cfg3.N) : sProp 𝕄)
      ⊢ iprop((∃ r, prngReg c r) ∗ Pipeline.scopedRest (Ix := Unit) (Name := ℕ) (U := UR sig nD τ) (Lvl := ℕ) (Val := Elt F) spec3 c) := by
  rw [Φ_eq3, Φ3, scopedRest3_split c]
  simp only [owns_whole]
  iintro ⟨%s, -, H0, H1, H2, Hr, Hp⟩
  iframe Hp Hr
  isplitl [H0]; · iexists _; iexact H0
  isplitl [H1]; · iexists _; iexact H1
  iexists _; iexact H2

section Kernel
variable (c : Dev nD) (a2 : Memref sig .tc .vmem S4x1024x64 .bf16) (a3 a4 : Memref sig .tc .vmem S4x512x64 .bf16) (a5 : Memref sig .tc .vmem S4x1024x64 .bf16)
  (a6 a7 : Memref sig .tc .vmem S4x1024x1 .f32) (a8 : Memref sig .tc .vmem S4x1024x64 .f32)
  (q : Vec F S4x1024x64 .bf16) (k v : Vec F S4x512x64 .bf16) (d o : Vec F S4x1024x64 .bf16) (s s' : St3 F)

def held3 : sProp 𝕄 :=
  iprop(owns c.tc a2 fullShare q ∗ owns c.tc a3 fullShare k ∗ owns c.tc a4 fullShare v
    ∗ owns c.tc a5 fullShare o
    ∗ owns c.tc a6 fullShare s.1 ∗ owns c.tc a7 fullShare s.2.1 ∗ owns c.tc a8 fullShare s.2.2)

variable {c a2 a3 a4 a5 a6 a7 a8 q k v o s'}
/-- One run of the body computes one step of the state, from the initial state under the first condition, and under the second the output of the new state. -/
theorem sound_kernel3 {E : Set ℕ} {i : grid3.Coords} {h2 : a2.IsWhole} {h3 : a3.IsWhole} {h4 : a4.IsWhole} {h5 : a5.IsWhole}
    {h6 : a6.IsWhole} {h7 : a7.IsWhole} {h8 : a8.IsWhole}
    (hs : s' = step3 q k v (if cond3_1 i then init3 else s)) (ho : o = if k3_cond2 i = 1#1 then out3_3 s' else d) (K : PUnit → sProp 𝕄) :
    iprop(held3 c a2 a3 a4 a5 a6 a7 a8 q k v d s ∗ (held3 c a2 a3 a4 a5 a6 a7 a8 q k v o s' -∗ K ⟨⟩))
      ⊢ wp frame (wpE (defs₀ (F := F)) Variants.none c none) E (cc3_kernel i a2 h2 a3 h3 a4 h4 a5 h5 a6 h6 a7 h7 a8 h8) K := by
  obtain ⟨s1, s2, s3⟩ := s
  split at hs <;> split at ho <;> subst hs ho <;>
   (sl_unfold [cc3_kernel, k3_part1]
    rw [held3]
    unfold owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
    dsimp only at hf6 hf7 hf8
    subst hf2 hf3 hf4 hf5 hf6 hf7 hf8
    sl_exec (disch := assumption)
    sl_step
    ihave H2 := (pt_owns) $$ H2
    ihave H3 := (pt_owns) $$ H3
    ihave H4 := (pt_owns) $$ H4
    ihave H5 := (pt_owns) $$ H5
    ihave H6 := (pt_owns) $$ H6
    ihave H7 := (pt_owns) $$ H7
    ihave H8 := (pt_owns) $$ H8
    sl_unfold_run_names
    simp only [read_store_whole (S := S4x1024x1) _ _ off0, read_store_whole (S := S4x1024x64) _ _ off0,
      readCov_store_whole (S := S4x1024x1) _ off0, readCov_store_whole (S := S4x1024x64) _ off0,
      readAt_whole (S := S4x1024x1) _ _ off0, readAt_whole (S := S4x1024x64) _ _ off0, readAt_whole (S := S4x512x64) _ _ off0, step3, init3, out3_3]
    iapply Hk
    rw [held3]
    iframe)

end Kernel

theorem leaves3 (c : Dev nD) (t : Fin cfg3.N) (d) :
    owns c.tc (st3_3 t) fullShare (if k3_cond2 (grid3.coords t) = 1#1 then out3_3 (scr3 V c t.val) else (dat3 V c).before 3 t d)
      ⊢ ((dat3 V c).leavesExact 3 t : sProp 𝕄) := by
  by_cases h7 : t.val % 8 = 7
  · rw [if_pos ((hcond3_2 t).mpr h7)]
    unfold Dat.leavesExact
    rw [Bool.eq_false_iff.mpr fun h => (hidle3_3 t).mp h h7]
    exact .rfl
  · rw [if_neg (mt (hcond3_2 t).mp h7),
      (dat3 V c).leavesExact_idle 3 t ((hidle3_3 t).mpr h7) (Bool.eq_false_iff.mpr (mt (flush3_3 t).mp h7))]
    iintro H; iexists d; iexact H

theorem sound_body3 (c : Dev nD) (t : Fin cfg3.N) :
    iprop((dat3 V c).Φ t.castSucc ∗ (dat3 V c).owesAt () t.castSucc
      ∗ (∃ d, owns c.tc (st3_0 t) fullShare ((dat3 V c).before 0 t d))
      ∗ (∃ d, owns c.tc (st3_1 t) fullShare ((dat3 V c).before 1 t d))
      ∗ (∃ d, owns c.tc (st3_2 t) fullShare ((dat3 V c).before 2 t d))
      ∗ (∃ d, owns c.tc (st3_3 t) fullShare ((dat3 V c).before 3 t d)))
    ⊢ wp frame (wpE (defs₀ (F := F)) Variants.none c none) Set.univ (bodyAt3 t) (fun _ =>
      iprop((dat3 V c).Φ t.succ ∗ (dat3 V c).owesAt () t.succ
        ∗ owns c.tc (st3_0 t) fullShare ((dat3 V c).after 0 t)
        ∗ owns c.tc (st3_1 t) fullShare ((dat3 V c).after 1 t)
        ∗ owns c.tc (st3_2 t) fullShare ((dat3 V c).after 2 t)
        ∗ (dat3 V c).leavesExact 3 t)) := by
  simp only [Φ_eq3, Φ3, (dat3 V c).before_in_eq_fetched 0 rfl (fun _ => rfl) (fun _ _ _ => rfl) fun _ => rfl,
    (dat3 V c).before_in_eq_fetched 1 rfl (fun _ => rfl) (fun _ _ _ => rfl) fun _ => rfl,
    (dat3 V c).before_in_eq_fetched 2 rfl (fun _ => rfl) (fun _ _ _ => rfl) fun _ => rfl]
  iintro ⟨⟨%s, %hs, S0, S1, S2, Hrest, Hp⟩, Ho, ⟨%d0, H0⟩, ⟨%d1, H1⟩, ⟨%d2, H2⟩, ⟨%d3, H3⟩⟩
  iapply (sound_kernel3 ((dat3 V c).before 3 t d3) s (scr3_step V c t s hs) rfl _)
  rw [held3, held3]
  iframe S0 S1 S2
  isplitl [H0 H1 H2 H3]
  · isplitl [H0]; · iexact H0
    isplitl [H1]; · iexact H1
    isplitl [H2]; · iexact H2
    iexact H3
  iintro ⟨H0, H1, H2, H3, S0, S1, S2⟩
  isplitl [S0 S1 S2 Hrest Hp]
  · iexists (scr3 V c t.val); isplitr; · ipureintro; exact fun _ => rfl
    iframe
  isplitl [Ho]; · iexact Ho
  isplitl [H0]; · iexact H0
  isplitl [H1]; · iexact H1
  isplitl [H2]; · iexact H2
  iapply (leaves3 V c t d3)
  iexact H3

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.Bits.Region4.lean ====
import proofs.«403157_j14328010899645_2_alg».proof.Proof.Gen.Kernel.Launch
import proofs.«403157_j14328010899645_2_alg».proof.Proof.Gen.Kernel.Skeleton
import proofs.«403157_j14328010899645_2_alg».proof.Proof.Gen.Kernel.Points
import proofs.«403157_j14328010899645_2_alg».proof.Proof.LibBody

noncomputable section

namespace Cert.Kernel.Hand

open Cert.Kernel Cert.Kernel.Gen
open Idealize.ShloMosaic Idealize.ShloMosaic.TcCoe Idealize.SL.RA
open Idealize.ShloMosaic.Pipeline (Dat BodyObligation)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S512x256 := Rect.unit (s := S512x256) ![0, 0] S512x256.size inb_S512x256_S512x256_0_0
abbrev r4_1 : Rect S256x256 := Rect.unit (s := S256x256) ![0, 0] S256x256.size inb_S256x256_S256x256_0_0
abbrev r4_2 : Rect S1x256 := Rect.unit (s := S1x256) ![0, 0] S1x256.size inb_S1x256_S1x256_0_0
abbrev r4_3 : Rect S512x256 := Rect.unit (s := S512x256) ![0, 0] S512x256.size inb_S512x256_S512x256_0_0

def out4_3 (x0 : Vec F S512x256 .bf16) (x1 : Vec F S256x256 .f32) (x2 : Vec F S1x256 .f32) : Vec F S512x256 .f32 :=
  View.canon [⟨r4_3, k4_pay1 (View.ld x0 r4_0) (View.ld x1 r4_1) (View.ld x2 r4_2)⟩]

-- the one store is over the whole output, which therefore reads the stored payload
theorem sound_kernel4 (c : Dev nD) (E : Set ℕ) (i : grid4.Coords)
    (arg1 : Memref sig .tc .vmem S512x256 .bf16) (harg1 : arg1.IsWhole) (arg2 : Memref sig .tc .vmem S256x256 .f32) (harg2 : arg2.IsWhole)
    (arg3 : Memref sig .tc .vmem S1x256 .f32) (harg3 : arg3.IsWhole) (arg4 : Memref sig .tc .vmem S512x256 .f32) (harg4 : arg4.IsWhole) :
    Body31 (Ix := Unit) (U := UR sig nD τ) (Lvl := ℕ) frame (wpE (defs₀ (F := F)) Variants.none c none) E
      (cc4__matmul_bias_kernel i arg1 harg1 arg2 harg2 arg3 harg3 arg4 harg4) (c : Thread nD τ) arg1 arg2 arg3 arg4 out4_3 :=
  fun f0 f1 f2 f3 K => by
  simp only [cc4__matmul_bias_kernel_eq_skeleton]; unfold cc4__matmul_bias_kernel_skel
  iintro ⟨H0, H1, H2, H3, Hk⟩
  sl_exec
  sl_step
  iapply Hk $$ H0 H1 H2
  iexists _; isplitr
  swap; · iexact H3
  ipureintro
  exact View.read_writes_eq_canon _ _ _ (View.cover_full _ _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) :
    (dat4 V c).after 3 t = out4_3 (iblk4 V c 0 t) (iblk4 V c 1 t) (iblk4 V c 2 t) := by dsimp only [dat4]

theorem body_obligation4 (c : Dev nD) : BodyObligation (dat4 (F := F) V c) (defs₀ (F := F)) Variants.none () Set.univ := fun t => by
  rw [bigSep_W4, bigSep_W4]
  exact Body31.frame (p := bodyAt4 t) (sound_kernel4 c Set.univ _ _ _ _ _ _ _ _ _) (fun d => (dat4 V c).before_eq_after 0 t d)
    (fun d => (dat4 V c).before_eq_after 1 t d) (fun d => (dat4 V c).before_eq_after 2 t d) (by dsimp only [dat4])

end Cert.Kernel.Hand
-- ==== Proof.Bits.Region5.lean ====
import proofs.«403157_j14328010899645_2_alg».proof.Proof.Gen.Kernel.Launch
import proofs.«403157_j14328010899645_2_alg».proof.Proof.Gen.Kernel.Skeleton
import proofs.«403157_j14328010899645_2_alg».proof.Proof.Gen.Kernel.Points
import proofs.«403157_j14328010899645_2_alg».proof.Proof.LibBody

noncomputable section

namespace Cert.Kernel.Hand

open Cert.Kernel Cert.Kernel.Gen
open Idealize.ShloMosaic Idealize.ShloMosaic.TcCoe Idealize.SL.RA
open Idealize.ShloMosaic.Pipeline (Dat BodyObligation)

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S512x256 := Rect.unit (s := S512x256) ![0, 0] S512x256.size inb_S512x256_S512x256_0_0
abbrev r5_1 : Rect S256x256 := Rect.unit (s := S256x256) ![0, 0] S256x256.size inb_S256x256_S256x256_0_0
abbrev r5_2 : Rect S1x256 := Rect.unit (s := S1x256) ![0, 0] S1x256.size inb_S1x256_S1x256_0_0
abbrev r5_3 : Rect S512x256 := Rect.unit (s := S512x256) ![0, 0] S512x256.size inb_S512x256_S512x256_0_0

def out5_3 (x0 : Vec F S512x256 .f32) (x1 : Vec F S256x256 .f32) (x2 : Vec F S1x256 .f32) : Vec F S512x256 .bf16 :=
  View.canon [⟨r5_3, k5_pay1 (View.ld x0 r5_0) (View.ld x1 r5_1) (View.ld x2 r5_2)⟩]

-- the one store is over the whole output, which therefore reads the stored payload
theorem sound_kernel5 (c : Dev nD) (E : Set ℕ) (i : grid5.Coords)
    (arg1 : Memref sig .tc .vmem S512x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S512x256 .bf16) (harg4 : arg4.IsWhole) :
    Body31 (Ix := Unit) (U := UR sig nD τ) (Lvl := ℕ) frame (wpE (defs₀ (F := F)) Variants.none c none) E
      (cc5__matmul_bias_kernel i arg1 harg1 arg2 harg2 arg3 harg3 arg4 harg4) (c : Thread nD τ) arg1 arg2 arg3 arg4 out5_3 :=
  fun f0 f1 f2 f3 K => by
  simp only [cc5__matmul_bias_kernel_eq_skeleton]; unfold cc5__matmul_bias_kernel_skel
  iintro ⟨H0, H1, H2, H3, Hk⟩
  sl_exec
  sl_step
  iapply Hk $$ H0 H1 H2
  iexists _; isplitr
  swap; · iexact H3
  ipureintro
  exact View.read_writes_eq_canon _ _ _ (View.cover_full _ _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_3 (c : Dev nD) (t : Fin cfg5.N) :
    (dat5 V c).after 3 t = out5_3 (iblk5 V c 0 t) (iblk5 V c 1 t) (iblk5 V c 2 t) := by dsimp only [dat5]

theorem body_obligation5 (c : Dev nD) : BodyObligation (dat5 (F := F) V c) (defs₀ (F := F)) Variants.none () Set.univ := fun t => by
  rw [bigSep_W5, bigSep_W5]
  exact Body31.frame (p := bodyAt5 t) (sound_kernel5 c Set.univ _ _ _ _ _ _ _ _ _) (fun d => (dat5 V c).before_eq_after 0 t d)
    (fun d => (dat5 V c).before_eq_after 1 t d) (fun d => (dat5 V c).before_eq_after 2 t d) (by dsimp only [dat5])

end Cert.Kernel.Hand
-- ==== Proof.Bits.Region6.lean ====
import proofs.«403157_j14328010899645_2_alg».proof.Proof.Gen.Kernel.Launch
import proofs.«403157_j14328010899645_2_alg».proof.Proof.Gen.Kernel.Skeleton
import proofs.«403157_j14328010899645_2_alg».proof.Proof.Gen.Kernel.Points
import proofs.«403157_j14328010899645_2_alg».proof.Proof.LibBody

noncomputable section

namespace Cert.Kernel.Hand

open Cert.Kernel Cert.Kernel.Gen
open Idealize.ShloMosaic Idealize.ShloMosaic.TcCoe Idealize.SL.RA
open Idealize.ShloMosaic.Pipeline (Dat BodyObligation)

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S1024x4096 := Rect.unit (s := S1024x4096) ![0, 0] S1024x4096.size inb_S1024x4096_S1024x4096_0_0
abbrev r6_1 : Rect S4096x256 := Rect.unit (s := S4096x256) ![0, 0] S4096x256.size inb_S4096x256_S4096x256_0_0
abbrev r6_2 : Rect S1x256 := Rect.unit (s := S1x256) ![0, 0] S1x256.size inb_S1x256_S1x256_0_0
abbrev r6_3 : Rect S1024x256 := Rect.unit (s := S1024x256) ![0, 0] S1024x256.size inb_S1024x256_S1024x256_0_0

def out6_3 (x0 : Vec F S1024x4096 .bf16) (x1 : Vec F S4096x256 .bf16) (x2 : Vec F S1x256 .f32) : Vec F S1024x256 .f32 :=
  View.canon [⟨r6_3, k6_pay1 (View.ld x0 r6_0) (View.ld x1 r6_1) (View.ld x2 r6_2)⟩]

-- the one store is over the whole output, which therefore reads the stored payload
theorem sound_kernel6 (c : Dev nD) (E : Set ℕ) (i : grid6.Coords)
    (arg1 : Memref sig .tc .vmem S1024x4096 .bf16) (harg1 : arg1.IsWhole) (arg2 : Memref sig .tc .vmem S4096x256 .bf16) (harg2 : arg2.IsWhole)
    (arg3 : Memref sig .tc .vmem S1x256 .f32) (harg3 : arg3.IsWhole) (arg4 : Memref sig .tc .vmem S1024x256 .f32) (harg4 : arg4.IsWhole) :
    Body31 (Ix := Unit) (U := UR sig nD τ) (Lvl := ℕ) frame (wpE (defs₀ (F := F)) Variants.none c none) E
      (cc6__matmul_bias_kernel i arg1 harg1 arg2 harg2 arg3 harg3 arg4 harg4) (c : Thread nD τ) arg1 arg2 arg3 arg4 out6_3 :=
  fun f0 f1 f2 f3 K => by
  simp only [cc6__matmul_bias_kernel_eq_skeleton]; unfold cc6__matmul_bias_kernel_skel
  iintro ⟨H0, H1, H2, H3, Hk⟩
  sl_exec
  sl_step
  iapply Hk $$ H0 H1 H2
  iexists _; isplitr
  swap; · iexact H3
  ipureintro
  exact View.read_writes_eq_canon _ _ _ (View.cover_full _ _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_3 (c : Dev nD) (t : Fin cfg6.N) :
    (dat6 V c).after 3 t = out6_3 (iblk6 V c 0 t) (iblk6 V c 1 t) (iblk6 V c 2 t) := by dsimp only [dat6]

theorem body_obligation6 (c : Dev nD) : BodyObligation (dat6 (F := F) V c) (defs₀ (F := F)) Variants.none () Set.univ := fun t => by
  rw [bigSep_W6, bigSep_W6]
  exact Body31.frame (p := bodyAt6 t) (sound_kernel6 c Set.univ _ _ _ _ _ _ _ _ _) (fun d => (dat6 V c).before_eq_after 0 t d)
    (fun d => (dat6 V c).before_eq_after 1 t d) (fun d => (dat6 V c).before_eq_after 2 t d) (by dsimp only [dat6])

end Cert.Kernel.Hand
-- ==== Proof.Bits.Region7.lean ====
import proofs.«403157_j14328010899645_2_alg».proof.Proof.Gen.Kernel.Launch
import proofs.«403157_j14328010899645_2_alg».proof.Proof.Gen.Kernel.Skeleton
import proofs.«403157_j14328010899645_2_alg».proof.Proof.Gen.Kernel.Points
import proofs.«403157_j14328010899645_2_alg».proof.Proof.LibBody

noncomputable section

namespace Cert.Kernel.Hand

open Cert.Kernel Cert.Kernel.Gen
open Idealize.ShloMosaic Idealize.ShloMosaic.TcCoe Idealize.SL.RA
open Idealize.ShloMosaic.Pipeline (Dat BodyObligation)

variable {F : FTy → Type} [FloatOps F]

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S512x256 := Rect.unit (s := S512x256) ![0, 0] S512x256.size inb_S512x256_S512x256_0_0
abbrev r7_1 : Rect S256x768 := Rect.unit (s := S256x768) ![0, 0] S256x768.size inb_S256x768_S256x768_0_0
abbrev r7_2 : Rect S1x768 := Rect.unit (s := S1x768) ![0, 0] S1x768.size inb_S1x768_S1x768_0_0
abbrev r7_3 : Rect S512x768 := Rect.unit (s := S512x768) ![0, 0] S512x768.size inb_S512x768_S512x768_0_0

def out7_3 (x0 : Vec F S512x256 .f32) (x1 : Vec F S256x768 .f32) (x2 : Vec F S1x768 .f32) : Vec F S512x768 .bf16 :=
  View.canon [⟨r7_3, k7_pay1 (View.ld x0 r7_0) (View.ld x1 r7_1) (View.ld x2 r7_2)⟩]

-- the one store is over the whole output, which therefore reads the stored payload
theorem sound_kernel7 (c : Dev nD) (E : Set ℕ) (i : grid7.Coords)
    (arg1 : Memref sig .tc .vmem S512x256 .f32) (harg1 : arg1.IsWhole) (arg2 : Memref sig .tc .vmem S256x768 .f32) (harg2 : arg2.IsWhole)
    (arg3 : Memref sig .tc .vmem S1x768 .f32) (harg3 : arg3.IsWhole) (arg4 : Memref sig .tc .vmem S512x768 .bf16) (harg4 : arg4.IsWhole) :
    Body31 (Ix := Unit) (U := UR sig nD τ) (Lvl := ℕ) frame (wpE (defs₀ (F := F)) Variants.none c none) E
      (cc7__matmul_bias_kernel i arg1 harg1 arg2 harg2 arg3 harg3 arg4 harg4) (c : Thread nD τ) arg1 arg2 arg3 arg4 out7_3 :=
  fun f0 f1 f2 f3 K => by
  simp only [cc7__matmul_bias_kernel_eq_skeleton]; unfold cc7__matmul_bias_kernel_skel
  iintro ⟨H0, H1, H2, H3, Hk⟩
  sl_exec
  sl_step
  iapply Hk $$ H0 H1 H2
  iexists _; isplitr
  swap; · iexact H3
  ipureintro
  exact View.read_writes_eq_canon _ _ _ (View.cover_full _ _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_3 (c : Dev nD) (t : Fin cfg7.N) :
    (dat7 V c).after 3 t = out7_3 (iblk7 V c 0 t) (iblk7 V c 1 t) (iblk7 V c 2 t) := by dsimp only [dat7]

theorem body_obligation7 (c : Dev nD) : BodyObligation (dat7 (F := F) V c) (defs₀ (F := F)) Variants.none () Set.univ := fun t => by
  rw [bigSep_W7, bigSep_W7]
  exact Body31.frame (p := bodyAt7 t) (sound_kernel7 c Set.univ _ _ _ _ _ _ _ _ _) (fun d => (dat7 V c).before_eq_after 0 t d)
    (fun d => (dat7 V c).before_eq_after 1 t d) (fun d => (dat7 V c).before_eq_after 2 t d) (by dsimp only [dat7])

end Cert.Kernel.Hand
-- ==== Proof.Bits.Region8.lean ====
import proofs.«403157_j14328010899645_2_alg».proof.Proof.Gen.Kernel.Launch
import proofs.«403157_j14328010899645_2_alg».proof.Proof.Gen.Kernel.Skeleton
import proofs.«403157_j14328010899645_2_alg».proof.Proof.Gen.Kernel.Points
import proofs.«403157_j14328010899645_2_alg».proof.Proof.LibBody3
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.LibBody3

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev St8 (F : FTy → Type) : Type := Vec F S4x1024x1 .f32 × Vec F S4x1024x1 .f32 × Vec F S4x1024x64 .f32

def init8 : St8 F := (k8_pay4, k8_pay5, k8_pay6)

def step8 (q : Vec F S4x1024x64 .bf16) (k v : Vec F S4x512x64 .bf16) (s : St8 F) : St8 F :=
  (k8_pay2 (k8_pay8 q k s.1),
   k8_pay11 q k s.1 s.1 s.2.1,
   k8_pay1 (k8_pay9 q k s.1 s.1) (k8_pay10 q k s.1) v s.2.2)

def out8_3 (s : St8 F) : Vec F S4x1024x64 .bf16 := k8_pay3 s.2.2 s.2.1

def scr8 (c : Dev nD) : ℕ → St8 F
  | 0 => if h : 0 < cfg8.N then step8 (iblk8 V c 0 ⟨0, h⟩) (iblk8 V c 1 ⟨0, h⟩) (iblk8 V c 2 ⟨0, h⟩) init8 else init8
  | n + 1 => if h : n + 1 < cfg8.N then
      step8 (iblk8 V c 0 ⟨n + 1, h⟩) (iblk8 V c 1 ⟨n + 1, h⟩) (iblk8 V c 2 ⟨n + 1, h⟩) (if (n + 1) % 8 = 0 then init8 else scr8 c n)
    else scr8 c n

theorem scr8_first (c : Dev nD) (t : Fin cfg8.N) (h0 : t.val % 8 = 0) :
    scr8 V c t.val = step8 (iblk8 V c 0 t) (iblk8 V c 1 t) (iblk8 V c 2 t) init8 := by
  obtain ⟨n, hn⟩ := t
  dsimp only at h0 ⊢
  cases n with
  | zero => rw [scr8.eq_1, dif_pos hn]
  | succ n => rw [scr8.eq_2, dif_pos hn, if_pos h0]

theorem scr8_next (c : Dev nD) (t : Fin cfg8.N) (h0 : ¬ t.val % 8 = 0) :
    scr8 V c t.val = step8 (iblk8 V c 0 t) (iblk8 V c 1 t) (iblk8 V c 2 t) (scr8 V c (t.val - 1)) := by
  obtain ⟨n, hn⟩ := t
  dsimp only at h0 ⊢
  cases n with
  | zero => exact absurd (Nat.zero_mod _) h0
  | succ n => rw [Nat.add_sub_cancel, scr8.eq_2, dif_pos hn, if_neg h0]

abbrev cond8_1 (i : grid8.Coords) : Prop :=
  (Scalar.cmpi .ne (Scalar.extui (Scalar.cmpi .eq (BitVec.ofNat 32 (i 1).val) 0#32)) 0#32) = 1#1

theorem hcond8_1 : ∀ t : Fin cfg8.N, cond8_1 (grid8.coords t) ↔ t.val % 8 = 0 := by decide +kernel
theorem hcond8_2 : ∀ t : Fin cfg8.N, k8_cond2 (grid8.coords t) = 1#1 ↔ t.val % 8 = 7 := by decide +kernel
theorem hidle8_3 : ∀ t : Fin cfg8.N, cfg8.idle 3 (cfg8.grid.coords t) = true ↔ ¬ t.val % 8 = 7 := by decide +kernel

/-- Each point steps the state of the point before, restarting from the initial state at every multiple of 8. -/
theorem scr8_step (c : Dev nD) (t : Fin cfg8.N) (s : St8 F) (hs : t.val ≠ 0 → s = scr8 V c (t.val - 1)) :
    scr8 V c t.val = step8 (iblk8 V c 0 t) (iblk8 V c 1 t) (iblk8 V c 2 t) (if cond8_1 (grid8.coords t) then init8 else s) := by
  split
  · exact scr8_first V c t ((hcond8_1 t).mp ‹_›)
  · rw [hs fun e => ‹¬ _› ((hcond8_1 t).mpr (by rw [e]))]
    exact scr8_next V c t (mt (hcond8_1 t).mpr ‹_›)

/-- The invariant before point `t`: the carried state is the one after point `t - 1`, when there is such a point. -/
def Φ8 (c : Dev nD) (t : Fin (cfg8.N + 1)) : sProp 𝕄 :=
  iprop(∃ s : St8 F, ⌜t.val ≠ 0 → s = scr8 V c (t.val - 1)⌝
    ∗ owns c.tc (Memref.whole cc8_scratch0) fullShare s.1
    ∗ owns c.tc (Memref.whole cc8_scratch1) fullShare s.2.1
    ∗ owns c.tc (Memref.whole cc8_scratch2) fullShare s.2.2
    ∗ Pipeline.scopedRestBut spec8 c [cc8_scratch0, cc8_scratch1, cc8_scratch2]
    ∗ ∃ r, prngReg c r)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (scr8 V c t.val)
  Φ t := Φ8 V c t
  q _ := fullShare
  owed _ := 0

theorem A_eq8 (c : Dev nD) (w : Fin cfg8.W) : (dat8 V c).A w = V c (Pipeline.arrRef spec8 w) := rfl

theorem after8_3 (c : Dev nD) (t : Fin cfg8.N) : (dat8 V c).after 3 t = out8_3 (scr8 V c t.val) := rfl

theorem Φ_eq8 (c : Dev nD) (t : Fin (cfg8.N + 1)) : (dat8 V c).Φ t = Φ8 V c t := rfl

theorem hin8 (c : Dev nD) :
    iprop((∃ r, prngReg c r) ∗ Pipeline.scopedRest (Ix := Unit) (Name := ℕ) (U := UR sig nD τ) (Lvl := ℕ) (Val := Elt F) spec8 c)
      ⊢ ((dat8 V c).Φ 0 : sProp 𝕄) := by
  rw [Φ_eq8, Φ8, scopedRest8_split c]
  simp only [owns_whole]
  iintro ⟨Hp, ⟨⟨%f0, H0⟩, ⟨%f1, H1⟩, ⟨%f2, H2⟩⟩, Hr⟩
  iexists (f0, f1, f2)
  isplitr; · ipureintro; exact fun h => absurd rfl h
  iframe

theorem hout8 (c : Dev nD) :
    ((dat8 V c).Φ (Fin.last cfg8.N) : sProp 𝕄)
      ⊢ iprop((∃ r, prngReg c r) ∗ Pipeline.scopedRest (Ix := Unit) (Name := ℕ) (U := UR sig nD τ) (Lvl := ℕ) (Val := Elt F) spec8 c) := by
  rw [Φ_eq8, Φ8, scopedRest8_split c]
  simp only [owns_whole]
  iintro ⟨%s, -, H0, H1, H2, Hr, Hp⟩
  iframe Hp Hr
  isplitl [H0]; · iexists _; iexact H0
  isplitl [H1]; · iexists _; iexact H1
  iexists _; iexact H2

section Kernel
variable (c : Dev nD) (a2 : Memref sig .tc .vmem S4x1024x64 .bf16) (a3 a4 : Memref sig .tc .vmem S4x512x64 .bf16) (a5 : Memref sig .tc .vmem S4x1024x64 .bf16)
  (a6 a7 : Memref sig .tc .vmem S4x1024x1 .f32) (a8 : Memref sig .tc .vmem S4x1024x64 .f32)
  (q : Vec F S4x1024x64 .bf16) (k v : Vec F S4x512x64 .bf16) (d o : Vec F S4x1024x64 .bf16) (s s' : St8 F)

def held8 : sProp 𝕄 :=
  iprop(owns c.tc a2 fullShare q ∗ owns c.tc a3 fullShare k ∗ owns c.tc a4 fullShare v
    ∗ owns c.tc a5 fullShare o
    ∗ owns c.tc a6 fullShare s.1 ∗ owns c.tc a7 fullShare s.2.1 ∗ owns c.tc a8 fullShare s.2.2)

variable {c a2 a3 a4 a5 a6 a7 a8 q k v o s'}
/-- One run of the body computes one step of the state, from the initial state under the first condition, and under the second the output of the new state. -/
theorem sound_kernel8 {E : Set ℕ} {i : grid8.Coords} {h2 : a2.IsWhole} {h3 : a3.IsWhole} {h4 : a4.IsWhole} {h5 : a5.IsWhole}
    {h6 : a6.IsWhole} {h7 : a7.IsWhole} {h8 : a8.IsWhole}
    (hs : s' = step8 q k v (if cond8_1 i then init8 else s)) (ho : o = if k8_cond2 i = 1#1 then out8_3 s' else d) (K : PUnit → sProp 𝕄) :
    iprop(held8 c a2 a3 a4 a5 a6 a7 a8 q k v d s ∗ (held8 c a2 a3 a4 a5 a6 a7 a8 q k v o s' -∗ K ⟨⟩))
      ⊢ wp frame (wpE (defs₀ (F := F)) Variants.none c none) E (cc8_kernel i a2 h2 a3 h3 a4 h4 a5 h5 a6 h6 a7 h7 a8 h8) K := by
  obtain ⟨s1, s2, s3⟩ := s
  split at hs <;> split at ho <;> subst hs ho <;>
   (sl_unfold [cc8_kernel, k8_part1]
    rw [held8]
    unfold owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
    dsimp only at hf6 hf7 hf8
    subst hf2 hf3 hf4 hf5 hf6 hf7 hf8
    sl_exec (disch := assumption)
    sl_step
    ihave H2 := (pt_owns) $$ H2
    ihave H3 := (pt_owns) $$ H3
    ihave H4 := (pt_owns) $$ H4
    ihave H5 := (pt_owns) $$ H5
    ihave H6 := (pt_owns) $$ H6
    ihave H7 := (pt_owns) $$ H7
    ihave H8 := (pt_owns) $$ H8
    sl_unfold_run_names
    simp only [read_store_whole (S := S4x1024x1) _ _ off0, read_store_whole (S := S4x1024x64) _ _ off0,
      readCov_store_whole (S := S4x1024x1) _ off0, readCov_store_whole (S := S4x1024x64) _ off0,
      readAt_whole (S := S4x1024x1) _ _ off0, readAt_whole (S := S4x1024x64) _ _ off0, readAt_whole (S := S4x512x64) _ _ off0, step8, init8, out8_3]
    iapply Hk
    rw [held8]
    iframe)

end Kernel

theorem leaves8 (c : Dev nD) (t : Fin cfg8.N) (d) :
    owns c.tc (st8_3 t) fullShare (if k8_cond2 (grid8.coords t) = 1#1 then out8_3 (scr8 V c t.val) else (dat8 V c).before 3 t d)
      ⊢ ((dat8 V c).leavesExact 3 t : sProp 𝕄) := by
  by_cases h7 : t.val % 8 = 7
  · rw [if_pos ((hcond8_2 t).mpr h7)]
    unfold Dat.leavesExact
    rw [Bool.eq_false_iff.mpr fun h => (hidle8_3 t).mp h h7]
    exact .rfl
  · rw [if_neg (mt (hcond8_2 t).mp h7),
      (dat8 V c).leavesExact_idle 3 t ((hidle8_3 t).mpr h7) (Bool.eq_false_iff.mpr (mt (flush8_3 t).mp h7))]
    iintro H; iexists d; iexact H

theorem sound_body8 (c : Dev nD) (t : Fin cfg8.N) :
    iprop((dat8 V c).Φ t.castSucc ∗ (dat8 V c).owesAt () t.castSucc
      ∗ (∃ d, owns c.tc (st8_0 t) fullShare ((dat8 V c).before 0 t d))
      ∗ (∃ d, owns c.tc (st8_1 t) fullShare ((dat8 V c).before 1 t d))
      ∗ (∃ d, owns c.tc (st8_2 t) fullShare ((dat8 V c).before 2 t d))
      ∗ (∃ d, owns c.tc (st8_3 t) fullShare ((dat8 V c).before 3 t d)))
    ⊢ wp frame (wpE (defs₀ (F := F)) Variants.none c none) Set.univ (bodyAt8 t) (fun _ =>
      iprop((dat8 V c).Φ t.succ ∗ (dat8 V c).owesAt () t.succ
        ∗ owns c.tc (st8_0 t) fullShare ((dat8 V c).after 0 t)
        ∗ owns c.tc (st8_1 t) fullShare ((dat8 V c).after 1 t)
        ∗ owns c.tc (st8_2 t) fullShare ((dat8 V c).after 2 t)
        ∗ (dat8 V c).leavesExact 3 t)) := by
  simp only [Φ_eq8, Φ8, (dat8 V c).before_in_eq_fetched 0 rfl (fun _ => rfl) (fun _ _ _ => rfl) fun _ => rfl,
    (dat8 V c).before_in_eq_fetched 1 rfl (fun _ => rfl) (fun _ _ _ => rfl) fun _ => rfl,
    (dat8 V c).before_in_eq_fetched 2 rfl (fun _ => rfl) (fun _ _ _ => rfl) fun _ => rfl]
  iintro ⟨⟨%s, %hs, S0, S1, S2, Hrest, Hp⟩, Ho, ⟨%d0, H0⟩, ⟨%d1, H1⟩, ⟨%d2, H2⟩, ⟨%d3, H3⟩⟩
  iapply (sound_kernel8 ((dat8 V c).before 3 t d3) s (scr8_step V c t s hs) rfl _)
  rw [held8, held8]
  iframe S0 S1 S2
  isplitl [H0 H1 H2 H3]
  · isplitl [H0]; · iexact H0
    isplitl [H1]; · iexact H1
    isplitl [H2]; · iexact H2
    iexact H3
  iintro ⟨H0, H1, H2, H3, S0, S1, S2⟩
  isplitl [S0 S1 S2 Hrest Hp]
  · iexists (scr8 V c t.val); isplitr; · ipureintro; exact fun _ => rfl
    iframe
  isplitl [Ho]; · iexact Ho
  isplitl [H0]; · iexact H0
  isplitl [H1]; · iexact H1
  isplitl [H2]; · iexact H2
  iapply (leaves8 V c t d3)
  iexact H3

theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.Bits.Region9.lean ====
import proofs.«403157_j14328010899645_2_alg».proof.Proof.Gen.Kernel.Launch
import proofs.«403157_j14328010899645_2_alg».proof.Proof.Gen.Kernel.Skeleton
import proofs.«403157_j14328010899645_2_alg».proof.Proof.Gen.Kernel.Points
import proofs.«403157_j14328010899645_2_alg».proof.Proof.LibBody

noncomputable section

namespace Cert.Kernel.Hand

open Cert.Kernel Cert.Kernel.Gen
open Idealize.ShloMosaic Idealize.ShloMosaic.TcCoe Idealize.SL.RA
open Idealize.ShloMosaic.Pipeline (Dat BodyObligation)

variable {F : FTy → Type} [FloatOps F]

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 : Rect S512x256 := Rect.unit (s := S512x256) ![0, 0] S512x256.size inb_S512x256_S512x256_0_0
abbrev r9_1 : Rect S256x256 := Rect.unit (s := S256x256) ![0, 0] S256x256.size inb_S256x256_S256x256_0_0
abbrev r9_2 : Rect S1x256 := Rect.unit (s := S1x256) ![0, 0] S1x256.size inb_S1x256_S1x256_0_0
abbrev r9_3 : Rect S512x256 := Rect.unit (s := S512x256) ![0, 0] S512x256.size inb_S512x256_S512x256_0_0

def out9_3 (x0 : Vec F S512x256 .bf16) (x1 : Vec F S256x256 .f32) (x2 : Vec F S1x256 .f32) : Vec F S512x256 .f32 :=
  View.canon [⟨r9_3, k9_pay1 (View.ld x0 r9_0) (View.ld x1 r9_1) (View.ld x2 r9_2)⟩]

-- the one store is over the whole output, which therefore reads the stored payload
theorem sound_kernel9 (c : Dev nD) (E : Set ℕ) (i : grid9.Coords)
    (arg1 : Memref sig .tc .vmem S512x256 .bf16) (harg1 : arg1.IsWhole) (arg2 : Memref sig .tc .vmem S256x256 .f32) (harg2 : arg2.IsWhole)
    (arg3 : Memref sig .tc .vmem S1x256 .f32) (harg3 : arg3.IsWhole) (arg4 : Memref sig .tc .vmem S512x256 .f32) (harg4 : arg4.IsWhole) :
    Body31 (Ix := Unit) (U := UR sig nD τ) (Lvl := ℕ) frame (wpE (defs₀ (F := F)) Variants.none c none) E
      (cc9__matmul_bias_kernel i arg1 harg1 arg2 harg2 arg3 harg3 arg4 harg4) (c : Thread nD τ) arg1 arg2 arg3 arg4 out9_3 :=
  fun f0 f1 f2 f3 K => by
  simp only [cc9__matmul_bias_kernel_eq_skeleton]; unfold cc9__matmul_bias_kernel_skel
  iintro ⟨H0, H1, H2, H3, Hk⟩
  sl_exec
  sl_step
  iapply Hk $$ H0 H1 H2
  iexists _; isplitr
  swap; · iexact H3
  ipureintro
  exact View.read_writes_eq_canon _ _ _ (View.cover_full _ _)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_3 (c : Dev nD) (t : Fin cfg9.N) :
    (dat9 V c).after 3 t = out9_3 (iblk9 V c 0 t) (iblk9 V c 1 t) (iblk9 V c 2 t) := by dsimp only [dat9]

theorem body_obligation9 (c : Dev nD) : BodyObligation (dat9 (F := F) V c) (defs₀ (F := F)) Variants.none () Set.univ := fun t => by
  rw [bigSep_W9, bigSep_W9]
  exact Body31.frame (p := bodyAt9 t) (sound_kernel9 c Set.univ _ _ _ _ _ _ _ _ _) (fun d => (dat9 V c).before_eq_after 0 t d)
    (fun d => (dat9 V c).before_eq_after 1 t d) (fun d => (dat9 V c).before_eq_after 2 t d) (by dsimp only [dat9])

end Cert.Kernel.Hand
-- ==== Proof.Bits.Region10.lean ====
import proofs.«403157_j14328010899645_2_alg».proof.Proof.Gen.Kernel.Launch
import proofs.«403157_j14328010899645_2_alg».proof.Proof.Gen.Kernel.Skeleton
import proofs.«403157_j14328010899645_2_alg».proof.Proof.Gen.Kernel.Points
import proofs.«403157_j14328010899645_2_alg».proof.Proof.LibBody

noncomputable section

namespace Cert.Kernel.Hand

open Cert.Kernel Cert.Kernel.Gen
open Idealize.ShloMosaic Idealize.ShloMosaic.TcCoe Idealize.SL.RA
open Idealize.ShloMosaic.Pipeline (Dat BodyObligation)

variable {F : FTy → Type} [FloatOps F]

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev r10_0 : Rect S512x256 := Rect.unit (s := S512x256) ![0, 0] S512x256.size inb_S512x256_S512x256_0_0
abbrev r10_1 : Rect S256x128 := Rect.unit (s := S256x128) ![0, 0] S256x128.size inb_S256x128_S256x128_0_0
abbrev r10_2 : Rect S1x128 := Rect.unit (s := S1x128) ![0, 0] S1x128.size inb_S1x128_S1x128_0_0
abbrev r10_3 : Rect S512x128 := Rect.unit (s := S512x128) ![0, 0] S512x128.size inb_S512x128_S512x128_0_0

def out10_3 (x0 : Vec F S512x256 .f32) (x1 : Vec F S256x128 .f32) (x2 : Vec F S1x128 .f32) : Vec F S512x128 .bf16 :=
  View.canon [⟨r10_3, k10_pay1 (View.ld x0 r10_0) (View.ld x1 r10_1) (View.ld x2 r10_2)⟩]

-- the one store is over the whole output, which therefore reads the stored payload
theorem sound_kernel10 (c : Dev nD) (E : Set ℕ) (i : grid10.Coords)
    (arg1 : Memref sig .tc .vmem S512x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S512x128 .bf16) (harg4 : arg4.IsWhole) :
    Body31 (Ix := Unit) (U := UR sig nD τ) (Lvl := ℕ) frame (wpE (defs₀ (F := F)) Variants.none c none) E
      (cc10__matmul_bias_kernel i arg1 harg1 arg2 harg2 arg3 harg3 arg4 harg4) (c : Thread nD τ) arg1 arg2 arg3 arg4 out10_3 :=
  fun f0 f1 f2 f3 K => by
  simp only [cc10__matmul_bias_kernel_eq_skeleton]; unfold cc10__matmul_bias_kernel_skel
  iintro ⟨H0, H1, H2, H3, Hk⟩
  sl_exec
  sl_step
  iapply Hk $$ H0 H1 H2
  iexists _; isplitr
  swap; · iexact H3
  ipureintro
  exact View.read_writes_eq_canon _ _ _ (View.cover_full _ _)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_3 (c : Dev nD) (t : Fin cfg10.N) :
    (dat10 V c).after 3 t = out10_3 (iblk10 V c 0 t) (iblk10 V c 1 t) (iblk10 V c 2 t) := by dsimp only [dat10]

theorem body_obligation10 (c : Dev nD) : BodyObligation (dat10 (F := F) V c) (defs₀ (F := F)) Variants.none () Set.univ := fun t => by
  rw [bigSep_W10, bigSep_W10]
  exact Body31.frame (p := bodyAt10 t) (sound_kernel10 c Set.univ _ _ _ _ _ _ _ _ _) (fun d => (dat10 V c).before_eq_after 0 t d)
    (fun d => (dat10 V c).before_eq_after 1 t d) (fun d => (dat10 V c).before_eq_after 2 t d) (by dsimp only [dat10])

end Cert.Kernel.Hand
-- ==== Proof.Bits.Region11.lean ====
import proofs.«403157_j14328010899645_2_alg».proof.Proof.Gen.Kernel.Launch
import proofs.«403157_j14328010899645_2_alg».proof.Proof.Gen.Kernel.Skeleton
import proofs.«403157_j14328010899645_2_alg».proof.Proof.Gen.Kernel.Points
import proofs.«403157_j14328010899645_2_alg».proof.Proof.LibBody

noncomputable section

namespace Cert.Kernel.Hand

open Cert.Kernel Cert.Kernel.Gen
open Idealize.ShloMosaic Idealize.ShloMosaic.TcCoe Idealize.SL.RA
open Idealize.ShloMosaic.Pipeline (Dat BodyObligation)

variable {F : FTy → Type} [FloatOps F]

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

abbrev r11_0 : Rect S1024x4096 := Rect.unit (s := S1024x4096) ![0, 0] S1024x4096.size inb_S1024x4096_S1024x4096_0_0
abbrev r11_1 : Rect S4096x128 := Rect.unit (s := S4096x128) ![0, 0] S4096x128.size inb_S4096x128_S4096x128_0_0
abbrev r11_2 : Rect S1x128 := Rect.unit (s := S1x128) ![0, 0] S1x128.size inb_S1x128_S1x128_0_0
abbrev r11_3 : Rect S1024x128 := Rect.unit (s := S1024x128) ![0, 0] S1024x128.size inb_S1024x128_S1024x128_0_0

def out11_3 (x0 : Vec F S1024x4096 .bf16) (x1 : Vec F S4096x128 .bf16) (x2 : Vec F S1x128 .f32) : Vec F S1024x128 .f32 :=
  View.canon [⟨r11_3, k11_pay1 (View.ld x0 r11_0) (View.ld x1 r11_1) (View.ld x2 r11_2)⟩]

-- the one store is over the whole output, which therefore reads the stored payload
theorem sound_kernel11 (c : Dev nD) (E : Set ℕ) (i : grid11.Coords)
    (arg1 : Memref sig .tc .vmem S1024x4096 .bf16) (harg1 : arg1.IsWhole) (arg2 : Memref sig .tc .vmem S4096x128 .bf16) (harg2 : arg2.IsWhole)
    (arg3 : Memref sig .tc .vmem S1x128 .f32) (harg3 : arg3.IsWhole) (arg4 : Memref sig .tc .vmem S1024x128 .f32) (harg4 : arg4.IsWhole) :
    Body31 (Ix := Unit) (U := UR sig nD τ) (Lvl := ℕ) frame (wpE (defs₀ (F := F)) Variants.none c none) E
      (cc11__matmul_bias_kernel i arg1 harg1 arg2 harg2 arg3 harg3 arg4 harg4) (c : Thread nD τ) arg1 arg2 arg3 arg4 out11_3 :=
  fun f0 f1 f2 f3 K => by
  simp only [cc11__matmul_bias_kernel_eq_skeleton]; unfold cc11__matmul_bias_kernel_skel
  iintro ⟨H0, H1, H2, H3, Hk⟩
  sl_exec
  sl_step
  iapply Hk $$ H0 H1 H2
  iexists _; isplitr
  swap; · iexact H3
  ipureintro
  exact View.read_writes_eq_canon _ _ _ (View.cover_full _ _)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_3 (c : Dev nD) (t : Fin cfg11.N) :
    (dat11 V c).after 3 t = out11_3 (iblk11 V c 0 t) (iblk11 V c 1 t) (iblk11 V c 2 t) := by dsimp only [dat11]

theorem body_obligation11 (c : Dev nD) : BodyObligation (dat11 (F := F) V c) (defs₀ (F := F)) Variants.none () Set.univ := fun t => by
  rw [bigSep_W11, bigSep_W11]
  exact Body31.frame (p := bodyAt11 t) (sound_kernel11 c Set.univ _ _ _ _ _ _ _ _ _) (fun d => (dat11 V c).before_eq_after 0 t d)
    (fun d => (dat11 V c).before_eq_after 1 t d) (fun d => (dat11 V c).before_eq_after 2 t d) (by dsimp only [dat11])

end Cert.Kernel.Hand
-- ==== Proof.Bits.RunChain0.lean ====
import proofs.«403157_j14328010899645_2_alg».proof.Proof.Bits.Region0
import proofs.«403157_j14328010899645_2_alg».proof.Proof.Bits.Region1
import proofs.«403157_j14328010899645_2_alg».proof.Proof.Bits.Region2
import proofs.«403157_j14328010899645_2_alg».proof.Proof.Bits.Region3
import proofs.«403157_j14328010899645_2_alg».proof.Proof.Bits.Region4
import proofs.«403157_j14328010899645_2_alg».proof.Proof.Bits.Region5
import proofs.«403157_j14328010899645_2_alg».proof.Proof.Bits.Region6
import proofs.«403157_j14328010899645_2_alg».proof.Proof.Bits.Region7
import proofs.«403157_j14328010899645_2_alg».proof.Proof.Bits.Region8
import proofs.«403157_j14328010899645_2_alg».proof.Proof.Bits.Region9
import proofs.«403157_j14328010899645_2_alg».proof.Proof.Bits.Region10
import proofs.«403157_j14328010899645_2_alg».proof.Proof.Bits.Region11
import proofs.«403157_j14328010899645_2_alg».proof.Proof.Gen.Kernel.Regions
noncomputable section
namespace Cert.Kernel.Hand
open Cert.Kernel.Gen
open Idealize.ShloMosaic Idealize.ShloMosaic.TcCoe
open Idealize.ShloMosaic.Pipeline (Dat Cfg)
variable {F : FTy → Type} [FloatOps F]
theorem exit_keep {cfg : Cfg sig Λ₀} {c : Dev nD} {W : Valuation τ sig (Elt F)} (d : Dat τ (Elt F) Unit ℕ (UR sig nD τ) ℕ cfg c)
    (hA : ∀ w, d.A w = W (Proc.devRef .tc (Pipeline.arrRef cfg.spec w))) (hinj : Function.Injective (Pipeline.arrRef cfg.spec))
    (o : Fin cfg.W) (ho : ∀ w, w ≠ o → (cfg.win w).isOut = false) {b : Ref sig .tc} (hb : b ≠ Pipeline.arrRef cfg.spec o) :
    Pipeline.withArrays cfg.spec c W (fun w => d.arrAt w cfg.N) (Proc.devRef .tc b) = W (Proc.devRef .tc b) := by
  by_cases h : ∃ w, Pipeline.arrRef cfg.spec w = b
  · obtain ⟨w, rfl⟩ := h
    exact (Pipeline.withArrays_arr _ hinj c _ _ w).trans (((d.arrAt_in w (ho w fun e => hb (congrArg _ e))) _).trans (hA w))
  · exact Pipeline.withArrays_of_ne _ c _ _ b fun w e => h ⟨w, e⟩
theorem exit_rest {gr W : ℕ} (win : Fin W → Pipeline.WinSpec sig gr) (c : Dev nD) (V : Valuation τ sig (Elt F))
    (A) (b : Ref sig .tc)
    (hb : b ∉ Finset.univ.image (Pipeline.arrRef win)) :
    Pipeline.withArrays win c V A (Proc.devRef .tc b) = V (Proc.devRef .tc b) :=
  Pipeline.withArrays_of_ne win c V A b fun w e => hb (Finset.mem_image.mpr ⟨w, Finset.mem_univ _, e⟩)
abbrev atTc (W : Dev nD → Valuation τ sig (Elt F)) : (c : Dev nD) → (b : Ref sig .tc) → Buf (Elt F) ((c : Thread nD τ).loc b) := fun c b => W c b
variable (m : (ℓ : Loc nD τ sig) → Buf (Elt F) ℓ) (ρ : Dev nD → PrngReg) (c : Dev nD) (b : Ref sig .tc)
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 := atTc (W3 m ρ)
theorem W1_keep (hb : b ∉ hostOps0_W) : W1 m ρ c b = W0 m ρ c b :=
  StableHlo.after_of_writes_sub hostOps0 _ hostOps0_writes hb
theorem W2_keep (hb : b ∉ hostOps0_1_W) : W2 m ρ c b = W1 m ρ c b :=
  StableHlo.after_of_writes_sub hostOps0_1 _ hostOps0_1_writes hb
theorem W3_keep (hb : b ∉ hostOps0_2_W) : W3 m ρ c b = W2 m ρ c b :=
  StableHlo.after_of_writes_sub hostOps0_2 _ hostOps0_2_writes hb
def W4 : Valuation τ sig (Elt F) :=
  Pipeline.withArrays spec0 c (W3 m ρ c) fun w => (dat0 (V3 m ρ) c).arrAt w cfg0.N
theorem W4_arr (w : Fin cfg0.W) :
    W4 m ρ c (Pipeline.arrRef spec0 w) = (dat0 (V3 m ρ) c).arrAt w cfg0.N :=
  Pipeline.withArrays_arr spec0 launch0.win.arr_inj c _ _ w
abbrev V4 := atTc (W4 m ρ)
theorem hF0 (w : Fin cfg0.W) : (dat0 (V3 m ρ) c).arrAt w cfg0.N = V4 m ρ c (Pipeline.arrRef spec0 w) :=
  (W4_arr m ρ c w).symm
theorem hrest0 : ∀ b, b ∉ Finset.univ.image (Pipeline.arrRef spec0) → V4 m ρ c b = V3 m ρ c b :=
  exit_rest spec0 c _ _
theorem W4_keep (hb : b ≠ main_v51) : W4 m ρ c b = W3 m ρ c b :=
  exit_keep (dat0 (V3 m ρ) c) (A_eq0 _ c) launch0.win.arr_inj 3 (by decide) hb
abbrev W5 : Dev nD → Valuation τ sig (Elt F) := fun c => StableHlo.after hostOps1 (W4 m ρ c)
abbrev V5 := atTc (W5 m ρ)
theorem W5_keep (hb : b ∉ hostOps1_W) : W5 m ρ c b = W4 m ρ c b :=
  StableHlo.after_of_writes_sub hostOps1 _ hostOps1_writes hb
end Cert.Kernel.Hand
end
-- ==== Proof.Bits.RunChain.lean ====
import proofs.«403157_j14328010899645_2_alg».proof.Proof.Bits.RunChain0

noncomputable section

namespace Cert.Kernel.Hand

open Cert.Kernel.Gen
open Idealize.ShloMosaic Idealize.ShloMosaic.TcCoe

variable {F : FTy → Type} [FloatOps F]
variable (m : (ℓ : Loc nD τ sig) → Buf (Elt F) ℓ) (ρ : Dev nD → PrngReg) (c : Dev nD) (b : Ref sig .tc)

def W6 : Valuation τ sig (Elt F) :=
  Pipeline.withArrays spec1 c (W5 m ρ c) fun w => (dat1 (V5 m ρ) c).arrAt w cfg1.N
theorem W6_arr (w : Fin cfg1.W) :
    W6 m ρ c (Pipeline.arrRef spec1 w) = (dat1 (V5 m ρ) c).arrAt w cfg1.N :=
  Pipeline.withArrays_arr spec1 launch1.win.arr_inj c _ _ w
abbrev V6 := atTc (W6 m ρ)
theorem hF1 (w : Fin cfg1.W) : (dat1 (V5 m ρ) c).arrAt w cfg1.N = V6 m ρ c (Pipeline.arrRef spec1 w) :=
  (W6_arr m ρ c w).symm
theorem hrest1 : ∀ b, b ∉ Finset.univ.image (Pipeline.arrRef spec1) → V6 m ρ c b = V5 m ρ c b :=
  exit_rest spec1 c _ _
theorem W6_keep (hb : b ≠ main_v53) : W6 m ρ c b = W5 m ρ c b :=
  exit_keep (dat1 (V5 m ρ) c) (A_eq1 _ c) launch1.win.arr_inj 3 (by decide) hb
abbrev W7 : Dev nD → Valuation τ sig (Elt F) := fun c => StableHlo.after hostOps2 (W6 m ρ c)
abbrev V7 := atTc (W7 m ρ)
theorem W7_keep (hb : b ∉ hostOps2_W) : W7 m ρ c b = W6 m ρ c b :=
  StableHlo.after_of_writes_sub hostOps2 _ hostOps2_writes hb

def W8 : Valuation τ sig (Elt F) :=
  Pipeline.withArrays spec2 c (W7 m ρ c) fun w => (dat2 (V7 m ρ) c).arrAt w cfg2.N
theorem W8_arr (w : Fin cfg2.W) :
    W8 m ρ c (Pipeline.arrRef spec2 w) = (dat2 (V7 m ρ) c).arrAt w cfg2.N :=
  Pipeline.withArrays_arr spec2 launch2.win.arr_inj c _ _ w
abbrev V8 := atTc (W8 m ρ)
theorem hF2 (w : Fin cfg2.W) : (dat2 (V7 m ρ) c).arrAt w cfg2.N = V8 m ρ c (Pipeline.arrRef spec2 w) :=
  (W8_arr m ρ c w).symm
theorem hrest2 : ∀ b, b ∉ Finset.univ.image (Pipeline.arrRef spec2) → V8 m ρ c b = V7 m ρ c b :=
  exit_rest spec2 c _ _
theorem W8_keep (hb : b ≠ main_v55) : W8 m ρ c b = W7 m ρ c b :=
  exit_keep (dat2 (V7 m ρ) c) (A_eq2 _ c) launch2.win.arr_inj 3 (by decide) hb
abbrev W9 : Dev nD → Valuation τ sig (Elt F) := fun c => StableHlo.after hostOps3 (W8 m ρ c)
abbrev V9 := atTc (W9 m ρ)
theorem W9_keep (hb : b ∉ hostOps3_W) : W9 m ρ c b = W8 m ρ c b :=
  StableHlo.after_of_writes_sub hostOps3 _ hostOps3_writes hb

def W10 : Valuation τ sig (Elt F) :=
  Pipeline.withArrays spec3 c (W9 m ρ c) fun w => (dat3 (V9 m ρ) c).arrAt w cfg3.N
theorem W10_arr (w : Fin cfg3.W) :
    W10 m ρ c (Pipeline.arrRef spec3 w) = (dat3 (V9 m ρ) c).arrAt w cfg3.N :=
  Pipeline.withArrays_arr spec3 launch3.win.arr_inj c _ _ w
abbrev V10 := atTc (W10 m ρ)
theorem hF3 (w : Fin cfg3.W) : (dat3 (V9 m ρ) c).arrAt w cfg3.N = V10 m ρ c (Pipeline.arrRef spec3 w) :=
  (W10_arr m ρ c w).symm
theorem hrest3 : ∀ b, b ∉ Finset.univ.image (Pipeline.arrRef spec3) → V10 m ρ c b = V9 m ρ c b :=
  exit_rest spec3 c _ _
theorem W10_keep (hb : b ≠ main_v65) : W10 m ρ c b = W9 m ρ c b :=
  exit_keep (dat3 (V9 m ρ) c) (A_eq3 _ c) launch3.win.arr_inj 3 (by decide) hb
abbrev W11 : Dev nD → Valuation τ sig (Elt F) := fun c => StableHlo.after hostOps4 (W10 m ρ c)
abbrev V11 := atTc (W11 m ρ)
theorem W11_keep (hb : b ∉ hostOps4_W) : W11 m ρ c b = W10 m ρ c b :=
  StableHlo.after_of_writes_sub hostOps4 _ hostOps4_writes hb

def W12 : Valuation τ sig (Elt F) :=
  Pipeline.withArrays spec4 c (W11 m ρ c) fun w => (dat4 (V11 m ρ) c).arrAt w cfg4.N
theorem W12_arr (w : Fin cfg4.W) :
    W12 m ρ c (Pipeline.arrRef spec4 w) = (dat4 (V11 m ρ) c).arrAt w cfg4.N :=
  Pipeline.withArrays_arr spec4 launch4.win.arr_inj c _ _ w
abbrev V12 := atTc (W12 m ρ)
theorem hF4 (w : Fin cfg4.W) : (dat4 (V11 m ρ) c).arrAt w cfg4.N = V12 m ρ c (Pipeline.arrRef spec4 w) :=
  (W12_arr m ρ c w).symm
theorem hrest4 : ∀ b, b ∉ Finset.univ.image (Pipeline.arrRef spec4) → V12 m ρ c b = V11 m ρ c b :=
  exit_rest spec4 c _ _
theorem W12_keep (hb : b ≠ main_v69) : W12 m ρ c b = W11 m ρ c b :=
  exit_keep (dat4 (V11 m ρ) c) (A_eq4 _ c) launch4.win.arr_inj 3 (by decide) hb
abbrev W13 : Dev nD → Valuation τ sig (Elt F) := fun c => StableHlo.after hostOps5 (W12 m ρ c)
abbrev V13 := atTc (W13 m ρ)
theorem W13_keep (hb : b ∉ hostOps5_W) : W13 m ρ c b = W12 m ρ c b :=
  StableHlo.after_of_writes_sub hostOps5 _ hostOps5_writes hb

def W14 : Valuation τ sig (Elt F) :=
  Pipeline.withArrays spec5 c (W13 m ρ c) fun w => (dat5 (V13 m ρ) c).arrAt w cfg5.N
theorem W14_arr (w : Fin cfg5.W) :
    W14 m ρ c (Pipeline.arrRef spec5 w) = (dat5 (V13 m ρ) c).arrAt w cfg5.N :=
  Pipeline.withArrays_arr spec5 launch5.win.arr_inj c _ _ w
abbrev V14 := atTc (W14 m ρ)
theorem hF5 (w : Fin cfg5.W) : (dat5 (V13 m ρ) c).arrAt w cfg5.N = V14 m ρ c (Pipeline.arrRef spec5 w) :=
  (W14_arr m ρ c w).symm
theorem hrest5 : ∀ b, b ∉ Finset.univ.image (Pipeline.arrRef spec5) → V14 m ρ c b = V13 m ρ c b :=
  exit_rest spec5 c _ _
theorem W14_keep (hb : b ≠ main_v71) : W14 m ρ c b = W13 m ρ c b :=
  exit_keep (dat5 (V13 m ρ) c) (A_eq5 _ c) launch5.win.arr_inj 3 (by decide) hb
abbrev W15 : Dev nD → Valuation τ sig (Elt F) := fun c => StableHlo.after hostOps6 (W14 m ρ c)
abbrev V15 := atTc (W15 m ρ)
theorem W15_keep (hb : b ∉ hostOps6_W) : W15 m ρ c b = W14 m ρ c b :=
  StableHlo.after_of_writes_sub hostOps6 _ hostOps6_writes hb

def W16 : Valuation τ sig (Elt F) :=
  Pipeline.withArrays spec6 c (W15 m ρ c) fun w => (dat6 (V15 m ρ) c).arrAt w cfg6.N
theorem W16_arr (w : Fin cfg6.W) :
    W16 m ρ c (Pipeline.arrRef spec6 w) = (dat6 (V15 m ρ) c).arrAt w cfg6.N :=
  Pipeline.withArrays_arr spec6 launch6.win.arr_inj c _ _ w
abbrev V16 := atTc (W16 m ρ)
theorem hF6 (w : Fin cfg6.W) : (dat6 (V15 m ρ) c).arrAt w cfg6.N = V16 m ρ c (Pipeline.arrRef spec6 w) :=
  (W16_arr m ρ c w).symm
theorem hrest6 : ∀ b, b ∉ Finset.univ.image (Pipeline.arrRef spec6) → V16 m ρ c b = V15 m ρ c b :=
  exit_rest spec6 c _ _
theorem W16_keep (hb : b ≠ main_v73) : W16 m ρ c b = W15 m ρ c b :=
  exit_keep (dat6 (V15 m ρ) c) (A_eq6 _ c) launch6.win.arr_inj 3 (by decide) hb
abbrev W17 : Dev nD → Valuation τ sig (Elt F) := fun c => StableHlo.after hostOps7 (W16 m ρ c)
abbrev V17 := atTc (W17 m ρ)
theorem W17_keep (hb : b ∉ hostOps7_W) : W17 m ρ c b = W16 m ρ c b :=
  StableHlo.after_of_writes_sub hostOps7 _ hostOps7_writes hb

def W18 : Valuation τ sig (Elt F) :=
  Pipeline.withArrays spec7 c (W17 m ρ c) fun w => (dat7 (V17 m ρ) c).arrAt w cfg7.N
theorem W18_arr (w : Fin cfg7.W) :
    W18 m ρ c (Pipeline.arrRef spec7 w) = (dat7 (V17 m ρ) c).arrAt w cfg7.N :=
  Pipeline.withArrays_arr spec7 launch7.win.arr_inj c _ _ w
abbrev V18 := atTc (W18 m ρ)
theorem hF7 (w : Fin cfg7.W) : (dat7 (V17 m ρ) c).arrAt w cfg7.N = V18 m ρ c (Pipeline.arrRef spec7 w) :=
  (W18_arr m ρ c w).symm
theorem hrest7 : ∀ b, b ∉ Finset.univ.image (Pipeline.arrRef spec7) → V18 m ρ c b = V17 m ρ c b :=
  exit_rest spec7 c _ _
theorem W18_keep (hb : b ≠ main_v75) : W18 m ρ c b = W17 m ρ c b :=
  exit_keep (dat7 (V17 m ρ) c) (A_eq7 _ c) launch7.win.arr_inj 3 (by decide) hb
abbrev W19 : Dev nD → Valuation τ sig (Elt F) := fun c => StableHlo.after hostOps8 (W18 m ρ c)
abbrev V19 := atTc (W19 m ρ)
theorem W19_keep (hb : b ∉ hostOps8_W) : W19 m ρ c b = W18 m ρ c b :=
  StableHlo.after_of_writes_sub hostOps8 _ hostOps8_writes hb

def W20 : Valuation τ sig (Elt F) :=
  Pipeline.withArrays spec8 c (W19 m ρ c) fun w => (dat8 (V19 m ρ) c).arrAt w cfg8.N
theorem W20_arr (w : Fin cfg8.W) :
    W20 m ρ c (Pipeline.arrRef spec8 w) = (dat8 (V19 m ρ) c).arrAt w cfg8.N :=
  Pipeline.withArrays_arr spec8 launch8.win.arr_inj c _ _ w
abbrev V20 := atTc (W20 m ρ)
theorem hF8 (w : Fin cfg8.W) : (dat8 (V19 m ρ) c).arrAt w cfg8.N = V20 m ρ c (Pipeline.arrRef spec8 w) :=
  (W20_arr m ρ c w).symm
theorem hrest8 : ∀ b, b ∉ Finset.univ.image (Pipeline.arrRef spec8) → V20 m ρ c b = V19 m ρ c b :=
  exit_rest spec8 c _ _
theorem W20_keep (hb : b ≠ main_v85) : W20 m ρ c b = W19 m ρ c b :=
  exit_keep (dat8 (V19 m ρ) c) (A_eq8 _ c) launch8.win.arr_inj 3 (by decide) hb
abbrev W21 : Dev nD → Valuation τ sig (Elt F) := fun c => StableHlo.after hostOps9 (W20 m ρ c)
abbrev V21 := atTc (W21 m ρ)
theorem W21_keep (hb : b ∉ hostOps9_W) : W21 m ρ c b = W20 m ρ c b :=
  StableHlo.after_of_writes_sub hostOps9 _ hostOps9_writes hb

def W22 : Valuation τ sig (Elt F) :=
  Pipeline.withArrays spec9 c (W21 m ρ c) fun w => (dat9 (V21 m ρ) c).arrAt w cfg9.N
theorem W22_arr (w : Fin cfg9.W) :
    W22 m ρ c (Pipeline.arrRef spec9 w) = (dat9 (V21 m ρ) c).arrAt w cfg9.N :=
  Pipeline.withArrays_arr spec9 launch9.win.arr_inj c _ _ w
abbrev V22 := atTc (W22 m ρ)
theorem hF9 (w : Fin cfg9.W) : (dat9 (V21 m ρ) c).arrAt w cfg9.N = V22 m ρ c (Pipeline.arrRef spec9 w) :=
  (W22_arr m ρ c w).symm
theorem hrest9 : ∀ b, b ∉ Finset.univ.image (Pipeline.arrRef spec9) → V22 m ρ c b = V21 m ρ c b :=
  exit_rest spec9 c _ _
theorem W22_keep (hb : b ≠ main_v89) : W22 m ρ c b = W21 m ρ c b :=
  exit_keep (dat9 (V21 m ρ) c) (A_eq9 _ c) launch9.win.arr_inj 3 (by decide) hb
abbrev W23 : Dev nD → Valuation τ sig (Elt F) := fun c => StableHlo.after hostOps10 (W22 m ρ c)
abbrev V23 := atTc (W23 m ρ)
theorem W23_keep (hb : b ∉ hostOps10_W) : W23 m ρ c b = W22 m ρ c b :=
  StableHlo.after_of_writes_sub hostOps10 _ hostOps10_writes hb

def W24 : Valuation τ sig (Elt F) :=
  Pipeline.withArrays spec10 c (W23 m ρ c) fun w => (dat10 (V23 m ρ) c).arrAt w cfg10.N
theorem W24_arr (w : Fin cfg10.W) :
    W24 m ρ c (Pipeline.arrRef spec10 w) = (dat10 (V23 m ρ) c).arrAt w cfg10.N :=
  Pipeline.withArrays_arr spec10 launch10.win.arr_inj c _ _ w
abbrev V24 := atTc (W24 m ρ)
theorem hF10 (w : Fin cfg10.W) : (dat10 (V23 m ρ) c).arrAt w cfg10.N = V24 m ρ c (Pipeline.arrRef spec10 w) :=
  (W24_arr m ρ c w).symm
theorem hrest10 : ∀ b, b ∉ Finset.univ.image (Pipeline.arrRef spec10) → V24 m ρ c b = V23 m ρ c b :=
  exit_rest spec10 c _ _
theorem W24_keep (hb : b ≠ main_v91) : W24 m ρ c b = W23 m ρ c b :=
  exit_keep (dat10 (V23 m ρ) c) (A_eq10 _ c) launch10.win.arr_inj 3 (by decide) hb
abbrev W25 : Dev nD → Valuation τ sig (Elt F) := fun c => StableHlo.after hostOps11 (W24 m ρ c)
abbrev V25 := atTc (W25 m ρ)
theorem W25_keep (hb : b ∉ hostOps11_W) : W25 m ρ c b = W24 m ρ c b :=
  StableHlo.after_of_writes_sub hostOps11 _ hostOps11_writes hb

def W26 : Valuation τ sig (Elt F) :=
  Pipeline.withArrays spec11 c (W25 m ρ c) fun w => (dat11 (V25 m ρ) c).arrAt w cfg11.N
theorem W26_arr (w : Fin cfg11.W) :
    W26 m ρ c (Pipeline.arrRef spec11 w) = (dat11 (V25 m ρ) c).arrAt w cfg11.N :=
  Pipeline.withArrays_arr spec11 launch11.win.arr_inj c _ _ w
abbrev V26 := atTc (W26 m ρ)
theorem hF11 (w : Fin cfg11.W) : (dat11 (V25 m ρ) c).arrAt w cfg11.N = V26 m ρ c (Pipeline.arrRef spec11 w) :=
  (W26_arr m ρ c w).symm
theorem hrest11 : ∀ b, b ∉ Finset.univ.image (Pipeline.arrRef spec11) → V26 m ρ c b = V25 m ρ c b :=
  exit_rest spec11 c _ _
theorem W26_keep (hb : b ≠ main_v93) : W26 m ρ c b = W25 m ρ c b :=
  exit_keep (dat11 (V25 m ρ) c) (A_eq11 _ c) launch11.win.arr_inj 3 (by decide) hb

end Cert.Kernel.Hand

end
-- ==== Proof.Bits.RunData.lean ====
import proofs.«403157_j14328010899645_2_alg».proof.Proof.Bits.RunChain
set_option maxRecDepth 16384
noncomputable section
namespace Cert.Kernel.Hand
open Cert.Kernel.Gen
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Pipeline (Dat BodyObligation)
variable {F : FTy → Type} [FloatOps F]
local notation "𝕄" => MT nD τ sig Unit (Elt F) ℕ (UR sig nD τ) ℕ
variable (m : (ℓ : Loc nD τ sig) → Buf (Elt F) ℓ) (ρ : Dev nD → PrngReg)
abbrev adm : (p : Fin 12) → (pcfgs (F := F) p).Adm := fun p => (cfgs p).toPCfg_adm
def pdats : (p : Fin 12) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
  | ⟨5, _⟩ => fun c => dat5 (V13 m ρ) c
  | ⟨6, _⟩ => fun c => dat6 (V15 m ρ) c
  | ⟨7, _⟩ => fun c => dat7 (V17 m ρ) c
  | ⟨8, _⟩ => fun c => dat8 (V19 m ρ) c
  | ⟨9, _⟩ => fun c => dat9 (V21 m ρ) c
  | ⟨10, _⟩ => fun c => dat10 (V23 m ρ) c
  | ⟨11, _⟩ => fun c => dat11 (V25 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
set_option backward.isDefEq.respectTransparency.types false in
def regOf {p : Fin 12} (lf : Pipeline.LaunchFacts (nD := nD) (τ := τ) cfgs p) (W W' : Dev nD → Valuation τ sig (Elt F))
    (hb : ∀ c, BodyObligation (pdats m ρ p c) (defs₀ (F := F)) 𝒱₀ () Set.univ)
    (hF : ∀ c w, (pdats m ρ p c).arrAt w (cfgs p).N = W' c (Pipeline.arrRef (cfgs p).spec w))
    (hrest : ∀ c (b : Ref sig .tc), b ∉ Finset.univ.image (Pipeline.arrRef (cfgs p).spec) → W' c b = W c b)
    (hi : ∀ c, Pipeline.ΦA (cfgs p).spec c ⊢ (pdats m ρ p c).Φ 0 := by exact fun _ => .rfl)
    (he : ∀ c, (pdats m ρ p c).Φ (Fin.last _) ⊢ Pipeline.ΦA (cfgs p).spec c := by exact fun _ => .rfl)
    (h0 : ∀ c t, (pdats m ρ p c).owed t = 0 := by exact fun _ _ => rfl)
    (hr : ∀ c, (pdats m ρ p c).recorded 0 = Set.univ := by exact fun _ => rfl)
    (hq : ∀ c w, (pdats m ρ p c).q w = fullShare := by exact fun _ _ => rfl)
    (hA : ∀ c w, (pdats m ρ p c).A w = W c (Pipeline.arrRef (cfgs p).spec w) := by exact fun _ _ => rfl) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (cfgs p).spec c (fun b => W c b)
  hentry c := by
    rw [Pipeline.ownSems0_none]
    have hsplit := Pipeline.arrays_of_unscopedBufs (p := p) (pcfgs (F := F)) adm (pdats m ρ) lf.win lf.arr_whole c ((pdats m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [h0 c 0, hr c]
      icases HO with ⟨%S, HO⟩; iexists S; isplitr; · ipureintro; exact fun _ _ => Or.inl trivial
      iexact HO
    isplitl [Hp]; · iexact Hp
    iexact Hrest
  hin c := by
    refine .trans ?_ (hi c); unfold Pipeline.ΦA
    iintro ⟨Hp, -, Hr⟩
    isplitl [Hr]; · iexact Hr
    iexact Hp
  hout c := by
    rw [Pipeline.ownSems0_none]; refine (he c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm
      lf.win lf.arr_whole c (pdats m ρ) ((pdats m ρ p c).share_full (hq c)) (fun b => W c b) (fun b => W' c b) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0 c _]
    icases HO with ⟨%S, -, HO⟩; iexists S; iexact HO
end Cert.Kernel.Hand
end
-- ==== Proof.Bits.RunArgs.lean ====
import proofs.«403157_j14328010899645_2_alg».proof.Proof.Bits.RunChain
set_option maxRecDepth 16384
noncomputable section
namespace Cert.Kernel.Hand
open Cert.Kernel.Gen
open Idealize.ShloMosaic Idealize.ShloMosaic.TcCoe
variable {F : FTy → Type} [FloatOps F]
variable (m : (ℓ : Loc nD τ sig) → Buf (Elt F) ℓ) (ρ : Dev nD → PrngReg) (c : Dev nD)
theorem W26_launch (b : Ref sig .tc)
    (h0 : b ∉ hostOps0_W) (h0_1 : b ∉ hostOps0_1_W) (h0_2 : b ∉ hostOps0_2_W) (h1 : b ∉ hostOps1_W) (h2 : b ∉ hostOps2_W) (h3 : b ∉ hostOps3_W) (h4 : b ∉ hostOps4_W) (h5 : b ∉ hostOps5_W) (h6 : b ∉ hostOps6_W) (h7 : b ∉ hostOps7_W) (h8 : b ∉ hostOps8_W) (h9 : b ∉ hostOps9_W) (h10 : b ∉ hostOps10_W) (h11 : b ∉ hostOps11_W)
    (o0 : b ≠ main_v51) (o1 : b ≠ main_v53) (o2 : b ≠ main_v55) (o3 : b ≠ main_v65) (o4 : b ≠ main_v69) (o5 : b ≠ main_v71) (o6 : b ≠ main_v73) (o7 : b ≠ main_v75) (o8 : b ≠ main_v85) (o9 : b ≠ main_v89) (o10 : b ≠ main_v91) (o11 : b ≠ main_v93) :
    W26 m ρ c b = m ((c : Thread nD τ).loc b) := by
  rw [W26_keep, W25_keep, W24_keep, W23_keep, W22_keep, W21_keep, W20_keep, W19_keep, W18_keep,
    W17_keep, W16_keep, W15_keep, W14_keep, W13_keep, W12_keep, W11_keep, W10_keep, W9_keep,
    W8_keep, W7_keep, W6_keep, W5_keep, W4_keep, W3_keep, W2_keep, W1_keep] <;> assumption
theorem W26_main_arg0 : W26 m ρ c main_arg0 = m ((c : Thread nD τ).loc main_arg0) := by
  apply W26_launch <;> decide
theorem W26_main_arg1 : W26 m ρ c main_arg1 = m ((c : Thread nD τ).loc main_arg1) := by
  apply W26_launch <;> decide
theorem W26_main_arg2 : W26 m ρ c main_arg2 = m ((c : Thread nD τ).loc main_arg2) := by
  apply W26_launch <;> decide
theorem W26_main_arg3 : W26 m ρ c main_arg3 = m ((c : Thread nD τ).loc main_arg3) := by
  apply W26_launch <;> decide
theorem W26_main_arg4 : W26 m ρ c main_arg4 = m ((c : Thread nD τ).loc main_arg4) := by
  apply W26_launch <;> decide
theorem W26_main_arg5 : W26 m ρ c main_arg5 = m ((c : Thread nD τ).loc main_arg5) := by
  apply W26_launch <;> decide
theorem W26_main_arg6 : W26 m ρ c main_arg6 = m ((c : Thread nD τ).loc main_arg6) := by
  apply W26_launch <;> decide
theorem W26_main_arg7 : W26 m ρ c main_arg7 = m ((c : Thread nD τ).loc main_arg7) := by
  apply W26_launch <;> decide
theorem W26_main_arg8 : W26 m ρ c main_arg8 = m ((c : Thread nD τ).loc main_arg8) := by
  apply W26_launch <;> decide
theorem W26_main_arg9 : W26 m ρ c main_arg9 = m ((c : Thread nD τ).loc main_arg9) := by
  apply W26_launch <;> decide
theorem W26_main_arg10 : W26 m ρ c main_arg10 = m ((c : Thread nD τ).loc main_arg10) := by
  apply W26_launch <;> decide
theorem W26_main_arg11 : W26 m ρ c main_arg11 = m ((c : Thread nD τ).loc main_arg11) := by
  apply W26_launch <;> decide
theorem W26_main_arg12 : W26 m ρ c main_arg12 = m ((c : Thread nD τ).loc main_arg12) := by
  apply W26_launch <;> decide
end Cert.Kernel.Hand
end
-- ==== Proof.Bits.RunMain.lean ====
import proofs.«403157_j14328010899645_2_alg».proof.Proof.Bits.RunData
import proofs.«403157_j14328010899645_2_alg».proof.Proof.Bits.RunArgs
set_option maxRecDepth 16384
noncomputable section
namespace Cert.Kernel.Hand
open Cert.Kernel.Gen
open Idealize.ShloMosaic Idealize.ShloMosaic.TcCoe Idealize.ShloMosaic.Tactic Idealize.ShloMosaic.Rounds
open Idealize.SL Idealize.SL.BI
open Idealize.SL.BI.BIBase Idealize.SL.BI.Laws Idealize.SL.ProofMode Idealize.SL.Sem
open Idealize.ShloMosaic.Pipeline (Dat BodyObligation)
variable {F : FTy → Type} [FloatOps F]
local notation "𝕄" => MT nD τ sig Unit (Elt F) ℕ (UR sig nD τ) ℕ
variable (m : (ℓ : Loc nD τ sig) → Buf (Elt F) ℓ) (ρ : Dev nD → PrngReg)
section
set_option backward.isDefEq.respectTransparency.types false
def reg0 := regOf m ρ launch0 (W3 m ρ) (W4 m ρ) (body_obligation0 (V3 m ρ)) (hF0 m ρ) (hrest0 m ρ)
def reg1 := regOf m ρ launch1 (W5 m ρ) (W6 m ρ) (body_obligation1 (V5 m ρ)) (hF1 m ρ) (hrest1 m ρ)
def reg2 := regOf m ρ launch2 (W7 m ρ) (W8 m ρ) (body_obligation2 (V7 m ρ)) (hF2 m ρ) (hrest2 m ρ)
def reg3 := regOf m ρ launch3 (W9 m ρ) (W10 m ρ) (body_obligation3 (V9 m ρ)) (hF3 m ρ) (hrest3 m ρ)
  (fun c => BI.sep_comm.trans (hin3 (V9 m ρ) c)) fun c => (hout3 (V9 m ρ) c).trans BI.sep_comm
def reg4 := regOf m ρ launch4 (W11 m ρ) (W12 m ρ) (body_obligation4 (V11 m ρ)) (hF4 m ρ) (hrest4 m ρ)
def reg5 := regOf m ρ launch5 (W13 m ρ) (W14 m ρ) (body_obligation5 (V13 m ρ)) (hF5 m ρ) (hrest5 m ρ)
def reg6 := regOf m ρ launch6 (W15 m ρ) (W16 m ρ) (body_obligation6 (V15 m ρ)) (hF6 m ρ) (hrest6 m ρ)
def reg7 := regOf m ρ launch7 (W17 m ρ) (W18 m ρ) (body_obligation7 (V17 m ρ)) (hF7 m ρ) (hrest7 m ρ)
def reg8 := regOf m ρ launch8 (W19 m ρ) (W20 m ρ) (body_obligation8 (V19 m ρ)) (hF8 m ρ) (hrest8 m ρ)
  (fun c => BI.sep_comm.trans (hin8 (V19 m ρ) c)) fun c => (hout8 (V19 m ρ) c).trans BI.sep_comm
def reg9 := regOf m ρ launch9 (W21 m ρ) (W22 m ρ) (body_obligation9 (V21 m ρ)) (hF9 m ρ) (hrest9 m ρ)
def reg10 := regOf m ρ launch10 (W23 m ρ) (W24 m ρ) (body_obligation10 (V23 m ρ)) (hF10 m ρ) (hrest10 m ρ)
def reg11 := regOf m ρ launch11 (W25 m ρ) (W26 m ρ) (body_obligation11 (V25 m ρ)) (hF11 m ρ) (hrest11 m ρ)
end
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .region (reg5 m ρ),
    .host (hseg hostOps6 hostOps6_sub hostOps6_fresh (W14 m ρ)),
    .region (reg6 m ρ),
    .host (hseg hostOps7 hostOps7_sub hostOps7_fresh (W16 m ρ)),
    .region (reg7 m ρ),
    .host (hseg hostOps8 hostOps8_sub hostOps8_fresh (W18 m ρ)),
    .region (reg8 m ρ),
    .host (hseg hostOps9 hostOps9_sub hostOps9_fresh (W20 m ρ)),
    .region (reg9 m ρ),
    .host (hseg hostOps10 hostOps10_sub hostOps10_fresh (W22 m ρ)),
    .region (reg10 m ρ),
    .host (hseg hostOps11 hostOps11_sub hostOps11_fresh (W24 m ρ)),
    .region (reg11 m ρ) ]
theorem main_run (c : Dev nD) : main (F := F) c = Pipeline.Seg.run (segs m ρ) := (main_chain c).trans (by chain_rfl)
set_option backward.isDefEq.respectTransparency.types false in
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W26 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      rw [ownU_emb₁, BI.bigSep_emp_const]
      iintro Hu; imodintro
      isplitl [Hu]; · iexact Hu
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W26 m ρ c) ∗ ∃ r, prngReg c r))
    (hch := by
      iterate 26 refine ⟨fun _ => .rfl, ?_⟩
      exact fun _ => sep_assoc')
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := hQ)
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  run_post m ρ fun s h c =>
   have k (b : Ref sig .tc) (hb) {x} (e : W26 m ρ c (Proc.devRef .tc b) = x) := (h c _ (mem_uc b hb)).trans e
   ⟨k main_arg0 (by decide) (W26_main_arg0 m ρ c),
    k main_arg1 (by decide) (W26_main_arg1 m ρ c),
    k main_arg2 (by decide) (W26_main_arg2 m ρ c),
    k main_arg3 (by decide) (W26_main_arg3 m ρ c),
    k main_arg4 (by decide) (W26_main_arg4 m ρ c),
    k main_arg5 (by decide) (W26_main_arg5 m ρ c),
    k main_arg6 (by decide) (W26_main_arg6 m ρ c),
    k main_arg7 (by decide) (W26_main_arg7 m ρ c),
    k main_arg8 (by decide) (W26_main_arg8 m ρ c),
    k main_arg9 (by decide) (W26_main_arg9 m ρ c),
    k main_arg10 (by decide) (W26_main_arg10 m ρ c),
    k main_arg11 (by decide) (W26_main_arg11 m ρ c),
    k main_arg12 (by decide) (W26_main_arg12 m ρ c)⟩
end Cert.Kernel.Hand
end
-- ==== Proof.Ideal.Region0.lean ====
import proofs.«403157_j14328010899645_2_alg».proof.Proof.Gen.KernelIdeal.Launch
import proofs.«403157_j14328010899645_2_alg».proof.Proof.Gen.KernelIdeal.Skeleton
import proofs.«403157_j14328010899645_2_alg».proof.Proof.Gen.KernelIdeal.Points
import proofs.«403157_j14328010899645_2_alg».proof.Proof.LibBody

noncomputable section

namespace Cert.KernelIdeal.Hand

open Cert.KernelIdeal Cert.KernelIdeal.Gen
open Idealize.ShloMosaic Idealize.ShloMosaic.TcCoe Idealize.SL.RA
open Idealize.ShloMosaic.Pipeline (Dat BodyObligation)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x256 := Rect.unit (s := S512x256) ![0, 0] S512x256.size inb_S512x256_S512x256_0_0
abbrev r0_1 : Rect S256x256 := Rect.unit (s := S256x256) ![0, 0] S256x256.size inb_S256x256_S256x256_0_0
abbrev r0_2 : Rect S1x256 := Rect.unit (s := S1x256) ![0, 0] S1x256.size inb_S1x256_S1x256_0_0
abbrev r0_3 : Rect S512x256 := Rect.unit (s := S512x256) ![0, 0] S512x256.size inb_S512x256_S512x256_0_0

def out0_3 (x0 : Vec F S512x256 .f32) (x1 : Vec F S256x256 .f32) (x2 : Vec F S1x256 .f32) : Vec F S512x256 .bf16 :=
  View.canon [⟨r0_3, k0_pay1 (View.ld x0 r0_0) (View.ld x1 r0_1) (View.ld x2 r0_2)⟩]

-- the one store is over the whole output, which therefore reads the stored payload
theorem sound_kernel0 (c : Dev nD) (E : Set ℕ) (i : grid0.Coords)
    (arg1 : Memref sig .tc .vmem S512x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S512x256 .bf16) (harg4 : arg4.IsWhole) :
    Body31 (Ix := Unit) (U := UR sig nD τ) (Lvl := ℕ) frame (wpE (defs₀ (F := F)) Variants.none c none) E
      (cc0__matmul_bias_kernel i arg1 harg1 arg2 harg2 arg3 harg3 arg4 harg4) (c : Thread nD τ) arg1 arg2 arg3 arg4 out0_3 :=
  fun f0 f1 f2 f3 K => by
  simp only [cc0__matmul_bias_kernel_eq_skeleton]; unfold cc0__matmul_bias_kernel_skel
  iintro ⟨H0, H1, H2, H3, Hk⟩
  sl_exec
  sl_step
  iapply Hk $$ H0 H1 H2
  iexists _; isplitr
  swap; · iexact H3
  ipureintro
  exact View.read_writes_eq_canon _ _ _ (View.cover_full _ _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

theorem body_obligation0 (c : Dev nD) : BodyObligation (dat0 (F := F) V c) (defs₀ (F := F)) Variants.none () Set.univ := fun t => by
  rw [bigSep_W0, bigSep_W0]
  exact Body31.frame (p := bodyAt0 t) (sound_kernel0 c Set.univ _ _ _ _ _ _ _ _ _) (fun d => (dat0 V c).before_eq_after 0 t d)
    (fun d => (dat0 V c).before_eq_after 1 t d) (fun d => (dat0 V c).before_eq_after 2 t d) (by dsimp only [dat0])

end Cert.KernelIdeal.Hand
-- ==== Proof.Ideal.Region1.lean ====
import proofs.«403157_j14328010899645_2_alg».proof.Proof.Gen.KernelIdeal.Launch
import proofs.«403157_j14328010899645_2_alg».proof.Proof.Gen.KernelIdeal.Skeleton
import proofs.«403157_j14328010899645_2_alg».proof.Proof.Gen.KernelIdeal.Points
import proofs.«403157_j14328010899645_2_alg».proof.Proof.LibBody

noncomputable section

namespace Cert.KernelIdeal.Hand

open Cert.KernelIdeal Cert.KernelIdeal.Gen
open Idealize.ShloMosaic Idealize.ShloMosaic.TcCoe Idealize.SL.RA
open Idealize.ShloMosaic.Pipeline (Dat BodyObligation)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1024x4096 := Rect.unit (s := S1024x4096) ![0, 0] S1024x4096.size inb_S1024x4096_S1024x4096_0_0
abbrev r1_1 : Rect S4096x256 := Rect.unit (s := S4096x256) ![0, 0] S4096x256.size inb_S4096x256_S4096x256_0_0
abbrev r1_2 : Rect S1x256 := Rect.unit (s := S1x256) ![0, 0] S1x256.size inb_S1x256_S1x256_0_0
abbrev r1_3 : Rect S1024x256 := Rect.unit (s := S1024x256) ![0, 0] S1024x256.size inb_S1024x256_S1024x256_0_0

def out1_3 (x0 : Vec F S1024x4096 .bf16) (x1 : Vec F S4096x256 .bf16) (x2 : Vec F S1x256 .f32) : Vec F S1024x256 .f32 :=
  View.canon [⟨r1_3, k1_pay1 (View.ld x0 r1_0) (View.ld x1 r1_1) (View.ld x2 r1_2)⟩]

-- the one store is over the whole output, which therefore reads the stored payload
theorem sound_kernel1 (c : Dev nD) (E : Set ℕ) (i : grid1.Coords)
    (arg1 : Memref sig .tc .vmem S1024x4096 .bf16) (harg1 : arg1.IsWhole) (arg2 : Memref sig .tc .vmem S4096x256 .bf16) (harg2 : arg2.IsWhole)
    (arg3 : Memref sig .tc .vmem S1x256 .f32) (harg3 : arg3.IsWhole) (arg4 : Memref sig .tc .vmem S1024x256 .f32) (harg4 : arg4.IsWhole) :
    Body31 (Ix := Unit) (U := UR sig nD τ) (Lvl := ℕ) frame (wpE (defs₀ (F := F)) Variants.none c none) E
      (cc1__matmul_bias_kernel i arg1 harg1 arg2 harg2 arg3 harg3 arg4 harg4) (c : Thread nD τ) arg1 arg2 arg3 arg4 out1_3 :=
  fun f0 f1 f2 f3 K => by
  simp only [cc1__matmul_bias_kernel_eq_skeleton]; unfold cc1__matmul_bias_kernel_skel
  iintro ⟨H0, H1, H2, H3, Hk⟩
  sl_exec
  sl_step
  iapply Hk $$ H0 H1 H2
  iexists _; isplitr
  swap; · iexact H3
  ipureintro
  exact View.read_writes_eq_canon _ _ _ (View.cover_full _ _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) :
    (dat1 V c).after 3 t = out1_3 (iblk1 V c 0 t) (iblk1 V c 1 t) (iblk1 V c 2 t) := by dsimp only [dat1]

theorem body_obligation1 (c : Dev nD) : BodyObligation (dat1 (F := F) V c) (defs₀ (F := F)) Variants.none () Set.univ := fun t => by
  rw [bigSep_W1, bigSep_W1]
  exact Body31.frame (p := bodyAt1 t) (sound_kernel1 c Set.univ _ _ _ _ _ _ _ _ _) (fun d => (dat1 V c).before_eq_after 0 t d)
    (fun d => (dat1 V c).before_eq_after 1 t d) (fun d => (dat1 V c).before_eq_after 2 t d) (by dsimp only [dat1])

end Cert.KernelIdeal.Hand
-- ==== Proof.Ideal.Region2.lean ====
import proofs.«403157_j14328010899645_2_alg».proof.Proof.Gen.KernelIdeal.Launch
import proofs.«403157_j14328010899645_2_alg».proof.Proof.Gen.KernelIdeal.Skeleton
import proofs.«403157_j14328010899645_2_alg».proof.Proof.Gen.KernelIdeal.Points
import proofs.«403157_j14328010899645_2_alg».proof.Proof.LibBody

noncomputable section

namespace Cert.KernelIdeal.Hand

open Cert.KernelIdeal Cert.KernelIdeal.Gen
open Idealize.ShloMosaic Idealize.ShloMosaic.TcCoe Idealize.SL.RA
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S512x256 := Rect.unit (s := S512x256) ![0, 0] S512x256.size inb_S512x256_S512x256_0_0
abbrev r2_1 : Rect S256x768 := Rect.unit (s := S256x768) ![0, 0] S256x768.size inb_S256x768_S256x768_0_0
abbrev r2_2 : Rect S1x768 := Rect.unit (s := S1x768) ![0, 0] S1x768.size inb_S1x768_S1x768_0_0
abbrev r2_3 : Rect S512x768 := Rect.unit (s := S512x768) ![0, 0] S512x768.size inb_S512x768_S512x768_0_0

def out2_3 (x0 : Vec F S512x256 .f32) (x1 : Vec F S256x768 .f32) (x2 : Vec F S1x768 .f32) : Vec F S512x768 .bf16 :=
  View.canon [⟨r2_3, k2_pay1 (View.ld x0 r2_0) (View.ld x1 r2_1) (View.ld x2 r2_2)⟩]

-- the one store is over the whole output, which therefore reads the stored payload
theorem sound_kernel2 (c : Dev nD) (E : Set ℕ) (i : grid2.Coords)
    (arg1 : Memref sig .tc .vmem S512x256 .f32) (harg1 : arg1.IsWhole) (arg2 : Memref sig .tc .vmem S256x768 .f32) (harg2 : arg2.IsWhole)
    (arg3 : Memref sig .tc .vmem S1x768 .f32) (harg3 : arg3.IsWhole) (arg4 : Memref sig .tc .vmem S512x768 .bf16) (harg4 : arg4.IsWhole) :
    Body31 (Ix := Unit) (U := UR sig nD τ) (Lvl := ℕ) frame (wpE (defs₀ (F := F)) Variants.none c none) E
      (cc2__matmul_bias_kernel i arg1 harg1 arg2 harg2 arg3 harg3 arg4 harg4) (c : Thread nD τ) arg1 arg2 arg3 arg4 out2_3 :=
  fun f0 f1 f2 f3 K => by
  simp only [cc2__matmul_bias_kernel_eq_skeleton]; unfold cc2__matmul_bias_kernel_skel
  iintro ⟨H0, H1, H2, H3, Hk⟩
  sl_exec
  sl_step
  iapply Hk $$ H0 H1 H2
  iexists _; isplitr
  swap; · iexact H3
  ipureintro
  exact View.read_writes_eq_canon _ _ _ (View.cover_full _ _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) :
    (dat2 V c).after 3 t = out2_3 (iblk2 V c 0 t) (iblk2 V c 1 t) (iblk2 V c 2 t) := by dsimp only [dat2]

theorem body_obligation2 (c : Dev nD) : BodyObligation (dat2 (F := F) V c) (defs₀ (F := F)) Variants.none () Set.univ := fun t => by
  rw [bigSep_W2, bigSep_W2]
  exact Body31.frame (p := bodyAt2 t) (sound_kernel2 c Set.univ _ _ _ _ _ _ _ _ _) (fun d => (dat2 V c).before_eq_after 0 t d)
    (fun d => (dat2 V c).before_eq_after 1 t d) (fun d => (dat2 V c).before_eq_after 2 t d) (by dsimp only [dat2])

end Cert.KernelIdeal.Hand
-- ==== Proof.Ideal.Region3.lean ====
import proofs.«403157_j14328010899645_2_alg».proof.Proof.Gen.KernelIdeal.Launch
import proofs.«403157_j14328010899645_2_alg».proof.Proof.Gen.KernelIdeal.Skeleton
import proofs.«403157_j14328010899645_2_alg».proof.Proof.Gen.KernelIdeal.Points
import proofs.«403157_j14328010899645_2_alg».proof.Proof.LibBody3
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.LibBody3

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev St3 (F : FTy → Type) : Type := Vec F S4x1024x1 .f32 × Vec F S4x1024x1 .f32 × Vec F S4x1024x64 .f32

def init3 : St3 F := (k3_pay4, k3_pay5, k3_pay6)

def step3 (q : Vec F S4x1024x64 .bf16) (k v : Vec F S4x512x64 .bf16) (s : St3 F) : St3 F :=
  (k3_pay2 (k3_pay8 q k s.1),
   k3_pay11 q k s.1 s.1 s.2.1,
   k3_pay1 (k3_pay9 q k s.1 s.1) (k3_pay10 q k s.1) v s.2.2)

def out3_3 (s : St3 F) : Vec F S4x1024x64 .bf16 := k3_pay3 s.2.2 s.2.1

def scr3 (c : Dev nD) : ℕ → St3 F
  | 0 => if h : 0 < cfg3.N then step3 (iblk3 V c 0 ⟨0, h⟩) (iblk3 V c 1 ⟨0, h⟩) (iblk3 V c 2 ⟨0, h⟩) init3 else init3
  | n + 1 => if h : n + 1 < cfg3.N then
      step3 (iblk3 V c 0 ⟨n + 1, h⟩) (iblk3 V c 1 ⟨n + 1, h⟩) (iblk3 V c 2 ⟨n + 1, h⟩) (if (n + 1) % 8 = 0 then init3 else scr3 c n)
    else scr3 c n

theorem scr3_first (c : Dev nD) (t : Fin cfg3.N) (h0 : t.val % 8 = 0) :
    scr3 V c t.val = step3 (iblk3 V c 0 t) (iblk3 V c 1 t) (iblk3 V c 2 t) init3 := by
  obtain ⟨n, hn⟩ := t
  dsimp only at h0 ⊢
  cases n with
  | zero => rw [scr3.eq_1, dif_pos hn]
  | succ n => rw [scr3.eq_2, dif_pos hn, if_pos h0]

theorem scr3_next (c : Dev nD) (t : Fin cfg3.N) (h0 : ¬ t.val % 8 = 0) :
    scr3 V c t.val = step3 (iblk3 V c 0 t) (iblk3 V c 1 t) (iblk3 V c 2 t) (scr3 V c (t.val - 1)) := by
  obtain ⟨n, hn⟩ := t
  dsimp only at h0 ⊢
  cases n with
  | zero => exact absurd (Nat.zero_mod _) h0
  | succ n => rw [Nat.add_sub_cancel, scr3.eq_2, dif_pos hn, if_neg h0]

abbrev cond3_1 (i : grid3.Coords) : Prop :=
  (Scalar.cmpi .ne (Scalar.extui (Scalar.cmpi .eq (BitVec.ofNat 32 (i 1).val) 0#32)) 0#32) = 1#1

theorem hcond3_1 : ∀ t : Fin cfg3.N, cond3_1 (grid3.coords t) ↔ t.val % 8 = 0 := by decide +kernel
theorem hcond3_2 : ∀ t : Fin cfg3.N, k3_cond2 (grid3.coords t) = 1#1 ↔ t.val % 8 = 7 := by decide +kernel
theorem hidle3_3 : ∀ t : Fin cfg3.N, cfg3.idle 3 (cfg3.grid.coords t) = true ↔ ¬ t.val % 8 = 7 := by decide +kernel

/-- Each point steps the state of the point before, restarting from the initial state at every multiple of 8. -/
theorem scr3_step (c : Dev nD) (t : Fin cfg3.N) (s : St3 F) (hs : t.val ≠ 0 → s = scr3 V c (t.val - 1)) :
    scr3 V c t.val = step3 (iblk3 V c 0 t) (iblk3 V c 1 t) (iblk3 V c 2 t) (if cond3_1 (grid3.coords t) then init3 else s) := by
  split
  · exact scr3_first V c t ((hcond3_1 t).mp ‹_›)
  · rw [hs fun e => ‹¬ _› ((hcond3_1 t).mpr (by rw [e]))]
    exact scr3_next V c t (mt (hcond3_1 t).mpr ‹_›)

/-- The invariant before point `t`: the carried state is the one after point `t - 1`, when there is such a point. -/
def Φ3 (c : Dev nD) (t : Fin (cfg3.N + 1)) : sProp 𝕄 :=
  iprop(∃ s : St3 F, ⌜t.val ≠ 0 → s = scr3 V c (t.val - 1)⌝
    ∗ owns c.tc (Memref.whole cc3_scratch0) fullShare s.1
    ∗ owns c.tc (Memref.whole cc3_scratch1) fullShare s.2.1
    ∗ owns c.tc (Memref.whole cc3_scratch2) fullShare s.2.2
    ∗ Pipeline.scopedRestBut spec3 c [cc3_scratch0, cc3_scratch1, cc3_scratch2]
    ∗ ∃ r, prngReg c r)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (scr3 V c t.val)
  Φ t := Φ3 V c t
  q _ := fullShare
  owed _ := 0

theorem A_eq3 (c : Dev nD) (w : Fin cfg3.W) : (dat3 V c).A w = V c (Pipeline.arrRef spec3 w) := rfl

theorem after3_3 (c : Dev nD) (t : Fin cfg3.N) : (dat3 V c).after 3 t = out3_3 (scr3 V c t.val) := rfl

theorem Φ_eq3 (c : Dev nD) (t : Fin (cfg3.N + 1)) : (dat3 V c).Φ t = Φ3 V c t := rfl

theorem hin3 (c : Dev nD) :
    iprop((∃ r, prngReg c r) ∗ Pipeline.scopedRest (Ix := Unit) (Name := ℕ) (U := UR sig nD τ) (Lvl := ℕ) (Val := Elt F) spec3 c)
      ⊢ ((dat3 V c).Φ 0 : sProp 𝕄) := by
  rw [Φ_eq3, Φ3, scopedRest3_split c]
  simp only [owns_whole]
  iintro ⟨Hp, ⟨⟨%f0, H0⟩, ⟨%f1, H1⟩, ⟨%f2, H2⟩⟩, Hr⟩
  iexists (f0, f1, f2)
  isplitr; · ipureintro; exact fun h => absurd rfl h
  iframe

theorem hout3 (c : Dev nD) :
    ((dat3 V c).Φ (Fin.last cfg3.N) : sProp 𝕄)
      ⊢ iprop((∃ r, prngReg c r) ∗ Pipeline.scopedRest (Ix := Unit) (Name := ℕ) (U := UR sig nD τ) (Lvl := ℕ) (Val := Elt F) spec3 c) := by
  rw [Φ_eq3, Φ3, scopedRest3_split c]
  simp only [owns_whole]
  iintro ⟨%s, -, H0, H1, H2, Hr, Hp⟩
  iframe Hp Hr
  isplitl [H0]; · iexists _; iexact H0
  isplitl [H1]; · iexists _; iexact H1
  iexists _; iexact H2

section Kernel
variable (c : Dev nD) (a2 : Memref sig .tc .vmem S4x1024x64 .bf16) (a3 a4 : Memref sig .tc .vmem S4x512x64 .bf16) (a5 : Memref sig .tc .vmem S4x1024x64 .bf16)
  (a6 a7 : Memref sig .tc .vmem S4x1024x1 .f32) (a8 : Memref sig .tc .vmem S4x1024x64 .f32)
  (q : Vec F S4x1024x64 .bf16) (k v : Vec F S4x512x64 .bf16) (d o : Vec F S4x1024x64 .bf16) (s s' : St3 F)

def held3 : sProp 𝕄 :=
  iprop(owns c.tc a2 fullShare q ∗ owns c.tc a3 fullShare k ∗ owns c.tc a4 fullShare v
    ∗ owns c.tc a5 fullShare o
    ∗ owns c.tc a6 fullShare s.1 ∗ owns c.tc a7 fullShare s.2.1 ∗ owns c.tc a8 fullShare s.2.2)

variable {c a2 a3 a4 a5 a6 a7 a8 q k v o s'}
/-- One run of the body computes one step of the state, from the initial state under the first condition, and under the second the output of the new state. -/
theorem sound_kernel3 {E : Set ℕ} {i : grid3.Coords} {h2 : a2.IsWhole} {h3 : a3.IsWhole} {h4 : a4.IsWhole} {h5 : a5.IsWhole}
    {h6 : a6.IsWhole} {h7 : a7.IsWhole} {h8 : a8.IsWhole}
    (hs : s' = step3 q k v (if cond3_1 i then init3 else s)) (ho : o = if k3_cond2 i = 1#1 then out3_3 s' else d) (K : PUnit → sProp 𝕄) :
    iprop(held3 c a2 a3 a4 a5 a6 a7 a8 q k v d s ∗ (held3 c a2 a3 a4 a5 a6 a7 a8 q k v o s' -∗ K ⟨⟩))
      ⊢ wp frame (wpE (defs₀ (F := F)) Variants.none c none) E (cc3_kernel i a2 h2 a3 h3 a4 h4 a5 h5 a6 h6 a7 h7 a8 h8) K := by
  obtain ⟨s1, s2, s3⟩ := s
  split at hs <;> split at ho <;> subst hs ho <;>
   (sl_unfold [cc3_kernel, k3_part1]
    rw [held3]
    unfold owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
    dsimp only at hf6 hf7 hf8
    subst hf2 hf3 hf4 hf5 hf6 hf7 hf8
    sl_exec (disch := assumption)
    sl_step
    ihave H2 := (pt_owns) $$ H2
    ihave H3 := (pt_owns) $$ H3
    ihave H4 := (pt_owns) $$ H4
    ihave H5 := (pt_owns) $$ H5
    ihave H6 := (pt_owns) $$ H6
    ihave H7 := (pt_owns) $$ H7
    ihave H8 := (pt_owns) $$ H8
    sl_unfold_run_names
    simp only [read_store_whole (S := S4x1024x1) _ _ off0, read_store_whole (S := S4x1024x64) _ _ off0,
      readCov_store_whole (S := S4x1024x1) _ off0, readCov_store_whole (S := S4x1024x64) _ off0,
      readAt_whole (S := S4x1024x1) _ _ off0, readAt_whole (S := S4x1024x64) _ _ off0, readAt_whole (S := S4x512x64) _ _ off0, step3, init3, out3_3]
    iapply Hk
    rw [held3]
    iframe)

end Kernel

theorem leaves3 (c : Dev nD) (t : Fin cfg3.N) (d) :
    owns c.tc (st3_3 t) fullShare (if k3_cond2 (grid3.coords t) = 1#1 then out3_3 (scr3 V c t.val) else (dat3 V c).before 3 t d)
      ⊢ ((dat3 V c).leavesExact 3 t : sProp 𝕄) := by
  by_cases h7 : t.val % 8 = 7
  · rw [if_pos ((hcond3_2 t).mpr h7)]
    unfold Dat.leavesExact
    rw [Bool.eq_false_iff.mpr fun h => (hidle3_3 t).mp h h7]
    exact .rfl
  · rw [if_neg (mt (hcond3_2 t).mp h7),
      (dat3 V c).leavesExact_idle 3 t ((hidle3_3 t).mpr h7) (Bool.eq_false_iff.mpr (mt (flush3_3 t).mp h7))]
    iintro H; iexists d; iexact H

theorem sound_body3 (c : Dev nD) (t : Fin cfg3.N) :
    iprop((dat3 V c).Φ t.castSucc ∗ (dat3 V c).owesAt () t.castSucc
      ∗ (∃ d, owns c.tc (st3_0 t) fullShare ((dat3 V c).before 0 t d))
      ∗ (∃ d, owns c.tc (st3_1 t) fullShare ((dat3 V c).before 1 t d))
      ∗ (∃ d, owns c.tc (st3_2 t) fullShare ((dat3 V c).before 2 t d))
      ∗ (∃ d, owns c.tc (st3_3 t) fullShare ((dat3 V c).before 3 t d)))
    ⊢ wp frame (wpE (defs₀ (F := F)) Variants.none c none) Set.univ (bodyAt3 t) (fun _ =>
      iprop((dat3 V c).Φ t.succ ∗ (dat3 V c).owesAt () t.succ
        ∗ owns c.tc (st3_0 t) fullShare ((dat3 V c).after 0 t)
        ∗ owns c.tc (st3_1 t) fullShare ((dat3 V c).after 1 t)
        ∗ owns c.tc (st3_2 t) fullShare ((dat3 V c).after 2 t)
        ∗ (dat3 V c).leavesExact 3 t)) := by
  simp only [Φ_eq3, Φ3, (dat3 V c).before_in_eq_fetched 0 rfl (fun _ => rfl) (fun _ _ _ => rfl) fun _ => rfl,
    (dat3 V c).before_in_eq_fetched 1 rfl (fun _ => rfl) (fun _ _ _ => rfl) fun _ => rfl,
    (dat3 V c).before_in_eq_fetched 2 rfl (fun _ => rfl) (fun _ _ _ => rfl) fun _ => rfl]
  iintro ⟨⟨%s, %hs, S0, S1, S2, Hrest, Hp⟩, Ho, ⟨%d0, H0⟩, ⟨%d1, H1⟩, ⟨%d2, H2⟩, ⟨%d3, H3⟩⟩
  iapply (sound_kernel3 ((dat3 V c).before 3 t d3) s (scr3_step V c t s hs) rfl _)
  rw [held3, held3]
  iframe S0 S1 S2
  isplitl [H0 H1 H2 H3]
  · isplitl [H0]; · iexact H0
    isplitl [H1]; · iexact H1
    isplitl [H2]; · iexact H2
    iexact H3
  iintro ⟨H0, H1, H2, H3, S0, S1, S2⟩
  isplitl [S0 S1 S2 Hrest Hp]
  · iexists (scr3 V c t.val); isplitr; · ipureintro; exact fun _ => rfl
    iframe
  isplitl [Ho]; · iexact Ho
  isplitl [H0]; · iexact H0
  isplitl [H1]; · iexact H1
  isplitl [H2]; · iexact H2
  iapply (leaves3 V c t d3)
  iexact H3

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Ideal.Region4.lean ====
import proofs.«403157_j14328010899645_2_alg».proof.Proof.Gen.KernelIdeal.Launch
import proofs.«403157_j14328010899645_2_alg».proof.Proof.Gen.KernelIdeal.Skeleton
import proofs.«403157_j14328010899645_2_alg».proof.Proof.Gen.KernelIdeal.Points
import proofs.«403157_j14328010899645_2_alg».proof.Proof.LibBody

noncomputable section

namespace Cert.KernelIdeal.Hand

open Cert.KernelIdeal Cert.KernelIdeal.Gen
open Idealize.ShloMosaic Idealize.ShloMosaic.TcCoe Idealize.SL.RA
open Idealize.ShloMosaic.Pipeline (Dat BodyObligation)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S512x256 := Rect.unit (s := S512x256) ![0, 0] S512x256.size inb_S512x256_S512x256_0_0
abbrev r4_1 : Rect S256x256 := Rect.unit (s := S256x256) ![0, 0] S256x256.size inb_S256x256_S256x256_0_0
abbrev r4_2 : Rect S1x256 := Rect.unit (s := S1x256) ![0, 0] S1x256.size inb_S1x256_S1x256_0_0
abbrev r4_3 : Rect S512x256 := Rect.unit (s := S512x256) ![0, 0] S512x256.size inb_S512x256_S512x256_0_0

def out4_3 (x0 : Vec F S512x256 .bf16) (x1 : Vec F S256x256 .f32) (x2 : Vec F S1x256 .f32) : Vec F S512x256 .f32 :=
  View.canon [⟨r4_3, k4_pay1 (View.ld x0 r4_0) (View.ld x1 r4_1) (View.ld x2 r4_2)⟩]

-- the one store is over the whole output, which therefore reads the stored payload
theorem sound_kernel4 (c : Dev nD) (E : Set ℕ) (i : grid4.Coords)
    (arg1 : Memref sig .tc .vmem S512x256 .bf16) (harg1 : arg1.IsWhole) (arg2 : Memref sig .tc .vmem S256x256 .f32) (harg2 : arg2.IsWhole)
    (arg3 : Memref sig .tc .vmem S1x256 .f32) (harg3 : arg3.IsWhole) (arg4 : Memref sig .tc .vmem S512x256 .f32) (harg4 : arg4.IsWhole) :
    Body31 (Ix := Unit) (U := UR sig nD τ) (Lvl := ℕ) frame (wpE (defs₀ (F := F)) Variants.none c none) E
      (cc4__matmul_bias_kernel i arg1 harg1 arg2 harg2 arg3 harg3 arg4 harg4) (c : Thread nD τ) arg1 arg2 arg3 arg4 out4_3 :=
  fun f0 f1 f2 f3 K => by
  simp only [cc4__matmul_bias_kernel_eq_skeleton]; unfold cc4__matmul_bias_kernel_skel
  iintro ⟨H0, H1, H2, H3, Hk⟩
  sl_exec
  sl_step
  iapply Hk $$ H0 H1 H2
  iexists _; isplitr
  swap; · iexact H3
  ipureintro
  exact View.read_writes_eq_canon _ _ _ (View.cover_full _ _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) :
    (dat4 V c).after 3 t = out4_3 (iblk4 V c 0 t) (iblk4 V c 1 t) (iblk4 V c 2 t) := by dsimp only [dat4]

theorem body_obligation4 (c : Dev nD) : BodyObligation (dat4 (F := F) V c) (defs₀ (F := F)) Variants.none () Set.univ := fun t => by
  rw [bigSep_W4, bigSep_W4]
  exact Body31.frame (p := bodyAt4 t) (sound_kernel4 c Set.univ _ _ _ _ _ _ _ _ _) (fun d => (dat4 V c).before_eq_after 0 t d)
    (fun d => (dat4 V c).before_eq_after 1 t d) (fun d => (dat4 V c).before_eq_after 2 t d) (by dsimp only [dat4])

end Cert.KernelIdeal.Hand
-- ==== Proof.Ideal.Region5.lean ====
import proofs.«403157_j14328010899645_2_alg».proof.Proof.Gen.KernelIdeal.Launch
import proofs.«403157_j14328010899645_2_alg».proof.Proof.Gen.KernelIdeal.Skeleton
import proofs.«403157_j14328010899645_2_alg».proof.Proof.Gen.KernelIdeal.Points
import proofs.«403157_j14328010899645_2_alg».proof.Proof.LibBody

noncomputable section

namespace Cert.KernelIdeal.Hand

open Cert.KernelIdeal Cert.KernelIdeal.Gen
open Idealize.ShloMosaic Idealize.ShloMosaic.TcCoe Idealize.SL.RA
open Idealize.ShloMosaic.Pipeline (Dat BodyObligation)

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S512x256 := Rect.unit (s := S512x256) ![0, 0] S512x256.size inb_S512x256_S512x256_0_0
abbrev r5_1 : Rect S256x256 := Rect.unit (s := S256x256) ![0, 0] S256x256.size inb_S256x256_S256x256_0_0
abbrev r5_2 : Rect S1x256 := Rect.unit (s := S1x256) ![0, 0] S1x256.size inb_S1x256_S1x256_0_0
abbrev r5_3 : Rect S512x256 := Rect.unit (s := S512x256) ![0, 0] S512x256.size inb_S512x256_S512x256_0_0

def out5_3 (x0 : Vec F S512x256 .f32) (x1 : Vec F S256x256 .f32) (x2 : Vec F S1x256 .f32) : Vec F S512x256 .bf16 :=
  View.canon [⟨r5_3, k5_pay1 (View.ld x0 r5_0) (View.ld x1 r5_1) (View.ld x2 r5_2)⟩]

-- the one store is over the whole output, which therefore reads the stored payload
theorem sound_kernel5 (c : Dev nD) (E : Set ℕ) (i : grid5.Coords)
    (arg1 : Memref sig .tc .vmem S512x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S512x256 .bf16) (harg4 : arg4.IsWhole) :
    Body31 (Ix := Unit) (U := UR sig nD τ) (Lvl := ℕ) frame (wpE (defs₀ (F := F)) Variants.none c none) E
      (cc5__matmul_bias_kernel i arg1 harg1 arg2 harg2 arg3 harg3 arg4 harg4) (c : Thread nD τ) arg1 arg2 arg3 arg4 out5_3 :=
  fun f0 f1 f2 f3 K => by
  simp only [cc5__matmul_bias_kernel_eq_skeleton]; unfold cc5__matmul_bias_kernel_skel
  iintro ⟨H0, H1, H2, H3, Hk⟩
  sl_exec
  sl_step
  iapply Hk $$ H0 H1 H2
  iexists _; isplitr
  swap; · iexact H3
  ipureintro
  exact View.read_writes_eq_canon _ _ _ (View.cover_full _ _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_3 (c : Dev nD) (t : Fin cfg5.N) :
    (dat5 V c).after 3 t = out5_3 (iblk5 V c 0 t) (iblk5 V c 1 t) (iblk5 V c 2 t) := by dsimp only [dat5]

theorem body_obligation5 (c : Dev nD) : BodyObligation (dat5 (F := F) V c) (defs₀ (F := F)) Variants.none () Set.univ := fun t => by
  rw [bigSep_W5, bigSep_W5]
  exact Body31.frame (p := bodyAt5 t) (sound_kernel5 c Set.univ _ _ _ _ _ _ _ _ _) (fun d => (dat5 V c).before_eq_after 0 t d)
    (fun d => (dat5 V c).before_eq_after 1 t d) (fun d => (dat5 V c).before_eq_after 2 t d) (by dsimp only [dat5])

end Cert.KernelIdeal.Hand
-- ==== Proof.Ideal.Region6.lean ====
import proofs.«403157_j14328010899645_2_alg».proof.Proof.Gen.KernelIdeal.Launch
import proofs.«403157_j14328010899645_2_alg».proof.Proof.Gen.KernelIdeal.Skeleton
import proofs.«403157_j14328010899645_2_alg».proof.Proof.Gen.KernelIdeal.Points
import proofs.«403157_j14328010899645_2_alg».proof.Proof.LibBody

noncomputable section

namespace Cert.KernelIdeal.Hand

open Cert.KernelIdeal Cert.KernelIdeal.Gen
open Idealize.ShloMosaic Idealize.ShloMosaic.TcCoe Idealize.SL.RA
open Idealize.ShloMosaic.Pipeline (Dat BodyObligation)

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S1024x4096 := Rect.unit (s := S1024x4096) ![0, 0] S1024x4096.size inb_S1024x4096_S1024x4096_0_0
abbrev r6_1 : Rect S4096x256 := Rect.unit (s := S4096x256) ![0, 0] S4096x256.size inb_S4096x256_S4096x256_0_0
abbrev r6_2 : Rect S1x256 := Rect.unit (s := S1x256) ![0, 0] S1x256.size inb_S1x256_S1x256_0_0
abbrev r6_3 : Rect S1024x256 := Rect.unit (s := S1024x256) ![0, 0] S1024x256.size inb_S1024x256_S1024x256_0_0

def out6_3 (x0 : Vec F S1024x4096 .bf16) (x1 : Vec F S4096x256 .bf16) (x2 : Vec F S1x256 .f32) : Vec F S1024x256 .f32 :=
  View.canon [⟨r6_3, k6_pay1 (View.ld x0 r6_0) (View.ld x1 r6_1) (View.ld x2 r6_2)⟩]

-- the one store is over the whole output, which therefore reads the stored payload
theorem sound_kernel6 (c : Dev nD) (E : Set ℕ) (i : grid6.Coords)
    (arg1 : Memref sig .tc .vmem S1024x4096 .bf16) (harg1 : arg1.IsWhole) (arg2 : Memref sig .tc .vmem S4096x256 .bf16) (harg2 : arg2.IsWhole)
    (arg3 : Memref sig .tc .vmem S1x256 .f32) (harg3 : arg3.IsWhole) (arg4 : Memref sig .tc .vmem S1024x256 .f32) (harg4 : arg4.IsWhole) :
    Body31 (Ix := Unit) (U := UR sig nD τ) (Lvl := ℕ) frame (wpE (defs₀ (F := F)) Variants.none c none) E
      (cc6__matmul_bias_kernel i arg1 harg1 arg2 harg2 arg3 harg3 arg4 harg4) (c : Thread nD τ) arg1 arg2 arg3 arg4 out6_3 :=
  fun f0 f1 f2 f3 K => by
  simp only [cc6__matmul_bias_kernel_eq_skeleton]; unfold cc6__matmul_bias_kernel_skel
  iintro ⟨H0, H1, H2, H3, Hk⟩
  sl_exec
  sl_step
  iapply Hk $$ H0 H1 H2
  iexists _; isplitr
  swap; · iexact H3
  ipureintro
  exact View.read_writes_eq_canon _ _ _ (View.cover_full _ _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_3 (c : Dev nD) (t : Fin cfg6.N) :
    (dat6 V c).after 3 t = out6_3 (iblk6 V c 0 t) (iblk6 V c 1 t) (iblk6 V c 2 t) := by dsimp only [dat6]

theorem body_obligation6 (c : Dev nD) : BodyObligation (dat6 (F := F) V c) (defs₀ (F := F)) Variants.none () Set.univ := fun t => by
  rw [bigSep_W6, bigSep_W6]
  exact Body31.frame (p := bodyAt6 t) (sound_kernel6 c Set.univ _ _ _ _ _ _ _ _ _) (fun d => (dat6 V c).before_eq_after 0 t d)
    (fun d => (dat6 V c).before_eq_after 1 t d) (fun d => (dat6 V c).before_eq_after 2 t d) (by dsimp only [dat6])

end Cert.KernelIdeal.Hand
-- ==== Proof.Ideal.Region7.lean ====
import proofs.«403157_j14328010899645_2_alg».proof.Proof.Gen.KernelIdeal.Launch
import proofs.«403157_j14328010899645_2_alg».proof.Proof.Gen.KernelIdeal.Skeleton
import proofs.«403157_j14328010899645_2_alg».proof.Proof.Gen.KernelIdeal.Points
import proofs.«403157_j14328010899645_2_alg».proof.Proof.LibBody

noncomputable section

namespace Cert.KernelIdeal.Hand

open Cert.KernelIdeal Cert.KernelIdeal.Gen
open Idealize.ShloMosaic Idealize.ShloMosaic.TcCoe Idealize.SL.RA
open Idealize.ShloMosaic.Pipeline (Dat BodyObligation)

variable {F : FTy → Type} [FloatOps F]

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S512x256 := Rect.unit (s := S512x256) ![0, 0] S512x256.size inb_S512x256_S512x256_0_0
abbrev r7_1 : Rect S256x768 := Rect.unit (s := S256x768) ![0, 0] S256x768.size inb_S256x768_S256x768_0_0
abbrev r7_2 : Rect S1x768 := Rect.unit (s := S1x768) ![0, 0] S1x768.size inb_S1x768_S1x768_0_0
abbrev r7_3 : Rect S512x768 := Rect.unit (s := S512x768) ![0, 0] S512x768.size inb_S512x768_S512x768_0_0

def out7_3 (x0 : Vec F S512x256 .f32) (x1 : Vec F S256x768 .f32) (x2 : Vec F S1x768 .f32) : Vec F S512x768 .bf16 :=
  View.canon [⟨r7_3, k7_pay1 (View.ld x0 r7_0) (View.ld x1 r7_1) (View.ld x2 r7_2)⟩]

-- the one store is over the whole output, which therefore reads the stored payload
theorem sound_kernel7 (c : Dev nD) (E : Set ℕ) (i : grid7.Coords)
    (arg1 : Memref sig .tc .vmem S512x256 .f32) (harg1 : arg1.IsWhole) (arg2 : Memref sig .tc .vmem S256x768 .f32) (harg2 : arg2.IsWhole)
    (arg3 : Memref sig .tc .vmem S1x768 .f32) (harg3 : arg3.IsWhole) (arg4 : Memref sig .tc .vmem S512x768 .bf16) (harg4 : arg4.IsWhole) :
    Body31 (Ix := Unit) (U := UR sig nD τ) (Lvl := ℕ) frame (wpE (defs₀ (F := F)) Variants.none c none) E
      (cc7__matmul_bias_kernel i arg1 harg1 arg2 harg2 arg3 harg3 arg4 harg4) (c : Thread nD τ) arg1 arg2 arg3 arg4 out7_3 :=
  fun f0 f1 f2 f3 K => by
  simp only [cc7__matmul_bias_kernel_eq_skeleton]; unfold cc7__matmul_bias_kernel_skel
  iintro ⟨H0, H1, H2, H3, Hk⟩
  sl_exec
  sl_step
  iapply Hk $$ H0 H1 H2
  iexists _; isplitr
  swap; · iexact H3
  ipureintro
  exact View.read_writes_eq_canon _ _ _ (View.cover_full _ _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_3 (c : Dev nD) (t : Fin cfg7.N) :
    (dat7 V c).after 3 t = out7_3 (iblk7 V c 0 t) (iblk7 V c 1 t) (iblk7 V c 2 t) := by dsimp only [dat7]

theorem body_obligation7 (c : Dev nD) : BodyObligation (dat7 (F := F) V c) (defs₀ (F := F)) Variants.none () Set.univ := fun t => by
  rw [bigSep_W7, bigSep_W7]
  exact Body31.frame (p := bodyAt7 t) (sound_kernel7 c Set.univ _ _ _ _ _ _ _ _ _) (fun d => (dat7 V c).before_eq_after 0 t d)
    (fun d => (dat7 V c).before_eq_after 1 t d) (fun d => (dat7 V c).before_eq_after 2 t d) (by dsimp only [dat7])

end Cert.KernelIdeal.Hand
-- ==== Proof.Ideal.Region8.lean ====
import proofs.«403157_j14328010899645_2_alg».proof.Proof.Gen.KernelIdeal.Launch
import proofs.«403157_j14328010899645_2_alg».proof.Proof.Gen.KernelIdeal.Skeleton
import proofs.«403157_j14328010899645_2_alg».proof.Proof.Gen.KernelIdeal.Points
import proofs.«403157_j14328010899645_2_alg».proof.Proof.LibBody3
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.LibBody3

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev St8 (F : FTy → Type) : Type := Vec F S4x1024x1 .f32 × Vec F S4x1024x1 .f32 × Vec F S4x1024x64 .f32

def init8 : St8 F := (k8_pay4, k8_pay5, k8_pay6)

def step8 (q : Vec F S4x1024x64 .bf16) (k v : Vec F S4x512x64 .bf16) (s : St8 F) : St8 F :=
  (k8_pay2 (k8_pay8 q k s.1),
   k8_pay11 q k s.1 s.1 s.2.1,
   k8_pay1 (k8_pay9 q k s.1 s.1) (k8_pay10 q k s.1) v s.2.2)

def out8_3 (s : St8 F) : Vec F S4x1024x64 .bf16 := k8_pay3 s.2.2 s.2.1

def scr8 (c : Dev nD) : ℕ → St8 F
  | 0 => if h : 0 < cfg8.N then step8 (iblk8 V c 0 ⟨0, h⟩) (iblk8 V c 1 ⟨0, h⟩) (iblk8 V c 2 ⟨0, h⟩) init8 else init8
  | n + 1 => if h : n + 1 < cfg8.N then
      step8 (iblk8 V c 0 ⟨n + 1, h⟩) (iblk8 V c 1 ⟨n + 1, h⟩) (iblk8 V c 2 ⟨n + 1, h⟩) (if (n + 1) % 8 = 0 then init8 else scr8 c n)
    else scr8 c n

theorem scr8_first (c : Dev nD) (t : Fin cfg8.N) (h0 : t.val % 8 = 0) :
    scr8 V c t.val = step8 (iblk8 V c 0 t) (iblk8 V c 1 t) (iblk8 V c 2 t) init8 := by
  obtain ⟨n, hn⟩ := t
  dsimp only at h0 ⊢
  cases n with
  | zero => rw [scr8.eq_1, dif_pos hn]
  | succ n => rw [scr8.eq_2, dif_pos hn, if_pos h0]

theorem scr8_next (c : Dev nD) (t : Fin cfg8.N) (h0 : ¬ t.val % 8 = 0) :
    scr8 V c t.val = step8 (iblk8 V c 0 t) (iblk8 V c 1 t) (iblk8 V c 2 t) (scr8 V c (t.val - 1)) := by
  obtain ⟨n, hn⟩ := t
  dsimp only at h0 ⊢
  cases n with
  | zero => exact absurd (Nat.zero_mod _) h0
  | succ n => rw [Nat.add_sub_cancel, scr8.eq_2, dif_pos hn, if_neg h0]

abbrev cond8_1 (i : grid8.Coords) : Prop :=
  (Scalar.cmpi .ne (Scalar.extui (Scalar.cmpi .eq (BitVec.ofNat 32 (i 1).val) 0#32)) 0#32) = 1#1

theorem hcond8_1 : ∀ t : Fin cfg8.N, cond8_1 (grid8.coords t) ↔ t.val % 8 = 0 := by decide +kernel
theorem hcond8_2 : ∀ t : Fin cfg8.N, k8_cond2 (grid8.coords t) = 1#1 ↔ t.val % 8 = 7 := by decide +kernel
theorem hidle8_3 : ∀ t : Fin cfg8.N, cfg8.idle 3 (cfg8.grid.coords t) = true ↔ ¬ t.val % 8 = 7 := by decide +kernel

/-- Each point steps the state of the point before, restarting from the initial state at every multiple of 8. -/
theorem scr8_step (c : Dev nD) (t : Fin cfg8.N) (s : St8 F) (hs : t.val ≠ 0 → s = scr8 V c (t.val - 1)) :
    scr8 V c t.val = step8 (iblk8 V c 0 t) (iblk8 V c 1 t) (iblk8 V c 2 t) (if cond8_1 (grid8.coords t) then init8 else s) := by
  split
  · exact scr8_first V c t ((hcond8_1 t).mp ‹_›)
  · rw [hs fun e => ‹¬ _› ((hcond8_1 t).mpr (by rw [e]))]
    exact scr8_next V c t (mt (hcond8_1 t).mpr ‹_›)

/-- The invariant before point `t`: the carried state is the one after point `t - 1`, when there is such a point. -/
def Φ8 (c : Dev nD) (t : Fin (cfg8.N + 1)) : sProp 𝕄 :=
  iprop(∃ s : St8 F, ⌜t.val ≠ 0 → s = scr8 V c (t.val - 1)⌝
    ∗ owns c.tc (Memref.whole cc8_scratch0) fullShare s.1
    ∗ owns c.tc (Memref.whole cc8_scratch1) fullShare s.2.1
    ∗ owns c.tc (Memref.whole cc8_scratch2) fullShare s.2.2
    ∗ Pipeline.scopedRestBut spec8 c [cc8_scratch0, cc8_scratch1, cc8_scratch2]
    ∗ ∃ r, prngReg c r)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (scr8 V c t.val)
  Φ t := Φ8 V c t
  q _ := fullShare
  owed _ := 0

theorem A_eq8 (c : Dev nD) (w : Fin cfg8.W) : (dat8 V c).A w = V c (Pipeline.arrRef spec8 w) := rfl

theorem after8_3 (c : Dev nD) (t : Fin cfg8.N) : (dat8 V c).after 3 t = out8_3 (scr8 V c t.val) := rfl

theorem Φ_eq8 (c : Dev nD) (t : Fin (cfg8.N + 1)) : (dat8 V c).Φ t = Φ8 V c t := rfl

theorem hin8 (c : Dev nD) :
    iprop((∃ r, prngReg c r) ∗ Pipeline.scopedRest (Ix := Unit) (Name := ℕ) (U := UR sig nD τ) (Lvl := ℕ) (Val := Elt F) spec8 c)
      ⊢ ((dat8 V c).Φ 0 : sProp 𝕄) := by
  rw [Φ_eq8, Φ8, scopedRest8_split c]
  simp only [owns_whole]
  iintro ⟨Hp, ⟨⟨%f0, H0⟩, ⟨%f1, H1⟩, ⟨%f2, H2⟩⟩, Hr⟩
  iexists (f0, f1, f2)
  isplitr; · ipureintro; exact fun h => absurd rfl h
  iframe

theorem hout8 (c : Dev nD) :
    ((dat8 V c).Φ (Fin.last cfg8.N) : sProp 𝕄)
      ⊢ iprop((∃ r, prngReg c r) ∗ Pipeline.scopedRest (Ix := Unit) (Name := ℕ) (U := UR sig nD τ) (Lvl := ℕ) (Val := Elt F) spec8 c) := by
  rw [Φ_eq8, Φ8, scopedRest8_split c]
  simp only [owns_whole]
  iintro ⟨%s, -, H0, H1, H2, Hr, Hp⟩
  iframe Hp Hr
  isplitl [H0]; · iexists _; iexact H0
  isplitl [H1]; · iexists _; iexact H1
  iexists _; iexact H2

section Kernel
variable (c : Dev nD) (a2 : Memref sig .tc .vmem S4x1024x64 .bf16) (a3 a4 : Memref sig .tc .vmem S4x512x64 .bf16) (a5 : Memref sig .tc .vmem S4x1024x64 .bf16)
  (a6 a7 : Memref sig .tc .vmem S4x1024x1 .f32) (a8 : Memref sig .tc .vmem S4x1024x64 .f32)
  (q : Vec F S4x1024x64 .bf16) (k v : Vec F S4x512x64 .bf16) (d o : Vec F S4x1024x64 .bf16) (s s' : St8 F)

def held8 : sProp 𝕄 :=
  iprop(owns c.tc a2 fullShare q ∗ owns c.tc a3 fullShare k ∗ owns c.tc a4 fullShare v
    ∗ owns c.tc a5 fullShare o
    ∗ owns c.tc a6 fullShare s.1 ∗ owns c.tc a7 fullShare s.2.1 ∗ owns c.tc a8 fullShare s.2.2)

variable {c a2 a3 a4 a5 a6 a7 a8 q k v o s'}
/-- One run of the body computes one step of the state, from the initial state under the first condition, and under the second the output of the new state. -/
theorem sound_kernel8 {E : Set ℕ} {i : grid8.Coords} {h2 : a2.IsWhole} {h3 : a3.IsWhole} {h4 : a4.IsWhole} {h5 : a5.IsWhole}
    {h6 : a6.IsWhole} {h7 : a7.IsWhole} {h8 : a8.IsWhole}
    (hs : s' = step8 q k v (if cond8_1 i then init8 else s)) (ho : o = if k8_cond2 i = 1#1 then out8_3 s' else d) (K : PUnit → sProp 𝕄) :
    iprop(held8 c a2 a3 a4 a5 a6 a7 a8 q k v d s ∗ (held8 c a2 a3 a4 a5 a6 a7 a8 q k v o s' -∗ K ⟨⟩))
      ⊢ wp frame (wpE (defs₀ (F := F)) Variants.none c none) E (cc8_kernel i a2 h2 a3 h3 a4 h4 a5 h5 a6 h6 a7 h7 a8 h8) K := by
  obtain ⟨s1, s2, s3⟩ := s
  split at hs <;> split at ho <;> subst hs ho <;>
   (sl_unfold [cc8_kernel, k8_part1]
    rw [held8]
    unfold owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
    dsimp only at hf6 hf7 hf8
    subst hf2 hf3 hf4 hf5 hf6 hf7 hf8
    sl_exec (disch := assumption)
    sl_step
    ihave H2 := (pt_owns) $$ H2
    ihave H3 := (pt_owns) $$ H3
    ihave H4 := (pt_owns) $$ H4
    ihave H5 := (pt_owns) $$ H5
    ihave H6 := (pt_owns) $$ H6
    ihave H7 := (pt_owns) $$ H7
    ihave H8 := (pt_owns) $$ H8
    sl_unfold_run_names
    simp only [read_store_whole (S := S4x1024x1) _ _ off0, read_store_whole (S := S4x1024x64) _ _ off0,
      readCov_store_whole (S := S4x1024x1) _ off0, readCov_store_whole (S := S4x1024x64) _ off0,
      readAt_whole (S := S4x1024x1) _ _ off0, readAt_whole (S := S4x1024x64) _ _ off0, readAt_whole (S := S4x512x64) _ _ off0, step8, init8, out8_3]
    iapply Hk
    rw [held8]
    iframe)

end Kernel

theorem leaves8 (c : Dev nD) (t : Fin cfg8.N) (d) :
    owns c.tc (st8_3 t) fullShare (if k8_cond2 (grid8.coords t) = 1#1 then out8_3 (scr8 V c t.val) else (dat8 V c).before 3 t d)
      ⊢ ((dat8 V c).leavesExact 3 t : sProp 𝕄) := by
  by_cases h7 : t.val % 8 = 7
  · rw [if_pos ((hcond8_2 t).mpr h7)]
    unfold Dat.leavesExact
    rw [Bool.eq_false_iff.mpr fun h => (hidle8_3 t).mp h h7]
    exact .rfl
  · rw [if_neg (mt (hcond8_2 t).mp h7),
      (dat8 V c).leavesExact_idle 3 t ((hidle8_3 t).mpr h7) (Bool.eq_false_iff.mpr (mt (flush8_3 t).mp h7))]
    iintro H; iexists d; iexact H

theorem sound_body8 (c : Dev nD) (t : Fin cfg8.N) :
    iprop((dat8 V c).Φ t.castSucc ∗ (dat8 V c).owesAt () t.castSucc
      ∗ (∃ d, owns c.tc (st8_0 t) fullShare ((dat8 V c).before 0 t d))
      ∗ (∃ d, owns c.tc (st8_1 t) fullShare ((dat8 V c).before 1 t d))
      ∗ (∃ d, owns c.tc (st8_2 t) fullShare ((dat8 V c).before 2 t d))
      ∗ (∃ d, owns c.tc (st8_3 t) fullShare ((dat8 V c).before 3 t d)))
    ⊢ wp frame (wpE (defs₀ (F := F)) Variants.none c none) Set.univ (bodyAt8 t) (fun _ =>
      iprop((dat8 V c).Φ t.succ ∗ (dat8 V c).owesAt () t.succ
        ∗ owns c.tc (st8_0 t) fullShare ((dat8 V c).after 0 t)
        ∗ owns c.tc (st8_1 t) fullShare ((dat8 V c).after 1 t)
        ∗ owns c.tc (st8_2 t) fullShare ((dat8 V c).after 2 t)
        ∗ (dat8 V c).leavesExact 3 t)) := by
  simp only [Φ_eq8, Φ8, (dat8 V c).before_in_eq_fetched 0 rfl (fun _ => rfl) (fun _ _ _ => rfl) fun _ => rfl,
    (dat8 V c).before_in_eq_fetched 1 rfl (fun _ => rfl) (fun _ _ _ => rfl) fun _ => rfl,
    (dat8 V c).before_in_eq_fetched 2 rfl (fun _ => rfl) (fun _ _ _ => rfl) fun _ => rfl]
  iintro ⟨⟨%s, %hs, S0, S1, S2, Hrest, Hp⟩, Ho, ⟨%d0, H0⟩, ⟨%d1, H1⟩, ⟨%d2, H2⟩, ⟨%d3, H3⟩⟩
  iapply (sound_kernel8 ((dat8 V c).before 3 t d3) s (scr8_step V c t s hs) rfl _)
  rw [held8, held8]
  iframe S0 S1 S2
  isplitl [H0 H1 H2 H3]
  · isplitl [H0]; · iexact H0
    isplitl [H1]; · iexact H1
    isplitl [H2]; · iexact H2
    iexact H3
  iintro ⟨H0, H1, H2, H3, S0, S1, S2⟩
  isplitl [S0 S1 S2 Hrest Hp]
  · iexists (scr8 V c t.val); isplitr; · ipureintro; exact fun _ => rfl
    iframe
  isplitl [Ho]; · iexact Ho
  isplitl [H0]; · iexact H0
  isplitl [H1]; · iexact H1
  isplitl [H2]; · iexact H2
  iapply (leaves8 V c t d3)
  iexact H3

theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.Ideal.Region9.lean ====
import proofs.«403157_j14328010899645_2_alg».proof.Proof.Gen.KernelIdeal.Launch
import proofs.«403157_j14328010899645_2_alg».proof.Proof.Gen.KernelIdeal.Skeleton
import proofs.«403157_j14328010899645_2_alg».proof.Proof.Gen.KernelIdeal.Points
import proofs.«403157_j14328010899645_2_alg».proof.Proof.LibBody

noncomputable section

namespace Cert.KernelIdeal.Hand

open Cert.KernelIdeal Cert.KernelIdeal.Gen
open Idealize.ShloMosaic Idealize.ShloMosaic.TcCoe Idealize.SL.RA
open Idealize.ShloMosaic.Pipeline (Dat BodyObligation)

variable {F : FTy → Type} [FloatOps F]

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 : Rect S512x256 := Rect.unit (s := S512x256) ![0, 0] S512x256.size inb_S512x256_S512x256_0_0
abbrev r9_1 : Rect S256x256 := Rect.unit (s := S256x256) ![0, 0] S256x256.size inb_S256x256_S256x256_0_0
abbrev r9_2 : Rect S1x256 := Rect.unit (s := S1x256) ![0, 0] S1x256.size inb_S1x256_S1x256_0_0
abbrev r9_3 : Rect S512x256 := Rect.unit (s := S512x256) ![0, 0] S512x256.size inb_S512x256_S512x256_0_0

def out9_3 (x0 : Vec F S512x256 .bf16) (x1 : Vec F S256x256 .f32) (x2 : Vec F S1x256 .f32) : Vec F S512x256 .f32 :=
  View.canon [⟨r9_3, k9_pay1 (View.ld x0 r9_0) (View.ld x1 r9_1) (View.ld x2 r9_2)⟩]

-- the one store is over the whole output, which therefore reads the stored payload
theorem sound_kernel9 (c : Dev nD) (E : Set ℕ) (i : grid9.Coords)
    (arg1 : Memref sig .tc .vmem S512x256 .bf16) (harg1 : arg1.IsWhole) (arg2 : Memref sig .tc .vmem S256x256 .f32) (harg2 : arg2.IsWhole)
    (arg3 : Memref sig .tc .vmem S1x256 .f32) (harg3 : arg3.IsWhole) (arg4 : Memref sig .tc .vmem S512x256 .f32) (harg4 : arg4.IsWhole) :
    Body31 (Ix := Unit) (U := UR sig nD τ) (Lvl := ℕ) frame (wpE (defs₀ (F := F)) Variants.none c none) E
      (cc9__matmul_bias_kernel i arg1 harg1 arg2 harg2 arg3 harg3 arg4 harg4) (c : Thread nD τ) arg1 arg2 arg3 arg4 out9_3 :=
  fun f0 f1 f2 f3 K => by
  simp only [cc9__matmul_bias_kernel_eq_skeleton]; unfold cc9__matmul_bias_kernel_skel
  iintro ⟨H0, H1, H2, H3, Hk⟩
  sl_exec
  sl_step
  iapply Hk $$ H0 H1 H2
  iexists _; isplitr
  swap; · iexact H3
  ipureintro
  exact View.read_writes_eq_canon _ _ _ (View.cover_full _ _)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_3 (c : Dev nD) (t : Fin cfg9.N) :
    (dat9 V c).after 3 t = out9_3 (iblk9 V c 0 t) (iblk9 V c 1 t) (iblk9 V c 2 t) := by dsimp only [dat9]

theorem body_obligation9 (c : Dev nD) : BodyObligation (dat9 (F := F) V c) (defs₀ (F := F)) Variants.none () Set.univ := fun t => by
  rw [bigSep_W9, bigSep_W9]
  exact Body31.frame (p := bodyAt9 t) (sound_kernel9 c Set.univ _ _ _ _ _ _ _ _ _) (fun d => (dat9 V c).before_eq_after 0 t d)
    (fun d => (dat9 V c).before_eq_after 1 t d) (fun d => (dat9 V c).before_eq_after 2 t d) (by dsimp only [dat9])

end Cert.KernelIdeal.Hand
-- ==== Proof.Ideal.Region10.lean ====
import proofs.«403157_j14328010899645_2_alg».proof.Proof.Gen.KernelIdeal.Launch
import proofs.«403157_j14328010899645_2_alg».proof.Proof.Gen.KernelIdeal.Skeleton
import proofs.«403157_j14328010899645_2_alg».proof.Proof.Gen.KernelIdeal.Points
import proofs.«403157_j14328010899645_2_alg».proof.Proof.LibBody

noncomputable section

namespace Cert.KernelIdeal.Hand

open Cert.KernelIdeal Cert.KernelIdeal.Gen
open Idealize.ShloMosaic Idealize.ShloMosaic.TcCoe Idealize.SL.RA
open Idealize.ShloMosaic.Pipeline (Dat BodyObligation)

variable {F : FTy → Type} [FloatOps F]

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev r10_0 : Rect S512x256 := Rect.unit (s := S512x256) ![0, 0] S512x256.size inb_S512x256_S512x256_0_0
abbrev r10_1 : Rect S256x128 := Rect.unit (s := S256x128) ![0, 0] S256x128.size inb_S256x128_S256x128_0_0
abbrev r10_2 : Rect S1x128 := Rect.unit (s := S1x128) ![0, 0] S1x128.size inb_S1x128_S1x128_0_0
abbrev r10_3 : Rect S512x128 := Rect.unit (s := S512x128) ![0, 0] S512x128.size inb_S512x128_S512x128_0_0

def out10_3 (x0 : Vec F S512x256 .f32) (x1 : Vec F S256x128 .f32) (x2 : Vec F S1x128 .f32) : Vec F S512x128 .bf16 :=
  View.canon [⟨r10_3, k10_pay1 (View.ld x0 r10_0) (View.ld x1 r10_1) (View.ld x2 r10_2)⟩]

-- the one store is over the whole output, which therefore reads the stored payload
theorem sound_kernel10 (c : Dev nD) (E : Set ℕ) (i : grid10.Coords)
    (arg1 : Memref sig .tc .vmem S512x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S512x128 .bf16) (harg4 : arg4.IsWhole) :
    Body31 (Ix := Unit) (U := UR sig nD τ) (Lvl := ℕ) frame (wpE (defs₀ (F := F)) Variants.none c none) E
      (cc10__matmul_bias_kernel i arg1 harg1 arg2 harg2 arg3 harg3 arg4 harg4) (c : Thread nD τ) arg1 arg2 arg3 arg4 out10_3 :=
  fun f0 f1 f2 f3 K => by
  simp only [cc10__matmul_bias_kernel_eq_skeleton]; unfold cc10__matmul_bias_kernel_skel
  iintro ⟨H0, H1, H2, H3, Hk⟩
  sl_exec
  sl_step
  iapply Hk $$ H0 H1 H2
  iexists _; isplitr
  swap; · iexact H3
  ipureintro
  exact View.read_writes_eq_canon _ _ _ (View.cover_full _ _)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_3 (c : Dev nD) (t : Fin cfg10.N) :
    (dat10 V c).after 3 t = out10_3 (iblk10 V c 0 t) (iblk10 V c 1 t) (iblk10 V c 2 t) := by dsimp only [dat10]

theorem body_obligation10 (c : Dev nD) : BodyObligation (dat10 (F := F) V c) (defs₀ (F := F)) Variants.none () Set.univ := fun t => by
  rw [bigSep_W10, bigSep_W10]
  exact Body31.frame (p := bodyAt10 t) (sound_kernel10 c Set.univ _ _ _ _ _ _ _ _ _) (fun d => (dat10 V c).before_eq_after 0 t d)
    (fun d => (dat10 V c).before_eq_after 1 t d) (fun d => (dat10 V c).before_eq_after 2 t d) (by dsimp only [dat10])

end Cert.KernelIdeal.Hand
-- ==== Proof.Ideal.Region11.lean ====
import proofs.«403157_j14328010899645_2_alg».proof.Proof.Gen.KernelIdeal.Launch
import proofs.«403157_j14328010899645_2_alg».proof.Proof.Gen.KernelIdeal.Skeleton
import proofs.«403157_j14328010899645_2_alg».proof.Proof.Gen.KernelIdeal.Points
import proofs.«403157_j14328010899645_2_alg».proof.Proof.LibBody

noncomputable section

namespace Cert.KernelIdeal.Hand

open Cert.KernelIdeal Cert.KernelIdeal.Gen
open Idealize.ShloMosaic Idealize.ShloMosaic.TcCoe Idealize.SL.RA
open Idealize.ShloMosaic.Pipeline (Dat BodyObligation)

variable {F : FTy → Type} [FloatOps F]

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

abbrev r11_0 : Rect S1024x4096 := Rect.unit (s := S1024x4096) ![0, 0] S1024x4096.size inb_S1024x4096_S1024x4096_0_0
abbrev r11_1 : Rect S4096x128 := Rect.unit (s := S4096x128) ![0, 0] S4096x128.size inb_S4096x128_S4096x128_0_0
abbrev r11_2 : Rect S1x128 := Rect.unit (s := S1x128) ![0, 0] S1x128.size inb_S1x128_S1x128_0_0
abbrev r11_3 : Rect S1024x128 := Rect.unit (s := S1024x128) ![0, 0] S1024x128.size inb_S1024x128_S1024x128_0_0

def out11_3 (x0 : Vec F S1024x4096 .bf16) (x1 : Vec F S4096x128 .bf16) (x2 : Vec F S1x128 .f32) : Vec F S1024x128 .f32 :=
  View.canon [⟨r11_3, k11_pay1 (View.ld x0 r11_0) (View.ld x1 r11_1) (View.ld x2 r11_2)⟩]

-- the one store is over the whole output, which therefore reads the stored payload
theorem sound_kernel11 (c : Dev nD) (E : Set ℕ) (i : grid11.Coords)
    (arg1 : Memref sig .tc .vmem S1024x4096 .bf16) (harg1 : arg1.IsWhole) (arg2 : Memref sig .tc .vmem S4096x128 .bf16) (harg2 : arg2.IsWhole)
    (arg3 : Memref sig .tc .vmem S1x128 .f32) (harg3 : arg3.IsWhole) (arg4 : Memref sig .tc .vmem S1024x128 .f32) (harg4 : arg4.IsWhole) :
    Body31 (Ix := Unit) (U := UR sig nD τ) (Lvl := ℕ) frame (wpE (defs₀ (F := F)) Variants.none c none) E
      (cc11__matmul_bias_kernel i arg1 harg1 arg2 harg2 arg3 harg3 arg4 harg4) (c : Thread nD τ) arg1 arg2 arg3 arg4 out11_3 :=
  fun f0 f1 f2 f3 K => by
  simp only [cc11__matmul_bias_kernel_eq_skeleton]; unfold cc11__matmul_bias_kernel_skel
  iintro ⟨H0, H1, H2, H3, Hk⟩
  sl_exec
  sl_step
  iapply Hk $$ H0 H1 H2
  iexists _; isplitr
  swap; · iexact H3
  ipureintro
  exact View.read_writes_eq_canon _ _ _ (View.cover_full _ _)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_3 (c : Dev nD) (t : Fin cfg11.N) :
    (dat11 V c).after 3 t = out11_3 (iblk11 V c 0 t) (iblk11 V c 1 t) (iblk11 V c 2 t) := by dsimp only [dat11]

theorem body_obligation11 (c : Dev nD) : BodyObligation (dat11 (F := F) V c) (defs₀ (F := F)) Variants.none () Set.univ := fun t => by
  rw [bigSep_W11, bigSep_W11]
  exact Body31.frame (p := bodyAt11 t) (sound_kernel11 c Set.univ _ _ _ _ _ _ _ _ _) (fun d => (dat11 V c).before_eq_after 0 t d)
    (fun d => (dat11 V c).before_eq_after 1 t d) (fun d => (dat11 V c).before_eq_after 2 t d) (by dsimp only [dat11])

end Cert.KernelIdeal.Hand
-- ==== Proof.Ideal.RunChain0.lean ====
import proofs.«403157_j14328010899645_2_alg».proof.Proof.Ideal.Region0
import proofs.«403157_j14328010899645_2_alg».proof.Proof.Ideal.Region1
import proofs.«403157_j14328010899645_2_alg».proof.Proof.Ideal.Region2
import proofs.«403157_j14328010899645_2_alg».proof.Proof.Ideal.Region3
import proofs.«403157_j14328010899645_2_alg».proof.Proof.Ideal.Region4
import proofs.«403157_j14328010899645_2_alg».proof.Proof.Ideal.Region5
import proofs.«403157_j14328010899645_2_alg».proof.Proof.Ideal.Region6
import proofs.«403157_j14328010899645_2_alg».proof.Proof.Ideal.Region7
import proofs.«403157_j14328010899645_2_alg».proof.Proof.Ideal.Region8
import proofs.«403157_j14328010899645_2_alg».proof.Proof.Ideal.Region9
import proofs.«403157_j14328010899645_2_alg».proof.Proof.Ideal.Region10
import proofs.«403157_j14328010899645_2_alg».proof.Proof.Ideal.Region11
import proofs.«403157_j14328010899645_2_alg».proof.Proof.Gen.KernelIdeal.Regions
noncomputable section
namespace Cert.KernelIdeal.Hand
open Cert.KernelIdeal.Gen
open Idealize.ShloMosaic Idealize.ShloMosaic.TcCoe
open Idealize.ShloMosaic.Pipeline (Dat Cfg)
variable {F : FTy → Type} [FloatOps F]
theorem exit_keep {cfg : Cfg sig Λ₀} {c : Dev nD} {W : Valuation τ sig (Elt F)} (d : Dat τ (Elt F) Unit ℕ (UR sig nD τ) ℕ cfg c)
    (hA : ∀ w, d.A w = W (Proc.devRef .tc (Pipeline.arrRef cfg.spec w))) (hinj : Function.Injective (Pipeline.arrRef cfg.spec))
    (o : Fin cfg.W) (ho : ∀ w, w ≠ o → (cfg.win w).isOut = false) {b : Ref sig .tc} (hb : b ≠ Pipeline.arrRef cfg.spec o) :
    Pipeline.withArrays cfg.spec c W (fun w => d.arrAt w cfg.N) (Proc.devRef .tc b) = W (Proc.devRef .tc b) := by
  by_cases h : ∃ w, Pipeline.arrRef cfg.spec w = b
  · obtain ⟨w, rfl⟩ := h
    exact (Pipeline.withArrays_arr _ hinj c _ _ w).trans (((d.arrAt_in w (ho w fun e => hb (congrArg _ e))) _).trans (hA w))
  · exact Pipeline.withArrays_of_ne _ c _ _ b fun w e => h ⟨w, e⟩
theorem exit_rest {gr W : ℕ} (win : Fin W → Pipeline.WinSpec sig gr) (c : Dev nD) (V : Valuation τ sig (Elt F))
    (A) (b : Ref sig .tc)
    (hb : b ∉ Finset.univ.image (Pipeline.arrRef win)) :
    Pipeline.withArrays win c V A (Proc.devRef .tc b) = V (Proc.devRef .tc b) :=
  Pipeline.withArrays_of_ne win c V A b fun w e => hb (Finset.mem_image.mpr ⟨w, Finset.mem_univ _, e⟩)
abbrev atTc (W : Dev nD → Valuation τ sig (Elt F)) : (c : Dev nD) → (b : Ref sig .tc) → Buf (Elt F) ((c : Thread nD τ).loc b) := fun c b => W c b
variable (m : (ℓ : Loc nD τ sig) → Buf (Elt F) ℓ) (ρ : Dev nD → PrngReg) (c : Dev nD) (b : Ref sig .tc)
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 := atTc (W3 m ρ)
theorem W1_keep (hb : b ∉ hostOps0_W) : W1 m ρ c b = W0 m ρ c b :=
  StableHlo.after_of_writes_sub hostOps0 _ hostOps0_writes hb
theorem W2_keep (hb : b ∉ hostOps0_1_W) : W2 m ρ c b = W1 m ρ c b :=
  StableHlo.after_of_writes_sub hostOps0_1 _ hostOps0_1_writes hb
theorem W3_keep (hb : b ∉ hostOps0_2_W) : W3 m ρ c b = W2 m ρ c b :=
  StableHlo.after_of_writes_sub hostOps0_2 _ hostOps0_2_writes hb
def W4 : Valuation τ sig (Elt F) :=
  Pipeline.withArrays spec0 c (W3 m ρ c) fun w => (dat0 (V3 m ρ) c).arrAt w cfg0.N
theorem W4_arr (w : Fin cfg0.W) :
    W4 m ρ c (Pipeline.arrRef spec0 w) = (dat0 (V3 m ρ) c).arrAt w cfg0.N :=
  Pipeline.withArrays_arr spec0 launch0.win.arr_inj c _ _ w
abbrev V4 := atTc (W4 m ρ)
theorem hF0 (w : Fin cfg0.W) : (dat0 (V3 m ρ) c).arrAt w cfg0.N = V4 m ρ c (Pipeline.arrRef spec0 w) :=
  (W4_arr m ρ c w).symm
theorem hrest0 : ∀ b, b ∉ Finset.univ.image (Pipeline.arrRef spec0) → V4 m ρ c b = V3 m ρ c b :=
  exit_rest spec0 c _ _
theorem W4_keep (hb : b ≠ main_v51) : W4 m ρ c b = W3 m ρ c b :=
  exit_keep (dat0 (V3 m ρ) c) (A_eq0 _ c) launch0.win.arr_inj 3 (by decide) hb
abbrev W5 : Dev nD → Valuation τ sig (Elt F) := fun c => StableHlo.after hostOps1 (W4 m ρ c)
abbrev V5 := atTc (W5 m ρ)
theorem W5_keep (hb : b ∉ hostOps1_W) : W5 m ρ c b = W4 m ρ c b :=
  StableHlo.after_of_writes_sub hostOps1 _ hostOps1_writes hb
end Cert.KernelIdeal.Hand
end
-- ==== Proof.Ideal.RunChain.lean ====
import proofs.«403157_j14328010899645_2_alg».proof.Proof.Ideal.RunChain0

noncomputable section

namespace Cert.KernelIdeal.Hand

open Cert.KernelIdeal.Gen
open Idealize.ShloMosaic Idealize.ShloMosaic.TcCoe

variable {F : FTy → Type} [FloatOps F]
variable (m : (ℓ : Loc nD τ sig) → Buf (Elt F) ℓ) (ρ : Dev nD → PrngReg) (c : Dev nD) (b : Ref sig .tc)

def W6 : Valuation τ sig (Elt F) :=
  Pipeline.withArrays spec1 c (W5 m ρ c) fun w => (dat1 (V5 m ρ) c).arrAt w cfg1.N
theorem W6_arr (w : Fin cfg1.W) :
    W6 m ρ c (Pipeline.arrRef spec1 w) = (dat1 (V5 m ρ) c).arrAt w cfg1.N :=
  Pipeline.withArrays_arr spec1 launch1.win.arr_inj c _ _ w
abbrev V6 := atTc (W6 m ρ)
theorem hF1 (w : Fin cfg1.W) : (dat1 (V5 m ρ) c).arrAt w cfg1.N = V6 m ρ c (Pipeline.arrRef spec1 w) :=
  (W6_arr m ρ c w).symm
theorem hrest1 : ∀ b, b ∉ Finset.univ.image (Pipeline.arrRef spec1) → V6 m ρ c b = V5 m ρ c b :=
  exit_rest spec1 c _ _
theorem W6_keep (hb : b ≠ main_v53) : W6 m ρ c b = W5 m ρ c b :=
  exit_keep (dat1 (V5 m ρ) c) (A_eq1 _ c) launch1.win.arr_inj 3 (by decide) hb
abbrev W7 : Dev nD → Valuation τ sig (Elt F) := fun c => StableHlo.after hostOps2 (W6 m ρ c)
abbrev V7 := atTc (W7 m ρ)
theorem W7_keep (hb : b ∉ hostOps2_W) : W7 m ρ c b = W6 m ρ c b :=
  StableHlo.after_of_writes_sub hostOps2 _ hostOps2_writes hb

def W8 : Valuation τ sig (Elt F) :=
  Pipeline.withArrays spec2 c (W7 m ρ c) fun w => (dat2 (V7 m ρ) c).arrAt w cfg2.N
theorem W8_arr (w : Fin cfg2.W) :
    W8 m ρ c (Pipeline.arrRef spec2 w) = (dat2 (V7 m ρ) c).arrAt w cfg2.N :=
  Pipeline.withArrays_arr spec2 launch2.win.arr_inj c _ _ w
abbrev V8 := atTc (W8 m ρ)
theorem hF2 (w : Fin cfg2.W) : (dat2 (V7 m ρ) c).arrAt w cfg2.N = V8 m ρ c (Pipeline.arrRef spec2 w) :=
  (W8_arr m ρ c w).symm
theorem hrest2 : ∀ b, b ∉ Finset.univ.image (Pipeline.arrRef spec2) → V8 m ρ c b = V7 m ρ c b :=
  exit_rest spec2 c _ _
theorem W8_keep (hb : b ≠ main_v55) : W8 m ρ c b = W7 m ρ c b :=
  exit_keep (dat2 (V7 m ρ) c) (A_eq2 _ c) launch2.win.arr_inj 3 (by decide) hb
abbrev W9 : Dev nD → Valuation τ sig (Elt F) := fun c => StableHlo.after hostOps3 (W8 m ρ c)
abbrev V9 := atTc (W9 m ρ)
theorem W9_keep (hb : b ∉ hostOps3_W) : W9 m ρ c b = W8 m ρ c b :=
  StableHlo.after_of_writes_sub hostOps3 _ hostOps3_writes hb

def W10 : Valuation τ sig (Elt F) :=
  Pipeline.withArrays spec3 c (W9 m ρ c) fun w => (dat3 (V9 m ρ) c).arrAt w cfg3.N
theorem W10_arr (w : Fin cfg3.W) :
    W10 m ρ c (Pipeline.arrRef spec3 w) = (dat3 (V9 m ρ) c).arrAt w cfg3.N :=
  Pipeline.withArrays_arr spec3 launch3.win.arr_inj c _ _ w
abbrev V10 := atTc (W10 m ρ)
theorem hF3 (w : Fin cfg3.W) : (dat3 (V9 m ρ) c).arrAt w cfg3.N = V10 m ρ c (Pipeline.arrRef spec3 w) :=
  (W10_arr m ρ c w).symm
theorem hrest3 : ∀ b, b ∉ Finset.univ.image (Pipeline.arrRef spec3) → V10 m ρ c b = V9 m ρ c b :=
  exit_rest spec3 c _ _
theorem W10_keep (hb : b ≠ main_v65) : W10 m ρ c b = W9 m ρ c b :=
  exit_keep (dat3 (V9 m ρ) c) (A_eq3 _ c) launch3.win.arr_inj 3 (by decide) hb
abbrev W11 : Dev nD → Valuation τ sig (Elt F) := fun c => StableHlo.after hostOps4 (W10 m ρ c)
abbrev V11 := atTc (W11 m ρ)
theorem W11_keep (hb : b ∉ hostOps4_W) : W11 m ρ c b = W10 m ρ c b :=
  StableHlo.after_of_writes_sub hostOps4 _ hostOps4_writes hb

def W12 : Valuation τ sig (Elt F) :=
  Pipeline.withArrays spec4 c (W11 m ρ c) fun w => (dat4 (V11 m ρ) c).arrAt w cfg4.N
theorem W12_arr (w : Fin cfg4.W) :
    W12 m ρ c (Pipeline.arrRef spec4 w) = (dat4 (V11 m ρ) c).arrAt w cfg4.N :=
  Pipeline.withArrays_arr spec4 launch4.win.arr_inj c _ _ w
abbrev V12 := atTc (W12 m ρ)
theorem hF4 (w : Fin cfg4.W) : (dat4 (V11 m ρ) c).arrAt w cfg4.N = V12 m ρ c (Pipeline.arrRef spec4 w) :=
  (W12_arr m ρ c w).symm
theorem hrest4 : ∀ b, b ∉ Finset.univ.image (Pipeline.arrRef spec4) → V12 m ρ c b = V11 m ρ c b :=
  exit_rest spec4 c _ _
theorem W12_keep (hb : b ≠ main_v69) : W12 m ρ c b = W11 m ρ c b :=
  exit_keep (dat4 (V11 m ρ) c) (A_eq4 _ c) launch4.win.arr_inj 3 (by decide) hb
abbrev W13 : Dev nD → Valuation τ sig (Elt F) := fun c => StableHlo.after hostOps5 (W12 m ρ c)
abbrev V13 := atTc (W13 m ρ)
theorem W13_keep (hb : b ∉ hostOps5_W) : W13 m ρ c b = W12 m ρ c b :=
  StableHlo.after_of_writes_sub hostOps5 _ hostOps5_writes hb

def W14 : Valuation τ sig (Elt F) :=
  Pipeline.withArrays spec5 c (W13 m ρ c) fun w => (dat5 (V13 m ρ) c).arrAt w cfg5.N
theorem W14_arr (w : Fin cfg5.W) :
    W14 m ρ c (Pipeline.arrRef spec5 w) = (dat5 (V13 m ρ) c).arrAt w cfg5.N :=
  Pipeline.withArrays_arr spec5 launch5.win.arr_inj c _ _ w
abbrev V14 := atTc (W14 m ρ)
theorem hF5 (w : Fin cfg5.W) : (dat5 (V13 m ρ) c).arrAt w cfg5.N = V14 m ρ c (Pipeline.arrRef spec5 w) :=
  (W14_arr m ρ c w).symm
theorem hrest5 : ∀ b, b ∉ Finset.univ.image (Pipeline.arrRef spec5) → V14 m ρ c b = V13 m ρ c b :=
  exit_rest spec5 c _ _
theorem W14_keep (hb : b ≠ main_v71) : W14 m ρ c b = W13 m ρ c b :=
  exit_keep (dat5 (V13 m ρ) c) (A_eq5 _ c) launch5.win.arr_inj 3 (by decide) hb
abbrev W15 : Dev nD → Valuation τ sig (Elt F) := fun c => StableHlo.after hostOps6 (W14 m ρ c)
abbrev V15 := atTc (W15 m ρ)
theorem W15_keep (hb : b ∉ hostOps6_W) : W15 m ρ c b = W14 m ρ c b :=
  StableHlo.after_of_writes_sub hostOps6 _ hostOps6_writes hb

def W16 : Valuation τ sig (Elt F) :=
  Pipeline.withArrays spec6 c (W15 m ρ c) fun w => (dat6 (V15 m ρ) c).arrAt w cfg6.N
theorem W16_arr (w : Fin cfg6.W) :
    W16 m ρ c (Pipeline.arrRef spec6 w) = (dat6 (V15 m ρ) c).arrAt w cfg6.N :=
  Pipeline.withArrays_arr spec6 launch6.win.arr_inj c _ _ w
abbrev V16 := atTc (W16 m ρ)
theorem hF6 (w : Fin cfg6.W) : (dat6 (V15 m ρ) c).arrAt w cfg6.N = V16 m ρ c (Pipeline.arrRef spec6 w) :=
  (W16_arr m ρ c w).symm
theorem hrest6 : ∀ b, b ∉ Finset.univ.image (Pipeline.arrRef spec6) → V16 m ρ c b = V15 m ρ c b :=
  exit_rest spec6 c _ _
theorem W16_keep (hb : b ≠ main_v73) : W16 m ρ c b = W15 m ρ c b :=
  exit_keep (dat6 (V15 m ρ) c) (A_eq6 _ c) launch6.win.arr_inj 3 (by decide) hb
abbrev W17 : Dev nD → Valuation τ sig (Elt F) := fun c => StableHlo.after hostOps7 (W16 m ρ c)
abbrev V17 := atTc (W17 m ρ)
theorem W17_keep (hb : b ∉ hostOps7_W) : W17 m ρ c b = W16 m ρ c b :=
  StableHlo.after_of_writes_sub hostOps7 _ hostOps7_writes hb

def W18 : Valuation τ sig (Elt F) :=
  Pipeline.withArrays spec7 c (W17 m ρ c) fun w => (dat7 (V17 m ρ) c).arrAt w cfg7.N
theorem W18_arr (w : Fin cfg7.W) :
    W18 m ρ c (Pipeline.arrRef spec7 w) = (dat7 (V17 m ρ) c).arrAt w cfg7.N :=
  Pipeline.withArrays_arr spec7 launch7.win.arr_inj c _ _ w
abbrev V18 := atTc (W18 m ρ)
theorem hF7 (w : Fin cfg7.W) : (dat7 (V17 m ρ) c).arrAt w cfg7.N = V18 m ρ c (Pipeline.arrRef spec7 w) :=
  (W18_arr m ρ c w).symm
theorem hrest7 : ∀ b, b ∉ Finset.univ.image (Pipeline.arrRef spec7) → V18 m ρ c b = V17 m ρ c b :=
  exit_rest spec7 c _ _
theorem W18_keep (hb : b ≠ main_v75) : W18 m ρ c b = W17 m ρ c b :=
  exit_keep (dat7 (V17 m ρ) c) (A_eq7 _ c) launch7.win.arr_inj 3 (by decide) hb
abbrev W19 : Dev nD → Valuation τ sig (Elt F) := fun c => StableHlo.after hostOps8 (W18 m ρ c)
abbrev V19 := atTc (W19 m ρ)
theorem W19_keep (hb : b ∉ hostOps8_W) : W19 m ρ c b = W18 m ρ c b :=
  StableHlo.after_of_writes_sub hostOps8 _ hostOps8_writes hb

def W20 : Valuation τ sig (Elt F) :=
  Pipeline.withArrays spec8 c (W19 m ρ c) fun w => (dat8 (V19 m ρ) c).arrAt w cfg8.N
theorem W20_arr (w : Fin cfg8.W) :
    W20 m ρ c (Pipeline.arrRef spec8 w) = (dat8 (V19 m ρ) c).arrAt w cfg8.N :=
  Pipeline.withArrays_arr spec8 launch8.win.arr_inj c _ _ w
abbrev V20 := atTc (W20 m ρ)
theorem hF8 (w : Fin cfg8.W) : (dat8 (V19 m ρ) c).arrAt w cfg8.N = V20 m ρ c (Pipeline.arrRef spec8 w) :=
  (W20_arr m ρ c w).symm
theorem hrest8 : ∀ b, b ∉ Finset.univ.image (Pipeline.arrRef spec8) → V20 m ρ c b = V19 m ρ c b :=
  exit_rest spec8 c _ _
theorem W20_keep (hb : b ≠ main_v85) : W20 m ρ c b = W19 m ρ c b :=
  exit_keep (dat8 (V19 m ρ) c) (A_eq8 _ c) launch8.win.arr_inj 3 (by decide) hb
abbrev W21 : Dev nD → Valuation τ sig (Elt F) := fun c => StableHlo.after hostOps9 (W20 m ρ c)
abbrev V21 := atTc (W21 m ρ)
theorem W21_keep (hb : b ∉ hostOps9_W) : W21 m ρ c b = W20 m ρ c b :=
  StableHlo.after_of_writes_sub hostOps9 _ hostOps9_writes hb

def W22 : Valuation τ sig (Elt F) :=
  Pipeline.withArrays spec9 c (W21 m ρ c) fun w => (dat9 (V21 m ρ) c).arrAt w cfg9.N
theorem W22_arr (w : Fin cfg9.W) :
    W22 m ρ c (Pipeline.arrRef spec9 w) = (dat9 (V21 m ρ) c).arrAt w cfg9.N :=
  Pipeline.withArrays_arr spec9 launch9.win.arr_inj c _ _ w
abbrev V22 := atTc (W22 m ρ)
theorem hF9 (w : Fin cfg9.W) : (dat9 (V21 m ρ) c).arrAt w cfg9.N = V22 m ρ c (Pipeline.arrRef spec9 w) :=
  (W22_arr m ρ c w).symm
theorem hrest9 : ∀ b, b ∉ Finset.univ.image (Pipeline.arrRef spec9) → V22 m ρ c b = V21 m ρ c b :=
  exit_rest spec9 c _ _
theorem W22_keep (hb : b ≠ main_v89) : W22 m ρ c b = W21 m ρ c b :=
  exit_keep (dat9 (V21 m ρ) c) (A_eq9 _ c) launch9.win.arr_inj 3 (by decide) hb
abbrev W23 : Dev nD → Valuation τ sig (Elt F) := fun c => StableHlo.after hostOps10 (W22 m ρ c)
abbrev V23 := atTc (W23 m ρ)
theorem W23_keep (hb : b ∉ hostOps10_W) : W23 m ρ c b = W22 m ρ c b :=
  StableHlo.after_of_writes_sub hostOps10 _ hostOps10_writes hb

def W24 : Valuation τ sig (Elt F) :=
  Pipeline.withArrays spec10 c (W23 m ρ c) fun w => (dat10 (V23 m ρ) c).arrAt w cfg10.N
theorem W24_arr (w : Fin cfg10.W) :
    W24 m ρ c (Pipeline.arrRef spec10 w) = (dat10 (V23 m ρ) c).arrAt w cfg10.N :=
  Pipeline.withArrays_arr spec10 launch10.win.arr_inj c _ _ w
abbrev V24 := atTc (W24 m ρ)
theorem hF10 (w : Fin cfg10.W) : (dat10 (V23 m ρ) c).arrAt w cfg10.N = V24 m ρ c (Pipeline.arrRef spec10 w) :=
  (W24_arr m ρ c w).symm
theorem hrest10 : ∀ b, b ∉ Finset.univ.image (Pipeline.arrRef spec10) → V24 m ρ c b = V23 m ρ c b :=
  exit_rest spec10 c _ _
theorem W24_keep (hb : b ≠ main_v91) : W24 m ρ c b = W23 m ρ c b :=
  exit_keep (dat10 (V23 m ρ) c) (A_eq10 _ c) launch10.win.arr_inj 3 (by decide) hb
abbrev W25 : Dev nD → Valuation τ sig (Elt F) := fun c => StableHlo.after hostOps11 (W24 m ρ c)
abbrev V25 := atTc (W25 m ρ)
theorem W25_keep (hb : b ∉ hostOps11_W) : W25 m ρ c b = W24 m ρ c b :=
  StableHlo.after_of_writes_sub hostOps11 _ hostOps11_writes hb

def W26 : Valuation τ sig (Elt F) :=
  Pipeline.withArrays spec11 c (W25 m ρ c) fun w => (dat11 (V25 m ρ) c).arrAt w cfg11.N
theorem W26_arr (w : Fin cfg11.W) :
    W26 m ρ c (Pipeline.arrRef spec11 w) = (dat11 (V25 m ρ) c).arrAt w cfg11.N :=
  Pipeline.withArrays_arr spec11 launch11.win.arr_inj c _ _ w
abbrev V26 := atTc (W26 m ρ)
theorem hF11 (w : Fin cfg11.W) : (dat11 (V25 m ρ) c).arrAt w cfg11.N = V26 m ρ c (Pipeline.arrRef spec11 w) :=
  (W26_arr m ρ c w).symm
theorem hrest11 : ∀ b, b ∉ Finset.univ.image (Pipeline.arrRef spec11) → V26 m ρ c b = V25 m ρ c b :=
  exit_rest spec11 c _ _
theorem W26_keep (hb : b ≠ main_v93) : W26 m ρ c b = W25 m ρ c b :=
  exit_keep (dat11 (V25 m ρ) c) (A_eq11 _ c) launch11.win.arr_inj 3 (by decide) hb

end Cert.KernelIdeal.Hand

end
-- ==== Proof.Ideal.RunData.lean ====
import proofs.«403157_j14328010899645_2_alg».proof.Proof.Ideal.RunChain
set_option maxRecDepth 16384
noncomputable section
namespace Cert.KernelIdeal.Hand
open Cert.KernelIdeal.Gen
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Pipeline (Dat BodyObligation)
variable {F : FTy → Type} [FloatOps F]
local notation "𝕄" => MT nD τ sig Unit (Elt F) ℕ (UR sig nD τ) ℕ
variable (m : (ℓ : Loc nD τ sig) → Buf (Elt F) ℓ) (ρ : Dev nD → PrngReg)
abbrev adm : (p : Fin 12) → (pcfgs (F := F) p).Adm := fun p => (cfgs p).toPCfg_adm
def pdats : (p : Fin 12) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
  | ⟨5, _⟩ => fun c => dat5 (V13 m ρ) c
  | ⟨6, _⟩ => fun c => dat6 (V15 m ρ) c
  | ⟨7, _⟩ => fun c => dat7 (V17 m ρ) c
  | ⟨8, _⟩ => fun c => dat8 (V19 m ρ) c
  | ⟨9, _⟩ => fun c => dat9 (V21 m ρ) c
  | ⟨10, _⟩ => fun c => dat10 (V23 m ρ) c
  | ⟨11, _⟩ => fun c => dat11 (V25 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
set_option backward.isDefEq.respectTransparency.types false in
def regOf {p : Fin 12} (lf : Pipeline.LaunchFacts (nD := nD) (τ := τ) cfgs p) (W W' : Dev nD → Valuation τ sig (Elt F))
    (hb : ∀ c, BodyObligation (pdats m ρ p c) (defs₀ (F := F)) 𝒱₀ () Set.univ)
    (hF : ∀ c w, (pdats m ρ p c).arrAt w (cfgs p).N = W' c (Pipeline.arrRef (cfgs p).spec w))
    (hrest : ∀ c (b : Ref sig .tc), b ∉ Finset.univ.image (Pipeline.arrRef (cfgs p).spec) → W' c b = W c b)
    (hi : ∀ c, Pipeline.ΦA (cfgs p).spec c ⊢ (pdats m ρ p c).Φ 0 := by exact fun _ => .rfl)
    (he : ∀ c, (pdats m ρ p c).Φ (Fin.last _) ⊢ Pipeline.ΦA (cfgs p).spec c := by exact fun _ => .rfl)
    (h0 : ∀ c t, (pdats m ρ p c).owed t = 0 := by exact fun _ _ => rfl)
    (hr : ∀ c, (pdats m ρ p c).recorded 0 = Set.univ := by exact fun _ => rfl)
    (hq : ∀ c w, (pdats m ρ p c).q w = fullShare := by exact fun _ _ => rfl)
    (hA : ∀ c w, (pdats m ρ p c).A w = W c (Pipeline.arrRef (cfgs p).spec w) := by exact fun _ _ => rfl) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (cfgs p).spec c (fun b => W c b)
  hentry c := by
    rw [Pipeline.ownSems0_none]
    have hsplit := Pipeline.arrays_of_unscopedBufs (p := p) (pcfgs (F := F)) adm (pdats m ρ) lf.win lf.arr_whole c ((pdats m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [h0 c 0, hr c]
      icases HO with ⟨%S, HO⟩; iexists S; isplitr; · ipureintro; exact fun _ _ => Or.inl trivial
      iexact HO
    isplitl [Hp]; · iexact Hp
    iexact Hrest
  hin c := by
    refine .trans ?_ (hi c); unfold Pipeline.ΦA
    iintro ⟨Hp, -, Hr⟩
    isplitl [Hr]; · iexact Hr
    iexact Hp
  hout c := by
    rw [Pipeline.ownSems0_none]; refine (he c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm
      lf.win lf.arr_whole c (pdats m ρ) ((pdats m ρ p c).share_full (hq c)) (fun b => W c b) (fun b => W' c b) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0 c _]
    icases HO with ⟨%S, -, HO⟩; iexists S; iexact HO
end Cert.KernelIdeal.Hand
end
-- ==== Proof.Ideal.RunArgs.lean ====
import proofs.«403157_j14328010899645_2_alg».proof.Proof.Ideal.RunChain
set_option maxRecDepth 16384
noncomputable section
namespace Cert.KernelIdeal.Hand
open Cert.KernelIdeal.Gen
open Idealize.ShloMosaic Idealize.ShloMosaic.TcCoe
variable {F : FTy → Type} [FloatOps F]
variable (m : (ℓ : Loc nD τ sig) → Buf (Elt F) ℓ) (ρ : Dev nD → PrngReg) (c : Dev nD)
theorem W26_launch (b : Ref sig .tc)
    (h0 : b ∉ hostOps0_W) (h0_1 : b ∉ hostOps0_1_W) (h0_2 : b ∉ hostOps0_2_W) (h1 : b ∉ hostOps1_W) (h2 : b ∉ hostOps2_W) (h3 : b ∉ hostOps3_W) (h4 : b ∉ hostOps4_W) (h5 : b ∉ hostOps5_W) (h6 : b ∉ hostOps6_W) (h7 : b ∉ hostOps7_W) (h8 : b ∉ hostOps8_W) (h9 : b ∉ hostOps9_W) (h10 : b ∉ hostOps10_W) (h11 : b ∉ hostOps11_W)
    (o0 : b ≠ main_v51) (o1 : b ≠ main_v53) (o2 : b ≠ main_v55) (o3 : b ≠ main_v65) (o4 : b ≠ main_v69) (o5 : b ≠ main_v71) (o6 : b ≠ main_v73) (o7 : b ≠ main_v75) (o8 : b ≠ main_v85) (o9 : b ≠ main_v89) (o10 : b ≠ main_v91) (o11 : b ≠ main_v93) :
    W26 m ρ c b = m ((c : Thread nD τ).loc b) := by
  rw [W26_keep, W25_keep, W24_keep, W23_keep, W22_keep, W21_keep, W20_keep, W19_keep, W18_keep,
    W17_keep, W16_keep, W15_keep, W14_keep, W13_keep, W12_keep, W11_keep, W10_keep, W9_keep,
    W8_keep, W7_keep, W6_keep, W5_keep, W4_keep, W3_keep, W2_keep, W1_keep] <;> assumption
theorem W26_main_arg0 : W26 m ρ c main_arg0 = m ((c : Thread nD τ).loc main_arg0) := by
  apply W26_launch <;> decide
theorem W26_main_arg1 : W26 m ρ c main_arg1 = m ((c : Thread nD τ).loc main_arg1) := by
  apply W26_launch <;> decide
theorem W26_main_arg2 : W26 m ρ c main_arg2 = m ((c : Thread nD τ).loc main_arg2) := by
  apply W26_launch <;> decide
theorem W26_main_arg3 : W26 m ρ c main_arg3 = m ((c : Thread nD τ).loc main_arg3) := by
  apply W26_launch <;> decide
theorem W26_main_arg4 : W26 m ρ c main_arg4 = m ((c : Thread nD τ).loc main_arg4) := by
  apply W26_launch <;> decide
theorem W26_main_arg5 : W26 m ρ c main_arg5 = m ((c : Thread nD τ).loc main_arg5) := by
  apply W26_launch <;> decide
theorem W26_main_arg6 : W26 m ρ c main_arg6 = m ((c : Thread nD τ).loc main_arg6) := by
  apply W26_launch <;> decide
theorem W26_main_arg7 : W26 m ρ c main_arg7 = m ((c : Thread nD τ).loc main_arg7) := by
  apply W26_launch <;> decide
theorem W26_main_arg8 : W26 m ρ c main_arg8 = m ((c : Thread nD τ).loc main_arg8) := by
  apply W26_launch <;> decide
theorem W26_main_arg9 : W26 m ρ c main_arg9 = m ((c : Thread nD τ).loc main_arg9) := by
  apply W26_launch <;> decide
theorem W26_main_arg10 : W26 m ρ c main_arg10 = m ((c : Thread nD τ).loc main_arg10) := by
  apply W26_launch <;> decide
theorem W26_main_arg11 : W26 m ρ c main_arg11 = m ((c : Thread nD τ).loc main_arg11) := by
  apply W26_launch <;> decide
theorem W26_main_arg12 : W26 m ρ c main_arg12 = m ((c : Thread nD τ).loc main_arg12) := by
  apply W26_launch <;> decide
end Cert.KernelIdeal.Hand
end
-- ==== Proof.Ideal.RunMain.lean ====
import proofs.«403157_j14328010899645_2_alg».proof.Proof.Ideal.RunData
import proofs.«403157_j14328010899645_2_alg».proof.Proof.Ideal.RunArgs
set_option maxRecDepth 16384
noncomputable section
namespace Cert.KernelIdeal.Hand
open Cert.KernelIdeal.Gen
open Idealize.ShloMosaic Idealize.ShloMosaic.TcCoe Idealize.ShloMosaic.Tactic Idealize.ShloMosaic.Rounds
open Idealize.SL Idealize.SL.BI
open Idealize.SL.BI.BIBase Idealize.SL.BI.Laws Idealize.SL.ProofMode Idealize.SL.Sem
open Idealize.ShloMosaic.Pipeline (Dat BodyObligation)
variable {F : FTy → Type} [FloatOps F]
local notation "𝕄" => MT nD τ sig Unit (Elt F) ℕ (UR sig nD τ) ℕ
variable (m : (ℓ : Loc nD τ sig) → Buf (Elt F) ℓ) (ρ : Dev nD → PrngReg)
section
set_option backward.isDefEq.respectTransparency.types false
def reg0 := regOf m ρ launch0 (W3 m ρ) (W4 m ρ) (body_obligation0 (V3 m ρ)) (hF0 m ρ) (hrest0 m ρ)
def reg1 := regOf m ρ launch1 (W5 m ρ) (W6 m ρ) (body_obligation1 (V5 m ρ)) (hF1 m ρ) (hrest1 m ρ)
def reg2 := regOf m ρ launch2 (W7 m ρ) (W8 m ρ) (body_obligation2 (V7 m ρ)) (hF2 m ρ) (hrest2 m ρ)
def reg3 := regOf m ρ launch3 (W9 m ρ) (W10 m ρ) (body_obligation3 (V9 m ρ)) (hF3 m ρ) (hrest3 m ρ)
  (fun c => BI.sep_comm.trans (hin3 (V9 m ρ) c)) fun c => (hout3 (V9 m ρ) c).trans BI.sep_comm
def reg4 := regOf m ρ launch4 (W11 m ρ) (W12 m ρ) (body_obligation4 (V11 m ρ)) (hF4 m ρ) (hrest4 m ρ)
def reg5 := regOf m ρ launch5 (W13 m ρ) (W14 m ρ) (body_obligation5 (V13 m ρ)) (hF5 m ρ) (hrest5 m ρ)
def reg6 := regOf m ρ launch6 (W15 m ρ) (W16 m ρ) (body_obligation6 (V15 m ρ)) (hF6 m ρ) (hrest6 m ρ)
def reg7 := regOf m ρ launch7 (W17 m ρ) (W18 m ρ) (body_obligation7 (V17 m ρ)) (hF7 m ρ) (hrest7 m ρ)
def reg8 := regOf m ρ launch8 (W19 m ρ) (W20 m ρ) (body_obligation8 (V19 m ρ)) (hF8 m ρ) (hrest8 m ρ)
  (fun c => BI.sep_comm.trans (hin8 (V19 m ρ) c)) fun c => (hout8 (V19 m ρ) c).trans BI.sep_comm
def reg9 := regOf m ρ launch9 (W21 m ρ) (W22 m ρ) (body_obligation9 (V21 m ρ)) (hF9 m ρ) (hrest9 m ρ)
def reg10 := regOf m ρ launch10 (W23 m ρ) (W24 m ρ) (body_obligation10 (V23 m ρ)) (hF10 m ρ) (hrest10 m ρ)
def reg11 := regOf m ρ launch11 (W25 m ρ) (W26 m ρ) (body_obligation11 (V25 m ρ)) (hF11 m ρ) (hrest11 m ρ)
end
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .region (reg5 m ρ),
    .host (hseg hostOps6 hostOps6_sub hostOps6_fresh (W14 m ρ)),
    .region (reg6 m ρ),
    .host (hseg hostOps7 hostOps7_sub hostOps7_fresh (W16 m ρ)),
    .region (reg7 m ρ),
    .host (hseg hostOps8 hostOps8_sub hostOps8_fresh (W18 m ρ)),
    .region (reg8 m ρ),
    .host (hseg hostOps9 hostOps9_sub hostOps9_fresh (W20 m ρ)),
    .region (reg9 m ρ),
    .host (hseg hostOps10 hostOps10_sub hostOps10_fresh (W22 m ρ)),
    .region (reg10 m ρ),
    .host (hseg hostOps11 hostOps11_sub hostOps11_fresh (W24 m ρ)),
    .region (reg11 m ρ) ]
theorem main_run (c : Dev nD) : main (F := F) c = Pipeline.Seg.run (segs m ρ) := (main_chain c).trans (by chain_rfl)
set_option backward.isDefEq.respectTransparency.types false in
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W26 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      rw [ownU_emb₁, BI.bigSep_emp_const]
      iintro Hu; imodintro
      isplitl [Hu]; · iexact Hu
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W26 m ρ c) ∗ ∃ r, prngReg c r))
    (hch := by
      iterate 26 refine ⟨fun _ => .rfl, ?_⟩
      exact fun _ => sep_assoc')
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := hQ)
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  run_post m ρ fun s h c =>
   have k (b : Ref sig .tc) (hb) {x} (e : W26 m ρ c (Proc.devRef .tc b) = x) := (h c _ (mem_uc b hb)).trans e
   ⟨k main_arg0 (by decide) (W26_main_arg0 m ρ c),
    k main_arg1 (by decide) (W26_main_arg1 m ρ c),
    k main_arg2 (by decide) (W26_main_arg2 m ρ c),
    k main_arg3 (by decide) (W26_main_arg3 m ρ c),
    k main_arg4 (by decide) (W26_main_arg4 m ρ c),
    k main_arg5 (by decide) (W26_main_arg5 m ρ c),
    k main_arg6 (by decide) (W26_main_arg6 m ρ c),
    k main_arg7 (by decide) (W26_main_arg7 m ρ c),
    k main_arg8 (by decide) (W26_main_arg8 m ρ c),
    k main_arg9 (by decide) (W26_main_arg9 m ρ c),
    k main_arg10 (by decide) (W26_main_arg10 m ρ c),
    k main_arg11 (by decide) (W26_main_arg11 m ρ c),
    k main_arg12 (by decide) (W26_main_arg12 m ρ c)⟩
end Cert.KernelIdeal.Hand
end
-- ==== Proof.Ideal.MatmulPay.lean ====
import proofs.«403157_j14328010899645_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

section Plain
variable {m k n : Nat} (wf : DotDims.WF ⟨2, ![m, k]⟩ ⟨2, ![k, n]⟩ ⟨2, ![m, n]⟩ [1] [0] [0] [1] [] [])

def plainDims : DotDims ⟨2, ![m, k]⟩ ⟨2, ![k, n]⟩ ⟨2, ![m, n]⟩ := ⟨[1], [0], [0], [1], [], [], wf⟩

theorem plain_matmul_apply {φ₁ φ₂ : FTy} (prec : Option ContractPrecision)
    (a : FVec Ideal ⟨2, ![m, k]⟩ φ₁) (b : FVec Ideal ⟨2, ![k, n]⟩ φ₂) (p : Fin m) (q : Fin n) :
    matmul (plainDims wf) prec a b (constant ⟨2, ![m, n]⟩ .f32 0x00000000#32) (ix2 p q) = ∑ t : Fin k, a (ix2 p t) * b (ix2 t q) := by
  show FloatOps.matmul (plainDims wf) prec a b (constant ⟨2, ![m, n]⟩ .f32 0x00000000#32) (ix2 p q) = _
  rw [Ideal.matmul_constant_zero_apply, ← Equiv.sum_comp (contrEquiv1 (plainDims wf) k rfl rfl).symm]
  refine Finset.sum_congr rfl fun t _ => ?_
  have ht := contrEquiv1_symm_val (plainDims wf) k rfl rfl t
  rw [show (plainDims wf).lhsIdx (ix2 p q) _ = ix2 p t from
      Shape.idx_ext₂ rfl (((plainDims wf).lhsIdx_val_of_single rfl _ _).trans ht),
    show (plainDims wf).rhsIdx (ix2 p q) _ = ix2 t q from
      Shape.idx_ext₂ (((plainDims wf).rhsIdx_val_of_single rfl _ _).trans ht) rfl]

theorem rowBroadcast_apply {α : Type} (x : (⟨2, ![1, n]⟩ : Shape).Idx → α) (h : (⟨2, ![1, n]⟩ : Shape).Broadcasts ⟨2, ![m, n]⟩)
    (p : Fin m) (q : Fin n) : broadcastTo ⟨2, ![m, n]⟩ x h (ix2 p q) = x (ix2 (0 : Fin 1) q) := by
  refine broadcastTo_apply x h (ix2 p q) (ix2 (0 : Fin 1) q) ?_
  intro a
  match a with
  | ⟨0, _⟩ => rfl
  | ⟨1, _⟩ =>
    show q.val = if n = 1 then 0 else q.val
    split
    · have := q.isLt; omega
    · rfl

end Plain

theorem pay0_apply (x0 : Vec Ideal S512x256 .f32) (x1 : Vec Ideal S256x256 .f32) (x2 : Vec Ideal S1x256 .f32) (p : Fin 512) (q : Fin 256) :
    k0_pay1 (F := Ideal) x0 x1 x2 (ix2 p q) = (∑ t : Fin 256, x0 (ix2 p t) * x1 (ix2 t q)) + x2 (ix2 0 q) := by
  unfold k0_pay1
  refine (congrArg₂ (· + ·) (plain_matmul_apply dot_S512x256_S256x256_S512x256_1_0_0_1_n_n.wf none _ _ p q) (rowBroadcast_apply _ _ p q)).trans ?_
  rw [shapeCast_self]
  rfl

theorem pay1_apply (x0 : Vec Ideal S1024x4096 .bf16) (x1 : Vec Ideal S4096x256 .bf16) (x2 : Vec Ideal S1x256 .f32) (p : Fin 1024) (q : Fin 256) :
    k1_pay1 (F := Ideal) x0 x1 x2 (ix2 p q) = (∑ t : Fin 4096, x0 (ix2 p t) * x1 (ix2 t q)) + x2 (ix2 0 q) := by
  unfold k1_pay1
  refine (congrArg₂ (· + ·) (plain_matmul_apply dot_S1024x4096_S4096x256_S1024x256_1_0_0_1_n_n.wf none _ _ p q) (rowBroadcast_apply _ _ p q)).trans ?_
  rw [shapeCast_self, shapeCast_self, shapeCast_self]

theorem pay2_apply (x0 : Vec Ideal S512x256 .f32) (x1 : Vec Ideal S256x768 .f32) (x2 : Vec Ideal S1x768 .f32) (p : Fin 512) (q : Fin 768) :
    k2_pay1 (F := Ideal) x0 x1 x2 (ix2 p q) = (∑ t : Fin 256, x0 (ix2 p t) * x1 (ix2 t q)) + x2 (ix2 0 q) := by
  unfold k2_pay1
  refine (congrArg₂ (· + ·) (plain_matmul_apply dot_S512x256_S256x768_S512x768_1_0_0_1_n_n.wf none _ _ p q) (rowBroadcast_apply _ _ p q)).trans ?_
  rw [shapeCast_self, shapeCast_self, shapeCast_self]
  rfl

theorem pay4_apply (x0 : Vec Ideal S512x256 .bf16) (x1 : Vec Ideal S256x256 .f32) (x2 : Vec Ideal S1x256 .f32) (p : Fin 512) (q : Fin 256) :
    k4_pay1 (F := Ideal) x0 x1 x2 (ix2 p q) = max ((∑ t : Fin 256, x0 (ix2 p t) * x1 (ix2 t q)) + x2 (ix2 0 q)) 0 := by
  unfold k4_pay1
  refine (congrArg₂ max (congrArg₂ (· + ·) (plain_matmul_apply dot_S512x256_S256x256_S512x256_1_0_0_1_n_n.wf none _ _ p q) (rowBroadcast_apply _ _ p q))
    Ideal.ofBits_zero_f32).trans ?_
  rw [shapeCast_self, shapeCast_self, shapeCast_self]
  rfl

theorem pay5_apply (x0 : Vec Ideal S512x256 .f32) (x1 : Vec Ideal S256x256 .f32) (x2 : Vec Ideal S1x256 .f32) (p : Fin 512) (q : Fin 256) :
    k5_pay1 (F := Ideal) x0 x1 x2 (ix2 p q) = (∑ t : Fin 256, x0 (ix2 p t) * x1 (ix2 t q)) + x2 (ix2 0 q) := by
  unfold k5_pay1
  refine (congrArg₂ (· + ·) (plain_matmul_apply dot_S512x256_S256x256_S512x256_1_0_0_1_n_n.wf none _ _ p q) (rowBroadcast_apply _ _ p q)).trans ?_
  rw [shapeCast_self, shapeCast_self]
  rfl

theorem pay6_apply (x0 : Vec Ideal S1024x4096 .bf16) (x1 : Vec Ideal S4096x256 .bf16) (x2 : Vec Ideal S1x256 .f32) (p : Fin 1024) (q : Fin 256) :
    k6_pay1 (F := Ideal) x0 x1 x2 (ix2 p q) = (∑ t : Fin 4096, x0 (ix2 p t) * x1 (ix2 t q)) + x2 (ix2 0 q) := by
  unfold k6_pay1
  refine (congrArg₂ (· + ·) (plain_matmul_apply dot_S1024x4096_S4096x256_S1024x256_1_0_0_1_n_n.wf none _ _ p q) (rowBroadcast_apply _ _ p q)).trans ?_
  rw [shapeCast_self, shapeCast_self, shapeCast_self]

theorem pay7_apply (x0 : Vec Ideal S512x256 .f32) (x1 : Vec Ideal S256x768 .f32) (x2 : Vec Ideal S1x768 .f32) (p : Fin 512) (q : Fin 768) :
    k7_pay1 (F := Ideal) x0 x1 x2 (ix2 p q) = (∑ t : Fin 256, x0 (ix2 p t) * x1 (ix2 t q)) + x2 (ix2 0 q) := by
  unfold k7_pay1
  refine (congrArg₂ (· + ·) (plain_matmul_apply dot_S512x256_S256x768_S512x768_1_0_0_1_n_n.wf none _ _ p q) (rowBroadcast_apply _ _ p q)).trans ?_
  rw [shapeCast_self, shapeCast_self, shapeCast_self]
  rfl

theorem pay9_apply (x0 : Vec Ideal S512x256 .bf16) (x1 : Vec Ideal S256x256 .f32) (x2 : Vec Ideal S1x256 .f32) (p : Fin 512) (q : Fin 256) :
    k9_pay1 (F := Ideal) x0 x1 x2 (ix2 p q) = max ((∑ t : Fin 256, x0 (ix2 p t) * x1 (ix2 t q)) + x2 (ix2 0 q)) 0 := by
  unfold k9_pay1
  refine (congrArg₂ max (congrArg₂ (· + ·) (plain_matmul_apply dot_S512x256_S256x256_S512x256_1_0_0_1_n_n.wf none _ _ p q) (rowBroadcast_apply _ _ p q))
    Ideal.ofBits_zero_f32).trans ?_
  rw [shapeCast_self, shapeCast_self, shapeCast_self]
  rfl

theorem pay10_apply (x0 : Vec Ideal S512x256 .f32) (x1 : Vec Ideal S256x128 .f32) (x2 : Vec Ideal S1x128 .f32) (p : Fin 512) (q : Fin 128) :
    k10_pay1 (F := Ideal) x0 x1 x2 (ix2 p q) = (∑ t : Fin 256, x0 (ix2 p t) * x1 (ix2 t q)) + x2 (ix2 0 q) := by
  unfold k10_pay1
  refine (congrArg₂ (· + ·) (plain_matmul_apply dot_S512x256_S256x128_S512x128_1_0_0_1_n_n.wf none _ _ p q) (rowBroadcast_apply _ _ p q)).trans ?_
  rw [shapeCast_self, shapeCast_self]
  rfl

theorem pay11_apply (x0 : Vec Ideal S1024x4096 .bf16) (x1 : Vec Ideal S4096x128 .bf16) (x2 : Vec Ideal S1x128 .f32) (p : Fin 1024) (q : Fin 128) :
    k11_pay1 (F := Ideal) x0 x1 x2 (ix2 p q) = Ideal.logistic ((∑ t : Fin 4096, x0 (ix2 p t) * x1 (ix2 t q)) + x2 (ix2 0 q)) := by
  unfold k11_pay1
  refine (congrArg Ideal.logistic (congrArg₂ (· + ·) (plain_matmul_apply dot_S1024x4096_S4096x128_S1024x128_1_0_0_1_n_n.wf none _ _ p q) (rowBroadcast_apply _ _ p q))).trans ?_
  rw [shapeCast_self, shapeCast_self, shapeCast_self]

def mmOf {m k n : Nat} (act : EReal → EReal) (a : (⟨2, ![m, k]⟩ : Shape).Idx → EReal) (b : (⟨2, ![k, n]⟩ : Shape).Idx → EReal)
    (bias : (⟨2, ![1, n]⟩ : Shape).Idx → EReal) : (⟨2, ![m, n]⟩ : Shape).Idx → EReal :=
  fun idx => act ((∑ t : Fin k, a (ix2 (idx 0) t) * b (ix2 t (idx 1))) + bias (ix2 0 (idx 1)))

theorem zeroOff : (![0, 0] : Fin 2 → Nat) = fun _ => 0 := funext fun a => by fin_cases a <;> rfl

-- Index maps that shift rows by r·s and keep columns carry the block's sums to the array's sums at the shifted index.
theorem mmOf_block {m k n M : Nat} (act : EReal → EReal) (A : (⟨2, ![M, k]⟩ : Shape).Idx → EReal)
    (B : (⟨2, ![k, n]⟩ : Shape).Idx → EReal) (C : (⟨2, ![1, n]⟩ : Shape).Idx → EReal)
    {e0 : (⟨2, ![m, k]⟩ : Shape).Idx → (⟨2, ![M, k]⟩ : Shape).Idx} {e1 : (⟨2, ![k, n]⟩ : Shape).Idx → (⟨2, ![k, n]⟩ : Shape).Idx}
    {e2 : (⟨2, ![1, n]⟩ : Shape).Idx → (⟨2, ![1, n]⟩ : Shape).Idx} {e3 : (⟨2, ![m, n]⟩ : Shape).Idx → (⟨2, ![M, n]⟩ : Shape).Idx}
    {i0 i1 i2 i3 s0 s1 s2 s3 : Fin 2 → ℕ} {r : ℕ}
    (h0 : ∀ y a, (e0 y a : ℕ) = i0 a * s0 a + y a) (h1 : ∀ y a, (e1 y a : ℕ) = i1 a * s1 a + y a)
    (h2 : ∀ y a, (e2 y a : ℕ) = i2 a * s2 a + y a) (h3 : ∀ y a, (e3 y a : ℕ) = i3 a * s3 a + y a)
    (hi : i3 0 = r ∧ i3 1 = 0 ∧ i0 0 = r ∧ i0 1 = 0 ∧ i1 0 = 0 ∧ i1 1 = 0 ∧ i2 0 = 0 ∧ i2 1 = 0) (hs : s0 0 = s3 0)
    {P : (⟨2, ![m, n]⟩ : Shape).Idx → EReal}
    (hP : ∀ p q, P (ix2 p q) = act ((∑ t : Fin k, A (e0 (ix2 p t)) * B (e1 (ix2 t q))) + C (e2 (ix2 0 q))))
    (j : (⟨2, ![m, n]⟩ : Shape).Idx) : P j = mmOf act A B C (e3 j) := by
  obtain ⟨p, q, rfl⟩ : ∃ p q, j = ix2 p q := ⟨j 0, j 1, eq_ix2 j⟩
  obtain ⟨d0, d1, a0, a1, b0, b1, c0, c1⟩ := hi
  have col : (e3 (ix2 p q) 1 : ℕ) = q := by rw [h3, d1, Nat.zero_mul]; exact Nat.zero_add _
  have r0 : ∀ t, e0 (ix2 p t) = ix2 (e3 (ix2 p q) 0) t := fun t => Shape.idx_ext₂
    (by rw [h0, a0, hs, ← d0]; exact (h3 (ix2 p q) 0).symm) (by rw [h0, a1, Nat.zero_mul]; exact Nat.zero_add _)
  have r1 : ∀ t, e1 (ix2 t q) = ix2 t (e3 (ix2 p q) 1) := fun t => Shape.idx_ext₂
    (by rw [h1, b0, Nat.zero_mul]; exact Nat.zero_add _) (by rw [h1, b1, Nat.zero_mul, Nat.zero_add]; exact col.symm)
  have r2 : e2 (ix2 0 q) = ix2 0 (e3 (ix2 p q) 1) := Shape.idx_ext₂
    (by rw [h2, c0, Nat.zero_mul]; exact Nat.zero_add _) (by rw [h2, c1, Nat.zero_mul, Nat.zero_add]; exact col.symm)
  rw [hP]
  exact congrArg act (congrArg₂ (· + ·)
    (Finset.sum_congr rfl fun t _ => congrArg₂ (· * ·) (congrArg A (r0 t)) (congrArg B (r1 t))) (congrArg C r2))

-- Row r lies in the block of m rows numbered r / m.
theorem rowBlock_mem {M n m : Nat} {ix sz xs : Fin 2 → ℕ} {inb} (i : (⟨2, ![M, n]⟩ : Shape).Idx)
    (h0 : ix 0 = (i 0).val / m) (h1 : ix 1 = 0) (hs : sz 0 = m ∧ xs 0 = m ∧ xs 1 = n) (hm : 0 < m) :
    i ∈ (Rect.unit (s := ⟨2, ![M, n]⟩) (fun a => ix a * sz a) xs inb).set :=
  Rect.mem_set_unit.mpr fun a => match a with
    | ⟨0, _⟩ => by
      show ix 0 * sz 0 ≤ (i 0).val ∧ (i 0).val < ix 0 * sz 0 + xs 0
      rw [h0, hs.1, hs.2.1]
      exact ⟨Nat.div_mul_le_self _ _, Nat.lt_div_mul_add hm⟩
    | ⟨1, _⟩ => by
      show ix 1 * sz 1 ≤ (i 1).val ∧ (i 1).val < ix 1 * sz 1 + xs 1
      rw [h1, hs.2.2, Nat.zero_mul, Nat.zero_add]
      exact ⟨Nat.zero_le _, (i 1).isLt⟩

end Cert.KernelIdeal.Hand
-- ==== Proof.Ideal.MatmulValue0.lean ====
import proofs.«403157_j14328010899645_2_alg».proof.Proof.Ideal.Region0
import proofs.«403157_j14328010899645_2_alg».proof.Proof.Ideal.MatmulPay

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

def mm0 (a : Vec Ideal S4096x256 .f32) (b : Vec Ideal S256x256 .f32) (bias : Vec Ideal S1x256 .f32) : Vec Ideal S4096x256 .bf16 :=
  mmOf (fun y => y) a b bias

theorem mm0_apply (a : Vec Ideal S4096x256 .f32) (b : Vec Ideal S256x256 .f32) (bias : Vec Ideal S1x256 .f32) (i : Fin 4096) (j : Fin 256) :
    mm0 a b bias (ix2 i j) = (∑ t : Fin 256, a (ix2 i t) * b (ix2 t j)) + bias (ix2 0 j) := rfl

theorem idx_facts0 : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

-- On every row block both sides are the same sums, and row r lies in block r / 512.
theorem arr0_value (c : Dev nD) : (dat0 (F := Ideal) V c).arrAt 3 cfg0.N
    = mm0 (V c (Pipeline.arrRef spec0 0)) (V c (Pipeline.arrRef spec0 1)) (V c (Pipeline.arrRef spec0 2)) := by
  refine (dat0 (F := Ideal) V c).arrAt_eq_of_cover 3 _ (fun t _ => ?_) fun (i : S4096x256.Idx) => ?_
  · show (cfg0.win 3).cut (grid0.coords t) ((dat0 (F := Ideal) V c).after 3 t) = _
    rw [after0_3]
    unfold out0_3
    rw [View.canon_unit_zero zeroOff]
    simp only [View.ld_unit_zero (S := S512x256) zeroOff, View.ld_unit_zero (S := S256x256) zeroOff, View.ld_unit_zero (S := S1x256) zeroOff]
    exact funext (mmOf_block _ _ _ _ (win0_0.rect_emb_val t) (win0_1.rect_emb_val t) (win0_2.rect_emb_val t)
      (win0_3.rect_emb_val t) (idx_facts0 t) rfl (pay0_apply _ _ _))
  · have hi : (i 0).val < 4096 := (i 0).isLt
    have ht : (i 0).val / 512 < cfg0.N := by rw [show cfg0.N = 8 from N_0]; omega
    refine ⟨⟨_, ht⟩, flush0_3 _, ?_⟩
    show i ∈ ((View.whole main_v51).slice (win0_3.rect ⟨(i 0).val / 512, ht⟩)).set
    rw [View.set_slice_whole]
    exact rowBlock_mem i (idx_facts0 _).1 (idx_facts0 _).2.1 ⟨rfl, rfl, rfl⟩ (by decide)

end Cert.KernelIdeal.Hand
-- ==== Proof.Ideal.MatmulValue1.lean ====
import proofs.«403157_j14328010899645_2_alg».proof.Proof.Ideal.Region1
import proofs.«403157_j14328010899645_2_alg».proof.Proof.Ideal.MatmulPay

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

def mm1 (a : Vec Ideal S4096x4096 .bf16) (b : Vec Ideal S4096x256 .bf16) (bias : Vec Ideal S1x256 .f32) : Vec Ideal S4096x256 .f32 :=
  mmOf (fun y => y) a b bias

theorem mm1_apply (a : Vec Ideal S4096x4096 .bf16) (b : Vec Ideal S4096x256 .bf16) (bias : Vec Ideal S1x256 .f32) (i : Fin 4096) (j : Fin 256) :
    mm1 a b bias (ix2 i j) = (∑ t : Fin 4096, a (ix2 i t) * b (ix2 t j)) + bias (ix2 0 j) := rfl

theorem idx_facts1 : ∀ t : Fin cfg1.N, win1_3.index t (0 : Fin 2) = t.val ∧ win1_3.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

-- On every row block both sides are the same sums, and row r lies in block r / 1024.
theorem arr1_value (c : Dev nD) : (dat1 (F := Ideal) V c).arrAt 3 cfg1.N
    = mm1 (V c (Pipeline.arrRef spec1 0)) (V c (Pipeline.arrRef spec1 1)) (V c (Pipeline.arrRef spec1 2)) := by
  refine (dat1 (F := Ideal) V c).arrAt_eq_of_cover 3 _ (fun t _ => ?_) fun (i : S4096x256.Idx) => ?_
  · show (cfg1.win 3).cut (grid1.coords t) ((dat1 (F := Ideal) V c).after 3 t) = _
    rw [after1_3]
    unfold out1_3
    rw [View.canon_unit_zero zeroOff]
    simp only [View.ld_unit_zero (S := S1024x4096) zeroOff, View.ld_unit_zero (S := S4096x256) zeroOff, View.ld_unit_zero (S := S1x256) zeroOff]
    exact funext (mmOf_block _ _ _ _ (win1_0.rect_emb_val t) (win1_1.rect_emb_val t) (win1_2.rect_emb_val t)
      (win1_3.rect_emb_val t) (idx_facts1 t) rfl (pay1_apply _ _ _))
  · have hi : (i 0).val < 4096 := (i 0).isLt
    have ht : (i 0).val / 1024 < cfg1.N := by rw [show cfg1.N = 4 from N_1]; omega
    refine ⟨⟨_, ht⟩, flush1_3 _, ?_⟩
    show i ∈ ((View.whole main_v53).slice (win1_3.rect ⟨(i 0).val / 1024, ht⟩)).set
    rw [View.set_slice_whole]
    exact rowBlock_mem i (idx_facts1 _).1 (idx_facts1 _).2.1 ⟨rfl, rfl, rfl⟩ (by decide)

end Cert.KernelIdeal.Hand
-- ==== Proof.Ideal.MatmulValue5.lean ====
import proofs.«403157_j14328010899645_2_alg».proof.Proof.Ideal.Region5
import proofs.«403157_j14328010899645_2_alg».proof.Proof.Ideal.MatmulPay

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

def mm5 (a : Vec Ideal S4096x256 .f32) (b : Vec Ideal S256x256 .f32) (bias : Vec Ideal S1x256 .f32) : Vec Ideal S4096x256 .bf16 :=
  mmOf (fun y => y) a b bias

theorem mm5_apply (a : Vec Ideal S4096x256 .f32) (b : Vec Ideal S256x256 .f32) (bias : Vec Ideal S1x256 .f32) (i : Fin 4096) (j : Fin 256) :
    mm5 a b bias (ix2 i j) = (∑ t : Fin 256, a (ix2 i t) * b (ix2 t j)) + bias (ix2 0 j) := rfl

theorem idx_facts5 : ∀ t : Fin cfg5.N, win5_3.index t (0 : Fin 2) = t.val ∧ win5_3.index t (1 : Fin 2) = 0
    ∧ win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0 :=
  (by decide +kernel : ∀ t : Fin grid5.N, _)

-- On every row block both sides are the same sums, and row r lies in block r / 512.
theorem arr5_value (c : Dev nD) : (dat5 (F := Ideal) V c).arrAt 3 cfg5.N
    = mm5 (V c (Pipeline.arrRef spec5 0)) (V c (Pipeline.arrRef spec5 1)) (V c (Pipeline.arrRef spec5 2)) := by
  refine (dat5 (F := Ideal) V c).arrAt_eq_of_cover 3 _ (fun t _ => ?_) fun (i : S4096x256.Idx) => ?_
  · show (cfg5.win 3).cut (grid5.coords t) ((dat5 (F := Ideal) V c).after 3 t) = _
    rw [after5_3]
    unfold out5_3
    rw [View.canon_unit_zero zeroOff]
    simp only [View.ld_unit_zero (S := S512x256) zeroOff, View.ld_unit_zero (S := S256x256) zeroOff, View.ld_unit_zero (S := S1x256) zeroOff]
    exact funext (mmOf_block _ _ _ _ (win5_0.rect_emb_val t) (win5_1.rect_emb_val t) (win5_2.rect_emb_val t)
      (win5_3.rect_emb_val t) (idx_facts5 t) rfl (pay5_apply _ _ _))
  · have hi : (i 0).val < 4096 := (i 0).isLt
    have ht : (i 0).val / 512 < cfg5.N := by rw [show cfg5.N = 8 from N_5]; omega
    refine ⟨⟨_, ht⟩, flush5_3 _, ?_⟩
    show i ∈ ((View.whole main_v71).slice (win5_3.rect ⟨(i 0).val / 512, ht⟩)).set
    rw [View.set_slice_whole]
    exact rowBlock_mem i (idx_facts5 _).1 (idx_facts5 _).2.1 ⟨rfl, rfl, rfl⟩ (by decide)

end Cert.KernelIdeal.Hand
-- ==== Proof.Ideal.MatmulValue6.lean ====
import proofs.«403157_j14328010899645_2_alg».proof.Proof.Ideal.Region6
import proofs.«403157_j14328010899645_2_alg».proof.Proof.Ideal.MatmulPay

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

def mm6 (a : Vec Ideal S4096x4096 .bf16) (b : Vec Ideal S4096x256 .bf16) (bias : Vec Ideal S1x256 .f32) : Vec Ideal S4096x256 .f32 :=
  mmOf (fun y => y) a b bias

theorem mm6_apply (a : Vec Ideal S4096x4096 .bf16) (b : Vec Ideal S4096x256 .bf16) (bias : Vec Ideal S1x256 .f32) (i : Fin 4096) (j : Fin 256) :
    mm6 a b bias (ix2 i j) = (∑ t : Fin 4096, a (ix2 i t) * b (ix2 t j)) + bias (ix2 0 j) := rfl

theorem idx_facts6 : ∀ t : Fin cfg6.N, win6_3.index t (0 : Fin 2) = t.val ∧ win6_3.index t (1 : Fin 2) = 0
    ∧ win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0 :=
  (by decide +kernel : ∀ t : Fin grid6.N, _)

-- On every row block both sides are the same sums, and row r lies in block r / 1024.
theorem arr6_value (c : Dev nD) : (dat6 (F := Ideal) V c).arrAt 3 cfg6.N
    = mm6 (V c (Pipeline.arrRef spec6 0)) (V c (Pipeline.arrRef spec6 1)) (V c (Pipeline.arrRef spec6 2)) := by
  refine (dat6 (F := Ideal) V c).arrAt_eq_of_cover 3 _ (fun t _ => ?_) fun (i : S4096x256.Idx) => ?_
  · show (cfg6.win 3).cut (grid6.coords t) ((dat6 (F := Ideal) V c).after 3 t) = _
    rw [after6_3]
    unfold out6_3
    rw [View.canon_unit_zero zeroOff]
    simp only [View.ld_unit_zero (S := S1024x4096) zeroOff, View.ld_unit_zero (S := S4096x256) zeroOff, View.ld_unit_zero (S := S1x256) zeroOff]
    exact funext (mmOf_block _ _ _ _ (win6_0.rect_emb_val t) (win6_1.rect_emb_val t) (win6_2.rect_emb_val t)
      (win6_3.rect_emb_val t) (idx_facts6 t) rfl (pay6_apply _ _ _))
  · have hi : (i 0).val < 4096 := (i 0).isLt
    have ht : (i 0).val / 1024 < cfg6.N := by rw [show cfg6.N = 4 from N_6]; omega
    refine ⟨⟨_, ht⟩, flush6_3 _, ?_⟩
    show i ∈ ((View.whole main_v73).slice (win6_3.rect ⟨(i 0).val / 1024, ht⟩)).set
    rw [View.set_slice_whole]
    exact rowBlock_mem i (idx_facts6 _).1 (idx_facts6 _).2.1 ⟨rfl, rfl, rfl⟩ (by decide)

end Cert.KernelIdeal.Hand
-- ==== Proof.Ideal.MatmulValue10.lean ====
import proofs.«403157_j14328010899645_2_alg».proof.Proof.Ideal.Region10
import proofs.«403157_j14328010899645_2_alg».proof.Proof.Ideal.MatmulPay

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

def mm10 (a : Vec Ideal S4096x256 .f32) (b : Vec Ideal S256x128 .f32) (bias : Vec Ideal S1x128 .f32) : Vec Ideal S4096x128 .bf16 :=
  mmOf (fun y => y) a b bias

theorem mm10_apply (a : Vec Ideal S4096x256 .f32) (b : Vec Ideal S256x128 .f32) (bias : Vec Ideal S1x128 .f32) (i : Fin 4096) (j : Fin 128) :
    mm10 a b bias (ix2 i j) = (∑ t : Fin 256, a (ix2 i t) * b (ix2 t j)) + bias (ix2 0 j) := rfl

theorem idx_facts10 : ∀ t : Fin cfg10.N, win10_3.index t (0 : Fin 2) = t.val ∧ win10_3.index t (1 : Fin 2) = 0
    ∧ win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0 :=
  (by decide +kernel : ∀ t : Fin grid10.N, _)

-- On every row block both sides are the same sums, and row r lies in block r / 512.
theorem arr10_value (c : Dev nD) : (dat10 (F := Ideal) V c).arrAt 3 cfg10.N
    = mm10 (V c (Pipeline.arrRef spec10 0)) (V c (Pipeline.arrRef spec10 1)) (V c (Pipeline.arrRef spec10 2)) := by
  refine (dat10 (F := Ideal) V c).arrAt_eq_of_cover 3 _ (fun t _ => ?_) fun (i : S4096x128.Idx) => ?_
  · show (cfg10.win 3).cut (grid10.coords t) ((dat10 (F := Ideal) V c).after 3 t) = _
    rw [after10_3]
    unfold out10_3
    rw [View.canon_unit_zero zeroOff]
    simp only [View.ld_unit_zero (S := S512x256) zeroOff, View.ld_unit_zero (S := S256x128) zeroOff, View.ld_unit_zero (S := S1x128) zeroOff]
    exact funext (mmOf_block _ _ _ _ (win10_0.rect_emb_val t) (win10_1.rect_emb_val t) (win10_2.rect_emb_val t)
      (win10_3.rect_emb_val t) (idx_facts10 t) rfl (pay10_apply _ _ _))
  · have hi : (i 0).val < 4096 := (i 0).isLt
    have ht : (i 0).val / 512 < cfg10.N := by rw [show cfg10.N = 8 from N_10]; omega
    refine ⟨⟨_, ht⟩, flush10_3 _, ?_⟩
    show i ∈ ((View.whole main_v91).slice (win10_3.rect ⟨(i 0).val / 512, ht⟩)).set
    rw [View.set_slice_whole]
    exact rowBlock_mem i (idx_facts10 _).1 (idx_facts10 _).2.1 ⟨rfl, rfl, rfl⟩ (by decide)

end Cert.KernelIdeal.Hand
-- ==== Proof.Ideal.MatmulValue11.lean ====
import proofs.«403157_j14328010899645_2_alg».proof.Proof.Ideal.Region11
import proofs.«403157_j14328010899645_2_alg».proof.Proof.Ideal.MatmulPay
import Idealize.ShloMosaic.Lib.ValueIdx
import Idealize.ShloMosaic.Lib.Pipeline.Value
import Idealize.ShloMosaic.PureOps.Ideal.Laws

/-! # Region 11 of the kernel program: the array it leaves, at the ideal instance

The region's grid walks the row blocks of the left operand; at point t the body stores the matmul-plus-bias payload of
the left operand's block t, the whole weight and the bias row over the output's block t. Read index by index, what point
t writes back is block t of ONE function of the three operand arrays, mm11; the output's blocks tile its array (row r is in
the block of point r / 1024), so the array ends holding mm11 of the operands as the region finds them. -/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- the TensorCore's buffer contents when the region is entered
variable (V : (c : Dev nD) → (b : Ref sig .tc) → Buf (Elt Ideal) ((c : Thread nD τ).loc b))

/-- The array region 11 leaves: the left operand times the weight, plus the bias row, then the logistic function. -/
def mm11 (a : Vec Ideal S4096x4096 .bf16) (b : Vec Ideal S4096x128 .bf16) (bias : Vec Ideal S1x128 .f32) : Vec Ideal S4096x128 .f32 :=
  mmOf (fun y => Ideal.logistic (y)) a b bias

theorem mm11_apply (a : Vec Ideal S4096x4096 .bf16) (b : Vec Ideal S4096x128 .bf16) (bias : Vec Ideal S1x128 .f32) (i : Fin 4096) (j : Fin 128) :
    mm11 a b bias (ix2 i j) = Ideal.logistic ((∑ t : Fin 4096, a (ix2 i t) * b (ix2 t j)) + bias (ix2 0 j)) := rfl

theorem zeros11 : (![0, 0] : Fin 2 → Nat) = fun _ => 0 := funext fun a => by fin_cases a <;> rfl

/-- The printed index maps over the grid: the left operand's and the output's block index is (t, 0) at point t, the
    weight's and the bias row's (0, 0). -/
theorem idx_facts11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

/-- Row p of point t's block is row t · 1024 + p of the array. -/
theorem row11_lt (t : Fin cfg11.N) (p : Fin 1024) : t.val * 1024 + p.val < 4096 := by
  have ht : t.val < 4 := N_11 ▸ t.isLt
  have hp := p.isLt
  omega

/-- Where an element of each window's block at point t sits in its array. -/
theorem emb11_0 (t : Fin cfg11.N) (p : Fin 1024) (s : Fin 4096) :
    ((cfg11.win 0).blk t).view.emb (ix2 p s) = (ix2 (⟨t.val * 1024 + p.val, row11_lt t p⟩ : Fin 4096) s : S4096x4096.Idx) := by
  obtain ⟨e0, e1, -⟩ := idx_facts11 t
  funext a; apply Fin.ext
  match a with
  | ⟨0, _⟩ => show win11_0.index t (0 : Fin 2) * 1024 + 1 * p.val = t.val * 1024 + p.val; omega
  | ⟨1, _⟩ => show win11_0.index t (1 : Fin 2) * 4096 + 1 * s.val = s.val; omega
theorem emb11_1 (t : Fin cfg11.N) (s : Fin 4096) (q : Fin 128) :
    ((cfg11.win 1).blk t).view.emb (ix2 s q) = (ix2 s q : S4096x128.Idx) := by
  obtain ⟨-, -, e0, e1, -⟩ := idx_facts11 t
  funext a; apply Fin.ext
  match a with
  | ⟨0, _⟩ => show win11_1.index t (0 : Fin 2) * 4096 + 1 * s.val = s.val; omega
  | ⟨1, _⟩ => show win11_1.index t (1 : Fin 2) * 128 + 1 * q.val = q.val; omega
theorem emb11_2 (t : Fin cfg11.N) (z : Fin 1) (q : Fin 128) :
    ((cfg11.win 2).blk t).view.emb (ix2 z q) = (ix2 z q : S1x128.Idx) := by
  obtain ⟨-, -, -, -, e0, e1, -⟩ := idx_facts11 t
  funext a; apply Fin.ext
  match a with
  | ⟨0, _⟩ => show win11_2.index t (0 : Fin 2) * 1 + 1 * z.val = z.val; omega
  | ⟨1, _⟩ => show win11_2.index t (1 : Fin 2) * 128 + 1 * q.val = q.val; omega
theorem emb11_3 (t : Fin cfg11.N) (p : Fin 1024) (q : Fin 128) :
    ((cfg11.win 3).blk t).view.emb (ix2 p q) = (ix2 (⟨t.val * 1024 + p.val, row11_lt t p⟩ : Fin 4096) q : S4096x128.Idx) := by
  obtain ⟨-, -, -, -, -, -, e0, e1⟩ := idx_facts11 t
  funext a; apply Fin.ext
  match a with
  | ⟨0, _⟩ => show win11_3.index t (0 : Fin 2) * 1024 + 1 * p.val = t.val * 1024 + p.val; omega
  | ⟨1, _⟩ => show win11_3.index t (1 : Fin 2) * 128 + 1 * q.val = q.val; omega

/-- The three operand arrays as the region finds them, and their blocks at point t, at their literal types. -/
abbrev xarr11 (c : Dev nD) : Vec Ideal S4096x4096 .bf16 := V c (Pipeline.arrRef spec11 0)
abbrev warr11 (c : Dev nD) : Vec Ideal S4096x128 .bf16 := V c (Pipeline.arrRef spec11 1)
abbrev barr11 (c : Dev nD) : Vec Ideal S1x128 .f32 := V c (Pipeline.arrRef spec11 2)
abbrev xblk11 (c : Dev nD) (t : Fin cfg11.N) : Vec Ideal S1024x4096 .bf16 := iblk11 V c 0 t
abbrev wblk11 (c : Dev nD) (t : Fin cfg11.N) : Vec Ideal S4096x128 .bf16 := iblk11 V c 1 t
abbrev bblk11 (c : Dev nD) (t : Fin cfg11.N) : Vec Ideal S1x128 .f32 := iblk11 V c 2 t

/-- A block's element is the array's at the place the window puts it. -/
theorem xblk11_apply (c : Dev nD) (t : Fin cfg11.N) (p : Fin 1024) (s : Fin 4096) :
    xblk11 V c t (ix2 p s) = xarr11 V c (ix2 (⟨t.val * 1024 + p.val, row11_lt t p⟩ : Fin 4096) s) :=
  congrArg (xarr11 V c) (emb11_0 t p s)
theorem wblk11_apply (c : Dev nD) (t : Fin cfg11.N) (s : Fin 4096) (q : Fin 128) :
    wblk11 V c t (ix2 s q) = warr11 V c (ix2 s q) :=
  congrArg (warr11 V c) (emb11_1 t s q)
theorem bblk11_apply (c : Dev nD) (t : Fin cfg11.N) (z : Fin 1) (q : Fin 128) :
    bblk11 V c t (ix2 z q) = barr11 V c (ix2 z q) :=
  congrArg (barr11 V c) (emb11_2 t z q)

/-- What point t writes back is block t of mm11 of the three arrays as the region finds them: at row p and column q of
    the block the payload reads row p of the left block, which is row t · 1024 + p of the left array, against the whole
    weight and bias. -/
theorem flushed11_eq (c : Dev nD) (t : Fin cfg11.N) :
    (dat11 (F := Ideal) V c).flushed 3 t = ((cfg11.win 3).blk t).view.read (Elt Ideal)
      (mm11 (V c (Pipeline.arrRef spec11 0)) (V c (Pipeline.arrRef spec11 1)) (V c (Pipeline.arrRef spec11 2))) := by
  show (cfg11.win 3).cut (grid11.coords t) ((dat11 (F := Ideal) V c).after 3 t) = _
  rw [after11_3]
  unfold out11_3
  rw [View.canon_unit_zero zeros11]
  simp only [View.ld_unit_zero (S := S1024x4096) zeros11, View.ld_unit_zero (S := S4096x128) zeros11, View.ld_unit_zero (S := S1x128) zeros11]
  funext j
  obtain ⟨p, q, rfl⟩ : ∃ (p : Fin 1024) (q : Fin 128), j = ix2 p q := ⟨j 0, j 1, eq_ix2 j⟩
  show k11_pay1 (F := Ideal) (xblk11 V c t) (wblk11 V c t) (bblk11 V c t) (ix2 p q)
    = mm11 (xarr11 V c) (warr11 V c) (barr11 V c) (((cfg11.win 3).blk t).view.emb (ix2 p q))
  rw [emb11_3 t p q]
  refine (pay11_apply (xblk11 V c t) (wblk11 V c t) (bblk11 V c t) p q).trans ?_
  refine Eq.trans ?_ (mm11_apply (xarr11 V c) (warr11 V c) (barr11 V c) ⟨t.val * 1024 + p.val, row11_lt t p⟩ q).symm
  rw [bblk11_apply V c t 0 q]
  exact congrArg (fun z => Ideal.logistic (z + barr11 V c (ix2 0 q))) (Finset.sum_congr rfl fun s _ => by rw [xblk11_apply V c t p s, wblk11_apply V c t s q])

/-- An index of the array is in point t's block iff each coordinate is in the block's range on its axis. -/
theorem mem_blk11 (t : Fin cfg11.N) (i : S4096x128.Idx) :
    i ∈ ((cfg11.win 3).blk t).view.set ↔ ∀ a : Fin 2, win11_3.index t a * S1024x128.size a ≤ (i a).val ∧ (i a).val < win11_3.index t a * S1024x128.size a + S1024x128.size a := by
  show i ∈ ((View.whole main_v93).slice (win11_3.rect t)).set ↔ _
  rw [View.set_slice_whole, Rect.mem_set_unit]
  exact Iff.rfl

/-- Every index of the array is in some point's block: row r is in the block of point r / 1024. -/
theorem cover11 (i : S4096x128.Idx) : ∃ t : Fin cfg11.N, (cfg11.win 3).flush t = true ∧ i ∈ ((cfg11.win 3).blk t).view.set := by
  have hi0 : (i 0).val < 4096 := (i 0).isLt
  have hi1 : (i 1).val < 128 := (i 1).isLt
  let t : Fin cfg11.N := ⟨(i 0).val / 1024, by rw [show cfg11.N = 4 from N_11]; omega⟩
  obtain ⟨-, -, -, -, -, -, e0, e1⟩ := idx_facts11 t
  have et : t.val = (i 0).val / 1024 := rfl
  refine ⟨t, flush11_3 t, ?_⟩
  rw [mem_blk11]
  intro a
  match a with
  | ⟨0, _⟩ => show win11_3.index t (0 : Fin 2) * 1024 ≤ (i 0).val ∧ (i 0).val < win11_3.index t (0 : Fin 2) * 1024 + 1024; omega
  | ⟨1, _⟩ => show win11_3.index t (1 : Fin 2) * 128 ≤ (i 1).val ∧ (i 1).val < win11_3.index t (1 : Fin 2) * 128 + 128; omega

/-- The array after the region: mm11 of the three arrays as the region finds them. -/
theorem arr11_value (c : Dev nD) : (dat11 (F := Ideal) V c).arrAt 3 cfg11.N
    = mm11 (V c (Pipeline.arrRef spec11 0)) (V c (Pipeline.arrRef spec11 1)) (V c (Pipeline.arrRef spec11 2)) :=
  (dat11 (F := Ideal) V c).arrAt_eq_of_cover 3 _ (fun t _ => flushed11_eq V c t) cover11

end Cert.KernelIdeal.Hand
-- ==== Proof.Ideal.Glue0.lean ====
import proofs.«403157_j14328010899645_2_alg».proof.Proof.Gen.KernelIdeal.Launch
import Idealize.ShloMosaic.Lib.StableHlo.Run
import Idealize.ShloMosaic.Lib.Pipeline.Value
import Idealize.ShloMosaic.Lib.IdealHost
import Idealize.ShloMosaic.Lib.ValueLayout
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.ValueIdx Idealize.ShloMosaic.StableHlo
variable {F : FTy → Type} [FloatOps F]
def ends0 (a1 : IVec S2x262144 32) : IVec S266240 32 :=
  concatenate S266240 0
    [⟨S262144, fun i => shapeCast S262144 (extractStridedSlice S1x262144 ![0, 0] a1 slices_S2x262144_S1x262144_0_0) shapeCasts_S1x262144_S262144 i⟩,
      ⟨S4096, iotaInDim S4096 32 0⟩]
    concatenates_S262144_S4096_S266240_d0
def ends1 (a1 : IVec S2x262144 32) : IVec S266240 32 :=
  concatenate S266240 0
    [⟨S262144, fun i => shapeCast S262144 (extractStridedSlice S1x262144 ![1, 0] a1 slices_S2x262144_S1x262144_1_0) shapeCasts_S1x262144_S262144 i⟩,
      ⟨S4096, iotaInDim S4096 32 0⟩]
    concatenates_S262144_S4096_S266240_d0
def ewf (a2 : FVec F S262144 .f32) : FVec F S266240 .f32 :=
  concatenate S266240 0
    [⟨S262144, a2⟩, ⟨S4096, broadcastInDim S4096 ![] bcast_S_S4096 (constant S_ .f32 0x3F800000#32)⟩]
    concatenates_S262144_S4096_S266240_d0
def colOf (x : IVec S266240 32) : IVec S266240x1 32 := broadcastInDim S266240x1 ![0] bcast_S266240_S266240x1_0 x
def degArr (a1 : IVec S2x262144 32) (a2 : FVec F S262144 .f32) : FVec F S4096 .f32 :=
  Host.scatterAdd scatter_S4096_S266240x1_S266240_n_0_0_1
    (broadcastInDim S4096 ![] bcast_S_S4096 (constant S_ .f32 0x00000000#32)) (colOf (ends1 a1)) (ewf a2)
def wrapIdx (x : IVec S266240 32) : IVec S266240 32 :=
  select (cmpi .slt x (broadcastInDim S266240 ![] bcast_S_S266240 (constantI S_ 32 0#32)))
    (addi x (broadcastInDim S266240 ![] bcast_S_S266240 (constantI S_ 32 4096#32))) x
def normArr (v5 v6 : IVec S266240 32) (v8 : FVec F S266240 .f32) (v15 : FVec F S4096 .f32) : FVec F S266240 .f32 :=
  mulf (mulf (Host.gather gather_S4096_S266240x1_S266240_n_0_n_n_0_1_1 v15 (colOf (wrapIdx v5))) v8)
    (Host.gather gather_S4096_S266240x1_S266240_n_0_n_n_0_1_1 v15 (colOf (wrapIdx v6)))
def pairsOf (v5 v6 : IVec S266240 32) : IVec S266240x2 32 :=
  concatenate S266240x2 1 [⟨S266240x1, colOf (wrapIdx v6)⟩, ⟨S266240x1, colOf (wrapIdx v5)⟩] concatenates_S266240x1_S266240x1_S266240x2_d1
def adjArr (v5 v6 : IVec S266240 32) (v8 : FVec F S266240 .f32) (v15 : FVec F S4096 .f32) : FVec F S4096x4096 .bf16 :=
  truncf .bf16 (Host.scatterAdd scatter_S4096x4096_S266240x2_S266240_n_01_01_1
    (broadcastInDim S4096x4096 ![] bcast_S_S4096x4096 (constant S_ .f32 0x00000000#32)) (pairsOf v5 v6) (normArr v5 v6 v8 v15)) bitsLt_bf16_f32
variable (W : Valuation τ sig (Elt F))
theorem g0_v5 : StableHlo.after (hostOps0 (F := F)) W (Proc.devRef .tc main_v5) = ends0 (W (Proc.devRef .tc main_arg1)) := by
  after_results <;> rfl
theorem g0_v6 : StableHlo.after (hostOps0 (F := F)) W (Proc.devRef .tc main_v6) = ends1 (W (Proc.devRef .tc main_arg1)) := by
  after_results <;> rfl
theorem g0_v8 : StableHlo.after (hostOps0 (F := F)) W (Proc.devRef .tc main_v8) = ewf (W (Proc.devRef .tc main_arg2)) := by
  after_results <;> rfl
theorem g0_v13 : StableHlo.after (hostOps0 (F := F)) W (Proc.devRef .tc main_v13)
    = cmpf .ogt (degArr (W (Proc.devRef .tc main_arg1)) (W (Proc.devRef .tc main_arg2)))
        (broadcastInDim S4096 ![] bcast_S_S4096 (constant S_ .f32 0x00000000#32)) := by
  after_results <;> rfl
theorem g0_v14 : StableHlo.after (hostOps0 (F := F)) W (Proc.devRef .tc main_v14)
    = Host.rsqrt (degArr (W (Proc.devRef .tc main_arg1)) (W (Proc.devRef .tc main_arg2))) := by
  after_results <;> rfl
theorem g0_cst2 : StableHlo.after (hostOps0 (F := F)) W (Proc.devRef .tc main_cst_2) = constant S_ .f32 0x00000000#32 := by
  after_results <;> rfl
theorem g01_v15 : StableHlo.after (hostOps0_1 (F := F)) W (Proc.devRef .tc main_v15)
    = select (W (Proc.devRef .tc main_v13)) (W (Proc.devRef .tc main_v14))
        (broadcastInDim S4096 ![] bcast_S_S4096 (W (Proc.devRef .tc main_cst_2))) := by
  after_results
  simp only [TRef.ofBuf, TRef.toBuf, cast_eq]
  rfl
theorem g02_v48 : StableHlo.after (hostOps0_2 (F := F)) W (Proc.devRef .tc main_v48)
    = transpose S256x768 [1, 0] (W (Proc.devRef .tc main_arg9)) transposes_S768x256_S256x768_1_0 := by
  after_results <;> rfl
theorem g02_v49 : StableHlo.after (hostOps0_2 (F := F)) W (Proc.devRef .tc main_v49)
    = transpose S256x256 [1, 0] (W (Proc.devRef .tc main_arg11)) transposes_S256x256_S256x256_1_0 := by
  after_results <;> rfl
theorem g02_v50 : StableHlo.after (hostOps0_2 (F := F)) W (Proc.devRef .tc main_v50)
    = broadcastInDim S1x256 ![] bcast_S_S1x256 (constant S_ .f32 0x00000000#32) := by
  after_results <;> rfl
end Cert.KernelIdeal.Hand
-- ==== Proof.Ideal.Glue0A.lean ====
import proofs.«403157_j14328010899645_2_alg».proof.Proof.Ideal.Glue0
set_option maxRecDepth 16384
noncomputable section
namespace Cert.KernelIdeal.Hand
open Cert.KernelIdeal Cert.KernelIdeal.Gen
open Idealize.ShloMosaic Idealize.ShloMosaic.TcCoe Idealize.ShloMosaic.ValueIdx Idealize.ShloMosaic.StableHlo
variable {F : FTy → Type} [FloatOps F]
variable (W : Valuation τ sig (Elt F))
set_option maxHeartbeats 4000000 in
theorem g02_v47 : StableHlo.after (hostOps0_2 (F := F)) W (Proc.devRef .tc main_v47)
    = adjArr (W (Proc.devRef .tc main_v5)) (W (Proc.devRef .tc main_v6)) (W (Proc.devRef .tc main_v8)) (W (Proc.devRef .tc main_v15)) := by
  after_results <;> rfl
end Cert.KernelIdeal.Hand
-- ==== Proof.LibGatherScatter.lean ====
import Idealize.ShloMosaic.PureOps.Ideal
import Idealize.ShloMosaic.Lib.ValueIdx
namespace Cert.LibGatherScatter
open Idealize.ShloMosaic Idealize.ShloMosaic.ValueIdx
theorem getElem_congr' {α : Type} {l l' : List α} (hl : l = l') {k k' : Nat} (hk : k = k') (h : k < l.length) :
    l[k]'h = l'[k']'(by subst hl; subst hk; exact h) := by subst hl; subst hk; rfl
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (p : Fin n) (q : Fin D) (hN : 0 < N) :
    Host.gather d x idx (ix2 p q) = x (ix2 ⟨min (idx (ix2 p (0 : Fin 1))).toInt.toNat (N - 1), by omega⟩ q) := by
  unfold Host.gather
  congr 1
  have hsk : d.sKept = [1] := by
    show Shape.kept _ (d.collapsedSliceDims ++ d.operandBatchingDims) = [1]
    rw [hcoll, hob]; rfl
  have hbd : d.batchDims = [0] := by
    show Shape.kept _ d.offsetDims = [0]
    rw [hoff]; rfl
  have hsik : d.siKept = [0] := by
    show (List.finRange _).filter (·.val ≠ d.indexVectorDim) = [0]
    rw [hivd]; rfl
  have h0 : (d.operandIdx (ix2 p q) idx (0 : Fin 2)).val = min (idx (ix2 p (0 : Fin 1))).toInt.toNat (N - 1) := by
    have hb : (0 : Fin 2) ∉ d.operandBatchingDims := by rw [hob]; exact List.not_mem_nil
    have hk : (0 : Fin 2) ∉ d.sKept := by rw [hsk]; simp
    have hm : (0 : Fin 2) ∈ d.startIndexMap := by rw [hsim]; exact List.mem_singleton.mpr rfl
    have hsl : d.sliceSizes 0 = 1 := by rw [hss]; rfl
    simp only [GatherDims.operandIdx, GatherDims.batchCoord_eq_zero _ _ _ hb, GatherDims.offCoord_eq_zero _ _ _ hk,
      Nat.add_zero, GatherDims.start, dif_pos hm]
    show min (idx _).toInt.toNat (N - d.sliceSizes 0) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X : Fin 2, X = 0 → ((ix2 p q : (⟨2, ![n, D]⟩ : Shape).Idx) X).val = p.val := fun X hX => by
        subst hX; rfl
      apply e
      rw [getElem_congr' hbd (show List.idxOf _ d.siKept = 0 by rw [hsik]; rfl)]
      rfl
    | ⟨1, _⟩ =>
      unfold GatherDims.siIdx
      rw [dif_pos (by rw [hivd])]
      apply Fin.ext
      show List.idxOf (0 : Fin 2) d.startIndexMap = 0
      rw [hsim]; simp
  have h1 : (d.operandIdx (ix2 p q) idx (1 : Fin 2)).val = q.val := by
    have hb : (1 : Fin 2) ∉ d.operandBatchingDims := by rw [hob]; exact List.not_mem_nil
    have hk : (1 : Fin 2) ∈ d.sKept := by rw [hsk]; simp
    have hm : (1 : Fin 2) ∉ d.startIndexMap := by rw [hsim]; simp
    simp only [GatherDims.operandIdx, GatherDims.batchCoord_eq_zero _ _ _ hb,
      Nat.add_zero, GatherDims.start, dif_neg hm, GatherDims.offCoord, dif_pos hk, Nat.zero_add]
    have e : ∀ X : Fin 2, X = 1 → ((ix2 p q : (⟨2, ![n, D]⟩ : Shape).Idx) X).val = q.val := fun X hX => by
      subst hX; rfl
    apply e
    rw [getElem_congr' hoff (show List.idxOf _ d.sKept = 0 by rw [hsk]; rfl)]
    rfl
  funext a
  apply Fin.ext
  match a with
  | ⟨0, _⟩ => exact h0
  | ⟨1, _⟩ => exact h1
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro heq a
      have hf := congrFun (Option.some.inj heq) a
      have hv := congrArg Fin.val hf
      simp only at hv
      have := (h a).1
      omega
    · intro hall
      congr 1
      funext a
      apply Fin.ext
      show (d.start j idx a + (d.window j a : ℤ)).toNat = (i a).val
      rw [hall a]; exact Int.toNat_natCast _
  · rename_i h
    constructor
    · intro heq; cases heq
    · intro hall
      exfalso; apply h
      intro a
      rw [hall a]
      exact ⟨Int.natCast_nonneg _, by exact_mod_cast (i a).isLt⟩
theorem resultIdx?_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (idx : IVec ⟨2, ![n, 1]⟩ w) (e : Fin n) (c : Fin N) :
    d.resultIdx? (ix1 e) idx = some (ix1 c) ↔ (idx (ix2 e (0 : Fin 1))).toInt = (c.val : ℤ) := by
  rw [resultIdx?_eq_some_iff]
  have hsk : d.sKept = [] := by show Shape.kept _ d.insertedWindowDims = []; rw [hins]; rfl
  have hm : (0 : Fin 1) ∈ d.scatterDimsToOperandDims := by rw [hsd]; exact List.mem_singleton.mpr rfl
  have hk : (0 : Fin 1) ∉ d.sKept := by rw [hsk]; exact List.not_mem_nil
  have hst : d.start (ix1 e) idx (0 : Fin 1) = (idx (ix2 e (0 : Fin 1))).toInt := by
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 1, ((ix1 e : (⟨1, ![n]⟩ : Shape).Idx) X).val = e.val := fun X => by
        have hX : X = 0 := Subsingleton.elim _ _
        subst hX; rfl
      exact ee _
    | ⟨1, _⟩ =>
      unfold ScatterDims.siIdx
      rw [dif_pos (by rw [hivd])]
      apply Fin.ext
      show List.idxOf (0 : Fin 1) d.scatterDimsToOperandDims = 0
      rw [hsd]; simp
  have hw : d.window (ix1 e) (0 : Fin 1) = 0 := by
    unfold ScatterDims.window; rw [dif_neg hk]
  constructor
  · intro h
    have h0 : d.start (ix1 e) idx 0 + (d.window (ix1 e) 0 : ℤ) = (c.val : ℤ) := h 0
    rw [hst, hw] at h0
    simpa using h0
  · intro h a
    have ha : a = 0 := Subsingleton.elim _ _
    subst ha
    show d.start (ix1 e) idx 0 + (d.window (ix1 e) 0 : ℤ) = (c.val : ℤ)
    rw [hst, hw, h]
    simp
theorem scatterAdd_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (x : FVec Ideal ⟨1, ![N]⟩ .f32) (idx : IVec ⟨2, ![n, 1]⟩ w) (u : FVec Ideal ⟨1, ![n]⟩ .f32) (c : Fin N) :
    Host.scatterAdd d x idx u (ix1 c)
      = x (ix1 c) + ∑ e ∈ Finset.univ.filter (fun e : Fin n => (idx (ix2 e (0 : Fin 1))).toInt = (c.val : ℤ)), u (ix1 e) := by
  show Ideal.hostScatterAdd d x idx u (ix1 c) = _
  unfold Ideal.hostScatterAdd
  congr 1
  refine Finset.sum_bij' (fun jj _ => (jj 0 : Fin n)) (fun e _ => ix1 e) ?_ ?_ ?_ ?_ ?_
  · intro jj hjj
    have h2 := (Finset.mem_filter.1 hjj).2
    rw [eq_ix1 jj] at h2
    exact Finset.mem_filter.2 ⟨Finset.mem_univ _, (resultIdx?_vec d huw hins hsd hivd idx _ c).1 h2⟩
  · intro e he
    exact Finset.mem_filter.2 ⟨Finset.mem_univ _, (resultIdx?_vec d huw hins hsd hivd idx e c).2 (Finset.mem_filter.1 he).2⟩
  · intro jj _; exact (eq_ix1 jj).symm
  · intro e _; rfl
  · intro jj _; exact congrArg u (eq_ix1 jj)
theorem resultIdx?_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (idx : IVec ⟨2, ![n, 1]⟩ w) (e : Fin n) (j' : Fin D) (c : Fin N) (j : Fin D) :
    d.resultIdx? (ix2 e j') idx = some (ix2 c j) ↔ (idx (ix2 e (0 : Fin 1))).toInt = (c.val : ℤ) ∧ j' = j := by
  rw [resultIdx?_eq_some_iff]
  have hsk : d.sKept = [1] := by show Shape.kept _ d.insertedWindowDims = [1]; rw [hins]; rfl
  have hus : d.uScatter = [0] := by show Shape.kept _ d.updateWindowDims = [0]; rw [huw]; rfl
  have hsik : d.siKept = [0] := by show (List.finRange _).filter (·.val ≠ d.indexVectorDim) = [0]; rw [hivd]; rfl
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [hsk]; simp
  have hk1 : (1 : Fin 2) ∈ d.sKept := by rw [hsk]; simp
  have hst0 : d.start (ix2 e j') idx (0 : Fin 2) = (idx (ix2 e (0 : Fin 1))).toInt := by
    unfold ScatterDims.start
    rw [dif_pos hm0]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 2, X = 0 → ((ix2 e j' : (⟨2, ![n, D]⟩ : Shape).Idx) X).val = e.val := fun X hX => by
        subst hX; rfl
      apply ee
      rw [getElem_congr' hus (show List.idxOf _ d.siKept = 0 by rw [hsik]; rfl)]
      rfl
    | ⟨1, _⟩ =>
      unfold ScatterDims.siIdx
      rw [dif_pos (by rw [hivd])]
      apply Fin.ext
      show List.idxOf (0 : Fin 2) d.scatterDimsToOperandDims = 0
      rw [hsd]; simp
  have hst1 : d.start (ix2 e j') idx (1 : Fin 2) = 0 := by
    unfold ScatterDims.start; rw [dif_neg hm1]
  have hw0 : d.window (ix2 e j') (0 : Fin 2) = 0 := by
    unfold ScatterDims.window; rw [dif_neg hk0]
  have hw1 : d.window (ix2 e j') (1 : Fin 2) = j'.val := by
    unfold ScatterDims.window; rw [dif_pos hk1]
    have ee : ∀ X : Fin 2, X = 1 → ((ix2 e j' : (⟨2, ![n, D]⟩ : Shape).Idx) X).val = j'.val := fun X hX => by
      subst hX; rfl
    apply ee
    rw [getElem_congr' huw (show List.idxOf _ d.sKept = 0 by rw [hsk]; rfl)]
    rfl
  constructor
  · intro h
    have h0 : d.start (ix2 e j') idx 0 + (d.window (ix2 e j') 0 : ℤ) = (c.val : ℤ) := h 0
    have h1 : d.start (ix2 e j') idx 1 + (d.window (ix2 e j') 1 : ℤ) = (j.val : ℤ) := h 1
    rw [hst0, hw0] at h0
    rw [hst1, hw1] at h1
    exact ⟨by simpa using h0, Fin.ext (by omega)⟩
  · rintro ⟨h, rfl⟩ a
    match a with
    | ⟨0, _⟩ =>
      show d.start (ix2 e j') idx 0 + (d.window (ix2 e j') 0 : ℤ) = (c.val : ℤ)
      rw [hst0, hw0, h]; simp
    | ⟨1, _⟩ =>
      show d.start (ix2 e j') idx 1 + (d.window (ix2 e j') 1 : ℤ) = (j'.val : ℤ)
      rw [hst1, hw1]; simp
theorem scatterAdd_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (x : FVec Ideal ⟨2, ![N, D]⟩ .f32) (idx : IVec ⟨2, ![n, 1]⟩ w) (u : FVec Ideal ⟨2, ![n, D]⟩ .f32) (c : Fin N) (j : Fin D) :
    Host.scatterAdd d x idx u (ix2 c j)
      = x (ix2 c j) + ∑ e ∈ Finset.univ.filter (fun e : Fin n => (idx (ix2 e (0 : Fin 1))).toInt = (c.val : ℤ)), u (ix2 e j) := by
  show Ideal.hostScatterAdd d x idx u (ix2 c j) = _
  unfold Ideal.hostScatterAdd
  congr 1
  have key : ∀ jj : (⟨2, ![n, D]⟩ : Shape).Idx, d.resultIdx? jj idx = some (ix2 c j) →
      (idx (ix2 (jj 0 : Fin n) (0 : Fin 1))).toInt = (c.val : ℤ) ∧ (jj 1 : Fin D) = j := fun jj h => by
    rw [eq_ix2 jj] at h
    exact (resultIdx?_rows d huw hins hsd hivd idx _ _ c j).1 h
  refine Finset.sum_bij' (fun jj _ => (jj 0 : Fin n)) (fun e _ => ix2 e j) ?_ ?_ ?_ ?_ ?_
  · intro jj hjj
    exact Finset.mem_filter.2 ⟨Finset.mem_univ _, (key jj (Finset.mem_filter.1 hjj).2).1⟩
  · intro e he
    exact Finset.mem_filter.2 ⟨Finset.mem_univ _,
      (resultIdx?_rows d huw hins hsd hivd idx e j c j).2 ⟨(Finset.mem_filter.1 he).2, rfl⟩⟩
  · intro jj hjj
    have h2 := (key jj (Finset.mem_filter.1 hjj).2).2
    rw [eq_ix2 jj]
    exact congrArg (fun t => ix2 (jj 0 : Fin n) t) h2.symm
  · intro e _; rfl
  · intro jj hjj
    have h2 := (key jj (Finset.mem_filter.1 hjj).2).2
    show u jj = u (ix2 (jj 0 : Fin n) j)
    rw [← h2]
    exact congrArg u (eq_ix2 jj)
end Cert.LibGatherScatter
-- ==== Proof.LibScatter2.lean ====
import proofs.«403157_j14328010899645_2_alg».proof.Proof.LibGatherScatter
namespace Cert.LibScatter2
open Idealize.ShloMosaic Idealize.ShloMosaic.ValueIdx Cert.LibGatherScatter
theorem gather_vec {α : Type} {N n w : Nat} (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1) (hss : d.sliceSizes = ![1])
    (x : (⟨1, ![N]⟩ : Shape).Idx → α) (idx : IVec ⟨2, ![n, 1]⟩ w) (p : Fin n) (hN : 0 < N) :
    Host.gather d x idx (ix1 p) = x (ix1 ⟨min (idx (ix2 p (0 : Fin 1))).toInt.toNat (N - 1), by omega⟩) := by
  unfold Host.gather
  congr 1
  have hsk : d.sKept = [] := by
    show Shape.kept _ (d.collapsedSliceDims ++ d.operandBatchingDims) = []
    rw [hcoll, hob]; rfl
  have hbd : d.batchDims = [0] := by
    show Shape.kept _ d.offsetDims = [0]
    rw [hoff]; rfl
  have hsik : d.siKept = [0] := by
    show (List.finRange _).filter (·.val ≠ d.indexVectorDim) = [0]
    rw [hivd]; rfl
  have h0 : (d.operandIdx (ix1 p) idx (0 : Fin 1)).val = min (idx (ix2 p (0 : Fin 1))).toInt.toNat (N - 1) := by
    have hb : (0 : Fin 1) ∉ d.operandBatchingDims := by rw [hob]; exact List.not_mem_nil
    have hk : (0 : Fin 1) ∉ d.sKept := by rw [hsk]; exact List.not_mem_nil
    have hm : (0 : Fin 1) ∈ d.startIndexMap := by rw [hsim]; exact List.mem_singleton.mpr rfl
    have hsl : d.sliceSizes 0 = 1 := by rw [hss]; rfl
    simp only [GatherDims.operandIdx, GatherDims.batchCoord_eq_zero _ _ _ hb, GatherDims.offCoord_eq_zero _ _ _ hk,
      Nat.add_zero, GatherDims.start, dif_pos hm]
    show min (idx _).toInt.toNat (N - d.sliceSizes 0) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X : Fin 1, ((ix1 p : (⟨1, ![n]⟩ : Shape).Idx) X).val = p.val := fun X => by
        have hX : X = 0 := Subsingleton.elim _ _
        subst hX; rfl
      exact e _
    | ⟨1, _⟩ =>
      unfold GatherDims.siIdx
      rw [dif_pos (by rw [hivd])]
      apply Fin.ext
      show List.idxOf (0 : Fin 1) d.startIndexMap = 0
      rw [hsim]; simp
  funext a
  apply Fin.ext
  match a with
  | ⟨0, _⟩ => exact h0
theorem resultIdx?_pair {N M n w : Nat} (d : ScatterDims ⟨2, ![N, M]⟩ ⟨2, ![n, 2]⟩ ⟨1, ![n]⟩)
    (huw : d.updateWindowDims = []) (hins : d.insertedWindowDims = [0, 1]) (hsd : d.scatterDimsToOperandDims = [0, 1]) (hivd : d.indexVectorDim = 1)
    (idx : IVec ⟨2, ![n, 2]⟩ w) (e : Fin n) (c : Fin N) (k : Fin M) :
    d.resultIdx? (ix1 e) idx = some (ix2 c k)
      ↔ (idx (ix2 e (0 : Fin 2))).toInt = (c.val : ℤ) ∧ (idx (ix2 e (1 : Fin 2))).toInt = (k.val : ℤ) := by
  rw [resultIdx?_eq_some_iff]
  have hsk : d.sKept = [] := by show Shape.kept _ d.insertedWindowDims = []; rw [hins]; rfl
  have hm0 : (0 : Fin 2) ∈ d.scatterDimsToOperandDims := by rw [hsd]; simp
  have hm1 : (1 : Fin 2) ∈ d.scatterDimsToOperandDims := by rw [hsd]; simp
  have hk0 : (0 : Fin 2) ∉ d.sKept := by rw [hsk]; exact List.not_mem_nil
  have hk1 : (1 : Fin 2) ∉ d.sKept := by rw [hsk]; exact List.not_mem_nil
  have ee : ∀ X : Fin 1, ((ix1 e : (⟨1, ![n]⟩ : Shape).Idx) X).val = e.val := fun X => by
    have hX : X = 0 := Subsingleton.elim _ _
    subst hX; rfl
  have hst0 : d.start (ix1 e) idx (0 : Fin 2) = (idx (ix2 e (0 : Fin 2))).toInt := by
    unfold ScatterDims.start
    rw [dif_pos hm0]
    congr 2
    funext b
    match b with
    | ⟨0, _⟩ =>
      unfold ScatterDims.siIdx
      rw [dif_neg (by rw [hivd]; simp)]
      unfold ScatterDims.siCoord
      apply Fin.ext
      simp only [Fin.val_cast]
      exact ee _
    | ⟨1, _⟩ =>
      unfold ScatterDims.siIdx
      rw [dif_pos (by rw [hivd])]
      apply Fin.ext
      show List.idxOf (0 : Fin 2) d.scatterDimsToOperandDims = 0
      rw [hsd]; simp
  have hst1 : d.start (ix1 e) idx (1 : Fin 2) = (idx (ix2 e (1 : Fin 2))).toInt := by
    unfold ScatterDims.start
    rw [dif_pos hm1]
    congr 2
    funext b
    match b with
    | ⟨0, _⟩ =>
      unfold ScatterDims.siIdx
      rw [dif_neg (by rw [hivd]; simp)]
      unfold ScatterDims.siCoord
      apply Fin.ext
      simp only [Fin.val_cast]
      exact ee _
    | ⟨1, _⟩ =>
      unfold ScatterDims.siIdx
      rw [dif_pos (by rw [hivd])]
      apply Fin.ext
      show List.idxOf (1 : Fin 2) d.scatterDimsToOperandDims = 1
      rw [hsd]; rfl
  have hw0 : d.window (ix1 e) (0 : Fin 2) = 0 := by
    unfold ScatterDims.window; rw [dif_neg hk0]
  have hw1 : d.window (ix1 e) (1 : Fin 2) = 0 := by
    unfold ScatterDims.window; rw [dif_neg hk1]
  constructor
  · intro h
    have h0 : d.start (ix1 e) idx 0 + (d.window (ix1 e) 0 : ℤ) = (c.val : ℤ) := h 0
    have h1 : d.start (ix1 e) idx 1 + (d.window (ix1 e) 1 : ℤ) = (k.val : ℤ) := h 1
    rw [hst0, hw0] at h0
    rw [hst1, hw1] at h1
    exact ⟨by simpa using h0, by simpa using h1⟩
  · intro h a
    match a with
    | ⟨0, _⟩ =>
      show d.start (ix1 e) idx 0 + (d.window (ix1 e) 0 : ℤ) = (c.val : ℤ)
      rw [hst0, hw0, h.1]; simp
    | ⟨1, _⟩ =>
      show d.start (ix1 e) idx 1 + (d.window (ix1 e) 1 : ℤ) = (k.val : ℤ)
      rw [hst1, hw1, h.2]; simp
theorem scatterAdd_pair {N M n w : Nat} (d : ScatterDims ⟨2, ![N, M]⟩ ⟨2, ![n, 2]⟩ ⟨1, ![n]⟩)
    (huw : d.updateWindowDims = []) (hins : d.insertedWindowDims = [0, 1]) (hsd : d.scatterDimsToOperandDims = [0, 1]) (hivd : d.indexVectorDim = 1)
    (x : FVec Ideal ⟨2, ![N, M]⟩ .f32) (idx : IVec ⟨2, ![n, 2]⟩ w) (u : FVec Ideal ⟨1, ![n]⟩ .f32) (c : Fin N) (k : Fin M) :
    Host.scatterAdd d x idx u (ix2 c k)
      = x (ix2 c k) + ∑ e ∈ Finset.univ.filter (fun e : Fin n =>
          (idx (ix2 e (0 : Fin 2))).toInt = (c.val : ℤ) ∧ (idx (ix2 e (1 : Fin 2))).toInt = (k.val : ℤ)), u (ix1 e) := by
  show Ideal.hostScatterAdd d x idx u (ix2 c k) = _
  unfold Ideal.hostScatterAdd
  congr 1
  refine Finset.sum_bij' (fun jj _ => (jj 0 : Fin n)) (fun e _ => ix1 e) ?_ ?_ ?_ ?_ ?_
  · intro jj hjj
    have h2 := (Finset.mem_filter.1 hjj).2
    rw [eq_ix1 jj] at h2
    exact Finset.mem_filter.2 ⟨Finset.mem_univ _, (resultIdx?_pair d huw hins hsd hivd idx _ c k).1 h2⟩
  · intro e he
    exact Finset.mem_filter.2 ⟨Finset.mem_univ _, (resultIdx?_pair d huw hins hsd hivd idx e c k).2 (Finset.mem_filter.1 he).2⟩
  · intro jj _; exact (eq_ix1 jj).symm
  · intro e _; rfl
  · intro jj _; exact congrArg u (eq_ix1 jj)
end Cert.LibScatter2
-- ==== Proof.Spec.Norm.lean ====
import Idealize.ShloMosaic.PureOps.Ideal
import Mathlib.Algebra.BigOperators.Group.Finset.Basic
import Mathlib.Data.Fintype.BigOperators
namespace Cert.Spec
open Idealize.ShloMosaic
noncomputable def degOf {n N : ℕ} (col : Fin n → Fin N) (ew : Fin n → EReal) (i : Fin N) : EReal :=
  ∑ e ∈ Finset.univ.filter (fun e => col e = i), ew e
noncomputable def dinvOf {N : ℕ} (deg : Fin N → EReal) (i : Fin N) : EReal :=
  if 0 < deg i then Ideal.rsqrt (deg i) else 0
noncomputable def normOf {n N : ℕ} (row col : Fin n → Fin N) (ew : Fin n → EReal) (e : Fin n) : EReal :=
  dinvOf (degOf col ew) (row e) * ew e * dinvOf (degOf col ew) (col e)
noncomputable def lin {M K N : ℕ} (x : Fin M → Fin K → EReal) (w : Fin K → Fin N → EReal) (b : Fin N → EReal)
    (i : Fin M) (j : Fin N) : EReal :=
  (∑ t, x i t * w t j) + b j
end Cert.Spec
-- ==== Proof.Spec.Flash.lean ====
import Idealize.ShloMosaic.PureOps.Ideal
import Mathlib.Algebra.BigOperators.Group.Finset.Basic
import Mathlib.Data.Fintype.BigOperators
import Mathlib.Order.CompleteLattice.Finset
namespace Cert.Spec
open Idealize.ShloMosaic
structure FlashSt (D : ℕ) where
  m : EReal
  l : EReal
  acc : Fin D → EReal
noncomputable def flashInit (D : ℕ) : FlashSt D := ⟨⊥, 0, fun _ => 0⟩
noncomputable def flashStep {bk D : ℕ} (s : Fin bk → EReal) (v : Fin bk → Fin D → EReal) (st : FlashSt D) : FlashSt D :=
  ⟨max st.m (Finset.univ.sup s),
   Ideal.exp (st.m - max st.m (Finset.univ.sup s)) * st.l + ∑ t, Ideal.exp (s t - max st.m (Finset.univ.sup s)),
   fun d => Ideal.exp (st.m - max st.m (Finset.univ.sup s)) * st.acc d
            + ∑ t, Ideal.exp (s t - max st.m (Finset.univ.sup s)) * v t d⟩
noncomputable def flashFold {bk D : ℕ} (s : ℕ → Fin bk → EReal) (v : ℕ → Fin bk → Fin D → EReal) : ℕ → FlashSt D
  | 0 => flashInit D
  | n + 1 => flashStep (s n) (v n) (flashFold s v n)
noncomputable def flashOut {bk D : ℕ} (nb : ℕ) (s : ℕ → Fin bk → EReal) (v : ℕ → Fin bk → Fin D → EReal) (d : Fin D) : EReal :=
  Ideal.div ((flashFold s v nb).acc d) ((flashFold s v nb).l)
@[simp] theorem flashFold_zero {bk D : ℕ} (s : ℕ → Fin bk → EReal) (v : ℕ → Fin bk → Fin D → EReal) :
    flashFold s v 0 = flashInit D := rfl
@[simp] theorem flashFold_succ {bk D : ℕ} (s : ℕ → Fin bk → EReal) (v : ℕ → Fin bk → Fin D → EReal) (n : ℕ) :
    flashFold s v (n + 1) = flashStep (s n) (v n) (flashFold s v n) := rfl
end Cert.Spec
-- ==== Proof.Spec.KerSpec.lean ====
import proofs.«403157_j14328010899645_2_alg».proof.Proof.Spec.Norm
import proofs.«403157_j14328010899645_2_alg».proof.Proof.Spec.Flash
namespace Cert.Spec
open Idealize.ShloMosaic
noncomputable def adjOf {n N : ℕ} (row col : Fin n → Fin N) (nrm : Fin n → EReal) (i k : Fin N) : EReal :=
  ∑ e ∈ Finset.univ.filter (fun e => col e = i ∧ row e = k), nrm e
noncomputable def gcnKer {N K M : ℕ} (A : Fin N → Fin N → EReal) (x : Fin N → Fin K → EReal)
    (W : Fin K → Fin M → EReal) (b : Fin M → EReal) : Fin N → Fin M → EReal :=
  lin A (lin x W (fun _ => 0)) b
def headCol (hd : Fin 4) (d : Fin 64) : Fin 256 := ⟨hd.val * 64 + d.val, by omega⟩
def third (j : Fin 3) (c : Fin 256) : Fin 768 := ⟨j.val * 256 + c.val, by omega⟩
def headsOf (qkv : Fin 4096 → Fin 768 → EReal) (j : Fin 3) (hd : Fin 4) (l : Fin 4096) (d : Fin 64) : EReal :=
  qkv l (third j (headCol hd d))
def keyAt (kb : ℕ) (t : Fin 512) : Fin 4096 := ⟨(kb * 512 + t.val) % 4096, Nat.mod_lt _ (by norm_num)⟩
noncomputable def scoreKer (q k : Fin 4 → Fin 4096 → Fin 64 → EReal) (hd : Fin 4) (l : Fin 4096)
    (kb : ℕ) (t : Fin 512) : EReal :=
  (∑ d, q hd l d * k hd (keyAt kb t) d) * ((1 / 8 : ℝ) : EReal)
noncomputable def attnKer (q k v : Fin 4 → Fin 4096 → Fin 64 → EReal) (hd : Fin 4) (l : Fin 4096) (d : Fin 64) : EReal :=
  flashOut 8 (scoreKer q k hd l) (fun kb t d' => v hd (keyAt kb t) d') d
def mergeHeads (o : Fin 4 → Fin 4096 → Fin 64 → EReal) (l : Fin 4096) (c : Fin 256) : EReal :=
  o ⟨c.val / 64, by omega⟩ l ⟨c.val % 64, Nat.mod_lt _ (by norm_num)⟩
noncomputable def qkvOf (x : Fin 4096 → Fin 256 → EReal) (ipw : Fin 768 → Fin 256 → EReal) (ipb : Fin 768 → EReal) :
    Fin 4096 → Fin 768 → EReal :=
  lin x (fun t c => ipw c t) ipb
noncomputable def mhaKer (x : Fin 4096 → Fin 256 → EReal) (ipw : Fin 768 → Fin 256 → EReal) (ipb : Fin 768 → EReal)
    (opw : Fin 256 → Fin 256 → EReal) (opb : Fin 256 → EReal) : Fin 4096 → Fin 256 → EReal :=
  lin (mergeHeads (attnKer (headsOf (qkvOf x ipw ipb) 0) (headsOf (qkvOf x ipw ipb) 1) (headsOf (qkvOf x ipw ipb) 2)))
    (fun t c => opw c t) opb
noncomputable def reluOf {M N : ℕ} (x : Fin M → Fin N → EReal) (i : Fin M) (j : Fin N) : EReal := max (x i j) 0
noncomputable def KerSpec (x : Fin 4096 → Fin 256 → EReal) (row col : Fin 266240 → Fin 4096) (ew : Fin 266240 → EReal)
    (W1 : Fin 256 → Fin 256 → EReal) (b1 : Fin 256 → EReal) (W2 : Fin 256 → Fin 256 → EReal) (b2 : Fin 256 → EReal)
    (W3 : Fin 256 → Fin 128 → EReal) (b3 : Fin 128 → EReal)
    (ipw : Fin 768 → Fin 256 → EReal) (ipb : Fin 768 → EReal) (opw : Fin 256 → Fin 256 → EReal) (opb : Fin 256 → EReal)
    (i : Fin 4096) (j : Fin 128) : EReal :=
  Ideal.logistic
    (gcnKer (adjOf row col (normOf row col ew))
      (reluOf (mhaKer
        (gcnKer (adjOf row col (normOf row col ew))
          (reluOf (mhaKer (gcnKer (adjOf row col (normOf row col ew)) x W1 b1) ipw ipb opw opb))
          W2 b2)
        ipw ipb opw opb))
      W3 b3 i j)
end Cert.Spec
-- ==== Proof.Spec.RefSpec.lean ====
import proofs.«403157_j14328010899645_2_alg».proof.Proof.Spec.KerSpec
namespace Cert.Spec
open Idealize.ShloMosaic
def idxOfWord (w : BitVec 32) : Fin 4096 := ⟨min w.toInt.toNat 4095, by omega⟩
def extIdx (r : Fin 262144 → BitVec 32) (e : Fin 266240) : Fin 4096 :=
  if h : e.val < 262144 then idxOfWord (r ⟨e.val, h⟩) else ⟨e.val - 262144, by omega⟩
noncomputable def extW (w : Fin 262144 → EReal) (e : Fin 266240) : EReal :=
  if h : e.val < 262144 then w ⟨e.val, h⟩ else 1
noncomputable def gcnRef {n N K M : ℕ} (row col : Fin n → Fin N) (nrm : Fin n → EReal) (x : Fin N → Fin K → EReal)
    (W : Fin K → Fin M → EReal) (b : Fin M → EReal) (i : Fin N) (j : Fin M) : EReal :=
  (∑ e ∈ Finset.univ.filter (fun e => col e = i), nrm e * ∑ t, x (row e) t * W t j) + b j
noncomputable def scoreRef (q k : Fin 4 → Fin 4096 → Fin 64 → EReal) (hd : Fin 4) (l m : Fin 4096) : EReal :=
  Ideal.div (∑ d, q hd l d * k hd m d) 8
noncomputable def softmaxOf {n : ℕ} (s : Fin n → EReal) (m : Fin n) : EReal :=
  Ideal.div (Ideal.exp (s m - Finset.univ.sup s)) (∑ t, Ideal.exp (s t - Finset.univ.sup s))
noncomputable def attnRef (q k v : Fin 4 → Fin 4096 → Fin 64 → EReal) (hd : Fin 4) (l : Fin 4096) (d : Fin 64) : EReal :=
  ∑ m, softmaxOf (scoreRef q k hd l) m * v hd m d
noncomputable def mhaRef (x : Fin 4096 → Fin 256 → EReal) (ipw : Fin 768 → Fin 256 → EReal) (ipb : Fin 768 → EReal)
    (opw : Fin 256 → Fin 256 → EReal) (opb : Fin 256 → EReal) : Fin 4096 → Fin 256 → EReal :=
  lin (mergeHeads (attnRef (headsOf (qkvOf x ipw ipb) 0) (headsOf (qkvOf x ipw ipb) 1) (headsOf (qkvOf x ipw ipb) 2)))
    (fun t c => opw c t) opb
noncomputable def RefSpec (x : Fin 4096 → Fin 256 → EReal) (row col : Fin 266240 → Fin 4096) (ew : Fin 266240 → EReal)
    (W1 : Fin 256 → Fin 256 → EReal) (b1 : Fin 256 → EReal) (W2 : Fin 256 → Fin 256 → EReal) (b2 : Fin 256 → EReal)
    (W3 : Fin 256 → Fin 128 → EReal) (b3 : Fin 128 → EReal)
    (ipw : Fin 768 → Fin 256 → EReal) (ipb : Fin 768 → EReal) (opw : Fin 256 → Fin 256 → EReal) (opb : Fin 256 → EReal)
    (i : Fin 4096) (j : Fin 128) : EReal :=
  Ideal.logistic
    (gcnRef row col (normOf row col ew)
      (reluOf (mhaRef
        (gcnRef row col (normOf row col ew)
          (reluOf (mhaRef (gcnRef row col (normOf row col ew) x W1 b1) ipw ipb opw opb))
          W2 b2)
        ipw ipb opw opb))
      W3 b3 i j)
end Cert.Spec
-- ==== Proof.Ideal.Glue0Idx.lean ====
import proofs.«403157_j14328010899645_2_alg».proof.Proof.Ideal.Glue0
import proofs.«403157_j14328010899645_2_alg».proof.Proof.LibScatter2
import proofs.«403157_j14328010899645_2_alg».proof.Proof.Spec.RefSpec
set_option maxRecDepth 16384
noncomputable section
namespace Cert.KernelIdeal.Hand
open Cert.KernelIdeal Cert.KernelIdeal.Gen
open Idealize.ShloMosaic Idealize.ShloMosaic.TcCoe Idealize.ShloMosaic.ValueIdx Idealize.ShloMosaic.StableHlo
def dinvArr {F : FTy → Type} [FloatOps F] (a1 : IVec S2x262144 32) (a2 : FVec F S262144 .f32) : FVec F S4096 .f32 :=
  select (cmpf .ogt (degArr a1 a2) (broadcastInDim S4096 ![] bcast_S_S4096 (constant S_ .f32 0x00000000#32)))
    (Host.rsqrt (degArr a1 a2)) (broadcastInDim S4096 ![] bcast_S_S4096 (constant S_ .f32 0x00000000#32))
section AtIdeal
theorem ends0_apply (a1 : IVec S2x262144 32) (e : Fin 266240) :
    ends0 a1 (ix1 e) = if h : e.val < 262144 then a1 (ix2 (0 : Fin 2) ⟨e.val, h⟩) else BitVec.ofNat 32 (e.val - 262144) := by
  unfold ends0
  by_cases h : e.val < 262144
  · rw [dif_pos h]
    refine (concatenate_pair_apply_left (t := S266240) (s₁ := S262144) (s₂ := S4096) (0 : Fin 1) _ _ concatenates_S262144_S4096_S266240_d0 (ix1 e) rfl (ix1 (⟨e.val, h⟩ : Fin 262144))
      (fun b => by match b with | ⟨0, _⟩ => rfl)).trans ?_
    refine (shapeCast_apply _ shapeCasts_S1x262144_S262144 (ix1 (⟨e.val, h⟩ : Fin 262144)) (ix2 (0 : Fin 1) (⟨e.val, h⟩ : Fin 262144))
      (by rw [Shape.rowMajor_val_two, Shape.rowMajor_val_one]; show 0 * 262144 + e.val = e.val; omega)).trans ?_
    exact extractStridedSlice_apply _ _ slices_S2x262144_S1x262144_0_0 _ (ix2 (0 : Fin 2) (⟨e.val, h⟩ : Fin 262144))
      (fun a => match a with
        | ⟨0, _⟩ => by show 0 = 0 + 0; omega
        | ⟨1, _⟩ => by show e.val = 0 + e.val; omega)
  · rw [dif_neg h]
    have he := e.isLt
    refine (concatenate_pair_apply_right (t := S266240) (s₁ := S262144) (s₂ := S4096) (0 : Fin 1) _ _ concatenates_S262144_S4096_S266240_d0 (ix1 e) rfl rfl (ix1 (⟨e.val - 262144, by omega⟩ : Fin 4096))
      (fun b hb => by match b with | ⟨0, _⟩ => exact absurd rfl hb)
      (by show e.val - 262144 + 262144 = e.val; omega)).trans ?_
    rfl
theorem ends1_apply (a1 : IVec S2x262144 32) (e : Fin 266240) :
    ends1 a1 (ix1 e) = if h : e.val < 262144 then a1 (ix2 (1 : Fin 2) ⟨e.val, h⟩) else BitVec.ofNat 32 (e.val - 262144) := by
  unfold ends1
  by_cases h : e.val < 262144
  · rw [dif_pos h]
    refine (concatenate_pair_apply_left (t := S266240) (s₁ := S262144) (s₂ := S4096) (0 : Fin 1) _ _ concatenates_S262144_S4096_S266240_d0 (ix1 e) rfl (ix1 (⟨e.val, h⟩ : Fin 262144))
      (fun b => by match b with | ⟨0, _⟩ => rfl)).trans ?_
    refine (shapeCast_apply _ shapeCasts_S1x262144_S262144 (ix1 (⟨e.val, h⟩ : Fin 262144)) (ix2 (0 : Fin 1) (⟨e.val, h⟩ : Fin 262144))
      (by rw [Shape.rowMajor_val_two, Shape.rowMajor_val_one]; show 0 * 262144 + e.val = e.val; omega)).trans ?_
    exact extractStridedSlice_apply _ _ slices_S2x262144_S1x262144_1_0 _ (ix2 (1 : Fin 2) (⟨e.val, h⟩ : Fin 262144))
      (fun a => match a with
        | ⟨0, _⟩ => by show 1 = 1 + 0; omega
        | ⟨1, _⟩ => by show e.val = 0 + e.val; omega)
  · rw [dif_neg h]
    have he := e.isLt
    refine (concatenate_pair_apply_right (t := S266240) (s₁ := S262144) (s₂ := S4096) (0 : Fin 1) _ _ concatenates_S262144_S4096_S266240_d0 (ix1 e) rfl rfl (ix1 (⟨e.val - 262144, by omega⟩ : Fin 4096))
      (fun b hb => by match b with | ⟨0, _⟩ => exact absurd rfl hb)
      (by show e.val - 262144 + 262144 = e.val; omega)).trans ?_
    rfl
theorem ewf_apply (a2 : FVec Ideal S262144 .f32) (e : Fin 266240) :
    ewf a2 (ix1 e) = Cert.Spec.extW (fun t => a2 (ix1 t)) e := by
  unfold ewf Cert.Spec.extW
  by_cases h : e.val < 262144
  · rw [dif_pos h]
    exact concatenate_pair_apply_left (t := S266240) (s₁ := S262144) (s₂ := S4096) (0 : Fin 1) _ _ concatenates_S262144_S4096_S266240_d0 (ix1 e) rfl (ix1 (⟨e.val, h⟩ : Fin 262144))
      (fun b => by match b with | ⟨0, _⟩ => rfl)
  · rw [dif_neg h]
    have he := e.isLt
    refine (concatenate_pair_apply_right (t := S266240) (s₁ := S262144) (s₂ := S4096) (0 : Fin 1) _ _ concatenates_S262144_S4096_S266240_d0 (ix1 e) rfl rfl (ix1 (⟨e.val - 262144, by omega⟩ : Fin 4096))
      (fun b hb => by match b with | ⟨0, _⟩ => exact absurd rfl hb)
      (by show e.val - 262144 + 262144 = e.val; omega)).trans ?_
    show Ideal.ofBits .f32 0x3F800000#32 = 1
    exact Ideal.ofBits_one_f32
theorem ext_word_val (r : Fin 262144 → BitVec 32) (hr : ∀ t, 0 ≤ (r t).toInt ∧ (r t).toInt < 4096) (e : Fin 266240) :
    ((if h : e.val < 262144 then r ⟨e.val, h⟩ else BitVec.ofNat 32 (e.val - 262144) : BitVec 32)).toInt
      = ((Cert.Spec.extIdx r e).val : ℤ) := by
  unfold Cert.Spec.extIdx
  by_cases h : e.val < 262144
  · rw [dif_pos h, dif_pos h]
    obtain ⟨h0, h1⟩ := hr ⟨e.val, h⟩
    have h2 := Int.toNat_of_nonneg h0
    show (r ⟨e.val, h⟩).toInt = ((min (r ⟨e.val, h⟩).toInt.toNat 4095 : ℕ) : ℤ)
    omega
  · rw [dif_neg h, dif_neg h]
    have he := e.isLt
    show (BitVec.ofNat 32 (e.val - 262144)).toInt = ((e.val - 262144 : ℕ) : ℤ)
    have hm : (e.val - 262144) % 2 ^ 32 = e.val - 262144 := Nat.mod_eq_of_lt (by omega)
    rw [BitVec.toInt_eq_toNat_cond, BitVec.toNat_ofNat, hm]
    split <;> omega
variable (a1 : IVec S2x262144 32) (a2 : FVec Ideal S262144 .f32)
theorem ends0_val (hr : ∀ i, 0 ≤ (a1 i).toInt ∧ (a1 i).toInt < 4096) (e : Fin 266240) :
    (ends0 a1 (ix1 e)).toInt = (((Cert.Spec.extIdx (fun t => a1 (ix2 (0 : Fin 2) t))) e).val : ℤ) := by
  rw [ends0_apply]
  exact ext_word_val (fun t => a1 (ix2 (0 : Fin 2) t)) (fun t => hr _) e
theorem ends1_val (hr : ∀ i, 0 ≤ (a1 i).toInt ∧ (a1 i).toInt < 4096) (e : Fin 266240) :
    (ends1 a1 (ix1 e)).toInt = (((Cert.Spec.extIdx (fun t => a1 (ix2 (1 : Fin 2) t))) e).val : ℤ) := by
  rw [ends1_apply]
  exact ext_word_val (fun t => a1 (ix2 (1 : Fin 2) t)) (fun t => hr _) e
theorem ends0_nonneg (hr : ∀ i, 0 ≤ (a1 i).toInt ∧ (a1 i).toInt < 4096) (e : Fin 266240) : 0 ≤ (ends0 a1 (ix1 e)).toInt := by
  rw [ends0_val a1 hr e]; exact Int.natCast_nonneg _
theorem ends1_nonneg (hr : ∀ i, 0 ≤ (a1 i).toInt ∧ (a1 i).toInt < 4096) (e : Fin 266240) : 0 ≤ (ends1 a1 (ix1 e)).toInt := by
  rw [ends1_val a1 hr e]; exact Int.natCast_nonneg _
theorem colOf_apply (x : IVec S266240 32) (e : Fin 266240) (z : Fin 1) : colOf x (ix2 e z) = x (ix1 e) := by
  unfold colOf
  exact broadcastInDim_apply _ bcast_S266240_S266240x1_0 x (ix2 e z) (ix1 e)
    (fun a => match a with | ⟨0, _⟩ => by show e.val = if (266240 : ℕ) = 1 then 0 else e.val; rw [if_neg (by decide)])
theorem wrapIdx_apply (x : IVec S266240 32) (e : Fin 266240) (h : 0 ≤ (x (ix1 e)).toInt) : wrapIdx x (ix1 e) = x (ix1 e) := by
  have hs : (x (ix1 e)).slt 0#32 = false := by
    have e0 : (0#32 : BitVec 32).toInt = 0 := by decide
    simp only [BitVec.slt, e0, decide_eq_false_iff_not, not_lt]
    exact h
  have hc : IntOp.cmpi .slt (x (ix1 e)) (0#32) = 0#1 := by
    show BitVec.ofBool ((x (ix1 e)).slt 0#32) = 0#1
    rw [hs]; rfl
  show Scalar.select (IntOp.cmpi .slt (x (ix1 e)) (0#32)) (IntOp.addi (x (ix1 e)) (4096#32)) (x (ix1 e)) = x (ix1 e)
  rw [hc]; exact select_zero _ _
theorem degArr_spec (hr : ∀ i, 0 ≤ (a1 i).toInt ∧ (a1 i).toInt < 4096) (i : Fin 4096) :
    degArr a1 a2 (ix1 i) = Cert.Spec.degOf (Cert.Spec.extIdx (fun t => a1 (ix2 (1 : Fin 2) t))) (Cert.Spec.extW (fun t => a2 (ix1 t))) i := by
  unfold degArr Cert.Spec.degOf
  rw [Cert.LibGatherScatter.scatterAdd_vec scatter_S4096_S266240x1_S266240_n_0_0_1 rfl rfl rfl rfl]
  have hz : (broadcastInDim S4096 ![] bcast_S_S4096 (constant (F := Ideal) S_ .f32 0x00000000#32)) (ix1 i) = 0 :=
    Ideal.ofBits_zero_f32
  rw [hz, zero_add]
  refine Finset.sum_congr (Finset.filter_congr fun e _ => ?_) (fun e _ => ewf_apply a2 e)
  rw [colOf_apply, ends1_val a1 hr e]
  constructor
  · intro h; exact Fin.ext (by exact_mod_cast h)
  · intro h; rw [h]
theorem dinv_sel (D : FVec Ideal S4096 .f32) (i : Fin 4096) :
    select (cmpf .ogt D (broadcastInDim S4096 ![] bcast_S_S4096 (constant (F := Ideal) S_ .f32 0x00000000#32))) (Host.rsqrt D) (broadcastInDim S4096 ![] bcast_S_S4096 (constant (F := Ideal) S_ .f32 0x00000000#32)) (ix1 i)
      = if 0 < D (ix1 i) then Ideal.rsqrt (D (ix1 i)) else 0 := by
  have hz : (broadcastInDim S4096 ![] bcast_S_S4096 (constant (F := Ideal) S_ .f32 0x00000000#32)) (ix1 i) = 0 := Ideal.ofBits_zero_f32
  have e : select (cmpf .ogt D (broadcastInDim S4096 ![] bcast_S_S4096 (constant (F := Ideal) S_ .f32 0x00000000#32))) (Host.rsqrt D) (broadcastInDim S4096 ![] bcast_S_S4096 (constant (F := Ideal) S_ .f32 0x00000000#32)) (ix1 i)
      = Scalar.select (Ideal.cmp .ogt (D (ix1 i)) ((broadcastInDim S4096 ![] bcast_S_S4096 (constant (F := Ideal) S_ .f32 0x00000000#32)) (ix1 i))) (Ideal.rsqrt (D (ix1 i))) ((broadcastInDim S4096 ![] bcast_S_S4096 (constant (F := Ideal) S_ .f32 0x00000000#32)) (ix1 i)) := rfl
  rw [e, hz]
  by_cases h : 0 < D (ix1 i)
  · rw [if_pos h]
    have hc : Ideal.cmp .ogt (D (ix1 i)) 0 = 1#1 := by simp [Ideal.cmp, h]
    rw [hc]; exact select_one _ _
  · rw [if_neg h]
    have hc : Ideal.cmp .ogt (D (ix1 i)) 0 = 0#1 := by simp [Ideal.cmp, h]
    rw [hc]; exact select_zero _ _
theorem dinvArr_spec (hr : ∀ i, 0 ≤ (a1 i).toInt ∧ (a1 i).toInt < 4096) (i : Fin 4096) :
    dinvArr a1 a2 (ix1 i) = Cert.Spec.dinvOf (Cert.Spec.degOf (Cert.Spec.extIdx (fun t => a1 (ix2 (1 : Fin 2) t))) (Cert.Spec.extW (fun t => a2 (ix1 t)))) i := by
  unfold dinvArr Cert.Spec.dinvOf
  rw [dinv_sel (degArr a1 a2) i, degArr_spec a1 a2 hr i]
theorem gatherCol_apply (v : FVec Ideal S4096 .f32) (y : IVec S266240 32) (e : Fin 266240) (n : Fin 4096)
    (hy : (y (ix1 e)).toInt = (n.val : ℤ)) :
    Host.gather gather_S4096_S266240x1_S266240_n_0_n_n_0_1_1 v (colOf y) (ix1 e) = v (ix1 n) := by
  refine (Cert.LibScatter2.gather_vec gather_S4096_S266240x1_S266240_n_0_n_n_0_1_1 rfl rfl rfl rfl rfl rfl v (colOf y) e (by norm_num)).trans ?_
  refine congrArg (fun q : Fin 4096 => v (ix1 q)) (Fin.ext ?_)
  show min ((colOf y (ix2 e (0 : Fin 1))).toInt.toNat) (4096 - 1) = n.val
  rw [colOf_apply, hy, Int.toNat_natCast]
  have := n.isLt
  omega
theorem normArr_spec (hr : ∀ i, 0 ≤ (a1 i).toInt ∧ (a1 i).toInt < 4096) (e : Fin 266240) :
    normArr (ends0 a1) (ends1 a1) (ewf a2) (dinvArr a1 a2) (ix1 e)
      = Cert.Spec.normOf (Cert.Spec.extIdx (fun t => a1 (ix2 (0 : Fin 2) t))) (Cert.Spec.extIdx (fun t => a1 (ix2 (1 : Fin 2) t))) (Cert.Spec.extW (fun t => a2 (ix1 t))) e := by
  unfold normArr Cert.Spec.normOf
  show (Host.gather gather_S4096_S266240x1_S266240_n_0_n_n_0_1_1 (dinvArr a1 a2) (colOf (wrapIdx (ends0 a1))) (ix1 e) * ewf a2 (ix1 e))
      * Host.gather gather_S4096_S266240x1_S266240_n_0_n_n_0_1_1 (dinvArr a1 a2) (colOf (wrapIdx (ends1 a1))) (ix1 e) = _
  rw [gatherCol_apply (dinvArr a1 a2) (wrapIdx (ends0 a1)) e ((Cert.Spec.extIdx (fun t => a1 (ix2 (0 : Fin 2) t))) e)
        (by rw [wrapIdx_apply _ _ (ends0_nonneg a1 hr e), ends0_val a1 hr e]),
      gatherCol_apply (dinvArr a1 a2) (wrapIdx (ends1 a1)) e ((Cert.Spec.extIdx (fun t => a1 (ix2 (1 : Fin 2) t))) e)
        (by rw [wrapIdx_apply _ _ (ends1_nonneg a1 hr e), ends1_val a1 hr e]),
      dinvArr_spec a1 a2 hr, dinvArr_spec a1 a2 hr, ewf_apply]
theorem pairsOf_apply0 (v5 v6 : IVec S266240 32) (e : Fin 266240) : pairsOf v5 v6 (ix2 e (0 : Fin 2)) = wrapIdx v6 (ix1 e) := by
  unfold pairsOf
  refine (concatenate_pair_apply_left (t := S266240x2) (s₁ := S266240x1) (s₂ := S266240x1) (1 : Fin 2) _ _ concatenates_S266240x1_S266240x1_S266240x2_d1 (ix2 e (0 : Fin 2)) rfl (ix2 e (0 : Fin 1))
    (fun b => by match b with | ⟨0, _⟩ => rfl | ⟨1, _⟩ => rfl)).trans ?_
  exact colOf_apply _ e 0
theorem pairsOf_apply1 (v5 v6 : IVec S266240 32) (e : Fin 266240) : pairsOf v5 v6 (ix2 e (1 : Fin 2)) = wrapIdx v5 (ix1 e) := by
  unfold pairsOf
  refine (concatenate_pair_apply_right (t := S266240x2) (s₁ := S266240x1) (s₂ := S266240x1) (1 : Fin 2) _ _ concatenates_S266240x1_S266240x1_S266240x2_d1 (ix2 e (1 : Fin 2)) rfl rfl (ix2 e (0 : Fin 1))
    (fun b hb => by match b with | ⟨0, _⟩ => rfl | ⟨1, _⟩ => exact absurd rfl hb)
    (by rfl)).trans ?_
  exact colOf_apply _ e 0
theorem adjArr_spec (hr : ∀ i, 0 ≤ (a1 i).toInt ∧ (a1 i).toInt < 4096) (i k : Fin 4096) :
    adjArr (ends0 a1) (ends1 a1) (ewf a2) (dinvArr a1 a2) (ix2 i k)
      = Cert.Spec.adjOf (Cert.Spec.extIdx (fun t => a1 (ix2 (0 : Fin 2) t))) (Cert.Spec.extIdx (fun t => a1 (ix2 (1 : Fin 2) t))) (Cert.Spec.normOf (Cert.Spec.extIdx (fun t => a1 (ix2 (0 : Fin 2) t))) (Cert.Spec.extIdx (fun t => a1 (ix2 (1 : Fin 2) t))) (Cert.Spec.extW (fun t => a2 (ix1 t)))) i k := by
  unfold adjArr Cert.Spec.adjOf
  show Host.scatterAdd scatter_S4096x4096_S266240x2_S266240_n_01_01_1
      (broadcastInDim S4096x4096 ![] bcast_S_S4096x4096 (constant (F := Ideal) S_ .f32 0x00000000#32))
      (pairsOf (ends0 a1) (ends1 a1)) (normArr (ends0 a1) (ends1 a1) (ewf a2) (dinvArr a1 a2)) (ix2 i k) = _
  rw [Cert.LibScatter2.scatterAdd_pair scatter_S4096x4096_S266240x2_S266240_n_01_01_1 rfl rfl rfl rfl]
  have hz : (broadcastInDim S4096x4096 ![] bcast_S_S4096x4096 (constant (F := Ideal) S_ .f32 0x00000000#32)) (ix2 i k) = 0 :=
    Ideal.ofBits_zero_f32
  rw [hz, zero_add]
  refine Finset.sum_congr (Finset.filter_congr fun e _ => ?_) (fun e _ => normArr_spec a1 a2 hr e)
  rw [pairsOf_apply0, pairsOf_apply1, wrapIdx_apply _ _ (ends1_nonneg a1 hr e), wrapIdx_apply _ _ (ends0_nonneg a1 hr e),
    ends1_val a1 hr e, ends0_val a1 hr e]
  constructor
  · rintro ⟨h1, h2⟩; exact ⟨Fin.ext (by exact_mod_cast h1), Fin.ext (by exact_mod_cast h2)⟩
  · rintro ⟨h1, h2⟩; rw [h1, h2]; exact ⟨rfl, rfl⟩
end AtIdeal
end Cert.KernelIdeal.Hand
-- ==== Proof.Ideal.Glue4.lean ====
import proofs.«403157_j14328010899645_2_alg».proof.Proof.Gen.KernelIdeal.Launch
import proofs.«403157_j14328010899645_2_alg».proof.Proof.Spec.KerSpec
import Idealize.ShloMosaic.Lib.StableHlo.Run
import Idealize.ShloMosaic.Lib.Pipeline.Value
import Idealize.ShloMosaic.Lib.IdealHost
import Idealize.ShloMosaic.Lib.ValueLayout
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.ValueIdx Idealize.ShloMosaic.StableHlo
variable {F : FTy → Type} [FloatOps F]
variable (W : Valuation τ sig (Elt F))
def mergeOf (o : FVec F S4x4096x64 .bf16) : FVec F S4096x256 .bf16 :=
  fun i => shapeCast S4096x256 (transpose S4096x4x64 [1, 0, 2] o transposes_S4x4096x64_S4096x4x64_1_0_2) shapeCasts_S4096x4x64_S4096x256 i
def rowOf (b : FVec F S256 .f32) : FVec F S1x256 .f32 :=
  fun i => shapeCast S1x256 b shapeCasts_S256_S1x256 i
theorem g4_v67 : StableHlo.after (hostOps4 (F := F)) W (Proc.devRef .tc main_v67) = mergeOf (W (Proc.devRef .tc main_v65)) := by
  after_results; rfl
theorem g4_v68 : StableHlo.after (hostOps4 (F := F)) W (Proc.devRef .tc main_v68) = rowOf (W (Proc.devRef .tc main_arg12)) := by
  after_results; rfl
theorem g9_v87 : StableHlo.after (hostOps9 (F := F)) W (Proc.devRef .tc main_v87) = mergeOf (W (Proc.devRef .tc main_v85)) := by
  after_results; rfl
theorem g9_v88 : StableHlo.after (hostOps9 (F := F)) W (Proc.devRef .tc main_v88) = rowOf (W (Proc.devRef .tc main_arg12)) := by
  after_results; rfl
theorem mergeOf_apply (o : FVec F S4x4096x64 .bf16) (l : Fin 4096) (c : Fin 256) :
    mergeOf o (ix2 l c) = o (ix3 (⟨c.val / 64, by omega⟩ : Fin 4) l (⟨c.val % 64, Nat.mod_lt _ (by norm_num)⟩ : Fin 64)) := by
  have hc : c.val < 256 := c.isLt
  unfold mergeOf
  refine (shapeCast_apply _ _ _ (ix3 l (⟨c.val / 64, by omega⟩ : Fin 4) (⟨c.val % 64, Nat.mod_lt _ (by norm_num)⟩ : Fin 64))
    (by rw [Shape.rowMajor_val_two, Shape.rowMajor_val_three]
        show (l.val * 4 + c.val / 64) * 64 + c.val % 64 = l.val * 256 + c.val
        omega)).trans ?_
  exact transpose_apply _ _ _ _ (ix3 (⟨c.val / 64, by omega⟩ : Fin 4) l (⟨c.val % 64, Nat.mod_lt _ (by norm_num)⟩ : Fin 64))
    (fun b => match b with | ⟨0, _⟩ => rfl | ⟨1, _⟩ => rfl | ⟨2, _⟩ => rfl)
theorem rowOf_apply (b : FVec F S256 .f32) (z : Fin 1) (j : Fin 256) : rowOf b (ix2 z j) = b (ix1 j) := by
  have hz : z.val < 1 := z.isLt
  unfold rowOf
  exact shapeCast_apply _ _ _ (ix1 j)
    (by rw [Shape.rowMajor_val_one, Shape.rowMajor_val_two]
        show j.val = z.val * 256 + j.val
        omega)
end Cert.KernelIdeal.Hand
end
-- ==== Proof.Ideal.GlueBias.lean ====
import proofs.«403157_j14328010899645_2_alg».proof.Proof.Gen.KernelIdeal.Launch
import proofs.«403157_j14328010899645_2_alg».proof.Proof.Ideal.Glue4
import Idealize.ShloMosaic.Lib.StableHlo.Run
import Idealize.ShloMosaic.Lib.Pipeline.Value
import Idealize.ShloMosaic.Lib.IdealHost
import Idealize.ShloMosaic.Lib.ValueLayout
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.ValueIdx Idealize.ShloMosaic.StableHlo
variable {F : FTy → Type} [FloatOps F]
variable (W : Valuation τ sig (Elt F))
def row768Of (b : FVec F S768 .f32) : FVec F S1x768 .f32 :=
  fun i => shapeCast S1x768 b shapeCasts_S768_S1x768 i
def row128Of (b : FVec F S128 .f32) : FVec F S1x128 .f32 :=
  fun i => shapeCast S1x128 b shapeCasts_S128_S1x128 i
theorem g1_v52 : StableHlo.after (hostOps1 (F := F)) W (Proc.devRef .tc main_v52) = rowOf (W (Proc.devRef .tc main_arg4)) := by
  after_results <;> rfl
theorem g6_v72 : StableHlo.after (hostOps6 (F := F)) W (Proc.devRef .tc main_v72) = rowOf (W (Proc.devRef .tc main_arg6)) := by
  after_results <;> rfl
theorem g2_v54 : StableHlo.after (hostOps2 (F := F)) W (Proc.devRef .tc main_v54) = row768Of (W (Proc.devRef .tc main_arg10)) := by
  after_results <;> rfl
theorem g7_v74 : StableHlo.after (hostOps7 (F := F)) W (Proc.devRef .tc main_v74) = row768Of (W (Proc.devRef .tc main_arg10)) := by
  after_results <;> rfl
theorem g11_v92 : StableHlo.after (hostOps11 (F := F)) W (Proc.devRef .tc main_v92) = row128Of (W (Proc.devRef .tc main_arg8)) := by
  after_results <;> rfl
theorem g5_v70 : StableHlo.after (hostOps5 (F := F)) W (Proc.devRef .tc main_v70)
    = broadcastInDim S1x256 ![] bcast_S_S1x256 (constant S_ .f32 0x00000000#32) := by
  after_results <;> rfl
theorem g10_v90 : StableHlo.after (hostOps10 (F := F)) W (Proc.devRef .tc main_v90)
    = broadcastInDim S1x128 ![] bcast_S_S1x128 (constant S_ .f32 0x00000000#32) := by
  after_results <;> rfl
theorem row768Of_apply (b : FVec F S768 .f32) (z : Fin 1) (j : Fin 768) : row768Of b (ix2 z j) = b (ix1 j) := by
  have hz : z.val < 1 := z.isLt
  unfold row768Of
  exact shapeCast_apply _ _ _ (ix1 j)
    (by rw [Shape.rowMajor_val_one, Shape.rowMajor_val_two]
        show j.val = z.val * 768 + j.val
        omega)
theorem row128Of_apply (b : FVec F S128 .f32) (z : Fin 1) (j : Fin 128) : row128Of b (ix2 z j) = b (ix1 j) := by
  have hz : z.val < 1 := z.isLt
  unfold row128Of
  exact shapeCast_apply _ _ _ (ix1 j)
    (by rw [Shape.rowMajor_val_one, Shape.rowMajor_val_two]
        show j.val = z.val * 128 + j.val
        omega)
end Cert.KernelIdeal.Hand
end
-- ==== Proof.Ideal.WalkGcn.lean ====
import proofs.«403157_j14328010899645_2_alg».proof.Proof.Ideal.RunArgs
import proofs.«403157_j14328010899645_2_alg».proof.Proof.Ideal.MatmulValue0
import proofs.«403157_j14328010899645_2_alg».proof.Proof.Ideal.MatmulValue1
import proofs.«403157_j14328010899645_2_alg».proof.Proof.Ideal.MatmulValue5
import proofs.«403157_j14328010899645_2_alg».proof.Proof.Ideal.MatmulValue6
import proofs.«403157_j14328010899645_2_alg».proof.Proof.Ideal.MatmulValue10
import proofs.«403157_j14328010899645_2_alg».proof.Proof.Ideal.MatmulValue11
import proofs.«403157_j14328010899645_2_alg».proof.Proof.Ideal.Glue0
import proofs.«403157_j14328010899645_2_alg».proof.Proof.Ideal.Glue0A
import proofs.«403157_j14328010899645_2_alg».proof.Proof.Ideal.Glue0Idx
import proofs.«403157_j14328010899645_2_alg».proof.Proof.Ideal.Glue4
import proofs.«403157_j14328010899645_2_alg».proof.Proof.Ideal.GlueBias
import proofs.«403157_j14328010899645_2_alg».proof.Proof.Spec.RefSpec
set_option maxRecDepth 16384
noncomputable section
namespace Cert.KernelIdeal.Hand
open Cert.KernelIdeal Cert.KernelIdeal.Gen
open Idealize.ShloMosaic Idealize.ShloMosaic.TcCoe Idealize.ShloMosaic.ValueIdx Idealize.ShloMosaic.StableHlo Idealize.SL.Sem
open scoped BigOperators
theorem gcn_core {K M : ℕ} (A : Fin 4096 → Fin 4096 → EReal) (x : Fin 4096 → Fin K → EReal) (Wt : Fin K → Fin M → EReal) (bv : Fin M → EReal)
    (aA : (⟨2, ![4096, 4096]⟩ : Shape).Idx → EReal) (ah : (⟨2, ![4096, M]⟩ : Shape).Idx → EReal) (ab : (⟨2, ![1, M]⟩ : Shape).Idx → EReal)
    (ax : (⟨2, ![4096, K]⟩ : Shape).Idx → EReal) (aw : (⟨2, ![K, M]⟩ : Shape).Idx → EReal) (az : (⟨2, ![1, M]⟩ : Shape).Idx → EReal)
    (hA : ∀ i k, aA (ix2 i k) = A i k)
    (hh : ∀ k j, ah (ix2 k j) = (∑ t : Fin K, ax (ix2 k t) * aw (ix2 t j)) + az (ix2 0 j))
    (hx : ∀ k t, ax (ix2 k t) = x k t) (hw : ∀ t j, aw (ix2 t j) = Wt t j) (hz : ∀ j, az (ix2 0 j) = 0) (hb : ∀ j, ab (ix2 0 j) = bv j)
    (i : Fin 4096) (j : Fin M) :
    (∑ k : Fin 4096, aA (ix2 i k) * ah (ix2 k j)) + ab (ix2 0 j) = Cert.Spec.gcnKer A x Wt bv i j := by
  show (∑ k : Fin 4096, aA (ix2 i k) * ah (ix2 k j)) + ab (ix2 0 j) = (∑ k : Fin 4096, A i k * ((∑ t : Fin K, x k t * Wt t j) + 0)) + bv j
  rw [hb j]
  refine congrArg (· + bv j) (Finset.sum_congr rfl fun k _ => ?_)
  rw [hA i k, hh k j, hz j]
  refine congrArg (fun s => A i k * (s + 0)) (Finset.sum_congr rfl fun t _ => ?_)
  rw [hx k t, hw t j]
variable (m : (ℓ : Loc nD τ sig) → Buf (Elt Ideal) ℓ) (ρ : Dev nD → PrngReg)
theorem W3_arg0 (c : Dev nD) : W3 (F := Ideal) m ρ c (Proc.devRef .tc main_arg0) = m ((c : Thread nD τ).loc main_arg0) :=
  ((W3_keep m ρ c main_arg0 (by decide)).trans ((W2_keep m ρ c main_arg0 (by decide)).trans (W1_keep m ρ c main_arg0 (by decide)))).trans rfl
theorem W3_arg3 (c : Dev nD) : W3 (F := Ideal) m ρ c (Proc.devRef .tc main_arg3) = m ((c : Thread nD τ).loc main_arg3) :=
  ((W3_keep m ρ c main_arg3 (by decide)).trans ((W2_keep m ρ c main_arg3 (by decide)).trans (W1_keep m ρ c main_arg3 (by decide)))).trans rfl
theorem W4_arg4 (c : Dev nD) : W4 (F := Ideal) m ρ c (Proc.devRef .tc main_arg4) = m ((c : Thread nD τ).loc main_arg4) :=
  ((W4_keep m ρ c main_arg4 (by decide)).trans ((W3_keep m ρ c main_arg4 (by decide)).trans ((W2_keep m ρ c main_arg4 (by decide)).trans (W1_keep m ρ c main_arg4 (by decide))))).trans rfl
theorem W13_arg5 (c : Dev nD) : W13 (F := Ideal) m ρ c (Proc.devRef .tc main_arg5) = m ((c : Thread nD τ).loc main_arg5) :=
  ((W13_keep m ρ c main_arg5 (by decide)).trans ((W12_keep m ρ c main_arg5 (by decide)).trans ((W11_keep m ρ c main_arg5 (by decide)).trans ((W10_keep m ρ c main_arg5 (by decide)).trans ((W9_keep m ρ c main_arg5 (by decide)).trans ((W8_keep m ρ c main_arg5 (by decide)).trans ((W7_keep m ρ c main_arg5 (by decide)).trans ((W6_keep m ρ c main_arg5 (by decide)).trans ((W5_keep m ρ c main_arg5 (by decide)).trans ((W4_keep m ρ c main_arg5 (by decide)).trans ((W3_keep m ρ c main_arg5 (by decide)).trans ((W2_keep m ρ c main_arg5 (by decide)).trans (W1_keep m ρ c main_arg5 (by decide)))))))))))))).trans rfl
theorem W14_arg6 (c : Dev nD) : W14 (F := Ideal) m ρ c (Proc.devRef .tc main_arg6) = m ((c : Thread nD τ).loc main_arg6) :=
  ((W14_keep m ρ c main_arg6 (by decide)).trans ((W13_keep m ρ c main_arg6 (by decide)).trans ((W12_keep m ρ c main_arg6 (by decide)).trans ((W11_keep m ρ c main_arg6 (by decide)).trans ((W10_keep m ρ c main_arg6 (by decide)).trans ((W9_keep m ρ c main_arg6 (by decide)).trans ((W8_keep m ρ c main_arg6 (by decide)).trans ((W7_keep m ρ c main_arg6 (by decide)).trans ((W6_keep m ρ c main_arg6 (by decide)).trans ((W5_keep m ρ c main_arg6 (by decide)).trans ((W4_keep m ρ c main_arg6 (by decide)).trans ((W3_keep m ρ c main_arg6 (by decide)).trans ((W2_keep m ρ c main_arg6 (by decide)).trans (W1_keep m ρ c main_arg6 (by decide))))))))))))))).trans rfl
theorem W23_arg7 (c : Dev nD) : W23 (F := Ideal) m ρ c (Proc.devRef .tc main_arg7) = m ((c : Thread nD τ).loc main_arg7) :=
  ((W23_keep m ρ c main_arg7 (by decide)).trans ((W22_keep m ρ c main_arg7 (by decide)).trans ((W21_keep m ρ c main_arg7 (by decide)).trans ((W20_keep m ρ c main_arg7 (by decide)).trans ((W19_keep m ρ c main_arg7 (by decide)).trans ((W18_keep m ρ c main_arg7 (by decide)).trans ((W17_keep m ρ c main_arg7 (by decide)).trans ((W16_keep m ρ c main_arg7 (by decide)).trans ((W15_keep m ρ c main_arg7 (by decide)).trans ((W14_keep m ρ c main_arg7 (by decide)).trans ((W13_keep m ρ c main_arg7 (by decide)).trans ((W12_keep m ρ c main_arg7 (by decide)).trans ((W11_keep m ρ c main_arg7 (by decide)).trans ((W10_keep m ρ c main_arg7 (by decide)).trans ((W9_keep m ρ c main_arg7 (by decide)).trans ((W8_keep m ρ c main_arg7 (by decide)).trans ((W7_keep m ρ c main_arg7 (by decide)).trans ((W6_keep m ρ c main_arg7 (by decide)).trans ((W5_keep m ρ c main_arg7 (by decide)).trans ((W4_keep m ρ c main_arg7 (by decide)).trans ((W3_keep m ρ c main_arg7 (by decide)).trans ((W2_keep m ρ c main_arg7 (by decide)).trans (W1_keep m ρ c main_arg7 (by decide)))))))))))))))))))))))).trans rfl
theorem W24_arg8 (c : Dev nD) : W24 (F := Ideal) m ρ c (Proc.devRef .tc main_arg8) = m ((c : Thread nD τ).loc main_arg8) :=
  ((W24_keep m ρ c main_arg8 (by decide)).trans ((W23_keep m ρ c main_arg8 (by decide)).trans ((W22_keep m ρ c main_arg8 (by decide)).trans ((W21_keep m ρ c main_arg8 (by decide)).trans ((W20_keep m ρ c main_arg8 (by decide)).trans ((W19_keep m ρ c main_arg8 (by decide)).trans ((W18_keep m ρ c main_arg8 (by decide)).trans ((W17_keep m ρ c main_arg8 (by decide)).trans ((W16_keep m ρ c main_arg8 (by decide)).trans ((W15_keep m ρ c main_arg8 (by decide)).trans ((W14_keep m ρ c main_arg8 (by decide)).trans ((W13_keep m ρ c main_arg8 (by decide)).trans ((W12_keep m ρ c main_arg8 (by decide)).trans ((W11_keep m ρ c main_arg8 (by decide)).trans ((W10_keep m ρ c main_arg8 (by decide)).trans ((W9_keep m ρ c main_arg8 (by decide)).trans ((W8_keep m ρ c main_arg8 (by decide)).trans ((W7_keep m ρ c main_arg8 (by decide)).trans ((W6_keep m ρ c main_arg8 (by decide)).trans ((W5_keep m ρ c main_arg8 (by decide)).trans ((W4_keep m ρ c main_arg8 (by decide)).trans ((W3_keep m ρ c main_arg8 (by decide)).trans ((W2_keep m ρ c main_arg8 (by decide)).trans (W1_keep m ρ c main_arg8 (by decide))))))))))))))))))))))))).trans rfl
theorem W3_v47 (c : Dev nD) : W3 (F := Ideal) m ρ c (Proc.devRef .tc main_v47)
    = adjArr (F := Ideal) (ends0 (m ((c : Thread nD τ).loc main_arg1))) (ends1 (m ((c : Thread nD τ).loc main_arg1))) (ewf (F := Ideal) (m ((c : Thread nD τ).loc main_arg2))) (dinvArr (F := Ideal) (m ((c : Thread nD τ).loc main_arg1)) (m ((c : Thread nD τ).loc main_arg2))) := by
  have h5 : W2 (F := Ideal) m ρ c (Proc.devRef .tc main_v5) = ends0 (m ((c : Thread nD τ).loc main_arg1)) :=
    (W2_keep m ρ c main_v5 (by decide)).trans (g0_v5 (W0 m ρ c))
  have h6 : W2 (F := Ideal) m ρ c (Proc.devRef .tc main_v6) = ends1 (m ((c : Thread nD τ).loc main_arg1)) :=
    (W2_keep m ρ c main_v6 (by decide)).trans (g0_v6 (W0 m ρ c))
  have h8 : W2 (F := Ideal) m ρ c (Proc.devRef .tc main_v8) = ewf (F := Ideal) (m ((c : Thread nD τ).loc main_arg2)) :=
    (W2_keep m ρ c main_v8 (by decide)).trans (g0_v8 (W0 m ρ c))
  have h15 : W2 (F := Ideal) m ρ c (Proc.devRef .tc main_v15) = dinvArr (F := Ideal) (m ((c : Thread nD τ).loc main_arg1)) (m ((c : Thread nD τ).loc main_arg2)) := by
    refine (g01_v15 (W1 m ρ c)).trans ?_
    rw [show W1 (F := Ideal) m ρ c (Proc.devRef .tc main_v13) = _ from g0_v13 (W0 m ρ c),
      show W1 (F := Ideal) m ρ c (Proc.devRef .tc main_v14) = _ from g0_v14 (W0 m ρ c),
      show W1 (F := Ideal) m ρ c (Proc.devRef .tc main_cst_2) = _ from g0_cst2 (W0 m ρ c)]
    rfl
  refine (g02_v47 (W2 m ρ c)).trans ?_
  rw [h5, h6, h8, h15]
theorem adj_at (c : Dev nD) (hr : ∀ i, 0 ≤ (m ((c : Thread nD τ).loc main_arg1) i).toInt ∧ (m ((c : Thread nD τ).loc main_arg1) i).toInt < 4096) (i k : Fin 4096) :
    W3 (F := Ideal) m ρ c (Proc.devRef .tc main_v47) (ix2 i k) = (Cert.Spec.adjOf (Cert.Spec.extIdx (fun t => m ((c : Thread nD τ).loc main_arg1) (ix2 (0 : Fin 2) t))) (Cert.Spec.extIdx (fun t => m ((c : Thread nD τ).loc main_arg1) (ix2 (1 : Fin 2) t))) (Cert.Spec.normOf (Cert.Spec.extIdx (fun t => m ((c : Thread nD τ).loc main_arg1) (ix2 (0 : Fin 2) t))) (Cert.Spec.extIdx (fun t => m ((c : Thread nD τ).loc main_arg1) (ix2 (1 : Fin 2) t))) (Cert.Spec.extW (fun t => m ((c : Thread nD τ).loc main_arg2) (ix1 t))))) i k := by
  rw [W3_v47 m ρ c]
  exact adjArr_spec (m ((c : Thread nD τ).loc main_arg1)) (m ((c : Thread nD τ).loc main_arg2)) hr i k
theorem W5_v47 (c : Dev nD) : W5 (F := Ideal) m ρ c (Proc.devRef .tc main_v47) = W3 m ρ c (Proc.devRef .tc main_v47) :=
  ((W5_keep m ρ c main_v47 (by decide)).trans (W4_keep m ρ c main_v47 (by decide)))
theorem W15_v47 (c : Dev nD) : W15 (F := Ideal) m ρ c (Proc.devRef .tc main_v47) = W3 m ρ c (Proc.devRef .tc main_v47) :=
  ((W15_keep m ρ c main_v47 (by decide)).trans ((W14_keep m ρ c main_v47 (by decide)).trans ((W13_keep m ρ c main_v47 (by decide)).trans ((W12_keep m ρ c main_v47 (by decide)).trans ((W11_keep m ρ c main_v47 (by decide)).trans ((W10_keep m ρ c main_v47 (by decide)).trans ((W9_keep m ρ c main_v47 (by decide)).trans ((W8_keep m ρ c main_v47 (by decide)).trans ((W7_keep m ρ c main_v47 (by decide)).trans ((W6_keep m ρ c main_v47 (by decide)).trans ((W5_keep m ρ c main_v47 (by decide)).trans (W4_keep m ρ c main_v47 (by decide)))))))))))))
theorem W25_v47 (c : Dev nD) : W25 (F := Ideal) m ρ c (Proc.devRef .tc main_v47) = W3 m ρ c (Proc.devRef .tc main_v47) :=
  ((W25_keep m ρ c main_v47 (by decide)).trans ((W24_keep m ρ c main_v47 (by decide)).trans ((W23_keep m ρ c main_v47 (by decide)).trans ((W22_keep m ρ c main_v47 (by decide)).trans ((W21_keep m ρ c main_v47 (by decide)).trans ((W20_keep m ρ c main_v47 (by decide)).trans ((W19_keep m ρ c main_v47 (by decide)).trans ((W18_keep m ρ c main_v47 (by decide)).trans ((W17_keep m ρ c main_v47 (by decide)).trans ((W16_keep m ρ c main_v47 (by decide)).trans ((W15_keep m ρ c main_v47 (by decide)).trans ((W14_keep m ρ c main_v47 (by decide)).trans ((W13_keep m ρ c main_v47 (by decide)).trans ((W12_keep m ρ c main_v47 (by decide)).trans ((W11_keep m ρ c main_v47 (by decide)).trans ((W10_keep m ρ c main_v47 (by decide)).trans ((W9_keep m ρ c main_v47 (by decide)).trans ((W8_keep m ρ c main_v47 (by decide)).trans ((W7_keep m ρ c main_v47 (by decide)).trans ((W6_keep m ρ c main_v47 (by decide)).trans ((W5_keep m ρ c main_v47 (by decide)).trans (W4_keep m ρ c main_v47 (by decide)))))))))))))))))))))))
theorem zero256_at (j : Fin 256) : (broadcastInDim S1x256 ![] bcast_S_S1x256 (constant (F := Ideal) S_ .f32 0x00000000#32)) (ix2 (0 : Fin 1) j) = 0 :=
  Ideal.ofBits_zero_f32
theorem zero128_at (j : Fin 128) : (broadcastInDim S1x128 ![] bcast_S_S1x128 (constant (F := Ideal) S_ .f32 0x00000000#32)) (ix2 (0 : Fin 1) j) = 0 :=
  Ideal.ofBits_zero_f32
theorem gcn1_value (c : Dev nD) (hr : ∀ i, 0 ≤ (m ((c : Thread nD τ).loc main_arg1) i).toInt ∧ (m ((c : Thread nD τ).loc main_arg1) i).toInt < 4096) (i : Fin 4096) (j : Fin 256) :
    W6 (F := Ideal) m ρ c (Proc.devRef .tc main_v53) (ix2 i j)
      = Cert.Spec.gcnKer (Cert.Spec.adjOf (Cert.Spec.extIdx (fun t => m ((c : Thread nD τ).loc main_arg1) (ix2 (0 : Fin 2) t))) (Cert.Spec.extIdx (fun t => m ((c : Thread nD τ).loc main_arg1) (ix2 (1 : Fin 2) t))) (Cert.Spec.normOf (Cert.Spec.extIdx (fun t => m ((c : Thread nD τ).loc main_arg1) (ix2 (0 : Fin 2) t))) (Cert.Spec.extIdx (fun t => m ((c : Thread nD τ).loc main_arg1) (ix2 (1 : Fin 2) t))) (Cert.Spec.extW (fun t => m ((c : Thread nD τ).loc main_arg2) (ix1 t))))) (fun i t => m ((c : Thread nD τ).loc main_arg0) (ix2 i t)) (fun t j => m ((c : Thread nD τ).loc main_arg3) (ix2 t j)) (fun j => m ((c : Thread nD τ).loc main_arg4) (ix1 j)) i j := by
  have e1 : W6 (F := Ideal) m ρ c (Proc.devRef .tc main_v53)
      = mm1 (W5 m ρ c (Proc.devRef .tc main_v47)) (W5 m ρ c (Proc.devRef .tc main_v51)) (W5 m ρ c (Proc.devRef .tc main_v52)) :=
    (W6_arr m ρ c 3).trans (arr1_value (V5 m ρ) c)
  have e0 : W4 (F := Ideal) m ρ c (Proc.devRef .tc main_v51)
      = mm0 (W3 m ρ c (Proc.devRef .tc main_arg0)) (W3 m ρ c (Proc.devRef .tc main_arg3)) (W3 m ρ c (Proc.devRef .tc main_v50)) :=
    (W4_arr m ρ c 3).trans (arr0_value (V3 m ρ) c)
  rw [e1, mm1_apply]
  refine gcn_core (Cert.Spec.adjOf (Cert.Spec.extIdx (fun t => m ((c : Thread nD τ).loc main_arg1) (ix2 (0 : Fin 2) t))) (Cert.Spec.extIdx (fun t => m ((c : Thread nD τ).loc main_arg1) (ix2 (1 : Fin 2) t))) (Cert.Spec.normOf (Cert.Spec.extIdx (fun t => m ((c : Thread nD τ).loc main_arg1) (ix2 (0 : Fin 2) t))) (Cert.Spec.extIdx (fun t => m ((c : Thread nD τ).loc main_arg1) (ix2 (1 : Fin 2) t))) (Cert.Spec.extW (fun t => m ((c : Thread nD τ).loc main_arg2) (ix1 t))))) (fun i t => m ((c : Thread nD τ).loc main_arg0) (ix2 i t)) (fun t j => m ((c : Thread nD τ).loc main_arg3) (ix2 t j)) (fun j => m ((c : Thread nD τ).loc main_arg4) (ix1 j))
    (W5 m ρ c (Proc.devRef .tc main_v47)) (W5 m ρ c (Proc.devRef .tc main_v51)) (W5 m ρ c (Proc.devRef .tc main_v52))
    (W3 m ρ c (Proc.devRef .tc main_arg0)) (W3 m ρ c (Proc.devRef .tc main_arg3)) (W3 m ρ c (Proc.devRef .tc main_v50)) ?_ ?_ ?_ ?_ ?_ ?_ i j
  · intro i k
    rw [W5_v47 m ρ c]
    exact adj_at m ρ c hr i k
  · intro k j
    rw [W5_keep m ρ c main_v51 (by decide), e0, mm0_apply]
  · intro k t
    exact congrFun (W3_arg0 m ρ c) (ix2 k t)
  · intro t j
    exact congrFun (W3_arg3 m ρ c) (ix2 t j)
  · intro j
    rw [show W3 (F := Ideal) m ρ c (Proc.devRef .tc main_v50) = _ from g02_v50 (W2 m ρ c)]
    exact zero256_at j
  · intro j
    rw [show W5 (F := Ideal) m ρ c (Proc.devRef .tc main_v52) = _ from g1_v52 (W4 m ρ c), rowOf_apply]
    exact congrFun (W4_arg4 m ρ c) (ix1 j)
theorem gcn2_value (c : Dev nD) (hr : ∀ i, 0 ≤ (m ((c : Thread nD τ).loc main_arg1) i).toInt ∧ (m ((c : Thread nD τ).loc main_arg1) i).toInt < 4096) (i : Fin 4096) (j : Fin 256) :
    W16 (F := Ideal) m ρ c (Proc.devRef .tc main_v73) (ix2 i j)
      = Cert.Spec.gcnKer (Cert.Spec.adjOf (Cert.Spec.extIdx (fun t => m ((c : Thread nD τ).loc main_arg1) (ix2 (0 : Fin 2) t))) (Cert.Spec.extIdx (fun t => m ((c : Thread nD τ).loc main_arg1) (ix2 (1 : Fin 2) t))) (Cert.Spec.normOf (Cert.Spec.extIdx (fun t => m ((c : Thread nD τ).loc main_arg1) (ix2 (0 : Fin 2) t))) (Cert.Spec.extIdx (fun t => m ((c : Thread nD τ).loc main_arg1) (ix2 (1 : Fin 2) t))) (Cert.Spec.extW (fun t => m ((c : Thread nD τ).loc main_arg2) (ix1 t))))) (fun i t => W12 (F := Ideal) m ρ c (Proc.devRef .tc main_v69) (ix2 i t)) (fun t j => m ((c : Thread nD τ).loc main_arg5) (ix2 t j)) (fun j => m ((c : Thread nD τ).loc main_arg6) (ix1 j)) i j := by
  have e1 : W16 (F := Ideal) m ρ c (Proc.devRef .tc main_v73)
      = mm6 (W15 m ρ c (Proc.devRef .tc main_v47)) (W15 m ρ c (Proc.devRef .tc main_v71)) (W15 m ρ c (Proc.devRef .tc main_v72)) :=
    (W16_arr m ρ c 3).trans (arr6_value (V15 m ρ) c)
  have e0 : W14 (F := Ideal) m ρ c (Proc.devRef .tc main_v71)
      = mm5 (W13 m ρ c (Proc.devRef .tc main_v69)) (W13 m ρ c (Proc.devRef .tc main_arg5)) (W13 m ρ c (Proc.devRef .tc main_v70)) :=
    (W14_arr m ρ c 3).trans (arr5_value (V13 m ρ) c)
  rw [e1, mm6_apply]
  refine gcn_core (Cert.Spec.adjOf (Cert.Spec.extIdx (fun t => m ((c : Thread nD τ).loc main_arg1) (ix2 (0 : Fin 2) t))) (Cert.Spec.extIdx (fun t => m ((c : Thread nD τ).loc main_arg1) (ix2 (1 : Fin 2) t))) (Cert.Spec.normOf (Cert.Spec.extIdx (fun t => m ((c : Thread nD τ).loc main_arg1) (ix2 (0 : Fin 2) t))) (Cert.Spec.extIdx (fun t => m ((c : Thread nD τ).loc main_arg1) (ix2 (1 : Fin 2) t))) (Cert.Spec.extW (fun t => m ((c : Thread nD τ).loc main_arg2) (ix1 t))))) (fun i t => W12 (F := Ideal) m ρ c (Proc.devRef .tc main_v69) (ix2 i t)) (fun t j => m ((c : Thread nD τ).loc main_arg5) (ix2 t j)) (fun j => m ((c : Thread nD τ).loc main_arg6) (ix1 j))
    (W15 m ρ c (Proc.devRef .tc main_v47)) (W15 m ρ c (Proc.devRef .tc main_v71)) (W15 m ρ c (Proc.devRef .tc main_v72))
    (W13 m ρ c (Proc.devRef .tc main_v69)) (W13 m ρ c (Proc.devRef .tc main_arg5)) (W13 m ρ c (Proc.devRef .tc main_v70)) ?_ ?_ ?_ ?_ ?_ ?_ i j
  · intro i k
    rw [W15_v47 m ρ c]
    exact adj_at m ρ c hr i k
  · intro k j
    rw [W15_keep m ρ c main_v71 (by decide), e0, mm5_apply]
  · intro k t
    exact congrFun (W13_keep m ρ c main_v69 (by decide)) (ix2 k t)
  · intro t j
    exact congrFun (W13_arg5 m ρ c) (ix2 t j)
  · intro j
    rw [show W13 (F := Ideal) m ρ c (Proc.devRef .tc main_v70) = _ from g5_v70 (W12 m ρ c)]
    exact zero256_at j
  · intro j
    rw [show W15 (F := Ideal) m ρ c (Proc.devRef .tc main_v72) = _ from g6_v72 (W14 m ρ c), rowOf_apply]
    exact congrFun (W14_arg6 m ρ c) (ix1 j)
theorem gcn3_value (c : Dev nD) (hr : ∀ i, 0 ≤ (m ((c : Thread nD τ).loc main_arg1) i).toInt ∧ (m ((c : Thread nD τ).loc main_arg1) i).toInt < 4096) (i : Fin 4096) (j : Fin 128) :
    W26 (F := Ideal) m ρ c (Proc.devRef .tc main_v93) (ix2 i j)
      = Ideal.logistic (Cert.Spec.gcnKer (Cert.Spec.adjOf (Cert.Spec.extIdx (fun t => m ((c : Thread nD τ).loc main_arg1) (ix2 (0 : Fin 2) t))) (Cert.Spec.extIdx (fun t => m ((c : Thread nD τ).loc main_arg1) (ix2 (1 : Fin 2) t))) (Cert.Spec.normOf (Cert.Spec.extIdx (fun t => m ((c : Thread nD τ).loc main_arg1) (ix2 (0 : Fin 2) t))) (Cert.Spec.extIdx (fun t => m ((c : Thread nD τ).loc main_arg1) (ix2 (1 : Fin 2) t))) (Cert.Spec.extW (fun t => m ((c : Thread nD τ).loc main_arg2) (ix1 t))))) (fun i t => W22 (F := Ideal) m ρ c (Proc.devRef .tc main_v89) (ix2 i t)) (fun t j => m ((c : Thread nD τ).loc main_arg7) (ix2 t j)) (fun j => m ((c : Thread nD τ).loc main_arg8) (ix1 j)) i j) := by
  have e1 : W26 (F := Ideal) m ρ c (Proc.devRef .tc main_v93)
      = mm11 (W25 m ρ c (Proc.devRef .tc main_v47)) (W25 m ρ c (Proc.devRef .tc main_v91)) (W25 m ρ c (Proc.devRef .tc main_v92)) :=
    (W26_arr m ρ c 3).trans (arr11_value (V25 m ρ) c)
  have e0 : W24 (F := Ideal) m ρ c (Proc.devRef .tc main_v91)
      = mm10 (W23 m ρ c (Proc.devRef .tc main_v89)) (W23 m ρ c (Proc.devRef .tc main_arg7)) (W23 m ρ c (Proc.devRef .tc main_v90)) :=
    (W24_arr m ρ c 3).trans (arr10_value (V23 m ρ) c)
  rw [e1, mm11_apply]
  refine congrArg Ideal.logistic ?_
  refine gcn_core (Cert.Spec.adjOf (Cert.Spec.extIdx (fun t => m ((c : Thread nD τ).loc main_arg1) (ix2 (0 : Fin 2) t))) (Cert.Spec.extIdx (fun t => m ((c : Thread nD τ).loc main_arg1) (ix2 (1 : Fin 2) t))) (Cert.Spec.normOf (Cert.Spec.extIdx (fun t => m ((c : Thread nD τ).loc main_arg1) (ix2 (0 : Fin 2) t))) (Cert.Spec.extIdx (fun t => m ((c : Thread nD τ).loc main_arg1) (ix2 (1 : Fin 2) t))) (Cert.Spec.extW (fun t => m ((c : Thread nD τ).loc main_arg2) (ix1 t))))) (fun i t => W22 (F := Ideal) m ρ c (Proc.devRef .tc main_v89) (ix2 i t)) (fun t j => m ((c : Thread nD τ).loc main_arg7) (ix2 t j)) (fun j => m ((c : Thread nD τ).loc main_arg8) (ix1 j))
    (W25 m ρ c (Proc.devRef .tc main_v47)) (W25 m ρ c (Proc.devRef .tc main_v91)) (W25 m ρ c (Proc.devRef .tc main_v92))
    (W23 m ρ c (Proc.devRef .tc main_v89)) (W23 m ρ c (Proc.devRef .tc main_arg7)) (W23 m ρ c (Proc.devRef .tc main_v90)) ?_ ?_ ?_ ?_ ?_ ?_ i j
  · intro i k
    rw [W25_v47 m ρ c]
    exact adj_at m ρ c hr i k
  · intro k j
    rw [W25_keep m ρ c main_v91 (by decide), e0, mm10_apply]
  · intro k t
    exact congrFun (W23_keep m ρ c main_v89 (by decide)) (ix2 k t)
  · intro t j
    exact congrFun (W23_arg7 m ρ c) (ix2 t j)
  · intro j
    rw [show W23 (F := Ideal) m ρ c (Proc.devRef .tc main_v90) = _ from g10_v90 (W22 m ρ c)]
    exact zero128_at j
  · intro j
    rw [show W25 (F := Ideal) m ρ c (Proc.devRef .tc main_v92) = _ from g11_v92 (W24 m ρ c), row128Of_apply]
    exact congrFun (W24_arg8 m ρ c) (ix1 j)
end Cert.KernelIdeal.Hand
-- ==== Proof.Ideal.WalkKeep.lean ====
import proofs.«403157_j14328010899645_2_alg».proof.Proof.Ideal.RunArgs
import proofs.«403157_j14328010899645_2_alg».proof.Proof.Ideal.Glue0
set_option maxRecDepth 16384
noncomputable section
namespace Cert.KernelIdeal.Hand
open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators
variable (m : (ℓ : Loc nD τ sig) → Buf (Elt Ideal) ℓ) (ρ : Dev nD → PrngReg)
theorem W3_v48 (c : Dev nD) (t : Fin 256) (c' : Fin 768) :
    W3 (F := Ideal) m ρ c (Proc.devRef .tc main_v48) (ix2 t c') = m ((c : Thread nD τ).loc main_arg9) (ix2 c' t) := by
  refine (congrFun (g02_v48 (W2 (F := Ideal) m ρ c)) (ix2 t c')).trans ?_
  refine (transpose_apply _ _ _ _ (ix2 c' t) (fun b => match b with | ⟨0, _⟩ => rfl | ⟨1, _⟩ => rfl)).trans ?_
  exact congrFun ((W2_keep m ρ c main_arg9 (by decide)).trans (W1_keep m ρ c main_arg9 (by decide))) (ix2 c' t)
theorem W3_v49 (c : Dev nD) (t j : Fin 256) :
    W3 (F := Ideal) m ρ c (Proc.devRef .tc main_v49) (ix2 t j) = m ((c : Thread nD τ).loc main_arg11) (ix2 j t) := by
  refine (congrFun (g02_v49 (W2 (F := Ideal) m ρ c)) (ix2 t j)).trans ?_
  refine (transpose_apply _ _ _ _ (ix2 j t) (fun b => match b with | ⟨0, _⟩ => rfl | ⟨1, _⟩ => rfl)).trans ?_
  exact congrFun ((W2_keep m ρ c main_arg11 (by decide)).trans (W1_keep m ρ c main_arg11 (by decide))) (ix2 j t)
theorem keep48_1 (c : Dev nD) :
    W7 (F := Ideal) m ρ c (Proc.devRef .tc main_v48) = W3 (F := Ideal) m ρ c (Proc.devRef .tc main_v48) :=
      (W7_keep m ρ c main_v48 (by decide)).trans <|
      (W6_keep m ρ c main_v48 (by decide)).trans <|
      (W5_keep m ρ c main_v48 (by decide)).trans <|
      (W4_keep m ρ c main_v48 (by decide))
theorem keepArg10_1 (c : Dev nD) :
    W6 (F := Ideal) m ρ c (Proc.devRef .tc main_arg10) = W0 (F := Ideal) m ρ c (Proc.devRef .tc main_arg10) :=
      (W6_keep m ρ c main_arg10 (by decide)).trans <|
      (W5_keep m ρ c main_arg10 (by decide)).trans <|
      (W4_keep m ρ c main_arg10 (by decide)).trans <|
      (W3_keep m ρ c main_arg10 (by decide)).trans <|
      (W2_keep m ρ c main_arg10 (by decide)).trans <|
      (W1_keep m ρ c main_arg10 (by decide))
theorem keep49_1 (c : Dev nD) :
    W11 (F := Ideal) m ρ c (Proc.devRef .tc main_v49) = W3 (F := Ideal) m ρ c (Proc.devRef .tc main_v49) :=
      (W11_keep m ρ c main_v49 (by decide)).trans <|
      (W10_keep m ρ c main_v49 (by decide)).trans <|
      (W9_keep m ρ c main_v49 (by decide)).trans <|
      (W8_keep m ρ c main_v49 (by decide)).trans <|
      (W7_keep m ρ c main_v49 (by decide)).trans <|
      (W6_keep m ρ c main_v49 (by decide)).trans <|
      (W5_keep m ρ c main_v49 (by decide)).trans <|
      (W4_keep m ρ c main_v49 (by decide))
theorem keepArg12_1 (c : Dev nD) :
    W10 (F := Ideal) m ρ c (Proc.devRef .tc main_arg12) = W0 (F := Ideal) m ρ c (Proc.devRef .tc main_arg12) :=
      (W10_keep m ρ c main_arg12 (by decide)).trans <|
      (W9_keep m ρ c main_arg12 (by decide)).trans <|
      (W8_keep m ρ c main_arg12 (by decide)).trans <|
      (W7_keep m ρ c main_arg12 (by decide)).trans <|
      (W6_keep m ρ c main_arg12 (by decide)).trans <|
      (W5_keep m ρ c main_arg12 (by decide)).trans <|
      (W4_keep m ρ c main_arg12 (by decide)).trans <|
      (W3_keep m ρ c main_arg12 (by decide)).trans <|
      (W2_keep m ρ c main_arg12 (by decide)).trans <|
      (W1_keep m ρ c main_arg12 (by decide))
theorem keep48_2 (c : Dev nD) :
    W17 (F := Ideal) m ρ c (Proc.devRef .tc main_v48) = W3 (F := Ideal) m ρ c (Proc.devRef .tc main_v48) :=
      (W17_keep m ρ c main_v48 (by decide)).trans <|
      (W16_keep m ρ c main_v48 (by decide)).trans <|
      (W15_keep m ρ c main_v48 (by decide)).trans <|
      (W14_keep m ρ c main_v48 (by decide)).trans <|
      (W13_keep m ρ c main_v48 (by decide)).trans <|
      (W12_keep m ρ c main_v48 (by decide)).trans <|
      (W11_keep m ρ c main_v48 (by decide)).trans <|
      (W10_keep m ρ c main_v48 (by decide)).trans <|
      (W9_keep m ρ c main_v48 (by decide)).trans <|
      (W8_keep m ρ c main_v48 (by decide)).trans <|
      (W7_keep m ρ c main_v48 (by decide)).trans <|
      (W6_keep m ρ c main_v48 (by decide)).trans <|
      (W5_keep m ρ c main_v48 (by decide)).trans <|
      (W4_keep m ρ c main_v48 (by decide))
theorem keepArg10_2 (c : Dev nD) :
    W16 (F := Ideal) m ρ c (Proc.devRef .tc main_arg10) = W0 (F := Ideal) m ρ c (Proc.devRef .tc main_arg10) :=
      (W16_keep m ρ c main_arg10 (by decide)).trans <|
      (W15_keep m ρ c main_arg10 (by decide)).trans <|
      (W14_keep m ρ c main_arg10 (by decide)).trans <|
      (W13_keep m ρ c main_arg10 (by decide)).trans <|
      (W12_keep m ρ c main_arg10 (by decide)).trans <|
      (W11_keep m ρ c main_arg10 (by decide)).trans <|
      (W10_keep m ρ c main_arg10 (by decide)).trans <|
      (W9_keep m ρ c main_arg10 (by decide)).trans <|
      (W8_keep m ρ c main_arg10 (by decide)).trans <|
      (W7_keep m ρ c main_arg10 (by decide)).trans <|
      (W6_keep m ρ c main_arg10 (by decide)).trans <|
      (W5_keep m ρ c main_arg10 (by decide)).trans <|
      (W4_keep m ρ c main_arg10 (by decide)).trans <|
      (W3_keep m ρ c main_arg10 (by decide)).trans <|
      (W2_keep m ρ c main_arg10 (by decide)).trans <|
      (W1_keep m ρ c main_arg10 (by decide))
theorem keep49_2 (c : Dev nD) :
    W21 (F := Ideal) m ρ c (Proc.devRef .tc main_v49) = W3 (F := Ideal) m ρ c (Proc.devRef .tc main_v49) :=
      (W21_keep m ρ c main_v49 (by decide)).trans <|
      (W20_keep m ρ c main_v49 (by decide)).trans <|
      (W19_keep m ρ c main_v49 (by decide)).trans <|
      (W18_keep m ρ c main_v49 (by decide)).trans <|
      (W17_keep m ρ c main_v49 (by decide)).trans <|
      (W16_keep m ρ c main_v49 (by decide)).trans <|
      (W15_keep m ρ c main_v49 (by decide)).trans <|
      (W14_keep m ρ c main_v49 (by decide)).trans <|
      (W13_keep m ρ c main_v49 (by decide)).trans <|
      (W12_keep m ρ c main_v49 (by decide)).trans <|
      (W11_keep m ρ c main_v49 (by decide)).trans <|
      (W10_keep m ρ c main_v49 (by decide)).trans <|
      (W9_keep m ρ c main_v49 (by decide)).trans <|
      (W8_keep m ρ c main_v49 (by decide)).trans <|
      (W7_keep m ρ c main_v49 (by decide)).trans <|
      (W6_keep m ρ c main_v49 (by decide)).trans <|
      (W5_keep m ρ c main_v49 (by decide)).trans <|
      (W4_keep m ρ c main_v49 (by decide))
theorem keepArg12_2 (c : Dev nD) :
    W20 (F := Ideal) m ρ c (Proc.devRef .tc main_arg12) = W0 (F := Ideal) m ρ c (Proc.devRef .tc main_arg12) :=
      (W20_keep m ρ c main_arg12 (by decide)).trans <|
      (W19_keep m ρ c main_arg12 (by decide)).trans <|
      (W18_keep m ρ c main_arg12 (by decide)).trans <|
      (W17_keep m ρ c main_arg12 (by decide)).trans <|
      (W16_keep m ρ c main_arg12 (by decide)).trans <|
      (W15_keep m ρ c main_arg12 (by decide)).trans <|
      (W14_keep m ρ c main_arg12 (by decide)).trans <|
      (W13_keep m ρ c main_arg12 (by decide)).trans <|
      (W12_keep m ρ c main_arg12 (by decide)).trans <|
      (W11_keep m ρ c main_arg12 (by decide)).trans <|
      (W10_keep m ρ c main_arg12 (by decide)).trans <|
      (W9_keep m ρ c main_arg12 (by decide)).trans <|
      (W8_keep m ρ c main_arg12 (by decide)).trans <|
      (W7_keep m ρ c main_arg12 (by decide)).trans <|
      (W6_keep m ρ c main_arg12 (by decide)).trans <|
      (W5_keep m ρ c main_arg12 (by decide)).trans <|
      (W4_keep m ρ c main_arg12 (by decide)).trans <|
      (W3_keep m ρ c main_arg12 (by decide)).trans <|
      (W2_keep m ρ c main_arg12 (by decide)).trans <|
      (W1_keep m ρ c main_arg12 (by decide))
end Cert.KernelIdeal.Hand
end
-- ==== Proof.Ideal.MatmulValue2.lean ====
import proofs.«403157_j14328010899645_2_alg».proof.Proof.Ideal.Region2
import proofs.«403157_j14328010899645_2_alg».proof.Proof.Ideal.MatmulPay

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

def mm2 (a : Vec Ideal S4096x256 .f32) (b : Vec Ideal S256x768 .f32) (bias : Vec Ideal S1x768 .f32) : Vec Ideal S4096x768 .bf16 :=
  mmOf (fun y => y) a b bias

theorem mm2_apply (a : Vec Ideal S4096x256 .f32) (b : Vec Ideal S256x768 .f32) (bias : Vec Ideal S1x768 .f32) (i : Fin 4096) (j : Fin 768) :
    mm2 a b bias (ix2 i j) = (∑ t : Fin 256, a (ix2 i t) * b (ix2 t j)) + bias (ix2 0 j) := rfl

theorem idx_facts2 : ∀ t : Fin cfg2.N, win2_3.index t (0 : Fin 2) = t.val ∧ win2_3.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

-- On every row block both sides are the same sums, and row r lies in block r / 512.
theorem arr2_value (c : Dev nD) : (dat2 (F := Ideal) V c).arrAt 3 cfg2.N
    = mm2 (V c (Pipeline.arrRef spec2 0)) (V c (Pipeline.arrRef spec2 1)) (V c (Pipeline.arrRef spec2 2)) := by
  refine (dat2 (F := Ideal) V c).arrAt_eq_of_cover 3 _ (fun t _ => ?_) fun (i : S4096x768.Idx) => ?_
  · show (cfg2.win 3).cut (grid2.coords t) ((dat2 (F := Ideal) V c).after 3 t) = _
    rw [after2_3]
    unfold out2_3
    rw [View.canon_unit_zero zeroOff]
    simp only [View.ld_unit_zero (S := S512x256) zeroOff, View.ld_unit_zero (S := S256x768) zeroOff, View.ld_unit_zero (S := S1x768) zeroOff]
    exact funext (mmOf_block _ _ _ _ (win2_0.rect_emb_val t) (win2_1.rect_emb_val t) (win2_2.rect_emb_val t)
      (win2_3.rect_emb_val t) (idx_facts2 t) rfl (pay2_apply _ _ _))
  · have hi : (i 0).val < 4096 := (i 0).isLt
    have ht : (i 0).val / 512 < cfg2.N := by rw [show cfg2.N = 8 from N_2]; omega
    refine ⟨⟨_, ht⟩, flush2_3 _, ?_⟩
    show i ∈ ((View.whole main_v55).slice (win2_3.rect ⟨(i 0).val / 512, ht⟩)).set
    rw [View.set_slice_whole]
    exact rowBlock_mem i (idx_facts2 _).1 (idx_facts2 _).2.1 ⟨rfl, rfl, rfl⟩ (by decide)

end Cert.KernelIdeal.Hand
-- ==== Proof.Ideal.MatmulValue4.lean ====
import proofs.«403157_j14328010899645_2_alg».proof.Proof.Ideal.Region4
import proofs.«403157_j14328010899645_2_alg».proof.Proof.Ideal.MatmulPay
import Idealize.ShloMosaic.Lib.ValueIdx
import Idealize.ShloMosaic.Lib.Pipeline.Value
import Idealize.ShloMosaic.PureOps.Ideal.Laws

/-! # Region 4 of the kernel program: the array it leaves, at the ideal instance

The region's grid walks the row blocks of the left operand; at point t the body stores the matmul-plus-bias payload of
the left operand's block t, the whole weight and the bias row over the output's block t. Read index by index, what point
t writes back is block t of ONE function of the three operand arrays, mm4; the output's blocks tile its array (row r is in
the block of point r / 512), so the array ends holding mm4 of the operands as the region finds them. -/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- the TensorCore's buffer contents when the region is entered
variable (V : (c : Dev nD) → (b : Ref sig .tc) → Buf (Elt Ideal) ((c : Thread nD τ).loc b))

/-- The array region 4 leaves: the left operand times the weight, plus the bias row, then the maximum with zero. -/
def mm4 (a : Vec Ideal S4096x256 .bf16) (b : Vec Ideal S256x256 .f32) (bias : Vec Ideal S1x256 .f32) : Vec Ideal S4096x256 .f32 :=
  mmOf (fun y => max (y) 0) a b bias

theorem mm4_apply (a : Vec Ideal S4096x256 .bf16) (b : Vec Ideal S256x256 .f32) (bias : Vec Ideal S1x256 .f32) (i : Fin 4096) (j : Fin 256) :
    mm4 a b bias (ix2 i j) = max ((∑ t : Fin 256, a (ix2 i t) * b (ix2 t j)) + bias (ix2 0 j)) 0 := rfl

theorem zeros4 : (![0, 0] : Fin 2 → Nat) = fun _ => 0 := funext fun a => by fin_cases a <;> rfl

/-- The printed index maps over the grid: the left operand's and the output's block index is (t, 0) at point t, the
    weight's and the bias row's (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row p of point t's block is row t · 512 + p of the array. -/
theorem row4_lt (t : Fin cfg4.N) (p : Fin 512) : t.val * 512 + p.val < 4096 := by
  have ht : t.val < 8 := N_4 ▸ t.isLt
  have hp := p.isLt
  omega

/-- Where an element of each window's block at point t sits in its array. -/
theorem emb4_0 (t : Fin cfg4.N) (p : Fin 512) (s : Fin 256) :
    ((cfg4.win 0).blk t).view.emb (ix2 p s) = (ix2 (⟨t.val * 512 + p.val, row4_lt t p⟩ : Fin 4096) s : S4096x256.Idx) := by
  obtain ⟨e0, e1, -⟩ := idx_facts4 t
  funext a; apply Fin.ext
  match a with
  | ⟨0, _⟩ => show win4_0.index t (0 : Fin 2) * 512 + 1 * p.val = t.val * 512 + p.val; omega
  | ⟨1, _⟩ => show win4_0.index t (1 : Fin 2) * 256 + 1 * s.val = s.val; omega
theorem emb4_1 (t : Fin cfg4.N) (s : Fin 256) (q : Fin 256) :
    ((cfg4.win 1).blk t).view.emb (ix2 s q) = (ix2 s q : S256x256.Idx) := by
  obtain ⟨-, -, e0, e1, -⟩ := idx_facts4 t
  funext a; apply Fin.ext
  match a with
  | ⟨0, _⟩ => show win4_1.index t (0 : Fin 2) * 256 + 1 * s.val = s.val; omega
  | ⟨1, _⟩ => show win4_1.index t (1 : Fin 2) * 256 + 1 * q.val = q.val; omega
theorem emb4_2 (t : Fin cfg4.N) (z : Fin 1) (q : Fin 256) :
    ((cfg4.win 2).blk t).view.emb (ix2 z q) = (ix2 z q : S1x256.Idx) := by
  obtain ⟨-, -, -, -, e0, e1, -⟩ := idx_facts4 t
  funext a; apply Fin.ext
  match a with
  | ⟨0, _⟩ => show win4_2.index t (0 : Fin 2) * 1 + 1 * z.val = z.val; omega
  | ⟨1, _⟩ => show win4_2.index t (1 : Fin 2) * 256 + 1 * q.val = q.val; omega
theorem emb4_3 (t : Fin cfg4.N) (p : Fin 512) (q : Fin 256) :
    ((cfg4.win 3).blk t).view.emb (ix2 p q) = (ix2 (⟨t.val * 512 + p.val, row4_lt t p⟩ : Fin 4096) q : S4096x256.Idx) := by
  obtain ⟨-, -, -, -, -, -, e0, e1⟩ := idx_facts4 t
  funext a; apply Fin.ext
  match a with
  | ⟨0, _⟩ => show win4_3.index t (0 : Fin 2) * 512 + 1 * p.val = t.val * 512 + p.val; omega
  | ⟨1, _⟩ => show win4_3.index t (1 : Fin 2) * 256 + 1 * q.val = q.val; omega

/-- The three operand arrays as the region finds them, and their blocks at point t, at their literal types. -/
abbrev xarr4 (c : Dev nD) : Vec Ideal S4096x256 .bf16 := V c (Pipeline.arrRef spec4 0)
abbrev warr4 (c : Dev nD) : Vec Ideal S256x256 .f32 := V c (Pipeline.arrRef spec4 1)
abbrev barr4 (c : Dev nD) : Vec Ideal S1x256 .f32 := V c (Pipeline.arrRef spec4 2)
abbrev xblk4 (c : Dev nD) (t : Fin cfg4.N) : Vec Ideal S512x256 .bf16 := iblk4 V c 0 t
abbrev wblk4 (c : Dev nD) (t : Fin cfg4.N) : Vec Ideal S256x256 .f32 := iblk4 V c 1 t
abbrev bblk4 (c : Dev nD) (t : Fin cfg4.N) : Vec Ideal S1x256 .f32 := iblk4 V c 2 t

/-- A block's element is the array's at the place the window puts it. -/
theorem xblk4_apply (c : Dev nD) (t : Fin cfg4.N) (p : Fin 512) (s : Fin 256) :
    xblk4 V c t (ix2 p s) = xarr4 V c (ix2 (⟨t.val * 512 + p.val, row4_lt t p⟩ : Fin 4096) s) :=
  congrArg (xarr4 V c) (emb4_0 t p s)
theorem wblk4_apply (c : Dev nD) (t : Fin cfg4.N) (s : Fin 256) (q : Fin 256) :
    wblk4 V c t (ix2 s q) = warr4 V c (ix2 s q) :=
  congrArg (warr4 V c) (emb4_1 t s q)
theorem bblk4_apply (c : Dev nD) (t : Fin cfg4.N) (z : Fin 1) (q : Fin 256) :
    bblk4 V c t (ix2 z q) = barr4 V c (ix2 z q) :=
  congrArg (barr4 V c) (emb4_2 t z q)

/-- What point t writes back is block t of mm4 of the three arrays as the region finds them: at row p and column q of
    the block the payload reads row p of the left block, which is row t · 512 + p of the left array, against the whole
    weight and bias. -/
theorem flushed4_eq (c : Dev nD) (t : Fin cfg4.N) :
    (dat4 (F := Ideal) V c).flushed 3 t = ((cfg4.win 3).blk t).view.read (Elt Ideal)
      (mm4 (V c (Pipeline.arrRef spec4 0)) (V c (Pipeline.arrRef spec4 1)) (V c (Pipeline.arrRef spec4 2))) := by
  show (cfg4.win 3).cut (grid4.coords t) ((dat4 (F := Ideal) V c).after 3 t) = _
  rw [after4_3]
  unfold out4_3
  rw [View.canon_unit_zero zeros4]
  simp only [View.ld_unit_zero (S := S512x256) zeros4, View.ld_unit_zero (S := S256x256) zeros4, View.ld_unit_zero (S := S1x256) zeros4]
  funext j
  obtain ⟨p, q, rfl⟩ : ∃ (p : Fin 512) (q : Fin 256), j = ix2 p q := ⟨j 0, j 1, eq_ix2 j⟩
  show k4_pay1 (F := Ideal) (xblk4 V c t) (wblk4 V c t) (bblk4 V c t) (ix2 p q)
    = mm4 (xarr4 V c) (warr4 V c) (barr4 V c) (((cfg4.win 3).blk t).view.emb (ix2 p q))
  rw [emb4_3 t p q]
  refine (pay4_apply (xblk4 V c t) (wblk4 V c t) (bblk4 V c t) p q).trans ?_
  refine Eq.trans ?_ (mm4_apply (xarr4 V c) (warr4 V c) (barr4 V c) ⟨t.val * 512 + p.val, row4_lt t p⟩ q).symm
  rw [bblk4_apply V c t 0 q]
  exact congrArg (fun z => max (z + barr4 V c (ix2 0 q)) 0) (Finset.sum_congr rfl fun s _ => by rw [xblk4_apply V c t p s, wblk4_apply V c t s q])

/-- An index of the array is in point t's block iff each coordinate is in the block's range on its axis. -/
theorem mem_blk4 (t : Fin cfg4.N) (i : S4096x256.Idx) :
    i ∈ ((cfg4.win 3).blk t).view.set ↔ ∀ a : Fin 2, win4_3.index t a * S512x256.size a ≤ (i a).val ∧ (i a).val < win4_3.index t a * S512x256.size a + S512x256.size a := by
  show i ∈ ((View.whole main_v69).slice (win4_3.rect t)).set ↔ _
  rw [View.set_slice_whole, Rect.mem_set_unit]
  exact Iff.rfl

/-- Every index of the array is in some point's block: row r is in the block of point r / 512. -/
theorem cover4 (i : S4096x256.Idx) : ∃ t : Fin cfg4.N, (cfg4.win 3).flush t = true ∧ i ∈ ((cfg4.win 3).blk t).view.set := by
  have hi0 : (i 0).val < 4096 := (i 0).isLt
  have hi1 : (i 1).val < 256 := (i 1).isLt
  let t : Fin cfg4.N := ⟨(i 0).val / 512, by rw [show cfg4.N = 8 from N_4]; omega⟩
  obtain ⟨-, -, -, -, -, -, e0, e1⟩ := idx_facts4 t
  have et : t.val = (i 0).val / 512 := rfl
  refine ⟨t, flush4_3 t, ?_⟩
  rw [mem_blk4]
  intro a
  match a with
  | ⟨0, _⟩ => show win4_3.index t (0 : Fin 2) * 512 ≤ (i 0).val ∧ (i 0).val < win4_3.index t (0 : Fin 2) * 512 + 512; omega
  | ⟨1, _⟩ => show win4_3.index t (1 : Fin 2) * 256 ≤ (i 1).val ∧ (i 1).val < win4_3.index t (1 : Fin 2) * 256 + 256; omega

/-- The array after the region: mm4 of the three arrays as the region finds them. -/
theorem arr4_value (c : Dev nD) : (dat4 (F := Ideal) V c).arrAt 3 cfg4.N
    = mm4 (V c (Pipeline.arrRef spec4 0)) (V c (Pipeline.arrRef spec4 1)) (V c (Pipeline.arrRef spec4 2)) :=
  (dat4 (F := Ideal) V c).arrAt_eq_of_cover 3 _ (fun t _ => flushed4_eq V c t) cover4

end Cert.KernelIdeal.Hand
-- ==== Proof.Ideal.FlashPay.lean ====
import proofs.«403157_j14328010899645_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand.Flash

open Idealize.ShloMosaic Idealize.SL.Sem Idealize.ShloMosaic.ValueIdx
open Cert.KernelIdeal Cert.KernelIdeal.Gen

theorem qk_apply (q : FVec Ideal S4x1024x64 .bf16) (k : FVec Ideal S4x512x64 .bf16) (hd : Fin 4) (l : Fin 1024) (kk : Fin 512) :
    matmul dot_S4x1024x64_S4x512x64_S4x1024x512_2_2_1_1_0_0 none q k (constant S4x1024x512 .f32 0x00000000#32) (ix3 hd l kk)
      = ∑ d : Fin 64, q (ix3 hd l d) * k (ix3 hd kk d) := by
  simp only [matmul]
  rw [Ideal.matmul_constant_zero_apply, ← Equiv.sum_comp (contrEquiv1 dot_S4x1024x64_S4x512x64_S4x1024x512_2_2_1_1_0_0 64 rfl rfl).symm]
  refine Finset.sum_congr rfl fun d _ => ?_
  have hk := contrEquiv1_symm_val dot_S4x1024x64_S4x512x64_S4x1024x512_2_2_1_1_0_0 64 rfl rfl d
  rw [show dot_S4x1024x64_S4x512x64_S4x1024x512_2_2_1_1_0_0.lhsIdx (ix3 hd l kk) _ = ix3 hd l d from funext fun a => Fin.ext (match a with
      | ⟨0, _⟩ => rfl | ⟨1, _⟩ => rfl | ⟨2, _⟩ => (dot_S4x1024x64_S4x512x64_S4x1024x512_2_2_1_1_0_0.lhsIdx_val_of_single rfl _ _).trans hk),
    show dot_S4x1024x64_S4x512x64_S4x1024x512_2_2_1_1_0_0.rhsIdx (ix3 hd l kk) _ = ix3 hd kk d from funext fun a => Fin.ext (match a with
      | ⟨0, _⟩ => rfl | ⟨1, _⟩ => rfl | ⟨2, _⟩ => (dot_S4x1024x64_S4x512x64_S4x1024x512_2_2_1_1_0_0.rhsIdx_val_of_single rfl _ _).trans hk)]

theorem pay7_eq (q : FVec Ideal S4x1024x64 .bf16) (k : FVec Ideal S4x512x64 .bf16) :
    k3_pay7 (F := Ideal) q k
      = mulf (matmul dot_S4x1024x64_S4x512x64_S4x1024x512_2_2_1_1_0_0 none q k (constant S4x1024x512 .f32 0x00000000#32))
          (broadcast S4x1024x512 (Scalar.ofBits (F := Ideal) .f32 0x3E000000#32)) := by
  unfold k3_pay7
  rw [shapeCast_self, shapeCast_self]

theorem pay7_apply (q : FVec Ideal S4x1024x64 .bf16) (k : FVec Ideal S4x512x64 .bf16) (hd : Fin 4) (l : Fin 1024) (kk : Fin 512) :
    k3_pay7 (F := Ideal) q k (ix3 hd l kk)
      = (∑ d : Fin 64, q (ix3 hd l d) * k (ix3 hd kk d)) * Ideal.ofBits .f32 0x3E000000#32 := by
  rw [pay7_eq]
  exact congrArg (· * Ideal.ofBits .f32 0x3E000000#32) (qk_apply q k hd l kk)

theorem scale_bits : Ideal.ofBits .f32 0x3E000000#32 = ((1 / 8 : ℝ) : EReal) := by
  simp [Ideal.ofBits, Ideal.ieee]
  rw [← EReal.coe_mul]
  norm_num

theorem neginf_bits : Ideal.ofBits .f32 0xFF800000#32 = (⊥ : EReal) := by
  simp [Ideal.ofBits, Ideal.ieee]

theorem keep_apply {α : Type} (v : S4x1024.Idx → α) (hd : Fin 4) (l : Fin 1024) (z : Fin 1) :
    shapeCast S4x1024x1 v shapeCasts_S4x1024_S4x1024x1 (ix3 hd l z) = v (ix2 hd l) :=
  shapeCast_apply v _ (ix3 hd l z) (ix2 hd l) (by
    rw [Shape.rowMajor_val_two, Shape.rowMajor_val_three]
    have := z.isLt
    show hd.val * 1024 + l.val = (hd.val * 1024 + l.val) * 1 + z.val
    omega)

theorem bcast512_apply {α : Type} (x : S4x1024x1.Idx → α) (hd : Fin 4) (l : Fin 1024) (kk : Fin 512) (z : Fin 1) :
    broadcastTo S4x1024x512 x broadcasts_S4x1024x1_S4x1024x512 (ix3 hd l kk) = x (ix3 hd l z) :=
  broadcastTo_apply x _ (ix3 hd l kk) (ix3 hd l z) (fun a => by
    match a with
    | ⟨0, _⟩ => exact (if_neg (by show ¬ (4 : ℕ) = 1; decide)).symm
    | ⟨1, _⟩ => exact (if_neg (by show ¬ (1024 : ℕ) = 1; decide)).symm
    | ⟨2, _⟩ => have := z.isLt; exact (show z.val = 0 by omega).trans (if_pos (by show (1 : ℕ) = 1; rfl)).symm)

theorem bcast64_apply {α : Type} (x : S4x1024x1.Idx → α) (hd : Fin 4) (l : Fin 1024) (d : Fin 64) (z : Fin 1) :
    broadcastTo S4x1024x64 x broadcasts_S4x1024x1_S4x1024x64 (ix3 hd l d) = x (ix3 hd l z) :=
  broadcastTo_apply x _ (ix3 hd l d) (ix3 hd l z) (fun a => by
    match a with
    | ⟨0, _⟩ => exact (if_neg (by show ¬ (4 : ℕ) = 1; decide)).symm
    | ⟨1, _⟩ => exact (if_neg (by show ¬ (1024 : ℕ) = 1; decide)).symm
    | ⟨2, _⟩ => have := z.isLt; exact (show z.val = 0 by omega).trans (if_pos (by show (1 : ℕ) = 1; rfl)).symm)

theorem lift_eq (hd : Fin 4) (l : Fin 1024) (kk : Fin 512) :
    reduces_S4x1024x512_S4x1024.lift (ix2 hd l) kk = ix3 hd l kk := by
  funext a
  match a with
  | ⟨0, _⟩ => rfl
  | ⟨1, _⟩ => rfl
  | ⟨2, _⟩ => rfl

theorem fold_max_eq_sup {ι : Type} [DecidableEq ι] (s : Finset ι) (f : ι → EReal) : s.fold max ⊥ f = s.sup f := by
  induction s using Finset.induction_on with
  | empty => simp
  | insert a s ha ih => rw [Finset.fold_insert ha, Finset.sup_insert, ih]

theorem rowmax_apply (src : FVec Ideal S4x1024x512 .f32) (hd : Fin 4) (l : Fin 1024) :
    multiReduction .maximumf [2] S4x1024 src 0xFF800000#32 reduces_S4x1024x512_S4x1024 (.inl rfl) rfl (ix2 hd l)
      = Finset.univ.sup fun kk : Fin 512 => src (ix3 hd l kk) := by
  refine (Ideal.multiReduction_maximumf_single src _ reduces_S4x1024x512_S4x1024 _ _ (ix2 hd l)).trans ?_
  have e : (src ∘ reduces_S4x1024x512_S4x1024.lift (ix2 hd l)) = fun kk : Fin 512 => src (ix3 hd l kk) :=
    funext fun kk => congrArg src (lift_eq hd l kk)
  rw [e]
  show (Finset.univ : Finset (Fin 512)).fold max (Ideal.ofBits .f32 0xFF800000#32) _ = _
  rw [neginf_bits]
  exact fold_max_eq_sup _ _

theorem rowsum_apply (src : FVec Ideal S4x1024x512 .f32) (hd : Fin 4) (l : Fin 1024) :
    multiReduction .add [2] S4x1024 src 0x00000000#32 reduces_S4x1024x512_S4x1024 (.inl rfl) rfl (ix2 hd l)
      = ∑ kk : Fin 512, src (ix3 hd l kk) :=
  (Ideal.multiReduction_add_single src _ reduces_S4x1024x512_S4x1024 _ _ (ix2 hd l)).trans
    (Finset.sum_congr rfl fun kk _ => congrArg src (lift_eq hd l kk))

theorem pv_apply (p : FVec Ideal S4x1024x512 .bf16) (v : FVec Ideal S4x512x64 .bf16) (hd : Fin 4) (l : Fin 1024) (d : Fin 64) :
    matmul dot_S4x1024x512_S4x512x64_S4x1024x64_2_1_1_2_0_0 none p v (constant S4x1024x64 .f32 0x00000000#32) (ix3 hd l d)
      = ∑ kk : Fin 512, p (ix3 hd l kk) * v (ix3 hd kk d) := by
  simp only [matmul]
  rw [Ideal.matmul_constant_zero_apply, ← Equiv.sum_comp (contrEquiv1 dot_S4x1024x512_S4x512x64_S4x1024x64_2_1_1_2_0_0 512 rfl rfl).symm]
  refine Finset.sum_congr rfl fun kk _ => ?_
  have hk := contrEquiv1_symm_val dot_S4x1024x512_S4x512x64_S4x1024x64_2_1_1_2_0_0 512 rfl rfl kk
  rw [show dot_S4x1024x512_S4x512x64_S4x1024x64_2_1_1_2_0_0.lhsIdx (ix3 hd l d) _ = ix3 hd l kk from funext fun a => Fin.ext (match a with
      | ⟨0, _⟩ => rfl | ⟨1, _⟩ => rfl | ⟨2, _⟩ => (dot_S4x1024x512_S4x512x64_S4x1024x64_2_1_1_2_0_0.lhsIdx_val_of_single rfl _ _).trans hk),
    show dot_S4x1024x512_S4x512x64_S4x1024x64_2_1_1_2_0_0.rhsIdx (ix3 hd l d) _ = ix3 hd kk d from funext fun a => Fin.ext (match a with
      | ⟨0, _⟩ => rfl | ⟨1, _⟩ => (dot_S4x1024x512_S4x512x64_S4x1024x64_2_1_1_2_0_0.rhsIdx_val_of_single rfl _ _).trans hk | ⟨2, _⟩ => rfl)]

theorem pay8_apply (q : FVec Ideal S4x1024x64 .bf16) (k : FVec Ideal S4x512x64 .bf16) (m : FVec Ideal S4x1024x1 .f32)
    (hd : Fin 4) (l : Fin 1024) (z : Fin 1) :
    k3_pay8 (F := Ideal) q k m (ix3 hd l z)
      = max (m (ix3 hd l z)) (Finset.univ.sup fun kk : Fin 512 => k3_pay7 (F := Ideal) q k (ix3 hd l kk)) := by
  unfold k3_pay8
  exact congrArg (max (m (ix3 hd l z))) ((keep_apply _ hd l z).trans (rowmax_apply _ hd l))

theorem pay9_apply (q : FVec Ideal S4x1024x64 .bf16) (k : FVec Ideal S4x512x64 .bf16) (m m' : FVec Ideal S4x1024x1 .f32)
    (hd : Fin 4) (l : Fin 1024) (z : Fin 1) :
    k3_pay9 (F := Ideal) q k m m' (ix3 hd l z) = Ideal.exp (m' (ix3 hd l z) - k3_pay8 (F := Ideal) q k m (ix3 hd l z)) := rfl

theorem pay10_apply (q : FVec Ideal S4x1024x64 .bf16) (k : FVec Ideal S4x512x64 .bf16) (m : FVec Ideal S4x1024x1 .f32)
    (hd : Fin 4) (l : Fin 1024) (kk : Fin 512) (z : Fin 1) :
    k3_pay10 (F := Ideal) q k m (ix3 hd l kk)
      = Ideal.exp (k3_pay7 (F := Ideal) q k (ix3 hd l kk) - k3_pay8 (F := Ideal) q k m (ix3 hd l z)) := by
  unfold k3_pay10
  exact congrArg (fun t => Ideal.exp (k3_pay7 (F := Ideal) q k (ix3 hd l kk) - t)) (bcast512_apply _ hd l kk z)

theorem pay11_apply (q : FVec Ideal S4x1024x64 .bf16) (k : FVec Ideal S4x512x64 .bf16) (m m' s : FVec Ideal S4x1024x1 .f32)
    (hd : Fin 4) (l : Fin 1024) (z : Fin 1) :
    k3_pay11 (F := Ideal) q k m m' s (ix3 hd l z)
      = k3_pay9 (F := Ideal) q k m m' (ix3 hd l z) * s (ix3 hd l z)
        + ∑ kk : Fin 512, k3_pay10 (F := Ideal) q k m (ix3 hd l kk) := by
  unfold k3_pay11
  rw [shapeCast_self]
  exact congrArg (k3_pay9 (F := Ideal) q k m m' (ix3 hd l z) * s (ix3 hd l z) + ·) ((keep_apply _ hd l z).trans (rowsum_apply _ hd l))

theorem pay1_apply (a : FVec Ideal S4x1024x1 .f32) (p : FVec Ideal S4x1024x512 .f32) (v : FVec Ideal S4x512x64 .bf16)
    (acc : FVec Ideal S4x1024x64 .f32) (hd : Fin 4) (l : Fin 1024) (d : Fin 64) (z : Fin 1) :
    k3_pay1 (F := Ideal) a p v acc (ix3 hd l d)
      = a (ix3 hd l z) * acc (ix3 hd l d) + ∑ kk : Fin 512, p (ix3 hd l kk) * v (ix3 hd kk d) := by
  unfold k3_pay1
  rw [shapeCast_self, shapeCast_self]
  exact congr (congrArg (fun t u => t * acc (ix3 hd l d) + u) (bcast64_apply a hd l d z)) (pv_apply _ v hd l d)

theorem pay2_eq (x : FVec Ideal S4x1024x1 .f32) : k3_pay2 (F := Ideal) x = x := shapeCast_self x _

theorem pay3_apply (acc : FVec Ideal S4x1024x64 .f32) (s : FVec Ideal S4x1024x1 .f32) (hd : Fin 4) (l : Fin 1024) (d : Fin 64) (z : Fin 1) :
    k3_pay3 (F := Ideal) acc s (ix3 hd l d) = Ideal.div (acc (ix3 hd l d)) (s (ix3 hd l z)) := by
  unfold k3_pay3
  exact congrArg (Ideal.div (acc (ix3 hd l d))) (bcast64_apply s hd l d z)

theorem pay4_apply (i : S4x1024x1.Idx) : k3_pay4 (F := Ideal) i = (⊥ : EReal) := by
  unfold k3_pay4
  rw [shapeCast_self]
  exact neginf_bits
theorem pay5_apply (i : S4x1024x1.Idx) : k3_pay5 (F := Ideal) i = (0 : EReal) := by
  unfold k3_pay5
  rw [shapeCast_self]
  exact Ideal.ofBits_zero_f32
theorem pay6_apply (i : S4x1024x64.Idx) : k3_pay6 (F := Ideal) i = (0 : EReal) := by
  unfold k3_pay6
  rw [shapeCast_self]
  exact Ideal.ofBits_zero_f32

theorem step_max (q : FVec Ideal S4x1024x64 .bf16) (k : FVec Ideal S4x512x64 .bf16) (m : FVec Ideal S4x1024x1 .f32)
    (hd : Fin 4) (l : Fin 1024) (z : Fin 1) :
    k3_pay2 (F := Ideal) (k3_pay8 (F := Ideal) q k m) (ix3 hd l z)
      = max (m (ix3 hd l z)) (Finset.univ.sup fun kk : Fin 512 => k3_pay7 (F := Ideal) q k (ix3 hd l kk)) := by
  rw [pay2_eq, pay8_apply]

theorem step_sum (q : FVec Ideal S4x1024x64 .bf16) (k : FVec Ideal S4x512x64 .bf16) (m s : FVec Ideal S4x1024x1 .f32)
    (hd : Fin 4) (l : Fin 1024) (z : Fin 1) :
    k3_pay11 (F := Ideal) q k m m s (ix3 hd l z)
      = Ideal.exp (m (ix3 hd l z)
            - max (m (ix3 hd l z)) (Finset.univ.sup fun kk : Fin 512 => k3_pay7 (F := Ideal) q k (ix3 hd l kk))) * s (ix3 hd l z)
        + ∑ kk : Fin 512, Ideal.exp (k3_pay7 (F := Ideal) q k (ix3 hd l kk)
            - max (m (ix3 hd l z)) (Finset.univ.sup fun kk : Fin 512 => k3_pay7 (F := Ideal) q k (ix3 hd l kk))) := by
  rw [pay11_apply, pay9_apply, pay8_apply]
  refine congrArg (_ + ·) (Finset.sum_congr rfl fun kk _ => ?_)
  rw [pay10_apply q k m hd l kk z, pay8_apply]

theorem step_acc (q : FVec Ideal S4x1024x64 .bf16) (k v : FVec Ideal S4x512x64 .bf16) (m : FVec Ideal S4x1024x1 .f32)
    (acc : FVec Ideal S4x1024x64 .f32) (hd : Fin 4) (l : Fin 1024) (d : Fin 64) (z : Fin 1) :
    k3_pay1 (F := Ideal) (k3_pay9 (F := Ideal) q k m m) (k3_pay10 (F := Ideal) q k m) v acc (ix3 hd l d)
      = Ideal.exp (m (ix3 hd l z)
            - max (m (ix3 hd l z)) (Finset.univ.sup fun kk : Fin 512 => k3_pay7 (F := Ideal) q k (ix3 hd l kk))) * acc (ix3 hd l d)
        + ∑ kk : Fin 512, Ideal.exp (k3_pay7 (F := Ideal) q k (ix3 hd l kk)
            - max (m (ix3 hd l z)) (Finset.univ.sup fun kk : Fin 512 => k3_pay7 (F := Ideal) q k (ix3 hd l kk))) * v (ix3 hd kk d) := by
  rw [pay1_apply _ _ _ _ hd l d z, pay9_apply, pay8_apply]
  refine congrArg (_ + ·) (Finset.sum_congr rfl fun kk _ => ?_)
  rw [pay10_apply q k m hd l kk z, pay8_apply]

end Cert.KernelIdeal.Hand.Flash

end
-- ==== Proof.Ideal.FlashRow.lean ====
import proofs.«403157_j14328010899645_2_alg».proof.Proof.Ideal.FlashPay
import proofs.«403157_j14328010899645_2_alg».proof.Proof.Spec.Flash

set_option maxRecDepth 16384

noncomputable section

namespace Cert.KernelIdeal.Hand

open Idealize.ShloMosaic Idealize.SL.Sem Idealize.ShloMosaic.ValueIdx
open Cert.KernelIdeal Cert.KernelIdeal.Gen Cert.KernelIdeal.Hand.Flash

abbrev FSt : Type := Vec Ideal S4x1024x1 .f32 × Vec Ideal S4x1024x1 .f32 × Vec Ideal S4x1024x64 .f32

def finit : FSt := (k3_pay4 (F := Ideal), k3_pay5 (F := Ideal), k3_pay6 (F := Ideal))

def fstep (q : Vec Ideal S4x1024x64 .bf16) (k v : Vec Ideal S4x512x64 .bf16) (s : FSt) : FSt :=
  (k3_pay2 (k3_pay8 q k s.1),
   k3_pay11 q k s.1 s.1 s.2.1,
   k3_pay1 (k3_pay9 q k s.1 s.1) (k3_pay10 q k s.1) v s.2.2)

def fout (s : FSt) : Vec Ideal S4x1024x64 .bf16 := k3_pay3 s.2.2 s.2.1

def rowSt (s : FSt) (hd : Fin 4) (l : Fin 1024) : Cert.Spec.FlashSt 64 :=
  ⟨s.1 (ix3 hd l 0), s.2.1 (ix3 hd l 0), fun d => s.2.2 (ix3 hd l d)⟩

theorem rowSt_init (hd : Fin 4) (l : Fin 1024) : rowSt finit hd l = Cert.Spec.flashInit 64 := by
  unfold rowSt finit Cert.Spec.flashInit
  simp only [pay4_apply, pay5_apply, pay6_apply]

theorem rowSt_step (q : Vec Ideal S4x1024x64 .bf16) (k v : Vec Ideal S4x512x64 .bf16) (s : FSt) (hd : Fin 4) (l : Fin 1024) :
    rowSt (fstep q k v s) hd l
      = Cert.Spec.flashStep (fun kk : Fin 512 => k3_pay7 (F := Ideal) q k (ix3 hd l kk)) (fun kk d => v (ix3 hd kk d)) (rowSt s hd l) := by
  unfold rowSt fstep Cert.Spec.flashStep
  dsimp only
  rw [step_max, step_sum]
  congr 1
  funext d
  exact step_acc q k v s.1 s.2.2 hd l d 0

theorem fout_apply (s : FSt) (hd : Fin 4) (l : Fin 1024) (d : Fin 64) :
    fout s (ix3 hd l d) = Ideal.div ((rowSt s hd l).acc d) ((rowSt s hd l).l) := by
  unfold fout
  rw [pay3_apply _ _ hd l d 0]
  rfl

-- Shifting the middle coordinate by r·s and keeping the outer two determines the image of (a, b, c).
theorem emb_mid {n0 n1 n2 N1 : ℕ} {e : (⟨3, ![n0, n1, n2]⟩ : Shape).Idx → (⟨3, ![n0, N1, n2]⟩ : Shape).Idx}
    {ix sz : Fin 3 → ℕ} {r : ℕ} (h : ∀ y a, (e y a : ℕ) = ix a * sz a + y a) (hi : ix 0 = 0 ∧ ix 1 = r ∧ ix 2 = 0)
    (y : (⟨3, ![n0, n1, n2]⟩ : Shape).Idx) (z : (⟨3, ![n0, N1, n2]⟩ : Shape).Idx)
    (hz : (z 0 : ℕ) = y 0 ∧ (z 1 : ℕ) = r * sz 1 + y 1 ∧ (z 2 : ℕ) = y 2) : e y = z :=
  funext fun a => Fin.ext (match a with
    | ⟨0, _⟩ => (h y 0).trans (by rw [hi.1, Nat.zero_mul, Nat.zero_add]; exact hz.1.symm)
    | ⟨1, _⟩ => (h y 1).trans (by rw [hi.2.1]; exact hz.2.1.symm)
    | ⟨2, _⟩ => (h y 2).trans (by rw [hi.2.2, Nat.zero_mul, Nat.zero_add]; exact hz.2.2.symm))

end Cert.KernelIdeal.Hand

end
-- ==== Proof.Ideal.FlashValue3.lean ====
import proofs.«403157_j14328010899645_2_alg».proof.Proof.Ideal.Region3
import proofs.«403157_j14328010899645_2_alg».proof.Proof.Ideal.FlashRow
import proofs.«403157_j14328010899645_2_alg».proof.Proof.Spec.KerSpec
import Idealize.ShloMosaic.Lib.Pipeline.Value

set_option maxRecDepth 16384

noncomputable section

namespace Cert.KernelIdeal.Hand

open Cert.KernelIdeal Cert.KernelIdeal.Gen Cert.KernelIdeal.Hand.Flash
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

def Qf3 (c : Dev nD) (hd : Fin 4) (l : Fin 4096) (d : Fin 64) : EReal := V c (Pipeline.arrRef spec3 0) (ix3 hd l d)
def Kf3 (c : Dev nD) (hd : Fin 4) (l : Fin 4096) (d : Fin 64) : EReal := V c (Pipeline.arrRef spec3 1) (ix3 hd l d)
def Vf3 (c : Dev nD) (hd : Fin 4) (l : Fin 4096) (d : Fin 64) : EReal := V c (Pipeline.arrRef spec3 2) (ix3 hd l d)

theorem idx_facts3 : ∀ t : Fin cfg3.N,
    (win3_0.index t (0 : Fin 3) = 0 ∧ win3_0.index t (1 : Fin 3) = t.val / 8 ∧ win3_0.index t (2 : Fin 3) = 0)
    ∧ (win3_1.index t (0 : Fin 3) = 0 ∧ win3_1.index t (1 : Fin 3) = t.val % 8 ∧ win3_1.index t (2 : Fin 3) = 0)
    ∧ (win3_2.index t (0 : Fin 3) = 0 ∧ win3_2.index t (1 : Fin 3) = t.val % 8 ∧ win3_2.index t (2 : Fin 3) = 0)
    ∧ (win3_3.index t (0 : Fin 3) = 0 ∧ win3_3.index t (1 : Fin 3) = t.val / 8 ∧ win3_3.index t (2 : Fin 3) = 0) :=
  (by decide +kernel : ∀ t : Fin grid3.N, _)

theorem tN3 (t : Fin cfg3.N) : t.val < 32 := t.isLt

theorem ptN3 (qi : Fin 4) (kv : ℕ) (hkv : kv < 8) : 8 * qi.val + kv < cfg3.N := by
  show 8 * qi.val + kv < 32
  omega

theorem iblk3_0_apply (c : Dev nD) (t : Fin cfg3.N) (hd : Fin 4) (l : Fin 1024) (d : Fin 64) :
    (iblk3 V c 0 t : Vec Ideal S4x1024x64 .bf16) (ix3 hd l d) = Qf3 V c hd ⟨1024 * (t.val / 8) + l.val, by have := tN3 t; omega⟩ d :=
  congrArg (V c (Pipeline.arrRef spec3 0)) (emb_mid (win3_0.rect_emb_val t) (idx_facts3 t).1 _ _
    ⟨rfl, by show 1024 * (t.val / 8) + l.val = t.val / 8 * 1024 + l.val; omega, rfl⟩)

theorem iblk3_1_apply (c : Dev nD) (t : Fin cfg3.N) (hd : Fin 4) (kk : Fin 512) (d : Fin 64) :
    (iblk3 V c 1 t : Vec Ideal S4x512x64 .bf16) (ix3 hd kk d) = Kf3 V c hd (Cert.Spec.keyAt (t.val % 8) kk) d :=
  congrArg (V c (Pipeline.arrRef spec3 1)) (emb_mid (win3_1.rect_emb_val t) (idx_facts3 t).2.1 _ _
    ⟨rfl, by show (t.val % 8 * 512 + kk.val) % 4096 = t.val % 8 * 512 + kk.val; have := kk.isLt; omega, rfl⟩)

theorem iblk3_2_apply (c : Dev nD) (t : Fin cfg3.N) (hd : Fin 4) (kk : Fin 512) (d : Fin 64) :
    (iblk3 V c 2 t : Vec Ideal S4x512x64 .bf16) (ix3 hd kk d) = Vf3 V c hd (Cert.Spec.keyAt (t.val % 8) kk) d :=
  congrArg (V c (Pipeline.arrRef spec3 2)) (emb_mid (win3_2.rect_emb_val t) (idx_facts3 t).2.2.1 _ _
    ⟨rfl, by show (t.val % 8 * 512 + kk.val) % 4096 = t.val % 8 * 512 + kk.val; have := kk.isLt; omega, rfl⟩)

theorem score_blk3 (c : Dev nD) (t : Fin cfg3.N) (hd : Fin 4) (l : Fin 1024) (kk : Fin 512) :
    k3_pay7 (F := Ideal) (iblk3 V c 0 t) (iblk3 V c 1 t) (ix3 hd l kk)
      = Cert.Spec.scoreKer (Qf3 V c) (Kf3 V c) hd ⟨1024 * (t.val / 8) + l.val, by have := tN3 t; omega⟩ (t.val % 8) kk := by
  rw [pay7_apply, scale_bits]
  unfold Cert.Spec.scoreKer
  refine congrArg (· * _) (Finset.sum_congr rfl fun d _ => ?_)
  rw [iblk3_0_apply, iblk3_1_apply]

theorem step_blk3 (c : Dev nD) (t : Fin cfg3.N) (s : St3 Ideal) (hd : Fin 4) (l : Fin 1024) :
    rowSt (step3 (iblk3 V c 0 t) (iblk3 V c 1 t) (iblk3 V c 2 t) s) hd l
      = Cert.Spec.flashStep (Cert.Spec.scoreKer (Qf3 V c) (Kf3 V c) hd ⟨1024 * (t.val / 8) + l.val, by have := tN3 t; omega⟩ (t.val % 8))
          (fun kk d => Vf3 V c hd (Cert.Spec.keyAt (t.val % 8) kk) d) (rowSt s hd l) := by
  refine (rowSt_step (iblk3 V c 0 t) (iblk3 V c 1 t) (iblk3 V c 2 t) s hd l).trans ?_
  congr 1
  · funext kk; exact score_blk3 V c t hd l kk
  · funext kk d; exact iblk3_2_apply V c t hd kk d

theorem step_pt3 (c : Dev nD) (qi : Fin 4) (kv : ℕ) (hkv : kv < 8) (ht : 8 * qi.val + kv < cfg3.N) (s : St3 Ideal) (hd : Fin 4) (l : Fin 1024) :
    rowSt (step3 (iblk3 V c 0 ⟨8 * qi.val + kv, ht⟩) (iblk3 V c 1 ⟨8 * qi.val + kv, ht⟩) (iblk3 V c 2 ⟨8 * qi.val + kv, ht⟩) s) hd l
      = Cert.Spec.flashStep (Cert.Spec.scoreKer (Qf3 V c) (Kf3 V c) hd ⟨1024 * qi.val + l.val, by omega⟩ kv)
          (fun kk d => Vf3 V c hd (Cert.Spec.keyAt kv kk) d) (rowSt s hd l) := by
  have e := step_blk3 V c ⟨8 * qi.val + kv, ht⟩ s hd l
  have h8 : (8 * qi.val + kv) / 8 = qi.val := by omega
  have h0 : (8 * qi.val + kv) % 8 = kv := by omega
  simp only [h8, h0] at e
  exact e

theorem rowSt_scr3 (c : Dev nD) (qi : Fin 4) (hd : Fin 4) (l : Fin 1024) :
    ∀ (kv : ℕ) (hkv : kv < 8), rowSt (scr3 V c (8 * qi.val + kv)) hd l
      = Cert.Spec.flashFold (Cert.Spec.scoreKer (Qf3 V c) (Kf3 V c) hd ⟨1024 * qi.val + l.val, by omega⟩)
          (fun kb kk d => Vf3 V c hd (Cert.Spec.keyAt kb kk) d) (kv + 1)
  | 0, hkv => by
    have e := scr3_first V c ⟨8 * qi.val + 0, ptN3 qi 0 hkv⟩ (by show (8 * qi.val + 0) % 8 = 0; omega)
    dsimp only at e
    rw [e, step_pt3 V c qi 0 hkv, show rowSt (init3 (F := Ideal)) hd l = Cert.Spec.flashInit 64 from rowSt_init hd l]
    rfl
  | kv + 1, hkv => by
    have e := scr3_next V c ⟨8 * qi.val + (kv + 1), ptN3 qi (kv + 1) hkv⟩ (by show ¬ (8 * qi.val + (kv + 1)) % 8 = 0; omega)
    have hp : 8 * qi.val + (kv + 1) - 1 = 8 * qi.val + kv := by omega
    dsimp only at e
    rw [hp] at e
    rw [e, step_pt3 V c qi (kv + 1) hkv, rowSt_scr3 c qi hd l kv (by omega)]
    rfl

theorem out_row3 (c : Dev nD) (qi : Fin 4) (hd : Fin 4) (l : Fin 1024) (d : Fin 64) :
    (out3_3 (scr3 V c (8 * qi.val + 7)) : Vec Ideal S4x1024x64 .bf16) (ix3 hd l d)
      = Cert.Spec.attnKer (Qf3 V c) (Kf3 V c) (Vf3 V c) hd ⟨1024 * qi.val + l.val, by omega⟩ d := by
  refine (fout_apply (scr3 V c (8 * qi.val + 7)) hd l d).trans ?_
  rw [rowSt_scr3 V c qi hd l 7 (by omega)]
  rfl

theorem out_row_at3 (c : Dev nD) (t : Fin cfg3.N) (h7 : t.val % 8 = 7) (hd : Fin 4) (l : Fin 1024) (d : Fin 64) :
    (out3_3 (scr3 V c t.val) : Vec Ideal S4x1024x64 .bf16) (ix3 hd l d)
      = Cert.Spec.attnKer (Qf3 V c) (Kf3 V c) (Vf3 V c) hd ⟨1024 * (t.val / 8) + l.val, by have := tN3 t; omega⟩ d := by
  have ht : t.val = 8 * (⟨t.val / 8, by have := tN3 t; omega⟩ : Fin 4).val + 7 := by show t.val = 8 * (t.val / 8) + 7; omega
  have e := out_row3 V c ⟨t.val / 8, by have := tN3 t; omega⟩ hd l d
  rw [← ht] at e
  exact e

def attnArr3 (c : Dev nD) : S4x4096x64.Idx → EReal := fun i => Cert.Spec.attnKer (Qf3 V c) (Kf3 V c) (Vf3 V c) (i 0) (i 1) (i 2)

theorem emb3_3 (t : Fin cfg3.N) (j : ((cfg3.win 3).xblock (grid3.coords t)).Idx)
    (hj0 : (j 0).val < 4) (hj1 : (j 1).val < 1024) (hj2 : (j 2).val < 64) :
    ((cfg3.win 3).blk t).view.emb j
      = (ix3 ⟨(j 0).val, hj0⟩ ⟨1024 * (t.val / 8) + (j 1).val, by have := tN3 t; omega⟩ ⟨(j 2).val, hj2⟩ : S4x4096x64.Idx) :=
  emb_mid (win3_3.rect_emb_val t) (idx_facts3 t).2.2.2 j _
    ⟨rfl, by show 1024 * (t.val / 8) + (j 1).val = t.val / 8 * 1024 + (j 1).val; omega, rfl⟩

theorem xinj3_3 (t : Fin cfg3.N) (j : ((cfg3.win 3).xblock (grid3.coords t)).Idx)
    (hj0 : (j 0).val < 4) (hj1 : (j 1).val < 1024) (hj2 : (j 2).val < 64) :
    (cfg3.win 3).xinj (grid3.coords t) j = (ix3 ⟨(j 0).val, hj0⟩ ⟨(j 1).val, hj1⟩ ⟨(j 2).val, hj2⟩ : S4x1024x64.Idx) := by
  funext a
  match a with
  | ⟨0, _⟩ => rfl
  | ⟨1, _⟩ => rfl
  | ⟨2, _⟩ => rfl

theorem flushed3_eq (c : Dev nD) (t : Fin cfg3.N) (hf : (cfg3.win 3).flush t = true) :
    (dat3 V c).flushed 3 t = ((cfg3.win 3).blk t).view.read (Elt Ideal) (attnArr3 V c) := by
  have h7 : t.val % 8 = 7 := (flush3_3 t).1 hf
  show (cfg3.win 3).cut (grid3.coords t) ((dat3 V c).after 3 t) = _
  rw [after3_3]
  funext j
  have hj0 : (j 0).val < 4 := (j 0).isLt
  have hj1 : (j 1).val < 1024 := (j 1).isLt
  have hj2 : (j 2).val < 64 := (j 2).isLt
  rw [View.read_apply, emb3_3 t j hj0 hj1 hj2]
  refine Eq.trans (congrArg (out3_3 (scr3 V c t.val) : Vec Ideal S4x1024x64 .bf16) (xinj3_3 t j hj0 hj1 hj2)) ?_
  exact out_row_at3 V c t h7 _ _ _

theorem cover3 (i : S4x4096x64.Idx) : ∃ t : Fin cfg3.N, (cfg3.win 3).flush t = true ∧ i ∈ ((cfg3.win 3).blk t).view.set := by
  have hi0 : (i 0).val < 4 := (i 0).isLt
  have hi1 : (i 1).val < 4096 := (i 1).isLt
  have hi2 : (i 2).val < 64 := (i 2).isLt
  have ht : 8 * ((i 1).val / 1024) + 7 < cfg3.N := by show _ < 32; omega
  refine ⟨⟨8 * ((i 1).val / 1024) + 7, ht⟩, (flush3_3 _).2 (by show (8 * ((i 1).val / 1024) + 7) % 8 = 7; omega), ?_⟩
  show i ∈ ((View.whole main_v65).slice (win3_3.rect ⟨8 * ((i 1).val / 1024) + 7, ht⟩)).set
  rw [View.set_slice_whole, Rect.mem_set_unit]
  obtain ⟨e0, e1, e2⟩ := (idx_facts3 ⟨8 * ((i 1).val / 1024) + 7, ht⟩).2.2.2
  have e1' : win3_3.index ⟨8 * ((i 1).val / 1024) + 7, ht⟩ (1 : Fin 3) = (i 1).val / 1024 := by
    rw [e1]; show (8 * ((i 1).val / 1024) + 7) / 8 = _; omega
  intro a
  match a with
  | ⟨0, _⟩ => show win3_3.index _ (0 : Fin 3) * 4 ≤ (i 0).val ∧ (i 0).val < win3_3.index _ (0 : Fin 3) * 4 + 4; omega
  | ⟨1, _⟩ => show win3_3.index _ (1 : Fin 3) * 1024 ≤ (i 1).val ∧ (i 1).val < win3_3.index _ (1 : Fin 3) * 1024 + 1024; omega
  | ⟨2, _⟩ => show win3_3.index _ (2 : Fin 3) * 64 ≤ (i 2).val ∧ (i 2).val < win3_3.index _ (2 : Fin 3) * 64 + 64; omega

theorem arr3_value (c : Dev nD) : (dat3 (F := Ideal) V c).arrAt 3 cfg3.N = attnArr3 V c :=
  (dat3 V c).arrAt_eq_of_cover 3 (attnArr3 V c) (fun t hf => flushed3_eq V c t hf) cover3

end Cert.KernelIdeal.Hand

end
-- ==== Proof.Ideal.Glue3.lean ====
import proofs.«403157_j14328010899645_2_alg».proof.Proof.Gen.KernelIdeal.Launch
import proofs.«403157_j14328010899645_2_alg».proof.Proof.Spec.KerSpec
import Idealize.ShloMosaic.Lib.StableHlo.Run
import Idealize.ShloMosaic.Lib.Pipeline.Value
import Idealize.ShloMosaic.Lib.IdealHost
import Idealize.ShloMosaic.Lib.ValueLayout
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.ValueIdx Idealize.ShloMosaic.StableHlo
variable {F : FTy → Type} [FloatOps F]
variable (W : Valuation τ sig (Elt F))
def qOf (qkv : FVec F S4096x768 .bf16) : FVec F S4x4096x64 .bf16 :=
  transpose S4x4096x64 [1, 0, 2]
    (fun i => shapeCast S4096x4x64 (extractStridedSlice S4096x256 ![0, 0] qkv slices_S4096x768_S4096x256_0_0) shapeCasts_S4096x256_S4096x4x64 i)
    transposes_S4096x4x64_S4x4096x64_1_0_2
def kOf (qkv : FVec F S4096x768 .bf16) : FVec F S4x4096x64 .bf16 :=
  transpose S4x4096x64 [1, 0, 2]
    (fun i => shapeCast S4096x4x64 (extractStridedSlice S4096x256 ![0, 256] qkv slices_S4096x768_S4096x256_0_256) shapeCasts_S4096x256_S4096x4x64 i)
    transposes_S4096x4x64_S4x4096x64_1_0_2
def vOf (qkv : FVec F S4096x768 .bf16) : FVec F S4x4096x64 .bf16 :=
  transpose S4x4096x64 [1, 0, 2]
    (fun i => shapeCast S4096x4x64 (extractStridedSlice S4096x256 ![0, 512] qkv slices_S4096x768_S4096x256_0_512) shapeCasts_S4096x256_S4096x4x64 i)
    transposes_S4096x4x64_S4x4096x64_1_0_2
theorem g3_v60 : StableHlo.after (hostOps3 (F := F)) W (Proc.devRef .tc main_v60) = qOf (W (Proc.devRef .tc main_v55)) := by
  after_results; rfl
theorem g3_v62 : StableHlo.after (hostOps3 (F := F)) W (Proc.devRef .tc main_v62) = kOf (W (Proc.devRef .tc main_v55)) := by
  after_results; rfl
theorem g3_v64 : StableHlo.after (hostOps3 (F := F)) W (Proc.devRef .tc main_v64) = vOf (W (Proc.devRef .tc main_v55)) := by
  after_results; rfl
theorem g8_v80 : StableHlo.after (hostOps8 (F := F)) W (Proc.devRef .tc main_v80) = qOf (W (Proc.devRef .tc main_v75)) := by
  after_results; rfl
theorem g8_v82 : StableHlo.after (hostOps8 (F := F)) W (Proc.devRef .tc main_v82) = kOf (W (Proc.devRef .tc main_v75)) := by
  after_results; rfl
theorem g8_v84 : StableHlo.after (hostOps8 (F := F)) W (Proc.devRef .tc main_v84) = vOf (W (Proc.devRef .tc main_v75)) := by
  after_results; rfl
theorem qOf_apply (qkv : FVec F S4096x768 .bf16) (hd : Fin 4) (l : Fin 4096) (d : Fin 64) :
    qOf qkv (ix3 hd l d) = qkv (ix2 l (Cert.Spec.third 0 (Cert.Spec.headCol hd d))) := by
  have hhd : hd.val < 4 := hd.isLt
  have hd' : d.val < 64 := d.isLt
  unfold qOf
  refine (transpose_apply _ _ _ _ (ix3 l hd d)
    (fun b => match b with | ⟨0, _⟩ => rfl | ⟨1, _⟩ => rfl | ⟨2, _⟩ => rfl)).trans ?_
  refine (shapeCast_apply _ _ _ (ix2 l (Cert.Spec.headCol hd d))
    (by rw [Shape.rowMajor_val_two, Shape.rowMajor_val_three]
        show l.val * 256 + (hd.val * 64 + d.val) = (l.val * 4 + hd.val) * 64 + d.val
        omega)).trans ?_
  exact extractStridedSlice_apply _ _ _ _ (ix2 l (Cert.Spec.third 0 (Cert.Spec.headCol hd d)))
    (fun a => match a with
      | ⟨0, _⟩ => by show l.val = 0 + l.val; omega
      | ⟨1, _⟩ => by show 0 * 256 + (hd.val * 64 + d.val) = 0 + (hd.val * 64 + d.val); omega)
theorem kOf_apply (qkv : FVec F S4096x768 .bf16) (hd : Fin 4) (l : Fin 4096) (d : Fin 64) :
    kOf qkv (ix3 hd l d) = qkv (ix2 l (Cert.Spec.third 1 (Cert.Spec.headCol hd d))) := by
  have hhd : hd.val < 4 := hd.isLt
  have hd' : d.val < 64 := d.isLt
  unfold kOf
  refine (transpose_apply _ _ _ _ (ix3 l hd d)
    (fun b => match b with | ⟨0, _⟩ => rfl | ⟨1, _⟩ => rfl | ⟨2, _⟩ => rfl)).trans ?_
  refine (shapeCast_apply _ _ _ (ix2 l (Cert.Spec.headCol hd d))
    (by rw [Shape.rowMajor_val_two, Shape.rowMajor_val_three]
        show l.val * 256 + (hd.val * 64 + d.val) = (l.val * 4 + hd.val) * 64 + d.val
        omega)).trans ?_
  exact extractStridedSlice_apply _ _ _ _ (ix2 l (Cert.Spec.third 1 (Cert.Spec.headCol hd d)))
    (fun a => match a with
      | ⟨0, _⟩ => by show l.val = 0 + l.val; omega
      | ⟨1, _⟩ => by show 1 * 256 + (hd.val * 64 + d.val) = 256 + (hd.val * 64 + d.val); omega)
theorem vOf_apply (qkv : FVec F S4096x768 .bf16) (hd : Fin 4) (l : Fin 4096) (d : Fin 64) :
    vOf qkv (ix3 hd l d) = qkv (ix2 l (Cert.Spec.third 2 (Cert.Spec.headCol hd d))) := by
  have hhd : hd.val < 4 := hd.isLt
  have hd' : d.val < 64 := d.isLt
  unfold vOf
  refine (transpose_apply _ _ _ _ (ix3 l hd d)
    (fun b => match b with | ⟨0, _⟩ => rfl | ⟨1, _⟩ => rfl | ⟨2, _⟩ => rfl)).trans ?_
  refine (shapeCast_apply _ _ _ (ix2 l (Cert.Spec.headCol hd d))
    (by rw [Shape.rowMajor_val_two, Shape.rowMajor_val_three]
        show l.val * 256 + (hd.val * 64 + d.val) = (l.val * 4 + hd.val) * 64 + d.val
        omega)).trans ?_
  exact extractStridedSlice_apply _ _ _ _ (ix2 l (Cert.Spec.third 2 (Cert.Spec.headCol hd d)))
    (fun a => match a with
      | ⟨0, _⟩ => by show l.val = 0 + l.val; omega
      | ⟨1, _⟩ => by show 2 * 256 + (hd.val * 64 + d.val) = 512 + (hd.val * 64 + d.val); omega)
end Cert.KernelIdeal.Hand
end
-- ==== Proof.Ideal.WalkMha1.lean ====
import proofs.«403157_j14328010899645_2_alg».proof.Proof.Ideal.WalkKeep
import proofs.«403157_j14328010899645_2_alg».proof.Proof.Ideal.MatmulValue2
import proofs.«403157_j14328010899645_2_alg».proof.Proof.Ideal.MatmulValue4
import proofs.«403157_j14328010899645_2_alg».proof.Proof.Ideal.FlashValue3
import proofs.«403157_j14328010899645_2_alg».proof.Proof.Ideal.Glue3
import proofs.«403157_j14328010899645_2_alg».proof.Proof.Ideal.Glue4
import proofs.«403157_j14328010899645_2_alg».proof.Proof.Ideal.GlueBias
import proofs.«403157_j14328010899645_2_alg».proof.Proof.Spec.KerSpec
set_option maxRecDepth 16384
noncomputable section
namespace Cert.KernelIdeal.Hand
open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators
variable (m : (ℓ : Loc nD τ sig) → Buf (Elt Ideal) ℓ) (ρ : Dev nD → PrngReg)
theorem w48_1 (c : Dev nD) (t : Fin 256) (c' : Fin 768) :
    W7 (F := Ideal) m ρ c (Proc.devRef .tc main_v48) (ix2 t c') = m ((c : Thread nD τ).loc main_arg9) (ix2 c' t) :=
  (congrFun (keep48_1 m ρ c) (ix2 t c')).trans (W3_v48 m ρ c t c')
theorem b54_1 (c : Dev nD) (z : Fin 1) (c' : Fin 768) :
    W7 (F := Ideal) m ρ c (Proc.devRef .tc main_v54) (ix2 z c') = m ((c : Thread nD τ).loc main_arg10) (ix1 c') := by
  refine (congrFun (g2_v54 (W6 (F := Ideal) m ρ c)) (ix2 z c')).trans ?_
  refine (row768Of_apply _ z c').trans ?_
  exact congrFun (keepArg10_1 m ρ c) (ix1 c')
theorem qkv_1 (c : Dev nD) (l : Fin 4096) (c' : Fin 768) :
    W8 (F := Ideal) m ρ c (Proc.devRef .tc main_v55) (ix2 l c') = (Cert.Spec.qkvOf (fun i t => W6 (F := Ideal) m ρ c (Proc.devRef .tc main_v53) (ix2 i t)) (fun c' t => m ((c : Thread nD τ).loc main_arg9) (ix2 c' t)) (fun c' => m ((c : Thread nD τ).loc main_arg10) (ix1 c'))) l c' := by
  refine (congrFun ((W8_arr m ρ c 3).trans (arr2_value (V7 m ρ) c)) (ix2 l c')).trans ?_
  rw [mm2_apply]
  unfold Cert.Spec.qkvOf Cert.Spec.lin
  refine congrArg₂ (· + ·) (Finset.sum_congr rfl fun t _ => congrArg₂ (· * ·) ?_ ?_) ?_
  · exact congrFun (W7_keep m ρ c main_v53 (by decide)) (ix2 l t)
  · exact w48_1 m ρ c t c'
  · exact b54_1 m ρ c 0 c'
theorem Qf_1 (c : Dev nD) : Qf3 (V9 m ρ) c = Cert.Spec.headsOf (Cert.Spec.qkvOf (fun i t => W6 (F := Ideal) m ρ c (Proc.devRef .tc main_v53) (ix2 i t)) (fun c' t => m ((c : Thread nD τ).loc main_arg9) (ix2 c' t)) (fun c' => m ((c : Thread nD τ).loc main_arg10) (ix1 c'))) 0 := by
  funext hd l d
  show W9 (F := Ideal) m ρ c (Proc.devRef .tc main_v60) (ix3 hd l d) = _
  refine (congrFun (g3_v60 (W8 (F := Ideal) m ρ c)) (ix3 hd l d)).trans ?_
  refine (qOf_apply _ hd l d).trans ?_
  exact qkv_1 m ρ c l _
theorem Kf_1 (c : Dev nD) : Kf3 (V9 m ρ) c = Cert.Spec.headsOf (Cert.Spec.qkvOf (fun i t => W6 (F := Ideal) m ρ c (Proc.devRef .tc main_v53) (ix2 i t)) (fun c' t => m ((c : Thread nD τ).loc main_arg9) (ix2 c' t)) (fun c' => m ((c : Thread nD τ).loc main_arg10) (ix1 c'))) 1 := by
  funext hd l d
  show W9 (F := Ideal) m ρ c (Proc.devRef .tc main_v62) (ix3 hd l d) = _
  refine (congrFun (g3_v62 (W8 (F := Ideal) m ρ c)) (ix3 hd l d)).trans ?_
  refine (kOf_apply _ hd l d).trans ?_
  exact qkv_1 m ρ c l _
theorem Vf_1 (c : Dev nD) : Vf3 (V9 m ρ) c = Cert.Spec.headsOf (Cert.Spec.qkvOf (fun i t => W6 (F := Ideal) m ρ c (Proc.devRef .tc main_v53) (ix2 i t)) (fun c' t => m ((c : Thread nD τ).loc main_arg9) (ix2 c' t)) (fun c' => m ((c : Thread nD τ).loc main_arg10) (ix1 c'))) 2 := by
  funext hd l d
  show W9 (F := Ideal) m ρ c (Proc.devRef .tc main_v64) (ix3 hd l d) = _
  refine (congrFun (g3_v64 (W8 (F := Ideal) m ρ c)) (ix3 hd l d)).trans ?_
  refine (vOf_apply _ hd l d).trans ?_
  exact qkv_1 m ρ c l _
theorem merged_1 (c : Dev nD) (l : Fin 4096) (t : Fin 256) :
    W11 (F := Ideal) m ρ c (Proc.devRef .tc main_v67) (ix2 l t)
      = Cert.Spec.mergeHeads (Cert.Spec.attnKer (Cert.Spec.headsOf (Cert.Spec.qkvOf (fun i t => W6 (F := Ideal) m ρ c (Proc.devRef .tc main_v53) (ix2 i t)) (fun c' t => m ((c : Thread nD τ).loc main_arg9) (ix2 c' t)) (fun c' => m ((c : Thread nD τ).loc main_arg10) (ix1 c'))) 0) (Cert.Spec.headsOf (Cert.Spec.qkvOf (fun i t => W6 (F := Ideal) m ρ c (Proc.devRef .tc main_v53) (ix2 i t)) (fun c' t => m ((c : Thread nD τ).loc main_arg9) (ix2 c' t)) (fun c' => m ((c : Thread nD τ).loc main_arg10) (ix1 c'))) 1) (Cert.Spec.headsOf (Cert.Spec.qkvOf (fun i t => W6 (F := Ideal) m ρ c (Proc.devRef .tc main_v53) (ix2 i t)) (fun c' t => m ((c : Thread nD τ).loc main_arg9) (ix2 c' t)) (fun c' => m ((c : Thread nD τ).loc main_arg10) (ix1 c'))) 2)) l t := by
  refine (congrFun (g4_v67 (W10 (F := Ideal) m ρ c)) (ix2 l t)).trans ?_
  refine (mergeOf_apply _ l t).trans ?_
  refine (congrFun ((W10_arr m ρ c 3).trans (arr3_value (V9 m ρ) c)) _).trans ?_
  show Cert.Spec.attnKer (Qf3 (V9 m ρ) c) (Kf3 (V9 m ρ) c) (Vf3 (V9 m ρ) c) _ l _ = _
  rw [Qf_1, Kf_1, Vf_1]
  rfl
theorem w49_1 (c : Dev nD) (t j : Fin 256) :
    W11 (F := Ideal) m ρ c (Proc.devRef .tc main_v49) (ix2 t j) = m ((c : Thread nD τ).loc main_arg11) (ix2 j t) :=
  (congrFun (keep49_1 m ρ c) (ix2 t j)).trans (W3_v49 m ρ c t j)
theorem b68_1 (c : Dev nD) (z : Fin 1) (j : Fin 256) :
    W11 (F := Ideal) m ρ c (Proc.devRef .tc main_v68) (ix2 z j) = m ((c : Thread nD τ).loc main_arg12) (ix1 j) := by
  refine (congrFun (g4_v68 (W10 (F := Ideal) m ρ c)) (ix2 z j)).trans ?_
  refine (rowOf_apply _ z j).trans ?_
  exact congrFun (keepArg12_1 m ρ c) (ix1 j)
theorem mha1_value (c : Dev nD) (l : Fin 4096) (j : Fin 256) :
    W12 (F := Ideal) m ρ c (Proc.devRef .tc main_v69) (ix2 l j)
      = Cert.Spec.reluOf (Cert.Spec.mhaKer (fun i t => W6 (F := Ideal) m ρ c (Proc.devRef .tc main_v53) (ix2 i t))
          (fun c' t => m ((c : Thread nD τ).loc main_arg9) (ix2 c' t)) (fun c' => m ((c : Thread nD τ).loc main_arg10) (ix1 c'))
          (fun c' t => m ((c : Thread nD τ).loc main_arg11) (ix2 c' t)) (fun c' => m ((c : Thread nD τ).loc main_arg12) (ix1 c'))) l j := by
  refine (congrFun ((W12_arr m ρ c 3).trans (arr4_value (V11 m ρ) c)) (ix2 l j)).trans ?_
  rw [mm4_apply]
  unfold Cert.Spec.reluOf Cert.Spec.mhaKer Cert.Spec.lin
  refine congrArg (fun y : EReal => max y 0) ?_
  refine congrArg₂ (· + ·) (Finset.sum_congr rfl fun t _ => congrArg₂ (· * ·) ?_ ?_) ?_
  · exact merged_1 m ρ c l t
  · exact w49_1 m ρ c t j
  · exact b68_1 m ρ c 0 j
end Cert.KernelIdeal.Hand
end
-- ==== Proof.Ideal.MatmulValue7.lean ====
import proofs.«403157_j14328010899645_2_alg».proof.Proof.Ideal.Region7
import proofs.«403157_j14328010899645_2_alg».proof.Proof.Ideal.MatmulPay

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

def mm7 (a : Vec Ideal S4096x256 .f32) (b : Vec Ideal S256x768 .f32) (bias : Vec Ideal S1x768 .f32) : Vec Ideal S4096x768 .bf16 :=
  mmOf (fun y => y) a b bias

theorem mm7_apply (a : Vec Ideal S4096x256 .f32) (b : Vec Ideal S256x768 .f32) (bias : Vec Ideal S1x768 .f32) (i : Fin 4096) (j : Fin 768) :
    mm7 a b bias (ix2 i j) = (∑ t : Fin 256, a (ix2 i t) * b (ix2 t j)) + bias (ix2 0 j) := rfl

theorem idx_facts7 : ∀ t : Fin cfg7.N, win7_3.index t (0 : Fin 2) = t.val ∧ win7_3.index t (1 : Fin 2) = 0
    ∧ win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0 :=
  (by decide +kernel : ∀ t : Fin grid7.N, _)

-- On every row block both sides are the same sums, and row r lies in block r / 512.
theorem arr7_value (c : Dev nD) : (dat7 (F := Ideal) V c).arrAt 3 cfg7.N
    = mm7 (V c (Pipeline.arrRef spec7 0)) (V c (Pipeline.arrRef spec7 1)) (V c (Pipeline.arrRef spec7 2)) := by
  refine (dat7 (F := Ideal) V c).arrAt_eq_of_cover 3 _ (fun t _ => ?_) fun (i : S4096x768.Idx) => ?_
  · show (cfg7.win 3).cut (grid7.coords t) ((dat7 (F := Ideal) V c).after 3 t) = _
    rw [after7_3]
    unfold out7_3
    rw [View.canon_unit_zero zeroOff]
    simp only [View.ld_unit_zero (S := S512x256) zeroOff, View.ld_unit_zero (S := S256x768) zeroOff, View.ld_unit_zero (S := S1x768) zeroOff]
    exact funext (mmOf_block _ _ _ _ (win7_0.rect_emb_val t) (win7_1.rect_emb_val t) (win7_2.rect_emb_val t)
      (win7_3.rect_emb_val t) (idx_facts7 t) rfl (pay7_apply _ _ _))
  · have hi : (i 0).val < 4096 := (i 0).isLt
    have ht : (i 0).val / 512 < cfg7.N := by rw [show cfg7.N = 8 from N_7]; omega
    refine ⟨⟨_, ht⟩, flush7_3 _, ?_⟩
    show i ∈ ((View.whole main_v75).slice (win7_3.rect ⟨(i 0).val / 512, ht⟩)).set
    rw [View.set_slice_whole]
    exact rowBlock_mem i (idx_facts7 _).1 (idx_facts7 _).2.1 ⟨rfl, rfl, rfl⟩ (by decide)

end Cert.KernelIdeal.Hand
-- ==== Proof.Ideal.MatmulValue9.lean ====
import proofs.«403157_j14328010899645_2_alg».proof.Proof.Ideal.Region9
import proofs.«403157_j14328010899645_2_alg».proof.Proof.Ideal.MatmulPay
import Idealize.ShloMosaic.Lib.ValueIdx
import Idealize.ShloMosaic.Lib.Pipeline.Value
import Idealize.ShloMosaic.PureOps.Ideal.Laws

/-! # Region 9 of the kernel program: the array it leaves, at the ideal instance

The region's grid walks the row blocks of the left operand; at point t the body stores the matmul-plus-bias payload of
the left operand's block t, the whole weight and the bias row over the output's block t. Read index by index, what point
t writes back is block t of ONE function of the three operand arrays, mm9; the output's blocks tile its array (row r is in
the block of point r / 512), so the array ends holding mm9 of the operands as the region finds them. -/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- the TensorCore's buffer contents when the region is entered
variable (V : (c : Dev nD) → (b : Ref sig .tc) → Buf (Elt Ideal) ((c : Thread nD τ).loc b))

/-- The array region 9 leaves: the left operand times the weight, plus the bias row, then the maximum with zero. -/
def mm9 (a : Vec Ideal S4096x256 .bf16) (b : Vec Ideal S256x256 .f32) (bias : Vec Ideal S1x256 .f32) : Vec Ideal S4096x256 .f32 :=
  mmOf (fun y => max (y) 0) a b bias

theorem mm9_apply (a : Vec Ideal S4096x256 .bf16) (b : Vec Ideal S256x256 .f32) (bias : Vec Ideal S1x256 .f32) (i : Fin 4096) (j : Fin 256) :
    mm9 a b bias (ix2 i j) = max ((∑ t : Fin 256, a (ix2 i t) * b (ix2 t j)) + bias (ix2 0 j)) 0 := rfl

theorem zeros9 : (![0, 0] : Fin 2 → Nat) = fun _ => 0 := funext fun a => by fin_cases a <;> rfl

/-- The printed index maps over the grid: the left operand's and the output's block index is (t, 0) at point t, the
    weight's and the bias row's (0, 0). -/
theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- Row p of point t's block is row t · 512 + p of the array. -/
theorem row9_lt (t : Fin cfg9.N) (p : Fin 512) : t.val * 512 + p.val < 4096 := by
  have ht : t.val < 8 := N_9 ▸ t.isLt
  have hp := p.isLt
  omega

/-- Where an element of each window's block at point t sits in its array. -/
theorem emb9_0 (t : Fin cfg9.N) (p : Fin 512) (s : Fin 256) :
    ((cfg9.win 0).blk t).view.emb (ix2 p s) = (ix2 (⟨t.val * 512 + p.val, row9_lt t p⟩ : Fin 4096) s : S4096x256.Idx) := by
  obtain ⟨e0, e1, -⟩ := idx_facts9 t
  funext a; apply Fin.ext
  match a with
  | ⟨0, _⟩ => show win9_0.index t (0 : Fin 2) * 512 + 1 * p.val = t.val * 512 + p.val; omega
  | ⟨1, _⟩ => show win9_0.index t (1 : Fin 2) * 256 + 1 * s.val = s.val; omega
theorem emb9_1 (t : Fin cfg9.N) (s : Fin 256) (q : Fin 256) :
    ((cfg9.win 1).blk t).view.emb (ix2 s q) = (ix2 s q : S256x256.Idx) := by
  obtain ⟨-, -, e0, e1, -⟩ := idx_facts9 t
  funext a; apply Fin.ext
  match a with
  | ⟨0, _⟩ => show win9_1.index t (0 : Fin 2) * 256 + 1 * s.val = s.val; omega
  | ⟨1, _⟩ => show win9_1.index t (1 : Fin 2) * 256 + 1 * q.val = q.val; omega
theorem emb9_2 (t : Fin cfg9.N) (z : Fin 1) (q : Fin 256) :
    ((cfg9.win 2).blk t).view.emb (ix2 z q) = (ix2 z q : S1x256.Idx) := by
  obtain ⟨-, -, -, -, e0, e1, -⟩ := idx_facts9 t
  funext a; apply Fin.ext
  match a with
  | ⟨0, _⟩ => show win9_2.index t (0 : Fin 2) * 1 + 1 * z.val = z.val; omega
  | ⟨1, _⟩ => show win9_2.index t (1 : Fin 2) * 256 + 1 * q.val = q.val; omega
theorem emb9_3 (t : Fin cfg9.N) (p : Fin 512) (q : Fin 256) :
    ((cfg9.win 3).blk t).view.emb (ix2 p q) = (ix2 (⟨t.val * 512 + p.val, row9_lt t p⟩ : Fin 4096) q : S4096x256.Idx) := by
  obtain ⟨-, -, -, -, -, -, e0, e1⟩ := idx_facts9 t
  funext a; apply Fin.ext
  match a with
  | ⟨0, _⟩ => show win9_3.index t (0 : Fin 2) * 512 + 1 * p.val = t.val * 512 + p.val; omega
  | ⟨1, _⟩ => show win9_3.index t (1 : Fin 2) * 256 + 1 * q.val = q.val; omega

/-- The three operand arrays as the region finds them, and their blocks at point t, at their literal types. -/
abbrev xarr9 (c : Dev nD) : Vec Ideal S4096x256 .bf16 := V c (Pipeline.arrRef spec9 0)
abbrev warr9 (c : Dev nD) : Vec Ideal S256x256 .f32 := V c (Pipeline.arrRef spec9 1)
abbrev barr9 (c : Dev nD) : Vec Ideal S1x256 .f32 := V c (Pipeline.arrRef spec9 2)
abbrev xblk9 (c : Dev nD) (t : Fin cfg9.N) : Vec Ideal S512x256 .bf16 := iblk9 V c 0 t
abbrev wblk9 (c : Dev nD) (t : Fin cfg9.N) : Vec Ideal S256x256 .f32 := iblk9 V c 1 t
abbrev bblk9 (c : Dev nD) (t : Fin cfg9.N) : Vec Ideal S1x256 .f32 := iblk9 V c 2 t

/-- A block's element is the array's at the place the window puts it. -/
theorem xblk9_apply (c : Dev nD) (t : Fin cfg9.N) (p : Fin 512) (s : Fin 256) :
    xblk9 V c t (ix2 p s) = xarr9 V c (ix2 (⟨t.val * 512 + p.val, row9_lt t p⟩ : Fin 4096) s) :=
  congrArg (xarr9 V c) (emb9_0 t p s)
theorem wblk9_apply (c : Dev nD) (t : Fin cfg9.N) (s : Fin 256) (q : Fin 256) :
    wblk9 V c t (ix2 s q) = warr9 V c (ix2 s q) :=
  congrArg (warr9 V c) (emb9_1 t s q)
theorem bblk9_apply (c : Dev nD) (t : Fin cfg9.N) (z : Fin 1) (q : Fin 256) :
    bblk9 V c t (ix2 z q) = barr9 V c (ix2 z q) :=
  congrArg (barr9 V c) (emb9_2 t z q)

/-- What point t writes back is block t of mm9 of the three arrays as the region finds them: at row p and column q of
    the block the payload reads row p of the left block, which is row t · 512 + p of the left array, against the whole
    weight and bias. -/
theorem flushed9_eq (c : Dev nD) (t : Fin cfg9.N) :
    (dat9 (F := Ideal) V c).flushed 3 t = ((cfg9.win 3).blk t).view.read (Elt Ideal)
      (mm9 (V c (Pipeline.arrRef spec9 0)) (V c (Pipeline.arrRef spec9 1)) (V c (Pipeline.arrRef spec9 2))) := by
  show (cfg9.win 3).cut (grid9.coords t) ((dat9 (F := Ideal) V c).after 3 t) = _
  rw [after9_3]
  unfold out9_3
  rw [View.canon_unit_zero zeros9]
  simp only [View.ld_unit_zero (S := S512x256) zeros9, View.ld_unit_zero (S := S256x256) zeros9, View.ld_unit_zero (S := S1x256) zeros9]
  funext j
  obtain ⟨p, q, rfl⟩ : ∃ (p : Fin 512) (q : Fin 256), j = ix2 p q := ⟨j 0, j 1, eq_ix2 j⟩
  show k9_pay1 (F := Ideal) (xblk9 V c t) (wblk9 V c t) (bblk9 V c t) (ix2 p q)
    = mm9 (xarr9 V c) (warr9 V c) (barr9 V c) (((cfg9.win 3).blk t).view.emb (ix2 p q))
  rw [emb9_3 t p q]
  refine (pay9_apply (xblk9 V c t) (wblk9 V c t) (bblk9 V c t) p q).trans ?_
  refine Eq.trans ?_ (mm9_apply (xarr9 V c) (warr9 V c) (barr9 V c) ⟨t.val * 512 + p.val, row9_lt t p⟩ q).symm
  rw [bblk9_apply V c t 0 q]
  exact congrArg (fun z => max (z + barr9 V c (ix2 0 q)) 0) (Finset.sum_congr rfl fun s _ => by rw [xblk9_apply V c t p s, wblk9_apply V c t s q])

/-- An index of the array is in point t's block iff each coordinate is in the block's range on its axis. -/
theorem mem_blk9 (t : Fin cfg9.N) (i : S4096x256.Idx) :
    i ∈ ((cfg9.win 3).blk t).view.set ↔ ∀ a : Fin 2, win9_3.index t a * S512x256.size a ≤ (i a).val ∧ (i a).val < win9_3.index t a * S512x256.size a + S512x256.size a := by
  show i ∈ ((View.whole main_v89).slice (win9_3.rect t)).set ↔ _
  rw [View.set_slice_whole, Rect.mem_set_unit]
  exact Iff.rfl

/-- Every index of the array is in some point's block: row r is in the block of point r / 512. -/
theorem cover9 (i : S4096x256.Idx) : ∃ t : Fin cfg9.N, (cfg9.win 3).flush t = true ∧ i ∈ ((cfg9.win 3).blk t).view.set := by
  have hi0 : (i 0).val < 4096 := (i 0).isLt
  have hi1 : (i 1).val < 256 := (i 1).isLt
  let t : Fin cfg9.N := ⟨(i 0).val / 512, by rw [show cfg9.N = 8 from N_9]; omega⟩
  obtain ⟨-, -, -, -, -, -, e0, e1⟩ := idx_facts9 t
  have et : t.val = (i 0).val / 512 := rfl
  refine ⟨t, flush9_3 t, ?_⟩
  rw [mem_blk9]
  intro a
  match a with
  | ⟨0, _⟩ => show win9_3.index t (0 : Fin 2) * 512 ≤ (i 0).val ∧ (i 0).val < win9_3.index t (0 : Fin 2) * 512 + 512; omega
  | ⟨1, _⟩ => show win9_3.index t (1 : Fin 2) * 256 ≤ (i 1).val ∧ (i 1).val < win9_3.index t (1 : Fin 2) * 256 + 256; omega

/-- The array after the region: mm9 of the three arrays as the region finds them. -/
theorem arr9_value (c : Dev nD) : (dat9 (F := Ideal) V c).arrAt 3 cfg9.N
    = mm9 (V c (Pipeline.arrRef spec9 0)) (V c (Pipeline.arrRef spec9 1)) (V c (Pipeline.arrRef spec9 2)) :=
  (dat9 (F := Ideal) V c).arrAt_eq_of_cover 3 _ (fun t _ => flushed9_eq V c t) cover9

end Cert.KernelIdeal.Hand
-- ==== Proof.Ideal.FlashValue8.lean ====
import proofs.«403157_j14328010899645_2_alg».proof.Proof.Ideal.Region8
import proofs.«403157_j14328010899645_2_alg».proof.Proof.Ideal.FlashRow
import proofs.«403157_j14328010899645_2_alg».proof.Proof.Spec.KerSpec
import Idealize.ShloMosaic.Lib.Pipeline.Value

set_option maxRecDepth 16384

noncomputable section

namespace Cert.KernelIdeal.Hand

open Cert.KernelIdeal Cert.KernelIdeal.Gen Cert.KernelIdeal.Hand.Flash
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

def Qf8 (c : Dev nD) (hd : Fin 4) (l : Fin 4096) (d : Fin 64) : EReal := V c (Pipeline.arrRef spec8 0) (ix3 hd l d)
def Kf8 (c : Dev nD) (hd : Fin 4) (l : Fin 4096) (d : Fin 64) : EReal := V c (Pipeline.arrRef spec8 1) (ix3 hd l d)
def Vf8 (c : Dev nD) (hd : Fin 4) (l : Fin 4096) (d : Fin 64) : EReal := V c (Pipeline.arrRef spec8 2) (ix3 hd l d)

theorem idx_facts8 : ∀ t : Fin cfg8.N,
    (win8_0.index t (0 : Fin 3) = 0 ∧ win8_0.index t (1 : Fin 3) = t.val / 8 ∧ win8_0.index t (2 : Fin 3) = 0)
    ∧ (win8_1.index t (0 : Fin 3) = 0 ∧ win8_1.index t (1 : Fin 3) = t.val % 8 ∧ win8_1.index t (2 : Fin 3) = 0)
    ∧ (win8_2.index t (0 : Fin 3) = 0 ∧ win8_2.index t (1 : Fin 3) = t.val % 8 ∧ win8_2.index t (2 : Fin 3) = 0)
    ∧ (win8_3.index t (0 : Fin 3) = 0 ∧ win8_3.index t (1 : Fin 3) = t.val / 8 ∧ win8_3.index t (2 : Fin 3) = 0) :=
  (by decide +kernel : ∀ t : Fin grid8.N, _)

theorem tN8 (t : Fin cfg8.N) : t.val < 32 := t.isLt

theorem ptN8 (qi : Fin 4) (kv : ℕ) (hkv : kv < 8) : 8 * qi.val + kv < cfg8.N := by
  show 8 * qi.val + kv < 32
  omega

theorem iblk8_0_apply (c : Dev nD) (t : Fin cfg8.N) (hd : Fin 4) (l : Fin 1024) (d : Fin 64) :
    (iblk8 V c 0 t : Vec Ideal S4x1024x64 .bf16) (ix3 hd l d) = Qf8 V c hd ⟨1024 * (t.val / 8) + l.val, by have := tN8 t; omega⟩ d :=
  congrArg (V c (Pipeline.arrRef spec8 0)) (emb_mid (win8_0.rect_emb_val t) (idx_facts8 t).1 _ _
    ⟨rfl, by show 1024 * (t.val / 8) + l.val = t.val / 8 * 1024 + l.val; omega, rfl⟩)

theorem iblk8_1_apply (c : Dev nD) (t : Fin cfg8.N) (hd : Fin 4) (kk : Fin 512) (d : Fin 64) :
    (iblk8 V c 1 t : Vec Ideal S4x512x64 .bf16) (ix3 hd kk d) = Kf8 V c hd (Cert.Spec.keyAt (t.val % 8) kk) d :=
  congrArg (V c (Pipeline.arrRef spec8 1)) (emb_mid (win8_1.rect_emb_val t) (idx_facts8 t).2.1 _ _
    ⟨rfl, by show (t.val % 8 * 512 + kk.val) % 4096 = t.val % 8 * 512 + kk.val; have := kk.isLt; omega, rfl⟩)

theorem iblk8_2_apply (c : Dev nD) (t : Fin cfg8.N) (hd : Fin 4) (kk : Fin 512) (d : Fin 64) :
    (iblk8 V c 2 t : Vec Ideal S4x512x64 .bf16) (ix3 hd kk d) = Vf8 V c hd (Cert.Spec.keyAt (t.val % 8) kk) d :=
  congrArg (V c (Pipeline.arrRef spec8 2)) (emb_mid (win8_2.rect_emb_val t) (idx_facts8 t).2.2.1 _ _
    ⟨rfl, by show (t.val % 8 * 512 + kk.val) % 4096 = t.val % 8 * 512 + kk.val; have := kk.isLt; omega, rfl⟩)

theorem score_blk8 (c : Dev nD) (t : Fin cfg8.N) (hd : Fin 4) (l : Fin 1024) (kk : Fin 512) :
    k3_pay7 (F := Ideal) (iblk8 V c 0 t) (iblk8 V c 1 t) (ix3 hd l kk)
      = Cert.Spec.scoreKer (Qf8 V c) (Kf8 V c) hd ⟨1024 * (t.val / 8) + l.val, by have := tN8 t; omega⟩ (t.val % 8) kk := by
  rw [pay7_apply, scale_bits]
  unfold Cert.Spec.scoreKer
  refine congrArg (· * _) (Finset.sum_congr rfl fun d _ => ?_)
  rw [iblk8_0_apply, iblk8_1_apply]

theorem step_blk8 (c : Dev nD) (t : Fin cfg8.N) (s : St8 Ideal) (hd : Fin 4) (l : Fin 1024) :
    rowSt (step8 (iblk8 V c 0 t) (iblk8 V c 1 t) (iblk8 V c 2 t) s) hd l
      = Cert.Spec.flashStep (Cert.Spec.scoreKer (Qf8 V c) (Kf8 V c) hd ⟨1024 * (t.val / 8) + l.val, by have := tN8 t; omega⟩ (t.val % 8))
          (fun kk d => Vf8 V c hd (Cert.Spec.keyAt (t.val % 8) kk) d) (rowSt s hd l) := by
  refine (rowSt_step (iblk8 V c 0 t) (iblk8 V c 1 t) (iblk8 V c 2 t) s hd l).trans ?_
  congr 1
  · funext kk; exact score_blk8 V c t hd l kk
  · funext kk d; exact iblk8_2_apply V c t hd kk d

theorem step_pt8 (c : Dev nD) (qi : Fin 4) (kv : ℕ) (hkv : kv < 8) (ht : 8 * qi.val + kv < cfg8.N) (s : St8 Ideal) (hd : Fin 4) (l : Fin 1024) :
    rowSt (step8 (iblk8 V c 0 ⟨8 * qi.val + kv, ht⟩) (iblk8 V c 1 ⟨8 * qi.val + kv, ht⟩) (iblk8 V c 2 ⟨8 * qi.val + kv, ht⟩) s) hd l
      = Cert.Spec.flashStep (Cert.Spec.scoreKer (Qf8 V c) (Kf8 V c) hd ⟨1024 * qi.val + l.val, by omega⟩ kv)
          (fun kk d => Vf8 V c hd (Cert.Spec.keyAt kv kk) d) (rowSt s hd l) := by
  have e := step_blk8 V c ⟨8 * qi.val + kv, ht⟩ s hd l
  have h8 : (8 * qi.val + kv) / 8 = qi.val := by omega
  have h0 : (8 * qi.val + kv) % 8 = kv := by omega
  simp only [h8, h0] at e
  exact e

theorem rowSt_scr8 (c : Dev nD) (qi : Fin 4) (hd : Fin 4) (l : Fin 1024) :
    ∀ (kv : ℕ) (hkv : kv < 8), rowSt (scr8 V c (8 * qi.val + kv)) hd l
      = Cert.Spec.flashFold (Cert.Spec.scoreKer (Qf8 V c) (Kf8 V c) hd ⟨1024 * qi.val + l.val, by omega⟩)
          (fun kb kk d => Vf8 V c hd (Cert.Spec.keyAt kb kk) d) (kv + 1)
  | 0, hkv => by
    have e := scr8_first V c ⟨8 * qi.val + 0, ptN8 qi 0 hkv⟩ (by show (8 * qi.val + 0) % 8 = 0; omega)
    dsimp only at e
    rw [e, step_pt8 V c qi 0 hkv, show rowSt (init8 (F := Ideal)) hd l = Cert.Spec.flashInit 64 from rowSt_init hd l]
    rfl
  | kv + 1, hkv => by
    have e := scr8_next V c ⟨8 * qi.val + (kv + 1), ptN8 qi (kv + 1) hkv⟩ (by show ¬ (8 * qi.val + (kv + 1)) % 8 = 0; omega)
    have hp : 8 * qi.val + (kv + 1) - 1 = 8 * qi.val + kv := by omega
    dsimp only at e
    rw [hp] at e
    rw [e, step_pt8 V c qi (kv + 1) hkv, rowSt_scr8 c qi hd l kv (by omega)]
    rfl

theorem out_row8 (c : Dev nD) (qi : Fin 4) (hd : Fin 4) (l : Fin 1024) (d : Fin 64) :
    (out8_3 (scr8 V c (8 * qi.val + 7)) : Vec Ideal S4x1024x64 .bf16) (ix3 hd l d)
      = Cert.Spec.attnKer (Qf8 V c) (Kf8 V c) (Vf8 V c) hd ⟨1024 * qi.val + l.val, by omega⟩ d := by
  refine (fout_apply (scr8 V c (8 * qi.val + 7)) hd l d).trans ?_
  rw [rowSt_scr8 V c qi hd l 7 (by omega)]
  rfl

theorem out_row_at8 (c : Dev nD) (t : Fin cfg8.N) (h7 : t.val % 8 = 7) (hd : Fin 4) (l : Fin 1024) (d : Fin 64) :
    (out8_3 (scr8 V c t.val) : Vec Ideal S4x1024x64 .bf16) (ix3 hd l d)
      = Cert.Spec.attnKer (Qf8 V c) (Kf8 V c) (Vf8 V c) hd ⟨1024 * (t.val / 8) + l.val, by have := tN8 t; omega⟩ d := by
  have ht : t.val = 8 * (⟨t.val / 8, by have := tN8 t; omega⟩ : Fin 4).val + 7 := by show t.val = 8 * (t.val / 8) + 7; omega
  have e := out_row8 V c ⟨t.val / 8, by have := tN8 t; omega⟩ hd l d
  rw [← ht] at e
  exact e

def attnArr8 (c : Dev nD) : S4x4096x64.Idx → EReal := fun i => Cert.Spec.attnKer (Qf8 V c) (Kf8 V c) (Vf8 V c) (i 0) (i 1) (i 2)

theorem emb8_3 (t : Fin cfg8.N) (j : ((cfg8.win 3).xblock (grid8.coords t)).Idx)
    (hj0 : (j 0).val < 4) (hj1 : (j 1).val < 1024) (hj2 : (j 2).val < 64) :
    ((cfg8.win 3).blk t).view.emb j
      = (ix3 ⟨(j 0).val, hj0⟩ ⟨1024 * (t.val / 8) + (j 1).val, by have := tN8 t; omega⟩ ⟨(j 2).val, hj2⟩ : S4x4096x64.Idx) :=
  emb_mid (win8_3.rect_emb_val t) (idx_facts8 t).2.2.2 j _
    ⟨rfl, by show 1024 * (t.val / 8) + (j 1).val = t.val / 8 * 1024 + (j 1).val; omega, rfl⟩

theorem xinj8_3 (t : Fin cfg8.N) (j : ((cfg8.win 3).xblock (grid8.coords t)).Idx)
    (hj0 : (j 0).val < 4) (hj1 : (j 1).val < 1024) (hj2 : (j 2).val < 64) :
    (cfg8.win 3).xinj (grid8.coords t) j = (ix3 ⟨(j 0).val, hj0⟩ ⟨(j 1).val, hj1⟩ ⟨(j 2).val, hj2⟩ : S4x1024x64.Idx) := by
  funext a
  match a with
  | ⟨0, _⟩ => rfl
  | ⟨1, _⟩ => rfl
  | ⟨2, _⟩ => rfl

theorem flushed8_eq (c : Dev nD) (t : Fin cfg8.N) (hf : (cfg8.win 3).flush t = true) :
    (dat8 V c).flushed 3 t = ((cfg8.win 3).blk t).view.read (Elt Ideal) (attnArr8 V c) := by
  have h7 : t.val % 8 = 7 := (flush8_3 t).1 hf
  show (cfg8.win 3).cut (grid8.coords t) ((dat8 V c).after 3 t) = _
  rw [after8_3]
  funext j
  have hj0 : (j 0).val < 4 := (j 0).isLt
  have hj1 : (j 1).val < 1024 := (j 1).isLt
  have hj2 : (j 2).val < 64 := (j 2).isLt
  rw [View.read_apply, emb8_3 t j hj0 hj1 hj2]
  refine Eq.trans (congrArg (out8_3 (scr8 V c t.val) : Vec Ideal S4x1024x64 .bf16) (xinj8_3 t j hj0 hj1 hj2)) ?_
  exact out_row_at8 V c t h7 _ _ _

theorem cover8 (i : S4x4096x64.Idx) : ∃ t : Fin cfg8.N, (cfg8.win 3).flush t = true ∧ i ∈ ((cfg8.win 3).blk t).view.set := by
  have hi0 : (i 0).val < 4 := (i 0).isLt
  have hi1 : (i 1).val < 4096 := (i 1).isLt
  have hi2 : (i 2).val < 64 := (i 2).isLt
  have ht : 8 * ((i 1).val / 1024) + 7 < cfg8.N := by show _ < 32; omega
  refine ⟨⟨8 * ((i 1).val / 1024) + 7, ht⟩, (flush8_3 _).2 (by show (8 * ((i 1).val / 1024) + 7) % 8 = 7; omega), ?_⟩
  show i ∈ ((View.whole main_v85).slice (win8_3.rect ⟨8 * ((i 1).val / 1024) + 7, ht⟩)).set
  rw [View.set_slice_whole, Rect.mem_set_unit]
  obtain ⟨e0, e1, e2⟩ := (idx_facts8 ⟨8 * ((i 1).val / 1024) + 7, ht⟩).2.2.2
  have e1' : win8_3.index ⟨8 * ((i 1).val / 1024) + 7, ht⟩ (1 : Fin 3) = (i 1).val / 1024 := by
    rw [e1]; show (8 * ((i 1).val / 1024) + 7) / 8 = _; omega
  intro a
  match a with
  | ⟨0, _⟩ => show win8_3.index _ (0 : Fin 3) * 4 ≤ (i 0).val ∧ (i 0).val < win8_3.index _ (0 : Fin 3) * 4 + 4; omega
  | ⟨1, _⟩ => show win8_3.index _ (1 : Fin 3) * 1024 ≤ (i 1).val ∧ (i 1).val < win8_3.index _ (1 : Fin 3) * 1024 + 1024; omega
  | ⟨2, _⟩ => show win8_3.index _ (2 : Fin 3) * 64 ≤ (i 2).val ∧ (i 2).val < win8_3.index _ (2 : Fin 3) * 64 + 64; omega

theorem arr8_value (c : Dev nD) : (dat8 (F := Ideal) V c).arrAt 3 cfg8.N = attnArr8 V c :=
  (dat8 V c).arrAt_eq_of_cover 3 (attnArr8 V c) (fun t hf => flushed8_eq V c t hf) cover8

end Cert.KernelIdeal.Hand

end
-- ==== Proof.Ideal.WalkMha2.lean ====
import proofs.«403157_j14328010899645_2_alg».proof.Proof.Ideal.WalkKeep
import proofs.«403157_j14328010899645_2_alg».proof.Proof.Ideal.MatmulValue7
import proofs.«403157_j14328010899645_2_alg».proof.Proof.Ideal.MatmulValue9
import proofs.«403157_j14328010899645_2_alg».proof.Proof.Ideal.FlashValue8
import proofs.«403157_j14328010899645_2_alg».proof.Proof.Ideal.Glue3
import proofs.«403157_j14328010899645_2_alg».proof.Proof.Ideal.Glue4
import proofs.«403157_j14328010899645_2_alg».proof.Proof.Ideal.GlueBias
import proofs.«403157_j14328010899645_2_alg».proof.Proof.Spec.KerSpec
set_option maxRecDepth 16384
noncomputable section
namespace Cert.KernelIdeal.Hand
open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators
variable (m : (ℓ : Loc nD τ sig) → Buf (Elt Ideal) ℓ) (ρ : Dev nD → PrngReg)
theorem w48_2 (c : Dev nD) (t : Fin 256) (c' : Fin 768) :
    W17 (F := Ideal) m ρ c (Proc.devRef .tc main_v48) (ix2 t c') = m ((c : Thread nD τ).loc main_arg9) (ix2 c' t) :=
  (congrFun (keep48_2 m ρ c) (ix2 t c')).trans (W3_v48 m ρ c t c')
theorem b54_2 (c : Dev nD) (z : Fin 1) (c' : Fin 768) :
    W17 (F := Ideal) m ρ c (Proc.devRef .tc main_v74) (ix2 z c') = m ((c : Thread nD τ).loc main_arg10) (ix1 c') := by
  refine (congrFun (g7_v74 (W16 (F := Ideal) m ρ c)) (ix2 z c')).trans ?_
  refine (row768Of_apply _ z c').trans ?_
  exact congrFun (keepArg10_2 m ρ c) (ix1 c')
theorem qkv_2 (c : Dev nD) (l : Fin 4096) (c' : Fin 768) :
    W18 (F := Ideal) m ρ c (Proc.devRef .tc main_v75) (ix2 l c') = (Cert.Spec.qkvOf (fun i t => W16 (F := Ideal) m ρ c (Proc.devRef .tc main_v73) (ix2 i t)) (fun c' t => m ((c : Thread nD τ).loc main_arg9) (ix2 c' t)) (fun c' => m ((c : Thread nD τ).loc main_arg10) (ix1 c'))) l c' := by
  refine (congrFun ((W18_arr m ρ c 3).trans (arr7_value (V17 m ρ) c)) (ix2 l c')).trans ?_
  rw [mm7_apply]
  unfold Cert.Spec.qkvOf Cert.Spec.lin
  refine congrArg₂ (· + ·) (Finset.sum_congr rfl fun t _ => congrArg₂ (· * ·) ?_ ?_) ?_
  · exact congrFun (W17_keep m ρ c main_v73 (by decide)) (ix2 l t)
  · exact w48_2 m ρ c t c'
  · exact b54_2 m ρ c 0 c'
theorem Qf_2 (c : Dev nD) : Qf8 (V19 m ρ) c = Cert.Spec.headsOf (Cert.Spec.qkvOf (fun i t => W16 (F := Ideal) m ρ c (Proc.devRef .tc main_v73) (ix2 i t)) (fun c' t => m ((c : Thread nD τ).loc main_arg9) (ix2 c' t)) (fun c' => m ((c : Thread nD τ).loc main_arg10) (ix1 c'))) 0 := by
  funext hd l d
  show W19 (F := Ideal) m ρ c (Proc.devRef .tc main_v80) (ix3 hd l d) = _
  refine (congrFun (g8_v80 (W18 (F := Ideal) m ρ c)) (ix3 hd l d)).trans ?_
  refine (qOf_apply _ hd l d).trans ?_
  exact qkv_2 m ρ c l _
theorem Kf_2 (c : Dev nD) : Kf8 (V19 m ρ) c = Cert.Spec.headsOf (Cert.Spec.qkvOf (fun i t => W16 (F := Ideal) m ρ c (Proc.devRef .tc main_v73) (ix2 i t)) (fun c' t => m ((c : Thread nD τ).loc main_arg9) (ix2 c' t)) (fun c' => m ((c : Thread nD τ).loc main_arg10) (ix1 c'))) 1 := by
  funext hd l d
  show W19 (F := Ideal) m ρ c (Proc.devRef .tc main_v82) (ix3 hd l d) = _
  refine (congrFun (g8_v82 (W18 (F := Ideal) m ρ c)) (ix3 hd l d)).trans ?_
  refine (kOf_apply _ hd l d).trans ?_
  exact qkv_2 m ρ c l _
theorem Vf_2 (c : Dev nD) : Vf8 (V19 m ρ) c = Cert.Spec.headsOf (Cert.Spec.qkvOf (fun i t => W16 (F := Ideal) m ρ c (Proc.devRef .tc main_v73) (ix2 i t)) (fun c' t => m ((c : Thread nD τ).loc main_arg9) (ix2 c' t)) (fun c' => m ((c : Thread nD τ).loc main_arg10) (ix1 c'))) 2 := by
  funext hd l d
  show W19 (F := Ideal) m ρ c (Proc.devRef .tc main_v84) (ix3 hd l d) = _
  refine (congrFun (g8_v84 (W18 (F := Ideal) m ρ c)) (ix3 hd l d)).trans ?_
  refine (vOf_apply _ hd l d).trans ?_
  exact qkv_2 m ρ c l _
theorem merged_2 (c : Dev nD) (l : Fin 4096) (t : Fin 256) :
    W21 (F := Ideal) m ρ c (Proc.devRef .tc main_v87) (ix2 l t)
      = Cert.Spec.mergeHeads (Cert.Spec.attnKer (Cert.Spec.headsOf (Cert.Spec.qkvOf (fun i t => W16 (F := Ideal) m ρ c (Proc.devRef .tc main_v73) (ix2 i t)) (fun c' t => m ((c : Thread nD τ).loc main_arg9) (ix2 c' t)) (fun c' => m ((c : Thread nD τ).loc main_arg10) (ix1 c'))) 0) (Cert.Spec.headsOf (Cert.Spec.qkvOf (fun i t => W16 (F := Ideal) m ρ c (Proc.devRef .tc main_v73) (ix2 i t)) (fun c' t => m ((c : Thread nD τ).loc main_arg9) (ix2 c' t)) (fun c' => m ((c : Thread nD τ).loc main_arg10) (ix1 c'))) 1) (Cert.Spec.headsOf (Cert.Spec.qkvOf (fun i t => W16 (F := Ideal) m ρ c (Proc.devRef .tc main_v73) (ix2 i t)) (fun c' t => m ((c : Thread nD τ).loc main_arg9) (ix2 c' t)) (fun c' => m ((c : Thread nD τ).loc main_arg10) (ix1 c'))) 2)) l t := by
  refine (congrFun (g9_v87 (W20 (F := Ideal) m ρ c)) (ix2 l t)).trans ?_
  refine (mergeOf_apply _ l t).trans ?_
  refine (congrFun ((W20_arr m ρ c 3).trans (arr8_value (V19 m ρ) c)) _).trans ?_
  show Cert.Spec.attnKer (Qf8 (V19 m ρ) c) (Kf8 (V19 m ρ) c) (Vf8 (V19 m ρ) c) _ l _ = _
  rw [Qf_2, Kf_2, Vf_2]
  rfl
theorem w49_2 (c : Dev nD) (t j : Fin 256) :
    W21 (F := Ideal) m ρ c (Proc.devRef .tc main_v49) (ix2 t j) = m ((c : Thread nD τ).loc main_arg11) (ix2 j t) :=
  (congrFun (keep49_2 m ρ c) (ix2 t j)).trans (W3_v49 m ρ c t j)
theorem b68_2 (c : Dev nD) (z : Fin 1) (j : Fin 256) :
    W21 (F := Ideal) m ρ c (Proc.devRef .tc main_v88) (ix2 z j) = m ((c : Thread nD τ).loc main_arg12) (ix1 j) := by
  refine (congrFun (g9_v88 (W20 (F := Ideal) m ρ c)) (ix2 z j)).trans ?_
  refine (rowOf_apply _ z j).trans ?_
  exact congrFun (keepArg12_2 m ρ c) (ix1 j)
theorem mha2_value (c : Dev nD) (l : Fin 4096) (j : Fin 256) :
    W22 (F := Ideal) m ρ c (Proc.devRef .tc main_v89) (ix2 l j)
      = Cert.Spec.reluOf (Cert.Spec.mhaKer (fun i t => W16 (F := Ideal) m ρ c (Proc.devRef .tc main_v73) (ix2 i t))
          (fun c' t => m ((c : Thread nD τ).loc main_arg9) (ix2 c' t)) (fun c' => m ((c : Thread nD τ).loc main_arg10) (ix1 c'))
          (fun c' t => m ((c : Thread nD τ).loc main_arg11) (ix2 c' t)) (fun c' => m ((c : Thread nD τ).loc main_arg12) (ix1 c'))) l j := by
  refine (congrFun ((W22_arr m ρ c 3).trans (arr9_value (V21 m ρ) c)) (ix2 l j)).trans ?_
  rw [mm9_apply]
  unfold Cert.Spec.reluOf Cert.Spec.mhaKer Cert.Spec.lin
  refine congrArg (fun y : EReal => max y 0) ?_
  refine congrArg₂ (· + ·) (Finset.sum_congr rfl fun t _ => congrArg₂ (· * ·) ?_ ?_) ?_
  · exact merged_2 m ρ c l t
  · exact w49_2 m ρ c t j
  · exact b68_2 m ρ c 0 j
end Cert.KernelIdeal.Hand
end
-- ==== Proof.Ideal.WalkMha.lean ====
import proofs.«403157_j14328010899645_2_alg».proof.Proof.Ideal.WalkMha1
import proofs.«403157_j14328010899645_2_alg».proof.Proof.Ideal.WalkMha2
-- ==== Proof.Ideal.KerValue.lean ====
import proofs.«403157_j14328010899645_2_alg».proof.Proof.Ideal.WalkGcn
import proofs.«403157_j14328010899645_2_alg».proof.Proof.Ideal.WalkMha
set_option maxRecDepth 16384
noncomputable section
namespace Cert.KernelIdeal.Hand
open Cert.KernelIdeal Cert.KernelIdeal.Gen
open Idealize.ShloMosaic Idealize.ShloMosaic.TcCoe Idealize.ShloMosaic.ValueIdx Idealize.ShloMosaic.StableHlo Idealize.SL.Sem
variable (m : (ℓ : Loc nD τ sig) → Buf (Elt Ideal) ℓ) (ρ : Dev nD → PrngReg)
theorem ker_value (c : Dev nD) (hr : ∀ i, 0 ≤ (m ((c : Thread nD τ).loc main_arg1) i).toInt ∧ (m ((c : Thread nD τ).loc main_arg1) i).toInt < 4096) (i : Fin 4096) (j : Fin 128) :
    W26 (F := Ideal) m ρ c (Proc.devRef .tc main_v93) (ix2 i j)
      = Cert.Spec.KerSpec (fun i t => m ((c : Thread nD τ).loc main_arg0) (ix2 i t))
          (Cert.Spec.extIdx (fun t => m ((c : Thread nD τ).loc main_arg1) (ix2 0 t)))
          (Cert.Spec.extIdx (fun t => m ((c : Thread nD τ).loc main_arg1) (ix2 1 t)))
          (Cert.Spec.extW (fun t => m ((c : Thread nD τ).loc main_arg2) (ix1 t)))
          (fun t j => m ((c : Thread nD τ).loc main_arg3) (ix2 t j)) (fun j => m ((c : Thread nD τ).loc main_arg4) (ix1 j))
          (fun t j => m ((c : Thread nD τ).loc main_arg5) (ix2 t j)) (fun j => m ((c : Thread nD τ).loc main_arg6) (ix1 j))
          (fun t j => m ((c : Thread nD τ).loc main_arg7) (ix2 t j)) (fun j => m ((c : Thread nD τ).loc main_arg8) (ix1 j))
          (fun c' t => m ((c : Thread nD τ).loc main_arg9) (ix2 c' t)) (fun c' => m ((c : Thread nD τ).loc main_arg10) (ix1 c')) (fun c' t => m ((c : Thread nD τ).loc main_arg11) (ix2 c' t)) (fun c' => m ((c : Thread nD τ).loc main_arg12) (ix1 c'))
          i j := by
  have h1 : (fun i t => W6 (F := Ideal) m ρ c (Proc.devRef .tc main_v53) (ix2 i t))
      = Cert.Spec.gcnKer (Cert.Spec.adjOf (Cert.Spec.extIdx (fun t => m ((c : Thread nD τ).loc main_arg1) (ix2 (0 : Fin 2) t))) (Cert.Spec.extIdx (fun t => m ((c : Thread nD τ).loc main_arg1) (ix2 (1 : Fin 2) t))) (Cert.Spec.normOf (Cert.Spec.extIdx (fun t => m ((c : Thread nD τ).loc main_arg1) (ix2 (0 : Fin 2) t))) (Cert.Spec.extIdx (fun t => m ((c : Thread nD τ).loc main_arg1) (ix2 (1 : Fin 2) t))) (Cert.Spec.extW (fun t => m ((c : Thread nD τ).loc main_arg2) (ix1 t))))) (fun i t => m ((c : Thread nD τ).loc main_arg0) (ix2 i t)) (fun t j => m ((c : Thread nD τ).loc main_arg3) (ix2 t j)) (fun j => m ((c : Thread nD τ).loc main_arg4) (ix1 j)) :=
    funext fun i => funext fun t => gcn1_value m ρ c hr i t
  have h2 : (fun i t => W12 (F := Ideal) m ρ c (Proc.devRef .tc main_v69) (ix2 i t))
      = Cert.Spec.reluOf (Cert.Spec.mhaKer (fun i t => W6 (F := Ideal) m ρ c (Proc.devRef .tc main_v53) (ix2 i t)) (fun c' t => m ((c : Thread nD τ).loc main_arg9) (ix2 c' t)) (fun c' => m ((c : Thread nD τ).loc main_arg10) (ix1 c')) (fun c' t => m ((c : Thread nD τ).loc main_arg11) (ix2 c' t)) (fun c' => m ((c : Thread nD τ).loc main_arg12) (ix1 c'))) :=
    funext fun l => funext fun t => mha1_value m ρ c l t
  have h3 : (fun i t => W16 (F := Ideal) m ρ c (Proc.devRef .tc main_v73) (ix2 i t))
      = Cert.Spec.gcnKer (Cert.Spec.adjOf (Cert.Spec.extIdx (fun t => m ((c : Thread nD τ).loc main_arg1) (ix2 (0 : Fin 2) t))) (Cert.Spec.extIdx (fun t => m ((c : Thread nD τ).loc main_arg1) (ix2 (1 : Fin 2) t))) (Cert.Spec.normOf (Cert.Spec.extIdx (fun t => m ((c : Thread nD τ).loc main_arg1) (ix2 (0 : Fin 2) t))) (Cert.Spec.extIdx (fun t => m ((c : Thread nD τ).loc main_arg1) (ix2 (1 : Fin 2) t))) (Cert.Spec.extW (fun t => m ((c : Thread nD τ).loc main_arg2) (ix1 t))))) (fun i t => W12 (F := Ideal) m ρ c (Proc.devRef .tc main_v69) (ix2 i t)) (fun t j => m ((c : Thread nD τ).loc main_arg5) (ix2 t j)) (fun j => m ((c : Thread nD τ).loc main_arg6) (ix1 j)) :=
    funext fun i => funext fun t => gcn2_value m ρ c hr i t
  have h4 : (fun i t => W22 (F := Ideal) m ρ c (Proc.devRef .tc main_v89) (ix2 i t))
      = Cert.Spec.reluOf (Cert.Spec.mhaKer (fun i t => W16 (F := Ideal) m ρ c (Proc.devRef .tc main_v73) (ix2 i t)) (fun c' t => m ((c : Thread nD τ).loc main_arg9) (ix2 c' t)) (fun c' => m ((c : Thread nD τ).loc main_arg10) (ix1 c')) (fun c' t => m ((c : Thread nD τ).loc main_arg11) (ix2 c' t)) (fun c' => m ((c : Thread nD τ).loc main_arg12) (ix1 c'))) :=
    funext fun l => funext fun t => mha2_value m ρ c l t
  rw [gcn3_value m ρ c hr i j, h4, h3, h2, h1]
  rfl
end Cert.KernelIdeal.Hand
-- ==== Proof.RefRead.lean ====
import proofs.«403157_j14328010899645_2_alg».proof.Proof.Gen.ReferenceIdeal
import Idealize.ShloMosaic.Lib.Pipeline.Value
import Idealize.ShloMosaic.Lib.ValueIdx
import Idealize.ShloMosaic.PureOps.Ideal.Laws
noncomputable section
namespace Cert.ReferenceIdeal.Read
open Cert.ReferenceIdeal Cert.ReferenceIdeal.Gen Idealize.ShloMosaic Idealize.ShloMosaic.TcCoe Idealize.SL.Sem Idealize.ShloMosaic.StableHlo
section
variable {F : FTy → Type} [FloatOps F]
variable (x0 : (⟨S4096x256, .f32⟩ : BufTy).Contents (Elt F)) (x1 : (⟨S2x262144, .i32⟩ : BufTy).Contents (Elt F)) (x2 : (⟨S262144, .f32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x128, .f32⟩ : BufTy).Contents (Elt F)) (x8 : (⟨S128, .f32⟩ : BufTy).Contents (Elt F)) (x9 : (⟨S768x256, .f32⟩ : BufTy).Contents (Elt F)) (x10 : (⟨S768, .f32⟩ : BufTy).Contents (Elt F)) (x11 : (⟨S256x256, .f32⟩ : BufTy).Contents (Elt F)) (x12 : (⟨S256, .f32⟩ : BufTy).Contents (Elt F))
def val_main_v0 : (⟨S1x262144, .i32⟩ : BufTy).Contents (Elt F) :=
  extractStridedSlice S1x262144 ![0, 0] (x1) slices_S2x262144_S1x262144_0_0
abbrev idx_main_v0 (i : S1x262144.Idx) : S2x262144.Idx := fun a => match a with
  | ⟨0, _⟩ => ⟨(i 0).val, by have h0 : (i 0).val < 1 := (i 0).isLt; show (i 0).val < 2; omega⟩
  | ⟨1, _⟩ => ⟨(i 1).val, (i 1).isLt⟩
theorem val_main_v0_apply (i : S1x262144.Idx) :
    val_main_v0 (F := F) x1 i = x1 (idx_main_v0 i) := by
  unfold val_main_v0
  exact extractStridedSlice_apply ![0, 0] x1 slices_S2x262144_S1x262144_0_0 i (idx_main_v0 i) (fun a => match a with
    | ⟨0, _⟩ => by show (i 0).val = 0 + (i 0).val; omega
    | ⟨1, _⟩ => by show (i 1).val = 0 + (i 1).val; omega)
def val_main_v1 : (⟨S262144, .i32⟩ : BufTy).Contents (Elt F) :=
  shapeCast _ (val_main_v0 (F := F) x1) shapeCasts_S1x262144_S262144
abbrev idx_main_v1 (i : S262144.Idx) : S1x262144.Idx := fun a => match a with
  | ⟨0, _⟩ => ⟨0, Nat.one_pos⟩
  | ⟨1, _⟩ => ⟨((i 0).val) % 262144, by have h0 : (i 0).val < 262144 := (i 0).isLt; show ((i 0).val) % 262144 < 262144; omega⟩
theorem val_main_v1_apply (i : S262144.Idx) :
    val_main_v1 (F := F) x1 i = val_main_v0 (F := F) x1 (idx_main_v1 i) := by
  unfold val_main_v1
  generalize val_main_v0 (F := F) x1 = y
  exact shapeCast_apply y shapeCasts_S1x262144_S262144 i (idx_main_v1 i)
    (by rewrite [Shape.rowMajor_val_two, Shape.rowMajor_val_one]; have h0 : (i 0).val < 262144 := (i 0).isLt; show 0 * 262144 + ((i 0).val) % 262144 = (i 0).val; omega)
def val_main_v2 : (⟨S1x262144, .i32⟩ : BufTy).Contents (Elt F) :=
  extractStridedSlice S1x262144 ![1, 0] (x1) slices_S2x262144_S1x262144_1_0
abbrev idx_main_v2 (i : S1x262144.Idx) : S2x262144.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
theorem val_main_v2_apply (i : S1x262144.Idx) :
    val_main_v2 (F := F) x1 i = x1 (idx_main_v2 i) := by
  unfold val_main_v2
  exact extractStridedSlice_apply ![1, 0] x1 slices_S2x262144_S1x262144_1_0 i (idx_main_v2 i) (fun a => match a with
    | ⟨0, _⟩ => by show 1 + (i 0).val = 1 + (i 0).val; omega
    | ⟨1, _⟩ => by show (i 1).val = 0 + (i 1).val; omega)
def val_main_v3 : (⟨S262144, .i32⟩ : BufTy).Contents (Elt F) :=
  shapeCast _ (val_main_v2 (F := F) x1) shapeCasts_S1x262144_S262144
abbrev idx_main_v3 (i : S262144.Idx) : S1x262144.Idx := fun a => match a with
  | ⟨0, _⟩ => ⟨0, Nat.one_pos⟩
  | ⟨1, _⟩ => ⟨((i 0).val) % 262144, by have h0 : (i 0).val < 262144 := (i 0).isLt; show ((i 0).val) % 262144 < 262144; omega⟩
theorem val_main_v3_apply (i : S262144.Idx) :
    val_main_v3 (F := F) x1 i = val_main_v2 (F := F) x1 (idx_main_v3 i) := by
  unfold val_main_v3
  generalize val_main_v2 (F := F) x1 = y
  exact shapeCast_apply y shapeCasts_S1x262144_S262144 i (idx_main_v3 i)
    (by rewrite [Shape.rowMajor_val_two, Shape.rowMajor_val_one]; have h0 : (i 0).val < 262144 := (i 0).isLt; show 0 * 262144 + ((i 0).val) % 262144 = (i 0).val; omega)
def val_main_v4 : (⟨S4096, .i32⟩ : BufTy).Contents (Elt F) :=
  iotaInDim S4096 32 0
def val_main_v5 : (⟨S266240, .i32⟩ : BufTy).Contents (Elt F) :=
  concatenate S266240 0 [⟨S262144, (val_main_v1 (F := F) x1)⟩, ⟨S4096, (val_main_v4 (F := F))⟩] concatenates_S262144_S4096_S266240_d0
def val_main_v6 : (⟨S266240, .i32⟩ : BufTy).Contents (Elt F) :=
  concatenate S266240 0 [⟨S262144, (val_main_v3 (F := F) x1)⟩, ⟨S4096, (val_main_v4 (F := F))⟩] concatenates_S262144_S4096_S266240_d0
def val_main_cst : (⟨S_, .f32⟩ : BufTy).Contents (Elt F) :=
  constant S_ .f32 0x3F800000#32
theorem val_main_cst_apply (i : S_.Idx) :
    val_main_cst (F := F) i = FloatOps.ofBits .f32 0x3F800000#32 := rfl
def val_main_v7 : (⟨S4096, .f32⟩ : BufTy).Contents (Elt F) :=
  broadcastInDim S4096 ![] bcast_S_S4096 (val_main_cst (F := F))
abbrev idx_main_v7 (i : S4096.Idx) : S_.Idx := fun a => a.elim0
theorem val_main_v7_apply (i : S4096.Idx) :
    val_main_v7 (F := F) i = val_main_cst (F := F) (idx_main_v7 i) := by
  unfold val_main_v7
  generalize val_main_cst (F := F) = y
  exact broadcastInDim_apply _ bcast_S_S4096 y i (idx_main_v7 i) (fun a => a.elim0)
def val_main_v8 : (⟨S266240, .f32⟩ : BufTy).Contents (Elt F) :=
  concatenate S266240 0 [⟨S262144, (x2)⟩, ⟨S4096, (val_main_v7 (F := F))⟩] concatenates_S262144_S4096_S266240_d0
def val_main_cst_0 : (⟨S_, .f32⟩ : BufTy).Contents (Elt F) :=
  constant S_ .f32 0x00000000#32
theorem val_main_cst_0_apply (i : S_.Idx) :
    val_main_cst_0 (F := F) i = FloatOps.ofBits .f32 0x00000000#32 := rfl
def val_main_v9 : (⟨S4096, .f32⟩ : BufTy).Contents (Elt F) :=
  broadcastInDim S4096 ![] bcast_S_S4096 (val_main_cst_0 (F := F))
abbrev idx_main_v9 (i : S4096.Idx) : S_.Idx := fun a => a.elim0
theorem val_main_v9_apply (i : S4096.Idx) :
    val_main_v9 (F := F) i = val_main_cst_0 (F := F) (idx_main_v9 i) := by
  unfold val_main_v9
  generalize val_main_cst_0 (F := F) = y
  exact broadcastInDim_apply _ bcast_S_S4096 y i (idx_main_v9 i) (fun a => a.elim0)
def val_main_v10 : (⟨S266240x1, .i32⟩ : BufTy).Contents (Elt F) :=
  broadcastInDim S266240x1 ![0] bcast_S266240_S266240x1_0 (val_main_v6 (F := F) x1)
abbrev idx_main_v10 (i : S266240x1.Idx) : S266240.Idx := fun a => match a with
  | ⟨0, _⟩ => ⟨(i 0).val, (i 0).isLt⟩
theorem val_main_v10_apply (i : S266240x1.Idx) :
    val_main_v10 (F := F) x1 i = val_main_v6 (F := F) x1 (idx_main_v10 i) := by
  unfold val_main_v10
  generalize val_main_v6 (F := F) x1 = y
  exact broadcastInDim_apply _ bcast_S266240_S266240x1_0 y i (idx_main_v10 i) (fun a => match a with
    | ⟨0, _⟩ => by show (i 0).val = if (266240 : Nat) = 1 then 0 else (i 0).val; rw [if_neg (by decide)])
def val_main_v11 : (⟨S4096, .f32⟩ : BufTy).Contents (Elt F) :=
  Host.scatterAdd scatter_S4096_S266240x1_S266240_n_0_0_1 (val_main_v9 (F := F)) (val_main_v10 (F := F) x1) (val_main_v8 (F := F) x2)
def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl
def val_main_v12 : (⟨S4096, .f32⟩ : BufTy).Contents (Elt F) :=
  broadcastInDim S4096 ![] bcast_S_S4096 (val_main_cst_1 (F := F))
abbrev idx_main_v12 (i : S4096.Idx) : S_.Idx := fun a => a.elim0
theorem val_main_v12_apply (i : S4096.Idx) :
    val_main_v12 (F := F) i = val_main_cst_1 (F := F) (idx_main_v12 i) := by
  unfold val_main_v12
  generalize val_main_cst_1 (F := F) = y
  exact broadcastInDim_apply _ bcast_S_S4096 y i (idx_main_v12 i) (fun a => a.elim0)
def val_main_v13 : (⟨S4096, .i1⟩ : BufTy).Contents (Elt F) :=
  cmpf .ogt (val_main_v11 (F := F) x1 x2) (val_main_v12 (F := F))
theorem val_main_v13_apply (i : S4096.Idx) :
    val_main_v13 (F := F) x1 x2 i = FloatOps.cmpf .ogt (val_main_v11 (F := F) x1 x2 i) (val_main_v12 (F := F) i) := rfl
def val_main_v14 : (⟨S4096, .f32⟩ : BufTy).Contents (Elt F) :=
  Host.rsqrt (val_main_v11 (F := F) x1 x2)
theorem val_main_v14_apply (i : S4096.Idx) :
    val_main_v14 (F := F) x1 x2 i = FloatOps.hostUnary .rsqrt (val_main_v11 (F := F) x1 x2 i) := rfl
def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl
def val_main_call0_v0 : (⟨S_, .f32⟩ : BufTy).Contents (Elt F) :=
  id (val_main_cst_2 (F := F))
theorem val_main_call0_v0_apply (i : S_.Idx) :
    val_main_call0_v0 (F := F) i = (val_main_cst_2 (F := F) i) := rfl
def val_main_call0_v1 : (⟨S4096, .f32⟩ : BufTy).Contents (Elt F) :=
  broadcastInDim S4096 ![] bcast_S_S4096 (val_main_call0_v0 (F := F))
abbrev idx_main_call0_v1 (i : S4096.Idx) : S_.Idx := fun a => a.elim0
theorem val_main_call0_v1_apply (i : S4096.Idx) :
    val_main_call0_v1 (F := F) i = val_main_call0_v0 (F := F) (idx_main_call0_v1 i) := by
  unfold val_main_call0_v1
  generalize val_main_call0_v0 (F := F) = y
  exact broadcastInDim_apply _ bcast_S_S4096 y i (idx_main_call0_v1 i) (fun a => a.elim0)
def val_main_v15 : (⟨S4096, .f32⟩ : BufTy).Contents (Elt F) :=
  select (val_main_v13 (F := F) x1 x2) (val_main_v14 (F := F) x1 x2) (val_main_call0_v1 (F := F))
theorem val_main_v15_apply (i : S4096.Idx) :
    val_main_v15 (F := F) x1 x2 i = Scalar.select (val_main_v13 (F := F) x1 x2 i) (val_main_v14 (F := F) x1 x2 i) (val_main_call0_v1 (F := F) i) := rfl
def val_main_c : (⟨S_, .i32⟩ : BufTy).Contents (Elt F) :=
  constantI S_ 32 0#32
theorem val_main_c_apply (i : S_.Idx) :
    val_main_c (F := F) i = 0#32 := rfl
def val_main_v16 : (⟨S266240, .i32⟩ : BufTy).Contents (Elt F) :=
  broadcastInDim S266240 ![] bcast_S_S266240 (val_main_c (F := F))
abbrev idx_main_v16 (i : S266240.Idx) : S_.Idx := fun a => a.elim0
theorem val_main_v16_apply (i : S266240.Idx) :
    val_main_v16 (F := F) i = val_main_c (F := F) (idx_main_v16 i) := by
  unfold val_main_v16
  generalize val_main_c (F := F) = y
  exact broadcastInDim_apply _ bcast_S_S266240 y i (idx_main_v16 i) (fun a => a.elim0)
def val_main_v17 : (⟨S266240, .i1⟩ : BufTy).Contents (Elt F) :=
  cmpi .slt (val_main_v5 (F := F) x1) (val_main_v16 (F := F))
theorem val_main_v17_apply (i : S266240.Idx) :
    val_main_v17 (F := F) x1 i = IntOp.cmpi .slt (val_main_v5 (F := F) x1 i) (val_main_v16 (F := F) i) := rfl
def val_main_c_3 : (⟨S_, .i32⟩ : BufTy).Contents (Elt F) :=
  constantI S_ 32 4096#32
theorem val_main_c_3_apply (i : S_.Idx) :
    val_main_c_3 (F := F) i = 4096#32 := rfl
def val_main_v18 : (⟨S266240, .i32⟩ : BufTy).Contents (Elt F) :=
  broadcastInDim S266240 ![] bcast_S_S266240 (val_main_c_3 (F := F))
abbrev idx_main_v18 (i : S266240.Idx) : S_.Idx := fun a => a.elim0
theorem val_main_v18_apply (i : S266240.Idx) :
    val_main_v18 (F := F) i = val_main_c_3 (F := F) (idx_main_v18 i) := by
  unfold val_main_v18
  generalize val_main_c_3 (F := F) = y
  exact broadcastInDim_apply _ bcast_S_S266240 y i (idx_main_v18 i) (fun a => a.elim0)
def val_main_v19 : (⟨S266240, .i32⟩ : BufTy).Contents (Elt F) :=
  addi (val_main_v5 (F := F) x1) (val_main_v18 (F := F))
theorem val_main_v19_apply (i : S266240.Idx) :
    val_main_v19 (F := F) x1 i = IntOp.addi (val_main_v5 (F := F) x1 i) (val_main_v18 (F := F) i) := rfl
def val_main_v20 : (⟨S266240, .i32⟩ : BufTy).Contents (Elt F) :=
  select (val_main_v17 (F := F) x1) (val_main_v19 (F := F) x1) (val_main_v5 (F := F) x1)
theorem val_main_v20_apply (i : S266240.Idx) :
    val_main_v20 (F := F) x1 i = Scalar.select (val_main_v17 (F := F) x1 i) (val_main_v19 (F := F) x1 i) (val_main_v5 (F := F) x1 i) := rfl
def val_main_v21 : (⟨S266240x1, .i32⟩ : BufTy).Contents (Elt F) :=
  broadcastInDim S266240x1 ![0] bcast_S266240_S266240x1_0 (val_main_v20 (F := F) x1)
abbrev idx_main_v21 (i : S266240x1.Idx) : S266240.Idx := fun a => match a with
  | ⟨0, _⟩ => ⟨(i 0).val, (i 0).isLt⟩
theorem val_main_v21_apply (i : S266240x1.Idx) :
    val_main_v21 (F := F) x1 i = val_main_v20 (F := F) x1 (idx_main_v21 i) := by
  unfold val_main_v21
  generalize val_main_v20 (F := F) x1 = y
  exact broadcastInDim_apply _ bcast_S266240_S266240x1_0 y i (idx_main_v21 i) (fun a => match a with
    | ⟨0, _⟩ => by show (i 0).val = if (266240 : Nat) = 1 then 0 else (i 0).val; rw [if_neg (by decide)])
def val_main_v22 : (⟨S266240, .f32⟩ : BufTy).Contents (Elt F) :=
  Host.gather gather_S4096_S266240x1_S266240_n_0_n_n_0_1_1 (val_main_v15 (F := F) x1 x2) (val_main_v21 (F := F) x1)
def val_main_v23 : (⟨S266240, .f32⟩ : BufTy).Contents (Elt F) :=
  mulf (val_main_v22 (F := F) x1 x2) (val_main_v8 (F := F) x2)
theorem val_main_v23_apply (i : S266240.Idx) :
    val_main_v23 (F := F) x1 x2 i = FloatOps.mulf (val_main_v22 (F := F) x1 x2 i) (val_main_v8 (F := F) x2 i) := rfl
def val_main_c_4 : (⟨S_, .i32⟩ : BufTy).Contents (Elt F) :=
  constantI S_ 32 0#32
theorem val_main_c_4_apply (i : S_.Idx) :
    val_main_c_4 (F := F) i = 0#32 := rfl
def val_main_v24 : (⟨S266240, .i32⟩ : BufTy).Contents (Elt F) :=
  broadcastInDim S266240 ![] bcast_S_S266240 (val_main_c_4 (F := F))
abbrev idx_main_v24 (i : S266240.Idx) : S_.Idx := fun a => a.elim0
theorem val_main_v24_apply (i : S266240.Idx) :
    val_main_v24 (F := F) i = val_main_c_4 (F := F) (idx_main_v24 i) := by
  unfold val_main_v24
  generalize val_main_c_4 (F := F) = y
  exact broadcastInDim_apply _ bcast_S_S266240 y i (idx_main_v24 i) (fun a => a.elim0)
def val_main_v25 : (⟨S266240, .i1⟩ : BufTy).Contents (Elt F) :=
  cmpi .slt (val_main_v6 (F := F) x1) (val_main_v24 (F := F))
theorem val_main_v25_apply (i : S266240.Idx) :
    val_main_v25 (F := F) x1 i = IntOp.cmpi .slt (val_main_v6 (F := F) x1 i) (val_main_v24 (F := F) i) := rfl
def val_main_c_5 : (⟨S_, .i32⟩ : BufTy).Contents (Elt F) :=
  constantI S_ 32 4096#32
theorem val_main_c_5_apply (i : S_.Idx) :
    val_main_c_5 (F := F) i = 4096#32 := rfl
def val_main_v26 : (⟨S266240, .i32⟩ : BufTy).Contents (Elt F) :=
  broadcastInDim S266240 ![] bcast_S_S266240 (val_main_c_5 (F := F))
abbrev idx_main_v26 (i : S266240.Idx) : S_.Idx := fun a => a.elim0
theorem val_main_v26_apply (i : S266240.Idx) :
    val_main_v26 (F := F) i = val_main_c_5 (F := F) (idx_main_v26 i) := by
  unfold val_main_v26
  generalize val_main_c_5 (F := F) = y
  exact broadcastInDim_apply _ bcast_S_S266240 y i (idx_main_v26 i) (fun a => a.elim0)
def val_main_v27 : (⟨S266240, .i32⟩ : BufTy).Contents (Elt F) :=
  addi (val_main_v6 (F := F) x1) (val_main_v26 (F := F))
theorem val_main_v27_apply (i : S266240.Idx) :
    val_main_v27 (F := F) x1 i = IntOp.addi (val_main_v6 (F := F) x1 i) (val_main_v26 (F := F) i) := rfl
def val_main_v28 : (⟨S266240, .i32⟩ : BufTy).Contents (Elt F) :=
  select (val_main_v25 (F := F) x1) (val_main_v27 (F := F) x1) (val_main_v6 (F := F) x1)
theorem val_main_v28_apply (i : S266240.Idx) :
    val_main_v28 (F := F) x1 i = Scalar.select (val_main_v25 (F := F) x1 i) (val_main_v27 (F := F) x1 i) (val_main_v6 (F := F) x1 i) := rfl
def val_main_v29 : (⟨S266240x1, .i32⟩ : BufTy).Contents (Elt F) :=
  broadcastInDim S266240x1 ![0] bcast_S266240_S266240x1_0 (val_main_v28 (F := F) x1)
abbrev idx_main_v29 (i : S266240x1.Idx) : S266240.Idx := fun a => match a with
  | ⟨0, _⟩ => ⟨(i 0).val, (i 0).isLt⟩
theorem val_main_v29_apply (i : S266240x1.Idx) :
    val_main_v29 (F := F) x1 i = val_main_v28 (F := F) x1 (idx_main_v29 i) := by
  unfold val_main_v29
  generalize val_main_v28 (F := F) x1 = y
  exact broadcastInDim_apply _ bcast_S266240_S266240x1_0 y i (idx_main_v29 i) (fun a => match a with
    | ⟨0, _⟩ => by show (i 0).val = if (266240 : Nat) = 1 then 0 else (i 0).val; rw [if_neg (by decide)])
def val_main_v30 : (⟨S266240, .f32⟩ : BufTy).Contents (Elt F) :=
  Host.gather gather_S4096_S266240x1_S266240_n_0_n_n_0_1_1 (val_main_v15 (F := F) x1 x2) (val_main_v29 (F := F) x1)
def val_main_v31 : (⟨S266240, .f32⟩ : BufTy).Contents (Elt F) :=
  mulf (val_main_v23 (F := F) x1 x2) (val_main_v30 (F := F) x1 x2)
theorem val_main_v31_apply (i : S266240.Idx) :
    val_main_v31 (F := F) x1 x2 i = FloatOps.mulf (val_main_v23 (F := F) x1 x2 i) (val_main_v30 (F := F) x1 x2 i) := rfl
def val_main_v32 : (⟨S4096x256, .f32⟩ : BufTy).Contents (Elt F) :=
  Host.dotGeneral dot_S4096x256_S256x256_S4096x256_1_0_0_1_n_n none (x0) (x3)
theorem lhs_main_v32_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_main_v32_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_main_v32_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_main_v32_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl
abbrev lidx_main_v32 (i : S4096x256.Idx) (k : Fin 256) : S4096x256.Idx := fun a => match a with
  | ⟨0, _⟩ => ⟨(i 0).val, (i 0).isLt⟩
  | ⟨1, _⟩ => ⟨k.val, k.isLt⟩
abbrev ridx_main_v32 (i : S4096x256.Idx) (k : Fin 256) : S256x256.Idx := fun a => match a with
  | ⟨0, _⟩ => ⟨k.val, k.isLt⟩
  | ⟨1, _⟩ => ⟨(i 1).val, (i 1).isLt⟩
def val_main_v33 : (⟨S266240x1, .f32⟩ : BufTy).Contents (Elt F) :=
  broadcastInDim S266240x1 ![0] bcast_S266240_S266240x1_0 (val_main_v31 (F := F) x1 x2)
abbrev idx_main_v33 (i : S266240x1.Idx) : S266240.Idx := fun a => match a with
  | ⟨0, _⟩ => ⟨(i 0).val, (i 0).isLt⟩
theorem val_main_v33_apply (i : S266240x1.Idx) :
    val_main_v33 (F := F) x1 x2 i = val_main_v31 (F := F) x1 x2 (idx_main_v33 i) := by
  unfold val_main_v33
  generalize val_main_v31 (F := F) x1 x2 = y
  exact broadcastInDim_apply _ bcast_S266240_S266240x1_0 y i (idx_main_v33 i) (fun a => match a with
    | ⟨0, _⟩ => by show (i 0).val = if (266240 : Nat) = 1 then 0 else (i 0).val; rw [if_neg (by decide)])
def val_main_c_6 : (⟨S_, .i32⟩ : BufTy).Contents (Elt F) :=
  constantI S_ 32 0#32
theorem val_main_c_6_apply (i : S_.Idx) :
    val_main_c_6 (F := F) i = 0#32 := rfl
def val_main_v34 : (⟨S266240, .i32⟩ : BufTy).Contents (Elt F) :=
  broadcastInDim S266240 ![] bcast_S_S266240 (val_main_c_6 (F := F))
abbrev idx_main_v34 (i : S266240.Idx) : S_.Idx := fun a => a.elim0
theorem val_main_v34_apply (i : S266240.Idx) :
    val_main_v34 (F := F) i = val_main_c_6 (F := F) (idx_main_v34 i) := by
  unfold val_main_v34
  generalize val_main_c_6 (F := F) = y
  exact broadcastInDim_apply _ bcast_S_S266240 y i (idx_main_v34 i) (fun a => a.elim0)
def val_main_v35 : (⟨S266240, .i1⟩ : BufTy).Contents (Elt F) :=
  cmpi .slt (val_main_v5 (F := F) x1) (val_main_v34 (F := F))
theorem val_main_v35_apply (i : S266240.Idx) :
    val_main_v35 (F := F) x1 i = IntOp.cmpi .slt (val_main_v5 (F := F) x1 i) (val_main_v34 (F := F) i) := rfl
def val_main_c_7 : (⟨S_, .i32⟩ : BufTy).Contents (Elt F) :=
  constantI S_ 32 4096#32
theorem val_main_c_7_apply (i : S_.Idx) :
    val_main_c_7 (F := F) i = 4096#32 := rfl
def val_main_v36 : (⟨S266240, .i32⟩ : BufTy).Contents (Elt F) :=
  broadcastInDim S266240 ![] bcast_S_S266240 (val_main_c_7 (F := F))
abbrev idx_main_v36 (i : S266240.Idx) : S_.Idx := fun a => a.elim0
theorem val_main_v36_apply (i : S266240.Idx) :
    val_main_v36 (F := F) i = val_main_c_7 (F := F) (idx_main_v36 i) := by
  unfold val_main_v36
  generalize val_main_c_7 (F := F) = y
  exact broadcastInDim_apply _ bcast_S_S266240 y i (idx_main_v36 i) (fun a => a.elim0)
def val_main_v37 : (⟨S266240, .i32⟩ : BufTy).Contents (Elt F) :=
  addi (val_main_v5 (F := F) x1) (val_main_v36 (F := F))
theorem val_main_v37_apply (i : S266240.Idx) :
    val_main_v37 (F := F) x1 i = IntOp.addi (val_main_v5 (F := F) x1 i) (val_main_v36 (F := F) i) := rfl
def val_main_v38 : (⟨S266240, .i32⟩ : BufTy).Contents (Elt F) :=
  select (val_main_v35 (F := F) x1) (val_main_v37 (F := F) x1) (val_main_v5 (F := F) x1)
theorem val_main_v38_apply (i : S266240.Idx) :
    val_main_v38 (F := F) x1 i = Scalar.select (val_main_v35 (F := F) x1 i) (val_main_v37 (F := F) x1 i) (val_main_v5 (F := F) x1 i) := rfl
def val_main_v39 : (⟨S266240x1, .i32⟩ : BufTy).Contents (Elt F) :=
  broadcastInDim S266240x1 ![0] bcast_S266240_S266240x1_0 (val_main_v38 (F := F) x1)
abbrev idx_main_v39 (i : S266240x1.Idx) : S266240.Idx := fun a => match a with
  | ⟨0, _⟩ => ⟨(i 0).val, (i 0).isLt⟩
theorem val_main_v39_apply (i : S266240x1.Idx) :
    val_main_v39 (F := F) x1 i = val_main_v38 (F := F) x1 (idx_main_v39 i) := by
  unfold val_main_v39
  generalize val_main_v38 (F := F) x1 = y
  exact broadcastInDim_apply _ bcast_S266240_S266240x1_0 y i (idx_main_v39 i) (fun a => match a with
    | ⟨0, _⟩ => by show (i 0).val = if (266240 : Nat) = 1 then 0 else (i 0).val; rw [if_neg (by decide)])
def val_main_v40 : (⟨S266240x256, .f32⟩ : BufTy).Contents (Elt F) :=
  Host.gather gather_S4096x256_S266240x1_S266240x256_1_0_n_n_0_1_1256 (val_main_v32 (F := F) x0 x3) (val_main_v39 (F := F) x1)
def val_main_v41 : (⟨S266240x256, .f32⟩ : BufTy).Contents (Elt F) :=
  broadcastInDim S266240x256 ![0, 1] bcast_S266240x1_S266240x256_0_1 (val_main_v33 (F := F) x1 x2)
abbrev idx_main_v41 (i : S266240x256.Idx) : S266240x1.Idx := fun a => match a with
  | ⟨0, _⟩ => ⟨(i 0).val, (i 0).isLt⟩
  | ⟨1, _⟩ => ⟨0, Nat.one_pos⟩
theorem val_main_v41_apply (i : S266240x256.Idx) :
    val_main_v41 (F := F) x1 x2 i = val_main_v33 (F := F) x1 x2 (idx_main_v41 i) := by
  unfold val_main_v41
  generalize val_main_v33 (F := F) x1 x2 = y
  exact broadcastInDim_apply _ bcast_S266240x1_S266240x256_0_1 y i (idx_main_v41 i) (fun a => match a with
    | ⟨0, _⟩ => by show (i 0).val = if (266240 : Nat) = 1 then 0 else (i 0).val; rw [if_neg (by decide)]
    | ⟨1, _⟩ => by show 0 = if (1 : Nat) = 1 then 0 else (i 1).val; rw [if_pos rfl])
def val_main_v42 : (⟨S266240x256, .f32⟩ : BufTy).Contents (Elt F) :=
  mulf (val_main_v41 (F := F) x1 x2) (val_main_v40 (F := F) x0 x1 x3)
def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl
def val_main_v43 : (⟨S4096x256, .f32⟩ : BufTy).Contents (Elt F) :=
  broadcastInDim S4096x256 ![] bcast_S_S4096x256 (val_main_cst_8 (F := F))
abbrev idx_main_v43 (i : S4096x256.Idx) : S_.Idx := fun a => a.elim0
theorem val_main_v43_apply (i : S4096x256.Idx) :
    val_main_v43 (F := F) i = val_main_cst_8 (F := F) (idx_main_v43 i) := by
  unfold val_main_v43
  generalize val_main_cst_8 (F := F) = y
  exact broadcastInDim_apply _ bcast_S_S4096x256 y i (idx_main_v43 i) (fun a => a.elim0)
def val_main_v44 : (⟨S266240x1, .i32⟩ : BufTy).Contents (Elt F) :=
  broadcastInDim S266240x1 ![0] bcast_S266240_S266240x1_0 (val_main_v6 (F := F) x1)
abbrev idx_main_v44 (i : S266240x1.Idx) : S266240.Idx := fun a => match a with
  | ⟨0, _⟩ => ⟨(i 0).val, (i 0).isLt⟩
theorem val_main_v44_apply (i : S266240x1.Idx) :
    val_main_v44 (F := F) x1 i = val_main_v6 (F := F) x1 (idx_main_v44 i) := by
  unfold val_main_v44
  generalize val_main_v6 (F := F) x1 = y
  exact broadcastInDim_apply _ bcast_S266240_S266240x1_0 y i (idx_main_v44 i) (fun a => match a with
    | ⟨0, _⟩ => by show (i 0).val = if (266240 : Nat) = 1 then 0 else (i 0).val; rw [if_neg (by decide)])
def val_main_v45 : (⟨S4096x256, .f32⟩ : BufTy).Contents (Elt F) :=
  Host.scatterAdd scatter_S4096x256_S266240x1_S266240x256_1_0_0_1 (val_main_v43 (F := F)) (val_main_v44 (F := F) x1) (val_main_v42 (F := F) x0 x1 x2 x3)
def val_main_v46 : (⟨S1x256, .f32⟩ : BufTy).Contents (Elt F) :=
  broadcastInDim S1x256 ![1] bcast_S256_S1x256_1 (x4)
abbrev idx_main_v46 (i : S1x256.Idx) : S256.Idx := fun a => match a with
  | ⟨0, _⟩ => ⟨(i 1).val, (i 1).isLt⟩
theorem val_main_v46_apply (i : S1x256.Idx) :
    val_main_v46 (F := F) x4 i = x4 (idx_main_v46 i) := by
  unfold val_main_v46
  exact broadcastInDim_apply _ bcast_S256_S1x256_1 x4 i (idx_main_v46 i) (fun a => match a with
    | ⟨0, _⟩ => by show (i 1).val = if (256 : Nat) = 1 then 0 else (i 1).val; rw [if_neg (by decide)])
def val_main_v47 : (⟨S4096x256, .f32⟩ : BufTy).Contents (Elt F) :=
  broadcastInDim S4096x256 ![0, 1] bcast_S1x256_S4096x256_0_1 (val_main_v46 (F := F) x4)
abbrev idx_main_v47 (i : S4096x256.Idx) : S1x256.Idx := fun a => match a with
  | ⟨0, _⟩ => ⟨0, Nat.one_pos⟩
  | ⟨1, _⟩ => ⟨(i 1).val, (i 1).isLt⟩
theorem val_main_v47_apply (i : S4096x256.Idx) :
    val_main_v47 (F := F) x4 i = val_main_v46 (F := F) x4 (idx_main_v47 i) := by
  unfold val_main_v47
  generalize val_main_v46 (F := F) x4 = y
  exact broadcastInDim_apply _ bcast_S1x256_S4096x256_0_1 y i (idx_main_v47 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])
def val_main_v48 : (⟨S4096x256, .f32⟩ : BufTy).Contents (Elt F) :=
  addf (val_main_v45 (F := F) x0 x1 x2 x3) (val_main_v47 (F := F) x4)
def val_main_v49 : (⟨S256x768, .f32⟩ : BufTy).Contents (Elt F) :=
  transpose S256x768 [1, 0] (x9) transposes_S768x256_S256x768_1_0
abbrev idx_main_v49 (i : S256x768.Idx) : S768x256.Idx := fun a => match a with
  | ⟨0, _⟩ => ⟨(i 1).val, (i 1).isLt⟩
  | ⟨1, _⟩ => ⟨(i 0).val, (i 0).isLt⟩
theorem val_main_v49_apply (i : S256x768.Idx) :
    val_main_v49 (F := F) x9 i = x9 (idx_main_v49 i) := by
  unfold val_main_v49
  exact transpose_apply [1, 0] x9 transposes_S768x256_S256x768_1_0 i (idx_main_v49 i) (fun b => match b with
    | ⟨0, _⟩ => rfl
    | ⟨1, _⟩ => rfl)
def val_main_v50 : (⟨S4096x768, .f32⟩ : BufTy).Contents (Elt F) :=
  Host.dotGeneral dot_S4096x256_S256x768_S4096x768_1_0_0_1_n_n none (val_main_v48 (F := F) x0 x1 x2 x3 x4) (val_main_v49 (F := F) x9)
theorem lhs_main_v50_0 (i : S4096x768.Idx) (q : dot_S4096x256_S256x768_S4096x768_1_0_0_1_n_n.contr.Idx) :
    (dot_S4096x256_S256x768_S4096x768_1_0_0_1_n_n.lhsIdx i q 0).val = (i 0).val := by
  unfold DotDims.lhsIdx
  rw [dif_neg (show ¬(0 : Fin S4096x256.rank) ∈ dot_S4096x256_S256x768_S4096x768_1_0_0_1_n_n.lhsBatch by decide), dif_pos (show (0 : Fin S4096x256.rank) ∈ dot_S4096x256_S256x768_S4096x768_1_0_0_1_n_n.lhsNonContracting by decide)]
  rfl
theorem lhs_main_v50_1 (i : S4096x768.Idx) (q : dot_S4096x256_S256x768_S4096x768_1_0_0_1_n_n.contr.Idx) :
    (dot_S4096x256_S256x768_S4096x768_1_0_0_1_n_n.lhsIdx i q 1).val = (q ⟨0, by decide⟩).val :=
  dot_S4096x256_S256x768_S4096x768_1_0_0_1_n_n.lhsIdx_val_of_single rfl i q
theorem rhs_main_v50_0 (i : S4096x768.Idx) (q : dot_S4096x256_S256x768_S4096x768_1_0_0_1_n_n.contr.Idx) :
    (dot_S4096x256_S256x768_S4096x768_1_0_0_1_n_n.rhsIdx i q 0).val = (q ⟨0, by decide⟩).val :=
  dot_S4096x256_S256x768_S4096x768_1_0_0_1_n_n.rhsIdx_val_of_single rfl i q
theorem rhs_main_v50_1 (i : S4096x768.Idx) (q : dot_S4096x256_S256x768_S4096x768_1_0_0_1_n_n.contr.Idx) :
    (dot_S4096x256_S256x768_S4096x768_1_0_0_1_n_n.rhsIdx i q 1).val = (i 1).val := by
  unfold DotDims.rhsIdx
  rw [dif_neg (show ¬(1 : Fin S256x768.rank) ∈ dot_S4096x256_S256x768_S4096x768_1_0_0_1_n_n.rhsBatch by decide), dif_pos (show (1 : Fin S256x768.rank) ∈ dot_S4096x256_S256x768_S4096x768_1_0_0_1_n_n.rhsNonContracting by decide)]
  rfl
abbrev lidx_main_v50 (i : S4096x768.Idx) (k : Fin 256) : S4096x256.Idx := fun a => match a with
  | ⟨0, _⟩ => ⟨(i 0).val, (i 0).isLt⟩
  | ⟨1, _⟩ => ⟨k.val, k.isLt⟩
abbrev ridx_main_v50 (i : S4096x768.Idx) (k : Fin 256) : S256x768.Idx := fun a => match a with
  | ⟨0, _⟩ => ⟨k.val, k.isLt⟩
  | ⟨1, _⟩ => ⟨(i 1).val, (i 1).isLt⟩
def val_main_v51 : (⟨S1x768, .f32⟩ : BufTy).Contents (Elt F) :=
  broadcastInDim S1x768 ![1] bcast_S768_S1x768_1 (x10)
abbrev idx_main_v51 (i : S1x768.Idx) : S768.Idx := fun a => match a with
  | ⟨0, _⟩ => ⟨(i 1).val, (i 1).isLt⟩
theorem val_main_v51_apply (i : S1x768.Idx) :
    val_main_v51 (F := F) x10 i = x10 (idx_main_v51 i) := by
  unfold val_main_v51
  exact broadcastInDim_apply _ bcast_S768_S1x768_1 x10 i (idx_main_v51 i) (fun a => match a with
    | ⟨0, _⟩ => by show (i 1).val = if (768 : Nat) = 1 then 0 else (i 1).val; rw [if_neg (by decide)])
def val_main_v52 : (⟨S4096x768, .f32⟩ : BufTy).Contents (Elt F) :=
  broadcastInDim S4096x768 ![0, 1] bcast_S1x768_S4096x768_0_1 (val_main_v51 (F := F) x10)
abbrev idx_main_v52 (i : S4096x768.Idx) : S1x768.Idx := fun a => match a with
  | ⟨0, _⟩ => ⟨0, Nat.one_pos⟩
  | ⟨1, _⟩ => ⟨(i 1).val, (i 1).isLt⟩
theorem val_main_v52_apply (i : S4096x768.Idx) :
    val_main_v52 (F := F) x10 i = val_main_v51 (F := F) x10 (idx_main_v52 i) := by
  unfold val_main_v52
  generalize val_main_v51 (F := F) x10 = y
  exact broadcastInDim_apply _ bcast_S1x768_S4096x768_0_1 y i (idx_main_v52 i) (fun a => match a with
    | ⟨0, _⟩ => by show 0 = if (1 : Nat) = 1 then 0 else (i 0).val; rw [if_pos rfl]
    | ⟨1, _⟩ => by show (i 1).val = if (768 : Nat) = 1 then 0 else (i 1).val; rw [if_neg (by decide)])
def val_main_v53 : (⟨S4096x768, .f32⟩ : BufTy).Contents (Elt F) :=
  addf (val_main_v50 (F := F) x0 x1 x2 x3 x4 x9) (val_main_v52 (F := F) x10)
theorem val_main_v53_apply (i : S4096x768.Idx) :
    val_main_v53 (F := F) x0 x1 x2 x3 x4 x9 x10 i = FloatOps.addf (val_main_v50 (F := F) x0 x1 x2 x3 x4 x9 i) (val_main_v52 (F := F) x10 i) := rfl
def val_main_v54 : (⟨S4096x256, .f32⟩ : BufTy).Contents (Elt F) :=
  extractStridedSlice S4096x256 ![0, 0] (val_main_v53 (F := F) x0 x1 x2 x3 x4 x9 x10) slices_S4096x768_S4096x256_0_0
abbrev idx_main_v54 (i : S4096x256.Idx) : S4096x768.Idx := fun a => match a with
  | ⟨0, _⟩ => ⟨(i 0).val, (i 0).isLt⟩
  | ⟨1, _⟩ => ⟨(i 1).val, by have h1 : (i 1).val < 256 := (i 1).isLt; show (i 1).val < 768; omega⟩
theorem val_main_v54_apply (i : S4096x256.Idx) :
    val_main_v54 (F := F) x0 x1 x2 x3 x4 x9 x10 i = val_main_v53 (F := F) x0 x1 x2 x3 x4 x9 x10 (idx_main_v54 i) := by
  unfold val_main_v54
  generalize val_main_v53 (F := F) x0 x1 x2 x3 x4 x9 x10 = y
  exact extractStridedSlice_apply ![0, 0] y slices_S4096x768_S4096x256_0_0 i (idx_main_v54 i) (fun a => match a with
    | ⟨0, _⟩ => by show (i 0).val = 0 + (i 0).val; omega
    | ⟨1, _⟩ => by show (i 1).val = 0 + (i 1).val; omega)
def val_main_v55 : (⟨S4096x256, .f32⟩ : BufTy).Contents (Elt F) :=
  extractStridedSlice S4096x256 ![0, 256] (val_main_v53 (F := F) x0 x1 x2 x3 x4 x9 x10) slices_S4096x768_S4096x256_0_256
abbrev idx_main_v55 (i : S4096x256.Idx) : S4096x768.Idx := fun a => match a with
  | ⟨0, _⟩ => ⟨(i 0).val, (i 0).isLt⟩
  | ⟨1, _⟩ => ⟨256 + (i 1).val, by have h1 : (i 1).val < 256 := (i 1).isLt; show 256 + (i 1).val < 768; omega⟩
theorem val_main_v55_apply (i : S4096x256.Idx) :
    val_main_v55 (F := F) x0 x1 x2 x3 x4 x9 x10 i = val_main_v53 (F := F) x0 x1 x2 x3 x4 x9 x10 (idx_main_v55 i) := by
  unfold val_main_v55
  generalize val_main_v53 (F := F) x0 x1 x2 x3 x4 x9 x10 = y
  exact extractStridedSlice_apply ![0, 256] y slices_S4096x768_S4096x256_0_256 i (idx_main_v55 i) (fun a => match a with
    | ⟨0, _⟩ => by show (i 0).val = 0 + (i 0).val; omega
    | ⟨1, _⟩ => by show 256 + (i 1).val = 256 + (i 1).val; omega)
def val_main_v56 : (⟨S4096x256, .f32⟩ : BufTy).Contents (Elt F) :=
  extractStridedSlice S4096x256 ![0, 512] (val_main_v53 (F := F) x0 x1 x2 x3 x4 x9 x10) slices_S4096x768_S4096x256_0_512
abbrev idx_main_v56 (i : S4096x256.Idx) : S4096x768.Idx := fun a => match a with
  | ⟨0, _⟩ => ⟨(i 0).val, (i 0).isLt⟩
  | ⟨1, _⟩ => ⟨512 + (i 1).val, by have h1 : (i 1).val < 256 := (i 1).isLt; show 512 + (i 1).val < 768; omega⟩
theorem val_main_v56_apply (i : S4096x256.Idx) :
    val_main_v56 (F := F) x0 x1 x2 x3 x4 x9 x10 i = val_main_v53 (F := F) x0 x1 x2 x3 x4 x9 x10 (idx_main_v56 i) := by
  unfold val_main_v56
  generalize val_main_v53 (F := F) x0 x1 x2 x3 x4 x9 x10 = y
  exact extractStridedSlice_apply ![0, 512] y slices_S4096x768_S4096x256_0_512 i (idx_main_v56 i) (fun a => match a with
    | ⟨0, _⟩ => by show (i 0).val = 0 + (i 0).val; omega
    | ⟨1, _⟩ => by show 512 + (i 1).val = 512 + (i 1).val; omega)
def val_main_v57 : (⟨S4096x4x64, .f32⟩ : BufTy).Contents (Elt F) :=
  shapeCast _ (val_main_v54 (F := F) x0 x1 x2 x3 x4 x9 x10) shapeCasts_S4096x256_S4096x4x64
abbrev idx_main_v57 (i : S4096x4x64.Idx) : S4096x256.Idx := fun a => match a with
  | ⟨0, _⟩ => ⟨(((i 0).val * 4 + (i 1).val) * 64 + (i 2).val) / 256, by have h0 : (i 0).val < 4096 := (i 0).isLt; have h1 : (i 1).val < 4 := (i 1).isLt; have h2 : (i 2).val < 64 := (i 2).isLt; show (((i 0).val * 4 + (i 1).val) * 64 + (i 2).val) / 256 < 4096; omega⟩
  | ⟨1, _⟩ => ⟨(((i 0).val * 4 + (i 1).val) * 64 + (i 2).val) % 256, by have h0 : (i 0).val < 4096 := (i 0).isLt; have h1 : (i 1).val < 4 := (i 1).isLt; have h2 : (i 2).val < 64 := (i 2).isLt; show (((i 0).val * 4 + (i 1).val) * 64 + (i 2).val) % 256 < 256; omega⟩
theorem val_main_v57_apply (i : S4096x4x64.Idx) :
    val_main_v57 (F := F) x0 x1 x2 x3 x4 x9 x10 i = val_main_v54 (F := F) x0 x1 x2 x3 x4 x9 x10 (idx_main_v57 i) := by
  unfold val_main_v57
  generalize val_main_v54 (F := F) x0 x1 x2 x3 x4 x9 x10 = y
  exact shapeCast_apply y shapeCasts_S4096x256_S4096x4x64 i (idx_main_v57 i)
    (by rewrite [Shape.rowMajor_val_two, Shape.rowMajor_val_three]; have h0 : (i 0).val < 4096 := (i 0).isLt; have h1 : (i 1).val < 4 := (i 1).isLt; have h2 : (i 2).val < 64 := (i 2).isLt; show (((i 0).val * 4 + (i 1).val) * 64 + (i 2).val) / 256 * 256 + (((i 0).val * 4 + (i 1).val) * 64 + (i 2).val) % 256 = ((i 0).val * 4 + (i 1).val) * 64 + (i 2).val; omega)
def val_main_v58 : (⟨S4x4096x64, .f32⟩ : BufTy).Contents (Elt F) :=
  transpose S4x4096x64 [1, 0, 2] (val_main_v57 (F := F) x0 x1 x2 x3 x4 x9 x10) transposes_S4096x4x64_S4x4096x64_1_0_2
abbrev idx_main_v58 (i : S4x4096x64.Idx) : S4096x4x64.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v58_apply (i : S4x4096x64.Idx) :
    val_main_v58 (F := F) x0 x1 x2 x3 x4 x9 x10 i = val_main_v57 (F := F) x0 x1 x2 x3 x4 x9 x10 (idx_main_v58 i) := by
  unfold val_main_v58
  generalize val_main_v57 (F := F) x0 x1 x2 x3 x4 x9 x10 = y
  exact transpose_apply [1, 0, 2] y transposes_S4096x4x64_S4x4096x64_1_0_2 i (idx_main_v58 i) (fun b => match b with
    | ⟨0, _⟩ => rfl
    | ⟨1, _⟩ => rfl
    | ⟨2, _⟩ => rfl)
def val_main_v59 : (⟨S4096x4x64, .f32⟩ : BufTy).Contents (Elt F) :=
  shapeCast _ (val_main_v55 (F := F) x0 x1 x2 x3 x4 x9 x10) shapeCasts_S4096x256_S4096x4x64
abbrev idx_main_v59 (i : S4096x4x64.Idx) : S4096x256.Idx := fun a => match a with
  | ⟨0, _⟩ => ⟨(((i 0).val * 4 + (i 1).val) * 64 + (i 2).val) / 256, by have h0 : (i 0).val < 4096 := (i 0).isLt; have h1 : (i 1).val < 4 := (i 1).isLt; have h2 : (i 2).val < 64 := (i 2).isLt; show (((i 0).val * 4 + (i 1).val) * 64 + (i 2).val) / 256 < 4096; omega⟩
  | ⟨1, _⟩ => ⟨(((i 0).val * 4 + (i 1).val) * 64 + (i 2).val) % 256, by have h0 : (i 0).val < 4096 := (i 0).isLt; have h1 : (i 1).val < 4 := (i 1).isLt; have h2 : (i 2).val < 64 := (i 2).isLt; show (((i 0).val * 4 + (i 1).val) * 64 + (i 2).val) % 256 < 256; omega⟩
theorem val_main_v59_apply (i : S4096x4x64.Idx) :
    val_main_v59 (F := F) x0 x1 x2 x3 x4 x9 x10 i = val_main_v55 (F := F) x0 x1 x2 x3 x4 x9 x10 (idx_main_v59 i) := by
  unfold val_main_v59
  generalize val_main_v55 (F := F) x0 x1 x2 x3 x4 x9 x10 = y
  exact shapeCast_apply y shapeCasts_S4096x256_S4096x4x64 i (idx_main_v59 i)
    (by rewrite [Shape.rowMajor_val_two, Shape.rowMajor_val_three]; have h0 : (i 0).val < 4096 := (i 0).isLt; have h1 : (i 1).val < 4 := (i 1).isLt; have h2 : (i 2).val < 64 := (i 2).isLt; show (((i 0).val * 4 + (i 1).val) * 64 + (i 2).val) / 256 * 256 + (((i 0).val * 4 + (i 1).val) * 64 + (i 2).val) % 256 = ((i 0).val * 4 + (i 1).val) * 64 + (i 2).val; omega)
def val_main_v60 : (⟨S4x4096x64, .f32⟩ : BufTy).Contents (Elt F) :=
  transpose S4x4096x64 [1, 0, 2] (val_main_v59 (F := F) x0 x1 x2 x3 x4 x9 x10) transposes_S4096x4x64_S4x4096x64_1_0_2
abbrev idx_main_v60 (i : S4x4096x64.Idx) : S4096x4x64.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v60_apply (i : S4x4096x64.Idx) :
    val_main_v60 (F := F) x0 x1 x2 x3 x4 x9 x10 i = val_main_v59 (F := F) x0 x1 x2 x3 x4 x9 x10 (idx_main_v60 i) := by
  unfold val_main_v60
  generalize val_main_v59 (F := F) x0 x1 x2 x3 x4 x9 x10 = y
  exact transpose_apply [1, 0, 2] y transposes_S4096x4x64_S4x4096x64_1_0_2 i (idx_main_v60 i) (fun b => match b with
    | ⟨0, _⟩ => rfl
    | ⟨1, _⟩ => rfl
    | ⟨2, _⟩ => rfl)
def val_main_v61 : (⟨S4096x4x64, .f32⟩ : BufTy).Contents (Elt F) :=
  shapeCast _ (val_main_v56 (F := F) x0 x1 x2 x3 x4 x9 x10) shapeCasts_S4096x256_S4096x4x64
abbrev idx_main_v61 (i : S4096x4x64.Idx) : S4096x256.Idx := fun a => match a with
  | ⟨0, _⟩ => ⟨(((i 0).val * 4 + (i 1).val) * 64 + (i 2).val) / 256, by have h0 : (i 0).val < 4096 := (i 0).isLt; have h1 : (i 1).val < 4 := (i 1).isLt; have h2 : (i 2).val < 64 := (i 2).isLt; show (((i 0).val * 4 + (i 1).val) * 64 + (i 2).val) / 256 < 4096; omega⟩
  | ⟨1, _⟩ => ⟨(((i 0).val * 4 + (i 1).val) * 64 + (i 2).val) % 256, by have h0 : (i 0).val < 4096 := (i 0).isLt; have h1 : (i 1).val < 4 := (i 1).isLt; have h2 : (i 2).val < 64 := (i 2).isLt; show (((i 0).val * 4 + (i 1).val) * 64 + (i 2).val) % 256 < 256; omega⟩
theorem val_main_v61_apply (i : S4096x4x64.Idx) :
    val_main_v61 (F := F) x0 x1 x2 x3 x4 x9 x10 i = val_main_v56 (F := F) x0 x1 x2 x3 x4 x9 x10 (idx_main_v61 i) := by
  unfold val_main_v61
  generalize val_main_v56 (F := F) x0 x1 x2 x3 x4 x9 x10 = y
  exact shapeCast_apply y shapeCasts_S4096x256_S4096x4x64 i (idx_main_v61 i)
    (by rewrite [Shape.rowMajor_val_two, Shape.rowMajor_val_three]; have h0 : (i 0).val < 4096 := (i 0).isLt; have h1 : (i 1).val < 4 := (i 1).isLt; have h2 : (i 2).val < 64 := (i 2).isLt; show (((i 0).val * 4 + (i 1).val) * 64 + (i 2).val) / 256 * 256 + (((i 0).val * 4 + (i 1).val) * 64 + (i 2).val) % 256 = ((i 0).val * 4 + (i 1).val) * 64 + (i 2).val; omega)
def val_main_v62 : (⟨S4x4096x64, .f32⟩ : BufTy).Contents (Elt F) :=
  transpose S4x4096x64 [1, 0, 2] (val_main_v61 (F := F) x0 x1 x2 x3 x4 x9 x10) transposes_S4096x4x64_S4x4096x64_1_0_2
abbrev idx_main_v62 (i : S4x4096x64.Idx) : S4096x4x64.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v62_apply (i : S4x4096x64.Idx) :
    val_main_v62 (F := F) x0 x1 x2 x3 x4 x9 x10 i = val_main_v61 (F := F) x0 x1 x2 x3 x4 x9 x10 (idx_main_v62 i) := by
  unfold val_main_v62
  generalize val_main_v61 (F := F) x0 x1 x2 x3 x4 x9 x10 = y
  exact transpose_apply [1, 0, 2] y transposes_S4096x4x64_S4x4096x64_1_0_2 i (idx_main_v62 i) (fun b => match b with
    | ⟨0, _⟩ => rfl
    | ⟨1, _⟩ => rfl
    | ⟨2, _⟩ => rfl)
def val_main_v63 : (⟨S4x4096x4096, .f32⟩ : BufTy).Contents (Elt F) :=
  Host.dotGeneral dot_S4x4096x64_S4x4096x64_S4x4096x4096_2_2_1_1_0_0 none (val_main_v58 (F := F) x0 x1 x2 x3 x4 x9 x10) (val_main_v60 (F := F) x0 x1 x2 x3 x4 x9 x10)
theorem lhs_main_v63_0 (i : S4x4096x4096.Idx) (q : dot_S4x4096x64_S4x4096x64_S4x4096x4096_2_2_1_1_0_0.contr.Idx) :
    (dot_S4x4096x64_S4x4096x64_S4x4096x4096_2_2_1_1_0_0.lhsIdx i q 0).val = (i 0).val := by
  unfold DotDims.lhsIdx
  rw [dif_pos (show (0 : Fin S4x4096x64.rank) ∈ dot_S4x4096x64_S4x4096x64_S4x4096x4096_2_2_1_1_0_0.lhsBatch by decide)]
  rfl
theorem lhs_main_v63_1 (i : S4x4096x4096.Idx) (q : dot_S4x4096x64_S4x4096x64_S4x4096x4096_2_2_1_1_0_0.contr.Idx) :
    (dot_S4x4096x64_S4x4096x64_S4x4096x4096_2_2_1_1_0_0.lhsIdx i q 1).val = (i 1).val := by
  unfold DotDims.lhsIdx
  rw [dif_neg (show ¬(1 : Fin S4x4096x64.rank) ∈ dot_S4x4096x64_S4x4096x64_S4x4096x4096_2_2_1_1_0_0.lhsBatch by decide), dif_pos (show (1 : Fin S4x4096x64.rank) ∈ dot_S4x4096x64_S4x4096x64_S4x4096x4096_2_2_1_1_0_0.lhsNonContracting by decide)]
  rfl
theorem lhs_main_v63_2 (i : S4x4096x4096.Idx) (q : dot_S4x4096x64_S4x4096x64_S4x4096x4096_2_2_1_1_0_0.contr.Idx) :
    (dot_S4x4096x64_S4x4096x64_S4x4096x4096_2_2_1_1_0_0.lhsIdx i q 2).val = (q ⟨0, by decide⟩).val :=
  dot_S4x4096x64_S4x4096x64_S4x4096x4096_2_2_1_1_0_0.lhsIdx_val_of_single rfl i q
theorem rhs_main_v63_0 (i : S4x4096x4096.Idx) (q : dot_S4x4096x64_S4x4096x64_S4x4096x4096_2_2_1_1_0_0.contr.Idx) :
    (dot_S4x4096x64_S4x4096x64_S4x4096x4096_2_2_1_1_0_0.rhsIdx i q 0).val = (i 0).val := by
  unfold DotDims.rhsIdx
  rw [dif_pos (show (0 : Fin S4x4096x64.rank) ∈ dot_S4x4096x64_S4x4096x64_S4x4096x4096_2_2_1_1_0_0.rhsBatch by decide)]
  rfl
theorem rhs_main_v63_1 (i : S4x4096x4096.Idx) (q : dot_S4x4096x64_S4x4096x64_S4x4096x4096_2_2_1_1_0_0.contr.Idx) :
    (dot_S4x4096x64_S4x4096x64_S4x4096x4096_2_2_1_1_0_0.rhsIdx i q 1).val = (i 2).val := by
  unfold DotDims.rhsIdx
  rw [dif_neg (show ¬(1 : Fin S4x4096x64.rank) ∈ dot_S4x4096x64_S4x4096x64_S4x4096x4096_2_2_1_1_0_0.rhsBatch by decide), dif_pos (show (1 : Fin S4x4096x64.rank) ∈ dot_S4x4096x64_S4x4096x64_S4x4096x4096_2_2_1_1_0_0.rhsNonContracting by decide)]
  rfl
theorem rhs_main_v63_2 (i : S4x4096x4096.Idx) (q : dot_S4x4096x64_S4x4096x64_S4x4096x4096_2_2_1_1_0_0.contr.Idx) :
    (dot_S4x4096x64_S4x4096x64_S4x4096x4096_2_2_1_1_0_0.rhsIdx i q 2).val = (q ⟨0, by decide⟩).val :=
  dot_S4x4096x64_S4x4096x64_S4x4096x4096_2_2_1_1_0_0.rhsIdx_val_of_single rfl i q
abbrev lidx_main_v63 (i : S4x4096x4096.Idx) (k : Fin 64) : S4x4096x64.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v63 (i : S4x4096x4096.Idx) (k : Fin 64) : S4x4096x64.Idx := fun a => match a with
  | ⟨0, _⟩ => ⟨(i 0).val, (i 0).isLt⟩
  | ⟨1, _⟩ => ⟨(i 2).val, (i 2).isLt⟩
  | ⟨2, _⟩ => ⟨k.val, k.isLt⟩
def val_main_cst_9 : (⟨S_, .f32⟩ : BufTy).Contents (Elt F) :=
  constant S_ .f32 0x41000000#32
theorem val_main_cst_9_apply (i : S_.Idx) :
    val_main_cst_9 (F := F) i = FloatOps.ofBits .f32 0x41000000#32 := rfl
def val_main_v64 : (⟨S4x4096x4096, .f32⟩ : BufTy).Contents (Elt F) :=
  broadcastInDim S4x4096x4096 ![] bcast_S_S4x4096x4096 (val_main_cst_9 (F := F))
abbrev idx_main_v64 (i : S4x4096x4096.Idx) : S_.Idx := fun a => a.elim0
theorem val_main_v64_apply (i : S4x4096x4096.Idx) :
    val_main_v64 (F := F) i = val_main_cst_9 (F := F) (idx_main_v64 i) := by
  unfold val_main_v64
  generalize val_main_cst_9 (F := F) = y
  exact broadcastInDim_apply _ bcast_S_S4x4096x4096 y i (idx_main_v64 i) (fun a => a.elim0)
def val_main_v65 : (⟨S4x4096x4096, .f32⟩ : BufTy).Contents (Elt F) :=
  Host.divf (val_main_v63 (F := F) x0 x1 x2 x3 x4 x9 x10) (val_main_v64 (F := F))
theorem val_main_v65_apply (i : S4x4096x4096.Idx) :
    val_main_v65 (F := F) x0 x1 x2 x3 x4 x9 x10 i = FloatOps.hostDivf (val_main_v63 (F := F) x0 x1 x2 x3 x4 x9 x10 i) (val_main_v64 (F := F) i) := rfl
def val_main_cst_10 : (⟨S_, .f32⟩ : BufTy).Contents (Elt F) :=
  constant S_ .f32 0xFF800000#32
theorem val_main_cst_10_apply (i : S_.Idx) :
    val_main_cst_10 (F := F) i = FloatOps.ofBits .f32 0xFF800000#32 := rfl
def val_main_v66 : (⟨S4x4096, .f32⟩ : BufTy).Contents (Elt F) :=
  Host.reduce FloatOps.maximumf (val_main_v65 (F := F) x0 x1 x2 x3 x4 x9 x10) (val_main_cst_10 (F := F)) reducesTo_S4x4096x4096_S4x4096_d2 h_S_
def val_main_cst_11 : (⟨S_, .f32⟩ : BufTy).Contents (Elt F) :=
  constant S_ .f32 0xFF800000#32
theorem val_main_cst_11_apply (i : S_.Idx) :
    val_main_cst_11 (F := F) i = FloatOps.ofBits .f32 0xFF800000#32 := rfl
def val_main_v67 : (⟨S4x4096, .f32⟩ : BufTy).Contents (Elt F) :=
  broadcastInDim S4x4096 ![] bcast_S_S4x4096 (val_main_cst_11 (F := F))
abbrev idx_main_v67 (i : S4x4096.Idx) : S_.Idx := fun a => a.elim0
theorem val_main_v67_apply (i : S4x4096.Idx) :
    val_main_v67 (F := F) i = val_main_cst_11 (F := F) (idx_main_v67 i) := by
  unfold val_main_v67
  generalize val_main_cst_11 (F := F) = y
  exact broadcastInDim_apply _ bcast_S_S4x4096 y i (idx_main_v67 i) (fun a => a.elim0)
def val_main_v68 : (⟨S4x4096, .f32⟩ : BufTy).Contents (Elt F) :=
  maximumf (val_main_v67 (F := F)) (val_main_v66 (F := F) x0 x1 x2 x3 x4 x9 x10)
theorem val_main_v68_apply (i : S4x4096.Idx) :
    val_main_v68 (F := F) x0 x1 x2 x3 x4 x9 x10 i = FloatOps.maximumf (val_main_v67 (F := F) i) (val_main_v66 (F := F) x0 x1 x2 x3 x4 x9 x10 i) := rfl
def val_main_v69 : (⟨S4x4096x1, .f32⟩ : BufTy).Contents (Elt F) :=
  broadcastInDim S4x4096x1 ![0, 1] bcast_S4x4096_S4x4096x1_0_1 (val_main_v68 (F := F) x0 x1 x2 x3 x4 x9 x10)
abbrev idx_main_v69 (i : S4x4096x1.Idx) : S4x4096.Idx := fun a => match a with
  | ⟨0, _⟩ => ⟨(i 0).val, (i 0).isLt⟩
  | ⟨1, _⟩ => ⟨(i 1).val, (i 1).isLt⟩
theorem val_main_v69_apply (i : S4x4096x1.Idx) :
    val_main_v69 (F := F) x0 x1 x2 x3 x4 x9 x10 i = val_main_v68 (F := F) x0 x1 x2 x3 x4 x9 x10 (idx_main_v69 i) := by
  unfold val_main_v69
  generalize val_main_v68 (F := F) x0 x1 x2 x3 x4 x9 x10 = y
  exact broadcastInDim_apply _ bcast_S4x4096_S4x4096x1_0_1 y i (idx_main_v69 i) (fun a => match a with
    | ⟨0, _⟩ => by show (i 0).val = if (4 : Nat) = 1 then 0 else (i 0).val; rw [if_neg (by decide)]
    | ⟨1, _⟩ => by show (i 1).val = if (4096 : Nat) = 1 then 0 else (i 1).val; rw [if_neg (by decide)])
def val_main_v70 : (⟨S4x4096x4096, .f32⟩ : BufTy).Contents (Elt F) :=
  broadcastInDim S4x4096x4096 ![0, 1, 2] bcast_S4x4096x1_S4x4096x4096_0_1_2 (val_main_v69 (F := F) x0 x1 x2 x3 x4 x9 x10)
abbrev idx_main_v70 (i : S4x4096x4096.Idx) : S4x4096x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v70_apply (i : S4x4096x4096.Idx) :
    val_main_v70 (F := F) x0 x1 x2 x3 x4 x9 x10 i = val_main_v69 (F := F) x0 x1 x2 x3 x4 x9 x10 (idx_main_v70 i) := by
  unfold val_main_v70
  generalize val_main_v69 (F := F) x0 x1 x2 x3 x4 x9 x10 = y
  exact broadcastInDim_apply _ bcast_S4x4096x1_S4x4096x4096_0_1_2 y i (idx_main_v70 i) (fun a => match a with
    | ⟨0, _⟩ => by show (i 0).val = if (4 : Nat) = 1 then 0 else (i 0).val; rw [if_neg (by decide)]
    | ⟨1, _⟩ => by show (i 1).val = if (4096 : Nat) = 1 then 0 else (i 1).val; rw [if_neg (by decide)]
    | ⟨2, _⟩ => by show 0 = if (1 : Nat) = 1 then 0 else (i 2).val; rw [if_pos rfl])
def val_main_v71 : (⟨S4x4096x4096, .f32⟩ : BufTy).Contents (Elt F) :=
  subf (val_main_v65 (F := F) x0 x1 x2 x3 x4 x9 x10) (val_main_v70 (F := F) x0 x1 x2 x3 x4 x9 x10)
theorem val_main_v71_apply (i : S4x4096x4096.Idx) :
    val_main_v71 (F := F) x0 x1 x2 x3 x4 x9 x10 i = FloatOps.subf (val_main_v65 (F := F) x0 x1 x2 x3 x4 x9 x10 i) (val_main_v70 (F := F) x0 x1 x2 x3 x4 x9 x10 i) := rfl
def val_main_v72 : (⟨S4x4096x4096, .f32⟩ : BufTy).Contents (Elt F) :=
  Host.exp (val_main_v71 (F := F) x0 x1 x2 x3 x4 x9 x10)
theorem val_main_v72_apply (i : S4x4096x4096.Idx) :
    val_main_v72 (F := F) x0 x1 x2 x3 x4 x9 x10 i = FloatOps.hostUnary .exp (val_main_v71 (F := F) x0 x1 x2 x3 x4 x9 x10 i) := rfl
def val_main_cst_12 : (⟨S_, .f32⟩ : BufTy).Contents (Elt F) :=
  constant S_ .f32 0x00000000#32
theorem val_main_cst_12_apply (i : S_.Idx) :
    val_main_cst_12 (F := F) i = FloatOps.ofBits .f32 0x00000000#32 := rfl
def val_main_v73 : (⟨S4x4096, .f32⟩ : BufTy).Contents (Elt F) :=
  Host.reduceAdd (val_main_v72 (F := F) x0 x1 x2 x3 x4 x9 x10) (val_main_cst_12 (F := F)) reducesTo_S4x4096x4096_S4x4096_d2 h_S_
abbrev idx_main_v73 (i : S4x4096.Idx) (k : Fin 4096) : S4x4096x4096.Idx := fun a => match a with
  | ⟨0, _⟩ => ⟨(i 0).val, (i 0).isLt⟩
  | ⟨1, _⟩ => ⟨(i 1).val, (i 1).isLt⟩
  | ⟨2, _⟩ => ⟨k.val, k.isLt⟩
def val_main_v74 : (⟨S4x4096x1, .f32⟩ : BufTy).Contents (Elt F) :=
  broadcastInDim S4x4096x1 ![0, 1] bcast_S4x4096_S4x4096x1_0_1 (val_main_v73 (F := F) x0 x1 x2 x3 x4 x9 x10)
abbrev idx_main_v74 (i : S4x4096x1.Idx) : S4x4096.Idx := fun a => match a with
  | ⟨0, _⟩ => ⟨(i 0).val, (i 0).isLt⟩
  | ⟨1, _⟩ => ⟨(i 1).val, (i 1).isLt⟩
theorem val_main_v74_apply (i : S4x4096x1.Idx) :
    val_main_v74 (F := F) x0 x1 x2 x3 x4 x9 x10 i = val_main_v73 (F := F) x0 x1 x2 x3 x4 x9 x10 (idx_main_v74 i) := by
  unfold val_main_v74
  generalize val_main_v73 (F := F) x0 x1 x2 x3 x4 x9 x10 = y
  exact broadcastInDim_apply _ bcast_S4x4096_S4x4096x1_0_1 y i (idx_main_v74 i) (fun a => match a with
    | ⟨0, _⟩ => by show (i 0).val = if (4 : Nat) = 1 then 0 else (i 0).val; rw [if_neg (by decide)]
    | ⟨1, _⟩ => by show (i 1).val = if (4096 : Nat) = 1 then 0 else (i 1).val; rw [if_neg (by decide)])
def val_main_v75 : (⟨S4x4096x4096, .f32⟩ : BufTy).Contents (Elt F) :=
  broadcastInDim S4x4096x4096 ![0, 1, 2] bcast_S4x4096x1_S4x4096x4096_0_1_2 (val_main_v74 (F := F) x0 x1 x2 x3 x4 x9 x10)
abbrev idx_main_v75 (i : S4x4096x4096.Idx) : S4x4096x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v75_apply (i : S4x4096x4096.Idx) :
    val_main_v75 (F := F) x0 x1 x2 x3 x4 x9 x10 i = val_main_v74 (F := F) x0 x1 x2 x3 x4 x9 x10 (idx_main_v75 i) := by
  unfold val_main_v75
  generalize val_main_v74 (F := F) x0 x1 x2 x3 x4 x9 x10 = y
  exact broadcastInDim_apply _ bcast_S4x4096x1_S4x4096x4096_0_1_2 y i (idx_main_v75 i) (fun a => match a with
    | ⟨0, _⟩ => by show (i 0).val = if (4 : Nat) = 1 then 0 else (i 0).val; rw [if_neg (by decide)]
    | ⟨1, _⟩ => by show (i 1).val = if (4096 : Nat) = 1 then 0 else (i 1).val; rw [if_neg (by decide)]
    | ⟨2, _⟩ => by show 0 = if (1 : Nat) = 1 then 0 else (i 2).val; rw [if_pos rfl])
def val_main_v76 : (⟨S4x4096x4096, .f32⟩ : BufTy).Contents (Elt F) :=
  Host.divf (val_main_v72 (F := F) x0 x1 x2 x3 x4 x9 x10) (val_main_v75 (F := F) x0 x1 x2 x3 x4 x9 x10)
theorem val_main_v76_apply (i : S4x4096x4096.Idx) :
    val_main_v76 (F := F) x0 x1 x2 x3 x4 x9 x10 i = FloatOps.hostDivf (val_main_v72 (F := F) x0 x1 x2 x3 x4 x9 x10 i) (val_main_v75 (F := F) x0 x1 x2 x3 x4 x9 x10 i) := rfl
def val_main_v77 : (⟨S4x4096x64, .f32⟩ : BufTy).Contents (Elt F) :=
  Host.dotGeneral dot_S4x4096x4096_S4x4096x64_S4x4096x64_2_1_1_2_0_0 none (val_main_v76 (F := F) x0 x1 x2 x3 x4 x9 x10) (val_main_v62 (F := F) x0 x1 x2 x3 x4 x9 x10)
theorem lhs_main_v77_0 (i : S4x4096x64.Idx) (q : dot_S4x4096x4096_S4x4096x64_S4x4096x64_2_1_1_2_0_0.contr.Idx) :
    (dot_S4x4096x4096_S4x4096x64_S4x4096x64_2_1_1_2_0_0.lhsIdx i q 0).val = (i 0).val := by
  unfold DotDims.lhsIdx
  rw [dif_pos (show (0 : Fin S4x4096x4096.rank) ∈ dot_S4x4096x4096_S4x4096x64_S4x4096x64_2_1_1_2_0_0.lhsBatch by decide)]
  rfl
theorem lhs_main_v77_1 (i : S4x4096x64.Idx) (q : dot_S4x4096x4096_S4x4096x64_S4x4096x64_2_1_1_2_0_0.contr.Idx) :
    (dot_S4x4096x4096_S4x4096x64_S4x4096x64_2_1_1_2_0_0.lhsIdx i q 1).val = (i 1).val := by
  unfold DotDims.lhsIdx
  rw [dif_neg (show ¬(1 : Fin S4x4096x4096.rank) ∈ dot_S4x4096x4096_S4x4096x64_S4x4096x64_2_1_1_2_0_0.lhsBatch by decide), dif_pos (show (1 : Fin S4x4096x4096.rank) ∈ dot_S4x4096x4096_S4x4096x64_S4x4096x64_2_1_1_2_0_0.lhsNonContracting by decide)]
  rfl
theorem lhs_main_v77_2 (i : S4x4096x64.Idx) (q : dot_S4x4096x4096_S4x4096x64_S4x4096x64_2_1_1_2_0_0.contr.Idx) :
    (dot_S4x4096x4096_S4x4096x64_S4x4096x64_2_1_1_2_0_0.lhsIdx i q 2).val = (q ⟨0, by decide⟩).val :=
  dot_S4x4096x4096_S4x4096x64_S4x4096x64_2_1_1_2_0_0.lhsIdx_val_of_single rfl i q
theorem rhs_main_v77_0 (i : S4x4096x64.Idx) (q : dot_S4x4096x4096_S4x4096x64_S4x4096x64_2_1_1_2_0_0.contr.Idx) :
    (dot_S4x4096x4096_S4x4096x64_S4x4096x64_2_1_1_2_0_0.rhsIdx i q 0).val = (i 0).val := by
  unfold DotDims.rhsIdx
  rw [dif_pos (show (0 : Fin S4x4096x64.rank) ∈ dot_S4x4096x4096_S4x4096x64_S4x4096x64_2_1_1_2_0_0.rhsBatch by decide)]
  rfl
theorem rhs_main_v77_1 (i : S4x4096x64.Idx) (q : dot_S4x4096x4096_S4x4096x64_S4x4096x64_2_1_1_2_0_0.contr.Idx) :
    (dot_S4x4096x4096_S4x4096x64_S4x4096x64_2_1_1_2_0_0.rhsIdx i q 1).val = (q ⟨0, by decide⟩).val :=
  dot_S4x4096x4096_S4x4096x64_S4x4096x64_2_1_1_2_0_0.rhsIdx_val_of_single rfl i q
theorem rhs_main_v77_2 (i : S4x4096x64.Idx) (q : dot_S4x4096x4096_S4x4096x64_S4x4096x64_2_1_1_2_0_0.contr.Idx) :
    (dot_S4x4096x4096_S4x4096x64_S4x4096x64_2_1_1_2_0_0.rhsIdx i q 2).val = (i 2).val := by
  unfold DotDims.rhsIdx
  rw [dif_neg (show ¬(2 : Fin S4x4096x64.rank) ∈ dot_S4x4096x4096_S4x4096x64_S4x4096x64_2_1_1_2_0_0.rhsBatch by decide), dif_pos (show (2 : Fin S4x4096x64.rank) ∈ dot_S4x4096x4096_S4x4096x64_S4x4096x64_2_1_1_2_0_0.rhsNonContracting by decide)]
  rfl
abbrev lidx_main_v77 (i : S4x4096x64.Idx) (k : Fin 4096) : S4x4096x4096.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v77 (i : S4x4096x64.Idx) (k : Fin 4096) : S4x4096x64.Idx := fun a => match a with
  | ⟨0, _⟩ => ⟨(i 0).val, (i 0).isLt⟩
  | ⟨1, _⟩ => ⟨k.val, k.isLt⟩
  | ⟨2, _⟩ => ⟨(i 2).val, (i 2).isLt⟩
def val_main_v78 : (⟨S4096x4x64, .f32⟩ : BufTy).Contents (Elt F) :=
  transpose S4096x4x64 [1, 0, 2] (val_main_v77 (F := F) x0 x1 x2 x3 x4 x9 x10) transposes_S4x4096x64_S4096x4x64_1_0_2
abbrev idx_main_v78 (i : S4096x4x64.Idx) : S4x4096x64.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v78_apply (i : S4096x4x64.Idx) :
    val_main_v78 (F := F) x0 x1 x2 x3 x4 x9 x10 i = val_main_v77 (F := F) x0 x1 x2 x3 x4 x9 x10 (idx_main_v78 i) := by
  unfold val_main_v78
  generalize val_main_v77 (F := F) x0 x1 x2 x3 x4 x9 x10 = y
  exact transpose_apply [1, 0, 2] y transposes_S4x4096x64_S4096x4x64_1_0_2 i (idx_main_v78 i) (fun b => match b with
    | ⟨0, _⟩ => rfl
    | ⟨1, _⟩ => rfl
    | ⟨2, _⟩ => rfl)
def val_main_v79 : (⟨S4096x256, .f32⟩ : BufTy).Contents (Elt F) :=
  shapeCast _ (val_main_v78 (F := F) x0 x1 x2 x3 x4 x9 x10) shapeCasts_S4096x4x64_S4096x256
abbrev idx_main_v79 (i : S4096x256.Idx) : S4096x4x64.Idx := fun a => match a with
  | ⟨0, _⟩ => ⟨((i 0).val * 256 + (i 1).val) / 256, by have h0 : (i 0).val < 4096 := (i 0).isLt; have h1 : (i 1).val < 256 := (i 1).isLt; show ((i 0).val * 256 + (i 1).val) / 256 < 4096; omega⟩
  | ⟨1, _⟩ => ⟨((i 0).val * 256 + (i 1).val) / 64 % 4, by have h0 : (i 0).val < 4096 := (i 0).isLt; have h1 : (i 1).val < 256 := (i 1).isLt; show ((i 0).val * 256 + (i 1).val) / 64 % 4 < 4; omega⟩
  | ⟨2, _⟩ => ⟨((i 0).val * 256 + (i 1).val) % 64, by have h0 : (i 0).val < 4096 := (i 0).isLt; have h1 : (i 1).val < 256 := (i 1).isLt; show ((i 0).val * 256 + (i 1).val) % 64 < 64; omega⟩
theorem val_main_v79_apply (i : S4096x256.Idx) :
    val_main_v79 (F := F) x0 x1 x2 x3 x4 x9 x10 i = val_main_v78 (F := F) x0 x1 x2 x3 x4 x9 x10 (idx_main_v79 i) := by
  unfold val_main_v79
  generalize val_main_v78 (F := F) x0 x1 x2 x3 x4 x9 x10 = y
  exact shapeCast_apply y shapeCasts_S4096x4x64_S4096x256 i (idx_main_v79 i)
    (by rewrite [Shape.rowMajor_val_three, Shape.rowMajor_val_two]; have h0 : (i 0).val < 4096 := (i 0).isLt; have h1 : (i 1).val < 256 := (i 1).isLt; show (((i 0).val * 256 + (i 1).val) / 256 * 4 + ((i 0).val * 256 + (i 1).val) / 64 % 4) * 64 + ((i 0).val * 256 + (i 1).val) % 64 = (i 0).val * 256 + (i 1).val; omega)
def val_main_v80 : (⟨S256x256, .f32⟩ : BufTy).Contents (Elt F) :=
  transpose S256x256 [1, 0] (x11) transposes_S256x256_S256x256_1_0
abbrev idx_main_v80 (i : S256x256.Idx) : S256x256.Idx := fun a => match a with
  | ⟨0, _⟩ => ⟨(i 1).val, (i 1).isLt⟩
  | ⟨1, _⟩ => ⟨(i 0).val, (i 0).isLt⟩
theorem val_main_v80_apply (i : S256x256.Idx) :
    val_main_v80 (F := F) x11 i = x11 (idx_main_v80 i) := by
  unfold val_main_v80
  exact transpose_apply [1, 0] x11 transposes_S256x256_S256x256_1_0 i (idx_main_v80 i) (fun b => match b with
    | ⟨0, _⟩ => rfl
    | ⟨1, _⟩ => rfl)
def val_main_v81 : (⟨S4096x256, .f32⟩ : BufTy).Contents (Elt F) :=
  Host.dotGeneral dot_S4096x256_S256x256_S4096x256_1_0_0_1_n_n none (val_main_v79 (F := F) x0 x1 x2 x3 x4 x9 x10) (val_main_v80 (F := F) x11)
theorem lhs_main_v81_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_main_v81_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_main_v81_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_main_v81_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl
abbrev lidx_main_v81 (i : S4096x256.Idx) (k : Fin 256) : S4096x256.Idx := fun a => match a with
  | ⟨0, _⟩ => ⟨(i 0).val, (i 0).isLt⟩
  | ⟨1, _⟩ => ⟨k.val, k.isLt⟩
abbrev ridx_main_v81 (i : S4096x256.Idx) (k : Fin 256) : S256x256.Idx := fun a => match a with
  | ⟨0, _⟩ => ⟨k.val, k.isLt⟩
  | ⟨1, _⟩ => ⟨(i 1).val, (i 1).isLt⟩
def val_main_v82 : (⟨S1x256, .f32⟩ : BufTy).Contents (Elt F) :=
  broadcastInDim S1x256 ![1] bcast_S256_S1x256_1 (x12)
abbrev idx_main_v82 (i : S1x256.Idx) : S256.Idx := fun a => match a with
  | ⟨0, _⟩ => ⟨(i 1).val, (i 1).isLt⟩
theorem val_main_v82_apply (i : S1x256.Idx) :
    val_main_v82 (F := F) x12 i = x12 (idx_main_v82 i) := by
  unfold val_main_v82
  exact broadcastInDim_apply _ bcast_S256_S1x256_1 x12 i (idx_main_v82 i) (fun a => match a with
    | ⟨0, _⟩ => by show (i 1).val = if (256 : Nat) = 1 then 0 else (i 1).val; rw [if_neg (by decide)])
def val_main_v83 : (⟨S4096x256, .f32⟩ : BufTy).Contents (Elt F) :=
  broadcastInDim S4096x256 ![0, 1] bcast_S1x256_S4096x256_0_1 (val_main_v82 (F := F) x12)
abbrev idx_main_v83 (i : S4096x256.Idx) : S1x256.Idx := fun a => match a with
  | ⟨0, _⟩ => ⟨0, Nat.one_pos⟩
  | ⟨1, _⟩ => ⟨(i 1).val, (i 1).isLt⟩
theorem val_main_v83_apply (i : S4096x256.Idx) :
    val_main_v83 (F := F) x12 i = val_main_v82 (F := F) x12 (idx_main_v83 i) := by
  unfold val_main_v83
  generalize val_main_v82 (F := F) x12 = y
  exact broadcastInDim_apply _ bcast_S1x256_S4096x256_0_1 y i (idx_main_v83 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])
def val_main_v84 : (⟨S4096x256, .f32⟩ : BufTy).Contents (Elt F) :=
  addf (val_main_v81 (F := F) x0 x1 x2 x3 x4 x9 x10 x11) (val_main_v83 (F := F) x12)
theorem val_main_v84_apply (i : S4096x256.Idx) :
    val_main_v84 (F := F) x0 x1 x2 x3 x4 x9 x10 x11 x12 i = FloatOps.addf (val_main_v81 (F := F) x0 x1 x2 x3 x4 x9 x10 x11 i) (val_main_v83 (F := F) x12 i) := rfl
def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl
def val_main_call1_v0 : (⟨S4096x256, .f32⟩ : BufTy).Contents (Elt F) :=
  broadcastInDim S4096x256 ![] bcast_S_S4096x256 (val_main_call1_cst (F := F))
abbrev idx_main_call1_v0 (i : S4096x256.Idx) : S_.Idx := fun a => a.elim0
theorem val_main_call1_v0_apply (i : S4096x256.Idx) :
    val_main_call1_v0 (F := F) i = val_main_call1_cst (F := F) (idx_main_call1_v0 i) := by
  unfold val_main_call1_v0
  generalize val_main_call1_cst (F := F) = y
  exact broadcastInDim_apply _ bcast_S_S4096x256 y i (idx_main_call1_v0 i) (fun a => a.elim0)
def val_main_v85 : (⟨S4096x256, .f32⟩ : BufTy).Contents (Elt F) :=
  maximumf (val_main_v84 (F := F) x0 x1 x2 x3 x4 x9 x10 x11 x12) (val_main_call1_v0 (F := F))
theorem val_main_v85_apply (i : S4096x256.Idx) :
    val_main_v85 (F := F) x0 x1 x2 x3 x4 x9 x10 x11 x12 i = FloatOps.maximumf (val_main_v84 (F := F) x0 x1 x2 x3 x4 x9 x10 x11 x12 i) (val_main_call1_v0 (F := F) i) := rfl
def val_main_v86 : (⟨S1x262144, .i32⟩ : BufTy).Contents (Elt F) :=
  extractStridedSlice S1x262144 ![0, 0] (x1) slices_S2x262144_S1x262144_0_0
def val_main_v87 : (⟨S262144, .i32⟩ : BufTy).Contents (Elt F) :=
  shapeCast _ (val_main_v86 (F := F) x1) shapeCasts_S1x262144_S262144
def val_main_v88 : (⟨S1x262144, .i32⟩ : BufTy).Contents (Elt F) :=
  extractStridedSlice S1x262144 ![1, 0] (x1) slices_S2x262144_S1x262144_1_0
def val_main_v89 : (⟨S262144, .i32⟩ : BufTy).Contents (Elt F) :=
  shapeCast _ (val_main_v88 (F := F) x1) shapeCasts_S1x262144_S262144
def val_main_v90 : (⟨S4096, .i32⟩ : BufTy).Contents (Elt F) :=
  iotaInDim S4096 32 0
def val_main_v91 : (⟨S266240, .i32⟩ : BufTy).Contents (Elt F) :=
  concatenate S266240 0 [⟨S262144, (val_main_v87 (F := F) x1)⟩, ⟨S4096, (val_main_v90 (F := F))⟩] concatenates_S262144_S4096_S266240_d0
def val_main_v92 : (⟨S266240, .i32⟩ : BufTy).Contents (Elt F) :=
  concatenate S266240 0 [⟨S262144, (val_main_v89 (F := F) x1)⟩, ⟨S4096, (val_main_v90 (F := F))⟩] concatenates_S262144_S4096_S266240_d0
def val_main_cst_13 : (⟨S_, .f32⟩ : BufTy).Contents (Elt F) :=
  constant S_ .f32 0x3F800000#32
def val_main_v93 : (⟨S4096, .f32⟩ : BufTy).Contents (Elt F) :=
  broadcastInDim S4096 ![] bcast_S_S4096 (val_main_cst_13 (F := F))
def val_main_v94 : (⟨S266240, .f32⟩ : BufTy).Contents (Elt F) :=
  concatenate S266240 0 [⟨S262144, (x2)⟩, ⟨S4096, (val_main_v93 (F := F))⟩] concatenates_S262144_S4096_S266240_d0
def val_main_cst_14 : (⟨S_, .f32⟩ : BufTy).Contents (Elt F) :=
  constant S_ .f32 0x00000000#32
def val_main_v95 : (⟨S4096, .f32⟩ : BufTy).Contents (Elt F) :=
  broadcastInDim S4096 ![] bcast_S_S4096 (val_main_cst_14 (F := F))
def val_main_v96 : (⟨S266240x1, .i32⟩ : BufTy).Contents (Elt F) :=
  broadcastInDim S266240x1 ![0] bcast_S266240_S266240x1_0 (val_main_v92 (F := F) x1)
def val_main_v97 : (⟨S4096, .f32⟩ : BufTy).Contents (Elt F) :=
  Host.scatterAdd scatter_S4096_S266240x1_S266240_n_0_0_1 (val_main_v95 (F := F)) (val_main_v96 (F := F) x1) (val_main_v94 (F := F) x2)
def val_main_cst_15 : (⟨S_, .f32⟩ : BufTy).Contents (Elt F) :=
  constant S_ .f32 0x00000000#32
def val_main_v98 : (⟨S4096, .f32⟩ : BufTy).Contents (Elt F) :=
  broadcastInDim S4096 ![] bcast_S_S4096 (val_main_cst_15 (F := F))
def val_main_v99 : (⟨S4096, .i1⟩ : BufTy).Contents (Elt F) :=
  cmpf .ogt (val_main_v97 (F := F) x1 x2) (val_main_v98 (F := F))
def val_main_v100 : (⟨S4096, .f32⟩ : BufTy).Contents (Elt F) :=
  Host.rsqrt (val_main_v97 (F := F) x1 x2)
def val_main_cst_16 : (⟨S_, .f32⟩ : BufTy).Contents (Elt F) :=
  constant S_ .f32 0x00000000#32
def val_main_call2_v0 : (⟨S_, .f32⟩ : BufTy).Contents (Elt F) :=
  id (val_main_cst_16 (F := F))
def val_main_call2_v1 : (⟨S4096, .f32⟩ : BufTy).Contents (Elt F) :=
  broadcastInDim S4096 ![] bcast_S_S4096 (val_main_call2_v0 (F := F))
def val_main_v101 : (⟨S4096, .f32⟩ : BufTy).Contents (Elt F) :=
  select (val_main_v99 (F := F) x1 x2) (val_main_v100 (F := F) x1 x2) (val_main_call2_v1 (F := F))
def val_main_c_17 : (⟨S_, .i32⟩ : BufTy).Contents (Elt F) :=
  constantI S_ 32 0#32
def val_main_v102 : (⟨S266240, .i32⟩ : BufTy).Contents (Elt F) :=
  broadcastInDim S266240 ![] bcast_S_S266240 (val_main_c_17 (F := F))
def val_main_v103 : (⟨S266240, .i1⟩ : BufTy).Contents (Elt F) :=
  cmpi .slt (val_main_v91 (F := F) x1) (val_main_v102 (F := F))
def val_main_c_18 : (⟨S_, .i32⟩ : BufTy).Contents (Elt F) :=
  constantI S_ 32 4096#32
def val_main_v104 : (⟨S266240, .i32⟩ : BufTy).Contents (Elt F) :=
  broadcastInDim S266240 ![] bcast_S_S266240 (val_main_c_18 (F := F))
def val_main_v105 : (⟨S266240, .i32⟩ : BufTy).Contents (Elt F) :=
  addi (val_main_v91 (F := F) x1) (val_main_v104 (F := F))
def val_main_v106 : (⟨S266240, .i32⟩ : BufTy).Contents (Elt F) :=
  select (val_main_v103 (F := F) x1) (val_main_v105 (F := F) x1) (val_main_v91 (F := F) x1)
def val_main_v107 : (⟨S266240x1, .i32⟩ : BufTy).Contents (Elt F) :=
  broadcastInDim S266240x1 ![0] bcast_S266240_S266240x1_0 (val_main_v106 (F := F) x1)
def val_main_v108 : (⟨S266240, .f32⟩ : BufTy).Contents (Elt F) :=
  Host.gather gather_S4096_S266240x1_S266240_n_0_n_n_0_1_1 (val_main_v101 (F := F) x1 x2) (val_main_v107 (F := F) x1)
def val_main_v109 : (⟨S266240, .f32⟩ : BufTy).Contents (Elt F) :=
  mulf (val_main_v108 (F := F) x1 x2) (val_main_v94 (F := F) x2)
def val_main_c_19 : (⟨S_, .i32⟩ : BufTy).Contents (Elt F) :=
  constantI S_ 32 0#32
def val_main_v110 : (⟨S266240, .i32⟩ : BufTy).Contents (Elt F) :=
  broadcastInDim S266240 ![] bcast_S_S266240 (val_main_c_19 (F := F))
def val_main_v111 : (⟨S266240, .i1⟩ : BufTy).Contents (Elt F) :=
  cmpi .slt (val_main_v92 (F := F) x1) (val_main_v110 (F := F))
def val_main_c_20 : (⟨S_, .i32⟩ : BufTy).Contents (Elt F) :=
  constantI S_ 32 4096#32
def val_main_v112 : (⟨S266240, .i32⟩ : BufTy).Contents (Elt F) :=
  broadcastInDim S266240 ![] bcast_S_S266240 (val_main_c_20 (F := F))
def val_main_v113 : (⟨S266240, .i32⟩ : BufTy).Contents (Elt F) :=
  addi (val_main_v92 (F := F) x1) (val_main_v112 (F := F))
def val_main_v114 : (⟨S266240, .i32⟩ : BufTy).Contents (Elt F) :=
  select (val_main_v111 (F := F) x1) (val_main_v113 (F := F) x1) (val_main_v92 (F := F) x1)
def val_main_v115 : (⟨S266240x1, .i32⟩ : BufTy).Contents (Elt F) :=
  broadcastInDim S266240x1 ![0] bcast_S266240_S266240x1_0 (val_main_v114 (F := F) x1)
def val_main_v116 : (⟨S266240, .f32⟩ : BufTy).Contents (Elt F) :=
  Host.gather gather_S4096_S266240x1_S266240_n_0_n_n_0_1_1 (val_main_v101 (F := F) x1 x2) (val_main_v115 (F := F) x1)
def val_main_v117 : (⟨S266240, .f32⟩ : BufTy).Contents (Elt F) :=
  mulf (val_main_v109 (F := F) x1 x2) (val_main_v116 (F := F) x1 x2)
def val_main_v118 : (⟨S4096x256, .f32⟩ : BufTy).Contents (Elt F) :=
  Host.dotGeneral dot_S4096x256_S256x256_S4096x256_1_0_0_1_n_n none (val_main_v85 (F := F) x0 x1 x2 x3 x4 x9 x10 x11 x12) (x5)
theorem lhs_main_v118_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_main_v118_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_main_v118_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_main_v118_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl
abbrev lidx_main_v118 (i : S4096x256.Idx) (k : Fin 256) : S4096x256.Idx := fun a => match a with
  | ⟨0, _⟩ => ⟨(i 0).val, (i 0).isLt⟩
  | ⟨1, _⟩ => ⟨k.val, k.isLt⟩
abbrev ridx_main_v118 (i : S4096x256.Idx) (k : Fin 256) : S256x256.Idx := fun a => match a with
  | ⟨0, _⟩ => ⟨k.val, k.isLt⟩
  | ⟨1, _⟩ => ⟨(i 1).val, (i 1).isLt⟩
def val_main_v119 : (⟨S266240x1, .f32⟩ : BufTy).Contents (Elt F) :=
  broadcastInDim S266240x1 ![0] bcast_S266240_S266240x1_0 (val_main_v117 (F := F) x1 x2)
abbrev idx_main_v119 (i : S266240x1.Idx) : S266240.Idx := fun a => match a with
  | ⟨0, _⟩ => ⟨(i 0).val, (i 0).isLt⟩
theorem val_main_v119_apply (i : S266240x1.Idx) :
    val_main_v119 (F := F) x1 x2 i = val_main_v117 (F := F) x1 x2 (idx_main_v119 i) := by
  unfold val_main_v119
  generalize val_main_v117 (F := F) x1 x2 = y
  exact broadcastInDim_apply _ bcast_S266240_S266240x1_0 y i (idx_main_v119 i) (fun a => match a with
    | ⟨0, _⟩ => by show (i 0).val = if (266240 : Nat) = 1 then 0 else (i 0).val; rw [if_neg (by decide)])
def val_main_c_21 : (⟨S_, .i32⟩ : BufTy).Contents (Elt F) :=
  constantI S_ 32 0#32
def val_main_v120 : (⟨S266240, .i32⟩ : BufTy).Contents (Elt F) :=
  broadcastInDim S266240 ![] bcast_S_S266240 (val_main_c_21 (F := F))
def val_main_v121 : (⟨S266240, .i1⟩ : BufTy).Contents (Elt F) :=
  cmpi .slt (val_main_v91 (F := F) x1) (val_main_v120 (F := F))
def val_main_c_22 : (⟨S_, .i32⟩ : BufTy).Contents (Elt F) :=
  constantI S_ 32 4096#32
def val_main_v122 : (⟨S266240, .i32⟩ : BufTy).Contents (Elt F) :=
  broadcastInDim S266240 ![] bcast_S_S266240 (val_main_c_22 (F := F))
def val_main_v123 : (⟨S266240, .i32⟩ : BufTy).Contents (Elt F) :=
  addi (val_main_v91 (F := F) x1) (val_main_v122 (F := F))
def val_main_v124 : (⟨S266240, .i32⟩ : BufTy).Contents (Elt F) :=
  select (val_main_v121 (F := F) x1) (val_main_v123 (F := F) x1) (val_main_v91 (F := F) x1)
def val_main_v125 : (⟨S266240x1, .i32⟩ : BufTy).Contents (Elt F) :=
  broadcastInDim S266240x1 ![0] bcast_S266240_S266240x1_0 (val_main_v124 (F := F) x1)
abbrev idx_main_v125 (i : S266240x1.Idx) : S266240.Idx := fun a => match a with
  | ⟨0, _⟩ => ⟨(i 0).val, (i 0).isLt⟩
theorem val_main_v125_apply (i : S266240x1.Idx) :
    val_main_v125 (F := F) x1 i = val_main_v124 (F := F) x1 (idx_main_v125 i) := by
  unfold val_main_v125
  generalize val_main_v124 (F := F) x1 = y
  exact broadcastInDim_apply _ bcast_S266240_S266240x1_0 y i (idx_main_v125 i) (fun a => match a with
    | ⟨0, _⟩ => by show (i 0).val = if (266240 : Nat) = 1 then 0 else (i 0).val; rw [if_neg (by decide)])
def val_main_v126 : (⟨S266240x256, .f32⟩ : BufTy).Contents (Elt F) :=
  Host.gather gather_S4096x256_S266240x1_S266240x256_1_0_n_n_0_1_1256 (val_main_v118 (F := F) x0 x1 x2 x3 x4 x5 x9 x10 x11 x12) (val_main_v125 (F := F) x1)
def val_main_v127 : (⟨S266240x256, .f32⟩ : BufTy).Contents (Elt F) :=
  broadcastInDim S266240x256 ![0, 1] bcast_S266240x1_S266240x256_0_1 (val_main_v119 (F := F) x1 x2)
abbrev idx_main_v127 (i : S266240x256.Idx) : S266240x1.Idx := fun a => match a with
  | ⟨0, _⟩ => ⟨(i 0).val, (i 0).isLt⟩
  | ⟨1, _⟩ => ⟨0, Nat.one_pos⟩
theorem val_main_v127_apply (i : S266240x256.Idx) :
    val_main_v127 (F := F) x1 x2 i = val_main_v119 (F := F) x1 x2 (idx_main_v127 i) := by
  unfold val_main_v127
  generalize val_main_v119 (F := F) x1 x2 = y
  exact broadcastInDim_apply _ bcast_S266240x1_S266240x256_0_1 y i (idx_main_v127 i) (fun a => match a with
    | ⟨0, _⟩ => by show (i 0).val = if (266240 : Nat) = 1 then 0 else (i 0).val; rw [if_neg (by decide)]
    | ⟨1, _⟩ => by show 0 = if (1 : Nat) = 1 then 0 else (i 1).val; rw [if_pos rfl])
def val_main_v128 : (⟨S266240x256, .f32⟩ : BufTy).Contents (Elt F) :=
  mulf (val_main_v127 (F := F) x1 x2) (val_main_v126 (F := F) x0 x1 x2 x3 x4 x5 x9 x10 x11 x12)
def val_main_cst_23 : (⟨S_, .f32⟩ : BufTy).Contents (Elt F) :=
  constant S_ .f32 0x00000000#32
theorem val_main_cst_23_apply (i : S_.Idx) :
    val_main_cst_23 (F := F) i = FloatOps.ofBits .f32 0x00000000#32 := rfl
def val_main_v129 : (⟨S4096x256, .f32⟩ : BufTy).Contents (Elt F) :=
  broadcastInDim S4096x256 ![] bcast_S_S4096x256 (val_main_cst_23 (F := F))
abbrev idx_main_v129 (i : S4096x256.Idx) : S_.Idx := fun a => a.elim0
theorem val_main_v129_apply (i : S4096x256.Idx) :
    val_main_v129 (F := F) i = val_main_cst_23 (F := F) (idx_main_v129 i) := by
  unfold val_main_v129
  generalize val_main_cst_23 (F := F) = y
  exact broadcastInDim_apply _ bcast_S_S4096x256 y i (idx_main_v129 i) (fun a => a.elim0)
def val_main_v130 : (⟨S266240x1, .i32⟩ : BufTy).Contents (Elt F) :=
  broadcastInDim S266240x1 ![0] bcast_S266240_S266240x1_0 (val_main_v92 (F := F) x1)
abbrev idx_main_v130 (i : S266240x1.Idx) : S266240.Idx := fun a => match a with
  | ⟨0, _⟩ => ⟨(i 0).val, (i 0).isLt⟩
theorem val_main_v130_apply (i : S266240x1.Idx) :
    val_main_v130 (F := F) x1 i = val_main_v92 (F := F) x1 (idx_main_v130 i) := by
  unfold val_main_v130
  generalize val_main_v92 (F := F) x1 = y
  exact broadcastInDim_apply _ bcast_S266240_S266240x1_0 y i (idx_main_v130 i) (fun a => match a with
    | ⟨0, _⟩ => by show (i 0).val = if (266240 : Nat) = 1 then 0 else (i 0).val; rw [if_neg (by decide)])
def val_main_v131 : (⟨S4096x256, .f32⟩ : BufTy).Contents (Elt F) :=
  Host.scatterAdd scatter_S4096x256_S266240x1_S266240x256_1_0_0_1 (val_main_v129 (F := F)) (val_main_v130 (F := F) x1) (val_main_v128 (F := F) x0 x1 x2 x3 x4 x5 x9 x10 x11 x12)
def val_main_v132 : (⟨S1x256, .f32⟩ : BufTy).Contents (Elt F) :=
  broadcastInDim S1x256 ![1] bcast_S256_S1x256_1 (x6)
abbrev idx_main_v132 (i : S1x256.Idx) : S256.Idx := fun a => match a with
  | ⟨0, _⟩ => ⟨(i 1).val, (i 1).isLt⟩
theorem val_main_v132_apply (i : S1x256.Idx) :
    val_main_v132 (F := F) x6 i = x6 (idx_main_v132 i) := by
  unfold val_main_v132
  exact broadcastInDim_apply _ bcast_S256_S1x256_1 x6 i (idx_main_v132 i) (fun a => match a with
    | ⟨0, _⟩ => by show (i 1).val = if (256 : Nat) = 1 then 0 else (i 1).val; rw [if_neg (by decide)])
def val_main_v133 : (⟨S4096x256, .f32⟩ : BufTy).Contents (Elt F) :=
  broadcastInDim S4096x256 ![0, 1] bcast_S1x256_S4096x256_0_1 (val_main_v132 (F := F) x6)
abbrev idx_main_v133 (i : S4096x256.Idx) : S1x256.Idx := fun a => match a with
  | ⟨0, _⟩ => ⟨0, Nat.one_pos⟩
  | ⟨1, _⟩ => ⟨(i 1).val, (i 1).isLt⟩
theorem val_main_v133_apply (i : S4096x256.Idx) :
    val_main_v133 (F := F) x6 i = val_main_v132 (F := F) x6 (idx_main_v133 i) := by
  unfold val_main_v133
  generalize val_main_v132 (F := F) x6 = y
  exact broadcastInDim_apply _ bcast_S1x256_S4096x256_0_1 y i (idx_main_v133 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])
def val_main_v134 : (⟨S4096x256, .f32⟩ : BufTy).Contents (Elt F) :=
  addf (val_main_v131 (F := F) x0 x1 x2 x3 x4 x5 x9 x10 x11 x12) (val_main_v133 (F := F) x6)
def val_main_v135 : (⟨S256x768, .f32⟩ : BufTy).Contents (Elt F) :=
  transpose S256x768 [1, 0] (x9) transposes_S768x256_S256x768_1_0
abbrev idx_main_v135 (i : S256x768.Idx) : S768x256.Idx := fun a => match a with
  | ⟨0, _⟩ => ⟨(i 1).val, (i 1).isLt⟩
  | ⟨1, _⟩ => ⟨(i 0).val, (i 0).isLt⟩
theorem val_main_v135_apply (i : S256x768.Idx) :
    val_main_v135 (F := F) x9 i = x9 (idx_main_v135 i) := by
  unfold val_main_v135
  exact transpose_apply [1, 0] x9 transposes_S768x256_S256x768_1_0 i (idx_main_v135 i) (fun b => match b with
    | ⟨0, _⟩ => rfl
    | ⟨1, _⟩ => rfl)
def val_main_v136 : (⟨S4096x768, .f32⟩ : BufTy).Contents (Elt F) :=
  Host.dotGeneral dot_S4096x256_S256x768_S4096x768_1_0_0_1_n_n none (val_main_v134 (F := F) x0 x1 x2 x3 x4 x5 x6 x9 x10 x11 x12) (val_main_v135 (F := F) x9)
theorem lhs_main_v136_0 (i : S4096x768.Idx) (q : dot_S4096x256_S256x768_S4096x768_1_0_0_1_n_n.contr.Idx) :
    (dot_S4096x256_S256x768_S4096x768_1_0_0_1_n_n.lhsIdx i q 0).val = (i 0).val := by
  unfold DotDims.lhsIdx
  rw [dif_neg (show ¬(0 : Fin S4096x256.rank) ∈ dot_S4096x256_S256x768_S4096x768_1_0_0_1_n_n.lhsBatch by decide), dif_pos (show (0 : Fin S4096x256.rank) ∈ dot_S4096x256_S256x768_S4096x768_1_0_0_1_n_n.lhsNonContracting by decide)]
  rfl
theorem lhs_main_v136_1 (i : S4096x768.Idx) (q : dot_S4096x256_S256x768_S4096x768_1_0_0_1_n_n.contr.Idx) :
    (dot_S4096x256_S256x768_S4096x768_1_0_0_1_n_n.lhsIdx i q 1).val = (q ⟨0, by decide⟩).val :=
  dot_S4096x256_S256x768_S4096x768_1_0_0_1_n_n.lhsIdx_val_of_single rfl i q
theorem rhs_main_v136_0 (i : S4096x768.Idx) (q : dot_S4096x256_S256x768_S4096x768_1_0_0_1_n_n.contr.Idx) :
    (dot_S4096x256_S256x768_S4096x768_1_0_0_1_n_n.rhsIdx i q 0).val = (q ⟨0, by decide⟩).val :=
  dot_S4096x256_S256x768_S4096x768_1_0_0_1_n_n.rhsIdx_val_of_single rfl i q
theorem rhs_main_v136_1 (i : S4096x768.Idx) (q : dot_S4096x256_S256x768_S4096x768_1_0_0_1_n_n.contr.Idx) :
    (dot_S4096x256_S256x768_S4096x768_1_0_0_1_n_n.rhsIdx i q 1).val = (i 1).val := by
  unfold DotDims.rhsIdx
  rw [dif_neg (show ¬(1 : Fin S256x768.rank) ∈ dot_S4096x256_S256x768_S4096x768_1_0_0_1_n_n.rhsBatch by decide), dif_pos (show (1 : Fin S256x768.rank) ∈ dot_S4096x256_S256x768_S4096x768_1_0_0_1_n_n.rhsNonContracting by decide)]
  rfl
abbrev lidx_main_v136 (i : S4096x768.Idx) (k : Fin 256) : S4096x256.Idx := fun a => match a with
  | ⟨0, _⟩ => ⟨(i 0).val, (i 0).isLt⟩
  | ⟨1, _⟩ => ⟨k.val, k.isLt⟩
abbrev ridx_main_v136 (i : S4096x768.Idx) (k : Fin 256) : S256x768.Idx := fun a => match a with
  | ⟨0, _⟩ => ⟨k.val, k.isLt⟩
  | ⟨1, _⟩ => ⟨(i 1).val, (i 1).isLt⟩
def val_main_v137 : (⟨S1x768, .f32⟩ : BufTy).Contents (Elt F) :=
  broadcastInDim S1x768 ![1] bcast_S768_S1x768_1 (x10)
abbrev idx_main_v137 (i : S1x768.Idx) : S768.Idx := fun a => match a with
  | ⟨0, _⟩ => ⟨(i 1).val, (i 1).isLt⟩
theorem val_main_v137_apply (i : S1x768.Idx) :
    val_main_v137 (F := F) x10 i = x10 (idx_main_v137 i) := by
  unfold val_main_v137
  exact broadcastInDim_apply _ bcast_S768_S1x768_1 x10 i (idx_main_v137 i) (fun a => match a with
    | ⟨0, _⟩ => by show (i 1).val = if (768 : Nat) = 1 then 0 else (i 1).val; rw [if_neg (by decide)])
def val_main_v138 : (⟨S4096x768, .f32⟩ : BufTy).Contents (Elt F) :=
  broadcastInDim S4096x768 ![0, 1] bcast_S1x768_S4096x768_0_1 (val_main_v137 (F := F) x10)
abbrev idx_main_v138 (i : S4096x768.Idx) : S1x768.Idx := fun a => match a with
  | ⟨0, _⟩ => ⟨0, Nat.one_pos⟩
  | ⟨1, _⟩ => ⟨(i 1).val, (i 1).isLt⟩
theorem val_main_v138_apply (i : S4096x768.Idx) :
    val_main_v138 (F := F) x10 i = val_main_v137 (F := F) x10 (idx_main_v138 i) := by
  unfold val_main_v138
  generalize val_main_v137 (F := F) x10 = y
  exact broadcastInDim_apply _ bcast_S1x768_S4096x768_0_1 y i (idx_main_v138 i) (fun a => match a with
    | ⟨0, _⟩ => by show 0 = if (1 : Nat) = 1 then 0 else (i 0).val; rw [if_pos rfl]
    | ⟨1, _⟩ => by show (i 1).val = if (768 : Nat) = 1 then 0 else (i 1).val; rw [if_neg (by decide)])
def val_main_v139 : (⟨S4096x768, .f32⟩ : BufTy).Contents (Elt F) :=
  addf (val_main_v136 (F := F) x0 x1 x2 x3 x4 x5 x6 x9 x10 x11 x12) (val_main_v138 (F := F) x10)
theorem val_main_v139_apply (i : S4096x768.Idx) :
    val_main_v139 (F := F) x0 x1 x2 x3 x4 x5 x6 x9 x10 x11 x12 i = FloatOps.addf (val_main_v136 (F := F) x0 x1 x2 x3 x4 x5 x6 x9 x10 x11 x12 i) (val_main_v138 (F := F) x10 i) := rfl
def val_main_v140 : (⟨S4096x256, .f32⟩ : BufTy).Contents (Elt F) :=
  extractStridedSlice S4096x256 ![0, 0] (val_main_v139 (F := F) x0 x1 x2 x3 x4 x5 x6 x9 x10 x11 x12) slices_S4096x768_S4096x256_0_0
abbrev idx_main_v140 (i : S4096x256.Idx) : S4096x768.Idx := fun a => match a with
  | ⟨0, _⟩ => ⟨(i 0).val, (i 0).isLt⟩
  | ⟨1, _⟩ => ⟨(i 1).val, by have h1 : (i 1).val < 256 := (i 1).isLt; show (i 1).val < 768; omega⟩
theorem val_main_v140_apply (i : S4096x256.Idx) :
    val_main_v140 (F := F) x0 x1 x2 x3 x4 x5 x6 x9 x10 x11 x12 i = val_main_v139 (F := F) x0 x1 x2 x3 x4 x5 x6 x9 x10 x11 x12 (idx_main_v140 i) := by
  unfold val_main_v140
  generalize val_main_v139 (F := F) x0 x1 x2 x3 x4 x5 x6 x9 x10 x11 x12 = y
  exact extractStridedSlice_apply ![0, 0] y slices_S4096x768_S4096x256_0_0 i (idx_main_v140 i) (fun a => match a with
    | ⟨0, _⟩ => by show (i 0).val = 0 + (i 0).val; omega
    | ⟨1, _⟩ => by show (i 1).val = 0 + (i 1).val; omega)
def val_main_v141 : (⟨S4096x256, .f32⟩ : BufTy).Contents (Elt F) :=
  extractStridedSlice S4096x256 ![0, 256] (val_main_v139 (F := F) x0 x1 x2 x3 x4 x5 x6 x9 x10 x11 x12) slices_S4096x768_S4096x256_0_256
abbrev idx_main_v141 (i : S4096x256.Idx) : S4096x768.Idx := fun a => match a with
  | ⟨0, _⟩ => ⟨(i 0).val, (i 0).isLt⟩
  | ⟨1, _⟩ => ⟨256 + (i 1).val, by have h1 : (i 1).val < 256 := (i 1).isLt; show 256 + (i 1).val < 768; omega⟩
theorem val_main_v141_apply (i : S4096x256.Idx) :
    val_main_v141 (F := F) x0 x1 x2 x3 x4 x5 x6 x9 x10 x11 x12 i = val_main_v139 (F := F) x0 x1 x2 x3 x4 x5 x6 x9 x10 x11 x12 (idx_main_v141 i) := by
  unfold val_main_v141
  generalize val_main_v139 (F := F) x0 x1 x2 x3 x4 x5 x6 x9 x10 x11 x12 = y
  exact extractStridedSlice_apply ![0, 256] y slices_S4096x768_S4096x256_0_256 i (idx_main_v141 i) (fun a => match a with
    | ⟨0, _⟩ => by show (i 0).val = 0 + (i 0).val; omega
    | ⟨1, _⟩ => by show 256 + (i 1).val = 256 + (i 1).val; omega)
def val_main_v142 : (⟨S4096x256, .f32⟩ : BufTy).Contents (Elt F) :=
  extractStridedSlice S4096x256 ![0, 512] (val_main_v139 (F := F) x0 x1 x2 x3 x4 x5 x6 x9 x10 x11 x12) slices_S4096x768_S4096x256_0_512
abbrev idx_main_v142 (i : S4096x256.Idx) : S4096x768.Idx := fun a => match a with
  | ⟨0, _⟩ => ⟨(i 0).val, (i 0).isLt⟩
  | ⟨1, _⟩ => ⟨512 + (i 1).val, by have h1 : (i 1).val < 256 := (i 1).isLt; show 512 + (i 1).val < 768; omega⟩
theorem val_main_v142_apply (i : S4096x256.Idx) :
    val_main_v142 (F := F) x0 x1 x2 x3 x4 x5 x6 x9 x10 x11 x12 i = val_main_v139 (F := F) x0 x1 x2 x3 x4 x5 x6 x9 x10 x11 x12 (idx_main_v142 i) := by
  unfold val_main_v142
  generalize val_main_v139 (F := F) x0 x1 x2 x3 x4 x5 x6 x9 x10 x11 x12 = y
  exact extractStridedSlice_apply ![0, 512] y slices_S4096x768_S4096x256_0_512 i (idx_main_v142 i) (fun a => match a with
    | ⟨0, _⟩ => by show (i 0).val = 0 + (i 0).val; omega
    | ⟨1, _⟩ => by show 512 + (i 1).val = 512 + (i 1).val; omega)
def val_main_v143 : (⟨S4096x4x64, .f32⟩ : BufTy).Contents (Elt F) :=
  shapeCast _ (val_main_v140 (F := F) x0 x1 x2 x3 x4 x5 x6 x9 x10 x11 x12) shapeCasts_S4096x256_S4096x4x64
abbrev idx_main_v143 (i : S4096x4x64.Idx) : S4096x256.Idx := fun a => match a with
  | ⟨0, _⟩ => ⟨(((i 0).val * 4 + (i 1).val) * 64 + (i 2).val) / 256, by have h0 : (i 0).val < 4096 := (i 0).isLt; have h1 : (i 1).val < 4 := (i 1).isLt; have h2 : (i 2).val < 64 := (i 2).isLt; show (((i 0).val * 4 + (i 1).val) * 64 + (i 2).val) / 256 < 4096; omega⟩
  | ⟨1, _⟩ => ⟨(((i 0).val * 4 + (i 1).val) * 64 + (i 2).val) % 256, by have h0 : (i 0).val < 4096 := (i 0).isLt; have h1 : (i 1).val < 4 := (i 1).isLt; have h2 : (i 2).val < 64 := (i 2).isLt; show (((i 0).val * 4 + (i 1).val) * 64 + (i 2).val) % 256 < 256; omega⟩
theorem val_main_v143_apply (i : S4096x4x64.Idx) :
    val_main_v143 (F := F) x0 x1 x2 x3 x4 x5 x6 x9 x10 x11 x12 i = val_main_v140 (F := F) x0 x1 x2 x3 x4 x5 x6 x9 x10 x11 x12 (idx_main_v143 i) := by
  unfold val_main_v143
  generalize val_main_v140 (F := F) x0 x1 x2 x3 x4 x5 x6 x9 x10 x11 x12 = y
  exact shapeCast_apply y shapeCasts_S4096x256_S4096x4x64 i (idx_main_v143 i)
    (by rewrite [Shape.rowMajor_val_two, Shape.rowMajor_val_three]; have h0 : (i 0).val < 4096 := (i 0).isLt; have h1 : (i 1).val < 4 := (i 1).isLt; have h2 : (i 2).val < 64 := (i 2).isLt; show (((i 0).val * 4 + (i 1).val) * 64 + (i 2).val) / 256 * 256 + (((i 0).val * 4 + (i 1).val) * 64 + (i 2).val) % 256 = ((i 0).val * 4 + (i 1).val) * 64 + (i 2).val; omega)
def val_main_v144 : (⟨S4x4096x64, .f32⟩ : BufTy).Contents (Elt F) :=
  transpose S4x4096x64 [1, 0, 2] (val_main_v143 (F := F) x0 x1 x2 x3 x4 x5 x6 x9 x10 x11 x12) transposes_S4096x4x64_S4x4096x64_1_0_2
abbrev idx_main_v144 (i : S4x4096x64.Idx) : S4096x4x64.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v144_apply (i : S4x4096x64.Idx) :
    val_main_v144 (F := F) x0 x1 x2 x3 x4 x5 x6 x9 x10 x11 x12 i = val_main_v143 (F := F) x0 x1 x2 x3 x4 x5 x6 x9 x10 x11 x12 (idx_main_v144 i) := by
  unfold val_main_v144
  generalize val_main_v143 (F := F) x0 x1 x2 x3 x4 x5 x6 x9 x10 x11 x12 = y
  exact transpose_apply [1, 0, 2] y transposes_S4096x4x64_S4x4096x64_1_0_2 i (idx_main_v144 i) (fun b => match b with
    | ⟨0, _⟩ => rfl
    | ⟨1, _⟩ => rfl
    | ⟨2, _⟩ => rfl)
def val_main_v145 : (⟨S4096x4x64, .f32⟩ : BufTy).Contents (Elt F) :=
  shapeCast _ (val_main_v141 (F := F) x0 x1 x2 x3 x4 x5 x6 x9 x10 x11 x12) shapeCasts_S4096x256_S4096x4x64
abbrev idx_main_v145 (i : S4096x4x64.Idx) : S4096x256.Idx := fun a => match a with
  | ⟨0, _⟩ => ⟨(((i 0).val * 4 + (i 1).val) * 64 + (i 2).val) / 256, by have h0 : (i 0).val < 4096 := (i 0).isLt; have h1 : (i 1).val < 4 := (i 1).isLt; have h2 : (i 2).val < 64 := (i 2).isLt; show (((i 0).val * 4 + (i 1).val) * 64 + (i 2).val) / 256 < 4096; omega⟩
  | ⟨1, _⟩ => ⟨(((i 0).val * 4 + (i 1).val) * 64 + (i 2).val) % 256, by have h0 : (i 0).val < 4096 := (i 0).isLt; have h1 : (i 1).val < 4 := (i 1).isLt; have h2 : (i 2).val < 64 := (i 2).isLt; show (((i 0).val * 4 + (i 1).val) * 64 + (i 2).val) % 256 < 256; omega⟩
theorem val_main_v145_apply (i : S4096x4x64.Idx) :
    val_main_v145 (F := F) x0 x1 x2 x3 x4 x5 x6 x9 x10 x11 x12 i = val_main_v141 (F := F) x0 x1 x2 x3 x4 x5 x6 x9 x10 x11 x12 (idx_main_v145 i) := by
  unfold val_main_v145
  generalize val_main_v141 (F := F) x0 x1 x2 x3 x4 x5 x6 x9 x10 x11 x12 = y
  exact shapeCast_apply y shapeCasts_S4096x256_S4096x4x64 i (idx_main_v145 i)
    (by rewrite [Shape.rowMajor_val_two, Shape.rowMajor_val_three]; have h0 : (i 0).val < 4096 := (i 0).isLt; have h1 : (i 1).val < 4 := (i 1).isLt; have h2 : (i 2).val < 64 := (i 2).isLt; show (((i 0).val * 4 + (i 1).val) * 64 + (i 2).val) / 256 * 256 + (((i 0).val * 4 + (i 1).val) * 64 + (i 2).val) % 256 = ((i 0).val * 4 + (i 1).val) * 64 + (i 2).val; omega)
def val_main_v146 : (⟨S4x4096x64, .f32⟩ : BufTy).Contents (Elt F) :=
  transpose S4x4096x64 [1, 0, 2] (val_main_v145 (F := F) x0 x1 x2 x3 x4 x5 x6 x9 x10 x11 x12) transposes_S4096x4x64_S4x4096x64_1_0_2
abbrev idx_main_v146 (i : S4x4096x64.Idx) : S4096x4x64.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v146_apply (i : S4x4096x64.Idx) :
    val_main_v146 (F := F) x0 x1 x2 x3 x4 x5 x6 x9 x10 x11 x12 i = val_main_v145 (F := F) x0 x1 x2 x3 x4 x5 x6 x9 x10 x11 x12 (idx_main_v146 i) := by
  unfold val_main_v146
  generalize val_main_v145 (F := F) x0 x1 x2 x3 x4 x5 x6 x9 x10 x11 x12 = y
  exact transpose_apply [1, 0, 2] y transposes_S4096x4x64_S4x4096x64_1_0_2 i (idx_main_v146 i) (fun b => match b with
    | ⟨0, _⟩ => rfl
    | ⟨1, _⟩ => rfl
    | ⟨2, _⟩ => rfl)
def val_main_v147 : (⟨S4096x4x64, .f32⟩ : BufTy).Contents (Elt F) :=
  shapeCast _ (val_main_v142 (F := F) x0 x1 x2 x3 x4 x5 x6 x9 x10 x11 x12) shapeCasts_S4096x256_S4096x4x64
abbrev idx_main_v147 (i : S4096x4x64.Idx) : S4096x256.Idx := fun a => match a with
  | ⟨0, _⟩ => ⟨(((i 0).val * 4 + (i 1).val) * 64 + (i 2).val) / 256, by have h0 : (i 0).val < 4096 := (i 0).isLt; have h1 : (i 1).val < 4 := (i 1).isLt; have h2 : (i 2).val < 64 := (i 2).isLt; show (((i 0).val * 4 + (i 1).val) * 64 + (i 2).val) / 256 < 4096; omega⟩
  | ⟨1, _⟩ => ⟨(((i 0).val * 4 + (i 1).val) * 64 + (i 2).val) % 256, by have h0 : (i 0).val < 4096 := (i 0).isLt; have h1 : (i 1).val < 4 := (i 1).isLt; have h2 : (i 2).val < 64 := (i 2).isLt; show (((i 0).val * 4 + (i 1).val) * 64 + (i 2).val) % 256 < 256; omega⟩
theorem val_main_v147_apply (i : S4096x4x64.Idx) :
    val_main_v147 (F := F) x0 x1 x2 x3 x4 x5 x6 x9 x10 x11 x12 i = val_main_v142 (F := F) x0 x1 x2 x3 x4 x5 x6 x9 x10 x11 x12 (idx_main_v147 i) := by
  unfold val_main_v147
  generalize val_main_v142 (F := F) x0 x1 x2 x3 x4 x5 x6 x9 x10 x11 x12 = y
  exact shapeCast_apply y shapeCasts_S4096x256_S4096x4x64 i (idx_main_v147 i)
    (by rewrite [Shape.rowMajor_val_two, Shape.rowMajor_val_three]; have h0 : (i 0).val < 4096 := (i 0).isLt; have h1 : (i 1).val < 4 := (i 1).isLt; have h2 : (i 2).val < 64 := (i 2).isLt; show (((i 0).val * 4 + (i 1).val) * 64 + (i 2).val) / 256 * 256 + (((i 0).val * 4 + (i 1).val) * 64 + (i 2).val) % 256 = ((i 0).val * 4 + (i 1).val) * 64 + (i 2).val; omega)
def val_main_v148 : (⟨S4x4096x64, .f32⟩ : BufTy).Contents (Elt F) :=
  transpose S4x4096x64 [1, 0, 2] (val_main_v147 (F := F) x0 x1 x2 x3 x4 x5 x6 x9 x10 x11 x12) transposes_S4096x4x64_S4x4096x64_1_0_2
abbrev idx_main_v148 (i : S4x4096x64.Idx) : S4096x4x64.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v148_apply (i : S4x4096x64.Idx) :
    val_main_v148 (F := F) x0 x1 x2 x3 x4 x5 x6 x9 x10 x11 x12 i = val_main_v147 (F := F) x0 x1 x2 x3 x4 x5 x6 x9 x10 x11 x12 (idx_main_v148 i) := by
  unfold val_main_v148
  generalize val_main_v147 (F := F) x0 x1 x2 x3 x4 x5 x6 x9 x10 x11 x12 = y
  exact transpose_apply [1, 0, 2] y transposes_S4096x4x64_S4x4096x64_1_0_2 i (idx_main_v148 i) (fun b => match b with
    | ⟨0, _⟩ => rfl
    | ⟨1, _⟩ => rfl
    | ⟨2, _⟩ => rfl)
def val_main_v149 : (⟨S4x4096x4096, .f32⟩ : BufTy).Contents (Elt F) :=
  Host.dotGeneral dot_S4x4096x64_S4x4096x64_S4x4096x4096_2_2_1_1_0_0 none (val_main_v144 (F := F) x0 x1 x2 x3 x4 x5 x6 x9 x10 x11 x12) (val_main_v146 (F := F) x0 x1 x2 x3 x4 x5 x6 x9 x10 x11 x12)
theorem lhs_main_v149_0 (i : S4x4096x4096.Idx) (q : dot_S4x4096x64_S4x4096x64_S4x4096x4096_2_2_1_1_0_0.contr.Idx) :
    (dot_S4x4096x64_S4x4096x64_S4x4096x4096_2_2_1_1_0_0.lhsIdx i q 0).val = (i 0).val := by
  unfold DotDims.lhsIdx
  rw [dif_pos (show (0 : Fin S4x4096x64.rank) ∈ dot_S4x4096x64_S4x4096x64_S4x4096x4096_2_2_1_1_0_0.lhsBatch by decide)]
  rfl
theorem lhs_main_v149_1 (i : S4x4096x4096.Idx) (q : dot_S4x4096x64_S4x4096x64_S4x4096x4096_2_2_1_1_0_0.contr.Idx) :
    (dot_S4x4096x64_S4x4096x64_S4x4096x4096_2_2_1_1_0_0.lhsIdx i q 1).val = (i 1).val := by
  unfold DotDims.lhsIdx
  rw [dif_neg (show ¬(1 : Fin S4x4096x64.rank) ∈ dot_S4x4096x64_S4x4096x64_S4x4096x4096_2_2_1_1_0_0.lhsBatch by decide), dif_pos (show (1 : Fin S4x4096x64.rank) ∈ dot_S4x4096x64_S4x4096x64_S4x4096x4096_2_2_1_1_0_0.lhsNonContracting by decide)]
  rfl
theorem lhs_main_v149_2 (i : S4x4096x4096.Idx) (q : dot_S4x4096x64_S4x4096x64_S4x4096x4096_2_2_1_1_0_0.contr.Idx) :
    (dot_S4x4096x64_S4x4096x64_S4x4096x4096_2_2_1_1_0_0.lhsIdx i q 2).val = (q ⟨0, by decide⟩).val :=
  dot_S4x4096x64_S4x4096x64_S4x4096x4096_2_2_1_1_0_0.lhsIdx_val_of_single rfl i q
theorem rhs_main_v149_0 (i : S4x4096x4096.Idx) (q : dot_S4x4096x64_S4x4096x64_S4x4096x4096_2_2_1_1_0_0.contr.Idx) :
    (dot_S4x4096x64_S4x4096x64_S4x4096x4096_2_2_1_1_0_0.rhsIdx i q 0).val = (i 0).val := by
  unfold DotDims.rhsIdx
  rw [dif_pos (show (0 : Fin S4x4096x64.rank) ∈ dot_S4x4096x64_S4x4096x64_S4x4096x4096_2_2_1_1_0_0.rhsBatch by decide)]
  rfl
theorem rhs_main_v149_1 (i : S4x4096x4096.Idx) (q : dot_S4x4096x64_S4x4096x64_S4x4096x4096_2_2_1_1_0_0.contr.Idx) :
    (dot_S4x4096x64_S4x4096x64_S4x4096x4096_2_2_1_1_0_0.rhsIdx i q 1).val = (i 2).val := by
  unfold DotDims.rhsIdx
  rw [dif_neg (show ¬(1 : Fin S4x4096x64.rank) ∈ dot_S4x4096x64_S4x4096x64_S4x4096x4096_2_2_1_1_0_0.rhsBatch by decide), dif_pos (show (1 : Fin S4x4096x64.rank) ∈ dot_S4x4096x64_S4x4096x64_S4x4096x4096_2_2_1_1_0_0.rhsNonContracting by decide)]
  rfl
theorem rhs_main_v149_2 (i : S4x4096x4096.Idx) (q : dot_S4x4096x64_S4x4096x64_S4x4096x4096_2_2_1_1_0_0.contr.Idx) :
    (dot_S4x4096x64_S4x4096x64_S4x4096x4096_2_2_1_1_0_0.rhsIdx i q 2).val = (q ⟨0, by decide⟩).val :=
  dot_S4x4096x64_S4x4096x64_S4x4096x4096_2_2_1_1_0_0.rhsIdx_val_of_single rfl i q
abbrev lidx_main_v149 (i : S4x4096x4096.Idx) (k : Fin 64) : S4x4096x64.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v149 (i : S4x4096x4096.Idx) (k : Fin 64) : S4x4096x64.Idx := fun a => match a with
  | ⟨0, _⟩ => ⟨(i 0).val, (i 0).isLt⟩
  | ⟨1, _⟩ => ⟨(i 2).val, (i 2).isLt⟩
  | ⟨2, _⟩ => ⟨k.val, k.isLt⟩
def val_main_cst_24 : (⟨S_, .f32⟩ : BufTy).Contents (Elt F) :=
  constant S_ .f32 0x41000000#32
theorem val_main_cst_24_apply (i : S_.Idx) :
    val_main_cst_24 (F := F) i = FloatOps.ofBits .f32 0x41000000#32 := rfl
def val_main_v150 : (⟨S4x4096x4096, .f32⟩ : BufTy).Contents (Elt F) :=
  broadcastInDim S4x4096x4096 ![] bcast_S_S4x4096x4096 (val_main_cst_24 (F := F))
abbrev idx_main_v150 (i : S4x4096x4096.Idx) : S_.Idx := fun a => a.elim0
theorem val_main_v150_apply (i : S4x4096x4096.Idx) :
    val_main_v150 (F := F) i = val_main_cst_24 (F := F) (idx_main_v150 i) := by
  unfold val_main_v150
  generalize val_main_cst_24 (F := F) = y
  exact broadcastInDim_apply _ bcast_S_S4x4096x4096 y i (idx_main_v150 i) (fun a => a.elim0)
def val_main_v151 : (⟨S4x4096x4096, .f32⟩ : BufTy).Contents (Elt F) :=
  Host.divf (val_main_v149 (F := F) x0 x1 x2 x3 x4 x5 x6 x9 x10 x11 x12) (val_main_v150 (F := F))
theorem val_main_v151_apply (i : S4x4096x4096.Idx) :
    val_main_v151 (F := F) x0 x1 x2 x3 x4 x5 x6 x9 x10 x11 x12 i = FloatOps.hostDivf (val_main_v149 (F := F) x0 x1 x2 x3 x4 x5 x6 x9 x10 x11 x12 i) (val_main_v150 (F := F) i) := rfl
def val_main_cst_25 : (⟨S_, .f32⟩ : BufTy).Contents (Elt F) :=
  constant S_ .f32 0xFF800000#32
theorem val_main_cst_25_apply (i : S_.Idx) :
    val_main_cst_25 (F := F) i = FloatOps.ofBits .f32 0xFF800000#32 := rfl
def val_main_v152 : (⟨S4x4096, .f32⟩ : BufTy).Contents (Elt F) :=
  Host.reduce FloatOps.maximumf (val_main_v151 (F := F) x0 x1 x2 x3 x4 x5 x6 x9 x10 x11 x12) (val_main_cst_25 (F := F)) reducesTo_S4x4096x4096_S4x4096_d2 h_S_
def val_main_cst_26 : (⟨S_, .f32⟩ : BufTy).Contents (Elt F) :=
  constant S_ .f32 0xFF800000#32
theorem val_main_cst_26_apply (i : S_.Idx) :
    val_main_cst_26 (F := F) i = FloatOps.ofBits .f32 0xFF800000#32 := rfl
def val_main_v153 : (⟨S4x4096, .f32⟩ : BufTy).Contents (Elt F) :=
  broadcastInDim S4x4096 ![] bcast_S_S4x4096 (val_main_cst_26 (F := F))
abbrev idx_main_v153 (i : S4x4096.Idx) : S_.Idx := fun a => a.elim0
theorem val_main_v153_apply (i : S4x4096.Idx) :
    val_main_v153 (F := F) i = val_main_cst_26 (F := F) (idx_main_v153 i) := by
  unfold val_main_v153
  generalize val_main_cst_26 (F := F) = y
  exact broadcastInDim_apply _ bcast_S_S4x4096 y i (idx_main_v153 i) (fun a => a.elim0)
def val_main_v154 : (⟨S4x4096, .f32⟩ : BufTy).Contents (Elt F) :=
  maximumf (val_main_v153 (F := F)) (val_main_v152 (F := F) x0 x1 x2 x3 x4 x5 x6 x9 x10 x11 x12)
theorem val_main_v154_apply (i : S4x4096.Idx) :
    val_main_v154 (F := F) x0 x1 x2 x3 x4 x5 x6 x9 x10 x11 x12 i = FloatOps.maximumf (val_main_v153 (F := F) i) (val_main_v152 (F := F) x0 x1 x2 x3 x4 x5 x6 x9 x10 x11 x12 i) := rfl
def val_main_v155 : (⟨S4x4096x1, .f32⟩ : BufTy).Contents (Elt F) :=
  broadcastInDim S4x4096x1 ![0, 1] bcast_S4x4096_S4x4096x1_0_1 (val_main_v154 (F := F) x0 x1 x2 x3 x4 x5 x6 x9 x10 x11 x12)
abbrev idx_main_v155 (i : S4x4096x1.Idx) : S4x4096.Idx := fun a => match a with
  | ⟨0, _⟩ => ⟨(i 0).val, (i 0).isLt⟩
  | ⟨1, _⟩ => ⟨(i 1).val, (i 1).isLt⟩
theorem val_main_v155_apply (i : S4x4096x1.Idx) :
    val_main_v155 (F := F) x0 x1 x2 x3 x4 x5 x6 x9 x10 x11 x12 i = val_main_v154 (F := F) x0 x1 x2 x3 x4 x5 x6 x9 x10 x11 x12 (idx_main_v155 i) := by
  unfold val_main_v155
  generalize val_main_v154 (F := F) x0 x1 x2 x3 x4 x5 x6 x9 x10 x11 x12 = y
  exact broadcastInDim_apply _ bcast_S4x4096_S4x4096x1_0_1 y i (idx_main_v155 i) (fun a => match a with
    | ⟨0, _⟩ => by show (i 0).val = if (4 : Nat) = 1 then 0 else (i 0).val; rw [if_neg (by decide)]
    | ⟨1, _⟩ => by show (i 1).val = if (4096 : Nat) = 1 then 0 else (i 1).val; rw [if_neg (by decide)])
def val_main_v156 : (⟨S4x4096x4096, .f32⟩ : BufTy).Contents (Elt F) :=
  broadcastInDim S4x4096x4096 ![0, 1, 2] bcast_S4x4096x1_S4x4096x4096_0_1_2 (val_main_v155 (F := F) x0 x1 x2 x3 x4 x5 x6 x9 x10 x11 x12)
abbrev idx_main_v156 (i : S4x4096x4096.Idx) : S4x4096x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v156_apply (i : S4x4096x4096.Idx) :
    val_main_v156 (F := F) x0 x1 x2 x3 x4 x5 x6 x9 x10 x11 x12 i = val_main_v155 (F := F) x0 x1 x2 x3 x4 x5 x6 x9 x10 x11 x12 (idx_main_v156 i) := by
  unfold val_main_v156
  generalize val_main_v155 (F := F) x0 x1 x2 x3 x4 x5 x6 x9 x10 x11 x12 = y
  exact broadcastInDim_apply _ bcast_S4x4096x1_S4x4096x4096_0_1_2 y i (idx_main_v156 i) (fun a => match a with
    | ⟨0, _⟩ => by show (i 0).val = if (4 : Nat) = 1 then 0 else (i 0).val; rw [if_neg (by decide)]
    | ⟨1, _⟩ => by show (i 1).val = if (4096 : Nat) = 1 then 0 else (i 1).val; rw [if_neg (by decide)]
    | ⟨2, _⟩ => by show 0 = if (1 : Nat) = 1 then 0 else (i 2).val; rw [if_pos rfl])
def val_main_v157 : (⟨S4x4096x4096, .f32⟩ : BufTy).Contents (Elt F) :=
  subf (val_main_v151 (F := F) x0 x1 x2 x3 x4 x5 x6 x9 x10 x11 x12) (val_main_v156 (F := F) x0 x1 x2 x3 x4 x5 x6 x9 x10 x11 x12)
theorem val_main_v157_apply (i : S4x4096x4096.Idx) :
    val_main_v157 (F := F) x0 x1 x2 x3 x4 x5 x6 x9 x10 x11 x12 i = FloatOps.subf (val_main_v151 (F := F) x0 x1 x2 x3 x4 x5 x6 x9 x10 x11 x12 i) (val_main_v156 (F := F) x0 x1 x2 x3 x4 x5 x6 x9 x10 x11 x12 i) := rfl
def val_main_v158 : (⟨S4x4096x4096, .f32⟩ : BufTy).Contents (Elt F) :=
  Host.exp (val_main_v157 (F := F) x0 x1 x2 x3 x4 x5 x6 x9 x10 x11 x12)
theorem val_main_v158_apply (i : S4x4096x4096.Idx) :
    val_main_v158 (F := F) x0 x1 x2 x3 x4 x5 x6 x9 x10 x11 x12 i = FloatOps.hostUnary .exp (val_main_v157 (F := F) x0 x1 x2 x3 x4 x5 x6 x9 x10 x11 x12 i) := rfl
def val_main_cst_27 : (⟨S_, .f32⟩ : BufTy).Contents (Elt F) :=
  constant S_ .f32 0x00000000#32
theorem val_main_cst_27_apply (i : S_.Idx) :
    val_main_cst_27 (F := F) i = FloatOps.ofBits .f32 0x00000000#32 := rfl
def val_main_v159 : (⟨S4x4096, .f32⟩ : BufTy).Contents (Elt F) :=
  Host.reduceAdd (val_main_v158 (F := F) x0 x1 x2 x3 x4 x5 x6 x9 x10 x11 x12) (val_main_cst_27 (F := F)) reducesTo_S4x4096x4096_S4x4096_d2 h_S_
abbrev idx_main_v159 (i : S4x4096.Idx) (k : Fin 4096) : S4x4096x4096.Idx := fun a => match a with
  | ⟨0, _⟩ => ⟨(i 0).val, (i 0).isLt⟩
  | ⟨1, _⟩ => ⟨(i 1).val, (i 1).isLt⟩
  | ⟨2, _⟩ => ⟨k.val, k.isLt⟩
def val_main_v160 : (⟨S4x4096x1, .f32⟩ : BufTy).Contents (Elt F) :=
  broadcastInDim S4x4096x1 ![0, 1] bcast_S4x4096_S4x4096x1_0_1 (val_main_v159 (F := F) x0 x1 x2 x3 x4 x5 x6 x9 x10 x11 x12)
abbrev idx_main_v160 (i : S4x4096x1.Idx) : S4x4096.Idx := fun a => match a with
  | ⟨0, _⟩ => ⟨(i 0).val, (i 0).isLt⟩
  | ⟨1, _⟩ => ⟨(i 1).val, (i 1).isLt⟩
theorem val_main_v160_apply (i : S4x4096x1.Idx) :
    val_main_v160 (F := F) x0 x1 x2 x3 x4 x5 x6 x9 x10 x11 x12 i = val_main_v159 (F := F) x0 x1 x2 x3 x4 x5 x6 x9 x10 x11 x12 (idx_main_v160 i) := by
  unfold val_main_v160
  generalize val_main_v159 (F := F) x0 x1 x2 x3 x4 x5 x6 x9 x10 x11 x12 = y
  exact broadcastInDim_apply _ bcast_S4x4096_S4x4096x1_0_1 y i (idx_main_v160 i) (fun a => match a with
    | ⟨0, _⟩ => by show (i 0).val = if (4 : Nat) = 1 then 0 else (i 0).val; rw [if_neg (by decide)]
    | ⟨1, _⟩ => by show (i 1).val = if (4096 : Nat) = 1 then 0 else (i 1).val; rw [if_neg (by decide)])
def val_main_v161 : (⟨S4x4096x4096, .f32⟩ : BufTy).Contents (Elt F) :=
  broadcastInDim S4x4096x4096 ![0, 1, 2] bcast_S4x4096x1_S4x4096x4096_0_1_2 (val_main_v160 (F := F) x0 x1 x2 x3 x4 x5 x6 x9 x10 x11 x12)
abbrev idx_main_v161 (i : S4x4096x4096.Idx) : S4x4096x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v161_apply (i : S4x4096x4096.Idx) :
    val_main_v161 (F := F) x0 x1 x2 x3 x4 x5 x6 x9 x10 x11 x12 i = val_main_v160 (F := F) x0 x1 x2 x3 x4 x5 x6 x9 x10 x11 x12 (idx_main_v161 i) := by
  unfold val_main_v161
  generalize val_main_v160 (F := F) x0 x1 x2 x3 x4 x5 x6 x9 x10 x11 x12 = y
  exact broadcastInDim_apply _ bcast_S4x4096x1_S4x4096x4096_0_1_2 y i (idx_main_v161 i) (fun a => match a with
    | ⟨0, _⟩ => by show (i 0).val = if (4 : Nat) = 1 then 0 else (i 0).val; rw [if_neg (by decide)]
    | ⟨1, _⟩ => by show (i 1).val = if (4096 : Nat) = 1 then 0 else (i 1).val; rw [if_neg (by decide)]
    | ⟨2, _⟩ => by show 0 = if (1 : Nat) = 1 then 0 else (i 2).val; rw [if_pos rfl])
def val_main_v162 : (⟨S4x4096x4096, .f32⟩ : BufTy).Contents (Elt F) :=
  Host.divf (val_main_v158 (F := F) x0 x1 x2 x3 x4 x5 x6 x9 x10 x11 x12) (val_main_v161 (F := F) x0 x1 x2 x3 x4 x5 x6 x9 x10 x11 x12)
theorem val_main_v162_apply (i : S4x4096x4096.Idx) :
    val_main_v162 (F := F) x0 x1 x2 x3 x4 x5 x6 x9 x10 x11 x12 i = FloatOps.hostDivf (val_main_v158 (F := F) x0 x1 x2 x3 x4 x5 x6 x9 x10 x11 x12 i) (val_main_v161 (F := F) x0 x1 x2 x3 x4 x5 x6 x9 x10 x11 x12 i) := rfl
def val_main_v163 : (⟨S4x4096x64, .f32⟩ : BufTy).Contents (Elt F) :=
  Host.dotGeneral dot_S4x4096x4096_S4x4096x64_S4x4096x64_2_1_1_2_0_0 none (val_main_v162 (F := F) x0 x1 x2 x3 x4 x5 x6 x9 x10 x11 x12) (val_main_v148 (F := F) x0 x1 x2 x3 x4 x5 x6 x9 x10 x11 x12)
theorem lhs_main_v163_0 (i : S4x4096x64.Idx) (q : dot_S4x4096x4096_S4x4096x64_S4x4096x64_2_1_1_2_0_0.contr.Idx) :
    (dot_S4x4096x4096_S4x4096x64_S4x4096x64_2_1_1_2_0_0.lhsIdx i q 0).val = (i 0).val := by
  unfold DotDims.lhsIdx
  rw [dif_pos (show (0 : Fin S4x4096x4096.rank) ∈ dot_S4x4096x4096_S4x4096x64_S4x4096x64_2_1_1_2_0_0.lhsBatch by decide)]
  rfl
theorem lhs_main_v163_1 (i : S4x4096x64.Idx) (q : dot_S4x4096x4096_S4x4096x64_S4x4096x64_2_1_1_2_0_0.contr.Idx) :
    (dot_S4x4096x4096_S4x4096x64_S4x4096x64_2_1_1_2_0_0.lhsIdx i q 1).val = (i 1).val := by
  unfold DotDims.lhsIdx
  rw [dif_neg (show ¬(1 : Fin S4x4096x4096.rank) ∈ dot_S4x4096x4096_S4x4096x64_S4x4096x64_2_1_1_2_0_0.lhsBatch by decide), dif_pos (show (1 : Fin S4x4096x4096.rank) ∈ dot_S4x4096x4096_S4x4096x64_S4x4096x64_2_1_1_2_0_0.lhsNonContracting by decide)]
  rfl
theorem lhs_main_v163_2 (i : S4x4096x64.Idx) (q : dot_S4x4096x4096_S4x4096x64_S4x4096x64_2_1_1_2_0_0.contr.Idx) :
    (dot_S4x4096x4096_S4x4096x64_S4x4096x64_2_1_1_2_0_0.lhsIdx i q 2).val = (q ⟨0, by decide⟩).val :=
  dot_S4x4096x4096_S4x4096x64_S4x4096x64_2_1_1_2_0_0.lhsIdx_val_of_single rfl i q
theorem rhs_main_v163_0 (i : S4x4096x64.Idx) (q : dot_S4x4096x4096_S4x4096x64_S4x4096x64_2_1_1_2_0_0.contr.Idx) :
    (dot_S4x4096x4096_S4x4096x64_S4x4096x64_2_1_1_2_0_0.rhsIdx i q 0).val = (i 0).val := by
  unfold DotDims.rhsIdx
  rw [dif_pos (show (0 : Fin S4x4096x64.rank) ∈ dot_S4x4096x4096_S4x4096x64_S4x4096x64_2_1_1_2_0_0.rhsBatch by decide)]
  rfl
theorem rhs_main_v163_1 (i : S4x4096x64.Idx) (q : dot_S4x4096x4096_S4x4096x64_S4x4096x64_2_1_1_2_0_0.contr.Idx) :
    (dot_S4x4096x4096_S4x4096x64_S4x4096x64_2_1_1_2_0_0.rhsIdx i q 1).val = (q ⟨0, by decide⟩).val :=
  dot_S4x4096x4096_S4x4096x64_S4x4096x64_2_1_1_2_0_0.rhsIdx_val_of_single rfl i q
theorem rhs_main_v163_2 (i : S4x4096x64.Idx) (q : dot_S4x4096x4096_S4x4096x64_S4x4096x64_2_1_1_2_0_0.contr.Idx) :
    (dot_S4x4096x4096_S4x4096x64_S4x4096x64_2_1_1_2_0_0.rhsIdx i q 2).val = (i 2).val := by
  unfold DotDims.rhsIdx
  rw [dif_neg (show ¬(2 : Fin S4x4096x64.rank) ∈ dot_S4x4096x4096_S4x4096x64_S4x4096x64_2_1_1_2_0_0.rhsBatch by decide), dif_pos (show (2 : Fin S4x4096x64.rank) ∈ dot_S4x4096x4096_S4x4096x64_S4x4096x64_2_1_1_2_0_0.rhsNonContracting by decide)]
  rfl
abbrev lidx_main_v163 (i : S4x4096x64.Idx) (k : Fin 4096) : S4x4096x4096.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v163 (i : S4x4096x64.Idx) (k : Fin 4096) : S4x4096x64.Idx := fun a => match a with
  | ⟨0, _⟩ => ⟨(i 0).val, (i 0).isLt⟩
  | ⟨1, _⟩ => ⟨k.val, k.isLt⟩
  | ⟨2, _⟩ => ⟨(i 2).val, (i 2).isLt⟩
def val_main_v164 : (⟨S4096x4x64, .f32⟩ : BufTy).Contents (Elt F) :=
  transpose S4096x4x64 [1, 0, 2] (val_main_v163 (F := F) x0 x1 x2 x3 x4 x5 x6 x9 x10 x11 x12) transposes_S4x4096x64_S4096x4x64_1_0_2
abbrev idx_main_v164 (i : S4096x4x64.Idx) : S4x4096x64.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v164_apply (i : S4096x4x64.Idx) :
    val_main_v164 (F := F) x0 x1 x2 x3 x4 x5 x6 x9 x10 x11 x12 i = val_main_v163 (F := F) x0 x1 x2 x3 x4 x5 x6 x9 x10 x11 x12 (idx_main_v164 i) := by
  unfold val_main_v164
  generalize val_main_v163 (F := F) x0 x1 x2 x3 x4 x5 x6 x9 x10 x11 x12 = y
  exact transpose_apply [1, 0, 2] y transposes_S4x4096x64_S4096x4x64_1_0_2 i (idx_main_v164 i) (fun b => match b with
    | ⟨0, _⟩ => rfl
    | ⟨1, _⟩ => rfl
    | ⟨2, _⟩ => rfl)
def val_main_v165 : (⟨S4096x256, .f32⟩ : BufTy).Contents (Elt F) :=
  shapeCast _ (val_main_v164 (F := F) x0 x1 x2 x3 x4 x5 x6 x9 x10 x11 x12) shapeCasts_S4096x4x64_S4096x256
abbrev idx_main_v165 (i : S4096x256.Idx) : S4096x4x64.Idx := fun a => match a with
  | ⟨0, _⟩ => ⟨((i 0).val * 256 + (i 1).val) / 256, by have h0 : (i 0).val < 4096 := (i 0).isLt; have h1 : (i 1).val < 256 := (i 1).isLt; show ((i 0).val * 256 + (i 1).val) / 256 < 4096; omega⟩
  | ⟨1, _⟩ => ⟨((i 0).val * 256 + (i 1).val) / 64 % 4, by have h0 : (i 0).val < 4096 := (i 0).isLt; have h1 : (i 1).val < 256 := (i 1).isLt; show ((i 0).val * 256 + (i 1).val) / 64 % 4 < 4; omega⟩
  | ⟨2, _⟩ => ⟨((i 0).val * 256 + (i 1).val) % 64, by have h0 : (i 0).val < 4096 := (i 0).isLt; have h1 : (i 1).val < 256 := (i 1).isLt; show ((i 0).val * 256 + (i 1).val) % 64 < 64; omega⟩
theorem val_main_v165_apply (i : S4096x256.Idx) :
    val_main_v165 (F := F) x0 x1 x2 x3 x4 x5 x6 x9 x10 x11 x12 i = val_main_v164 (F := F) x0 x1 x2 x3 x4 x5 x6 x9 x10 x11 x12 (idx_main_v165 i) := by
  unfold val_main_v165
  generalize val_main_v164 (F := F) x0 x1 x2 x3 x4 x5 x6 x9 x10 x11 x12 = y
  exact shapeCast_apply y shapeCasts_S4096x4x64_S4096x256 i (idx_main_v165 i)
    (by rewrite [Shape.rowMajor_val_three, Shape.rowMajor_val_two]; have h0 : (i 0).val < 4096 := (i 0).isLt; have h1 : (i 1).val < 256 := (i 1).isLt; show (((i 0).val * 256 + (i 1).val) / 256 * 4 + ((i 0).val * 256 + (i 1).val) / 64 % 4) * 64 + ((i 0).val * 256 + (i 1).val) % 64 = (i 0).val * 256 + (i 1).val; omega)
def val_main_v166 : (⟨S256x256, .f32⟩ : BufTy).Contents (Elt F) :=
  transpose S256x256 [1, 0] (x11) transposes_S256x256_S256x256_1_0
abbrev idx_main_v166 (i : S256x256.Idx) : S256x256.Idx := fun a => match a with
  | ⟨0, _⟩ => ⟨(i 1).val, (i 1).isLt⟩
  | ⟨1, _⟩ => ⟨(i 0).val, (i 0).isLt⟩
theorem val_main_v166_apply (i : S256x256.Idx) :
    val_main_v166 (F := F) x11 i = x11 (idx_main_v166 i) := by
  unfold val_main_v166
  exact transpose_apply [1, 0] x11 transposes_S256x256_S256x256_1_0 i (idx_main_v166 i) (fun b => match b with
    | ⟨0, _⟩ => rfl
    | ⟨1, _⟩ => rfl)
def val_main_v167 : (⟨S4096x256, .f32⟩ : BufTy).Contents (Elt F) :=
  Host.dotGeneral dot_S4096x256_S256x256_S4096x256_1_0_0_1_n_n none (val_main_v165 (F := F) x0 x1 x2 x3 x4 x5 x6 x9 x10 x11 x12) (val_main_v166 (F := F) x11)
theorem lhs_main_v167_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_main_v167_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_main_v167_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_main_v167_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl
abbrev lidx_main_v167 (i : S4096x256.Idx) (k : Fin 256) : S4096x256.Idx := fun a => match a with
  | ⟨0, _⟩ => ⟨(i 0).val, (i 0).isLt⟩
  | ⟨1, _⟩ => ⟨k.val, k.isLt⟩
abbrev ridx_main_v167 (i : S4096x256.Idx) (k : Fin 256) : S256x256.Idx := fun a => match a with
  | ⟨0, _⟩ => ⟨k.val, k.isLt⟩
  | ⟨1, _⟩ => ⟨(i 1).val, (i 1).isLt⟩
def val_main_v168 : (⟨S1x256, .f32⟩ : BufTy).Contents (Elt F) :=
  broadcastInDim S1x256 ![1] bcast_S256_S1x256_1 (x12)
abbrev idx_main_v168 (i : S1x256.Idx) : S256.Idx := fun a => match a with
  | ⟨0, _⟩ => ⟨(i 1).val, (i 1).isLt⟩
theorem val_main_v168_apply (i : S1x256.Idx) :
    val_main_v168 (F := F) x12 i = x12 (idx_main_v168 i) := by
  unfold val_main_v168
  exact broadcastInDim_apply _ bcast_S256_S1x256_1 x12 i (idx_main_v168 i) (fun a => match a with
    | ⟨0, _⟩ => by show (i 1).val = if (256 : Nat) = 1 then 0 else (i 1).val; rw [if_neg (by decide)])
def val_main_v169 : (⟨S4096x256, .f32⟩ : BufTy).Contents (Elt F) :=
  broadcastInDim S4096x256 ![0, 1] bcast_S1x256_S4096x256_0_1 (val_main_v168 (F := F) x12)
abbrev idx_main_v169 (i : S4096x256.Idx) : S1x256.Idx := fun a => match a with
  | ⟨0, _⟩ => ⟨0, Nat.one_pos⟩
  | ⟨1, _⟩ => ⟨(i 1).val, (i 1).isLt⟩
theorem val_main_v169_apply (i : S4096x256.Idx) :
    val_main_v169 (F := F) x12 i = val_main_v168 (F := F) x12 (idx_main_v169 i) := by
  unfold val_main_v169
  generalize val_main_v168 (F := F) x12 = y
  exact broadcastInDim_apply _ bcast_S1x256_S4096x256_0_1 y i (idx_main_v169 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])
def val_main_v170 : (⟨S4096x256, .f32⟩ : BufTy).Contents (Elt F) :=
  addf (val_main_v167 (F := F) x0 x1 x2 x3 x4 x5 x6 x9 x10 x11 x12) (val_main_v169 (F := F) x12)
theorem val_main_v170_apply (i : S4096x256.Idx) :
    val_main_v170 (F := F) x0 x1 x2 x3 x4 x5 x6 x9 x10 x11 x12 i = FloatOps.addf (val_main_v167 (F := F) x0 x1 x2 x3 x4 x5 x6 x9 x10 x11 x12 i) (val_main_v169 (F := F) x12 i) := rfl
def val_main_call3_cst : (⟨S_, .f32⟩ : BufTy).Contents (Elt F) :=
  constant S_ .f32 0x00000000#32
theorem val_main_call3_cst_apply (i : S_.Idx) :
    val_main_call3_cst (F := F) i = FloatOps.ofBits .f32 0x00000000#32 := rfl
def val_main_call3_v0 : (⟨S4096x256, .f32⟩ : BufTy).Contents (Elt F) :=
  broadcastInDim S4096x256 ![] bcast_S_S4096x256 (val_main_call3_cst (F := F))
abbrev idx_main_call3_v0 (i : S4096x256.Idx) : S_.Idx := fun a => a.elim0
theorem val_main_call3_v0_apply (i : S4096x256.Idx) :
    val_main_call3_v0 (F := F) i = val_main_call3_cst (F := F) (idx_main_call3_v0 i) := by
  unfold val_main_call3_v0
  generalize val_main_call3_cst (F := F) = y
  exact broadcastInDim_apply _ bcast_S_S4096x256 y i (idx_main_call3_v0 i) (fun a => a.elim0)
def val_main_v171 : (⟨S4096x256, .f32⟩ : BufTy).Contents (Elt F) :=
  maximumf (val_main_v170 (F := F) x0 x1 x2 x3 x4 x5 x6 x9 x10 x11 x12) (val_main_call3_v0 (F := F))
theorem val_main_v171_apply (i : S4096x256.Idx) :
    val_main_v171 (F := F) x0 x1 x2 x3 x4 x5 x6 x9 x10 x11 x12 i = FloatOps.maximumf (val_main_v170 (F := F) x0 x1 x2 x3 x4 x5 x6 x9 x10 x11 x12 i) (val_main_call3_v0 (F := F) i) := rfl
def val_main_v172 : (⟨S1x262144, .i32⟩ : BufTy).Contents (Elt F) :=
  extractStridedSlice S1x262144 ![0, 0] (x1) slices_S2x262144_S1x262144_0_0
def val_main_v173 : (⟨S262144, .i32⟩ : BufTy).Contents (Elt F) :=
  shapeCast _ (val_main_v172 (F := F) x1) shapeCasts_S1x262144_S262144
def val_main_v174 : (⟨S1x262144, .i32⟩ : BufTy).Contents (Elt F) :=
  extractStridedSlice S1x262144 ![1, 0] (x1) slices_S2x262144_S1x262144_1_0
def val_main_v175 : (⟨S262144, .i32⟩ : BufTy).Contents (Elt F) :=
  shapeCast _ (val_main_v174 (F := F) x1) shapeCasts_S1x262144_S262144
def val_main_v176 : (⟨S4096, .i32⟩ : BufTy).Contents (Elt F) :=
  iotaInDim S4096 32 0
def val_main_v177 : (⟨S266240, .i32⟩ : BufTy).Contents (Elt F) :=
  concatenate S266240 0 [⟨S262144, (val_main_v173 (F := F) x1)⟩, ⟨S4096, (val_main_v176 (F := F))⟩] concatenates_S262144_S4096_S266240_d0
def val_main_v178 : (⟨S266240, .i32⟩ : BufTy).Contents (Elt F) :=
  concatenate S266240 0 [⟨S262144, (val_main_v175 (F := F) x1)⟩, ⟨S4096, (val_main_v176 (F := F))⟩] concatenates_S262144_S4096_S266240_d0
def val_main_cst_28 : (⟨S_, .f32⟩ : BufTy).Contents (Elt F) :=
  constant S_ .f32 0x3F800000#32
def val_main_v179 : (⟨S4096, .f32⟩ : BufTy).Contents (Elt F) :=
  broadcastInDim S4096 ![] bcast_S_S4096 (val_main_cst_28 (F := F))
def val_main_v180 : (⟨S266240, .f32⟩ : BufTy).Contents (Elt F) :=
  concatenate S266240 0 [⟨S262144, (x2)⟩, ⟨S4096, (val_main_v179 (F := F))⟩] concatenates_S262144_S4096_S266240_d0
def val_main_cst_29 : (⟨S_, .f32⟩ : BufTy).Contents (Elt F) :=
  constant S_ .f32 0x00000000#32
def val_main_v181 : (⟨S4096, .f32⟩ : BufTy).Contents (Elt F) :=
  broadcastInDim S4096 ![] bcast_S_S4096 (val_main_cst_29 (F := F))
def val_main_v182 : (⟨S266240x1, .i32⟩ : BufTy).Contents (Elt F) :=
  broadcastInDim S266240x1 ![0] bcast_S266240_S266240x1_0 (val_main_v178 (F := F) x1)
def val_main_v183 : (⟨S4096, .f32⟩ : BufTy).Contents (Elt F) :=
  Host.scatterAdd scatter_S4096_S266240x1_S266240_n_0_0_1 (val_main_v181 (F := F)) (val_main_v182 (F := F) x1) (val_main_v180 (F := F) x2)
def val_main_cst_30 : (⟨S_, .f32⟩ : BufTy).Contents (Elt F) :=
  constant S_ .f32 0x00000000#32
def val_main_v184 : (⟨S4096, .f32⟩ : BufTy).Contents (Elt F) :=
  broadcastInDim S4096 ![] bcast_S_S4096 (val_main_cst_30 (F := F))
def val_main_v185 : (⟨S4096, .i1⟩ : BufTy).Contents (Elt F) :=
  cmpf .ogt (val_main_v183 (F := F) x1 x2) (val_main_v184 (F := F))
def val_main_v186 : (⟨S4096, .f32⟩ : BufTy).Contents (Elt F) :=
  Host.rsqrt (val_main_v183 (F := F) x1 x2)
def val_main_cst_31 : (⟨S_, .f32⟩ : BufTy).Contents (Elt F) :=
  constant S_ .f32 0x00000000#32
def val_main_call4_v0 : (⟨S_, .f32⟩ : BufTy).Contents (Elt F) :=
  id (val_main_cst_31 (F := F))
def val_main_call4_v1 : (⟨S4096, .f32⟩ : BufTy).Contents (Elt F) :=
  broadcastInDim S4096 ![] bcast_S_S4096 (val_main_call4_v0 (F := F))
def val_main_v187 : (⟨S4096, .f32⟩ : BufTy).Contents (Elt F) :=
  select (val_main_v185 (F := F) x1 x2) (val_main_v186 (F := F) x1 x2) (val_main_call4_v1 (F := F))
def val_main_c_32 : (⟨S_, .i32⟩ : BufTy).Contents (Elt F) :=
  constantI S_ 32 0#32
def val_main_v188 : (⟨S266240, .i32⟩ : BufTy).Contents (Elt F) :=
  broadcastInDim S266240 ![] bcast_S_S266240 (val_main_c_32 (F := F))
def val_main_v189 : (⟨S266240, .i1⟩ : BufTy).Contents (Elt F) :=
  cmpi .slt (val_main_v177 (F := F) x1) (val_main_v188 (F := F))
def val_main_c_33 : (⟨S_, .i32⟩ : BufTy).Contents (Elt F) :=
  constantI S_ 32 4096#32
def val_main_v190 : (⟨S266240, .i32⟩ : BufTy).Contents (Elt F) :=
  broadcastInDim S266240 ![] bcast_S_S266240 (val_main_c_33 (F := F))
def val_main_v191 : (⟨S266240, .i32⟩ : BufTy).Contents (Elt F) :=
  addi (val_main_v177 (F := F) x1) (val_main_v190 (F := F))
def val_main_v192 : (⟨S266240, .i32⟩ : BufTy).Contents (Elt F) :=
  select (val_main_v189 (F := F) x1) (val_main_v191 (F := F) x1) (val_main_v177 (F := F) x1)
def val_main_v193 : (⟨S266240x1, .i32⟩ : BufTy).Contents (Elt F) :=
  broadcastInDim S266240x1 ![0] bcast_S266240_S266240x1_0 (val_main_v192 (F := F) x1)
def val_main_v194 : (⟨S266240, .f32⟩ : BufTy).Contents (Elt F) :=
  Host.gather gather_S4096_S266240x1_S266240_n_0_n_n_0_1_1 (val_main_v187 (F := F) x1 x2) (val_main_v193 (F := F) x1)
def val_main_v195 : (⟨S266240, .f32⟩ : BufTy).Contents (Elt F) :=
  mulf (val_main_v194 (F := F) x1 x2) (val_main_v180 (F := F) x2)
def val_main_c_34 : (⟨S_, .i32⟩ : BufTy).Contents (Elt F) :=
  constantI S_ 32 0#32
def val_main_v196 : (⟨S266240, .i32⟩ : BufTy).Contents (Elt F) :=
  broadcastInDim S266240 ![] bcast_S_S266240 (val_main_c_34 (F := F))
def val_main_v197 : (⟨S266240, .i1⟩ : BufTy).Contents (Elt F) :=
  cmpi .slt (val_main_v178 (F := F) x1) (val_main_v196 (F := F))
def val_main_c_35 : (⟨S_, .i32⟩ : BufTy).Contents (Elt F) :=
  constantI S_ 32 4096#32
def val_main_v198 : (⟨S266240, .i32⟩ : BufTy).Contents (Elt F) :=
  broadcastInDim S266240 ![] bcast_S_S266240 (val_main_c_35 (F := F))
def val_main_v199 : (⟨S266240, .i32⟩ : BufTy).Contents (Elt F) :=
  addi (val_main_v178 (F := F) x1) (val_main_v198 (F := F))
def val_main_v200 : (⟨S266240, .i32⟩ : BufTy).Contents (Elt F) :=
  select (val_main_v197 (F := F) x1) (val_main_v199 (F := F) x1) (val_main_v178 (F := F) x1)
def val_main_v201 : (⟨S266240x1, .i32⟩ : BufTy).Contents (Elt F) :=
  broadcastInDim S266240x1 ![0] bcast_S266240_S266240x1_0 (val_main_v200 (F := F) x1)
def val_main_v202 : (⟨S266240, .f32⟩ : BufTy).Contents (Elt F) :=
  Host.gather gather_S4096_S266240x1_S266240_n_0_n_n_0_1_1 (val_main_v187 (F := F) x1 x2) (val_main_v201 (F := F) x1)
def val_main_v203 : (⟨S266240, .f32⟩ : BufTy).Contents (Elt F) :=
  mulf (val_main_v195 (F := F) x1 x2) (val_main_v202 (F := F) x1 x2)
def val_main_v204 : (⟨S4096x128, .f32⟩ : BufTy).Contents (Elt F) :=
  Host.dotGeneral dot_S4096x256_S256x128_S4096x128_1_0_0_1_n_n none (val_main_v171 (F := F) x0 x1 x2 x3 x4 x5 x6 x9 x10 x11 x12) (x7)
theorem lhs_main_v204_0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
theorem lhs_main_v204_1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
theorem rhs_main_v204_0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
theorem rhs_main_v204_1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl
abbrev lidx_main_v204 (i : S4096x128.Idx) (k : Fin 256) : S4096x256.Idx := fun a => match a with
  | ⟨0, _⟩ => ⟨(i 0).val, (i 0).isLt⟩
  | ⟨1, _⟩ => ⟨k.val, k.isLt⟩
abbrev ridx_main_v204 (i : S4096x128.Idx) (k : Fin 256) : S256x128.Idx := fun a => match a with
  | ⟨0, _⟩ => ⟨k.val, k.isLt⟩
  | ⟨1, _⟩ => ⟨(i 1).val, (i 1).isLt⟩
def val_main_v205 : (⟨S266240x1, .f32⟩ : BufTy).Contents (Elt F) :=
  broadcastInDim S266240x1 ![0] bcast_S266240_S266240x1_0 (val_main_v203 (F := F) x1 x2)
abbrev idx_main_v205 (i : S266240x1.Idx) : S266240.Idx := fun a => match a with
  | ⟨0, _⟩ => ⟨(i 0).val, (i 0).isLt⟩
theorem val_main_v205_apply (i : S266240x1.Idx) :
    val_main_v205 (F := F) x1 x2 i = val_main_v203 (F := F) x1 x2 (idx_main_v205 i) := by
  unfold val_main_v205
  generalize val_main_v203 (F := F) x1 x2 = y
  exact broadcastInDim_apply _ bcast_S266240_S266240x1_0 y i (idx_main_v205 i) (fun a => match a with
    | ⟨0, _⟩ => by show (i 0).val = if (266240 : Nat) = 1 then 0 else (i 0).val; rw [if_neg (by decide)])
def val_main_c_36 : (⟨S_, .i32⟩ : BufTy).Contents (Elt F) :=
  constantI S_ 32 0#32
def val_main_v206 : (⟨S266240, .i32⟩ : BufTy).Contents (Elt F) :=
  broadcastInDim S266240 ![] bcast_S_S266240 (val_main_c_36 (F := F))
def val_main_v207 : (⟨S266240, .i1⟩ : BufTy).Contents (Elt F) :=
  cmpi .slt (val_main_v177 (F := F) x1) (val_main_v206 (F := F))
def val_main_c_37 : (⟨S_, .i32⟩ : BufTy).Contents (Elt F) :=
  constantI S_ 32 4096#32
def val_main_v208 : (⟨S266240, .i32⟩ : BufTy).Contents (Elt F) :=
  broadcastInDim S266240 ![] bcast_S_S266240 (val_main_c_37 (F := F))
def val_main_v209 : (⟨S266240, .i32⟩ : BufTy).Contents (Elt F) :=
  addi (val_main_v177 (F := F) x1) (val_main_v208 (F := F))
def val_main_v210 : (⟨S266240, .i32⟩ : BufTy).Contents (Elt F) :=
  select (val_main_v207 (F := F) x1) (val_main_v209 (F := F) x1) (val_main_v177 (F := F) x1)
def val_main_v211 : (⟨S266240x1, .i32⟩ : BufTy).Contents (Elt F) :=
  broadcastInDim S266240x1 ![0] bcast_S266240_S266240x1_0 (val_main_v210 (F := F) x1)
abbrev idx_main_v211 (i : S266240x1.Idx) : S266240.Idx := fun a => match a with
  | ⟨0, _⟩ => ⟨(i 0).val, (i 0).isLt⟩
theorem val_main_v211_apply (i : S266240x1.Idx) :
    val_main_v211 (F := F) x1 i = val_main_v210 (F := F) x1 (idx_main_v211 i) := by
  unfold val_main_v211
  generalize val_main_v210 (F := F) x1 = y
  exact broadcastInDim_apply _ bcast_S266240_S266240x1_0 y i (idx_main_v211 i) (fun a => match a with
    | ⟨0, _⟩ => by show (i 0).val = if (266240 : Nat) = 1 then 0 else (i 0).val; rw [if_neg (by decide)])
def val_main_v212 : (⟨S266240x128, .f32⟩ : BufTy).Contents (Elt F) :=
  Host.gather gather_S4096x128_S266240x1_S266240x128_1_0_n_n_0_1_1128 (val_main_v204 (F := F) x0 x1 x2 x3 x4 x5 x6 x7 x9 x10 x11 x12) (val_main_v211 (F := F) x1)
def val_main_v213 : (⟨S266240x128, .f32⟩ : BufTy).Contents (Elt F) :=
  broadcastInDim S266240x128 ![0, 1] bcast_S266240x1_S266240x128_0_1 (val_main_v205 (F := F) x1 x2)
abbrev idx_main_v213 (i : S266240x128.Idx) : S266240x1.Idx := fun a => match a with
  | ⟨0, _⟩ => ⟨(i 0).val, (i 0).isLt⟩
  | ⟨1, _⟩ => ⟨0, Nat.one_pos⟩
theorem val_main_v213_apply (i : S266240x128.Idx) :
    val_main_v213 (F := F) x1 x2 i = val_main_v205 (F := F) x1 x2 (idx_main_v213 i) := by
  unfold val_main_v213
  generalize val_main_v205 (F := F) x1 x2 = y
  exact broadcastInDim_apply _ bcast_S266240x1_S266240x128_0_1 y i (idx_main_v213 i) (fun a => match a with
    | ⟨0, _⟩ => by show (i 0).val = if (266240 : Nat) = 1 then 0 else (i 0).val; rw [if_neg (by decide)]
    | ⟨1, _⟩ => by show 0 = if (1 : Nat) = 1 then 0 else (i 1).val; rw [if_pos rfl])
def val_main_v214 : (⟨S266240x128, .f32⟩ : BufTy).Contents (Elt F) :=
  mulf (val_main_v213 (F := F) x1 x2) (val_main_v212 (F := F) x0 x1 x2 x3 x4 x5 x6 x7 x9 x10 x11 x12)
def val_main_cst_38 : (⟨S_, .f32⟩ : BufTy).Contents (Elt F) :=
  constant S_ .f32 0x00000000#32
theorem val_main_cst_38_apply (i : S_.Idx) :
    val_main_cst_38 (F := F) i = FloatOps.ofBits .f32 0x00000000#32 := rfl
def val_main_v215 : (⟨S4096x128, .f32⟩ : BufTy).Contents (Elt F) :=
  broadcastInDim S4096x128 ![] bcast_S_S4096x128 (val_main_cst_38 (F := F))
abbrev idx_main_v215 (i : S4096x128.Idx) : S_.Idx := fun a => a.elim0
theorem val_main_v215_apply (i : S4096x128.Idx) :
    val_main_v215 (F := F) i = val_main_cst_38 (F := F) (idx_main_v215 i) := by
  unfold val_main_v215
  generalize val_main_cst_38 (F := F) = y
  exact broadcastInDim_apply _ bcast_S_S4096x128 y i (idx_main_v215 i) (fun a => a.elim0)
def val_main_v216 : (⟨S266240x1, .i32⟩ : BufTy).Contents (Elt F) :=
  broadcastInDim S266240x1 ![0] bcast_S266240_S266240x1_0 (val_main_v178 (F := F) x1)
abbrev idx_main_v216 (i : S266240x1.Idx) : S266240.Idx := fun a => match a with
  | ⟨0, _⟩ => ⟨(i 0).val, (i 0).isLt⟩
theorem val_main_v216_apply (i : S266240x1.Idx) :
    val_main_v216 (F := F) x1 i = val_main_v178 (F := F) x1 (idx_main_v216 i) := by
  unfold val_main_v216
  generalize val_main_v178 (F := F) x1 = y
  exact broadcastInDim_apply _ bcast_S266240_S266240x1_0 y i (idx_main_v216 i) (fun a => match a with
    | ⟨0, _⟩ => by show (i 0).val = if (266240 : Nat) = 1 then 0 else (i 0).val; rw [if_neg (by decide)])
def val_main_v217 : (⟨S4096x128, .f32⟩ : BufTy).Contents (Elt F) :=
  Host.scatterAdd scatter_S4096x128_S266240x1_S266240x128_1_0_0_1 (val_main_v215 (F := F)) (val_main_v216 (F := F) x1) (val_main_v214 (F := F) x0 x1 x2 x3 x4 x5 x6 x7 x9 x10 x11 x12)
def val_main_v218 : (⟨S1x128, .f32⟩ : BufTy).Contents (Elt F) :=
  broadcastInDim S1x128 ![1] bcast_S128_S1x128_1 (x8)
abbrev idx_main_v218 (i : S1x128.Idx) : S128.Idx := fun a => match a with
  | ⟨0, _⟩ => ⟨(i 1).val, (i 1).isLt⟩
theorem val_main_v218_apply (i : S1x128.Idx) :
    val_main_v218 (F := F) x8 i = x8 (idx_main_v218 i) := by
  unfold val_main_v218
  exact broadcastInDim_apply _ bcast_S128_S1x128_1 x8 i (idx_main_v218 i) (fun a => match a with
    | ⟨0, _⟩ => by show (i 1).val = if (128 : Nat) = 1 then 0 else (i 1).val; rw [if_neg (by decide)])
def val_main_v219 : (⟨S4096x128, .f32⟩ : BufTy).Contents (Elt F) :=
  broadcastInDim S4096x128 ![0, 1] bcast_S1x128_S4096x128_0_1 (val_main_v218 (F := F) x8)
abbrev idx_main_v219 (i : S4096x128.Idx) : S1x128.Idx := fun a => match a with
  | ⟨0, _⟩ => ⟨0, Nat.one_pos⟩
  | ⟨1, _⟩ => ⟨(i 1).val, (i 1).isLt⟩
theorem val_main_v219_apply (i : S4096x128.Idx) :
    val_main_v219 (F := F) x8 i = val_main_v218 (F := F) x8 (idx_main_v219 i) := by
  unfold val_main_v219
  generalize val_main_v218 (F := F) x8 = y
  exact broadcastInDim_apply _ bcast_S1x128_S4096x128_0_1 y i (idx_main_v219 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v220 : (⟨S4096x128, .f32⟩ : BufTy).Contents (Elt F) :=
  addf (val_main_v217 (F := F) x0 x1 x2 x3 x4 x5 x6 x7 x9 x10 x11 x12) (val_main_v219 (F := F) x8)
def val_main_v221 : (⟨S4096x128, .f32⟩ : BufTy).Contents (Elt F) :=
  Host.negf (val_main_v220 (F := F) x0 x1 x2 x3 x4 x5 x6 x7 x8 x9 x10 x11 x12)
theorem val_main_v221_apply (i : S4096x128.Idx) :
    val_main_v221 (F := F) x0 x1 x2 x3 x4 x5 x6 x7 x8 x9 x10 x11 x12 i = FloatOps.hostNegf (val_main_v220 (F := F) x0 x1 x2 x3 x4 x5 x6 x7 x8 x9 x10 x11 x12 i) := rfl
def val_main_v222 : (⟨S4096x128, .f32⟩ : BufTy).Contents (Elt F) :=
  Host.exp (val_main_v221 (F := F) x0 x1 x2 x3 x4 x5 x6 x7 x8 x9 x10 x11 x12)
theorem val_main_v222_apply (i : S4096x128.Idx) :
    val_main_v222 (F := F) x0 x1 x2 x3 x4 x5 x6 x7 x8 x9 x10 x11 x12 i = FloatOps.hostUnary .exp (val_main_v221 (F := F) x0 x1 x2 x3 x4 x5 x6 x7 x8 x9 x10 x11 x12 i) := rfl
def val_main_cst_39 : (⟨S_, .f32⟩ : BufTy).Contents (Elt F) :=
  constant S_ .f32 0x3F800000#32
theorem val_main_cst_39_apply (i : S_.Idx) :
    val_main_cst_39 (F := F) i = FloatOps.ofBits .f32 0x3F800000#32 := rfl
def val_main_v223 : (⟨S4096x128, .f32⟩ : BufTy).Contents (Elt F) :=
  broadcastInDim S4096x128 ![] bcast_S_S4096x128 (val_main_cst_39 (F := F))
abbrev idx_main_v223 (i : S4096x128.Idx) : S_.Idx := fun a => a.elim0
theorem val_main_v223_apply (i : S4096x128.Idx) :
    val_main_v223 (F := F) i = val_main_cst_39 (F := F) (idx_main_v223 i) := by
  unfold val_main_v223
  generalize val_main_cst_39 (F := F) = y
  exact broadcastInDim_apply _ bcast_S_S4096x128 y i (idx_main_v223 i) (fun a => a.elim0)
def val_main_v224 : (⟨S4096x128, .f32⟩ : BufTy).Contents (Elt F) :=
  addf (val_main_v223 (F := F)) (val_main_v222 (F := F) x0 x1 x2 x3 x4 x5 x6 x7 x8 x9 x10 x11 x12)
theorem val_main_v224_apply (i : S4096x128.Idx) :
    val_main_v224 (F := F) x0 x1 x2 x3 x4 x5 x6 x7 x8 x9 x10 x11 x12 i = FloatOps.addf (val_main_v223 (F := F) i) (val_main_v222 (F := F) x0 x1 x2 x3 x4 x5 x6 x7 x8 x9 x10 x11 x12 i) := rfl
def val_main_cst_40 : (⟨S_, .f32⟩ : BufTy).Contents (Elt F) :=
  constant S_ .f32 0x3F800000#32
theorem val_main_cst_40_apply (i : S_.Idx) :
    val_main_cst_40 (F := F) i = FloatOps.ofBits .f32 0x3F800000#32 := rfl
def val_main_v225 : (⟨S4096x128, .f32⟩ : BufTy).Contents (Elt F) :=
  broadcastInDim S4096x128 ![] bcast_S_S4096x128 (val_main_cst_40 (F := F))
abbrev idx_main_v225 (i : S4096x128.Idx) : S_.Idx := fun a => a.elim0
theorem val_main_v225_apply (i : S4096x128.Idx) :
    val_main_v225 (F := F) i = val_main_cst_40 (F := F) (idx_main_v225 i) := by
  unfold val_main_v225
  generalize val_main_cst_40 (F := F) = y
  exact broadcastInDim_apply _ bcast_S_S4096x128 y i (idx_main_v225 i) (fun a => a.elim0)
def val_main_v226 : (⟨S4096x128, .f32⟩ : BufTy).Contents (Elt F) :=
  Host.divf (val_main_v225 (F := F)) (val_main_v224 (F := F) x0 x1 x2 x3 x4 x5 x6 x7 x8 x9 x10 x11 x12)
theorem val_main_v226_apply (i : S4096x128.Idx) :
    val_main_v226 (F := F) x0 x1 x2 x3 x4 x5 x6 x7 x8 x9 x10 x11 x12 i = FloatOps.hostDivf (val_main_v225 (F := F) i) (val_main_v224 (F := F) x0 x1 x2 x3 x4 x5 x6 x7 x8 x9 x10 x11 x12 i) := rfl
end
section
variable (x0 : (⟨S4096x256, .f32⟩ : BufTy).Contents (Elt Ideal)) (x1 : (⟨S2x262144, .i32⟩ : BufTy).Contents (Elt Ideal)) (x2 : (⟨S262144, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x128, .f32⟩ : BufTy).Contents (Elt Ideal)) (x8 : (⟨S128, .f32⟩ : BufTy).Contents (Elt Ideal)) (x9 : (⟨S768x256, .f32⟩ : BufTy).Contents (Elt Ideal)) (x10 : (⟨S768, .f32⟩ : BufTy).Contents (Elt Ideal)) (x11 : (⟨S256x256, .f32⟩ : BufTy).Contents (Elt Ideal)) (x12 : (⟨S256, .f32⟩ : BufTy).Contents (Elt Ideal))
theorem val_main_v32_apply (i : S4096x256.Idx) :
    val_main_v32 (F := Ideal) x0 x3 i = ∑ k : Fin 256, x0 (lidx_main_v32 i k) * x3 (ridx_main_v32 i k) := by
  unfold val_main_v32
  simp only [Host.dotGeneral]
  rw [Ideal.dotGeneral_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx i ((ValueIdx.contrEquiv1 dot_S4096x256_S256x256_S4096x256_1_0_0_1_n_n 256 rfl rfl).symm k) = lidx_main_v32 i k := funext fun a => Fin.ext (by
    match a with
    | ⟨0, _⟩ => exact lhs_main_v32_0 _ _
    | ⟨1, _⟩ => exact (lhs_main_v32_1 _ _).trans hk)
  have er : dot_S4096x256_S256x256_S4096x256_1_0_0_1_n_n.rhsIdx i ((ValueIdx.contrEquiv1 dot_S4096x256_S256x256_S4096x256_1_0_0_1_n_n 256 rfl rfl).symm k) = ridx_main_v32 i k := funext fun a => Fin.ext (by
    match a with
    | ⟨0, _⟩ => exact (rhs_main_v32_0 _ _).trans hk
    | ⟨1, _⟩ => exact rhs_main_v32_1 _ _)
  rw [el, er]
theorem val_main_v50_apply (i : S4096x768.Idx) :
    val_main_v50 (F := Ideal) x0 x1 x2 x3 x4 x9 i = ∑ k : Fin 256, (val_main_v48 (F := Ideal) x0 x1 x2 x3 x4) (lidx_main_v50 i k) * (val_main_v49 (F := Ideal) x9) (ridx_main_v50 i k) := by
  unfold val_main_v50
  generalize val_main_v48 (F := Ideal) x0 x1 x2 x3 x4 = y0
  generalize val_main_v49 (F := Ideal) x9 = y1
  simp only [Host.dotGeneral]
  rw [Ideal.dotGeneral_apply, ← Equiv.sum_comp (ValueIdx.contrEquiv1 dot_S4096x256_S256x768_S4096x768_1_0_0_1_n_n 256 rfl rfl).symm]
  refine Finset.sum_congr rfl fun k _ => ?_
  have hk := ValueIdx.contrEquiv1_symm_val dot_S4096x256_S256x768_S4096x768_1_0_0_1_n_n 256 rfl rfl k
  have el : dot_S4096x256_S256x768_S4096x768_1_0_0_1_n_n.lhsIdx i ((ValueIdx.contrEquiv1 dot_S4096x256_S256x768_S4096x768_1_0_0_1_n_n 256 rfl rfl).symm k) = lidx_main_v50 i k := funext fun a => Fin.ext (by
    match a with
    | ⟨0, _⟩ => exact lhs_main_v50_0 _ _
    | ⟨1, _⟩ => exact (lhs_main_v50_1 _ _).trans hk)
  have er : dot_S4096x256_S256x768_S4096x768_1_0_0_1_n_n.rhsIdx i ((ValueIdx.contrEquiv1 dot_S4096x256_S256x768_S4096x768_1_0_0_1_n_n 256 rfl rfl).symm k) = ridx_main_v50 i k := funext fun a => Fin.ext (by
    match a with
    | ⟨0, _⟩ => exact (rhs_main_v50_0 _ _).trans hk
    | ⟨1, _⟩ => exact rhs_main_v50_1 _ _)
  rw [el, er]
theorem val_main_v63_apply (i : S4x4096x4096.Idx) :
    val_main_v63 (F := Ideal) x0 x1 x2 x3 x4 x9 x10 i = ∑ k : Fin 64, (val_main_v58 (F := Ideal) x0 x1 x2 x3 x4 x9 x10) (lidx_main_v63 i k) * (val_main_v60 (F := Ideal) x0 x1 x2 x3 x4 x9 x10) (ridx_main_v63 i k) := by
  unfold val_main_v63
  generalize val_main_v58 (F := Ideal) x0 x1 x2 x3 x4 x9 x10 = y0
  generalize val_main_v60 (F := Ideal) x0 x1 x2 x3 x4 x9 x10 = y1
  simp only [Host.dotGeneral]
  rw [Ideal.dotGeneral_apply, ← Equiv.sum_comp (ValueIdx.contrEquiv1 dot_S4x4096x64_S4x4096x64_S4x4096x4096_2_2_1_1_0_0 64 rfl rfl).symm]
  refine Finset.sum_congr rfl fun k _ => ?_
  have hk := ValueIdx.contrEquiv1_symm_val dot_S4x4096x64_S4x4096x64_S4x4096x4096_2_2_1_1_0_0 64 rfl rfl k
  have el : dot_S4x4096x64_S4x4096x64_S4x4096x4096_2_2_1_1_0_0.lhsIdx i ((ValueIdx.contrEquiv1 dot_S4x4096x64_S4x4096x64_S4x4096x4096_2_2_1_1_0_0 64 rfl rfl).symm k) = lidx_main_v63 i k := funext fun a => Fin.ext (by
    match a with
    | ⟨0, _⟩ => exact lhs_main_v63_0 _ _
    | ⟨1, _⟩ => exact lhs_main_v63_1 _ _
    | ⟨2, _⟩ => exact (lhs_main_v63_2 _ _).trans hk)
  have er : dot_S4x4096x64_S4x4096x64_S4x4096x4096_2_2_1_1_0_0.rhsIdx i ((ValueIdx.contrEquiv1 dot_S4x4096x64_S4x4096x64_S4x4096x4096_2_2_1_1_0_0 64 rfl rfl).symm k) = ridx_main_v63 i k := funext fun a => Fin.ext (by
    match a with
    | ⟨0, _⟩ => exact rhs_main_v63_0 _ _
    | ⟨1, _⟩ => exact rhs_main_v63_1 _ _
    | ⟨2, _⟩ => exact (rhs_main_v63_2 _ _).trans hk)
  rw [el, er]
theorem val_main_v73_apply (i : S4x4096.Idx) :
    val_main_v73 (F := Ideal) x0 x1 x2 x3 x4 x9 x10 i = (val_main_cst_12 (F := Ideal)) (Shape.Idx.first h_S_) + ∑ k : Fin 4096, (val_main_v72 (F := Ideal) x0 x1 x2 x3 x4 x9 x10) (idx_main_v73 i k) := by
  unfold val_main_v73
  generalize val_main_v72 (F := Ideal) x0 x1 x2 x3 x4 x9 x10 = y0
  simp only [Host.reduceAdd, Ideal.hostReduceAdd_def]
  rw [Ideal.hostReduceAdd_single reducesTo_S4x4096x4096_S4x4096_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))
theorem val_main_v77_apply (i : S4x4096x64.Idx) :
    val_main_v77 (F := Ideal) x0 x1 x2 x3 x4 x9 x10 i = ∑ k : Fin 4096, (val_main_v76 (F := Ideal) x0 x1 x2 x3 x4 x9 x10) (lidx_main_v77 i k) * (val_main_v62 (F := Ideal) x0 x1 x2 x3 x4 x9 x10) (ridx_main_v77 i k) := by
  unfold val_main_v77
  generalize val_main_v76 (F := Ideal) x0 x1 x2 x3 x4 x9 x10 = y0
  generalize val_main_v62 (F := Ideal) x0 x1 x2 x3 x4 x9 x10 = y1
  simp only [Host.dotGeneral]
  rw [Ideal.dotGeneral_apply, ← Equiv.sum_comp (ValueIdx.contrEquiv1 dot_S4x4096x4096_S4x4096x64_S4x4096x64_2_1_1_2_0_0 4096 rfl rfl).symm]
  refine Finset.sum_congr rfl fun k _ => ?_
  have hk := ValueIdx.contrEquiv1_symm_val dot_S4x4096x4096_S4x4096x64_S4x4096x64_2_1_1_2_0_0 4096 rfl rfl k
  have el : dot_S4x4096x4096_S4x4096x64_S4x4096x64_2_1_1_2_0_0.lhsIdx i ((ValueIdx.contrEquiv1 dot_S4x4096x4096_S4x4096x64_S4x4096x64_2_1_1_2_0_0 4096 rfl rfl).symm k) = lidx_main_v77 i k := funext fun a => Fin.ext (by
    match a with
    | ⟨0, _⟩ => exact lhs_main_v77_0 _ _
    | ⟨1, _⟩ => exact lhs_main_v77_1 _ _
    | ⟨2, _⟩ => exact (lhs_main_v77_2 _ _).trans hk)
  have er : dot_S4x4096x4096_S4x4096x64_S4x4096x64_2_1_1_2_0_0.rhsIdx i ((ValueIdx.contrEquiv1 dot_S4x4096x4096_S4x4096x64_S4x4096x64_2_1_1_2_0_0 4096 rfl rfl).symm k) = ridx_main_v77 i k := funext fun a => Fin.ext (by
    match a with
    | ⟨0, _⟩ => exact rhs_main_v77_0 _ _
    | ⟨1, _⟩ => exact (rhs_main_v77_1 _ _).trans hk
    | ⟨2, _⟩ => exact rhs_main_v77_2 _ _)
  rw [el, er]
theorem val_main_v81_apply (i : S4096x256.Idx) :
    val_main_v81 (F := Ideal) x0 x1 x2 x3 x4 x9 x10 x11 i = ∑ k : Fin 256, (val_main_v79 (F := Ideal) x0 x1 x2 x3 x4 x9 x10) (lidx_main_v81 i k) * (val_main_v80 (F := Ideal) x11) (ridx_main_v81 i k) := by
  unfold val_main_v81
  generalize val_main_v79 (F := Ideal) x0 x1 x2 x3 x4 x9 x10 = y0
  generalize val_main_v80 (F := Ideal) x11 = y1
  simp only [Host.dotGeneral]
  rw [Ideal.dotGeneral_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx i ((ValueIdx.contrEquiv1 dot_S4096x256_S256x256_S4096x256_1_0_0_1_n_n 256 rfl rfl).symm k) = lidx_main_v81 i k := funext fun a => Fin.ext (by
    match a with
    | ⟨0, _⟩ => exact lhs_main_v81_0 _ _
    | ⟨1, _⟩ => exact (lhs_main_v81_1 _ _).trans hk)
  have er : dot_S4096x256_S256x256_S4096x256_1_0_0_1_n_n.rhsIdx i ((ValueIdx.contrEquiv1 dot_S4096x256_S256x256_S4096x256_1_0_0_1_n_n 256 rfl rfl).symm k) = ridx_main_v81 i k := funext fun a => Fin.ext (by
    match a with
    | ⟨0, _⟩ => exact (rhs_main_v81_0 _ _).trans hk
    | ⟨1, _⟩ => exact rhs_main_v81_1 _ _)
  rw [el, er]
theorem val_main_v118_apply (i : S4096x256.Idx) :
    val_main_v118 (F := Ideal) x0 x1 x2 x3 x4 x5 x9 x10 x11 x12 i = ∑ k : Fin 256, (val_main_v85 (F := Ideal) x0 x1 x2 x3 x4 x9 x10 x11 x12) (lidx_main_v118 i k) * x5 (ridx_main_v118 i k) := by
  unfold val_main_v118
  generalize val_main_v85 (F := Ideal) x0 x1 x2 x3 x4 x9 x10 x11 x12 = y0
  simp only [Host.dotGeneral]
  rw [Ideal.dotGeneral_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx i ((ValueIdx.contrEquiv1 dot_S4096x256_S256x256_S4096x256_1_0_0_1_n_n 256 rfl rfl).symm k) = lidx_main_v118 i k := funext fun a => Fin.ext (by
    match a with
    | ⟨0, _⟩ => exact lhs_main_v118_0 _ _
    | ⟨1, _⟩ => exact (lhs_main_v118_1 _ _).trans hk)
  have er : dot_S4096x256_S256x256_S4096x256_1_0_0_1_n_n.rhsIdx i ((ValueIdx.contrEquiv1 dot_S4096x256_S256x256_S4096x256_1_0_0_1_n_n 256 rfl rfl).symm k) = ridx_main_v118 i k := funext fun a => Fin.ext (by
    match a with
    | ⟨0, _⟩ => exact (rhs_main_v118_0 _ _).trans hk
    | ⟨1, _⟩ => exact rhs_main_v118_1 _ _)
  rw [el, er]
theorem val_main_v136_apply (i : S4096x768.Idx) :
    val_main_v136 (F := Ideal) x0 x1 x2 x3 x4 x5 x6 x9 x10 x11 x12 i = ∑ k : Fin 256, (val_main_v134 (F := Ideal) x0 x1 x2 x3 x4 x5 x6 x9 x10 x11 x12) (lidx_main_v136 i k) * (val_main_v135 (F := Ideal) x9) (ridx_main_v136 i k) := by
  unfold val_main_v136
  generalize val_main_v134 (F := Ideal) x0 x1 x2 x3 x4 x5 x6 x9 x10 x11 x12 = y0
  generalize val_main_v135 (F := Ideal) x9 = y1
  simp only [Host.dotGeneral]
  rw [Ideal.dotGeneral_apply, ← Equiv.sum_comp (ValueIdx.contrEquiv1 dot_S4096x256_S256x768_S4096x768_1_0_0_1_n_n 256 rfl rfl).symm]
  refine Finset.sum_congr rfl fun k _ => ?_
  have hk := ValueIdx.contrEquiv1_symm_val dot_S4096x256_S256x768_S4096x768_1_0_0_1_n_n 256 rfl rfl k
  have el : dot_S4096x256_S256x768_S4096x768_1_0_0_1_n_n.lhsIdx i ((ValueIdx.contrEquiv1 dot_S4096x256_S256x768_S4096x768_1_0_0_1_n_n 256 rfl rfl).symm k) = lidx_main_v136 i k := funext fun a => Fin.ext (by
    match a with
    | ⟨0, _⟩ => exact lhs_main_v136_0 _ _
    | ⟨1, _⟩ => exact (lhs_main_v136_1 _ _).trans hk)
  have er : dot_S4096x256_S256x768_S4096x768_1_0_0_1_n_n.rhsIdx i ((ValueIdx.contrEquiv1 dot_S4096x256_S256x768_S4096x768_1_0_0_1_n_n 256 rfl rfl).symm k) = ridx_main_v136 i k := funext fun a => Fin.ext (by
    match a with
    | ⟨0, _⟩ => exact (rhs_main_v136_0 _ _).trans hk
    | ⟨1, _⟩ => exact rhs_main_v136_1 _ _)
  rw [el, er]
theorem val_main_v149_apply (i : S4x4096x4096.Idx) :
    val_main_v149 (F := Ideal) x0 x1 x2 x3 x4 x5 x6 x9 x10 x11 x12 i = ∑ k : Fin 64, (val_main_v144 (F := Ideal) x0 x1 x2 x3 x4 x5 x6 x9 x10 x11 x12) (lidx_main_v149 i k) * (val_main_v146 (F := Ideal) x0 x1 x2 x3 x4 x5 x6 x9 x10 x11 x12) (ridx_main_v149 i k) := by
  unfold val_main_v149
  generalize val_main_v144 (F := Ideal) x0 x1 x2 x3 x4 x5 x6 x9 x10 x11 x12 = y0
  generalize val_main_v146 (F := Ideal) x0 x1 x2 x3 x4 x5 x6 x9 x10 x11 x12 = y1
  simp only [Host.dotGeneral]
  rw [Ideal.dotGeneral_apply, ← Equiv.sum_comp (ValueIdx.contrEquiv1 dot_S4x4096x64_S4x4096x64_S4x4096x4096_2_2_1_1_0_0 64 rfl rfl).symm]
  refine Finset.sum_congr rfl fun k _ => ?_
  have hk := ValueIdx.contrEquiv1_symm_val dot_S4x4096x64_S4x4096x64_S4x4096x4096_2_2_1_1_0_0 64 rfl rfl k
  have el : dot_S4x4096x64_S4x4096x64_S4x4096x4096_2_2_1_1_0_0.lhsIdx i ((ValueIdx.contrEquiv1 dot_S4x4096x64_S4x4096x64_S4x4096x4096_2_2_1_1_0_0 64 rfl rfl).symm k) = lidx_main_v149 i k := funext fun a => Fin.ext (by
    match a with
    | ⟨0, _⟩ => exact lhs_main_v149_0 _ _
    | ⟨1, _⟩ => exact lhs_main_v149_1 _ _
    | ⟨2, _⟩ => exact (lhs_main_v149_2 _ _).trans hk)
  have er : dot_S4x4096x64_S4x4096x64_S4x4096x4096_2_2_1_1_0_0.rhsIdx i ((ValueIdx.contrEquiv1 dot_S4x4096x64_S4x4096x64_S4x4096x4096_2_2_1_1_0_0 64 rfl rfl).symm k) = ridx_main_v149 i k := funext fun a => Fin.ext (by
    match a with
    | ⟨0, _⟩ => exact rhs_main_v149_0 _ _
    | ⟨1, _⟩ => exact rhs_main_v149_1 _ _
    | ⟨2, _⟩ => exact (rhs_main_v149_2 _ _).trans hk)
  rw [el, er]
theorem val_main_v159_apply (i : S4x4096.Idx) :
    val_main_v159 (F := Ideal) x0 x1 x2 x3 x4 x5 x6 x9 x10 x11 x12 i = (val_main_cst_27 (F := Ideal)) (Shape.Idx.first h_S_) + ∑ k : Fin 4096, (val_main_v158 (F := Ideal) x0 x1 x2 x3 x4 x5 x6 x9 x10 x11 x12) (idx_main_v159 i k) := by
  unfold val_main_v159
  generalize val_main_v158 (F := Ideal) x0 x1 x2 x3 x4 x5 x6 x9 x10 x11 x12 = y0
  simp only [Host.reduceAdd, Ideal.hostReduceAdd_def]
  rw [Ideal.hostReduceAdd_single reducesTo_S4x4096x4096_S4x4096_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))
theorem val_main_v163_apply (i : S4x4096x64.Idx) :
    val_main_v163 (F := Ideal) x0 x1 x2 x3 x4 x5 x6 x9 x10 x11 x12 i = ∑ k : Fin 4096, (val_main_v162 (F := Ideal) x0 x1 x2 x3 x4 x5 x6 x9 x10 x11 x12) (lidx_main_v163 i k) * (val_main_v148 (F := Ideal) x0 x1 x2 x3 x4 x5 x6 x9 x10 x11 x12) (ridx_main_v163 i k) := by
  unfold val_main_v163
  generalize val_main_v162 (F := Ideal) x0 x1 x2 x3 x4 x5 x6 x9 x10 x11 x12 = y0
  generalize val_main_v148 (F := Ideal) x0 x1 x2 x3 x4 x5 x6 x9 x10 x11 x12 = y1
  simp only [Host.dotGeneral]
  rw [Ideal.dotGeneral_apply, ← Equiv.sum_comp (ValueIdx.contrEquiv1 dot_S4x4096x4096_S4x4096x64_S4x4096x64_2_1_1_2_0_0 4096 rfl rfl).symm]
  refine Finset.sum_congr rfl fun k _ => ?_
  have hk := ValueIdx.contrEquiv1_symm_val dot_S4x4096x4096_S4x4096x64_S4x4096x64_2_1_1_2_0_0 4096 rfl rfl k
  have el : dot_S4x4096x4096_S4x4096x64_S4x4096x64_2_1_1_2_0_0.lhsIdx i ((ValueIdx.contrEquiv1 dot_S4x4096x4096_S4x4096x64_S4x4096x64_2_1_1_2_0_0 4096 rfl rfl).symm k) = lidx_main_v163 i k := funext fun a => Fin.ext (by
    match a with
    | ⟨0, _⟩ => exact lhs_main_v163_0 _ _
    | ⟨1, _⟩ => exact lhs_main_v163_1 _ _
    | ⟨2, _⟩ => exact (lhs_main_v163_2 _ _).trans hk)
  have er : dot_S4x4096x4096_S4x4096x64_S4x4096x64_2_1_1_2_0_0.rhsIdx i ((ValueIdx.contrEquiv1 dot_S4x4096x4096_S4x4096x64_S4x4096x64_2_1_1_2_0_0 4096 rfl rfl).symm k) = ridx_main_v163 i k := funext fun a => Fin.ext (by
    match a with
    | ⟨0, _⟩ => exact rhs_main_v163_0 _ _
    | ⟨1, _⟩ => exact (rhs_main_v163_1 _ _).trans hk
    | ⟨2, _⟩ => exact rhs_main_v163_2 _ _)
  rw [el, er]
theorem val_main_v167_apply (i : S4096x256.Idx) :
    val_main_v167 (F := Ideal) x0 x1 x2 x3 x4 x5 x6 x9 x10 x11 x12 i = ∑ k : Fin 256, (val_main_v165 (F := Ideal) x0 x1 x2 x3 x4 x5 x6 x9 x10 x11 x12) (lidx_main_v167 i k) * (val_main_v166 (F := Ideal) x11) (ridx_main_v167 i k) := by
  unfold val_main_v167
  generalize val_main_v165 (F := Ideal) x0 x1 x2 x3 x4 x5 x6 x9 x10 x11 x12 = y0
  generalize val_main_v166 (F := Ideal) x11 = y1
  simp only [Host.dotGeneral]
  rw [Ideal.dotGeneral_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx i ((ValueIdx.contrEquiv1 dot_S4096x256_S256x256_S4096x256_1_0_0_1_n_n 256 rfl rfl).symm k) = lidx_main_v167 i k := funext fun a => Fin.ext (by
    match a with
    | ⟨0, _⟩ => exact lhs_main_v167_0 _ _
    | ⟨1, _⟩ => exact (lhs_main_v167_1 _ _).trans hk)
  have er : dot_S4096x256_S256x256_S4096x256_1_0_0_1_n_n.rhsIdx i ((ValueIdx.contrEquiv1 dot_S4096x256_S256x256_S4096x256_1_0_0_1_n_n 256 rfl rfl).symm k) = ridx_main_v167 i k := funext fun a => Fin.ext (by
    match a with
    | ⟨0, _⟩ => exact (rhs_main_v167_0 _ _).trans hk
    | ⟨1, _⟩ => exact rhs_main_v167_1 _ _)
  rw [el, er]
theorem val_main_v204_apply (i : S4096x128.Idx) :
    val_main_v204 (F := Ideal) x0 x1 x2 x3 x4 x5 x6 x7 x9 x10 x11 x12 i = ∑ k : Fin 256, (val_main_v171 (F := Ideal) x0 x1 x2 x3 x4 x5 x6 x9 x10 x11 x12) (lidx_main_v204 i k) * x7 (ridx_main_v204 i k) := by
  unfold val_main_v204
  generalize val_main_v171 (F := Ideal) x0 x1 x2 x3 x4 x5 x6 x9 x10 x11 x12 = y0
  simp only [Host.dotGeneral]
  rw [Ideal.dotGeneral_apply, ← Equiv.sum_comp (ValueIdx.contrEquiv1 dot_S4096x256_S256x128_S4096x128_1_0_0_1_n_n 256 rfl rfl).symm]
  refine Finset.sum_congr rfl fun k _ => ?_
  have hk := ValueIdx.contrEquiv1_symm_val dot_S4096x256_S256x128_S4096x128_1_0_0_1_n_n 256 rfl rfl k
  have el : dot_S4096x256_S256x128_S4096x128_1_0_0_1_n_n.lhsIdx i ((ValueIdx.contrEquiv1 dot_S4096x256_S256x128_S4096x128_1_0_0_1_n_n 256 rfl rfl).symm k) = lidx_main_v204 i k := funext fun a => Fin.ext (by
    match a with
    | ⟨0, _⟩ => exact lhs_main_v204_0 _ _
    | ⟨1, _⟩ => exact (lhs_main_v204_1 _ _).trans hk)
  have er : dot_S4096x256_S256x128_S4096x128_1_0_0_1_n_n.rhsIdx i ((ValueIdx.contrEquiv1 dot_S4096x256_S256x128_S4096x128_1_0_0_1_n_n 256 rfl rfl).symm k) = ridx_main_v204 i k := funext fun a => Fin.ext (by
    match a with
    | ⟨0, _⟩ => exact (rhs_main_v204_0 _ _).trans hk
    | ⟨1, _⟩ => exact rhs_main_v204_1 _ _)
  rw [el, er]
end
end Cert.ReferenceIdeal.Read
end
-- ==== Proof.RefLib.lean ====
import Idealize.ShloMosaic.PureOps.Ideal
import Idealize.ShloMosaic.Lib.ValueIdx
import Idealize.ShloMosaic.Lib.IdealHost
import Idealize.ShloMosaic.Lib.StableHlo.Predicate
import Mathlib.Order.CompleteLattice.Finset
import proofs.«403157_j14328010899645_2_alg».proof.Proof.LibGatherScatter
namespace Cert.RefLib
open Idealize.ShloMosaic Idealize.ShloMosaic.ValueIdx Cert.LibGatherScatter
theorem gather_vec {α : Type} {N n w : Nat} (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1) (hss : d.sliceSizes = ![1])
    (x : (⟨1, ![N]⟩ : Shape).Idx → α) (idx : IVec ⟨2, ![n, 1]⟩ w) (p : Fin n) (hN : 0 < N) :
    Host.gather d x idx (ix1 p) = x (ix1 ⟨min (idx (ix2 p (0 : Fin 1))).toInt.toNat (N - 1), by omega⟩) := by
  unfold Host.gather
  congr 1
  have hsk : d.sKept = [] := by
    show Shape.kept _ (d.collapsedSliceDims ++ d.operandBatchingDims) = []
    rw [hcoll, hob]; rfl
  have hbd : d.batchDims = [0] := by
    show Shape.kept _ d.offsetDims = [0]
    rw [hoff]; rfl
  have hsik : d.siKept = [0] := by
    show (List.finRange _).filter (·.val ≠ d.indexVectorDim) = [0]
    rw [hivd]; rfl
  have h0 : (d.operandIdx (ix1 p) idx (0 : Fin 1)).val = min (idx (ix2 p (0 : Fin 1))).toInt.toNat (N - 1) := by
    have hb : (0 : Fin 1) ∉ d.operandBatchingDims := by rw [hob]; exact List.not_mem_nil
    have hk : (0 : Fin 1) ∉ d.sKept := by rw [hsk]; exact List.not_mem_nil
    have hm : (0 : Fin 1) ∈ d.startIndexMap := by rw [hsim]; exact List.mem_singleton.mpr rfl
    have hsl : d.sliceSizes 0 = 1 := by rw [hss]; rfl
    simp only [GatherDims.operandIdx, GatherDims.batchCoord_eq_zero _ _ _ hb, GatherDims.offCoord_eq_zero _ _ _ hk,
      Nat.add_zero, GatherDims.start, dif_pos hm]
    show min (idx _).toInt.toNat (N - d.sliceSizes 0) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X : Fin 1, ((ix1 p : (⟨1, ![n]⟩ : Shape).Idx) X).val = p.val := fun X => by
        have hX : X = 0 := Subsingleton.elim _ _
        subst hX; rfl
      exact e _
    | ⟨1, _⟩ =>
      unfold GatherDims.siIdx
      rw [dif_pos (by rw [hivd])]
      apply Fin.ext
      show List.idxOf (0 : Fin 1) d.startIndexMap = 0
      rw [hsim]; simp
  funext a
  apply Fin.ext
  have ha : a = 0 := Subsingleton.elim _ _
  subst ha
  exact h0
theorem wrap_word (w : BitVec 32) (h : 0 ≤ w.toInt) :
    Scalar.select (IntOp.cmpi .slt w 0#32) (IntOp.addi w 4096#32) w = w := by
  have hz : IntOp.cmpi .slt w 0#32 = 0#1 := by
    apply eq_zero_of_ne_one
    intro h1
    unfold IntOp.cmpi at h1
    rw [StableHlo.Predicate.ofBool_eq_one_iff] at h1
    simp only [BitVec.slt, decide_eq_true_eq] at h1
    have e0 : (0#32 : BitVec 32).toInt = 0 := by decide
    rw [e0] at h1
    omega
  rw [hz]; exact select_zero _ _
theorem toInt_ofNat_lt (k : Nat) (hk : k < 4096) : (BitVec.ofNat 32 k).toInt = (k : ℤ) := by
  rw [BitVec.toInt_eq_toNat_cond, BitVec.toNat_ofNat]
  have : k % 2 ^ 32 = k := Nat.mod_eq_of_lt (by omega)
  rw [this]
  split <;> omega
theorem ofBits_zero_f32 : Ideal.ofBits .f32 0x00000000#32 = 0 := by simp [Ideal.ofBits, Ideal.ieee]
theorem ofBits_neg_inf_f32 : Ideal.ofBits .f32 0xFF800000#32 = (⊥ : EReal) := by simp [Ideal.ofBits, Ideal.ieee]
theorem ofBits_eight_f32 : Ideal.ofBits .f32 0x41000000#32 = 8 := by
  rw [show (8 : EReal) = ((8 : ℝ) : EReal) by norm_cast]
  simp [Ideal.ofBits, Ideal.ieee, -EReal.coe_mul]
  norm_num
theorem select_ogt {α : Type} (d z : EReal) (a b : α) :
    Scalar.select (Ideal.cmp .ogt d z) a b = if z < d then a else b := by
  unfold Ideal.cmp Scalar.select
  by_cases h : z < d
  · simp [h]
  · simp [h]
theorem fold_max_eq_sup {n : Nat} (f : Fin n → EReal) :
    (Finset.univ : Finset (Fin n)).fold max ⊥ f = Finset.univ.sup f := by
  unfold Finset.sup
  congr 1
end Cert.RefLib
-- ==== Proof.RefValue.Edges.lean ====
import proofs.«403157_j14328010899645_2_alg».proof.Proof.RefRead
import proofs.«403157_j14328010899645_2_alg».proof.Proof.RefLib
import proofs.«403157_j14328010899645_2_alg».proof.Proof.Spec.RefSpec
noncomputable section
namespace Cert.RefValue
open Cert.ReferenceIdeal Cert.ReferenceIdeal.Gen Cert.ReferenceIdeal.Read Idealize.ShloMosaic Idealize.ShloMosaic.ValueIdx
open Cert.Spec Cert.RefLib Cert.LibGatherScatter
def InRange (x1 : (⟨S2x262144, .i32⟩ : BufTy).Contents (Elt Ideal)) : Prop :=
  ∀ i, 0 ≤ (x1 i).toInt ∧ (x1 i).toInt < 4096
abbrev wordRow (x1 : (⟨S2x262144, .i32⟩ : BufTy).Contents (Elt Ideal)) (r : Fin 2) (t : Fin 262144) : BitVec 32 :=
  x1 (ix2 r t)
abbrev rowOf (x1 : (⟨S2x262144, .i32⟩ : BufTy).Contents (Elt Ideal)) : Fin 266240 → Fin 4096 := extIdx (wordRow x1 0)
abbrev colOf (x1 : (⟨S2x262144, .i32⟩ : BufTy).Contents (Elt Ideal)) : Fin 266240 → Fin 4096 := extIdx (wordRow x1 1)
abbrev ewOf (x2 : (⟨S262144, .f32⟩ : BufTy).Contents (Elt Ideal)) : Fin 266240 → EReal := extW (fun t => x2 (ix1 t))
theorem concat_apply {α : Type} (a : S262144.Idx → α) (b : S4096.Idx → α) (e : Fin 266240) :
    concatenate S266240 0 [⟨S262144, a⟩, ⟨S4096, b⟩] concatenates_S262144_S4096_S266240_d0 (ix1 e)
      = if h : e.val < 262144 then a (ix1 ⟨e.val, h⟩) else b (ix1 ⟨e.val - 262144, by omega⟩) := by
  by_cases h : e.val < 262144
  · rw [dif_pos h]
    exact concatenate_pair_apply_left (0 : Fin 1) a b _ (ix1 e) rfl (ix1 ⟨e.val, h⟩) (fun c => by
      have hc : c = 0 := Subsingleton.elim _ _
      subst hc; rfl)
  · rw [dif_neg h]
    exact concatenate_pair_apply_right (0 : Fin 1) a b _ (ix1 e) rfl rfl (ix1 ⟨e.val - 262144, by omega⟩)
      (fun c hc => absurd (Subsingleton.elim _ _) hc) (by show (e.val - 262144) + 262144 = e.val; omega)
section
variable (x1 : (⟨S2x262144, .i32⟩ : BufTy).Contents (Elt Ideal)) (x2 : (⟨S262144, .f32⟩ : BufTy).Contents (Elt Ideal))
theorem v5_apply (e : Fin 266240) :
    val_main_v5 (F := Ideal) x1 (ix1 e)
      = if h : e.val < 262144 then wordRow x1 0 ⟨e.val, h⟩ else BitVec.ofNat 32 (e.val - 262144) := by
  unfold val_main_v5
  rw [concat_apply]
  by_cases h : e.val < 262144
  · rw [dif_pos h, dif_pos h, val_main_v1_apply, val_main_v0_apply]
    refine congrArg x1 (funext fun a => ?_)
    match a with
    | ⟨0, _⟩ => rfl
    | ⟨1, _⟩ => exact Fin.ext (Nat.mod_eq_of_lt h)
  · rw [dif_neg h, dif_neg h]; rfl
theorem v6_apply (e : Fin 266240) :
    val_main_v6 (F := Ideal) x1 (ix1 e)
      = if h : e.val < 262144 then wordRow x1 1 ⟨e.val, h⟩ else BitVec.ofNat 32 (e.val - 262144) := by
  unfold val_main_v6
  rw [concat_apply]
  by_cases h : e.val < 262144
  · rw [dif_pos h, dif_pos h, val_main_v3_apply, val_main_v2_apply]
    refine congrArg x1 (funext fun a => ?_)
    match a with
    | ⟨0, _⟩ => rfl
    | ⟨1, _⟩ => exact Fin.ext (Nat.mod_eq_of_lt h)
  · rw [dif_neg h, dif_neg h]; rfl
theorem v8_apply (e : Fin 266240) : val_main_v8 (F := Ideal) x2 (ix1 e) = ewOf x2 e := by
  unfold val_main_v8
  rw [concat_apply]
  show _ = extW (fun t => x2 (ix1 t)) e
  unfold extW
  by_cases h : e.val < 262144
  · rw [dif_pos h, dif_pos h]
  · rw [dif_neg h, dif_neg h, val_main_v7_apply, val_main_cst_apply]
    exact Ideal.ofBits_one_f32
theorem ext_word (r : Fin 2) (hr : InRange x1) (e : Fin 266240) (w : BitVec 32)
    (hw : w = if h : e.val < 262144 then wordRow x1 r ⟨e.val, h⟩ else BitVec.ofNat 32 (e.val - 262144)) :
    w.toInt = ((extIdx (wordRow x1 r) e).val : ℤ) ∧ 0 ≤ w.toInt ∧ w.toInt < 4096 := by
  subst hw
  unfold extIdx idxOfWord
  by_cases h : e.val < 262144
  · rw [dif_pos h, dif_pos h]
    obtain ⟨h0, h1⟩ := hr (ix2 r ⟨e.val, h⟩)
    refine ⟨?_, h0, h1⟩
    show (wordRow x1 r ⟨e.val, h⟩).toInt = ((min (wordRow x1 r ⟨e.val, h⟩).toInt.toNat 4095 : Nat) : ℤ)
    show (x1 (ix2 r ⟨e.val, h⟩)).toInt = ((min (x1 (ix2 r ⟨e.val, h⟩)).toInt.toNat 4095 : Nat) : ℤ)
    omega
  · rw [dif_neg h, dif_neg h]
    have hk : e.val - 262144 < 4096 := by have := e.isLt; omega
    rw [toInt_ofNat_lt _ hk]
    refine ⟨rfl, ?_, ?_⟩ <;> omega
theorem v5_word (hr : InRange x1) (e : Fin 266240) :
    (val_main_v5 (F := Ideal) x1 (ix1 e)).toInt = ((rowOf x1 e).val : ℤ)
      ∧ 0 ≤ (val_main_v5 (F := Ideal) x1 (ix1 e)).toInt ∧ (val_main_v5 (F := Ideal) x1 (ix1 e)).toInt < 4096 :=
  ext_word x1 0 hr e _ (v5_apply x1 e)
theorem v6_word (hr : InRange x1) (e : Fin 266240) :
    (val_main_v6 (F := Ideal) x1 (ix1 e)).toInt = ((colOf x1 e).val : ℤ)
      ∧ 0 ≤ (val_main_v6 (F := Ideal) x1 (ix1 e)).toInt ∧ (val_main_v6 (F := Ideal) x1 (ix1 e)).toInt < 4096 :=
  ext_word x1 1 hr e _ (v6_apply x1 e)
theorem cap_eq {w : BitVec 32} {k : Fin 4096} (h : w.toInt = (k.val : ℤ)) :
    (⟨min w.toInt.toNat (4096 - 1), by omega⟩ : Fin 4096) = k := by
  apply Fin.ext
  show min w.toInt.toNat (4096 - 1) = k.val
  have := k.isLt
  omega
theorem v11_apply (hr : InRange x1) (c : Fin 4096) :
    val_main_v11 (F := Ideal) x1 x2 (ix1 c) = degOf (colOf x1) (ewOf x2) c := by
  unfold val_main_v11
  rw [scatterAdd_vec scatter_S4096_S266240x1_S266240_n_0_0_1 rfl rfl rfl rfl, val_main_v9_apply, val_main_cst_0_apply]
  show Ideal.ofBits .f32 0x00000000#32 + _ = _
  rw [ofBits_zero_f32, zero_add]
  unfold degOf
  refine Finset.sum_congr (Finset.filter_congr fun e _ => ?_) (fun e _ => v8_apply x2 e)
  rw [val_main_v10_apply]
  have hw := (v6_word x1 hr e).1
  have hi : idx_main_v10 (ix2 e (0 : Fin 1)) = ix1 e := funext fun a => by
    have ha : a = 0 := Subsingleton.elim _ _
    subst ha; rfl
  rw [hi, hw]
  constructor
  · intro h; exact Fin.ext (by exact_mod_cast h)
  · intro h; rw [h]
theorem v15_apply (hr : InRange x1) (c : Fin 4096) :
    val_main_v15 (F := Ideal) x1 x2 (ix1 c) = dinvOf (degOf (colOf x1) (ewOf x2)) c := by
  rw [val_main_v15_apply, val_main_v13_apply, val_main_v14_apply, val_main_call0_v1_apply, val_main_call0_v0_apply,
    val_main_cst_2_apply, val_main_v12_apply, val_main_cst_1_apply, v11_apply x1 x2 hr c]
  rw [Ideal.cmpf_def, Ideal.hostUnary_rsqrt_def, Ideal.ofBits_def, ofBits_zero_f32, select_ogt]
  rfl
theorem v20_apply (hr : InRange x1) (e : Fin 266240) :
    val_main_v20 (F := Ideal) x1 (ix1 e) = val_main_v5 (F := Ideal) x1 (ix1 e) := by
  rw [val_main_v20_apply, val_main_v17_apply, val_main_v19_apply, val_main_v16_apply, val_main_c_apply,
    val_main_v18_apply, val_main_c_3_apply]
  exact wrap_word _ (v5_word x1 hr e).2.1
theorem v28_apply (hr : InRange x1) (e : Fin 266240) :
    val_main_v28 (F := Ideal) x1 (ix1 e) = val_main_v6 (F := Ideal) x1 (ix1 e) := by
  rw [val_main_v28_apply, val_main_v25_apply, val_main_v27_apply, val_main_v24_apply, val_main_c_4_apply,
    val_main_v26_apply, val_main_c_5_apply]
  exact wrap_word _ (v6_word x1 hr e).2.1
theorem v38_apply (hr : InRange x1) (e : Fin 266240) :
    val_main_v38 (F := Ideal) x1 (ix1 e) = val_main_v5 (F := Ideal) x1 (ix1 e) := by
  rw [val_main_v38_apply, val_main_v35_apply, val_main_v37_apply, val_main_v34_apply, val_main_c_6_apply,
    val_main_v36_apply, val_main_c_7_apply]
  exact wrap_word _ (v5_word x1 hr e).2.1
theorem col_idx (e : Fin 266240) : idx_main_v21 (ix2 e (0 : Fin 1)) = ix1 e := funext fun a => by
  have ha : a = 0 := Subsingleton.elim _ _
  subst ha; rfl
theorem v22_apply (hr : InRange x1) (e : Fin 266240) :
    val_main_v22 (F := Ideal) x1 x2 (ix1 e) = dinvOf (degOf (colOf x1) (ewOf x2)) (rowOf x1 e) := by
  have key : (val_main_v21 (F := Ideal) x1 (ix2 e (0 : Fin 1))).toInt = ((rowOf x1 e).val : ℤ) := by
    rw [val_main_v21_apply, show idx_main_v21 (ix2 e (0 : Fin 1)) = ix1 e from col_idx e, v20_apply x1 hr e]
    exact (v5_word x1 hr e).1
  unfold val_main_v22
  rw [gather_vec gather_S4096_S266240x1_S266240_n_0_n_n_0_1_1 rfl rfl rfl rfl rfl rfl _ _ e (by decide), cap_eq key]
  exact v15_apply x1 x2 hr _
theorem v30_apply (hr : InRange x1) (e : Fin 266240) :
    val_main_v30 (F := Ideal) x1 x2 (ix1 e) = dinvOf (degOf (colOf x1) (ewOf x2)) (colOf x1 e) := by
  have key : (val_main_v29 (F := Ideal) x1 (ix2 e (0 : Fin 1))).toInt = ((colOf x1 e).val : ℤ) := by
    rw [val_main_v29_apply, show idx_main_v29 (ix2 e (0 : Fin 1)) = ix1 e from col_idx e, v28_apply x1 hr e]
    exact (v6_word x1 hr e).1
  unfold val_main_v30
  rw [gather_vec gather_S4096_S266240x1_S266240_n_0_n_n_0_1_1 rfl rfl rfl rfl rfl rfl _ _ e (by decide), cap_eq key]
  exact v15_apply x1 x2 hr _
theorem v31_apply (hr : InRange x1) (e : Fin 266240) :
    val_main_v31 (F := Ideal) x1 x2 (ix1 e) = normOf (rowOf x1) (colOf x1) (ewOf x2) e := by
  rw [val_main_v31_apply, val_main_v23_apply, v22_apply x1 x2 hr e, v30_apply x1 x2 hr e, v8_apply x2 e]
  rfl
end
end Cert.RefValue
end
-- ==== Proof.RefValue.GcnTail.lean ====
import proofs.«403157_j14328010899645_2_alg».proof.Proof.RefLib
import Mathlib.Algebra.BigOperators.Group.Finset.Basic
namespace Cert.RefLib
open Idealize.ShloMosaic Idealize.ShloMosaic.ValueIdx Cert.LibGatherScatter
theorem capped_eq {N : Nat} {w : BitVec 32} {k : Fin N} (h : w.toInt = (k.val : ℤ)) (hlt : min w.toInt.toNat (N - 1) < N) :
    (⟨min w.toInt.toNat (N - 1), hlt⟩ : Fin N) = k := by
  apply Fin.ext
  show min w.toInt.toNat (N - 1) = k.val
  have := k.isLt
  omega
theorem gcn_tail {N n D : Nat} (hN : 0 < N)
    (gd : GatherDims ⟨2, ![N, D]⟩ ⟨2, ![n, 1]⟩ ⟨2, ![n, D]⟩)
    (hoff : gd.offsetDims = [1]) (hcoll : gd.collapsedSliceDims = [0]) (hob : gd.operandBatchingDims = [])
    (hsim : gd.startIndexMap = [0]) (hivd : gd.indexVectorDim = 1) (hss : gd.sliceSizes = ![1, D])
    (sd : ScatterDims ⟨2, ![N, D]⟩ ⟨2, ![n, 1]⟩ ⟨2, ![n, D]⟩)
    (huw : sd.updateWindowDims = [1]) (hins : sd.insertedWindowDims = [0]) (hsd : sd.scatterDimsToOperandDims = [0])
    (hivd' : sd.indexVectorDim = 1)
    (row col : Fin n → Fin N) (w : Fin n → EReal)
    (Z : FVec Ideal ⟨2, ![N, D]⟩ .f32) (hZ : ∀ i, Z i = 0)
    (Wb : FVec Ideal ⟨2, ![n, D]⟩ .f32) (hWb : ∀ e j, Wb (ix2 e j) = w e)
    (Ig Is : IVec ⟨2, ![n, 1]⟩ 32)
    (hIg : ∀ e, (Ig (ix2 e (0 : Fin 1))).toInt = ((row e).val : ℤ))
    (hIs : ∀ e, (Is (ix2 e (0 : Fin 1))).toInt = ((col e).val : ℤ))
    (H B : FVec Ideal ⟨2, ![N, D]⟩ .f32) (i : Fin N) (j : Fin D) :
    addf (Host.scatterAdd sd Z Is (mulf Wb (Host.gather gd H Ig))) B (ix2 i j)
      = (∑ e ∈ Finset.univ.filter (fun e => col e = i), w e * H (ix2 (row e) j)) + B (ix2 i j) := by
  rw [addf_apply, scatterAdd_rows sd huw hins hsd hivd', hZ, zero_add]
  congr 1
  refine Finset.sum_congr (Finset.filter_congr fun e _ => ?_) (fun e _ => ?_)
  · rw [hIs e]
    constructor
    · intro h; exact Fin.ext (by exact_mod_cast h)
    · intro h; rw [h]
  · rw [mulf_apply, hWb, gather_rows gd hoff hcoll hob hsim hivd hss H Ig e j hN, capped_eq (hIg e)]
end Cert.RefLib
-- ==== Proof.RefValue.Gcn1.lean ====
import proofs.«403157_j14328010899645_2_alg».proof.Proof.RefRead
import proofs.«403157_j14328010899645_2_alg».proof.Proof.RefLib
import proofs.«403157_j14328010899645_2_alg».proof.Proof.Spec.RefSpec
import proofs.«403157_j14328010899645_2_alg».proof.Proof.RefValue.Edges
import proofs.«403157_j14328010899645_2_alg».proof.Proof.RefValue.GcnTail
noncomputable section
namespace Cert.RefValue
open Cert.ReferenceIdeal Cert.ReferenceIdeal.Gen Cert.ReferenceIdeal.Read Idealize.ShloMosaic Idealize.ShloMosaic.ValueIdx
open Cert.Spec Cert.RefLib Cert.LibGatherScatter
theorem idx2_ext {n0 n1 : Nat} (f g : (⟨2, ![n0, n1]⟩ : Shape).Idx) (h0 : (f 0).val = (g 0).val)
    (h1 : (f 1).val = (g 1).val) : f = g :=
  funext fun a => match a with
    | ⟨0, _⟩ => Fin.ext h0
    | ⟨1, _⟩ => Fin.ext h1
theorem idx1_ext {n : Nat} (f g : (⟨1, ![n]⟩ : Shape).Idx) (h0 : (f 0).val = (g 0).val) : f = g :=
  funext fun a => by
    have ha : a = 0 := Subsingleton.elim _ _
    subst ha; exact Fin.ext h0
section
variable (x0 : (⟨S4096x256, .f32⟩ : BufTy).Contents (Elt Ideal)) (x1 : (⟨S2x262144, .i32⟩ : BufTy).Contents (Elt Ideal))
  (x2 : (⟨S262144, .f32⟩ : BufTy).Contents (Elt Ideal)) (x3 : (⟨S256x256, .f32⟩ : BufTy).Contents (Elt Ideal))
  (x4 : (⟨S256, .f32⟩ : BufTy).Contents (Elt Ideal))
theorem v32_at (k : Fin 4096) (j : Fin 256) :
    val_main_v32 (F := Ideal) x0 x3 (ix2 k j) = ∑ t : Fin 256, x0 (ix2 k t) * x3 (ix2 t j) := by
  rw [val_main_v32_apply]
  refine Finset.sum_congr rfl fun t _ => ?_
  rw [show lidx_main_v32 (ix2 k j) t = ix2 k t from idx2_ext _ _ rfl rfl,
    show ridx_main_v32 (ix2 k j) t = ix2 t j from idx2_ext _ _ rfl rfl]
theorem v43_zero (i : S4096x256.Idx) : val_main_v43 (F := Ideal) i = 0 := by
  rw [val_main_v43_apply, val_main_cst_8_apply, Ideal.ofBits_def, ofBits_zero_f32]
theorem v41_at (hr : InRange x1) (e : Fin 266240) (j : Fin 256) :
    val_main_v41 (F := Ideal) x1 x2 (ix2 e j) = normOf (rowOf x1) (colOf x1) (ewOf x2) e := by
  rw [val_main_v41_apply, val_main_v33_apply,
    show idx_main_v33 (idx_main_v41 (ix2 e j)) = ix1 e from idx1_ext _ _ rfl]
  exact v31_apply x1 x2 hr e
theorem v39_at (hr : InRange x1) (e : Fin 266240) :
    (val_main_v39 (F := Ideal) x1 (ix2 e (0 : Fin 1))).toInt = ((rowOf x1 e).val : ℤ) := by
  rw [val_main_v39_apply, show idx_main_v39 (ix2 e (0 : Fin 1)) = ix1 e from idx1_ext _ _ rfl, v38_apply x1 hr e]
  exact (v5_word x1 hr e).1
theorem v44_at (hr : InRange x1) (e : Fin 266240) :
    (val_main_v44 (F := Ideal) x1 (ix2 e (0 : Fin 1))).toInt = ((colOf x1 e).val : ℤ) := by
  rw [val_main_v44_apply, show idx_main_v44 (ix2 e (0 : Fin 1)) = ix1 e from idx1_ext _ _ rfl]
  exact (v6_word x1 hr e).1
theorem v47_at (i : Fin 4096) (j : Fin 256) : val_main_v47 (F := Ideal) x4 (ix2 i j) = x4 (ix1 j) := by
  rw [val_main_v47_apply, val_main_v46_apply]
  exact congrArg x4 (idx1_ext _ _ rfl)
theorem gcn1 (hr : InRange x1) (i : Fin 4096) (j : Fin 256) :
    val_main_v48 (F := Ideal) x0 x1 x2 x3 x4 (ix2 i j)
      = gcnRef (rowOf x1) (colOf x1) (normOf (rowOf x1) (colOf x1) (ewOf x2)) (fun k t => x0 (ix2 k t))
          (fun t j => x3 (ix2 t j)) (fun j => x4 (ix1 j)) i j := by
  unfold val_main_v48 val_main_v45 val_main_v42 val_main_v40
  refine (gcn_tail (by decide) gather_S4096x256_S266240x1_S266240x256_1_0_n_n_0_1_1256 rfl rfl rfl rfl rfl rfl
    scatter_S4096x256_S266240x1_S266240x256_1_0_0_1 rfl rfl rfl rfl (rowOf x1) (colOf x1)
    (normOf (rowOf x1) (colOf x1) (ewOf x2)) _ v43_zero _ (v41_at x1 x2 hr) _ _ (v39_at x1 hr) (v44_at x1 hr)
    _ _ i j).trans ?_
  unfold gcnRef
  rw [v47_at]
  exact congrArg₂ (· + ·) (Finset.sum_congr rfl fun e _ => by rw [v32_at]) rfl
end
end Cert.RefValue
end
-- ==== Proof.RefValue.Again.lean ====
import proofs.«403157_j14328010899645_2_alg».proof.Proof.RefRead
import proofs.«403157_j14328010899645_2_alg».proof.Proof.RefLib
import proofs.«403157_j14328010899645_2_alg».proof.Proof.Spec.RefSpec
noncomputable section
namespace Cert.RefValue
open Cert.ReferenceIdeal Cert.ReferenceIdeal.Gen Cert.ReferenceIdeal.Read Idealize.ShloMosaic Idealize.ShloMosaic.ValueIdx
open Cert.Spec Cert.RefLib Cert.LibGatherScatter
section
variable (x1 : (⟨S2x262144, .i32⟩ : BufTy).Contents (Elt Ideal)) (x2 : (⟨S262144, .f32⟩ : BufTy).Contents (Elt Ideal))
theorem v92_eq : val_main_v92 (F := Ideal) x1 = val_main_v6 (F := Ideal) x1 := rfl
theorem v124_eq : val_main_v124 (F := Ideal) x1 = val_main_v38 (F := Ideal) x1 := rfl
theorem v117_eq : val_main_v117 (F := Ideal) x1 x2 = val_main_v31 (F := Ideal) x1 x2 := rfl
theorem v178_eq : val_main_v178 (F := Ideal) x1 = val_main_v6 (F := Ideal) x1 := rfl
theorem v210_eq : val_main_v210 (F := Ideal) x1 = val_main_v38 (F := Ideal) x1 := rfl
theorem v203_eq : val_main_v203 (F := Ideal) x1 x2 = val_main_v31 (F := Ideal) x1 x2 := rfl
end
end Cert.RefValue
end
-- ==== Proof.RefValue.Gcn2.lean ====
import proofs.«403157_j14328010899645_2_alg».proof.Proof.RefRead
import proofs.«403157_j14328010899645_2_alg».proof.Proof.RefLib
import proofs.«403157_j14328010899645_2_alg».proof.Proof.Spec.RefSpec
import proofs.«403157_j14328010899645_2_alg».proof.Proof.RefValue.Edges
import proofs.«403157_j14328010899645_2_alg».proof.Proof.RefValue.GcnTail
import proofs.«403157_j14328010899645_2_alg».proof.Proof.RefValue.Gcn1
import proofs.«403157_j14328010899645_2_alg».proof.Proof.RefValue.Again
noncomputable section
namespace Cert.RefValue
open Cert.ReferenceIdeal Cert.ReferenceIdeal.Gen Cert.ReferenceIdeal.Read Idealize.ShloMosaic Idealize.ShloMosaic.ValueIdx
open Cert.Spec Cert.RefLib Cert.LibGatherScatter
section
variable (x0 : (⟨S4096x256, .f32⟩ : BufTy).Contents (Elt Ideal)) (x1 : (⟨S2x262144, .i32⟩ : BufTy).Contents (Elt Ideal))
  (x2 : (⟨S262144, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S256x128, .f32⟩ : BufTy).Contents (Elt Ideal))
  (x8 : (⟨S128, .f32⟩ : BufTy).Contents (Elt Ideal)) (x9 : (⟨S768x256, .f32⟩ : BufTy).Contents (Elt Ideal))
  (x10 : (⟨S768, .f32⟩ : BufTy).Contents (Elt Ideal)) (x11 : (⟨S256x256, .f32⟩ : BufTy).Contents (Elt Ideal))
  (x12 : (⟨S256, .f32⟩ : BufTy).Contents (Elt Ideal))
theorem v118_at (k : Fin 4096) (j : Fin 256) :
    val_main_v118 (F := Ideal) x0 x1 x2 x3 x4 x5 x9 x10 x11 x12 (ix2 k j)
      = ∑ t : Fin 256, val_main_v85 (F := Ideal) x0 x1 x2 x3 x4 x9 x10 x11 x12 (ix2 k t) * x5 (ix2 t j) := by
  rw [val_main_v118_apply]
  refine Finset.sum_congr rfl fun t _ => ?_
  rw [show lidx_main_v118 (ix2 k j) t = ix2 k t from idx2_ext _ _ rfl rfl,
    show ridx_main_v118 (ix2 k j) t = ix2 t j from idx2_ext _ _ rfl rfl]
theorem v129_zero (i : S4096x256.Idx) : val_main_v129 (F := Ideal) i = 0 := by
  rw [val_main_v129_apply, val_main_cst_23_apply, Ideal.ofBits_def, ofBits_zero_f32]
theorem v127_at (hr : InRange x1) (e : Fin 266240) (j : Fin 256) :
    val_main_v127 (F := Ideal) x1 x2 (ix2 e j) = normOf (rowOf x1) (colOf x1) (ewOf x2) e := by
  rw [val_main_v127_apply, val_main_v119_apply,
    show idx_main_v119 (idx_main_v127 (ix2 e j)) = ix1 e from idx1_ext _ _ rfl, v117_eq]
  exact v31_apply x1 x2 hr e
theorem v125_at (hr : InRange x1) (e : Fin 266240) :
    (val_main_v125 (F := Ideal) x1 (ix2 e (0 : Fin 1))).toInt = ((rowOf x1 e).val : ℤ) := by
  rw [val_main_v125_apply, show idx_main_v125 (ix2 e (0 : Fin 1)) = ix1 e from idx1_ext _ _ rfl, v124_eq,
    v38_apply x1 hr e]
  exact (v5_word x1 hr e).1
theorem v130_at (hr : InRange x1) (e : Fin 266240) :
    (val_main_v130 (F := Ideal) x1 (ix2 e (0 : Fin 1))).toInt = ((colOf x1 e).val : ℤ) := by
  rw [val_main_v130_apply, show idx_main_v130 (ix2 e (0 : Fin 1)) = ix1 e from idx1_ext _ _ rfl, v92_eq]
  exact (v6_word x1 hr e).1
theorem v133_at (i : Fin 4096) (j : Fin 256) : val_main_v133 (F := Ideal) x6 (ix2 i j) = x6 (ix1 j) := by
  rw [val_main_v133_apply, val_main_v132_apply]
  exact congrArg x6 (idx1_ext _ _ rfl)
theorem gcn2 (hr : InRange x1) (i : Fin 4096) (j : Fin 256) :
    val_main_v134 (F := Ideal) x0 x1 x2 x3 x4 x5 x6 x9 x10 x11 x12 (ix2 i j)
      = gcnRef (rowOf x1) (colOf x1) (normOf (rowOf x1) (colOf x1) (ewOf x2))
          (fun k t => val_main_v85 (F := Ideal) x0 x1 x2 x3 x4 x9 x10 x11 x12 (ix2 k t))
          (fun t j => x5 (ix2 t j)) (fun j => x6 (ix1 j)) i j := by
  unfold val_main_v134 val_main_v131 val_main_v128 val_main_v126
  refine (gcn_tail (by decide) gather_S4096x256_S266240x1_S266240x256_1_0_n_n_0_1_1256 rfl rfl rfl rfl rfl rfl
    scatter_S4096x256_S266240x1_S266240x256_1_0_0_1 rfl rfl rfl rfl (rowOf x1) (colOf x1)
    (normOf (rowOf x1) (colOf x1) (ewOf x2)) _ v129_zero _ (v127_at x1 x2 hr) _ _ (v125_at x1 hr) (v130_at x1 hr)
    _ _ i j).trans ?_
  unfold gcnRef
  rw [v133_at]
  exact congrArg₂ (· + ·) (Finset.sum_congr rfl fun e _ => by rw [v118_at]) rfl
end
end Cert.RefValue
end
-- ==== Proof.RefValue.Gcn3.lean ====
import proofs.«403157_j14328010899645_2_alg».proof.Proof.RefRead
import proofs.«403157_j14328010899645_2_alg».proof.Proof.RefLib
import proofs.«403157_j14328010899645_2_alg».proof.Proof.Spec.RefSpec
import proofs.«403157_j14328010899645_2_alg».proof.Proof.RefValue.Edges
import proofs.«403157_j14328010899645_2_alg».proof.Proof.RefValue.GcnTail
import proofs.«403157_j14328010899645_2_alg».proof.Proof.RefValue.Gcn1
import proofs.«403157_j14328010899645_2_alg».proof.Proof.RefValue.Again
noncomputable section
namespace Cert.RefValue
open Cert.ReferenceIdeal Cert.ReferenceIdeal.Gen Cert.ReferenceIdeal.Read Idealize.ShloMosaic Idealize.ShloMosaic.ValueIdx
open Cert.Spec Cert.RefLib Cert.LibGatherScatter
section
variable (x0 : (⟨S4096x256, .f32⟩ : BufTy).Contents (Elt Ideal)) (x1 : (⟨S2x262144, .i32⟩ : BufTy).Contents (Elt Ideal))
  (x2 : (⟨S262144, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S256x128, .f32⟩ : BufTy).Contents (Elt Ideal))
  (x8 : (⟨S128, .f32⟩ : BufTy).Contents (Elt Ideal)) (x9 : (⟨S768x256, .f32⟩ : BufTy).Contents (Elt Ideal))
  (x10 : (⟨S768, .f32⟩ : BufTy).Contents (Elt Ideal)) (x11 : (⟨S256x256, .f32⟩ : BufTy).Contents (Elt Ideal))
  (x12 : (⟨S256, .f32⟩ : BufTy).Contents (Elt Ideal))
theorem v204_at (k : Fin 4096) (j : Fin 128) :
    val_main_v204 (F := Ideal) x0 x1 x2 x3 x4 x5 x6 x7 x9 x10 x11 x12 (ix2 k j)
      = ∑ t : Fin 256, val_main_v171 (F := Ideal) x0 x1 x2 x3 x4 x5 x6 x9 x10 x11 x12 (ix2 k t) * x7 (ix2 t j) := by
  rw [val_main_v204_apply]
  refine Finset.sum_congr rfl fun t _ => ?_
  rw [show lidx_main_v204 (ix2 k j) t = ix2 k t from idx2_ext _ _ rfl rfl,
    show ridx_main_v204 (ix2 k j) t = ix2 t j from idx2_ext _ _ rfl rfl]
theorem v215_zero (i : S4096x128.Idx) : val_main_v215 (F := Ideal) i = 0 := by
  rw [val_main_v215_apply, val_main_cst_38_apply, Ideal.ofBits_def, ofBits_zero_f32]
theorem v213_at (hr : InRange x1) (e : Fin 266240) (j : Fin 128) :
    val_main_v213 (F := Ideal) x1 x2 (ix2 e j) = normOf (rowOf x1) (colOf x1) (ewOf x2) e := by
  rw [val_main_v213_apply, val_main_v205_apply,
    show idx_main_v205 (idx_main_v213 (ix2 e j)) = ix1 e from idx1_ext _ _ rfl, v203_eq]
  exact v31_apply x1 x2 hr e
theorem v211_at (hr : InRange x1) (e : Fin 266240) :
    (val_main_v211 (F := Ideal) x1 (ix2 e (0 : Fin 1))).toInt = ((rowOf x1 e).val : ℤ) := by
  rw [val_main_v211_apply, show idx_main_v211 (ix2 e (0 : Fin 1)) = ix1 e from idx1_ext _ _ rfl, v210_eq,
    v38_apply x1 hr e]
  exact (v5_word x1 hr e).1
theorem v216_at (hr : InRange x1) (e : Fin 266240) :
    (val_main_v216 (F := Ideal) x1 (ix2 e (0 : Fin 1))).toInt = ((colOf x1 e).val : ℤ) := by
  rw [val_main_v216_apply, show idx_main_v216 (ix2 e (0 : Fin 1)) = ix1 e from idx1_ext _ _ rfl, v178_eq]
  exact (v6_word x1 hr e).1
theorem v219_at (i : Fin 4096) (j : Fin 128) : val_main_v219 (F := Ideal) x8 (ix2 i j) = x8 (ix1 j) := by
  rw [val_main_v219_apply, val_main_v218_apply]
  exact congrArg x8 (idx1_ext _ _ rfl)
theorem gcn3 (hr : InRange x1) (i : Fin 4096) (j : Fin 128) :
    val_main_v220 (F := Ideal) x0 x1 x2 x3 x4 x5 x6 x7 x8 x9 x10 x11 x12 (ix2 i j)
      = gcnRef (rowOf x1) (colOf x1) (normOf (rowOf x1) (colOf x1) (ewOf x2))
          (fun k t => val_main_v171 (F := Ideal) x0 x1 x2 x3 x4 x5 x6 x9 x10 x11 x12 (ix2 k t))
          (fun t j => x7 (ix2 t j)) (fun j => x8 (ix1 j)) i j := by
  unfold val_main_v220 val_main_v217 val_main_v214 val_main_v212
  refine (gcn_tail (by decide) gather_S4096x128_S266240x1_S266240x128_1_0_n_n_0_1_1128 rfl rfl rfl rfl rfl rfl
    scatter_S4096x128_S266240x1_S266240x128_1_0_0_1 rfl rfl rfl rfl (rowOf x1) (colOf x1)
    (normOf (rowOf x1) (colOf x1) (ewOf x2)) _ v215_zero _ (v213_at x1 x2 hr) _ _ (v211_at x1 hr) (v216_at x1 hr)
    _ _ i j).trans ?_
  unfold gcnRef
  rw [v219_at]
  exact congrArg₂ (· + ·) (Finset.sum_congr rfl fun e _ => by rw [v204_at]) rfl
end
end Cert.RefValue
end
-- ==== Proof.RefValue.Mha1.lean ====
import proofs.«403157_j14328010899645_2_alg».proof.Proof.RefRead
import proofs.«403157_j14328010899645_2_alg».proof.Proof.Spec.RefSpec
import proofs.«403157_j14328010899645_2_alg».proof.Proof.RefLib
set_option maxRecDepth 8192
namespace Cert.RefValue
open Cert.ReferenceIdeal Cert.ReferenceIdeal.Gen Cert.ReferenceIdeal.Read Idealize.ShloMosaic Idealize.ShloMosaic.ValueIdx Cert.Spec Cert.RefLib
open scoped BigOperators
section Block1
variable (x0 : (⟨S4096x256, .f32⟩ : BufTy).Contents (Elt Ideal)) (x1 : (⟨S2x262144, .i32⟩ : BufTy).Contents (Elt Ideal))
  (x2 : (⟨S262144, .f32⟩ : BufTy).Contents (Elt Ideal)) (x3 : (⟨S256x256, .f32⟩ : BufTy).Contents (Elt Ideal))
  (x4 : (⟨S256, .f32⟩ : BufTy).Contents (Elt Ideal)) (x9 : (⟨S768x256, .f32⟩ : BufTy).Contents (Elt Ideal))
  (x10 : (⟨S768, .f32⟩ : BufTy).Contents (Elt Ideal)) (x11 : (⟨S256x256, .f32⟩ : BufTy).Contents (Elt Ideal))
  (x12 : (⟨S256, .f32⟩ : BufTy).Contents (Elt Ideal))
theorem a1_qkv_apply (l : Fin 4096) (c : Fin 768) :
    val_main_v53 (F := Ideal) x0 x1 x2 x3 x4 x9 x10 (ix2 l c)
      = qkvOf (fun i t => val_main_v48 (F := Ideal) x0 x1 x2 x3 x4 (ix2 i t)) (fun c t => x9 (ix2 c t)) (fun c => x10 (ix1 c)) l c := by
  have e1 : ∀ k : Fin 256, lidx_main_v50 (ix2 l c) k = ix2 l k := fun k => funext fun a => by
    match a with | ⟨0, _⟩ => rfl | ⟨1, _⟩ => rfl
  have e2 : ∀ k : Fin 256, idx_main_v49 (ridx_main_v50 (ix2 l c) k) = ix2 c k := fun k => funext fun a => by
    match a with | ⟨0, _⟩ => rfl | ⟨1, _⟩ => rfl
  have e3 : idx_main_v51 (idx_main_v52 (ix2 l c)) = ix1 c := funext fun a => by
    match a with | ⟨0, _⟩ => rfl
  rw [val_main_v53_apply, val_main_v50_apply, val_main_v52_apply, val_main_v51_apply, e3]
  simp only [val_main_v49_apply, e1, e2, Ideal.addf_def]
  rfl
theorem a1_q_apply (hd : Fin 4) (l : Fin 4096) (d : Fin 64) :
    val_main_v58 (F := Ideal) x0 x1 x2 x3 x4 x9 x10 (ix3 hd l d)
      = val_main_v53 (F := Ideal) x0 x1 x2 x3 x4 x9 x10 (ix2 l (third 0 (headCol hd d))) := by
  rw [val_main_v58_apply, val_main_v57_apply, val_main_v54_apply]
  refine congrArg _ (funext fun a => ?_)
  have h1 := hd.isLt; have h2 := l.isLt; have h3 := d.isLt
  match a with
  | ⟨0, _⟩ => exact Fin.ext (by show ((l.val * 4 + hd.val) * 64 + d.val) / 256 = l.val; omega)
  | ⟨1, _⟩ => exact Fin.ext (by show ((l.val * 4 + hd.val) * 64 + d.val) % 256 = 0 * 256 + (hd.val * 64 + d.val); omega)
theorem a1_k_apply (hd : Fin 4) (l : Fin 4096) (d : Fin 64) :
    val_main_v60 (F := Ideal) x0 x1 x2 x3 x4 x9 x10 (ix3 hd l d)
      = val_main_v53 (F := Ideal) x0 x1 x2 x3 x4 x9 x10 (ix2 l (third 1 (headCol hd d))) := by
  rw [val_main_v60_apply, val_main_v59_apply, val_main_v55_apply]
  refine congrArg _ (funext fun a => ?_)
  have h1 := hd.isLt; have h2 := l.isLt; have h3 := d.isLt
  match a with
  | ⟨0, _⟩ => exact Fin.ext (by show ((l.val * 4 + hd.val) * 64 + d.val) / 256 = l.val; omega)
  | ⟨1, _⟩ => exact Fin.ext (by show 256 + ((l.val * 4 + hd.val) * 64 + d.val) % 256 = 1 * 256 + (hd.val * 64 + d.val); omega)
theorem a1_v_apply (hd : Fin 4) (l : Fin 4096) (d : Fin 64) :
    val_main_v62 (F := Ideal) x0 x1 x2 x3 x4 x9 x10 (ix3 hd l d)
      = val_main_v53 (F := Ideal) x0 x1 x2 x3 x4 x9 x10 (ix2 l (third 2 (headCol hd d))) := by
  rw [val_main_v62_apply, val_main_v61_apply, val_main_v56_apply]
  refine congrArg _ (funext fun a => ?_)
  have h1 := hd.isLt; have h2 := l.isLt; have h3 := d.isLt
  match a with
  | ⟨0, _⟩ => exact Fin.ext (by show ((l.val * 4 + hd.val) * 64 + d.val) / 256 = l.val; omega)
  | ⟨1, _⟩ => exact Fin.ext (by show 512 + ((l.val * 4 + hd.val) * 64 + d.val) % 256 = 2 * 256 + (hd.val * 64 + d.val); omega)
theorem a1_score_apply (hd : Fin 4) (l m : Fin 4096) :
    val_main_v65 (F := Ideal) x0 x1 x2 x3 x4 x9 x10 (ix3 hd l m)
      = scoreRef (fun hd l d => val_main_v58 (F := Ideal) x0 x1 x2 x3 x4 x9 x10 (ix3 hd l d))
          (fun hd l d => val_main_v60 (F := Ideal) x0 x1 x2 x3 x4 x9 x10 (ix3 hd l d)) hd l m := by
  have e1 : ∀ k : Fin 64, lidx_main_v63 (ix3 hd l m) k = ix3 hd l k := fun k => funext fun a => by
    match a with | ⟨0, _⟩ => rfl | ⟨1, _⟩ => rfl | ⟨2, _⟩ => rfl
  have e2 : ∀ k : Fin 64, ridx_main_v63 (ix3 hd l m) k = ix3 hd m k := fun k => funext fun a => by
    match a with | ⟨0, _⟩ => rfl | ⟨1, _⟩ => rfl | ⟨2, _⟩ => rfl
  rw [val_main_v65_apply, val_main_v63_apply, val_main_v64_apply, val_main_cst_9_apply, Ideal.hostDivf_def, Ideal.ofBits_def,
    ofBits_eight_f32]
  simp only [e1, e2]
  rfl
theorem a1_lift3_eq (h : S4x4096x4096.Reduces [2] S4x4096) (hd : Fin 4) (l : Fin 4096) (k : Fin (S4x4096x4096.size 2)) :
    h.lift (ix2 hd l) k = ix3 hd l k := by
  funext c
  apply Fin.ext
  show h.liftVal (ix2 hd l) k.val c = _
  unfold Shape.Reduces.liftVal
  match c with
  | ⟨0, _⟩ => rfl
  | ⟨1, _⟩ => rfl
  | ⟨2, _⟩ => rfl
theorem a1_rowmax_apply (hd : Fin 4) (l : Fin 4096) :
    val_main_v68 (F := Ideal) x0 x1 x2 x3 x4 x9 x10 (ix2 hd l)
      = Finset.univ.sup (fun m : Fin 4096 => val_main_v65 (F := Ideal) x0 x1 x2 x3 x4 x9 x10 (ix3 hd l m)) := by
  have h : S4x4096x4096.Reduces [2] S4x4096 := by decide
  rw [val_main_v68_apply, val_main_v67_apply, val_main_cst_11_apply, Ideal.maximumf_def, Ideal.ofBits_def, ofBits_neg_inf_f32]
  unfold val_main_v66
  rw [Host.reduce_eq_fold_single FloatOps.maximumf _ _ reducesTo_S4x4096x4096_S4x4096_d2 h h_S_ (ix2 hd l),
    val_main_cst_10_apply, Ideal.ofBits_def, ofBits_neg_inf_f32, max_eq_right bot_le]
  have e : (val_main_v65 (F := Ideal) x0 x1 x2 x3 x4 x9 x10) ∘ h.lift (ix2 hd l)
      = fun m : Fin 4096 => val_main_v65 (F := Ideal) x0 x1 x2 x3 x4 x9 x10 (ix3 hd l m) :=
    funext fun m => show val_main_v65 (F := Ideal) x0 x1 x2 x3 x4 x9 x10 (h.lift (ix2 hd l) m) = _ from
      congrArg (val_main_v65 (F := Ideal) x0 x1 x2 x3 x4 x9 x10) (a1_lift3_eq h hd l m)
  rw [e]
  exact fold_max_eq_sup _
theorem a1_exp_apply (hd : Fin 4) (l m : Fin 4096) :
    val_main_v72 (F := Ideal) x0 x1 x2 x3 x4 x9 x10 (ix3 hd l m)
      = Ideal.exp (val_main_v65 (F := Ideal) x0 x1 x2 x3 x4 x9 x10 (ix3 hd l m)
          - Finset.univ.sup (fun m : Fin 4096 => val_main_v65 (F := Ideal) x0 x1 x2 x3 x4 x9 x10 (ix3 hd l m))) := by
  have e : idx_main_v69 (idx_main_v70 (ix3 hd l m)) = ix2 hd l := funext fun a => by
    match a with | ⟨0, _⟩ => rfl | ⟨1, _⟩ => rfl
  rw [val_main_v72_apply, val_main_v71_apply, val_main_v70_apply, val_main_v69_apply, e, a1_rowmax_apply,
    Ideal.hostUnary_exp_def, Ideal.subf_def]
theorem a1_rowsum_apply (hd : Fin 4) (l : Fin 4096) :
    val_main_v73 (F := Ideal) x0 x1 x2 x3 x4 x9 x10 (ix2 hd l)
      = ∑ k : Fin 4096, val_main_v72 (F := Ideal) x0 x1 x2 x3 x4 x9 x10 (ix3 hd l k) := by
  have e : ∀ k : Fin 4096, idx_main_v73 (ix2 hd l) k = ix3 hd l k := fun k => funext fun a => by
    match a with | ⟨0, _⟩ => rfl | ⟨1, _⟩ => rfl | ⟨2, _⟩ => rfl
  rw [val_main_v73_apply, val_main_cst_12_apply, Ideal.ofBits_def, ofBits_zero_f32, zero_add]
  simp only [e]
theorem a1_softmax_apply (hd : Fin 4) (l m : Fin 4096) :
    val_main_v76 (F := Ideal) x0 x1 x2 x3 x4 x9 x10 (ix3 hd l m)
      = softmaxOf (fun m : Fin 4096 => val_main_v65 (F := Ideal) x0 x1 x2 x3 x4 x9 x10 (ix3 hd l m)) m := by
  have e : idx_main_v74 (idx_main_v75 (ix3 hd l m)) = ix2 hd l := funext fun a => by
    match a with | ⟨0, _⟩ => rfl | ⟨1, _⟩ => rfl
  rw [val_main_v76_apply, val_main_v75_apply, val_main_v74_apply, e, a1_rowsum_apply, Ideal.hostDivf_def]
  simp only [a1_exp_apply]
  rfl
theorem a1_attn_apply (hd : Fin 4) (l : Fin 4096) (d : Fin 64) :
    val_main_v77 (F := Ideal) x0 x1 x2 x3 x4 x9 x10 (ix3 hd l d)
      = attnRef (fun hd l d => val_main_v58 (F := Ideal) x0 x1 x2 x3 x4 x9 x10 (ix3 hd l d))
          (fun hd l d => val_main_v60 (F := Ideal) x0 x1 x2 x3 x4 x9 x10 (ix3 hd l d))
          (fun hd l d => val_main_v62 (F := Ideal) x0 x1 x2 x3 x4 x9 x10 (ix3 hd l d)) hd l d := by
  have e1 : ∀ k : Fin 4096, lidx_main_v77 (ix3 hd l d) k = ix3 hd l k := fun k => funext fun a => by
    match a with | ⟨0, _⟩ => rfl | ⟨1, _⟩ => rfl | ⟨2, _⟩ => rfl
  have e2 : ∀ k : Fin 4096, ridx_main_v77 (ix3 hd l d) k = ix3 hd k d := fun k => funext fun a => by
    match a with | ⟨0, _⟩ => rfl | ⟨1, _⟩ => rfl | ⟨2, _⟩ => rfl
  have es : (fun m : Fin 4096 => val_main_v65 (F := Ideal) x0 x1 x2 x3 x4 x9 x10 (ix3 hd l m))
      = scoreRef (fun hd l d => val_main_v58 (F := Ideal) x0 x1 x2 x3 x4 x9 x10 (ix3 hd l d))
          (fun hd l d => val_main_v60 (F := Ideal) x0 x1 x2 x3 x4 x9 x10 (ix3 hd l d)) hd l :=
    funext fun m => a1_score_apply x0 x1 x2 x3 x4 x9 x10 hd l m
  rw [val_main_v77_apply]
  simp only [e1, e2, a1_softmax_apply, es]
  rfl
theorem a1_merge_apply (l : Fin 4096) (c : Fin 256) :
    val_main_v79 (F := Ideal) x0 x1 x2 x3 x4 x9 x10 (ix2 l c)
      = mergeHeads (fun hd l d => val_main_v77 (F := Ideal) x0 x1 x2 x3 x4 x9 x10 (ix3 hd l d)) l c := by
  rw [val_main_v79_apply, val_main_v78_apply]
  unfold mergeHeads
  refine congrArg _ (funext fun a => ?_)
  have h1 := l.isLt; have h2 := c.isLt
  match a with
  | ⟨0, _⟩ => exact Fin.ext (by show (l.val * 256 + c.val) / 64 % 4 = c.val / 64; omega)
  | ⟨1, _⟩ => exact Fin.ext (by show (l.val * 256 + c.val) / 256 = l.val; omega)
  | ⟨2, _⟩ => exact Fin.ext (by show (l.val * 256 + c.val) % 64 = c.val % 64; omega)
theorem a1_out_apply (l : Fin 4096) (j : Fin 256) :
    val_main_v84 (F := Ideal) x0 x1 x2 x3 x4 x9 x10 x11 x12 (ix2 l j)
      = lin (fun l c => val_main_v79 (F := Ideal) x0 x1 x2 x3 x4 x9 x10 (ix2 l c)) (fun t c => x11 (ix2 c t))
          (fun c => x12 (ix1 c)) l j := by
  have e1 : ∀ k : Fin 256, lidx_main_v81 (ix2 l j) k = ix2 l k := fun k => funext fun a => by
    match a with | ⟨0, _⟩ => rfl | ⟨1, _⟩ => rfl
  have e2 : ∀ k : Fin 256, idx_main_v80 (ridx_main_v81 (ix2 l j) k) = ix2 j k := fun k => funext fun a => by
    match a with | ⟨0, _⟩ => rfl | ⟨1, _⟩ => rfl
  have e3 : idx_main_v82 (idx_main_v83 (ix2 l j)) = ix1 j := funext fun a => by
    match a with | ⟨0, _⟩ => rfl
  rw [val_main_v84_apply, val_main_v81_apply, val_main_v83_apply, val_main_v82_apply, e3]
  simp only [val_main_v80_apply, e1, e2, Ideal.addf_def]
  rfl
theorem mha1 (l : Fin 4096) (j : Fin 256) :
    val_main_v85 (F := Ideal) x0 x1 x2 x3 x4 x9 x10 x11 x12 (ix2 l j)
      = reluOf (mhaRef (fun i t => val_main_v48 (F := Ideal) x0 x1 x2 x3 x4 (ix2 i t)) (fun c t => x9 (ix2 c t))
          (fun c => x10 (ix1 c)) (fun c t => x11 (ix2 c t)) (fun c => x12 (ix1 c))) l j := by
  have hq : (fun hd l d => val_main_v58 (F := Ideal) x0 x1 x2 x3 x4 x9 x10 (ix3 hd l d))
      = headsOf (qkvOf (fun i t => val_main_v48 (F := Ideal) x0 x1 x2 x3 x4 (ix2 i t)) (fun c t => x9 (ix2 c t))
          (fun c => x10 (ix1 c))) 0 :=
    funext fun hd => funext fun l => funext fun d => (a1_q_apply x0 x1 x2 x3 x4 x9 x10 hd l d).trans (a1_qkv_apply x0 x1 x2 x3 x4 x9 x10 l _)
  have hk : (fun hd l d => val_main_v60 (F := Ideal) x0 x1 x2 x3 x4 x9 x10 (ix3 hd l d))
      = headsOf (qkvOf (fun i t => val_main_v48 (F := Ideal) x0 x1 x2 x3 x4 (ix2 i t)) (fun c t => x9 (ix2 c t))
          (fun c => x10 (ix1 c))) 1 :=
    funext fun hd => funext fun l => funext fun d => (a1_k_apply x0 x1 x2 x3 x4 x9 x10 hd l d).trans (a1_qkv_apply x0 x1 x2 x3 x4 x9 x10 l _)
  have hv : (fun hd l d => val_main_v62 (F := Ideal) x0 x1 x2 x3 x4 x9 x10 (ix3 hd l d))
      = headsOf (qkvOf (fun i t => val_main_v48 (F := Ideal) x0 x1 x2 x3 x4 (ix2 i t)) (fun c t => x9 (ix2 c t))
          (fun c => x10 (ix1 c))) 2 :=
    funext fun hd => funext fun l => funext fun d => (a1_v_apply x0 x1 x2 x3 x4 x9 x10 hd l d).trans (a1_qkv_apply x0 x1 x2 x3 x4 x9 x10 l _)
  have ha : (fun hd l d => val_main_v77 (F := Ideal) x0 x1 x2 x3 x4 x9 x10 (ix3 hd l d))
      = attnRef (fun hd l d => val_main_v58 (F := Ideal) x0 x1 x2 x3 x4 x9 x10 (ix3 hd l d))
          (fun hd l d => val_main_v60 (F := Ideal) x0 x1 x2 x3 x4 x9 x10 (ix3 hd l d))
          (fun hd l d => val_main_v62 (F := Ideal) x0 x1 x2 x3 x4 x9 x10 (ix3 hd l d)) :=
    funext fun hd => funext fun l => funext fun d => a1_attn_apply x0 x1 x2 x3 x4 x9 x10 hd l d
  have hm : (fun l c => val_main_v79 (F := Ideal) x0 x1 x2 x3 x4 x9 x10 (ix2 l c))
      = mergeHeads (fun hd l d => val_main_v77 (F := Ideal) x0 x1 x2 x3 x4 x9 x10 (ix3 hd l d)) :=
    funext fun l => funext fun c => a1_merge_apply x0 x1 x2 x3 x4 x9 x10 l c
  rw [val_main_v85_apply, val_main_call1_v0_apply, val_main_call1_cst_apply, Ideal.maximumf_def, Ideal.ofBits_def,
    ofBits_zero_f32, a1_out_apply, hm, ha, hq, hk, hv]
  rfl
end Block1
end Cert.RefValue
-- ==== Proof.RefValue.Mha2.lean ====
import proofs.«403157_j14328010899645_2_alg».proof.Proof.RefRead
import proofs.«403157_j14328010899645_2_alg».proof.Proof.Spec.RefSpec
import proofs.«403157_j14328010899645_2_alg».proof.Proof.RefLib
set_option maxRecDepth 8192
namespace Cert.RefValue
open Cert.ReferenceIdeal Cert.ReferenceIdeal.Gen Cert.ReferenceIdeal.Read Idealize.ShloMosaic Idealize.ShloMosaic.ValueIdx Cert.Spec Cert.RefLib
open scoped BigOperators
section Block2
variable (x0 : (⟨S4096x256, .f32⟩ : BufTy).Contents (Elt Ideal)) (x1 : (⟨S2x262144, .i32⟩ : BufTy).Contents (Elt Ideal))
  (x2 : (⟨S262144, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x9 : (⟨S768x256, .f32⟩ : BufTy).Contents (Elt Ideal))
  (x10 : (⟨S768, .f32⟩ : BufTy).Contents (Elt Ideal)) (x11 : (⟨S256x256, .f32⟩ : BufTy).Contents (Elt Ideal))
  (x12 : (⟨S256, .f32⟩ : BufTy).Contents (Elt Ideal))
theorem a2_qkv_apply (l : Fin 4096) (c : Fin 768) :
    val_main_v139 (F := Ideal) x0 x1 x2 x3 x4 x5 x6 x9 x10 x11 x12 (ix2 l c)
      = qkvOf (fun i t => val_main_v134 (F := Ideal) x0 x1 x2 x3 x4 x5 x6 x9 x10 x11 x12 (ix2 i t)) (fun c t => x9 (ix2 c t)) (fun c => x10 (ix1 c)) l c := by
  have e1 : ∀ k : Fin 256, lidx_main_v136 (ix2 l c) k = ix2 l k := fun k => funext fun a => by
    match a with | ⟨0, _⟩ => rfl | ⟨1, _⟩ => rfl
  have e2 : ∀ k : Fin 256, idx_main_v135 (ridx_main_v136 (ix2 l c) k) = ix2 c k := fun k => funext fun a => by
    match a with | ⟨0, _⟩ => rfl | ⟨1, _⟩ => rfl
  have e3 : idx_main_v137 (idx_main_v138 (ix2 l c)) = ix1 c := funext fun a => by
    match a with | ⟨0, _⟩ => rfl
  rw [val_main_v139_apply, val_main_v136_apply, val_main_v138_apply, val_main_v137_apply, e3]
  simp only [val_main_v135_apply, e1, e2, Ideal.addf_def]
  rfl
theorem a2_q_apply (hd : Fin 4) (l : Fin 4096) (d : Fin 64) :
    val_main_v144 (F := Ideal) x0 x1 x2 x3 x4 x5 x6 x9 x10 x11 x12 (ix3 hd l d)
      = val_main_v139 (F := Ideal) x0 x1 x2 x3 x4 x5 x6 x9 x10 x11 x12 (ix2 l (third 0 (headCol hd d))) := by
  rw [val_main_v144_apply, val_main_v143_apply, val_main_v140_apply]
  refine congrArg _ (funext fun a => ?_)
  have h1 := hd.isLt; have h2 := l.isLt; have h3 := d.isLt
  match a with
  | ⟨0, _⟩ => exact Fin.ext (by show ((l.val * 4 + hd.val) * 64 + d.val) / 256 = l.val; omega)
  | ⟨1, _⟩ => exact Fin.ext (by show ((l.val * 4 + hd.val) * 64 + d.val) % 256 = 0 * 256 + (hd.val * 64 + d.val); omega)
theorem a2_k_apply (hd : Fin 4) (l : Fin 4096) (d : Fin 64) :
    val_main_v146 (F := Ideal) x0 x1 x2 x3 x4 x5 x6 x9 x10 x11 x12 (ix3 hd l d)
      = val_main_v139 (F := Ideal) x0 x1 x2 x3 x4 x5 x6 x9 x10 x11 x12 (ix2 l (third 1 (headCol hd d))) := by
  rw [val_main_v146_apply, val_main_v145_apply, val_main_v141_apply]
  refine congrArg _ (funext fun a => ?_)
  have h1 := hd.isLt; have h2 := l.isLt; have h3 := d.isLt
  match a with
  | ⟨0, _⟩ => exact Fin.ext (by show ((l.val * 4 + hd.val) * 64 + d.val) / 256 = l.val; omega)
  | ⟨1, _⟩ => exact Fin.ext (by show 256 + ((l.val * 4 + hd.val) * 64 + d.val) % 256 = 1 * 256 + (hd.val * 64 + d.val); omega)
theorem a2_v_apply (hd : Fin 4) (l : Fin 4096) (d : Fin 64) :
    val_main_v148 (F := Ideal) x0 x1 x2 x3 x4 x5 x6 x9 x10 x11 x12 (ix3 hd l d)
      = val_main_v139 (F := Ideal) x0 x1 x2 x3 x4 x5 x6 x9 x10 x11 x12 (ix2 l (third 2 (headCol hd d))) := by
  rw [val_main_v148_apply, val_main_v147_apply, val_main_v142_apply]
  refine congrArg _ (funext fun a => ?_)
  have h1 := hd.isLt; have h2 := l.isLt; have h3 := d.isLt
  match a with
  | ⟨0, _⟩ => exact Fin.ext (by show ((l.val * 4 + hd.val) * 64 + d.val) / 256 = l.val; omega)
  | ⟨1, _⟩ => exact Fin.ext (by show 512 + ((l.val * 4 + hd.val) * 64 + d.val) % 256 = 2 * 256 + (hd.val * 64 + d.val); omega)
theorem a2_score_apply (hd : Fin 4) (l m : Fin 4096) :
    val_main_v151 (F := Ideal) x0 x1 x2 x3 x4 x5 x6 x9 x10 x11 x12 (ix3 hd l m)
      = scoreRef (fun hd l d => val_main_v144 (F := Ideal) x0 x1 x2 x3 x4 x5 x6 x9 x10 x11 x12 (ix3 hd l d))
          (fun hd l d => val_main_v146 (F := Ideal) x0 x1 x2 x3 x4 x5 x6 x9 x10 x11 x12 (ix3 hd l d)) hd l m := by
  have e1 : ∀ k : Fin 64, lidx_main_v149 (ix3 hd l m) k = ix3 hd l k := fun k => funext fun a => by
    match a with | ⟨0, _⟩ => rfl | ⟨1, _⟩ => rfl | ⟨2, _⟩ => rfl
  have e2 : ∀ k : Fin 64, ridx_main_v149 (ix3 hd l m) k = ix3 hd m k := fun k => funext fun a => by
    match a with | ⟨0, _⟩ => rfl | ⟨1, _⟩ => rfl | ⟨2, _⟩ => rfl
  rw [val_main_v151_apply, val_main_v149_apply, val_main_v150_apply, val_main_cst_24_apply, Ideal.hostDivf_def, Ideal.ofBits_def,
    ofBits_eight_f32]
  simp only [e1, e2]
  rfl
theorem a2_lift3_eq (h : S4x4096x4096.Reduces [2] S4x4096) (hd : Fin 4) (l : Fin 4096) (k : Fin (S4x4096x4096.size 2)) :
    h.lift (ix2 hd l) k = ix3 hd l k := by
  funext c
  apply Fin.ext
  show h.liftVal (ix2 hd l) k.val c = _
  unfold Shape.Reduces.liftVal
  match c with
  | ⟨0, _⟩ => rfl
  | ⟨1, _⟩ => rfl
  | ⟨2, _⟩ => rfl
theorem a2_rowmax_apply (hd : Fin 4) (l : Fin 4096) :
    val_main_v154 (F := Ideal) x0 x1 x2 x3 x4 x5 x6 x9 x10 x11 x12 (ix2 hd l)
      = Finset.univ.sup (fun m : Fin 4096 => val_main_v151 (F := Ideal) x0 x1 x2 x3 x4 x5 x6 x9 x10 x11 x12 (ix3 hd l m)) := by
  have h : S4x4096x4096.Reduces [2] S4x4096 := by decide
  rw [val_main_v154_apply, val_main_v153_apply, val_main_cst_26_apply, Ideal.maximumf_def, Ideal.ofBits_def, ofBits_neg_inf_f32]
  unfold val_main_v152
  rw [Host.reduce_eq_fold_single FloatOps.maximumf _ _ reducesTo_S4x4096x4096_S4x4096_d2 h h_S_ (ix2 hd l),
    val_main_cst_25_apply, Ideal.ofBits_def, ofBits_neg_inf_f32, max_eq_right bot_le]
  have e : (val_main_v151 (F := Ideal) x0 x1 x2 x3 x4 x5 x6 x9 x10 x11 x12) ∘ h.lift (ix2 hd l)
      = fun m : Fin 4096 => val_main_v151 (F := Ideal) x0 x1 x2 x3 x4 x5 x6 x9 x10 x11 x12 (ix3 hd l m) :=
    funext fun m => show val_main_v151 (F := Ideal) x0 x1 x2 x3 x4 x5 x6 x9 x10 x11 x12 (h.lift (ix2 hd l) m) = _ from
      congrArg (val_main_v151 (F := Ideal) x0 x1 x2 x3 x4 x5 x6 x9 x10 x11 x12) (a2_lift3_eq h hd l m)
  rw [e]
  exact fold_max_eq_sup _
theorem a2_exp_apply (hd : Fin 4) (l m : Fin 4096) :
    val_main_v158 (F := Ideal) x0 x1 x2 x3 x4 x5 x6 x9 x10 x11 x12 (ix3 hd l m)
      = Ideal.exp (val_main_v151 (F := Ideal) x0 x1 x2 x3 x4 x5 x6 x9 x10 x11 x12 (ix3 hd l m)
          - Finset.univ.sup (fun m : Fin 4096 => val_main_v151 (F := Ideal) x0 x1 x2 x3 x4 x5 x6 x9 x10 x11 x12 (ix3 hd l m))) := by
  have e : idx_main_v155 (idx_main_v156 (ix3 hd l m)) = ix2 hd l := funext fun a => by
    match a with | ⟨0, _⟩ => rfl | ⟨1, _⟩ => rfl
  rw [val_main_v158_apply, val_main_v157_apply, val_main_v156_apply, val_main_v155_apply, e, a2_rowmax_apply,
    Ideal.hostUnary_exp_def, Ideal.subf_def]
theorem a2_rowsum_apply (hd : Fin 4) (l : Fin 4096) :
    val_main_v159 (F := Ideal) x0 x1 x2 x3 x4 x5 x6 x9 x10 x11 x12 (ix2 hd l)
      = ∑ k : Fin 4096, val_main_v158 (F := Ideal) x0 x1 x2 x3 x4 x5 x6 x9 x10 x11 x12 (ix3 hd l k) := by
  have e : ∀ k : Fin 4096, idx_main_v159 (ix2 hd l) k = ix3 hd l k := fun k => funext fun a => by
    match a with | ⟨0, _⟩ => rfl | ⟨1, _⟩ => rfl | ⟨2, _⟩ => rfl
  rw [val_main_v159_apply, val_main_cst_27_apply, Ideal.ofBits_def, ofBits_zero_f32, zero_add]
  simp only [e]
theorem a2_softmax_apply (hd : Fin 4) (l m : Fin 4096) :
    val_main_v162 (F := Ideal) x0 x1 x2 x3 x4 x5 x6 x9 x10 x11 x12 (ix3 hd l m)
      = softmaxOf (fun m : Fin 4096 => val_main_v151 (F := Ideal) x0 x1 x2 x3 x4 x5 x6 x9 x10 x11 x12 (ix3 hd l m)) m := by
  have e : idx_main_v160 (idx_main_v161 (ix3 hd l m)) = ix2 hd l := funext fun a => by
    match a with | ⟨0, _⟩ => rfl | ⟨1, _⟩ => rfl
  rw [val_main_v162_apply, val_main_v161_apply, val_main_v160_apply, e, a2_rowsum_apply, Ideal.hostDivf_def]
  simp only [a2_exp_apply]
  rfl
theorem a2_attn_apply (hd : Fin 4) (l : Fin 4096) (d : Fin 64) :
    val_main_v163 (F := Ideal) x0 x1 x2 x3 x4 x5 x6 x9 x10 x11 x12 (ix3 hd l d)
      = attnRef (fun hd l d => val_main_v144 (F := Ideal) x0 x1 x2 x3 x4 x5 x6 x9 x10 x11 x12 (ix3 hd l d))
          (fun hd l d => val_main_v146 (F := Ideal) x0 x1 x2 x3 x4 x5 x6 x9 x10 x11 x12 (ix3 hd l d))
          (fun hd l d => val_main_v148 (F := Ideal) x0 x1 x2 x3 x4 x5 x6 x9 x10 x11 x12 (ix3 hd l d)) hd l d := by
  have e1 : ∀ k : Fin 4096, lidx_main_v163 (ix3 hd l d) k = ix3 hd l k := fun k => funext fun a => by
    match a with | ⟨0, _⟩ => rfl | ⟨1, _⟩ => rfl | ⟨2, _⟩ => rfl
  have e2 : ∀ k : Fin 4096, ridx_main_v163 (ix3 hd l d) k = ix3 hd k d := fun k => funext fun a => by
    match a with | ⟨0, _⟩ => rfl | ⟨1, _⟩ => rfl | ⟨2, _⟩ => rfl
  have es : (fun m : Fin 4096 => val_main_v151 (F := Ideal) x0 x1 x2 x3 x4 x5 x6 x9 x10 x11 x12 (ix3 hd l m))
      = scoreRef (fun hd l d => val_main_v144 (F := Ideal) x0 x1 x2 x3 x4 x5 x6 x9 x10 x11 x12 (ix3 hd l d))
          (fun hd l d => val_main_v146 (F := Ideal) x0 x1 x2 x3 x4 x5 x6 x9 x10 x11 x12 (ix3 hd l d)) hd l :=
    funext fun m => a2_score_apply x0 x1 x2 x3 x4 x5 x6 x9 x10 x11 x12 hd l m
  rw [val_main_v163_apply]
  simp only [e1, e2, a2_softmax_apply, es]
  rfl
theorem a2_merge_apply (l : Fin 4096) (c : Fin 256) :
    val_main_v165 (F := Ideal) x0 x1 x2 x3 x4 x5 x6 x9 x10 x11 x12 (ix2 l c)
      = mergeHeads (fun hd l d => val_main_v163 (F := Ideal) x0 x1 x2 x3 x4 x5 x6 x9 x10 x11 x12 (ix3 hd l d)) l c := by
  rw [val_main_v165_apply, val_main_v164_apply]
  unfold mergeHeads
  refine congrArg _ (funext fun a => ?_)
  have h1 := l.isLt; have h2 := c.isLt
  match a with
  | ⟨0, _⟩ => exact Fin.ext (by show (l.val * 256 + c.val) / 64 % 4 = c.val / 64; omega)
  | ⟨1, _⟩ => exact Fin.ext (by show (l.val * 256 + c.val) / 256 = l.val; omega)
  | ⟨2, _⟩ => exact Fin.ext (by show (l.val * 256 + c.val) % 64 = c.val % 64; omega)
theorem a2_out_apply (l : Fin 4096) (j : Fin 256) :
    val_main_v170 (F := Ideal) x0 x1 x2 x3 x4 x5 x6 x9 x10 x11 x12 (ix2 l j)
      = lin (fun l c => val_main_v165 (F := Ideal) x0 x1 x2 x3 x4 x5 x6 x9 x10 x11 x12 (ix2 l c)) (fun t c => x11 (ix2 c t))
          (fun c => x12 (ix1 c)) l j := by
  have e1 : ∀ k : Fin 256, lidx_main_v167 (ix2 l j) k = ix2 l k := fun k => funext fun a => by
    match a with | ⟨0, _⟩ => rfl | ⟨1, _⟩ => rfl
  have e2 : ∀ k : Fin 256, idx_main_v166 (ridx_main_v167 (ix2 l j) k) = ix2 j k := fun k => funext fun a => by
    match a with | ⟨0, _⟩ => rfl | ⟨1, _⟩ => rfl
  have e3 : idx_main_v168 (idx_main_v169 (ix2 l j)) = ix1 j := funext fun a => by
    match a with | ⟨0, _⟩ => rfl
  rw [val_main_v170_apply, val_main_v167_apply, val_main_v169_apply, val_main_v168_apply, e3]
  simp only [val_main_v166_apply, e1, e2, Ideal.addf_def]
  rfl
theorem mha2 (l : Fin 4096) (j : Fin 256) :
    val_main_v171 (F := Ideal) x0 x1 x2 x3 x4 x5 x6 x9 x10 x11 x12 (ix2 l j)
      = reluOf (mhaRef (fun i t => val_main_v134 (F := Ideal) x0 x1 x2 x3 x4 x5 x6 x9 x10 x11 x12 (ix2 i t)) (fun c t => x9 (ix2 c t))
          (fun c => x10 (ix1 c)) (fun c t => x11 (ix2 c t)) (fun c => x12 (ix1 c))) l j := by
  have hq : (fun hd l d => val_main_v144 (F := Ideal) x0 x1 x2 x3 x4 x5 x6 x9 x10 x11 x12 (ix3 hd l d))
      = headsOf (qkvOf (fun i t => val_main_v134 (F := Ideal) x0 x1 x2 x3 x4 x5 x6 x9 x10 x11 x12 (ix2 i t)) (fun c t => x9 (ix2 c t))
          (fun c => x10 (ix1 c))) 0 :=
    funext fun hd => funext fun l => funext fun d => (a2_q_apply x0 x1 x2 x3 x4 x5 x6 x9 x10 x11 x12 hd l d).trans (a2_qkv_apply x0 x1 x2 x3 x4 x5 x6 x9 x10 x11 x12 l _)
  have hk : (fun hd l d => val_main_v146 (F := Ideal) x0 x1 x2 x3 x4 x5 x6 x9 x10 x11 x12 (ix3 hd l d))
      = headsOf (qkvOf (fun i t => val_main_v134 (F := Ideal) x0 x1 x2 x3 x4 x5 x6 x9 x10 x11 x12 (ix2 i t)) (fun c t => x9 (ix2 c t))
          (fun c => x10 (ix1 c))) 1 :=
    funext fun hd => funext fun l => funext fun d => (a2_k_apply x0 x1 x2 x3 x4 x5 x6 x9 x10 x11 x12 hd l d).trans (a2_qkv_apply x0 x1 x2 x3 x4 x5 x6 x9 x10 x11 x12 l _)
  have hv : (fun hd l d => val_main_v148 (F := Ideal) x0 x1 x2 x3 x4 x5 x6 x9 x10 x11 x12 (ix3 hd l d))
      = headsOf (qkvOf (fun i t => val_main_v134 (F := Ideal) x0 x1 x2 x3 x4 x5 x6 x9 x10 x11 x12 (ix2 i t)) (fun c t => x9 (ix2 c t))
          (fun c => x10 (ix1 c))) 2 :=
    funext fun hd => funext fun l => funext fun d => (a2_v_apply x0 x1 x2 x3 x4 x5 x6 x9 x10 x11 x12 hd l d).trans (a2_qkv_apply x0 x1 x2 x3 x4 x5 x6 x9 x10 x11 x12 l _)
  have ha : (fun hd l d => val_main_v163 (F := Ideal) x0 x1 x2 x3 x4 x5 x6 x9 x10 x11 x12 (ix3 hd l d))
      = attnRef (fun hd l d => val_main_v144 (F := Ideal) x0 x1 x2 x3 x4 x5 x6 x9 x10 x11 x12 (ix3 hd l d))
          (fun hd l d => val_main_v146 (F := Ideal) x0 x1 x2 x3 x4 x5 x6 x9 x10 x11 x12 (ix3 hd l d))
          (fun hd l d => val_main_v148 (F := Ideal) x0 x1 x2 x3 x4 x5 x6 x9 x10 x11 x12 (ix3 hd l d)) :=
    funext fun hd => funext fun l => funext fun d => a2_attn_apply x0 x1 x2 x3 x4 x5 x6 x9 x10 x11 x12 hd l d
  have hm : (fun l c => val_main_v165 (F := Ideal) x0 x1 x2 x3 x4 x5 x6 x9 x10 x11 x12 (ix2 l c))
      = mergeHeads (fun hd l d => val_main_v163 (F := Ideal) x0 x1 x2 x3 x4 x5 x6 x9 x10 x11 x12 (ix3 hd l d)) :=
    funext fun l => funext fun c => a2_merge_apply x0 x1 x2 x3 x4 x5 x6 x9 x10 x11 x12 l c
  rw [val_main_v171_apply, val_main_call3_v0_apply, val_main_call3_cst_apply, Ideal.maximumf_def, Ideal.ofBits_def,
    ofBits_zero_f32, a2_out_apply, hm, ha, hq, hk, hv]
  rfl
end Block2
end Cert.RefValue
-- ==== Proof.RefValue.Value.lean ====
import proofs.«403157_j14328010899645_2_alg».proof.Proof.RefRead
import proofs.«403157_j14328010899645_2_alg».proof.Proof.RefLib
import proofs.«403157_j14328010899645_2_alg».proof.Proof.Spec.RefSpec
import proofs.«403157_j14328010899645_2_alg».proof.Proof.RefValue.Gcn1
import proofs.«403157_j14328010899645_2_alg».proof.Proof.RefValue.Gcn2
import proofs.«403157_j14328010899645_2_alg».proof.Proof.RefValue.Gcn3
import proofs.«403157_j14328010899645_2_alg».proof.Proof.RefValue.Mha1
import proofs.«403157_j14328010899645_2_alg».proof.Proof.RefValue.Mha2
noncomputable section
namespace Cert.RefValue
open Cert.ReferenceIdeal Cert.ReferenceIdeal.Gen Cert.ReferenceIdeal.Read Idealize.ShloMosaic Idealize.ShloMosaic.ValueIdx
open Cert.Spec Cert.RefLib Cert.LibGatherScatter
section
variable (a0 : (⟨S4096x256, .f32⟩ : BufTy).Contents (Elt Ideal)) (a1 : (⟨S2x262144, .i32⟩ : BufTy).Contents (Elt Ideal))
  (a2 : (⟨S262144, .f32⟩ : BufTy).Contents (Elt Ideal)) (a3 : (⟨S256x256, .f32⟩ : BufTy).Contents (Elt Ideal))
  (a4 : (⟨S256, .f32⟩ : BufTy).Contents (Elt Ideal)) (a5 : (⟨S256x256, .f32⟩ : BufTy).Contents (Elt Ideal))
  (a6 : (⟨S256, .f32⟩ : BufTy).Contents (Elt Ideal)) (a7 : (⟨S256x128, .f32⟩ : BufTy).Contents (Elt Ideal))
  (a8 : (⟨S128, .f32⟩ : BufTy).Contents (Elt Ideal)) (a9 : (⟨S768x256, .f32⟩ : BufTy).Contents (Elt Ideal))
  (a10 : (⟨S768, .f32⟩ : BufTy).Contents (Elt Ideal)) (a11 : (⟨S256x256, .f32⟩ : BufTy).Contents (Elt Ideal))
  (a12 : (⟨S256, .f32⟩ : BufTy).Contents (Elt Ideal))
theorem tail_logistic (i : Fin 4096) (j : Fin 128) :
    val_main_v226 (F := Ideal) a0 a1 a2 a3 a4 a5 a6 a7 a8 a9 a10 a11 a12 (ix2 i j)
      = Ideal.logistic (val_main_v220 (F := Ideal) a0 a1 a2 a3 a4 a5 a6 a7 a8 a9 a10 a11 a12 (ix2 i j)) := by
  rw [val_main_v226_apply, val_main_v225_apply, val_main_cst_40_apply, val_main_v224_apply, val_main_v223_apply,
    val_main_cst_39_apply, val_main_v222_apply, val_main_v221_apply]
  simp only [Ideal.hostDivf_def, Ideal.addf_def, Ideal.hostUnary_exp_def, Ideal.hostNegf_def, Ideal.negf_def,
    Ideal.ofBits_def, Ideal.ofBits_one_f32]
  rfl
theorem ref_value (hr : InRange a1) (i : Fin 4096) (j : Fin 128) :
    val_main_v226 (F := Ideal) a0 a1 a2 a3 a4 a5 a6 a7 a8 a9 a10 a11 a12 (ix2 i j)
      = RefSpec (fun i t => a0 (ix2 i t)) (extIdx (fun t => a1 (ix2 0 t))) (extIdx (fun t => a1 (ix2 1 t)))
          (extW (fun t => a2 (ix1 t))) (fun t j => a3 (ix2 t j)) (fun j => a4 (ix1 j)) (fun t j => a5 (ix2 t j))
          (fun j => a6 (ix1 j)) (fun t j => a7 (ix2 t j)) (fun j => a8 (ix1 j)) (fun c t => a9 (ix2 c t))
          (fun c => a10 (ix1 c)) (fun c t => a11 (ix2 c t)) (fun c => a12 (ix1 c)) i j := by
  have h48 : (fun i t => val_main_v48 (F := Ideal) a0 a1 a2 a3 a4 (ix2 i t))
      = gcnRef (rowOf a1) (colOf a1) (normOf (rowOf a1) (colOf a1) (ewOf a2)) (fun k t => a0 (ix2 k t))
          (fun t j => a3 (ix2 t j)) (fun j => a4 (ix1 j)) :=
    funext fun i => funext fun t => gcn1 a0 a1 a2 a3 a4 hr i t
  have h85 : (fun k t => val_main_v85 (F := Ideal) a0 a1 a2 a3 a4 a9 a10 a11 a12 (ix2 k t))
      = reluOf (mhaRef (gcnRef (rowOf a1) (colOf a1) (normOf (rowOf a1) (colOf a1) (ewOf a2)) (fun k t => a0 (ix2 k t))
          (fun t j => a3 (ix2 t j)) (fun j => a4 (ix1 j))) (fun c t => a9 (ix2 c t)) (fun c => a10 (ix1 c))
          (fun c t => a11 (ix2 c t)) (fun c => a12 (ix1 c))) :=
    funext fun k => funext fun t => by rw [mha1, h48]
  have h134 : (fun i t => val_main_v134 (F := Ideal) a0 a1 a2 a3 a4 a5 a6 a9 a10 a11 a12 (ix2 i t))
      = gcnRef (rowOf a1) (colOf a1) (normOf (rowOf a1) (colOf a1) (ewOf a2))
          (fun k t => val_main_v85 (F := Ideal) a0 a1 a2 a3 a4 a9 a10 a11 a12 (ix2 k t))
          (fun t j => a5 (ix2 t j)) (fun j => a6 (ix1 j)) :=
    funext fun i => funext fun t => gcn2 a0 a1 a2 a3 a4 a5 a6 a9 a10 a11 a12 hr i t
  have h171 : (fun k t => val_main_v171 (F := Ideal) a0 a1 a2 a3 a4 a5 a6 a9 a10 a11 a12 (ix2 k t))
      = reluOf (mhaRef (gcnRef (rowOf a1) (colOf a1) (normOf (rowOf a1) (colOf a1) (ewOf a2))
          (fun k t => val_main_v85 (F := Ideal) a0 a1 a2 a3 a4 a9 a10 a11 a12 (ix2 k t))
          (fun t j => a5 (ix2 t j)) (fun j => a6 (ix1 j))) (fun c t => a9 (ix2 c t)) (fun c => a10 (ix1 c))
          (fun c t => a11 (ix2 c t)) (fun c => a12 (ix1 c))) :=
    funext fun k => funext fun t => by rw [mha2, h134]
  rw [tail_logistic, gcn3 a0 a1 a2 a3 a4 a5 a6 a7 a8 a9 a10 a11 a12 hr i j, h171, h85]
  rfl
def specArr : (⟨S4096x128, .f32⟩ : BufTy).Contents (Elt Ideal) := fun idx =>
  RefSpec (fun i t => a0 (ix2 i t)) (extIdx (fun t => a1 (ix2 0 t))) (extIdx (fun t => a1 (ix2 1 t)))
    (extW (fun t => a2 (ix1 t))) (fun t j => a3 (ix2 t j)) (fun j => a4 (ix1 j)) (fun t j => a5 (ix2 t j))
    (fun j => a6 (ix1 j)) (fun t j => a7 (ix2 t j)) (fun j => a8 (ix1 j)) (fun c t => a9 (ix2 c t))
    (fun c => a10 (ix1 c)) (fun c t => a11 (ix2 c t)) (fun c => a12 (ix1 c)) (idx 0) (idx 1)
theorem ref_value_arr (hr : InRange a1) :
    val_main_v226 (F := Ideal) a0 a1 a2 a3 a4 a5 a6 a7 a8 a9 a10 a11 a12 = specArr a0 a1 a2 a3 a4 a5 a6 a7 a8 a9 a10 a11 a12 :=
  funext fun idx => (congrArg (val_main_v226 (F := Ideal) a0 a1 a2 a3 a4 a5 a6 a7 a8 a9 a10 a11 a12) (eq_ix2 idx)).trans
    (ref_value a0 a1 a2 a3 a4 a5 a6 a7 a8 a9 a10 a11 a12 hr (idx 0) (idx 1))
end
end Cert.RefValue
end
-- ==== Proof.RefLink.Args.lean ====
import proofs.«403157_j14328010899645_2_alg».proof.Proof.RefRun
set_option maxRecDepth 16384
noncomputable section
namespace Cert.RefLink
open Cert.ReferenceIdeal Cert.ReferenceIdeal.Gen Cert.ReferenceIdeal.Value Idealize.ShloMosaic Idealize.ShloMosaic.TcCoe
open Idealize.SL.Sem Idealize.ShloMosaic.StableHlo
variable {F : FTy → Type} [FloatOps F]
set_option maxHeartbeats 4000000 in
theorem ops_writes : (ops : List (HloOp τ sig (Elt F))).Forall fun op =>
    ∀ b ∈ op.writes, ∃ y : Ref sig .tc, b = Proc.devRef (τ := τ) .tc y ∧ 13 ≤ y.idx.val := by
  simp only [List.Forall]
  repeat' apply And.intro
  all_goals
    intro b hb
    simp only [StableHlo.nullary_writes, StableHlo.unary_writes, StableHlo.binary_writes, StableHlo.ternary_writes,
      StableHlo.quaternary_writes, StableHlo.reshape_writes, Finset.mem_singleton] at hb
    exact ⟨_, hb, by decide⟩
theorem not_written (r : Ref sig .tc) (hr : r.idx.val < 13) :
    ∀ op ∈ (ops : List (HloOp τ sig (Elt F))), Proc.devRef (τ := τ) .tc r ∉ op.writes := fun op hop hmem => by
  obtain ⟨y, hy, h13⟩ := (List.forall_iff_forall_mem.mp ops_writes) op hop _ hmem
  have e : r = y := Proc.devRef_injective _ hy
  subst e
  omega
theorem keep (r : Ref sig .tc) (hr : r.idx.val < 13) (n : Nat) (V : Valuation τ sig (Elt F)) :
    after ((ops : List (HloOp τ sig (Elt F))).take n) V (Proc.devRef .tc r) = V (Proc.devRef .tc r) :=
  StableHlo.after_of_forall_not_mem _ V fun op hop => not_written r hr op (List.mem_of_mem_take hop)
theorem keep_all (r : Ref sig .tc) (hr : r.idx.val < 13) (V : Valuation τ sig (Elt F)) :
    after (ops : List (HloOp τ sig (Elt F))) V (Proc.devRef .tc r) = V (Proc.devRef .tc r) :=
  StableHlo.after_of_forall_not_mem _ V (not_written r hr)
theorem arg_keep_1 (n : Nat) (V : Valuation τ sig (Elt F)) :
    after ((ops : List (HloOp τ sig (Elt F))).take n) V (Proc.devRef .tc main_arg1) = V (Proc.devRef .tc main_arg1) :=
  keep main_arg1 (by decide) n V
theorem arg_keep_2 (n : Nat) (V : Valuation τ sig (Elt F)) :
    after ((ops : List (HloOp τ sig (Elt F))).take n) V (Proc.devRef .tc main_arg2) = V (Proc.devRef .tc main_arg2) :=
  keep main_arg2 (by decide) n V
theorem arg_keep_5 (n : Nat) (V : Valuation τ sig (Elt F)) :
    after ((ops : List (HloOp τ sig (Elt F))).take n) V (Proc.devRef .tc main_arg5) = V (Proc.devRef .tc main_arg5) :=
  keep main_arg5 (by decide) n V
theorem arg_keep_6 (n : Nat) (V : Valuation τ sig (Elt F)) :
    after ((ops : List (HloOp τ sig (Elt F))).take n) V (Proc.devRef .tc main_arg6) = V (Proc.devRef .tc main_arg6) :=
  keep main_arg6 (by decide) n V
theorem arg_keep_7 (n : Nat) (V : Valuation τ sig (Elt F)) :
    after ((ops : List (HloOp τ sig (Elt F))).take n) V (Proc.devRef .tc main_arg7) = V (Proc.devRef .tc main_arg7) :=
  keep main_arg7 (by decide) n V
theorem arg_keep_8 (n : Nat) (V : Valuation τ sig (Elt F)) :
    after ((ops : List (HloOp τ sig (Elt F))).take n) V (Proc.devRef .tc main_arg8) = V (Proc.devRef .tc main_arg8) :=
  keep main_arg8 (by decide) n V
theorem arg_keep_9 (n : Nat) (V : Valuation τ sig (Elt F)) :
    after ((ops : List (HloOp τ sig (Elt F))).take n) V (Proc.devRef .tc main_arg9) = V (Proc.devRef .tc main_arg9) :=
  keep main_arg9 (by decide) n V
theorem arg_keep_10 (n : Nat) (V : Valuation τ sig (Elt F)) :
    after ((ops : List (HloOp τ sig (Elt F))).take n) V (Proc.devRef .tc main_arg10) = V (Proc.devRef .tc main_arg10) :=
  keep main_arg10 (by decide) n V
theorem arg_keep_11 (n : Nat) (V : Valuation τ sig (Elt F)) :
    after ((ops : List (HloOp τ sig (Elt F))).take n) V (Proc.devRef .tc main_arg11) = V (Proc.devRef .tc main_arg11) :=
  keep main_arg11 (by decide) n V
theorem arg_keep_12 (n : Nat) (V : Valuation τ sig (Elt F)) :
    after ((ops : List (HloOp τ sig (Elt F))).take n) V (Proc.devRef .tc main_arg12) = V (Proc.devRef .tc main_arg12) :=
  keep main_arg12 (by decide) n V
theorem arg_keep_all_0 (V : Valuation τ sig (Elt F)) :
    after (ops : List (HloOp τ sig (Elt F))) V (Proc.devRef .tc main_arg0) = V (Proc.devRef .tc main_arg0) :=
  keep_all main_arg0 (by decide) V
theorem arg_keep_all_1 (V : Valuation τ sig (Elt F)) :
    after (ops : List (HloOp τ sig (Elt F))) V (Proc.devRef .tc main_arg1) = V (Proc.devRef .tc main_arg1) :=
  keep_all main_arg1 (by decide) V
theorem arg_keep_all_2 (V : Valuation τ sig (Elt F)) :
    after (ops : List (HloOp τ sig (Elt F))) V (Proc.devRef .tc main_arg2) = V (Proc.devRef .tc main_arg2) :=
  keep_all main_arg2 (by decide) V
theorem arg_keep_all_3 (V : Valuation τ sig (Elt F)) :
    after (ops : List (HloOp τ sig (Elt F))) V (Proc.devRef .tc main_arg3) = V (Proc.devRef .tc main_arg3) :=
  keep_all main_arg3 (by decide) V
theorem arg_keep_all_4 (V : Valuation τ sig (Elt F)) :
    after (ops : List (HloOp τ sig (Elt F))) V (Proc.devRef .tc main_arg4) = V (Proc.devRef .tc main_arg4) :=
  keep_all main_arg4 (by decide) V
theorem arg_keep_all_5 (V : Valuation τ sig (Elt F)) :
    after (ops : List (HloOp τ sig (Elt F))) V (Proc.devRef .tc main_arg5) = V (Proc.devRef .tc main_arg5) :=
  keep_all main_arg5 (by decide) V
theorem arg_keep_all_6 (V : Valuation τ sig (Elt F)) :
    after (ops : List (HloOp τ sig (Elt F))) V (Proc.devRef .tc main_arg6) = V (Proc.devRef .tc main_arg6) :=
  keep_all main_arg6 (by decide) V
theorem arg_keep_all_7 (V : Valuation τ sig (Elt F)) :
    after (ops : List (HloOp τ sig (Elt F))) V (Proc.devRef .tc main_arg7) = V (Proc.devRef .tc main_arg7) :=
  keep_all main_arg7 (by decide) V
theorem arg_keep_all_8 (V : Valuation τ sig (Elt F)) :
    after (ops : List (HloOp τ sig (Elt F))) V (Proc.devRef .tc main_arg8) = V (Proc.devRef .tc main_arg8) :=
  keep_all main_arg8 (by decide) V
theorem arg_keep_all_9 (V : Valuation τ sig (Elt F)) :
    after (ops : List (HloOp τ sig (Elt F))) V (Proc.devRef .tc main_arg9) = V (Proc.devRef .tc main_arg9) :=
  keep_all main_arg9 (by decide) V
theorem arg_keep_all_10 (V : Valuation τ sig (Elt F)) :
    after (ops : List (HloOp τ sig (Elt F))) V (Proc.devRef .tc main_arg10) = V (Proc.devRef .tc main_arg10) :=
  keep_all main_arg10 (by decide) V
theorem arg_keep_all_11 (V : Valuation τ sig (Elt F)) :
    after (ops : List (HloOp τ sig (Elt F))) V (Proc.devRef .tc main_arg11) = V (Proc.devRef .tc main_arg11) :=
  keep_all main_arg11 (by decide) V
theorem arg_keep_all_12 (V : Valuation τ sig (Elt F)) :
    after (ops : List (HloOp τ sig (Elt F))) V (Proc.devRef .tc main_arg12) = V (Proc.devRef .tc main_arg12) :=
  keep_all main_arg12 (by decide) V
end Cert.RefLink
end
-- ==== Proof.RefLink.S1.lean ====
import proofs.«403157_j14328010899645_2_alg».proof.Proof.RefRun
import proofs.«403157_j14328010899645_2_alg».proof.Proof.RefRead
set_option maxRecDepth 8192
noncomputable section
namespace Cert.RefLink
open Cert.ReferenceIdeal Cert.ReferenceIdeal.Gen Cert.ReferenceIdeal.Value Cert.ReferenceIdeal.Read Idealize.ShloMosaic Idealize.ShloMosaic.TcCoe Idealize.SL.Sem Idealize.ShloMosaic.StableHlo
variable {F : FTy → Type} [FloatOps F]
set_option maxHeartbeats 4000000 in
theorem stretch1 (W : Valuation τ sig (Elt F)) :
    after ((ops (F := F)).take 62) W (Proc.devRef .tc main_v48)
      = val_main_v48 (F := F) (W (Proc.devRef .tc main_arg0)) (W (Proc.devRef .tc main_arg1)) (W (Proc.devRef .tc main_arg2)) (W (Proc.devRef .tc main_arg3)) (W (Proc.devRef .tc main_arg4)) := by
  simp only [ops, List.take_succ_cons, List.take_zero, List.drop_succ_cons, List.drop_zero]
  after_results_simp
  rfl
end Cert.RefLink
end
-- ==== Proof.RefLink.S2.lean ====
import proofs.«403157_j14328010899645_2_alg».proof.Proof.RefRun
import proofs.«403157_j14328010899645_2_alg».proof.Proof.RefRead
set_option maxRecDepth 8192
noncomputable section
namespace Cert.RefLink
open Cert.ReferenceIdeal Cert.ReferenceIdeal.Gen Cert.ReferenceIdeal.Value Cert.ReferenceIdeal.Read Idealize.ShloMosaic Idealize.ShloMosaic.TcCoe Idealize.SL.Sem Idealize.ShloMosaic.StableHlo
variable {F : FTy → Type} [FloatOps F]
set_option maxHeartbeats 4000000 in
theorem stretch2 (x0 : (⟨S4096x256, .f32⟩ : BufTy).Contents (Elt F)) (x1 : (⟨S2x262144, .i32⟩ : BufTy).Contents (Elt F)) (x2 : (⟨S262144, .f32⟩ : BufTy).Contents (Elt F)) (x3 : (⟨S256x256, .f32⟩ : BufTy).Contents (Elt F)) (x4 : (⟨S256, .f32⟩ : BufTy).Contents (Elt F))
    (W : Valuation τ sig (Elt F))
    (hin : W (Proc.devRef .tc main_v48) = val_main_v48 (F := F) x0 x1 x2 x3 x4) :
    after (((ops (F := F)).drop 62).take 43) W (Proc.devRef .tc main_v85)
      = val_main_v85 (F := F) x0 x1 x2 x3 x4 (W (Proc.devRef .tc main_arg9)) (W (Proc.devRef .tc main_arg10)) (W (Proc.devRef .tc main_arg11)) (W (Proc.devRef .tc main_arg12)) := by
  simp only [ops, List.take_succ_cons, List.take_zero, List.drop_succ_cons, List.drop_zero]
  after_results_simp
  rw [hin]
  rfl
end Cert.RefLink
end
-- ==== Proof.RefLink.S3.lean ====
import proofs.«403157_j14328010899645_2_alg».proof.Proof.RefRun
import proofs.«403157_j14328010899645_2_alg».proof.Proof.RefRead
set_option maxRecDepth 8192
noncomputable section
namespace Cert.RefLink
open Cert.ReferenceIdeal Cert.ReferenceIdeal.Gen Cert.ReferenceIdeal.Value Cert.ReferenceIdeal.Read Idealize.ShloMosaic Idealize.ShloMosaic.TcCoe Idealize.SL.Sem Idealize.ShloMosaic.StableHlo
variable {F : FTy → Type} [FloatOps F]
set_option maxHeartbeats 4000000 in
theorem stretch3 (x0 : (⟨S4096x256, .f32⟩ : BufTy).Contents (Elt F)) (x3 : (⟨S256x256, .f32⟩ : BufTy).Contents (Elt F)) (x4 : (⟨S256, .f32⟩ : BufTy).Contents (Elt F)) (x9 : (⟨S768x256, .f32⟩ : BufTy).Contents (Elt F)) (x10 : (⟨S768, .f32⟩ : BufTy).Contents (Elt F)) (x11 : (⟨S256x256, .f32⟩ : BufTy).Contents (Elt F)) (x12 : (⟨S256, .f32⟩ : BufTy).Contents (Elt F))
    (W : Valuation τ sig (Elt F))
    (hin : W (Proc.devRef .tc main_v85) = val_main_v85 (F := F) x0 (W (Proc.devRef .tc main_arg1)) (W (Proc.devRef .tc main_arg2)) x3 x4 x9 x10 x11 x12) :
    after (((ops (F := F)).drop 105).take 62) W (Proc.devRef .tc main_v134)
      = val_main_v134 (F := F) x0 (W (Proc.devRef .tc main_arg1)) (W (Proc.devRef .tc main_arg2)) x3 x4 (W (Proc.devRef .tc main_arg5)) (W (Proc.devRef .tc main_arg6)) x9 x10 x11 x12 := by
  simp only [ops, List.take_succ_cons, List.take_zero, List.drop_succ_cons, List.drop_zero]
  after_results_simp
  rw [hin]
  rfl
end Cert.RefLink
end
-- ==== Proof.RefLink.S4.lean ====
import proofs.«403157_j14328010899645_2_alg».proof.Proof.RefRun
import proofs.«403157_j14328010899645_2_alg».proof.Proof.RefRead
set_option maxRecDepth 8192
noncomputable section
namespace Cert.RefLink
open Cert.ReferenceIdeal Cert.ReferenceIdeal.Gen Cert.ReferenceIdeal.Value Cert.ReferenceIdeal.Read Idealize.ShloMosaic Idealize.ShloMosaic.TcCoe Idealize.SL.Sem Idealize.ShloMosaic.StableHlo
variable {F : FTy → Type} [FloatOps F]
set_option maxHeartbeats 4000000 in
theorem stretch4 (x0 : (⟨S4096x256, .f32⟩ : BufTy).Contents (Elt F)) (x1 : (⟨S2x262144, .i32⟩ : BufTy).Contents (Elt F)) (x2 : (⟨S262144, .f32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F))
    (W : Valuation τ sig (Elt F))
    (hin : W (Proc.devRef .tc main_v134) = val_main_v134 (F := F) x0 x1 x2 x3 x4 x5 x6 (W (Proc.devRef .tc main_arg9)) (W (Proc.devRef .tc main_arg10)) (W (Proc.devRef .tc main_arg11)) (W (Proc.devRef .tc main_arg12))) :
    after (((ops (F := F)).drop 167).take 43) W (Proc.devRef .tc main_v171)
      = val_main_v171 (F := F) x0 x1 x2 x3 x4 x5 x6 (W (Proc.devRef .tc main_arg9)) (W (Proc.devRef .tc main_arg10)) (W (Proc.devRef .tc main_arg11)) (W (Proc.devRef .tc main_arg12)) := by
  simp only [ops, List.take_succ_cons, List.take_zero, List.drop_succ_cons, List.drop_zero]
  after_results_simp
  rw [hin]
  rfl
end Cert.RefLink
end
-- ==== Proof.RefLink.S5.lean ====
import proofs.«403157_j14328010899645_2_alg».proof.Proof.RefRun
import proofs.«403157_j14328010899645_2_alg».proof.Proof.RefRead
set_option maxRecDepth 8192
noncomputable section
namespace Cert.RefLink
open Cert.ReferenceIdeal Cert.ReferenceIdeal.Gen Cert.ReferenceIdeal.Value Cert.ReferenceIdeal.Read Idealize.ShloMosaic Idealize.ShloMosaic.TcCoe Idealize.SL.Sem Idealize.ShloMosaic.StableHlo
variable {F : FTy → Type} [FloatOps F]
set_option maxHeartbeats 4000000 in
theorem stretch5 (x0 : (⟨S4096x256, .f32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x9 : (⟨S768x256, .f32⟩ : BufTy).Contents (Elt F)) (x10 : (⟨S768, .f32⟩ : BufTy).Contents (Elt F)) (x11 : (⟨S256x256, .f32⟩ : BufTy).Contents (Elt F)) (x12 : (⟨S256, .f32⟩ : BufTy).Contents (Elt F))
    (W : Valuation τ sig (Elt F))
    (hin : W (Proc.devRef .tc main_v171) = val_main_v171 (F := F) x0 (W (Proc.devRef .tc main_arg1)) (W (Proc.devRef .tc main_arg2)) x3 x4 x5 x6 x9 x10 x11 x12) :
    after (((ops (F := F)).drop 210).take 62) W (Proc.devRef .tc main_v220)
      = val_main_v220 (F := F) x0 (W (Proc.devRef .tc main_arg1)) (W (Proc.devRef .tc main_arg2)) x3 x4 x5 x6 (W (Proc.devRef .tc main_arg7)) (W (Proc.devRef .tc main_arg8)) x9 x10 x11 x12 := by
  simp only [ops, List.take_succ_cons, List.take_zero, List.drop_succ_cons, List.drop_zero]
  after_results_simp
  rw [hin]
  rfl
end Cert.RefLink
end
-- ==== Proof.RefLink.S6.lean ====
import proofs.«403157_j14328010899645_2_alg».proof.Proof.RefRun
import proofs.«403157_j14328010899645_2_alg».proof.Proof.RefRead
set_option maxRecDepth 8192
noncomputable section
namespace Cert.RefLink
open Cert.ReferenceIdeal Cert.ReferenceIdeal.Gen Cert.ReferenceIdeal.Value Cert.ReferenceIdeal.Read Idealize.ShloMosaic Idealize.ShloMosaic.TcCoe Idealize.SL.Sem Idealize.ShloMosaic.StableHlo
variable {F : FTy → Type} [FloatOps F]
set_option maxHeartbeats 4000000 in
theorem stretch6 (x0 : (⟨S4096x256, .f32⟩ : BufTy).Contents (Elt F)) (x1 : (⟨S2x262144, .i32⟩ : BufTy).Contents (Elt F)) (x2 : (⟨S262144, .f32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x128, .f32⟩ : BufTy).Contents (Elt F)) (x8 : (⟨S128, .f32⟩ : BufTy).Contents (Elt F)) (x9 : (⟨S768x256, .f32⟩ : BufTy).Contents (Elt F)) (x10 : (⟨S768, .f32⟩ : BufTy).Contents (Elt F)) (x11 : (⟨S256x256, .f32⟩ : BufTy).Contents (Elt F)) (x12 : (⟨S256, .f32⟩ : BufTy).Contents (Elt F))
    (W : Valuation τ sig (Elt F))
    (hin : W (Proc.devRef .tc main_v220) = val_main_v220 (F := F) x0 x1 x2 x3 x4 x5 x6 x7 x8 x9 x10 x11 x12) :
    after ((ops (F := F)).drop 272) W (Proc.devRef .tc main_v226)
      = val_main_v226 (F := F) x0 x1 x2 x3 x4 x5 x6 x7 x8 x9 x10 x11 x12 := by
  simp only [ops, List.take_succ_cons, List.take_zero, List.drop_succ_cons, List.drop_zero]
  after_results_simp
  rw [hin]
  rfl
end Cert.RefLink
end
-- ==== Proof.RefLink.lean ====
import proofs.«403157_j14328010899645_2_alg».proof.Proof.RefLink.Args
import proofs.«403157_j14328010899645_2_alg».proof.Proof.RefLink.S1
import proofs.«403157_j14328010899645_2_alg».proof.Proof.RefLink.S2
import proofs.«403157_j14328010899645_2_alg».proof.Proof.RefLink.S3
import proofs.«403157_j14328010899645_2_alg».proof.Proof.RefLink.S4
import proofs.«403157_j14328010899645_2_alg».proof.Proof.RefLink.S5
import proofs.«403157_j14328010899645_2_alg».proof.Proof.RefLink.S6
set_option maxRecDepth 8192
noncomputable section
namespace Cert.RefLink
open Cert.ReferenceIdeal Cert.ReferenceIdeal.Gen Cert.ReferenceIdeal.Value Cert.ReferenceIdeal.Read Idealize.ShloMosaic Idealize.ShloMosaic.TcCoe Idealize.SL.Sem Idealize.ShloMosaic.StableHlo
variable {F : FTy → Type} [FloatOps F]
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons]; exact ih _
theorem after_take_add (l : List (HloOp τ sig (Elt F))) (a b : Nat) (V : Valuation τ sig (Elt F)) :
    after (l.take (a + b)) V = after ((l.drop a).take b) (after (l.take a) V) := by
  rw [List.take_add, after_app]
theorem link_gen (V : Valuation τ sig (Elt F)) :
    after (ops (F := F)) V (Proc.devRef .tc main_v226)
      = val_main_v226 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  have e1 : (after ((ops (F := F)).take 62) V) (Proc.devRef .tc main_v48)
      = val_main_v48 (F := F) (V (Proc.devRef .tc main_arg0)) (V (Proc.devRef .tc main_arg1)) (V (Proc.devRef .tc main_arg2)) (V (Proc.devRef .tc main_arg3)) (V (Proc.devRef .tc main_arg4)) := stretch1 V
  have e2 : (after ((ops (F := F)).take 105) V) (Proc.devRef .tc main_v85)
      = val_main_v85 (F := F) (V (Proc.devRef .tc main_arg0)) (V (Proc.devRef .tc main_arg1)) (V (Proc.devRef .tc main_arg2)) (V (Proc.devRef .tc main_arg3)) (V (Proc.devRef .tc main_arg4)) (V (Proc.devRef .tc main_arg9)) (V (Proc.devRef .tc main_arg10)) (V (Proc.devRef .tc main_arg11)) (V (Proc.devRef .tc main_arg12)) :=
    (congrFun (after_take_add (ops (F := F)) 62 43 V) _).trans (by
      have h := stretch2 (V (Proc.devRef .tc main_arg0)) (V (Proc.devRef .tc main_arg1)) (V (Proc.devRef .tc main_arg2)) (V (Proc.devRef .tc main_arg3)) (V (Proc.devRef .tc main_arg4)) (after ((ops (F := F)).take 62) V) e1
      rw [arg_keep_9, arg_keep_10, arg_keep_11, arg_keep_12] at h
      exact h)
  have e3 : (after ((ops (F := F)).take 167) V) (Proc.devRef .tc main_v134)
      = val_main_v134 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) :=
    (congrFun (after_take_add (ops (F := F)) 105 62 V) _).trans (by
      have h := stretch3 (V (Proc.devRef .tc main_arg0)) (V (Proc.devRef .tc main_arg3)) (V (Proc.devRef .tc main_arg4)) (V (Proc.devRef .tc main_arg9)) (V (Proc.devRef .tc main_arg10)) (V (Proc.devRef .tc main_arg11)) (V (Proc.devRef .tc main_arg12)) (after ((ops (F := F)).take 105) V) (by rw [arg_keep_1, arg_keep_2]; exact e2)
      rw [arg_keep_1, arg_keep_2, arg_keep_5, arg_keep_6] at h
      exact h)
  have e4 : (after ((ops (F := F)).take 210) V) (Proc.devRef .tc main_v171)
      = val_main_v171 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) :=
    (congrFun (after_take_add (ops (F := F)) 167 43 V) _).trans (by
      have h := stretch4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (after ((ops (F := F)).take 167) V) (by rw [arg_keep_9, arg_keep_10, arg_keep_11, arg_keep_12]; exact e3)
      rw [arg_keep_9, arg_keep_10, arg_keep_11, arg_keep_12] at h
      exact h)
  have e5 : (after ((ops (F := F)).take 272) V) (Proc.devRef .tc main_v220)
      = val_main_v220 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
    (congrFun (after_take_add (ops (F := F)) 210 62 V) _).trans (by
      have h := stretch5 (V (Proc.devRef .tc main_arg0)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) (after ((ops (F := F)).take 210) V) (by rw [arg_keep_1, arg_keep_2]; exact e4)
      rw [arg_keep_1, arg_keep_2, arg_keep_7, arg_keep_8] at h
      exact h)
  have h6 := stretch6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (after ((ops (F := F)).take 272) V) e5
  calc after (ops (F := F)) V (Proc.devRef .tc main_v226)
      = after ((ops (F := F)).take 272 ++ (ops (F := F)).drop 272) V (Proc.devRef .tc main_v226) := by
        rw [List.take_append_drop]
    _ = after ((ops (F := F)).drop 272) (after ((ops (F := F)).take 272) V) (Proc.devRef .tc main_v226) := by
        rw [after_app]
    _ = _ := h6
theorem link (m : (ℓ : Loc nD τ sig) → Buf (Elt F) ℓ) (c : Dev nD) :
    after (ops (F := F)) (launchContents m c) (Proc.devRef .tc main_v226)
      = val_main_v226 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  link_gen (launchContents m c)
end Cert.RefLink
end
-- ==== Proof.PreDecode.lean ====
import proofs.«403157_j14328010899645_2_alg».proof.Defs
import Idealize.ShloMosaic.Lib.ReduceAll
import Idealize.ShloMosaic.Lib.StableHlo.Predicate
import Idealize.ShloMosaic.Lib.ValueIdx
set_option maxRecDepth 16384
noncomputable section
namespace Cert.Proof.PreDecode
open Idealize.ShloMosaic Idealize.SL.Sem
open Cert.Pre_finite_inputs
instance : Subsingleton S_.Idx := ⟨fun a b => funext fun d => d.elim0⟩
theorem inf_bits : Ideal.ofBits .f32 0x7F800000#32 = (⊤ : EReal) := by
  simp [Ideal.ofBits, Ideal.ieee]
theorem real_of_abs_lt (x : EReal) (h : Ideal.cmp .olt (max x (-x)) (Ideal.ofBits .f32 0x7F800000#32) = 1#1) :
    ∃ r : ℝ, x = (r : EReal) := by
  rw [inf_bits] at h
  simp only [Ideal.cmp, StableHlo.Predicate.ofBool_eq_one_iff, decide_eq_true_eq] at h
  induction x using EReal.rec with
  | bot => simp at h
  | top => simp at h
  | coe r => exact ⟨r, rfl⟩
theorem word_range (w : BitVec 32) (h0 : IntOp.cmpi .sge w (0#32) = 1#1) (h1 : IntOp.cmpi .slt w (4096#32) = 1#1) :
    0 ≤ w.toInt ∧ w.toInt < 4096 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (4096#32 : BitVec 32).toInt = 4096 := by decide
  rw [e0] at h0; rw [e1] at h1
  exact ⟨h0, h1⟩
theorem finite_of_all {s : Shape} {axes : List (Fin s.rank)} (hb : S_.BroadcastsInDim s (![] : Fin 0 → Fin s.rank))
    (hr : s.ReducesTo axes S_) (hu : 0 < S_.numel) (a : FVec Ideal s .f32)
    (h : Host.reduce IntOp.andi (cmpf .olt (Host.absf a) (broadcastInDim s ![] hb (constant S_ .f32 0x7F800000#32)))
          (constantI S_ 1 1#1) hr hu ValueIdx.ix0 = 1#1) (i : s.Idx) : ∃ r : ℝ, a i = (r : EReal) :=
  real_of_abs_lt (a i) (Host.reduce_andi_all _ _ hr hu _ h i)
theorem range_of_all {s : Shape} {axes : List (Fin s.rank)} (hb : S_.BroadcastsInDim s (![] : Fin 0 → Fin s.rank))
    (hr : s.ReducesTo axes S_) (hu : 0 < S_.numel) (a : IVec s 32)
    (h : Host.reduce IntOp.andi (andi (cmpi .sge a (broadcastInDim s ![] hb (constantI S_ 32 0#32)))
            (cmpi .slt a (broadcastInDim s ![] hb (constantI S_ 32 4096#32))))
          (constantI S_ 1 1#1) hr hu ValueIdx.ix0 = 1#1) (i : s.Idx) : 0 ≤ (a i).toInt ∧ (a i).toInt < 4096 := by
  have e := Host.reduce_andi_all _ _ hr hu _ h i
  obtain ⟨e0, e1⟩ := IntOp.andi_eq_one.1 e
  exact word_range (a i) e0 e1
variable [hF : Cert.Pre_finite_inputs.Facts]
structure Decoded (a0 : FVec Ideal S4096x256 .f32) (a1 : IVec S2x262144 32) (a2 : FVec Ideal S262144 .f32)
    (a3 : FVec Ideal S256x256 .f32) (a4 : FVec Ideal S256 .f32) (a5 : FVec Ideal S256x256 .f32) (a6 : FVec Ideal S256 .f32)
    (a7 : FVec Ideal S256x128 .f32) (a8 : FVec Ideal S128 .f32) (a9 : FVec Ideal S768x256 .f32) (a10 : FVec Ideal S768 .f32)
    (a11 : FVec Ideal S256x256 .f32) (a12 : FVec Ideal S256 .f32) : Prop where
  f0 : ∀ i, ∃ r : ℝ, a0 i = (r : EReal)
  edge : ∀ i, 0 ≤ (a1 i).toInt ∧ (a1 i).toInt < 4096
  f2 : ∀ i, ∃ r : ℝ, a2 i = (r : EReal)
  f3 : ∀ i, ∃ r : ℝ, a3 i = (r : EReal)
  f4 : ∀ i, ∃ r : ℝ, a4 i = (r : EReal)
  f5 : ∀ i, ∃ r : ℝ, a5 i = (r : EReal)
  f6 : ∀ i, ∃ r : ℝ, a6 i = (r : EReal)
  f7 : ∀ i, ∃ r : ℝ, a7 i = (r : EReal)
  f8 : ∀ i, ∃ r : ℝ, a8 i = (r : EReal)
  f9 : ∀ i, ∃ r : ℝ, a9 i = (r : EReal)
  f10 : ∀ i, ∃ r : ℝ, a10 i = (r : EReal)
  f11 : ∀ i, ∃ r : ℝ, a11 i = (r : EReal)
  f12 : ∀ i, ∃ r : ℝ, a12 i = (r : EReal)
theorem decode (a0 : FVec Ideal S4096x256 .f32) (a1 : IVec S2x262144 32) (a2 : FVec Ideal S262144 .f32)
    (a3 : FVec Ideal S256x256 .f32) (a4 : FVec Ideal S256 .f32) (a5 : FVec Ideal S256x256 .f32) (a6 : FVec Ideal S256 .f32)
    (a7 : FVec Ideal S256x128 .f32) (a8 : FVec Ideal S128 .f32) (a9 : FVec Ideal S768x256 .f32) (a10 : FVec Ideal S768 .f32)
    (a11 : FVec Ideal S256x256 .f32) (a12 : FVec Ideal S256 .f32)
    (h : Cert.Pre_finite_inputs.fn (F := Ideal) a0 a1 a2 a3 a4 a5 a6 a7 a8 a9 a10 a11 a12 = (fun _ => 1#1)) :
    Decoded a0 a1 a2 a3 a4 a5 a6 a7 a8 a9 a10 a11 a12 := by
  have e := congrFun h ValueIdx.ix0
  dsimp only [Cert.Pre_finite_inputs.fn, Cert.Pre_finite_inputs.fn_part1, Cert.Pre_finite_inputs.fn_part2,
    Cert.Pre_finite_inputs.fn_part3] at e
  change IntOp.andi _ _ = 1#1 at e
  obtain ⟨e, h1⟩ := IntOp.andi_eq_one.1 e
  obtain ⟨e, h12⟩ := IntOp.andi_eq_one.1 e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h0, h2⟩ := IntOp.andi_eq_one.1 e
  exact
    { f0 := finite_of_all _ _ _ a0 h0
      edge := range_of_all _ _ _ a1 h1
      f2 := finite_of_all _ _ _ a2 h2
      f3 := finite_of_all _ _ _ a3 h3
      f4 := finite_of_all _ _ _ a4 h4
      f5 := finite_of_all _ _ _ a5 h5
      f6 := finite_of_all _ _ _ a6 h6
      f7 := finite_of_all _ _ _ a7 h7
      f8 := finite_of_all _ _ _ a8 h8
      f9 := finite_of_all _ _ _ a9 h9
      f10 := finite_of_all _ _ _ a10 h10
      f11 := finite_of_all _ _ _ a11 h11
      f12 := finite_of_all _ _ _ a12 h12 }
theorem decoded (m : (ℓ : Loc Cert.KernelIdeal.nD Cert.KernelIdeal.τ Cert.KernelIdeal.sig) → Buf (Elt Ideal) ℓ) (h : Cert.Pre_KernelIdeal m) (c : Dev Cert.KernelIdeal.nD) :
    Decoded (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) :=
  decode _ _ _ _ _ _ _ _ _ _ _ _ _ (h c)
theorem edge_range (m : (ℓ : Loc Cert.KernelIdeal.nD Cert.KernelIdeal.τ Cert.KernelIdeal.sig) → Buf (Elt Ideal) ℓ) (h : Cert.Pre_KernelIdeal m) (c : Dev Cert.KernelIdeal.nD) :
    ∀ i, 0 ≤ (m ((c.tc : Thread Cert.KernelIdeal.nD Cert.KernelIdeal.τ).loc Cert.KernelIdeal.main_arg1) i).toInt
      ∧ (m ((c.tc : Thread Cert.KernelIdeal.nD Cert.KernelIdeal.τ).loc Cert.KernelIdeal.main_arg1) i).toInt < 4096 :=
  (decoded m h c).edge
theorem ref_decoded (m' : (ℓ : Loc Cert.ReferenceIdeal.nD Cert.ReferenceIdeal.τ Cert.ReferenceIdeal.sig) → Buf (Elt Ideal) ℓ) (h : Cert.Pre_ReferenceIdeal m') (c : Dev Cert.ReferenceIdeal.nD) :
    Decoded (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12)) :=
  decode _ _ _ _ _ _ _ _ _ _ _ _ _ (h c)
theorem ref_edge_range (m' : (ℓ : Loc Cert.ReferenceIdeal.nD Cert.ReferenceIdeal.τ Cert.ReferenceIdeal.sig) → Buf (Elt Ideal) ℓ) (h : Cert.Pre_ReferenceIdeal m') (c : Dev Cert.ReferenceIdeal.nD) :
    ∀ i, 0 ≤ (m' ((c.tc : Thread Cert.ReferenceIdeal.nD Cert.ReferenceIdeal.τ).loc Cert.ReferenceIdeal.main_arg1) i).toInt
      ∧ (m' ((c.tc : Thread Cert.ReferenceIdeal.nD Cert.ReferenceIdeal.τ).loc Cert.ReferenceIdeal.main_arg1) i).toInt < 4096 :=
  (ref_decoded m' h c).edge
end Cert.Proof.PreDecode
end
-- ==== Proof.RefValue.Run.lean ====
import proofs.«403157_j14328010899645_2_alg».proof.Proof.RefRead
import proofs.«403157_j14328010899645_2_alg».proof.Proof.RefLib
import proofs.«403157_j14328010899645_2_alg».proof.Proof.Spec.RefSpec
import proofs.«403157_j14328010899645_2_alg».proof.Proof.RefValue.Value
import proofs.«403157_j14328010899645_2_alg».proof.Proof.RefRun
import proofs.«403157_j14328010899645_2_alg».proof.Proof.RefLink
import proofs.«403157_j14328010899645_2_alg».proof.Proof.RefLink.Args
import proofs.«403157_j14328010899645_2_alg».proof.Proof.PreDecode
noncomputable section
namespace Cert.RefValue
open Cert.ReferenceIdeal Cert.ReferenceIdeal.Gen Cert.ReferenceIdeal.Read Idealize.ShloMosaic Idealize.ShloMosaic.ValueIdx
open Cert.Spec Cert.RefLib Cert.LibGatherScatter Cert.ReferenceIdeal.Value Idealize.SL.Sem Idealize.ShloMosaic.TcCoe Idealize.ShloMosaic.StableHlo
variable [hF : Cert.Pre_finite_inputs.Facts]
theorem ref_run (m' : (ℓ : Loc Cert.ReferenceIdeal.nD Cert.ReferenceIdeal.τ Cert.ReferenceIdeal.sig) → Buf (Elt Ideal) ℓ)
    (g' : Dev Cert.ReferenceIdeal.nD → PrngReg) (h : Cert.Pre_ReferenceIdeal m') :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread nD τ).loc main_v226)
          = specArr (m' ((c.tc : Thread nD τ).loc main_arg0)) (m' ((c.tc : Thread nD τ).loc main_arg1))
              (m' ((c.tc : Thread nD τ).loc main_arg2)) (m' ((c.tc : Thread nD τ).loc main_arg3))
              (m' ((c.tc : Thread nD τ).loc main_arg4)) (m' ((c.tc : Thread nD τ).loc main_arg5))
              (m' ((c.tc : Thread nD τ).loc main_arg6)) (m' ((c.tc : Thread nD τ).loc main_arg7))
              (m' ((c.tc : Thread nD τ).loc main_arg8)) (m' ((c.tc : Thread nD τ).loc main_arg9))
              (m' ((c.tc : Thread nD τ).loc main_arg10)) (m' ((c.tc : Thread nD τ).loc main_arg11))
              (m' ((c.tc : Thread nD τ).loc main_arg12))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)
        ∧ r.2.mem ((c.tc : Thread nD τ).loc main_arg5) = m' ((c.tc : Thread nD τ).loc main_arg5)
        ∧ r.2.mem ((c.tc : Thread nD τ).loc main_arg6) = m' ((c.tc : Thread nD τ).loc main_arg6)
        ∧ r.2.mem ((c.tc : Thread nD τ).loc main_arg7) = m' ((c.tc : Thread nD τ).loc main_arg7)
        ∧ r.2.mem ((c.tc : Thread nD τ).loc main_arg8) = m' ((c.tc : Thread nD τ).loc main_arg8)
        ∧ r.2.mem ((c.tc : Thread nD τ).loc main_arg9) = m' ((c.tc : Thread nD τ).loc main_arg9)
        ∧ r.2.mem ((c.tc : Thread nD τ).loc main_arg10) = m' ((c.tc : Thread nD τ).loc main_arg10)
        ∧ r.2.mem ((c.tc : Thread nD τ).loc main_arg11) = m' ((c.tc : Thread nD τ).loc main_arg11)
        ∧ r.2.mem ((c.tc : Thread nD τ).loc main_arg12) = m' ((c.tc : Thread nD τ).loc main_arg12)) :=
  (θ_run (Cert.ReferenceIdeal.defs (F := Ideal)) _ _).mono (fun _ hh c =>
    ⟨(hh c main_v226).trans ((Cert.RefLink.link m' c).trans
        (ref_value_arr _ _ _ _ _ _ _ _ _ _ _ _ _
          (show InRange (m' ((c.tc : Thread nD τ).loc main_arg1)) from Cert.Proof.PreDecode.ref_edge_range m' h c))),
      (hh c main_arg0).trans (Cert.RefLink.arg_keep_all_0 _),
      (hh c main_arg1).trans (Cert.RefLink.arg_keep_all_1 _),
      (hh c main_arg2).trans (Cert.RefLink.arg_keep_all_2 _),
      (hh c main_arg3).trans (Cert.RefLink.arg_keep_all_3 _),
      (hh c main_arg4).trans (Cert.RefLink.arg_keep_all_4 _),
      (hh c main_arg5).trans (Cert.RefLink.arg_keep_all_5 _),
      (hh c main_arg6).trans (Cert.RefLink.arg_keep_all_6 _),
      (hh c main_arg7).trans (Cert.RefLink.arg_keep_all_7 _),
      (hh c main_arg8).trans (Cert.RefLink.arg_keep_all_8 _),
      (hh c main_arg9).trans (Cert.RefLink.arg_keep_all_9 _),
      (hh c main_arg10).trans (Cert.RefLink.arg_keep_all_10 _),
      (hh c main_arg11).trans (Cert.RefLink.arg_keep_all_11 _),
      (hh c main_arg12).trans (Cert.RefLink.arg_keep_all_12 _)⟩)
    (run_after (F := Ideal) m' g')
theorem ref_frame : Cert.frame_ReferenceIdeal :=
  fun m g h => (θ_run (Cert.ReferenceIdeal.defs (F := Ideal)) _ _).mono (fun _ hh c => (hh c).2) (ref_run m g h)
end Cert.RefValue
end
-- ==== Proof.Spec.Algebra.lean ====
import Idealize.ShloMosaic.PureOps.Ideal
import Idealize.ShloMosaic.PureOps.Ideal.Laws
import Mathlib.Algebra.BigOperators.Group.Finset.Basic
import Mathlib.Algebra.BigOperators.Ring.Finset
import Mathlib.Data.EReal.Inv
import Mathlib.Analysis.SpecialFunctions.Exp
namespace Cert.Spec
open Idealize.ShloMosaic
open scoped BigOperators
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem agg_real {ε κ ι : Type*} [Fintype ε] [Fintype κ] [DecidableEq κ] [DecidableEq ι]
    (row : ε → κ) (col : ε → ι) (w : ε → ℝ) (h : κ → ℝ) (i : ι) :
    ∑ k, (∑ e ∈ Finset.univ.filter (fun e => col e = i ∧ row e = k), w e) * h k
      = ∑ e ∈ Finset.univ.filter (fun e => col e = i), w e * h (row e) := by
  rw [← Finset.sum_fiberwise (Finset.univ.filter (fun e => col e = i)) row]
  refine Finset.sum_congr rfl fun k _ => ?_
  rw [Finset.sum_mul, Finset.filter_filter]
  refine Finset.sum_congr rfl fun e he => ?_
  rw [(Finset.mem_filter.mp he).2.2]
theorem agg_dense_coe {ε κ ι : Type*} [Fintype ε] [Fintype κ] [DecidableEq κ] [DecidableEq ι]
    (row : ε → κ) (col : ε → ι) (w : ε → ℝ) (h : κ → ℝ) (i : ι) :
    ∑ k, (∑ e ∈ Finset.univ.filter (fun e => col e = i ∧ row e = k), (w e : EReal)) * (h k : EReal)
      = ((∑ e ∈ Finset.univ.filter (fun e => col e = i), w e * h (row e) : ℝ) : EReal) := by
  simp only [← coe_sum, ← EReal.coe_mul]
  rw [agg_real]
theorem coe_max (a b : ℝ) : ((max a b : ℝ) : EReal) = max (a : EReal) (b : EReal) :=
  EReal.coe_strictMono.monotone.map_max
theorem sup_coe_real {ι : Type*} (s : Finset ι) (hs : s.Nonempty) (f : ι → ℝ) :
    ∃ r : ℝ, s.sup (fun k => (f k : EReal)) = (r : EReal) := by
  classical
  induction hs using Finset.Nonempty.cons_induction with
  | singleton a => exact ⟨f a, by simp⟩
  | cons a s ha hs ih =>
    obtain ⟨r, hr⟩ := ih
    exact ⟨max (f a) r, by rw [Finset.sup_cons, hr, coe_max]⟩
noncomputable def smAvg {π : Type*} (s : Finset π) (x y : π → ℝ) : ℝ :=
  (∑ p ∈ s, Real.exp (x p) * y p) / ∑ p ∈ s, Real.exp (x p)
theorem rescale_sum {π : Type*} (s : Finset π) (x y : π → ℝ) (m m' : ℝ) :
    Real.exp (m - m') * ∑ p ∈ s, Real.exp (x p - m) * y p = ∑ p ∈ s, Real.exp (x p - m') * y p := by
  rw [Finset.mul_sum]
  refine Finset.sum_congr rfl fun p _ => ?_
  rw [← mul_assoc, ← Real.exp_add]
  congr 2; ring
theorem rescale_sum_one {π : Type*} (s : Finset π) (x : π → ℝ) (m m' : ℝ) :
    Real.exp (m - m') * ∑ p ∈ s, Real.exp (x p - m) = ∑ p ∈ s, Real.exp (x p - m') := by
  simpa using rescale_sum s x (fun _ => 1) m m'
theorem smAvg_shift {π : Type*} (s : Finset π) (x y : π → ℝ) (c : ℝ) :
    (∑ p ∈ s, Real.exp (x p - c) * y p) / (∑ p ∈ s, Real.exp (x p - c)) = smAvg s x y := by
  have h1 := rescale_sum s x y 0 c
  have h2 := rescale_sum_one s x 0 c
  simp only [sub_zero] at h1 h2
  rw [← h1, ← h2, smAvg, mul_div_mul_left _ _ (Real.exp_pos _).ne']
theorem sum_exp_pos {π : Type*} (s : Finset π) (hs : s.Nonempty) (x : π → ℝ) :
    0 < ∑ p ∈ s, Real.exp (x p) :=
  Finset.sum_pos (fun _ _ => Real.exp_pos _) hs
theorem div_coe_coe (a : ℝ) {l : ℝ} (hl : l ≠ 0) : Ideal.div (a : EReal) (l : EReal) = ((a / l : ℝ) : EReal) := by
  rw [Ideal.div_coe hl, ← EReal.coe_mul, mul_one_div]
theorem softmax_avg_coe {π : Type*} (s : Finset π) (hs : s.Nonempty) (x y : π → ℝ) (M : ℝ) :
    ∑ p ∈ s, Ideal.div (Ideal.exp ((x p : EReal) - (M : EReal))) (∑ q ∈ s, Ideal.exp ((x q : EReal) - (M : EReal)))
        * (y p : EReal) = ((smAvg s x y : ℝ) : EReal) := by
  have hZ : (∑ q ∈ s, Real.exp (x q - M)) ≠ 0 := (sum_exp_pos s hs _).ne'
  simp only [← EReal.coe_sub, Ideal.exp_coe, ← coe_sum]
  simp only [div_coe_coe _ hZ, ← EReal.coe_mul, ← coe_sum]
  rw [← smAvg_shift s x y M, Finset.sum_div]
  congr 1
  refine Finset.sum_congr rfl fun p _ => ?_
  ring
end Cert.Spec
-- ==== Proof.Spec.RealNet.lean ====
import proofs.«403157_j14328010899645_2_alg».proof.Proof.Spec.KerSpec
import proofs.«403157_j14328010899645_2_alg».proof.Proof.Spec.Algebra
import Mathlib.Analysis.SpecialFunctions.Sqrt
namespace Cert.Spec
open Idealize.ShloMosaic
open scoped BigOperators
noncomputable def degR {n N : ℕ} (col : Fin n → Fin N) (ew : Fin n → ℝ) (i : Fin N) : ℝ :=
  ∑ e ∈ Finset.univ.filter (fun e => col e = i), ew e
noncomputable def dinvR {N : ℕ} (deg : Fin N → ℝ) (i : Fin N) : ℝ :=
  if 0 < deg i then (Real.sqrt (deg i))⁻¹ else 0
noncomputable def normR {n N : ℕ} (row col : Fin n → Fin N) (ew : Fin n → ℝ) (e : Fin n) : ℝ :=
  dinvR (degR col ew) (row e) * ew e * dinvR (degR col ew) (col e)
noncomputable def linR {M K N : ℕ} (x : Fin M → Fin K → ℝ) (w : Fin K → Fin N → ℝ) (b : Fin N → ℝ)
    (i : Fin M) (j : Fin N) : ℝ :=
  (∑ t, x i t * w t j) + b j
noncomputable def gcnR {n N K M : ℕ} (row col : Fin n → Fin N) (nrm : Fin n → ℝ) (x : Fin N → Fin K → ℝ)
    (W : Fin K → Fin M → ℝ) (b : Fin M → ℝ) (i : Fin N) (j : Fin M) : ℝ :=
  (∑ e ∈ Finset.univ.filter (fun e => col e = i), nrm e * linR x W (fun _ => 0) (row e) j) + b j
def headsR (qkv : Fin 4096 → Fin 768 → ℝ) (j : Fin 3) (hd : Fin 4) (l : Fin 4096) (d : Fin 64) : ℝ :=
  qkv l (third j (headCol hd d))
noncomputable def scoreR (q k : Fin 4 → Fin 4096 → Fin 64 → ℝ) (hd : Fin 4) (l m : Fin 4096) : ℝ :=
  (∑ d, q hd l d * k hd m d) * (1 / 8)
noncomputable def attnR (q k v : Fin 4 → Fin 4096 → Fin 64 → ℝ) (hd : Fin 4) (l : Fin 4096) (d : Fin 64) : ℝ :=
  smAvg Finset.univ (scoreR q k hd l) (fun m => v hd m d)
def mergeR (o : Fin 4 → Fin 4096 → Fin 64 → ℝ) (l : Fin 4096) (c : Fin 256) : ℝ :=
  o ⟨c.val / 64, by omega⟩ l ⟨c.val % 64, Nat.mod_lt _ (by norm_num)⟩
noncomputable def qkvR (x : Fin 4096 → Fin 256 → ℝ) (ipw : Fin 768 → Fin 256 → ℝ) (ipb : Fin 768 → ℝ) :
    Fin 4096 → Fin 768 → ℝ :=
  linR x (fun t c => ipw c t) ipb
noncomputable def mhaR (x : Fin 4096 → Fin 256 → ℝ) (ipw : Fin 768 → Fin 256 → ℝ) (ipb : Fin 768 → ℝ)
    (opw : Fin 256 → Fin 256 → ℝ) (opb : Fin 256 → ℝ) : Fin 4096 → Fin 256 → ℝ :=
  linR (mergeR (attnR (headsR (qkvR x ipw ipb) 0) (headsR (qkvR x ipw ipb) 1) (headsR (qkvR x ipw ipb) 2)))
    (fun t c => opw c t) opb
noncomputable def reluR {M N : ℕ} (x : Fin M → Fin N → ℝ) (i : Fin M) (j : Fin N) : ℝ := max (x i j) 0
noncomputable def NetR (x : Fin 4096 → Fin 256 → ℝ) (row col : Fin 266240 → Fin 4096) (ew : Fin 266240 → ℝ)
    (W1 : Fin 256 → Fin 256 → ℝ) (b1 : Fin 256 → ℝ) (W2 : Fin 256 → Fin 256 → ℝ) (b2 : Fin 256 → ℝ)
    (W3 : Fin 256 → Fin 128 → ℝ) (b3 : Fin 128 → ℝ)
    (ipw : Fin 768 → Fin 256 → ℝ) (ipb : Fin 768 → ℝ) (opw : Fin 256 → Fin 256 → ℝ) (opb : Fin 256 → ℝ)
    (i : Fin 4096) (j : Fin 128) : ℝ :=
  (1 + Real.exp (-(gcnR row col (normR row col ew)
      (reluR (mhaR
        (gcnR row col (normR row col ew)
          (reluR (mhaR (gcnR row col (normR row col ew) x W1 b1) ipw ipb opw opb))
          W2 b2)
        ipw ipb opw opb))
      W3 b3 i j)))⁻¹
end Cert.Spec
-- ==== Proof.Spec.FlashLaw.lean ====
import proofs.«403157_j14328010899645_2_alg».proof.Proof.Spec.Flash
import proofs.«403157_j14328010899645_2_alg».proof.Proof.Spec.Algebra
namespace Cert.Spec
open Idealize.ShloMosaic
open scoped BigOperators
theorem flashStep_coe {bk D : ℕ} [NeZero bk] (sb : Fin bk → ℝ) (vb : Fin bk → Fin D → ℝ) (m l : ℝ) (a : Fin D → ℝ) :
    ∃ m' : ℝ, flashStep (fun t => (sb t : EReal)) (fun t d => (vb t d : EReal)) ⟨(m : EReal), (l : EReal), fun d => (a d : EReal)⟩
      = ⟨(m' : EReal), ((Real.exp (m - m') * l + ∑ t, Real.exp (sb t - m') : ℝ) : EReal),
          fun d => ((Real.exp (m - m') * a d + ∑ t, Real.exp (sb t - m') * vb t d : ℝ) : EReal)⟩ := by
  obtain ⟨r, hr⟩ := sup_coe_real (Finset.univ : Finset (Fin bk)) Finset.univ_nonempty sb
  refine ⟨max m r, ?_⟩
  simp only [flashStep, hr, ← coe_max, ← EReal.coe_sub, Ideal.exp_coe, ← EReal.coe_mul, ← coe_sum, ← EReal.coe_add]
theorem flashStep_init {bk D : ℕ} [NeZero bk] (sb : Fin bk → ℝ) (vb : Fin bk → Fin D → ℝ) :
    ∃ m' : ℝ, flashStep (fun t => (sb t : EReal)) (fun t d => (vb t d : EReal)) (flashInit D)
      = ⟨(m' : EReal), ((∑ t, Real.exp (sb t - m') : ℝ) : EReal),
          fun d => ((∑ t, Real.exp (sb t - m') * vb t d : ℝ) : EReal)⟩ := by
  obtain ⟨r, hr⟩ := sup_coe_real (Finset.univ : Finset (Fin bk)) Finset.univ_nonempty sb
  refine ⟨r, ?_⟩
  simp only [flashStep, flashInit, hr, bot_le, max_eq_right, EReal.bot_sub, Ideal.exp_bot, zero_mul, zero_add,
    ← EReal.coe_sub, Ideal.exp_coe, ← EReal.coe_mul, ← coe_sum]
theorem flashFold_succ_real {bk D : ℕ} [NeZero bk] (sr : ℕ → Fin bk → ℝ) (vr : ℕ → Fin bk → Fin D → ℝ) (n : ℕ) :
    ∃ m : ℝ, flashFold (fun j t => (sr j t : EReal)) (fun j t d => (vr j t d : EReal)) (n + 1)
      = ⟨(m : EReal), ((∑ p ∈ Finset.range (n + 1) ×ˢ (Finset.univ : Finset (Fin bk)), Real.exp (sr p.1 p.2 - m) : ℝ) : EReal),
          fun d => ((∑ p ∈ Finset.range (n + 1) ×ˢ (Finset.univ : Finset (Fin bk)), Real.exp (sr p.1 p.2 - m) * vr p.1 p.2 d : ℝ) : EReal)⟩ := by
  induction n with
  | zero =>
    obtain ⟨m, hm⟩ := flashStep_init (sr 0) (vr 0) (D := D)
    refine ⟨m, ?_⟩
    show flashStep _ _ (flashInit D) = _
    rw [hm]
    simp [Finset.sum_product]
  | succ n ih =>
    obtain ⟨m, hm⟩ := ih
    obtain ⟨m', hm'⟩ := flashStep_coe (sr (n + 1)) (vr (n + 1)) m
      (∑ p ∈ Finset.range (n + 1) ×ˢ (Finset.univ : Finset (Fin bk)), Real.exp (sr p.1 p.2 - m))
      (fun d => ∑ p ∈ Finset.range (n + 1) ×ˢ (Finset.univ : Finset (Fin bk)), Real.exp (sr p.1 p.2 - m) * vr p.1 p.2 d)
    refine ⟨m', ?_⟩
    show flashStep _ _ (flashFold _ _ (n + 1)) = _
    rw [hm, hm']
    have hsplit : ∀ f : ℕ × Fin bk → ℝ,
        ∑ p ∈ Finset.range (n + 1 + 1) ×ˢ (Finset.univ : Finset (Fin bk)), f p
          = ∑ p ∈ Finset.range (n + 1) ×ˢ (Finset.univ : Finset (Fin bk)), f p + ∑ t, f (n + 1, t) := by
      intro f
      rw [Finset.sum_product, Finset.sum_range_succ, ← Finset.sum_product]
    congr 1
    · rw [hsplit, rescale_sum_one]
    · funext d
      rw [hsplit, rescale_sum]
theorem flashOut_succ {bk D : ℕ} [NeZero bk] (sr : ℕ → Fin bk → ℝ) (vr : ℕ → Fin bk → Fin D → ℝ) (n : ℕ) (d : Fin D) :
    flashOut (n + 1) (fun j t => (sr j t : EReal)) (fun j t d => (vr j t d : EReal)) d
      = ((smAvg (Finset.range (n + 1) ×ˢ (Finset.univ : Finset (Fin bk))) (fun p => sr p.1 p.2) (fun p => vr p.1 p.2 d) : ℝ) : EReal) := by
  obtain ⟨m, hm⟩ := flashFold_succ_real sr vr n
  have hne : (Finset.range (n + 1) ×ˢ (Finset.univ : Finset (Fin bk))).Nonempty :=
    Finset.Nonempty.product Finset.nonempty_range_add_one Finset.univ_nonempty
  rw [flashOut, hm]
  show Ideal.div ((_ : ℝ) : EReal) ((_ : ℝ) : EReal) = _
  rw [div_coe_coe _ (sum_exp_pos _ hne _).ne', smAvg_shift]
end Cert.Spec
-- ==== Proof.Spec.KerReal.lean ====
import proofs.«403157_j14328010899645_2_alg».proof.Proof.Spec.RealNet
import proofs.«403157_j14328010899645_2_alg».proof.Proof.Spec.FlashLaw
namespace Cert.Spec
open Idealize.ShloMosaic
open scoped BigOperators
theorem degOf_coe {n N : ℕ} (col : Fin n → Fin N) (ew : Fin n → ℝ) :
    degOf col (fun e => (ew e : EReal)) = fun i => (degR col ew i : EReal) := by
  funext i; exact (coe_sum _ _).symm
theorem dinvOf_coe {N : ℕ} (deg : Fin N → ℝ) :
    dinvOf (fun i => (deg i : EReal)) = fun i => (dinvR deg i : EReal) := by
  funext i
  unfold dinvOf dinvR
  by_cases h : 0 < deg i
  · rw [if_pos (EReal.coe_pos.mpr h), if_pos h, Ideal.rsqrt_coe, if_neg (not_lt.mpr h.le), if_neg h.ne']
  · rw [if_neg (fun h' => h (EReal.coe_pos.mp h')), if_neg h, EReal.coe_zero]
theorem normOf_coe {n N : ℕ} (row col : Fin n → Fin N) (ew : Fin n → ℝ) :
    normOf row col (fun e => (ew e : EReal)) = fun e => (normR row col ew e : EReal) := by
  funext e
  unfold normOf normR
  rw [degOf_coe, dinvOf_coe, EReal.coe_mul, EReal.coe_mul]
theorem lin_coe {M K N : ℕ} (x : Fin M → Fin K → ℝ) (w : Fin K → Fin N → ℝ) (b : Fin N → ℝ) :
    lin (fun i t => (x i t : EReal)) (fun t j => (w t j : EReal)) (fun j => (b j : EReal))
      = fun i j => (linR x w b i j : EReal) := by
  funext i j
  unfold lin linR
  simp only [← EReal.coe_mul, ← coe_sum, ← EReal.coe_add]
theorem gcnKer_coe {n N K M : ℕ} (row col : Fin n → Fin N) (nrm : Fin n → ℝ) (x : Fin N → Fin K → ℝ)
    (W : Fin K → Fin M → ℝ) (b : Fin M → ℝ) :
    gcnKer (adjOf row col (fun e => (nrm e : EReal))) (fun i t => (x i t : EReal)) (fun t j => (W t j : EReal))
        (fun j => (b j : EReal))
      = fun i j => (gcnR row col nrm x W b i j : EReal) := by
  funext i j
  have h0 : (fun _ : Fin M => (0 : EReal)) = fun j => (((fun _ => 0 : Fin M → ℝ) j : ℝ) : EReal) := by
    funext _; exact EReal.coe_zero.symm
  unfold gcnKer
  rw [h0, lin_coe]
  unfold lin adjOf gcnR
  rw [agg_dense_coe, EReal.coe_add]
theorem headsOf_coe (qkv : Fin 4096 → Fin 768 → ℝ) (j : Fin 3) :
    headsOf (fun l c => (qkv l c : EReal)) j = fun hd l d => (headsR qkv j hd l d : EReal) := rfl
theorem mergeHeads_coe (o : Fin 4 → Fin 4096 → Fin 64 → ℝ) :
    mergeHeads (fun hd l d => (o hd l d : EReal)) = fun l c => (mergeR o l c : EReal) := rfl
theorem sum_blocks (f : Fin 4096 → ℝ) :
    ∑ p ∈ Finset.range 8 ×ˢ (Finset.univ : Finset (Fin 512)), f (keyAt p.1 p.2) = ∑ m, f m := by
  refine Finset.sum_nbij' (fun p => keyAt p.1 p.2)
    (fun m => (m.val / 512, ⟨m.val % 512, Nat.mod_lt _ (by norm_num)⟩)) ?_ ?_ ?_ ?_ ?_
  · intro p _; exact Finset.mem_univ _
  · intro m _
    have := m.isLt
    simp only [Finset.mem_product, Finset.mem_range, Finset.mem_univ, and_true]
    omega
  · rintro ⟨kb, t⟩ hp
    have hkb : kb < 8 := by simpa using hp
    have := t.isLt
    simp only [keyAt, Prod.mk.injEq]
    refine ⟨by omega, Fin.ext ?_⟩
    simp only
    omega
  · intro m _
    have := m.isLt
    simp only [keyAt]
    refine Fin.ext ?_
    simp only
    omega
  · intro p _; rfl
theorem attnKer_coe (q k v : Fin 4 → Fin 4096 → Fin 64 → ℝ) :
    attnKer (fun hd l d => (q hd l d : EReal)) (fun hd l d => (k hd l d : EReal)) (fun hd l d => (v hd l d : EReal))
      = fun hd l d => (attnR q k v hd l d : EReal) := by
  funext hd l d
  have hs : scoreKer (fun hd l d => (q hd l d : EReal)) (fun hd l d => (k hd l d : EReal)) hd l
      = fun kb t => (scoreR q k hd l (keyAt kb t) : EReal) := by
    funext kb t
    unfold scoreKer scoreR
    simp only [← EReal.coe_mul, ← coe_sum]
  unfold attnKer
  rw [hs, flashOut_succ (fun kb t => scoreR q k hd l (keyAt kb t)) (fun kb t d' => v hd (keyAt kb t) d') 7 d]
  unfold attnR smAvg
  rw [sum_blocks (fun m => Real.exp (scoreR q k hd l m) * v hd m d), sum_blocks (fun m => Real.exp (scoreR q k hd l m))]
theorem mhaKer_coe (x : Fin 4096 → Fin 256 → ℝ) (ipw : Fin 768 → Fin 256 → ℝ) (ipb : Fin 768 → ℝ)
    (opw : Fin 256 → Fin 256 → ℝ) (opb : Fin 256 → ℝ) :
    mhaKer (fun i t => (x i t : EReal)) (fun c t => (ipw c t : EReal)) (fun c => (ipb c : EReal))
        (fun c t => (opw c t : EReal)) (fun c => (opb c : EReal))
      = fun i j => (mhaR x ipw ipb opw opb i j : EReal) := by
  unfold mhaKer mhaR qkvOf
  rw [lin_coe x (fun t c => ipw c t) ipb]
  simp only [headsOf_coe]
  rw [attnKer_coe, mergeHeads_coe, lin_coe _ (fun t c => opw c t) opb]
  rfl
theorem reluOf_coe {M N : ℕ} (x : Fin M → Fin N → ℝ) :
    reluOf (fun i j => (x i j : EReal)) = fun i j => (reluR x i j : EReal) := by
  funext i j
  unfold reluOf reluR
  rw [coe_max, EReal.coe_zero]
theorem KerSpec_coe (x : Fin 4096 → Fin 256 → ℝ) (row col : Fin 266240 → Fin 4096) (ew : Fin 266240 → ℝ)
    (W1 : Fin 256 → Fin 256 → ℝ) (b1 : Fin 256 → ℝ) (W2 : Fin 256 → Fin 256 → ℝ) (b2 : Fin 256 → ℝ)
    (W3 : Fin 256 → Fin 128 → ℝ) (b3 : Fin 128 → ℝ)
    (ipw : Fin 768 → Fin 256 → ℝ) (ipb : Fin 768 → ℝ) (opw : Fin 256 → Fin 256 → ℝ) (opb : Fin 256 → ℝ)
    (i : Fin 4096) (j : Fin 128) :
    KerSpec (fun i t => (x i t : EReal)) row col (fun e => (ew e : EReal))
        (fun t j => (W1 t j : EReal)) (fun j => (b1 j : EReal)) (fun t j => (W2 t j : EReal)) (fun j => (b2 j : EReal))
        (fun t j => (W3 t j : EReal)) (fun j => (b3 j : EReal))
        (fun c t => (ipw c t : EReal)) (fun c => (ipb c : EReal)) (fun c t => (opw c t : EReal)) (fun c => (opb c : EReal)) i j
      = (NetR x row col ew W1 b1 W2 b2 W3 b3 ipw ipb opw opb i j : EReal) := by
  unfold KerSpec NetR
  rw [normOf_coe]
  simp only [gcnKer_coe, mhaKer_coe, reluOf_coe]
  rw [Ideal.logistic_coe]
end Cert.Spec
-- ==== Proof.Spec.Bridge.lean ====
import proofs.«403157_j14328010899645_2_alg».proof.Proof.Spec.RefSpec
import proofs.«403157_j14328010899645_2_alg».proof.Proof.Spec.KerReal
namespace Cert.Spec
open Idealize.ShloMosaic
open scoped BigOperators
theorem gcnRef_coe {n N K M : ℕ} (row col : Fin n → Fin N) (nrm : Fin n → ℝ) (x : Fin N → Fin K → ℝ)
    (W : Fin K → Fin M → ℝ) (b : Fin M → ℝ) :
    gcnRef row col (fun e => (nrm e : EReal)) (fun i t => (x i t : EReal)) (fun t j => (W t j : EReal))
        (fun j => (b j : EReal))
      = fun i j => (gcnR row col nrm x W b i j : EReal) := by
  funext i j
  unfold gcnRef gcnR linR
  simp only [← EReal.coe_mul, ← coe_sum, ← EReal.coe_add, add_zero]
theorem scoreRef_coe (q k : Fin 4 → Fin 4096 → Fin 64 → ℝ) (hd : Fin 4) (l : Fin 4096) :
    scoreRef (fun hd l d => (q hd l d : EReal)) (fun hd l d => (k hd l d : EReal)) hd l
      = fun m => (scoreR q k hd l m : EReal) := by
  funext m
  have h8 : (8 : EReal) = ((8 : ℝ) : EReal) := by norm_cast
  unfold scoreRef scoreR
  rw [h8, Ideal.div_coe (by norm_num : (8 : ℝ) ≠ 0)]
  simp only [← EReal.coe_mul, ← coe_sum]
theorem attnRef_coe (q k v : Fin 4 → Fin 4096 → Fin 64 → ℝ) :
    attnRef (fun hd l d => (q hd l d : EReal)) (fun hd l d => (k hd l d : EReal)) (fun hd l d => (v hd l d : EReal))
      = fun hd l d => (attnR q k v hd l d : EReal) := by
  funext hd l d
  obtain ⟨M, hM⟩ := sup_coe_real (Finset.univ : Finset (Fin 4096)) Finset.univ_nonempty (scoreR q k hd l)
  unfold attnRef softmaxOf
  rw [scoreRef_coe]
  simp only [hM]
  exact softmax_avg_coe Finset.univ Finset.univ_nonempty (scoreR q k hd l) (fun m => v hd m d) M
theorem mhaRef_coe (x : Fin 4096 → Fin 256 → ℝ) (ipw : Fin 768 → Fin 256 → ℝ) (ipb : Fin 768 → ℝ)
    (opw : Fin 256 → Fin 256 → ℝ) (opb : Fin 256 → ℝ) :
    mhaRef (fun i t => (x i t : EReal)) (fun c t => (ipw c t : EReal)) (fun c => (ipb c : EReal))
        (fun c t => (opw c t : EReal)) (fun c => (opb c : EReal))
      = fun i j => (mhaR x ipw ipb opw opb i j : EReal) := by
  unfold mhaRef mhaR qkvOf
  rw [lin_coe x (fun t c => ipw c t) ipb]
  simp only [headsOf_coe]
  rw [attnRef_coe, mergeHeads_coe, lin_coe _ (fun t c => opw c t) opb]
  rfl
theorem RefSpec_coe (x : Fin 4096 → Fin 256 → ℝ) (row col : Fin 266240 → Fin 4096) (ew : Fin 266240 → ℝ)
    (W1 : Fin 256 → Fin 256 → ℝ) (b1 : Fin 256 → ℝ) (W2 : Fin 256 → Fin 256 → ℝ) (b2 : Fin 256 → ℝ)
    (W3 : Fin 256 → Fin 128 → ℝ) (b3 : Fin 128 → ℝ)
    (ipw : Fin 768 → Fin 256 → ℝ) (ipb : Fin 768 → ℝ) (opw : Fin 256 → Fin 256 → ℝ) (opb : Fin 256 → ℝ)
    (i : Fin 4096) (j : Fin 128) :
    RefSpec (fun i t => (x i t : EReal)) row col (fun e => (ew e : EReal))
        (fun t j => (W1 t j : EReal)) (fun j => (b1 j : EReal)) (fun t j => (W2 t j : EReal)) (fun j => (b2 j : EReal))
        (fun t j => (W3 t j : EReal)) (fun j => (b3 j : EReal))
        (fun c t => (ipw c t : EReal)) (fun c => (ipb c : EReal)) (fun c t => (opw c t : EReal)) (fun c => (opb c : EReal)) i j
      = (NetR x row col ew W1 b1 W2 b2 W3 b3 ipw ipb opw opb i j : EReal) := by
  unfold RefSpec NetR
  rw [normOf_coe]
  simp only [gcnRef_coe, mhaRef_coe, reluOf_coe]
  rw [Ideal.logistic_coe]
theorem spec_eq_coe (x : Fin 4096 → Fin 256 → ℝ) (row col : Fin 266240 → Fin 4096) (ew : Fin 266240 → ℝ)
    (W1 : Fin 256 → Fin 256 → ℝ) (b1 : Fin 256 → ℝ) (W2 : Fin 256 → Fin 256 → ℝ) (b2 : Fin 256 → ℝ)
    (W3 : Fin 256 → Fin 128 → ℝ) (b3 : Fin 128 → ℝ)
    (ipw : Fin 768 → Fin 256 → ℝ) (ipb : Fin 768 → ℝ) (opw : Fin 256 → Fin 256 → ℝ) (opb : Fin 256 → ℝ) :
    KerSpec (fun i t => (x i t : EReal)) row col (fun e => (ew e : EReal))
        (fun t j => (W1 t j : EReal)) (fun j => (b1 j : EReal)) (fun t j => (W2 t j : EReal)) (fun j => (b2 j : EReal))
        (fun t j => (W3 t j : EReal)) (fun j => (b3 j : EReal))
        (fun c t => (ipw c t : EReal)) (fun c => (ipb c : EReal)) (fun c t => (opw c t : EReal)) (fun c => (opb c : EReal))
      = RefSpec (fun i t => (x i t : EReal)) row col (fun e => (ew e : EReal))
        (fun t j => (W1 t j : EReal)) (fun j => (b1 j : EReal)) (fun t j => (W2 t j : EReal)) (fun j => (b2 j : EReal))
        (fun t j => (W3 t j : EReal)) (fun j => (b3 j : EReal))
        (fun c t => (ipw c t : EReal)) (fun c => (ipb c : EReal)) (fun c t => (opw c t : EReal)) (fun c => (opb c : EReal)) := by
  funext i j
  rw [KerSpec_coe, RefSpec_coe]
theorem exists_real_of_finite₁ {α : Type*} (f : α → EReal) (h : ∀ a, f a ≠ ⊥ ∧ f a ≠ ⊤) :
    ∃ g : α → ℝ, f = fun a => (g a : EReal) :=
  ⟨fun a => (f a).toReal, funext fun a => (EReal.coe_toReal (h a).2 (h a).1).symm⟩
theorem exists_real_of_finite₂ {α β : Type*} (f : α → β → EReal) (h : ∀ a b, f a b ≠ ⊥ ∧ f a b ≠ ⊤) :
    ∃ g : α → β → ℝ, f = fun a b => (g a b : EReal) :=
  ⟨fun a b => (f a b).toReal, funext fun a => funext fun b => (EReal.coe_toReal (h a b).2 (h a b).1).symm⟩
theorem extW_finite (w : Fin 262144 → EReal) (h : ∀ e, w e ≠ ⊥ ∧ w e ≠ ⊤) (e : Fin 266240) :
    extW w e ≠ ⊥ ∧ extW w e ≠ ⊤ := by
  unfold extW
  split
  · exact h _
  · exact ⟨EReal.coe_ne_bot 1, EReal.coe_ne_top 1⟩
theorem spec_eq (x : Fin 4096 → Fin 256 → EReal) (row col : Fin 266240 → Fin 4096) (ew : Fin 266240 → EReal)
    (W1 : Fin 256 → Fin 256 → EReal) (b1 : Fin 256 → EReal) (W2 : Fin 256 → Fin 256 → EReal) (b2 : Fin 256 → EReal)
    (W3 : Fin 256 → Fin 128 → EReal) (b3 : Fin 128 → EReal)
    (ipw : Fin 768 → Fin 256 → EReal) (ipb : Fin 768 → EReal) (opw : Fin 256 → Fin 256 → EReal) (opb : Fin 256 → EReal)
    (hx : ∀ a b, x a b ≠ ⊥ ∧ x a b ≠ ⊤) (hew : ∀ e, ew e ≠ ⊥ ∧ ew e ≠ ⊤)
    (hW1 : ∀ a b, W1 a b ≠ ⊥ ∧ W1 a b ≠ ⊤) (hb1 : ∀ a, b1 a ≠ ⊥ ∧ b1 a ≠ ⊤)
    (hW2 : ∀ a b, W2 a b ≠ ⊥ ∧ W2 a b ≠ ⊤) (hb2 : ∀ a, b2 a ≠ ⊥ ∧ b2 a ≠ ⊤)
    (hW3 : ∀ a b, W3 a b ≠ ⊥ ∧ W3 a b ≠ ⊤) (hb3 : ∀ a, b3 a ≠ ⊥ ∧ b3 a ≠ ⊤)
    (hipw : ∀ a b, ipw a b ≠ ⊥ ∧ ipw a b ≠ ⊤) (hipb : ∀ a, ipb a ≠ ⊥ ∧ ipb a ≠ ⊤)
    (hopw : ∀ a b, opw a b ≠ ⊥ ∧ opw a b ≠ ⊤) (hopb : ∀ a, opb a ≠ ⊥ ∧ opb a ≠ ⊤) :
    KerSpec x row col ew W1 b1 W2 b2 W3 b3 ipw ipb opw opb = RefSpec x row col ew W1 b1 W2 b2 W3 b3 ipw ipb opw opb := by
  obtain ⟨x, rfl⟩ := exists_real_of_finite₂ x hx
  obtain ⟨ew, rfl⟩ := exists_real_of_finite₁ ew hew
  obtain ⟨W1, rfl⟩ := exists_real_of_finite₂ W1 hW1
  obtain ⟨b1, rfl⟩ := exists_real_of_finite₁ b1 hb1
  obtain ⟨W2, rfl⟩ := exists_real_of_finite₂ W2 hW2
  obtain ⟨b2, rfl⟩ := exists_real_of_finite₁ b2 hb2
  obtain ⟨W3, rfl⟩ := exists_real_of_finite₂ W3 hW3
  obtain ⟨b3, rfl⟩ := exists_real_of_finite₁ b3 hb3
  obtain ⟨ipw, rfl⟩ := exists_real_of_finite₂ ipw hipw
  obtain ⟨ipb, rfl⟩ := exists_real_of_finite₁ ipb hipb
  obtain ⟨opw, rfl⟩ := exists_real_of_finite₂ opw hopw
  obtain ⟨opb, rfl⟩ := exists_real_of_finite₁ opb hopb
  exact spec_eq_coe x row col ew W1 b1 W2 b2 W3 b3 ipw ipb opw opb
end Cert.Spec
-- ==== Proof.SpecOfPre.lean ====
import proofs.«403157_j14328010899645_2_alg».proof.Proof.PreDecode
import proofs.«403157_j14328010899645_2_alg».proof.Proof.Spec.Bridge
namespace Cert.Proof.SpecOfPre
open Idealize.ShloMosaic Idealize.ShloMosaic.ValueIdx
open Cert.Pre_finite_inputs
theorem finite_of_real {x : EReal} (h : ∃ r : ℝ, x = (r : EReal)) : x ≠ ⊥ ∧ x ≠ ⊤ := by
  obtain ⟨r, rfl⟩ := h
  exact ⟨EReal.coe_ne_bot r, EReal.coe_ne_top r⟩
theorem spec_eq_of_decoded (a0 : FVec Ideal S4096x256 .f32) (a1 : IVec S2x262144 32) (a2 : FVec Ideal S262144 .f32)
    (a3 : FVec Ideal S256x256 .f32) (a4 : FVec Ideal S256 .f32) (a5 : FVec Ideal S256x256 .f32) (a6 : FVec Ideal S256 .f32)
    (a7 : FVec Ideal S256x128 .f32) (a8 : FVec Ideal S128 .f32) (a9 : FVec Ideal S768x256 .f32) (a10 : FVec Ideal S768 .f32)
    (a11 : FVec Ideal S256x256 .f32) (a12 : FVec Ideal S256 .f32)
    (hd : Cert.Proof.PreDecode.Decoded a0 a1 a2 a3 a4 a5 a6 a7 a8 a9 a10 a11 a12) :
    Cert.Spec.KerSpec (fun i t => a0 (ix2 i t)) (Cert.Spec.extIdx (fun t => a1 (ix2 0 t))) (Cert.Spec.extIdx (fun t => a1 (ix2 1 t)))
        (Cert.Spec.extW (fun t => a2 (ix1 t)))
        (fun t j => a3 (ix2 t j)) (fun j => a4 (ix1 j)) (fun t j => a5 (ix2 t j)) (fun j => a6 (ix1 j))
        (fun t j => a7 (ix2 t j)) (fun j => a8 (ix1 j))
        (fun c t => a9 (ix2 c t)) (fun c => a10 (ix1 c)) (fun c t => a11 (ix2 c t)) (fun c => a12 (ix1 c))
      = Cert.Spec.RefSpec (fun i t => a0 (ix2 i t)) (Cert.Spec.extIdx (fun t => a1 (ix2 0 t))) (Cert.Spec.extIdx (fun t => a1 (ix2 1 t)))
        (Cert.Spec.extW (fun t => a2 (ix1 t)))
        (fun t j => a3 (ix2 t j)) (fun j => a4 (ix1 j)) (fun t j => a5 (ix2 t j)) (fun j => a6 (ix1 j))
        (fun t j => a7 (ix2 t j)) (fun j => a8 (ix1 j))
        (fun c t => a9 (ix2 c t)) (fun c => a10 (ix1 c)) (fun c t => a11 (ix2 c t)) (fun c => a12 (ix1 c)) :=
  Cert.Spec.spec_eq _ _ _ _ _ _ _ _ _ _ _ _ _ _
    (fun _ _ => finite_of_real (hd.f0 _))
    (Cert.Spec.extW_finite _ (fun _ => finite_of_real (hd.f2 _)))
    (fun _ _ => finite_of_real (hd.f3 _)) (fun _ => finite_of_real (hd.f4 _))
    (fun _ _ => finite_of_real (hd.f5 _)) (fun _ => finite_of_real (hd.f6 _))
    (fun _ _ => finite_of_real (hd.f7 _)) (fun _ => finite_of_real (hd.f8 _))
    (fun _ _ => finite_of_real (hd.f9 _)) (fun _ => finite_of_real (hd.f10 _))
    (fun _ _ => finite_of_real (hd.f11 _)) (fun _ => finite_of_real (hd.f12 _))
end Cert.Proof.SpecOfPre
-- ==== Proof.lean ====
import proofs.«403157_j14328010899645_2_alg».proof.Defs
import proofs.«403157_j14328010899645_2_alg».proof.Proof.Gen.Kernel
import proofs.«403157_j14328010899645_2_alg».proof.Proof.Gen.Kernel.Skeleton
import proofs.«403157_j14328010899645_2_alg».proof.Proof.Gen.Kernel.Launch
import proofs.«403157_j14328010899645_2_alg».proof.Proof.Gen.Kernel.Regions
import proofs.«403157_j14328010899645_2_alg».proof.Proof.Gen.Kernel.Points
import proofs.«403157_j14328010899645_2_alg».proof.Proof.Gen.KernelIdeal
import proofs.«403157_j14328010899645_2_alg».proof.Proof.Gen.KernelIdeal.Skeleton
import proofs.«403157_j14328010899645_2_alg».proof.Proof.Gen.KernelIdeal.Launch
import proofs.«403157_j14328010899645_2_alg».proof.Proof.Gen.KernelIdeal.Regions
import proofs.«403157_j14328010899645_2_alg».proof.Proof.Gen.KernelIdeal.Points
import proofs.«403157_j14328010899645_2_alg».proof.Proof.Gen.ReferenceIdeal
import proofs.«403157_j14328010899645_2_alg».proof.Proof.Gen.Pre_finite_inputs
import proofs.«403157_j14328010899645_2_alg».proof.Proof.Bits.RunMain
import proofs.«403157_j14328010899645_2_alg».proof.Proof.Ideal.RunMain
import proofs.«403157_j14328010899645_2_alg».proof.Proof.Ideal.KerValue
import proofs.«403157_j14328010899645_2_alg».proof.Proof.RefValue.Run
import proofs.«403157_j14328010899645_2_alg».proof.Proof.SpecOfPre
import proofs.«403157_j14328010899645_2_alg».proof.Proof.PreDecode
import Idealize.ShloMosaic.Adequacy
import Idealize.ShloMosaic.Init
noncomputable section
namespace Cert.Proof
open Idealize.ShloMosaic Idealize.SL.Sem Idealize.ShloMosaic.ValueIdx
theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := Cert.RefValue.ref_frame
theorem preserves : Cert.preserves_Kernel_KernelIdeal := trivial
theorem pre_ref (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.Pre_ReferenceIdeal m' := fun c => by
  obtain ⟨h0, h1, h2, h3, h4, h5, h6, h7, h8, h9, h10, h11, h12⟩ := hagree c
  have hp := hpre c
  rw [h0, h1, h2, h3, h4, h5, h6, h7, h8, h9, h10, h11, h12]
  exact hp
theorem algebraic : Cert.algebraic_KernelIdeal_ReferenceIdeal := by
  intro m g m' g' hpre hagree
  have hpre' : Cert.Pre_ReferenceIdeal m' := pre_ref m m' hpre hagree
  refine ⟨fun c => Cert.RefValue.specArr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)), ?_,
    Cert.RefValue.ref_run m' g' hpre'⟩
  refine Cert.KernelIdeal.Hand.run_post m g (fun s h c => ?_)
  obtain ⟨h0, h1, h2, h3, h4, h5, h6, h7, h8, h9, h10, h11, h12⟩ := hagree c
  refine ⟨?_, (h c _ (Cert.KernelIdeal.Hand.mem_uc Cert.KernelIdeal.main_arg0 (by decide))).trans (Cert.KernelIdeal.Hand.W26_main_arg0 m g c),
    (h c _ (Cert.KernelIdeal.Hand.mem_uc Cert.KernelIdeal.main_arg1 (by decide))).trans (Cert.KernelIdeal.Hand.W26_main_arg1 m g c),
    (h c _ (Cert.KernelIdeal.Hand.mem_uc Cert.KernelIdeal.main_arg2 (by decide))).trans (Cert.KernelIdeal.Hand.W26_main_arg2 m g c),
    (h c _ (Cert.KernelIdeal.Hand.mem_uc Cert.KernelIdeal.main_arg3 (by decide))).trans (Cert.KernelIdeal.Hand.W26_main_arg3 m g c),
    (h c _ (Cert.KernelIdeal.Hand.mem_uc Cert.KernelIdeal.main_arg4 (by decide))).trans (Cert.KernelIdeal.Hand.W26_main_arg4 m g c),
    (h c _ (Cert.KernelIdeal.Hand.mem_uc Cert.KernelIdeal.main_arg5 (by decide))).trans (Cert.KernelIdeal.Hand.W26_main_arg5 m g c),
    (h c _ (Cert.KernelIdeal.Hand.mem_uc Cert.KernelIdeal.main_arg6 (by decide))).trans (Cert.KernelIdeal.Hand.W26_main_arg6 m g c),
    (h c _ (Cert.KernelIdeal.Hand.mem_uc Cert.KernelIdeal.main_arg7 (by decide))).trans (Cert.KernelIdeal.Hand.W26_main_arg7 m g c),
    (h c _ (Cert.KernelIdeal.Hand.mem_uc Cert.KernelIdeal.main_arg8 (by decide))).trans (Cert.KernelIdeal.Hand.W26_main_arg8 m g c),
    (h c _ (Cert.KernelIdeal.Hand.mem_uc Cert.KernelIdeal.main_arg9 (by decide))).trans (Cert.KernelIdeal.Hand.W26_main_arg9 m g c),
    (h c _ (Cert.KernelIdeal.Hand.mem_uc Cert.KernelIdeal.main_arg10 (by decide))).trans (Cert.KernelIdeal.Hand.W26_main_arg10 m g c),
    (h c _ (Cert.KernelIdeal.Hand.mem_uc Cert.KernelIdeal.main_arg11 (by decide))).trans (Cert.KernelIdeal.Hand.W26_main_arg11 m g c),
    (h c _ (Cert.KernelIdeal.Hand.mem_uc Cert.KernelIdeal.main_arg12 (by decide))).trans (Cert.KernelIdeal.Hand.W26_main_arg12 m g c)⟩
  dsimp only
  rw [h0, h1, h2, h3, h4, h5, h6, h7, h8, h9, h10, h11, h12]
  refine (h c _ (Cert.KernelIdeal.Hand.mem_uc Cert.KernelIdeal.main_v93 (by decide))).trans ?_
  funext idx
  obtain ⟨i, j, rfl⟩ : ∃ (i : Fin 4096) (j : Fin 128), idx = ix2 i j := ⟨idx 0, idx 1, eq_ix2 idx⟩
  refine (Cert.KernelIdeal.Hand.ker_value m g c (Cert.Proof.PreDecode.edge_range m hpre c) i j).trans ?_
  exact congrFun (congrFun (Cert.Proof.SpecOfPre.spec_eq_of_decoded _ _ _ _ _ _ _ _ _ _ _ _ _
    (Cert.Proof.PreDecode.decoded m hpre c)) i) j
theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩
end Cert.Proof
end
